-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "fold_c_268435456_13421773" .f32 0x41A00000#32 ((268435456 / 13421773 : ℝ) : EReal)
  ∧ IdealRules.named_const.Statement Cert.KernelIdeal.κ "fold_c_268435456_13421773" .f32 0x41A00000#32 ((268435456 / 13421773 : ℝ) : EReal)
  ∧ IdealRules.named_const.Statement Cert.KernelIdeal.κ "fold_c_268435456_13421773" .f32 0x41A00000#32 ((268435456 / 13421773 : ℝ) : EReal)
  ∧ IdealRules.named_const.Statement Cert.KernelIdeal.κ "fold_c_268435456_13421773" .f32 0x41A00000#32 ((268435456 / 13421773 : ℝ) : EReal)
  ∧ IdealRules.named_const.Statement Cert.KernelIdeal.κ "fold_c_268435456_13421773" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v395) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S500000x64 : Shape := ⟨2, ![500000, 64]⟩
abbrev S16384 : Shape := ⟨1, ![16384]⟩
abbrev S256x64 : Shape := ⟨2, ![256, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S500000x64 : S_.BroadcastsInDim S500000x64 (![] : Fin 0 → Fin S500000x64.rank)
  reducesTo_S500000x64_S_d0_1 : S500000x64.ReducesTo [0, 1] S_
  bcast_S_S256x64 : S_.BroadcastsInDim S256x64 (![] : Fin 0 → Fin S256x64.rank)
  reducesTo_S256x64_S_d0_1 : S256x64.ReducesTo [0, 1] S_
  reducesTo_S_S_d : S_.ReducesTo [] S_
  bcast_S_S16384 : S_.BroadcastsInDim S16384 (![] : Fin 0 → Fin S16384.rank)
  reducesTo_S16384_S_d0 : S16384.ReducesTo [0] S_

variable [Facts]

def fn_part2 {F : FTy → Type} [FloatOps F] (main_arg4 : IVec S16384 32) (main_arg5 : IVec S16384 32) (main_v32 : IVec S_ 1) (main_c_12 : IVec S_ 32) : IVec S_ 1 :=
  let main_v33 : IVec S16384 32 := broadcastInDim S16384 ![] bcast_S_S16384 main_c_12
  let main_v34 : IVec S16384 1 := cmpi .sge main_arg4 main_v33
  let main_c_13 : IVec S_ 32 := constantI S_ 32 1000000#32
  let main_v35 : IVec S16384 32 := broadcastInDim S16384 ![] bcast_S_S16384 main_c_13
  let main_v36 : IVec S16384 1 := cmpi .slt main_arg4 main_v35
  let main_v37 : IVec S16384 1 := andi main_v34 main_v36
  let main_c_14 : IVec S_ 1 := constantI S_ 1 1#1
  let main_v38 : IVec S_ 1 := (fun x v => Host.reduce IntOp.andi x v reducesTo_S16384_S_d0 h_S_) main_v37 main_c_14
  let main_v39 : IVec S_ 1 := andi main_v32 main_v38
  let main_c_15 : IVec S_ 32 := constantI S_ 32 0#32
  let main_v40 : IVec S16384 32 := broadcastInDim S16384 ![] bcast_S_S16384 main_c_15
  let main_v41 : IVec S16384 1 := cmpi .sge main_arg5 main_v40
  let main_c_16 : IVec S_ 32 := constantI S_ 32 500000#32
  let main_v42 : IVec S16384 32 := broadcastInDim S16384 ![] bcast_S_S16384 main_c_16
  let main_v43 : IVec S16384 1 := cmpi .slt main_arg5 main_v42
  let main_v44 : IVec S16384 1 := andi main_v41 main_v43
  let main_c_17 : IVec S_ 1 := constantI S_ 1 1#1
  let main_v45 : IVec S_ 1 := (fun x v => Host.reduce IntOp.andi x v reducesTo_S16384_S_d0 h_S_) main_v44 main_c_17
  let main_v46 : IVec S_ 1 := andi main_v39 main_v45
  main_v46

def fn_part1 {F : FTy → Type} [FloatOps F] (main_arg4 : IVec S16384 32) (main_arg5 : IVec S16384 32) (main_arg6 : FVec F S256x64 .f32) (main_arg7 : FVec F S256x64 .f32) (main_arg8 : FVec F S_ .f32) (main_v13 : IVec S_ 1) (main_v16 : IVec S500000x64 1) : IVec S_ 1 :=
  let main_c_5 : IVec S_ 1 := constantI S_ 1 1#1
  let main_v17 : IVec S_ 1 := (fun x v => Host.reduce IntOp.andi x v reducesTo_S500000x64_S_d0_1 h_S_) main_v16 main_c_5
  let main_v18 : IVec S_ 1 := andi main_v13 main_v17
  let main_v19 : FVec F S256x64 .f32 := Host.absf main_arg6
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S256x64 .f32 := Host.absf main_arg7
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S_ .f32 := Host.absf main_arg8
  let main_cst_10 : FVec F S_ .f32 := constant S_ .f32 0x7F800000#32
  let main_v30 : IVec S_ 1 := cmpf .olt main_v29 main_cst_10
  let main_c_11 : IVec S_ 1 := constantI S_ 1 1#1
  let main_v31 : IVec S_ 1 := (fun x v => Host.reduce IntOp.andi x v reducesTo_S_S_d h_S_) main_v30 main_c_11
  let main_v32 : IVec S_ 1 := andi main_v28 main_v31
  let main_c_12 : IVec S_ 32 := constantI S_ 32 0#32
  fn_part2 (F := F) main_arg4 main_arg5 main_v32 main_c_12

def fn {F : FTy → Type} [FloatOps F] (main_arg0 : FVec F S1000000x64 .f32) (main_arg1 : FVec F S500000x64 .f32) (main_arg2 : FVec F S500000x64 .f32) (main_arg3 : FVec F S500000x64 .f32) (main_arg4 : IVec S16384 32) (main_arg5 : IVec S16384 32) (main_arg6 : FVec F S256x64 .f32) (main_arg7 : FVec F S256x64 .f32) (main_arg8 : FVec F S_ .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S500000x64 .f32 := Host.absf main_arg1
  let main_cst_0 : FVec F S_ .f32 := constant S_ .f32 0x7F800000#32
  let main_v5 : FVec F S500000x64 .f32 := broadcastInDim S500000x64 ![] bcast_S_S500000x64 main_cst_0
  let main_v6 : IVec S500000x64 1 := cmpf .olt main_v4 main_v5
  let main_c_1 : IVec S_ 1 := constantI S_ 1 1#1
  let main_v7 : IVec S_ 1 := (fun x v => Host.reduce IntOp.andi x v reducesTo_S500000x64_S_d0_1 h_S_) main_v6 main_c_1
  let main_v8 : IVec S_ 1 := andi main_v3 main_v7
  let main_v9 : FVec F S500000x64 .f32 := Host.absf main_arg2
  let main_cst_2 : FVec F S_ .f32 := constant S_ .f32 0x7F800000#32
  let main_v10 : FVec F S500000x64 .f32 := broadcastInDim S500000x64 ![] bcast_S_S500000x64 main_cst_2
  let main_v11 : IVec S500000x64 1 := cmpf .olt main_v9 main_v10
  let main_c_3 : IVec S_ 1 := constantI S_ 1 1#1
  let main_v12 : IVec S_ 1 := (fun x v => Host.reduce IntOp.andi x v reducesTo_S500000x64_S_d0_1 h_S_) main_v11 main_c_3
  let main_v13 : IVec S_ 1 := andi main_v8 main_v12
  let main_v14 : FVec F S500000x64 .f32 := Host.absf main_arg3
  let main_cst_4 : FVec F S_ .f32 := constant S_ .f32 0x7F800000#32
  let main_v15 : FVec F S500000x64 .f32 := broadcastInDim S500000x64 ![] bcast_S_S500000x64 main_cst_4
  let main_v16 : IVec S500000x64 1 := cmpf .olt main_v14 main_v15
  fn_part1 (F := F) main_arg4 main_arg5 main_arg6 main_arg7 main_arg8 main_v13 main_v16
-- ==== Kernel.lean ====
abbrev S1000000x64 : Shape := ⟨2, ![1000000, 64]⟩
abbrev S500000x64 : Shape := ⟨2, ![500000, 64]⟩
abbrev S16384 : Shape := ⟨1, ![16384]⟩
abbrev S256x64 : Shape := ⟨2, ![256, 64]⟩
abbrev S_ : Shape := ⟨0, ![]⟩
abbrev S1x1 : Shape := ⟨2, ![1, 1]⟩
abbrev S256 : Shape := ⟨1, ![256]⟩
abbrev S256x1 : Shape := ⟨2, ![256, 1]⟩
abbrev S64x256 : Shape := ⟨2, ![64, 256]⟩
abbrev S1000000x1x64 : Shape := ⟨3, ![1000000, 1, 64]⟩
abbrev S500000x1x64 : Shape := ⟨3, ![500000, 1, 64]⟩
abbrev S16384x1x64 : Shape := ⟨3, ![16384, 1, 64]⟩
abbrev S1x1x64 : Shape := ⟨3, ![1, 1, 64]⟩
abbrev S1 : Shape := ⟨1, ![1]⟩
abbrev S1x1x1 : Shape := ⟨3, ![1, 1, 1]⟩
abbrev S16384x64 : Shape := ⟨2, ![16384, 64]⟩
abbrev S16384x256 : Shape := ⟨2, ![16384, 256]⟩
abbrev S4096x64 : Shape := ⟨2, ![4096, 64]⟩
abbrev S4096x256 : Shape := ⟨2, ![4096, 256]⟩
abbrev S16384x1 : Shape := ⟨2, ![16384, 1]⟩
abbrev S1x256 : Shape := ⟨2, ![1, 256]⟩
abbrev S2048x256 : Shape := ⟨2, ![2048, 256]⟩
abbrev S2048 : Shape := ⟨1, ![2048]⟩
abbrev S2048x1 : Shape := ⟨2, ![2048, 1]⟩

abbrev nBuf : Space → Nat
  | .hbm => 85
  | .vmem => 107
  | .smem => 2
  | _ => 0

abbrev bufTy : (tb : Table) → Fin (tcTables nBuf tb) → BufTy
  | .hbm, ⟨0, _⟩ => ⟨S1000000x64, .f32⟩
  | .hbm, ⟨1, _⟩ => ⟨S500000x64, .f32⟩
  | .hbm, ⟨2, _⟩ => ⟨S500000x64, .f32⟩
  | .hbm, ⟨3, _⟩ => ⟨S500000x64, .f32⟩
  | .hbm, ⟨4, _⟩ => ⟨S256x64, .f32⟩
  | .hbm, ⟨5, _⟩ => ⟨S256x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x1, .f32⟩
  | .hbm, ⟨14, _⟩ => ⟨S256x64, .f32⟩
  | .hbm, ⟨15, _⟩ => ⟨S_, .f32⟩
  | .hbm, ⟨16, _⟩ => ⟨S256, .f32⟩
  | .hbm, ⟨17, _⟩ => ⟨S256x1, .f32⟩
  | .hbm, ⟨18, _⟩ => ⟨S256x1, .f32⟩
  | .hbm, ⟨19, _⟩ => ⟨S_, .f32⟩
  | .hbm, ⟨20, _⟩ => ⟨S256x1, .f32⟩
  | .hbm, ⟨21, _⟩ => ⟨S256x1, .f32⟩
  | .hbm, ⟨22, _⟩ => ⟨S256x64, .f32⟩
  | .hbm, ⟨23, _⟩ => ⟨S256x64, .f32⟩
  | .hbm, ⟨24, _⟩ => ⟨S256x64, .f32⟩
  | .hbm, ⟨25, _⟩ => ⟨S_, .f32⟩
  | .hbm, ⟨26, _⟩ => ⟨S256, .f32⟩
  | .hbm, ⟨27, _⟩ => ⟨S256x1, .f32⟩
  | .hbm, ⟨28, _⟩ => ⟨S256x1, .f32⟩
  | .hbm, ⟨29, _⟩ => ⟨S_, .f32⟩
  | .hbm, ⟨30, _⟩ => ⟨S256x1, .f32⟩
  | .hbm, ⟨31, _⟩ => ⟨S256x1, .f32⟩
  | .hbm, ⟨32, _⟩ => ⟨S256x64, .f32⟩
  | .hbm, ⟨33, _⟩ => ⟨S256x64, .f32⟩
  | .hbm, ⟨34, _⟩ => ⟨S64x256, .f32⟩
  | .hbm, ⟨35, _⟩ => ⟨S64x256, .f32⟩
  | .hbm, ⟨36, _⟩ => ⟨S1000000x1x64, .f32⟩
  | .hbm, ⟨37, _⟩ => ⟨S500000x1x64, .f32⟩
  | .hbm, ⟨38, _⟩ => ⟨S500000x1x64, .f32⟩
  | .hbm, ⟨39, _⟩ => ⟨S500000x1x64, .f32⟩
  | .hbm, ⟨40, _⟩ => ⟨S16384x1x64, .f32⟩
  | .hbm, ⟨41, _⟩ => ⟨S16384x1x64, .f32⟩
  | .hbm, ⟨42, _⟩ => ⟨S16384x1x64, .f32⟩
  | .hbm, ⟨43, _⟩ => ⟨S16384x1x64, .f32⟩
  | .hbm, ⟨44, _⟩ => ⟨S16384x64, .f32⟩
  | .hbm, ⟨45, _⟩ => ⟨S16384x64, .f32⟩
  | .hbm, ⟨46, _⟩ => ⟨S16384x64, .f32⟩
  | .hbm, ⟨47, _⟩ => ⟨S16384x64, .f32⟩
  | .hbm, ⟨48, _⟩ => ⟨S16384x256, .f32⟩
  | .hbm, ⟨49, _⟩ => ⟨S16384x256, .f32⟩
  | .hbm, ⟨50, _⟩ => ⟨S16384x256, .f32⟩
  | .hbm, ⟨51, _⟩ => ⟨S16384x256, .f32⟩
  | .hbm, ⟨52, _⟩ => ⟨S16384x256, .f32⟩
  | .hbm, ⟨53, _⟩ => ⟨S16384x256, .f32⟩
  | .hbm, ⟨54, _⟩ => ⟨S16384x256, .f32⟩
  | .hbm, ⟨55, _⟩ => ⟨S16384x256, .f32⟩
  | .hbm, ⟨56, _⟩ => ⟨S16384x256, .f32⟩
  | .hbm, ⟨57, _⟩ => ⟨S16384x256, .f32⟩
  | .hbm, ⟨58, _⟩ => ⟨S1x1, .f32⟩
  | .hbm, ⟨59, _⟩ => ⟨S_, .f32⟩
  | .hbm, ⟨60, _⟩ => ⟨S1x1, .f32⟩
  | .hbm, ⟨61, _⟩ => ⟨S_, .f32⟩
  | .hbm, ⟨62, _⟩ => ⟨S1x1, .f32⟩
  | .hbm, ⟨63, _⟩ => ⟨S_, .f32⟩
  | .hbm, ⟨64, _⟩ => ⟨S1x1, .f32⟩
  | .hbm, ⟨65, _⟩ => ⟨S_, .f32⟩
  | .hbm, ⟨66, _⟩ => ⟨S1x1, .f32⟩
  | .hbm, ⟨67, _⟩ => ⟨S_, .f32⟩
  | .hbm, ⟨68, _⟩ => ⟨S1x1, .f32⟩
  | .hbm, ⟨69, _⟩ => ⟨S_, .f32⟩
  | .hbm, ⟨70, _⟩ => ⟨S1x1, .f32⟩
  | .hbm, ⟨71, _⟩ => ⟨S_, .f32⟩
  | .hbm, ⟨72, _⟩ => ⟨S1x1, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .local _ .vmem, ⟨0, _⟩ => ⟨S1x1x64, .f32⟩
  | .local _ .vmem, ⟨1, _⟩ => ⟨S1x1x64, .f32⟩
  | .local _ .vmem, ⟨2, _⟩ => ⟨S1x1x64, .f32⟩
  | .local _ .vmem, ⟨3, _⟩ => ⟨S1x1x64, .f32⟩
  | .local _ .vmem, ⟨4, _⟩ => ⟨S1x1x64, .f32⟩
  | .local _ .vmem, ⟨5, _⟩ => ⟨S1x1x64, .f32⟩
  | .local _ .vmem, ⟨6, _⟩ => ⟨S1x1x64, .f32⟩
  | .local _ .vmem, ⟨7, _⟩ => ⟨S1x1x64, .f32⟩
  | .local _ .vmem, ⟨8, _⟩ => ⟨S1x1x64, .f32⟩
  | .local _ .vmem, ⟨9, _⟩ => ⟨S1x1x64, .f32⟩
  | .local _ .vmem, ⟨10, _⟩ => ⟨S1x1x64, .f32⟩
  | .local _ .vmem, ⟨11, _⟩ => ⟨S1x1x64, .f32⟩
  | .local _ .vmem, ⟨12, _⟩ => ⟨S1x1x64, .f32⟩
  | .local _ .vmem, ⟨13, _⟩ => ⟨S1x1x64, .f32⟩
  | .local _ .vmem, ⟨14, _⟩ => ⟨S1x1x64, .f32⟩
  | .local _ .vmem, ⟨15, _⟩ => ⟨S1x1x64, .f32⟩
  | .local _ .vmem, ⟨16, _⟩ => ⟨S4096x64, .f32⟩
  | .local _ .vmem, ⟨17, _⟩ => ⟨S4096x64, .f32⟩
  | .local _ .vmem, ⟨18, _⟩ => ⟨S64x256, .f32⟩
  | .local _ .vmem, ⟨19, _⟩ => ⟨S4096x256, .f32⟩
  | .local _ .vmem, ⟨20, _⟩ => ⟨S4096x256, .f32⟩
  | .local _ .vmem, ⟨21, _⟩ => ⟨S4096x64, .f32⟩
  | .local _ .vmem, ⟨22, _⟩ => ⟨S4096x64, .f32⟩
  | .local _ .vmem, ⟨23, _⟩ => ⟨S64x256, .f32⟩
  | .local _ .vmem, ⟨24, _⟩ => ⟨S4096x256, .f32⟩
  | .local _ .vmem, ⟨25, _⟩ => ⟨S4096x256, .f32⟩
  | .local _ .vmem, ⟨26, _⟩ => ⟨S4096x64, .f32⟩
  | .local _ .vmem, ⟨27, _⟩ => ⟨S4096x64, .f32⟩
  | .local _ .vmem, ⟨28, _⟩ => ⟨S64x256, .f32⟩
  | .local _ .vmem, ⟨29, _⟩ => ⟨S4096x256, .f32⟩
  | .local _ .vmem, ⟨30, _⟩ => ⟨S4096x256, .f32⟩
  | .local _ .vmem, ⟨31, _⟩ => ⟨S4096x64, .f32⟩
  | .local _ .vmem, ⟨32, _⟩ => ⟨S4096x64, .f32⟩
  | .local _ .vmem, ⟨33, _⟩ => ⟨S64x256, .f32⟩
  | .local _ .vmem, ⟨34, _⟩ => ⟨S4096x256, .f32⟩
  | .local _ .vmem, ⟨35, _⟩ => ⟨S4096x256, .f32⟩
  | .local _ .vmem, ⟨36, _⟩ => ⟨S4096x64, .f32⟩
  | .local _ .vmem, ⟨37, _⟩ => ⟨S4096x64, .f32⟩
  | .local _ .vmem, ⟨38, _⟩ => ⟨S64x256, .f32⟩
  | .local _ .vmem, ⟨39, _⟩ => ⟨S4096x256, .f32⟩
  | .local _ .vmem, ⟨40, _⟩ => ⟨S4096x256, .f32⟩
  | .local _ .vmem, ⟨41, _⟩ => ⟨S16384x256, .f32⟩
  | .local _ .vmem, ⟨42, _⟩ => ⟨S16384x256, .f32⟩
  | .local _ .vmem, ⟨43, _⟩ => ⟨S16384x256, .f32⟩
  | .local _ .vmem, ⟨44, _⟩ => ⟨S16384x256, .f32⟩
  | .local _ .vmem, ⟨45, _⟩ => ⟨S16384x256, .f32⟩
  | .local _ .vmem, ⟨46, _⟩ => ⟨S16384x256, .f32⟩
  | .local _ .vmem, ⟨47, _⟩ => ⟨S16384x256, .f32⟩
  | .local _ .vmem, ⟨48, _⟩ => ⟨S16384x256, .f32⟩
  | .local _ .vmem, ⟨49, _⟩ => ⟨S16384x256, .f32⟩
  | .local _ .vmem, ⟨50, _⟩ => ⟨S16384x256, .f32⟩
  | .local _ .vmem, ⟨51, _⟩ => ⟨S2048x256, .f32⟩
  | .local _ .vmem, ⟨52, _⟩ => ⟨S2048x256, .f32⟩
  | .local _ .vmem, ⟨53, _⟩ => ⟨S2048x256, .f32⟩
  | .local _ .vmem, ⟨54, _⟩ => ⟨S2048x256, .f32⟩
  | .local _ .vmem, ⟨55, _⟩ => ⟨S1x1, .f32⟩
  | .local _ .vmem, ⟨56, _⟩ => ⟨S1x1, .f32⟩
  | .local _ .vmem, ⟨57, _⟩ => ⟨S1x1, .f32⟩
  | .local _ .vmem, ⟨58, _⟩ => ⟨S2048x256, .f32⟩
  | .local _ .vmem, ⟨59, _⟩ => ⟨S2048x256, .f32⟩
  | .local _ .vmem, ⟨60, _⟩ => ⟨S2048x256, .f32⟩
  | .local _ .vmem, ⟨61, _⟩ => ⟨S2048x256, .f32⟩
  | .local _ .vmem, ⟨62, _⟩ => ⟨S1x1, .f32⟩
  | .local _ .vmem, ⟨63, _⟩ => ⟨S1x1, .f32⟩
  | .local _ .vmem, ⟨64, _⟩ => ⟨S1x1, .f32⟩
  | .local _ .vmem, ⟨65, _⟩ => ⟨S2048x256, .f32⟩
  | .local _ .vmem, ⟨66, _⟩ => ⟨S2048x256, .f32⟩
  | .local _ .vmem, ⟨67, _⟩ => ⟨S2048x256, .f32⟩
  | .local _ .vmem, ⟨68, _⟩ => ⟨S2048x256, .f32⟩
  | .local _ .vmem, ⟨69, _⟩ => ⟨S1x1, .f32⟩
  | .local _ .vmem, ⟨70, _⟩ => ⟨S1x1, .f32⟩
  | .local _ .vmem, ⟨71, _⟩ => ⟨S1x1, .f32⟩
  | .local _ .vmem, ⟨72, _⟩ => ⟨S2048x256, .f32⟩
  | .local _ .vmem, ⟨73, _⟩ => ⟨S2048x256, .f32⟩
  | .local _ .vmem, ⟨74, _⟩ => ⟨S2048x256, .f32⟩
  | .local _ .vmem, ⟨75, _⟩ => ⟨S2048x256, .f32⟩
  | .local _ .vmem, ⟨76, _⟩ => ⟨S1x1, .f32⟩
  | .local _ .vmem, ⟨77, _⟩ => ⟨S1x1, .f32⟩
  | .local _ .vmem, ⟨78, _⟩ => ⟨S1x1, .f32⟩
  | .local _ .vmem, ⟨79, _⟩ => ⟨S2048x256, .f32⟩
  | .local _ .vmem, ⟨80, _⟩ => ⟨S2048x256, .f32⟩
  | .local _ .vmem, ⟨81, _⟩ => ⟨S2048x256, .f32⟩
  | .local _ .vmem, ⟨82, _⟩ => ⟨S2048x256, .f32⟩
  | .local _ .vmem, ⟨83, _⟩ => ⟨S1x1, .f32⟩
  | .local _ .vmem, ⟨84, _⟩ => ⟨S1x1, .f32⟩
  | .local _ .vmem, ⟨85, _⟩ => ⟨S1x1, .f32⟩
  | .local _ .vmem, ⟨86, _⟩ => ⟨S2048x256, .f32⟩
  | .local _ .vmem, ⟨87, _⟩ => ⟨S2048x256, .f32⟩
  | .local _ .vmem, ⟨88, _⟩ => ⟨S2048x256, .f32⟩
  | .local _ .vmem, ⟨89, _⟩ => ⟨S2048x256, .f32⟩
  | .local _ .vmem, ⟨90, _⟩ => ⟨S1x1, .f32⟩
  | .local _ .vmem, ⟨91, _⟩ => ⟨S1x1, .f32⟩
  | .local _ .vmem, ⟨92, _⟩ => ⟨S1x1, .f32⟩
  | .local _ .vmem, ⟨93, _⟩ => ⟨S2048x256, .f32⟩
  | .local _ .vmem, ⟨94, _⟩ => ⟨S2048x256, .f32⟩
  | .local _ .vmem, ⟨95, _⟩ => ⟨S2048x256, .f32⟩
  | .local _ .vmem, ⟨96, _⟩ => ⟨S2048x256, .f32⟩
  | .local _ .vmem, ⟨97, _⟩ => ⟨S1x1, .f32⟩
  | .local _ .vmem, ⟨98, _⟩ => ⟨S1x1, .f32⟩
  | .local _ .vmem, ⟨99, _⟩ => ⟨S1x1, .f32⟩
  | .local _ .vmem, ⟨100, _⟩ => ⟨S2048x256, .f32⟩
  | .local _ .vmem, ⟨101, _⟩ => ⟨S2048x256, .f32⟩
  | .local _ .vmem, ⟨102, _⟩ => ⟨S2048x256, .f32⟩
  | .local _ .vmem, ⟨103, _⟩ => ⟨S2048x256, .f32⟩
  | .local _ .vmem, ⟨104, _⟩ => ⟨S1x1, .f32⟩
  | .local _ .vmem, ⟨105, _⟩ => ⟨S1x1, .f32⟩
  | .local _ .vmem, ⟨106, _⟩ => ⟨S1x1, .f32⟩
  | .local _ .smem, ⟨0, _⟩ => ⟨S16384, .i32⟩
  | .local _ .smem, ⟨1, _⟩ => ⟨S16384, .i32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | _, _ => false

abbrev semScoped : Fin 0 → Bool
  | ⟨_, h⟩ => absurd h (Nat.not_lt_zero _)

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  ofTc nBuf bufTy 0 99 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24_0 : Ref sig .tc := ⟨.hbm, 40, rfl⟩
abbrev main_v24_1 : Ref sig .tc := ⟨.hbm, 41, rfl⟩
abbrev main_v24_2 : Ref sig .tc := ⟨.hbm, 42, rfl⟩
abbrev main_v24_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_5 : Ref sig .tc := ⟨.hbm, 80, rfl⟩
abbrev main_v61 : Ref sig .tc := ⟨.hbm, 81, rfl⟩
abbrev main_cst_6 : Ref sig .tc := ⟨.hbm, 82, rfl⟩
abbrev main_v62 : Ref sig .tc := ⟨.hbm, 83, rfl⟩
abbrev main_v63 : Ref sig .tc := ⟨.hbm, 84, rfl⟩
abbrev main_arg4 : Ref sig .tc := ⟨.smem, 0, rfl⟩
abbrev main_arg5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg2_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg2_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg2_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg2_1 : Ref sig .tc := ⟨.vmem, 40, rfl⟩
abbrev cc6_stg0_0 : Ref sig .tc := ⟨.vmem, 41, rfl⟩
abbrev cc6_stg1_0 : Ref sig .tc := ⟨.vmem, 42, rfl⟩
abbrev cc7_stg0_0 : Ref sig .tc := ⟨.vmem, 43, rfl⟩
abbrev cc7_stg1_0 : Ref sig .tc := ⟨.vmem, 44, rfl⟩
abbrev cc8_stg0_0 : Ref sig .tc := ⟨.vmem, 45, rfl⟩
abbrev cc8_stg1_0 : Ref sig .tc := ⟨.vmem, 46, rfl⟩
abbrev cc9_stg0_0 : Ref sig .tc := ⟨.vmem, 47, rfl⟩
abbrev cc9_stg1_0 : Ref sig .tc := ⟨.vmem, 48, rfl⟩
abbrev cc10_stg0_0 : Ref sig .tc := ⟨.vmem, 49, rfl⟩
abbrev cc10_stg1_0 : Ref sig .tc := ⟨.vmem, 50, rfl⟩
abbrev cc11_stg0_0 : Ref sig .tc := ⟨.vmem, 51, rfl⟩
abbrev cc11_stg0_1 : Ref sig .tc := ⟨.vmem, 52, rfl⟩
abbrev cc11_stg1_0 : Ref sig .tc := ⟨.vmem, 53, rfl⟩
abbrev cc11_stg1_1 : Ref sig .tc := ⟨.vmem, 54, rfl⟩
abbrev cc11_stg2_0 : Ref sig .tc := ⟨.vmem, 55, rfl⟩
abbrev cc11_stg3_0 : Ref sig .tc := ⟨.vmem, 56, rfl⟩
abbrev cc11_scratch0 : Ref sig .tc := ⟨.vmem, 57, rfl⟩
abbrev cc12_stg0_0 : Ref sig .tc := ⟨.vmem, 58, rfl⟩
abbrev cc12_stg0_1 : Ref sig .tc := ⟨.vmem, 59, rfl⟩
abbrev cc12_stg1_0 : Ref sig .tc := ⟨.vmem, 60, rfl⟩
abbrev cc12_stg1_1 : Ref sig .tc := ⟨.vmem, 61, rfl⟩
abbrev cc12_stg2_0 : Ref sig .tc := ⟨.vmem, 62, rfl⟩
abbrev cc12_stg3_0 : Ref sig .tc := ⟨.vmem, 63, rfl⟩
abbrev cc12_scratch0 : Ref sig .tc := ⟨.vmem, 64, rfl⟩
abbrev cc13_stg0_0 : Ref sig .tc := ⟨.vmem, 65, rfl⟩
abbrev cc13_stg0_1 : Ref sig .tc := ⟨.vmem, 66, rfl⟩
abbrev cc13_stg1_0 : Ref sig .tc := ⟨.vmem, 67, rfl⟩
abbrev cc13_stg1_1 : Ref sig .tc := ⟨.vmem, 68, rfl⟩
abbrev cc13_stg2_0 : Ref sig .tc := ⟨.vmem, 69, rfl⟩
abbrev cc13_stg3_0 : Ref sig .tc := ⟨.vmem, 70, rfl⟩
abbrev cc13_scratch0 : Ref sig .tc := ⟨.vmem, 71, rfl⟩
abbrev cc14_stg0_0 : Ref sig .tc := ⟨.vmem, 72, rfl⟩
abbrev cc14_stg0_1 : Ref sig .tc := ⟨.vmem, 73, rfl⟩
abbrev cc14_stg1_0 : Ref sig .tc := ⟨.vmem, 74, rfl⟩
abbrev cc14_stg1_1 : Ref sig .tc := ⟨.vmem, 75, rfl⟩
abbrev cc14_stg2_0 : Ref sig .tc := ⟨.vmem, 76, rfl⟩
abbrev cc14_stg3_0 : Ref sig .tc := ⟨.vmem, 77, rfl⟩
abbrev cc14_scratch0 : Ref sig .tc := ⟨.vmem, 78, rfl⟩
abbrev cc15_stg0_0 : Ref sig .tc := ⟨.vmem, 79, rfl⟩
abbrev cc15_stg0_1 : Ref sig .tc := ⟨.vmem, 80, rfl⟩
abbrev cc15_stg1_0 : Ref sig .tc := ⟨.vmem, 81, rfl⟩
abbrev cc15_stg1_1 : Ref sig .tc := ⟨.vmem, 82, rfl⟩
abbrev cc15_stg2_0 : Ref sig .tc := ⟨.vmem, 83, rfl⟩
abbrev cc15_stg3_0 : Ref sig .tc := ⟨.vmem, 84, rfl⟩
abbrev cc15_scratch0 : Ref sig .tc := ⟨.vmem, 85, rfl⟩
abbrev cc16_stg0_0 : Ref sig .tc := ⟨.vmem, 86, rfl⟩
abbrev cc16_stg0_1 : Ref sig .tc := ⟨.vmem, 87, rfl⟩
abbrev cc16_stg1_0 : Ref sig .tc := ⟨.vmem, 88, rfl⟩
abbrev cc16_stg1_1 : Ref sig .tc := ⟨.vmem, 89, rfl⟩
abbrev cc16_stg2_0 : Ref sig .tc := ⟨.vmem, 90, rfl⟩
abbrev cc16_stg3_0 : Ref sig .tc := ⟨.vmem, 91, rfl⟩
abbrev cc16_scratch0 : Ref sig .tc := ⟨.vmem, 92, rfl⟩
abbrev cc17_stg0_0 : Ref sig .tc := ⟨.vmem, 93, rfl⟩
abbrev cc17_stg0_1 : Ref sig .tc := ⟨.vmem, 94, rfl⟩
abbrev cc17_stg1_0 : Ref sig .tc := ⟨.vmem, 95, rfl⟩
abbrev cc17_stg1_1 : Ref sig .tc := ⟨.vmem, 96, rfl⟩
abbrev cc17_stg2_0 : Ref sig .tc := ⟨.vmem, 97, rfl⟩
abbrev cc17_stg3_0 : Ref sig .tc := ⟨.vmem, 98, rfl⟩
abbrev cc17_scratch0 : Ref sig .tc := ⟨.vmem, 99, rfl⟩
abbrev cc18_stg0_0 : Ref sig .tc := ⟨.vmem, 100, rfl⟩
abbrev cc18_stg0_1 : Ref sig .tc := ⟨.vmem, 101, rfl⟩
abbrev cc18_stg1_0 : Ref sig .tc := ⟨.vmem, 102, rfl⟩
abbrev cc18_stg1_1 : Ref sig .tc := ⟨.vmem, 103, rfl⟩
abbrev cc18_stg2_0 : Ref sig .tc := ⟨.vmem, 104, rfl⟩
abbrev cc18_stg3_0 : Ref sig .tc := ⟨.vmem, 105, rfl⟩
abbrev cc18_scratch0 : Ref sig .tc := ⟨.vmem, 106, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem2_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem2_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30
abbrev cc4_sem0_0 : DmaSem sig := 31
abbrev cc4_sem0_1 : DmaSem sig := 32
abbrev cc4_sem1_0 : DmaSem sig := 33
abbrev cc4_sem2_0 : DmaSem sig := 34
abbrev cc4_sem2_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem2_1 : DmaSem sig := 40
abbrev cc6_sem0_0 : DmaSem sig := 41
abbrev cc6_sem1_0 : DmaSem sig := 42
abbrev cc7_sem0_0 : DmaSem sig := 43
abbrev cc7_sem1_0 : DmaSem sig := 44
abbrev cc8_sem0_0 : DmaSem sig := 45
abbrev cc8_sem1_0 : DmaSem sig := 46
abbrev cc9_sem0_0 : DmaSem sig := 47
abbrev cc9_sem1_0 : DmaSem sig := 48
abbrev cc10_sem0_0 : DmaSem sig := 49
abbrev cc10_sem1_0 : DmaSem sig := 50
abbrev cc11_sem0_0 : DmaSem sig := 51
abbrev cc11_sem0_1 : DmaSem sig := 52
abbrev cc11_sem1_0 : DmaSem sig := 53
abbrev cc11_sem1_1 : DmaSem sig := 54
abbrev cc11_sem2_0 : DmaSem sig := 55
abbrev cc11_sem3_0 : DmaSem sig := 56
abbrev cc12_sem0_0 : DmaSem sig := 57
abbrev cc12_sem0_1 : DmaSem sig := 58
abbrev cc12_sem1_0 : DmaSem sig := 59
abbrev cc12_sem1_1 : DmaSem sig := 60
abbrev cc12_sem2_0 : DmaSem sig := 61
abbrev cc12_sem3_0 : DmaSem sig := 62
abbrev cc13_sem0_0 : DmaSem sig := 63
abbrev cc13_sem0_1 : DmaSem sig := 64
abbrev cc13_sem1_0 : DmaSem sig := 65
abbrev cc13_sem1_1 : DmaSem sig := 66
abbrev cc13_sem2_0 : DmaSem sig := 67
abbrev cc13_sem3_0 : DmaSem sig := 68
abbrev cc14_sem0_0 : DmaSem sig := 69
abbrev cc14_sem0_1 : DmaSem sig := 70
abbrev cc14_sem1_0 : DmaSem sig := 71
abbrev cc14_sem1_1 : DmaSem sig := 72
abbrev cc14_sem2_0 : DmaSem sig := 73
abbrev cc14_sem3_0 : DmaSem sig := 74
abbrev cc15_sem0_0 : DmaSem sig := 75
abbrev cc15_sem0_1 : DmaSem sig := 76
abbrev cc15_sem1_0 : DmaSem sig := 77
abbrev cc15_sem1_1 : DmaSem sig := 78
abbrev cc15_sem2_0 : DmaSem sig := 79
abbrev cc15_sem3_0 : DmaSem sig := 80
abbrev cc16_sem0_0 : DmaSem sig := 81
abbrev cc16_sem0_1 : DmaSem sig := 82
abbrev cc16_sem1_0 : DmaSem sig := 83
abbrev cc16_sem1_1 : DmaSem sig := 84
abbrev cc16_sem2_0 : DmaSem sig := 85
abbrev cc16_sem3_0 : DmaSem sig := 86
abbrev cc17_sem0_0 : DmaSem sig := 87
abbrev cc17_sem0_1 : DmaSem sig := 88
abbrev cc17_sem1_0 : DmaSem sig := 89
abbrev cc17_sem1_1 : DmaSem sig := 90
abbrev cc17_sem2_0 : DmaSem sig := 91
abbrev cc17_sem3_0 : DmaSem sig := 92
abbrev cc18_sem0_0 : DmaSem sig := 93
abbrev cc18_sem0_1 : DmaSem sig := 94
abbrev cc18_sem1_0 : DmaSem sig := 95
abbrev cc18_sem1_1 : DmaSem sig := 96
abbrev cc18_sem2_0 : DmaSem sig := 97
abbrev cc18_sem3_0 : DmaSem sig := 98

abbrev nD : Nat := 1
abbrev τ : Topo := Topo.v7x

variable {F : FTy → Type} [FloatOps F]

abbrev grid0 : Pipeline.Grid := ⟨1, ![16384], ![false]⟩

abbrev pre0 : Pipeline.Prefetch sig := ⟨2, ![main_arg4.idx, main_arg5.idx], fun | 0 => main_arg4.names | 1 => main_arg5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S16384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S16384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S16384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4096x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4096x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4096x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S4096x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S16384x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S16384x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S16384x256 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S16384x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S16384x256 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S16384x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S16384x256 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S16384x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S16384x256 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S16384x256 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev grid11 : Pipeline.Grid := ⟨1, ![8], ![false]⟩

def k11_cond2 (i : grid11.Coords) : BitVec 1 :=
  let arg0 : BitVec 32 := BitVec.ofNat 32 (i 0).val
  let c7_i32 : BitVec 32 := 7#32
  let v33 : BitVec 1 := Scalar.cmpi .eq arg0 c7_i32
  let v34 : BitVec 32 := Scalar.extui v33
  let c0_i32_13 : BitVec 32 := 0#32
  let v35 : BitVec 1 := Scalar.cmpi .ne v34 c0_i32_13
  v35

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S2048x256 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S2048x256 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1x1 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x1 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev grid12 : Pipeline.Grid := ⟨1, ![8], ![false]⟩

def k12_cond2 (i : grid12.Coords) : BitVec 1 :=
  let arg0 : BitVec 32 := BitVec.ofNat 32 (i 0).val
  let c7_i32 : BitVec 32 := 7#32
  let v33 : BitVec 1 := Scalar.cmpi .eq arg0 c7_i32
  let v34 : BitVec 32 := Scalar.extui v33
  let c0_i32_13 : BitVec 32 := 0#32
  let v35 : BitVec 1 := Scalar.cmpi .ne v34 c0_i32_13
  v35

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S2048x256 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S2048x256 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S1x1 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x1 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev grid13 : Pipeline.Grid := ⟨1, ![8], ![false]⟩

def k13_cond2 (i : grid13.Coords) : BitVec 1 :=
  let arg0 : BitVec 32 := BitVec.ofNat 32 (i 0).val
  let c7_i32 : BitVec 32 := 7#32
  let v33 : BitVec 1 := Scalar.cmpi .eq arg0 c7_i32
  let v34 : BitVec 32 := Scalar.extui v33
  let c0_i32_13 : BitVec 32 := 0#32
  let v35 : BitVec 1 := Scalar.cmpi .ne v34 c0_i32_13
  v35

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S2048x256 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S2048x256 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S1x1 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x1 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev grid14 : Pipeline.Grid := ⟨1, ![8], ![false]⟩

def k14_cond2 (i : grid14.Coords) : BitVec 1 :=
  let arg0 : BitVec 32 := BitVec.ofNat 32 (i 0).val
  let c7_i32 : BitVec 32 := 7#32
  let v33 : BitVec 1 := Scalar.cmpi .eq arg0 c7_i32
  let v34 : BitVec 32 := Scalar.extui v33
  let c0_i32_13 : BitVec 32 := 0#32
  let v35 : BitVec 1 := Scalar.cmpi .ne v34 c0_i32_13
  v35

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage14_0 : Fin 2 → Memref sig .tc .vmem S2048x256 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S2048x256 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S1x1 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x1 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev grid15 : Pipeline.Grid := ⟨1, ![8], ![false]⟩

def k15_cond2 (i : grid15.Coords) : BitVec 1 :=
  let arg0 : BitVec 32 := BitVec.ofNat 32 (i 0).val
  let c7_i32 : BitVec 32 := 7#32
  let v33 : BitVec 1 := Scalar.cmpi .eq arg0 c7_i32
  let v34 : BitVec 32 := Scalar.extui v33
  let c0_i32_13 : BitVec 32 := 0#32
  let v35 : BitVec 1 := Scalar.cmpi .ne v34 c0_i32_13
  v35

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage15_0 : Fin 2 → Memref sig .tc .vmem S2048x256 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S2048x256 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S1x1 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x1 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev grid16 : Pipeline.Grid := ⟨1, ![8], ![false]⟩

def k16_cond2 (i : grid16.Coords) : BitVec 1 :=
  let arg0 : BitVec 32 := BitVec.ofNat 32 (i 0).val
  let c7_i32 : BitVec 32 := 7#32
  let v33 : BitVec 1 := Scalar.cmpi .eq arg0 c7_i32
  let v34 : BitVec 32 := Scalar.extui v33
  let c0_i32_13 : BitVec 32 := 0#32
  let v35 : BitVec 1 := Scalar.cmpi .ne v34 c0_i32_13
  v35

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage16_0 : Fin 2 → Memref sig .tc .vmem S2048x256 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S2048x256 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 1 → Memref sig .tc .vmem S1x1 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S1x1 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev grid17 : Pipeline.Grid := ⟨1, ![8], ![false]⟩

def k17_cond2 (i : grid17.Coords) : BitVec 1 :=
  let arg0 : BitVec 32 := BitVec.ofNat 32 (i 0).val
  let c7_i32 : BitVec 32 := 7#32
  let v33 : BitVec 1 := Scalar.cmpi .eq arg0 c7_i32
  let v34 : BitVec 32 := Scalar.extui v33
  let c0_i32_13 : BitVec 32 := 0#32
  let v35 : BitVec 1 := Scalar.cmpi .ne v34 c0_i32_13
  v35

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage17_0 : Fin 2 → Memref sig .tc .vmem S2048x256 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S2048x256 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev stage17_2 : Fin 1 → Memref sig .tc .vmem S1x1 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S1x1 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false]

abbrev grid18 : Pipeline.Grid := ⟨1, ![8], ![false]⟩

def k18_cond2 (i : grid18.Coords) : BitVec 1 :=
  let arg0 : BitVec 32 := BitVec.ofNat 32 (i 0).val
  let c7_i32 : BitVec 32 := 7#32
  let v33 : BitVec 1 := Scalar.cmpi .eq arg0 c7_i32
  let v34 : BitVec 32 := Scalar.extui v33
  let c0_i32_13 : BitVec 32 := 0#32
  let v35 : BitVec 1 := Scalar.cmpi .ne v34 c0_i32_13
  v35

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage18_0 : Fin 2 → Memref sig .tc .vmem S2048x256 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S2048x256 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 1 → Memref sig .tc .vmem S1x1 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 1 → Memref sig .tc .vmem S1x1 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

class Facts₀ : Prop where
  shapeCasts_S_S1x1 : S_.ShapeCasts S1x1
  reducesTo_S256x64_S256_d1 : S256x64.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x64_0_1 : S256x1.BroadcastsInDim S256x64 (![0, 1] : Fin 2 → Fin S256x64.rank)
  transposes_S256x64_S64x256_1_0 : S256x64.Transposes [1, 0] S64x256
  shapeCasts_S1000000x64_S1000000x1x64 : S1000000x64.ShapeCasts S1000000x1x64
  shapeCasts_S500000x64_S500000x1x64 : S500000x64.ShapeCasts S500000x1x64
  numel1_S1 : S1.numel = 1
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  reduces_S1x1x64_S1x1 : S1x1x64.Reduces [2] S1x1
  shapeCasts_S1x1_S1x1x1 : S1x1.ShapeCasts S1x1x1
  broadcasts_S1x1x1_S1x1x64 : S1x1x1.Broadcasts S1x1x64
  shapeCasts_S16384x1x64_S16384x64 : S16384x1x64.ShapeCasts S16384x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S4096x256_S4096x256_0_0 : ∀ a, (![0, 0] : Fin 2 → Nat) a + S4096x256.size a ≤ S4096x256.size a
  h_S4096x256 : 0 < S4096x256.numel
  inb_S16384x256_S16384x256_0_0 : ∀ a, (![0, 0] : Fin 2 → Nat) a + S16384x256.size a ≤ S16384x256.size a
  h_S16384x256 : 0 < S16384x256.numel
  shapeCasts_S16384x256_S16384x256 : S16384x256.ShapeCasts S16384x256
  reduces_S16384x256_S16384 : S16384x256.Reduces [1] S16384
  shapeCasts_S16384_S16384x1 : S16384.ShapeCasts S16384x1
  reduces_S16384x1_S1 : S16384x1.Reduces [0] S1
  shapeCasts_S1_S1x1 : S1.ShapeCasts S1x1
  broadcasts_S1x1_S16384x256 : S1x1.Broadcasts S16384x256
  reduces_S16384x256_S256 : S16384x256.Reduces [0] S256
  shapeCasts_S256_S1x256 : S256.ShapeCasts S1x256
  broadcasts_S1x256_S16384x256 : S1x256.Broadcasts S16384x256
  broadcasts_S16384x1_S16384x256 : S16384x1.Broadcasts S16384x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inpos_S1x1_p0_0 : ∀ a, (![0, 0] : Fin 2 → Nat) a < S1x1.size a
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S2048x256_S2048 : S2048x256.Reduces [1] S2048
  shapeCasts_S2048_S2048x1 : S2048.ShapeCasts S2048x1
  broadcasts_S2048x1_S2048x256 : S2048x1.Broadcasts S2048x256
  reduces_S2048x1_S1 : S2048x1.Reduces [0] S1
  shapeCasts_S1x1_S_ : S1x1.ShapeCasts S_
  dot_S4096x64_S64x256_S4096x256_1_0_0_1_n_n_wf : DotDims.WF S4096x64 S64x256 S4096x256 [1] [0] [0] [1] [] []
  hrank0 : 0 < grid0.rank
  k0_off1_inb : ∀ i : grid0.Coords, ∀ a, (k0_off1 i) a + S1.size a ≤ S16384.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S16384x1x64.size a
  hwx0_4 : ∀ i : grid0.Coords, EltTy.bits .f32 = 32 ∨ (Rect.block (s := S16384x1x64) S1x1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x64.size a ≤ S16384x1x64.size a
  hwx0_5 : ∀ i : grid0.Coords, EltTy.bits .f32 = 32 ∨ (Rect.block (s := S16384x1x64) S1x1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x64.size a ≤ S16384x1x64.size a
  hwx0_6 : ∀ i : grid0.Coords, EltTy.bits .f32 = 32 ∨ (Rect.block (s := S16384x1x64) S1x1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x64.size a ≤ S16384x1x64.size a
  hwx0_7 : ∀ i : grid0.Coords, EltTy.bits .f32 = 32 ∨ (Rect.block (s := S16384x1x64) S1x1x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S16384x64.size a
  hwx1_0 : ∀ i : grid1.Coords, EltTy.bits .f32 = 32 ∨ (Rect.block (s := S16384x64) S4096x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x256.size a ≤ S64x256.size a
  hwx1_1 : ∀ i : grid1.Coords, EltTy.bits .f32 = 32 ∨ (Rect.block (s := S64x256) S64x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x256.size a ≤ S16384x256.size a
  hwx1_2 : ∀ i : grid1.Coords, EltTy.bits .f32 = 32 ∨ (Rect.block (s := S16384x256) S4096x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S16384x64.size a
  hwx2_0 : ∀ i : grid2.Coords, EltTy.bits .f32 = 32 ∨ (Rect.block (s := S16384x64) S4096x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x256.size a ≤ S64x256.size a
  hwx2_1 : ∀ i : grid2.Coords, EltTy.bits .f32 = 32 ∨ (Rect.block (s := S64x256) S64x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x256.size a ≤ S16384x256.size a
  hwx2_2 : ∀ i : grid2.Coords, EltTy.bits .f32 = 32 ∨ (Rect.block (s := S16384x256) S4096x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x64.size a ≤ S16384x64.size a
  hwx3_0 : ∀ i : grid3.Coords, EltTy.bits .f32 = 32 ∨ (Rect.block (s := S16384x64) S4096x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x256.size a ≤ S64x256.size a
  hwx3_1 : ∀ i : grid3.Coords, EltTy.bits .f32 = 32 ∨ (Rect.block (s := S64x256) S64x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x256.size a ≤ S16384x256.size a
  hwx3_2 : ∀ i : grid3.Coords, EltTy.bits .f32 = 32 ∨ (Rect.block (s := S16384x256) S4096x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x64.size a ≤ S16384x64.size a
  hwx4_0 : ∀ i : grid4.Coords, EltTy.bits .f32 = 32 ∨ (Rect.block (s := S16384x64) S4096x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x256.size a ≤ S64x256.size a
  hwx4_1 : ∀ i : grid4.Coords, EltTy.bits .f32 = 32 ∨ (Rect.block (s := S64x256) S64x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x256.size a ≤ S16384x256.size a
  hwx4_2 : ∀ i : grid4.Coords, EltTy.bits .f32 = 32 ∨ (Rect.block (s := S16384x256) S4096x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x64.size a ≤ S16384x64.size a
  hwx5_0 : ∀ i : grid5.Coords, EltTy.bits .f32 = 32 ∨ (Rect.block (s := S16384x64) S4096x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x256.size a ≤ S64x256.size a
  hwx5_1 : ∀ i : grid5.Coords, EltTy.bits .f32 = 32 ∨ (Rect.block (s := S64x256) S64x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4096x256.size a ≤ S16384x256.size a
  hwx5_2 : ∀ i : grid5.Coords, EltTy.bits .f32 = 32 ∨ (Rect.block (s := S16384x256) S4096x256.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S16384x256.size a ≤ S16384x256.size a
  hwx6_0 : ∀ i : grid6.Coords, EltTy.bits .f32 = 32 ∨ (Rect.block (s := S16384x256) S16384x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S16384x256.size a ≤ S16384x256.size a
  hwx6_1 : ∀ i : grid6.Coords, EltTy.bits .f32 = 32 ∨ (Rect.block (s := S16384x256) S16384x256.size (cc6_transform_1 i) (hinb6_1 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S16384x256.size a ≤ S16384x256.size a
  hwx7_0 : ∀ i : grid7.Coords, EltTy.bits .f32 = 32 ∨ (Rect.block (s := S16384x256) S16384x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S16384x256.size a ≤ S16384x256.size a
  hwx7_1 : ∀ i : grid7.Coords, EltTy.bits .f32 = 32 ∨ (Rect.block (s := S16384x256) S16384x256.size (cc7_transform_1 i) (hinb7_1 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S16384x256.size a ≤ S16384x256.size a
  hwx8_0 : ∀ i : grid8.Coords, EltTy.bits .f32 = 32 ∨ (Rect.block (s := S16384x256) S16384x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S16384x256.size a ≤ S16384x256.size a
  hwx8_1 : ∀ i : grid8.Coords, EltTy.bits .f32 = 32 ∨ (Rect.block (s := S16384x256) S16384x256.size (cc8_transform_1 i) (hinb8_1 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S16384x256.size a ≤ S16384x256.size a
  hwx9_0 : ∀ i : grid9.Coords, EltTy.bits .f32 = 32 ∨ (Rect.block (s := S16384x256) S16384x256.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S16384x256.size a ≤ S16384x256.size a
  hwx9_1 : ∀ i : grid9.Coords, EltTy.bits .f32 = 32 ∨ (Rect.block (s := S16384x256) S16384x256.size (cc9_transform_1 i) (hinb9_1 i)).WholeWords (EltTy.packing .f32)
  hrank10 : 0 < grid10.rank
  hstage10_0 : ∀ j, (stage10_0 j).IsWhole
  nbuf10_0 : grid10.bufCount reads10_0 true = 1
  hreads10_0 : ∀ i i' : grid10.Coords, (∀ a, reads10_0 a = true → i a = i' a) → cc10_transform_0 i = cc10_transform_0 i'
  hinb10_0 : ∀ (i : grid10.Coords) a, (cc10_transform_0 i a + 1) * S16384x256.size a ≤ S16384x256.size a
  hwx10_0 : ∀ i : grid10.Coords, EltTy.bits .f32 = 32 ∨ (Rect.block (s := S16384x256) S16384x256.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S16384x256.size a ≤ S16384x256.size a
  hwx10_1 : ∀ i : grid10.Coords, EltTy.bits .f32 = 32 ∨ (Rect.block (s := S16384x256) S16384x256.size (cc10_transform_1 i) (hinb10_1 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2048x256.size a ≤ S16384x256.size a
  hwx11_0 : ∀ i : grid11.Coords, EltTy.bits .f32 = 32 ∨ (Rect.block (s := S16384x256) S2048x256.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2048x256.size a ≤ S16384x256.size a
  hwx11_1 : ∀ i : grid11.Coords, EltTy.bits .f32 = 32 ∨ (Rect.block (s := S16384x256) S2048x256.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x1.size a ≤ S1x1.size a
  hwx11_2 : ∀ i : grid11.Coords, EltTy.bits .f32 = 32 ∨ (Rect.block (s := S1x1) S1x1.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x1.size a ≤ S1x1.size a
  hwx11_3 : ∀ i : grid11.Coords, EltTy.bits .f32 = 32 ∨ (Rect.block (s := S1x1) S1x1.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2048x256.size a ≤ S16384x256.size a
  hwx12_0 : ∀ i : grid12.Coords, EltTy.bits .f32 = 32 ∨ (Rect.block (s := S16384x256) S2048x256.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2048x256.size a ≤ S16384x256.size a
  hwx12_1 : ∀ i : grid12.Coords, EltTy.bits .f32 = 32 ∨ (Rect.block (s := S16384x256) S2048x256.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x1.size a ≤ S1x1.size a
  hwx12_2 : ∀ i : grid12.Coords, EltTy.bits .f32 = 32 ∨ (Rect.block (s := S1x1) S1x1.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x1.size a ≤ S1x1.size a
  hwx12_3 : ∀ i : grid12.Coords, EltTy.bits .f32 = 32 ∨ (Rect.block (s := S1x1) S1x1.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2048x256.size a ≤ S16384x256.size a
  hwx13_0 : ∀ i : grid13.Coords, EltTy.bits .f32 = 32 ∨ (Rect.block (s := S16384x256) S2048x256.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S2048x256.size a ≤ S16384x256.size a
  hwx13_1 : ∀ i : grid13.Coords, EltTy.bits .f32 = 32 ∨ (Rect.block (s := S16384x256) S2048x256.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x1.size a ≤ S1x1.size a
  hwx13_2 : ∀ i : grid13.Coords, EltTy.bits .f32 = 32 ∨ (Rect.block (s := S1x1) S1x1.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x1.size a ≤ S1x1.size a
  hwx13_3 : ∀ i : grid13.Coords, EltTy.bits .f32 = 32 ∨ (Rect.block (s := S1x1) S1x1.size (cc13_transform_3 i) (hinb13_3 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2048x256.size a ≤ S16384x256.size a
  hwx14_0 : ∀ i : grid14.Coords, EltTy.bits .f32 = 32 ∨ (Rect.block (s := S16384x256) S2048x256.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S2048x256.size a ≤ S16384x256.size a
  hwx14_1 : ∀ i : grid14.Coords, EltTy.bits .f32 = 32 ∨ (Rect.block (s := S16384x256) S2048x256.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x1.size a ≤ S1x1.size a
  hwx14_2 : ∀ i : grid14.Coords, EltTy.bits .f32 = 32 ∨ (Rect.block (s := S1x1) S1x1.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x1.size a ≤ S1x1.size a
  hwx14_3 : ∀ i : grid14.Coords, EltTy.bits .f32 = 32 ∨ (Rect.block (s := S1x1) S1x1.size (cc14_transform_3 i) (hinb14_3 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S2048x256.size a ≤ S16384x256.size a
  hwx15_0 : ∀ i : grid15.Coords, EltTy.bits .f32 = 32 ∨ (Rect.block (s := S16384x256) S2048x256.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S2048x256.size a ≤ S16384x256.size a
  hwx15_1 : ∀ i : grid15.Coords, EltTy.bits .f32 = 32 ∨ (Rect.block (s := S16384x256) S2048x256.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x1.size a ≤ S1x1.size a
  hwx15_2 : ∀ i : grid15.Coords, EltTy.bits .f32 = 32 ∨ (Rect.block (s := S1x1) S1x1.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x1.size a ≤ S1x1.size a
  hwx15_3 : ∀ i : grid15.Coords, EltTy.bits .f32 = 32 ∨ (Rect.block (s := S1x1) S1x1.size (cc15_transform_3 i) (hinb15_3 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S2048x256.size a ≤ S16384x256.size a
  hwx16_0 : ∀ i : grid16.Coords, EltTy.bits .f32 = 32 ∨ (Rect.block (s := S16384x256) S2048x256.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S2048x256.size a ≤ S16384x256.size a
  hwx16_1 : ∀ i : grid16.Coords, EltTy.bits .f32 = 32 ∨ (Rect.block (s := S16384x256) S2048x256.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x1.size a ≤ S1x1.size a
  hwx16_2 : ∀ i : grid16.Coords, EltTy.bits .f32 = 32 ∨ (Rect.block (s := S1x1) S1x1.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S1x1.size a ≤ S1x1.size a
  hwx16_3 : ∀ i : grid16.Coords, EltTy.bits .f32 = 32 ∨ (Rect.block (s := S1x1) S1x1.size (cc16_transform_3 i) (hinb16_3 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S2048x256.size a ≤ S16384x256.size a
  hwx17_0 : ∀ i : grid17.Coords, EltTy.bits .f32 = 32 ∨ (Rect.block (s := S16384x256) S2048x256.size (cc17_transform_0 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S2048x256.size a ≤ S16384x256.size a
  hwx17_1 : ∀ i : grid17.Coords, EltTy.bits .f32 = 32 ∨ (Rect.block (s := S16384x256) S2048x256.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x1.size a ≤ S1x1.size a
  hwx17_2 : ∀ i : grid17.Coords, EltTy.bits .f32 = 32 ∨ (Rect.block (s := S1x1) S1x1.size (cc17_transform_2 i) (hinb17_2 i)).WholeWords (EltTy.packing .f32)
  hstage17_3 : ∀ j, (stage17_3 j).IsWhole
  nbuf17_3 : grid17.bufCount reads17_3 true = 1
  hreads17_3 : ∀ i i' : grid17.Coords, (∀ a, reads17_3 a = true → i a = i' a) → cc17_transform_3 i = cc17_transform_3 i'
  hinb17_3 : ∀ (i : grid17.Coords) a, (cc17_transform_3 i a + 1) * S1x1.size a ≤ S1x1.size a
  hwx17_3 : ∀ i : grid17.Coords, EltTy.bits .f32 = 32 ∨ (Rect.block (s := S1x1) S1x1.size (cc17_transform_3 i) (hinb17_3 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S2048x256.size a ≤ S16384x256.size a
  hwx18_0 : ∀ i : grid18.Coords, EltTy.bits .f32 = 32 ∨ (Rect.block (s := S16384x256) S2048x256.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S2048x256.size a ≤ S16384x256.size a
  hwx18_1 : ∀ i : grid18.Coords, EltTy.bits .f32 = 32 ∨ (Rect.block (s := S16384x256) S2048x256.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S1x1.size a ≤ S1x1.size a
  hwx18_2 : ∀ i : grid18.Coords, EltTy.bits .f32 = 32 ∨ (Rect.block (s := S1x1) S1x1.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S1x1.size a ≤ S1x1.size a
  hwx18_3 : ∀ i : grid18.Coords, EltTy.bits .f32 = 32 ∨ (Rect.block (s := S1x1) S1x1.size (cc18_transform_3 i) (hinb18_3 i)).WholeWords (EltTy.packing .f32)

variable [Facts₀]

def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf

abbrev spec0_0 : Pipeline.WinSpec sig grid0.rank :=
  Pipeline.WinSpec.ofSpec (Memref.whole main_v20) S1x1x64.size reads0_0 false false 2 stage0_0 sem0_0 nbuf0_0 hstage0_0

abbrev spec0_1 : Pipeline.WinSpec sig grid0.rank :=
  Pipeline.WinSpec.ofSpec (Memref.whole main_v21) S1x1x64.size reads0_1 false false 2 stage0_1 sem0_1 nbuf0_1 hstage0_1

abbrev spec0_2 : Pipeline.WinSpec sig grid0.rank :=
  Pipeline.WinSpec.ofSpec (Memref.whole main_v22) S1x1x64.size reads0_2 false false 2 stage0_2 sem0_2 nbuf0_2 hstage0_2

abbrev spec0_3 : Pipeline.WinSpec sig grid0.rank :=
  Pipeline.WinSpec.ofSpec (Memref.whole main_v23) S1x1x64.size reads0_3 false false 2 stage0_3 sem0_3 nbuf0_3 hstage0_3

abbrev spec0_4 : Pipeline.WinSpec sig grid0.rank :=
  Pipeline.WinSpec.ofSpec (Memref.whole main_v24_0) S1x1x64.size reads0_4 true false 2 stage0_4 sem0_4 nbuf0_4 hstage0_4

abbrev spec0_5 : Pipeline.WinSpec sig grid0.rank :=
  Pipeline.WinSpec.ofSpec (Memref.whole main_v24_1) S1x1x64.size reads0_5 true false 2 stage0_5 sem0_5 nbuf0_5 hstage0_5

abbrev spec0_6 : Pipeline.WinSpec sig grid0.rank :=
  Pipeline.WinSpec.ofSpec (Memref.whole main_v24_2) S1x1x64.size reads0_6 true false 2 stage0_6 sem0_6 nbuf0_6 hstage0_6

abbrev spec0_7 : Pipeline.WinSpec sig grid0.rank :=
  Pipeline.WinSpec.ofSpec (Memref.whole main_v24_3) S1x1x64.size reads0_7 true false 2 stage0_7 sem0_7 nbuf0_7 hstage0_7

abbrev spec0 : Fin 8 → Pipeline.WinSpec sig grid0.rank := fun | 0 => spec0_0 | 1 => spec0_1 | 2 => spec0_2 | 3 => spec0_3 | 4 => spec0_4 | 5 => spec0_5 | 6 => spec0_6 | 7 => spec0_7 | ⟨_ + 8, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | ⟨_ + 8, h⟩ => absurd h (Nat.not_lt.2 (Nat.le_add_left _ _))
abbrev ix0 (pf : pre0.Contents (Elt F)) : (w : Fin 8) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | 4 => cc0_transform_4 | 5 => cc0_transform_5 | 6 => cc0_transform_6 | 7 => cc0_transform_7 | ⟨_ + 8, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | 4 => hreads0_4 | 5 => hreads0_5 | 6 => hreads0_6 | 7 => hreads0_7 | ⟨_ + 8, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x64.size a ≤ S1000000x1x64.size a), EltTy.bits .f32 = 32 ∨ (Rect.block (s := S1000000x1x64) S1x1x64.size (cc0_transform_0 k0_off1_inb numel1_S1 pf i) h).WholeWords (EltTy.packing .f32)) ∧
  (∀ i : grid0.Coords, ∃ h : (∀ a, (cc0_transform_1 k0_off1_inb numel1_S1 pf i a + 1) * S1x1x64.size a ≤ S500000x1x64.size a), EltTy.bits .f32 = 32 ∨ (Rect.block (s := S500000x1x64) S1x1x64.size (cc0_transform_1 k0_off1_inb numel1_S1 pf i) h).WholeWords (EltTy.packing .f32)) ∧
  (∀ i : grid0.Coords, ∃ h : (∀ a, (cc0_transform_2 k0_off1_inb numel1_S1 pf i a + 1) * S1x1x64.size a ≤ S500000x1x64.size a), EltTy.bits .f32 = 32 ∨ (Rect.block (s := S500000x1x64) S1x1x64.size (cc0_transform_2 k0_off1_inb numel1_S1 pf i) h).WholeWords (EltTy.packing .f32)) ∧
  (∀ i : grid0.Coords, ∃ h : (∀ a, (cc0_transform_3 k0_off1_inb numel1_S1 pf i a + 1) * S1x1x64.size a ≤ S500000x1x64.size a), EltTy.bits .f32 = 32 ∨ (Rect.block (s := S500000x1x64) S1x1x64.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb0_4 | 5 => hinb0_5 | 6 => hinb0_6 | 7 => hinb0_7 | ⟨_ + 8, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx0_4 | 5 => hwx0_5 | 6 => hwx0_6 | 7 => hwx0_7 | ⟨_ + 8, h⟩ => absurd h (Nat.not_lt.2 (Nat.le_add_left _ _))
abbrev win1_0 : Pipeline.Window sig grid1 :=
  Pipeline.Window.ofSpec (Memref.whole main_v25) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S64x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S4096x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v26) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S64x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S4096x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v26) S4096x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S64x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S4096x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v27) S4096x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v19) S64x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v32) S4096x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v28) S4096x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v19) S64x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v33) S4096x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v29) S16384x256.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v34) S16384x256.size cc6_transform_1 reads6_1 true true 1 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

abbrev win7_0 : Pipeline.Window sig grid7 :=
  Pipeline.Window.ofSpec (Memref.whole main_v30) S16384x256.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_v35) S16384x256.size cc7_transform_1 reads7_1 true true 1 stage7_1 sem7_1
    hrank7 hreads7_1 hinb7_1 nbuf7_1 (Memref.isWhole_whole _) hwx7_1 hstage7_1

abbrev win7 : Fin 2 → Pipeline.Window sig grid7 := fun | 0 => win7_0 | 1 => win7_1 | ⟨_ + 2, h⟩ => absurd h (Nat.not_lt.2 (Nat.le_add_left _ _))
abbrev spec7 : Fin 2 → Pipeline.WinSpec sig grid7.rank := fun w => (win7 w).toWinSpec

abbrev win8_0 : Pipeline.Window sig grid8 :=
  Pipeline.Window.ofSpec (Memref.whole main_v31) S16384x256.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_v36) S16384x256.size cc8_transform_1 reads8_1 true true 1 stage8_1 sem8_1
    hrank8 hreads8_1 hinb8_1 nbuf8_1 (Memref.isWhole_whole _) hwx8_1 hstage8_1

abbrev win8 : Fin 2 → Pipeline.Window sig grid8 := fun | 0 => win8_0 | 1 => win8_1 | ⟨_ + 2, h⟩ => absurd h (Nat.not_lt.2 (Nat.le_add_left _ _))
abbrev spec8 : Fin 2 → Pipeline.WinSpec sig grid8.rank := fun w => (win8 w).toWinSpec

abbrev win9_0 : Pipeline.Window sig grid9 :=
  Pipeline.Window.ofSpec (Memref.whole main_v32) S16384x256.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_v37) S16384x256.size cc9_transform_1 reads9_1 true true 1 stage9_1 sem9_1
    hrank9 hreads9_1 hinb9_1 nbuf9_1 (Memref.isWhole_whole _) hwx9_1 hstage9_1

abbrev win9 : Fin 2 → Pipeline.Window sig grid9 := fun | 0 => win9_0 | 1 => win9_1 | ⟨_ + 2, h⟩ => absurd h (Nat.not_lt.2 (Nat.le_add_left _ _))
abbrev spec9 : Fin 2 → Pipeline.WinSpec sig grid9.rank := fun w => (win9 w).toWinSpec

abbrev win10_0 : Pipeline.Window sig grid10 :=
  Pipeline.Window.ofSpec (Memref.whole main_v33) S16384x256.size cc10_transform_0 reads10_0 false true 1 stage10_0 sem10_0
    hrank10 hreads10_0 hinb10_0 nbuf10_0 (Memref.isWhole_whole _) hwx10_0 hstage10_0

abbrev win10_1 : Pipeline.Window sig grid10 :=
  Pipeline.Window.ofSpec (Memref.whole main_v38) S16384x256.size cc10_transform_1 reads10_1 true true 1 stage10_1 sem10_1
    hrank10 hreads10_1 hinb10_1 nbuf10_1 (Memref.isWhole_whole _) hwx10_1 hstage10_1

abbrev win10 : Fin 2 → Pipeline.Window sig grid10 := fun | 0 => win10_0 | 1 => win10_1 | ⟨_ + 2, h⟩ => absurd h (Nat.not_lt.2 (Nat.le_add_left _ _))
abbrev spec10 : Fin 2 → Pipeline.WinSpec sig grid10.rank := fun w => (win10 w).toWinSpec

abbrev win11_0 : Pipeline.Window sig grid11 :=
  Pipeline.Window.ofSpec (Memref.whole main_v34) S2048x256.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v30) S2048x256.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v1) S1x1.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v39) S1x1.size cc11_transform_3 reads11_3 true true 1 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev idle11 : Fin 4 → grid11.Coords → Bool := fun | 0 => fun _ => false | 1 => fun _ => false | 2 => fun _ => false | 3 => fun i => !(k11_cond2 i == 1#1) | ⟨_ + 4, h⟩ => absurd h (Nat.not_lt.2 (Nat.le_add_left _ _))

abbrev win12_0 : Pipeline.Window sig grid12 :=
  Pipeline.Window.ofSpec (Memref.whole main_v35) S2048x256.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v29) S2048x256.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v1) S1x1.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v41) S1x1.size cc12_transform_3 reads12_3 true true 1 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev idle12 : Fin 4 → grid12.Coords → Bool := fun | 0 => fun _ => false | 1 => fun _ => false | 2 => fun _ => false | 3 => fun i => !(k12_cond2 i == 1#1) | ⟨_ + 4, h⟩ => absurd h (Nat.not_lt.2 (Nat.le_add_left _ _))

abbrev win13_0 : Pipeline.Window sig grid13 :=
  Pipeline.Window.ofSpec (Memref.whole main_v36) S2048x256.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v32) S2048x256.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v1) S1x1.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v43) S1x1.size cc13_transform_3 reads13_3 true true 1 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev idle13 : Fin 4 → grid13.Coords → Bool := fun | 0 => fun _ => false | 1 => fun _ => false | 2 => fun _ => false | 3 => fun i => !(k13_cond2 i == 1#1) | ⟨_ + 4, h⟩ => absurd h (Nat.not_lt.2 (Nat.le_add_left _ _))

abbrev win14_0 : Pipeline.Window sig grid14 :=
  Pipeline.Window.ofSpec (Memref.whole main_v36) S2048x256.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v33) S2048x256.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v1) S1x1.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v45) S1x1.size cc14_transform_3 reads14_3 true true 1 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev idle14 : Fin 4 → grid14.Coords → Bool := fun | 0 => fun _ => false | 1 => fun _ => false | 2 => fun _ => false | 3 => fun i => !(k14_cond2 i == 1#1) | ⟨_ + 4, h⟩ => absurd h (Nat.not_lt.2 (Nat.le_add_left _ _))

abbrev win15_0 : Pipeline.Window sig grid15 :=
  Pipeline.Window.ofSpec (Memref.whole main_v37) S2048x256.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v31) S2048x256.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v1) S1x1.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v47) S1x1.size cc15_transform_3 reads15_3 true true 1 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev idle15 : Fin 4 → grid15.Coords → Bool := fun | 0 => fun _ => false | 1 => fun _ => false | 2 => fun _ => false | 3 => fun i => !(k15_cond2 i == 1#1) | ⟨_ + 4, h⟩ => absurd h (Nat.not_lt.2 (Nat.le_add_left _ _))

abbrev win16_0 : Pipeline.Window sig grid16 :=
  Pipeline.Window.ofSpec (Memref.whole main_v37) S2048x256.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v33) S2048x256.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v1) S1x1.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v49) S1x1.size cc16_transform_3 reads16_3 true true 1 stage16_3 sem16_3
    hrank16 hreads16_3 hinb16_3 nbuf16_3 (Memref.isWhole_whole _) hwx16_3 hstage16_3

abbrev win16 : Fin 4 → Pipeline.Window sig grid16 := fun | 0 => win16_0 | 1 => win16_1 | 2 => win16_2 | 3 => win16_3 | ⟨_ + 4, h⟩ => absurd h (Nat.not_lt.2 (Nat.le_add_left _ _))
abbrev spec16 : Fin 4 → Pipeline.WinSpec sig grid16.rank := fun w => (win16 w).toWinSpec

abbrev idle16 : Fin 4 → grid16.Coords → Bool := fun | 0 => fun _ => false | 1 => fun _ => false | 2 => fun _ => false | 3 => fun i => !(k16_cond2 i == 1#1) | ⟨_ + 4, h⟩ => absurd h (Nat.not_lt.2 (Nat.le_add_left _ _))

abbrev win17_0 : Pipeline.Window sig grid17 :=
  Pipeline.Window.ofSpec (Memref.whole main_v38) S2048x256.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v31) S2048x256.size cc17_transform_1 reads17_1 false false 2 stage17_1 sem17_1
    hrank17 hreads17_1 hinb17_1 nbuf17_1 (Memref.isWhole_whole _) hwx17_1 hstage17_1

abbrev win17_2 : Pipeline.Window sig grid17 :=
  Pipeline.Window.ofSpec (Memref.whole main_v1) S1x1.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v51) S1x1.size cc17_transform_3 reads17_3 true true 1 stage17_3 sem17_3
    hrank17 hreads17_3 hinb17_3 nbuf17_3 (Memref.isWhole_whole _) hwx17_3 hstage17_3

abbrev win17 : Fin 4 → Pipeline.Window sig grid17 := fun | 0 => win17_0 | 1 => win17_1 | 2 => win17_2 | 3 => win17_3 | ⟨_ + 4, h⟩ => absurd h (Nat.not_lt.2 (Nat.le_add_left _ _))
abbrev spec17 : Fin 4 → Pipeline.WinSpec sig grid17.rank := fun w => (win17 w).toWinSpec

abbrev idle17 : Fin 4 → grid17.Coords → Bool := fun | 0 => fun _ => false | 1 => fun _ => false | 2 => fun _ => false | 3 => fun i => !(k17_cond2 i == 1#1) | ⟨_ + 4, h⟩ => absurd h (Nat.not_lt.2 (Nat.le_add_left _ _))

abbrev win18_0 : Pipeline.Window sig grid18 :=
  Pipeline.Window.ofSpec (Memref.whole main_v38) S2048x256.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v32) S2048x256.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v1) S1x1.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v53) S1x1.size cc18_transform_3 reads18_3 true true 1 stage18_3 sem18_3
    hrank18 hreads18_3 hinb18_3 nbuf18_3 (Memref.isWhole_whole _) hwx18_3 hstage18_3

abbrev win18 : Fin 4 → Pipeline.Window sig grid18 := fun | 0 => win18_0 | 1 => win18_1 | 2 => win18_2 | 3 => win18_3 | ⟨_ + 4, h⟩ => absurd h (Nat.not_lt.2 (Nat.le_add_left _ _))
abbrev spec18 : Fin 4 → Pipeline.WinSpec sig grid18.rank := fun w => (win18 w).toWinSpec

abbrev idle18 : Fin 4 → grid18.Coords → Bool := fun | 0 => fun _ => false | 1 => fun _ => false | 2 => fun _ => false | 3 => fun i => !(k18_cond2 i == 1#1) | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S1000000x64 : Shape := ⟨2, ![1000000, 64]⟩
abbrev S500000x64 : Shape := ⟨2, ![500000, 64]⟩
abbrev S16384 : Shape := ⟨1, ![16384]⟩
abbrev S256x64 : Shape := ⟨2, ![256, 64]⟩
abbrev S_ : Shape := ⟨0, ![]⟩
abbrev S256 : Shape := ⟨1, ![256]⟩
abbrev S256x1 : Shape := ⟨2, ![256, 1]⟩
abbrev S16384x1 : Shape := ⟨2, ![16384, 1]⟩
abbrev S16384x64 : Shape := ⟨2, ![16384, 64]⟩
abbrev S64x256 : Shape := ⟨2, ![64, 256]⟩
abbrev S16384x256 : Shape := ⟨2, ![16384, 256]⟩
abbrev S256x16384 : Shape := ⟨2, ![256, 16384]⟩
abbrev S1x16384 : Shape := ⟨2, ![1, 16384]⟩

abbrev nBuf : Space → Nat
  | .hbm => 643
  | .vmem => 0
  | .smem => 0
  | _ => 0

abbrev hbmTy0_0 (i : Nat) : BufTy := match i % 128 with
  | 0 => ⟨S1000000x64, .f32⟩
  | 1 => ⟨S500000x64, .f32⟩
  | 2 => ⟨S500000x64, .f32⟩
  | 3 => ⟨S500000x64, .f32⟩
  | 4 => ⟨S16384, .i32⟩
  | 5 => ⟨S16384, .i32⟩
  | 6 => ⟨S256x64, .f32⟩
  | 7 => ⟨S256x64, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S256x64, .f32⟩
  | 18 => ⟨S_, .f32⟩
  | 19 => ⟨S256, .f32⟩
  | 20 => ⟨S256x1, .f32⟩
  | 21 => ⟨S256x1, .f32⟩
  | 22 => ⟨S_, .f32⟩
  | 23 => ⟨S256x1, .f32⟩
  | 24 => ⟨S256x1, .f32⟩
  | 25 => ⟨S256x64, .f32⟩
  | 26 => ⟨S256x64, .f32⟩
  | 27 => ⟨S256x64, .f32⟩
  | 28 => ⟨S256x64, .f32⟩
  | 29 => ⟨S256x64, .f32⟩
  | 30 => ⟨S_, .f32⟩
  | 31 => ⟨S256, .f32⟩
  | 32 => ⟨S256x1, .f32⟩
  | 33 => ⟨S256x1, .f32⟩
  | 34 => ⟨S_, .f32⟩
  | 35 => ⟨S256x1, .f32⟩
  | 36 => ⟨S256x1, .f32⟩
  | 37 => ⟨S256x64, .f32⟩
  | 38 => ⟨S256x64, .f32⟩
  | 39 => ⟨S256x64, .f32⟩
  | 40 => ⟨S256x64, .f32⟩
  | 41 => ⟨S_, .i32⟩
  | 42 => ⟨S16384, .i32⟩
  | 43 => ⟨S16384, .i1⟩
  | 44 => ⟨S_, .i32⟩
  | 45 => ⟨S16384, .i32⟩
  | 46 => ⟨S16384, .i32⟩
  | 47 => ⟨S16384, .i32⟩
  | 48 => ⟨S16384x1, .i32⟩
  | 49 => ⟨S16384x64, .f32⟩
  | 50 => ⟨S16384x64, .f32⟩
  | 51 => ⟨S_, .f32⟩
  | 52 => ⟨S16384, .f32⟩
  | 53 => ⟨S16384x1, .f32⟩
  | 54 => ⟨S16384x1, .f32⟩
  | 55 => ⟨S_, .f32⟩
  | 56 => ⟨S16384x1, .f32⟩
  | 57 => ⟨S16384x1, .f32⟩
  | 58 => ⟨S16384x64, .f32⟩
  | 59 => ⟨S16384x64, .f32⟩
  | 60 => ⟨S_, .i32⟩
  | 61 => ⟨S16384, .i32⟩
  | 62 => ⟨S16384, .i1⟩
  | 63 => ⟨S_, .i32⟩
  | 64 => ⟨S16384, .i32⟩
  | 65 => ⟨S16384, .i32⟩
  | 66 => ⟨S16384, .i32⟩
  | 67 => ⟨S16384x1, .i32⟩
  | 68 => ⟨S16384x64, .f32⟩
  | 69 => ⟨S16384x64, .f32⟩
  | 70 => ⟨S_, .f32⟩
  | 71 => ⟨S16384, .f32⟩
  | 72 => ⟨S16384x1, .f32⟩
  | 73 => ⟨S16384x1, .f32⟩
  | 74 => ⟨S_, .f32⟩
  | 75 => ⟨S16384x1, .f32⟩
  | 76 => ⟨S16384x1, .f32⟩
  | 77 => ⟨S16384x64, .f32⟩
  | 78 => ⟨S16384x64, .f32⟩
  | 79 => ⟨S_, .i32⟩
  | 80 => ⟨S16384, .i32⟩
  | 81 => ⟨S16384, .i1⟩
  | 82 => ⟨S_, .i32⟩
  | 83 => ⟨S16384, .i32⟩
  | 84 => ⟨S16384, .i32⟩
  | 85 => ⟨S16384, .i32⟩
  | 86 => ⟨S16384x1, .i32⟩
  | 87 => ⟨S16384x64, .f32⟩
  | 88 => ⟨S16384x64, .f32⟩
  | 89 => ⟨S_, .f32⟩
  | 90 => ⟨S16384, .f32⟩
  | 91 => ⟨S16384x1, .f32⟩
  | 92 => ⟨S16384x1, .f32⟩
  | 93 => ⟨S_, .f32⟩
  | 94 => ⟨S16384x1, .f32⟩
  | 95 => ⟨S16384x1, .f32⟩
  | 96 => ⟨S16384x64, .f32⟩
  | 97 => ⟨S16384x64, .f32⟩
  | 98 => ⟨S_, .i32⟩
  | 99 => ⟨S16384, .i32⟩
  | 100 => ⟨S16384, .i1⟩
  | 101 => ⟨S_, .i32⟩
  | 102 => ⟨S16384, .i32⟩
  | 103 => ⟨S16384, .i32⟩
  | 104 => ⟨S16384, .i32⟩
  | 105 => ⟨S16384x1, .i32⟩
  | 106 => ⟨S16384x64, .f32⟩
  | 107 => ⟨S16384x64, .f32⟩
  | 108 => ⟨S_, .f32⟩
  | 109 => ⟨S16384, .f32⟩
  | 110 => ⟨S16384x1, .f32⟩
  | 111 => ⟨S16384x1, .f32⟩
  | 112 => ⟨S_, .f32⟩
  | 113 => ⟨S16384x1, .f32⟩
  | 114 => ⟨S16384x1, .f32⟩
  | 115 => ⟨S16384x64, .f32⟩
  | 116 => ⟨S16384x64, .f32⟩
  | 117 => ⟨S64x256, .f32⟩
  | 118 => ⟨S16384x256, .f32⟩
  | 119 => ⟨S64x256, .f32⟩
  | 120 => ⟨S16384x256, .f32⟩
  | 121 => ⟨S64x256, .f32⟩
  | 122 => ⟨S16384x256, .f32⟩
  | 123 => ⟨S64x256, .f32⟩
  | 124 => ⟨S16384x256, .f32⟩
  | 125 => ⟨S64x256, .f32⟩
  | 126 => ⟨S16384x256, .f32⟩
  | 127 => ⟨S_, .f32⟩
  | _ => ⟨S1000000x64, .f32⟩

abbrev hbmTy0_1 (i : Nat) : BufTy := match i % 128 with
  | 0 => ⟨S16384x256, .f32⟩
  | 1 => ⟨S16384x256, .f32⟩
  | 2 => ⟨S16384x256, .f32⟩
  | 3 => ⟨S256x16384, .f32⟩
  | 4 => ⟨S_, .f32⟩
  | 5 => ⟨S_, .f32⟩
  | 6 => ⟨S256x16384, .f32⟩
  | 7 => ⟨S256x16384, .f32⟩
  | 8 => ⟨S_, .f32⟩
  | 9 => ⟨S256, .f32⟩
  | 10 => ⟨S256x1, .f32⟩
  | 11 => ⟨S_, .f32⟩
  | 12 => ⟨S256x1, .f32⟩
  | 13 => ⟨S256x1, .f32⟩
  | 14 => ⟨S256x16384, .f32⟩
  | 15 => ⟨S256x16384, .f32⟩
  | 16 => ⟨S_, .f32⟩
  | 17 => ⟨S16384, .f32⟩
  | 18 => ⟨S1x16384, .f32⟩
  | 19 => ⟨S_, .f32⟩
  | 20 => ⟨S1x16384, .f32⟩
  | 21 => ⟨S1x16384, .f32⟩
  | 22 => ⟨S256x16384, .f32⟩
  | 23 => ⟨S256x16384, .f32⟩
  | 24 => ⟨S_, .f32⟩
  | 25 => ⟨S256, .f32⟩
  | 26 => ⟨S256x1, .f32⟩
  | 27 => ⟨S_, .f32⟩
  | 28 => ⟨S256x1, .f32⟩
  | 29 => ⟨S256x1, .f32⟩
  | 30 => ⟨S256x16384, .f32⟩
  | 31 => ⟨S256x16384, .f32⟩
  | 32 => ⟨S_, .f32⟩
  | 33 => ⟨S16384, .f32⟩
  | 34 => ⟨S1x16384, .f32⟩
  | 35 => ⟨S_, .f32⟩
  | 36 => ⟨S1x16384, .f32⟩
  | 37 => ⟨S1x16384, .f32⟩
  | 38 => ⟨S256x16384, .f32⟩
  | 39 => ⟨S256x16384, .f32⟩
  | 40 => ⟨S_, .f32⟩
  | 41 => ⟨S256, .f32⟩
  | 42 => ⟨S256x1, .f32⟩
  | 43 => ⟨S_, .f32⟩
  | 44 => ⟨S256x1, .f32⟩
  | 45 => ⟨S256x1, .f32⟩
  | 46 => ⟨S256x16384, .f32⟩
  | 47 => ⟨S256x16384, .f32⟩
  | 48 => ⟨S_, .f32⟩
  | 49 => ⟨S16384, .f32⟩
  | 50 => ⟨S1x16384, .f32⟩
  | 51 => ⟨S_, .f32⟩
  | 52 => ⟨S1x16384, .f32⟩
  | 53 => ⟨S1x16384, .f32⟩
  | 54 => ⟨S256x16384, .f32⟩
  | 55 => ⟨S256x16384, .f32⟩
  | 56 => ⟨S_, .f32⟩
  | 57 => ⟨S256x16384, .f32⟩
  | 58 => ⟨S256x16384, .f32⟩
  | 59 => ⟨S16384x256, .f32⟩
  | 60 => ⟨S_, .f32⟩
  | 61 => ⟨S16384x256, .f32⟩
  | 62 => ⟨S16384x256, .f32⟩
  | 63 => ⟨S16384x256, .f32⟩
  | 64 => ⟨S256x16384, .f32⟩
  | 65 => ⟨S_, .f32⟩
  | 66 => ⟨S_, .f32⟩
  | 67 => ⟨S256x16384, .f32⟩
  | 68 => ⟨S256x16384, .f32⟩
  | 69 => ⟨S_, .f32⟩
  | 70 => ⟨S256, .f32⟩
  | 71 => ⟨S256x1, .f32⟩
  | 72 => ⟨S_, .f32⟩
  | 73 => ⟨S256x1, .f32⟩
  | 74 => ⟨S256x1, .f32⟩
  | 75 => ⟨S256x16384, .f32⟩
  | 76 => ⟨S256x16384, .f32⟩
  | 77 => ⟨S_, .f32⟩
  | 78 => ⟨S16384, .f32⟩
  | 79 => ⟨S1x16384, .f32⟩
  | 80 => ⟨S_, .f32⟩
  | 81 => ⟨S1x16384, .f32⟩
  | 82 => ⟨S1x16384, .f32⟩
  | 83 => ⟨S256x16384, .f32⟩
  | 84 => ⟨S256x16384, .f32⟩
  | 85 => ⟨S_, .f32⟩
  | 86 => ⟨S256, .f32⟩
  | 87 => ⟨S256x1, .f32⟩
  | 88 => ⟨S_, .f32⟩
  | 89 => ⟨S256x1, .f32⟩
  | 90 => ⟨S256x1, .f32⟩
  | 91 => ⟨S256x16384, .f32⟩
  | 92 => ⟨S256x16384, .f32⟩
  | 93 => ⟨S_, .f32⟩
  | 94 => ⟨S16384, .f32⟩
  | 95 => ⟨S1x16384, .f32⟩
  | 96 => ⟨S_, .f32⟩
  | 97 => ⟨S1x16384, .f32⟩
  | 98 => ⟨S1x16384, .f32⟩
  | 99 => ⟨S256x16384, .f32⟩
  | 100 => ⟨S256x16384, .f32⟩
  | 101 => ⟨S_, .f32⟩
  | 102 => ⟨S256, .f32⟩
  | 103 => ⟨S256x1, .f32⟩
  | 104 => ⟨S_, .f32⟩
  | 105 => ⟨S256x1, .f32⟩
  | 106 => ⟨S256x1, .f32⟩
  | 107 => ⟨S256x16384, .f32⟩
  | 108 => ⟨S256x16384, .f32⟩
  | 109 => ⟨S_, .f32⟩
  | 110 => ⟨S16384, .f32⟩
  | 111 => ⟨S1x16384, .f32⟩
  | 112 => ⟨S_, .f32⟩
  | 113 => ⟨S1x16384, .f32⟩
  | 114 => ⟨S1x16384, .f32⟩
  | 115 => ⟨S256x16384, .f32⟩
  | 116 => ⟨S256x16384, .f32⟩
  | 117 => ⟨S_, .f32⟩
  | 118 => ⟨S256x16384, .f32⟩
  | 119 => ⟨S256x16384, .f32⟩
  | 120 => ⟨S16384x256, .f32⟩
  | 121 => ⟨S_, .f32⟩
  | 122 => ⟨S16384x256, .f32⟩
  | 123 => ⟨S16384x256, .f32⟩
  | 124 => ⟨S16384x256, .f32⟩
  | 125 => ⟨S256x16384, .f32⟩
  | 126 => ⟨S_, .f32⟩
  | 127 => ⟨S_, .f32⟩
  | _ => ⟨S1000000x64, .f32⟩

abbrev hbmTy0_2 (i : Nat) : BufTy := match i % 128 with
  | 0 => ⟨S256x16384, .f32⟩
  | 1 => ⟨S256x16384, .f32⟩
  | 2 => ⟨S_, .f32⟩
  | 3 => ⟨S256, .f32⟩
  | 4 => ⟨S256x1, .f32⟩
  | 5 => ⟨S_, .f32⟩
  | 6 => ⟨S256x1, .f32⟩
  | 7 => ⟨S256x1, .f32⟩
  | 8 => ⟨S256x16384, .f32⟩
  | 9 => ⟨S256x16384, .f32⟩
  | 10 => ⟨S_, .f32⟩
  | 11 => ⟨S16384, .f32⟩
  | 12 => ⟨S1x16384, .f32⟩
  | 13 => ⟨S_, .f32⟩
  | 14 => ⟨S1x16384, .f32⟩
  | 15 => ⟨S1x16384, .f32⟩
  | 16 => ⟨S256x16384, .f32⟩
  | 17 => ⟨S256x16384, .f32⟩
  | 18 => ⟨S_, .f32⟩
  | 19 => ⟨S256, .f32⟩
  | 20 => ⟨S256x1, .f32⟩
  | 21 => ⟨S_, .f32⟩
  | 22 => ⟨S256x1, .f32⟩
  | 23 => ⟨S256x1, .f32⟩
  | 24 => ⟨S256x16384, .f32⟩
  | 25 => ⟨S256x16384, .f32⟩
  | 26 => ⟨S_, .f32⟩
  | 27 => ⟨S16384, .f32⟩
  | 28 => ⟨S1x16384, .f32⟩
  | 29 => ⟨S_, .f32⟩
  | 30 => ⟨S1x16384, .f32⟩
  | 31 => ⟨S1x16384, .f32⟩
  | 32 => ⟨S256x16384, .f32⟩
  | 33 => ⟨S256x16384, .f32⟩
  | 34 => ⟨S_, .f32⟩
  | 35 => ⟨S256, .f32⟩
  | 36 => ⟨S256x1, .f32⟩
  | 37 => ⟨S_, .f32⟩
  | 38 => ⟨S256x1, .f32⟩
  | 39 => ⟨S256x1, .f32⟩
  | 40 => ⟨S256x16384, .f32⟩
  | 41 => ⟨S256x16384, .f32⟩
  | 42 => ⟨S_, .f32⟩
  | 43 => ⟨S16384, .f32⟩
  | 44 => ⟨S1x16384, .f32⟩
  | 45 => ⟨S_, .f32⟩
  | 46 => ⟨S1x16384, .f32⟩
  | 47 => ⟨S1x16384, .f32⟩
  | 48 => ⟨S256x16384, .f32⟩
  | 49 => ⟨S256x16384, .f32⟩
  | 50 => ⟨S_, .f32⟩
  | 51 => ⟨S256x16384, .f32⟩
  | 52 => ⟨S256x16384, .f32⟩
  | 53 => ⟨S16384x256, .f32⟩
  | 54 => ⟨S_, .f32⟩
  | 55 => ⟨S16384x256, .f32⟩
  | 56 => ⟨S16384x256, .f32⟩
  | 57 => ⟨S16384x256, .f32⟩
  | 58 => ⟨S256x16384, .f32⟩
  | 59 => ⟨S_, .f32⟩
  | 60 => ⟨S_, .f32⟩
  | 61 => ⟨S256x16384, .f32⟩
  | 62 => ⟨S256x16384, .f32⟩
  | 63 => ⟨S_, .f32⟩
  | 64 => ⟨S256, .f32⟩
  | 65 => ⟨S256x1, .f32⟩
  | 66 => ⟨S_, .f32⟩
  | 67 => ⟨S256x1, .f32⟩
  | 68 => ⟨S256x1, .f32⟩
  | 69 => ⟨S256x16384, .f32⟩
  | 70 => ⟨S256x16384, .f32⟩
  | 71 => ⟨S_, .f32⟩
  | 72 => ⟨S16384, .f32⟩
  | 73 => ⟨S1x16384, .f32⟩
  | 74 => ⟨S_, .f32⟩
  | 75 => ⟨S1x16384, .f32⟩
  | 76 => ⟨S1x16384, .f32⟩
  | 77 => ⟨S256x16384, .f32⟩
  | 78 => ⟨S256x16384, .f32⟩
  | 79 => ⟨S_, .f32⟩
  | 80 => ⟨S256, .f32⟩
  | 81 => ⟨S256x1, .f32⟩
  | 82 => ⟨S_, .f32⟩
  | 83 => ⟨S256x1, .f32⟩
  | 84 => ⟨S256x1, .f32⟩
  | 85 => ⟨S256x16384, .f32⟩
  | 86 => ⟨S256x16384, .f32⟩
  | 87 => ⟨S_, .f32⟩
  | 88 => ⟨S16384, .f32⟩
  | 89 => ⟨S1x16384, .f32⟩
  | 90 => ⟨S_, .f32⟩
  | 91 => ⟨S1x16384, .f32⟩
  | 92 => ⟨S1x16384, .f32⟩
  | 93 => ⟨S256x16384, .f32⟩
  | 94 => ⟨S256x16384, .f32⟩
  | 95 => ⟨S_, .f32⟩
  | 96 => ⟨S256, .f32⟩
  | 97 => ⟨S256x1, .f32⟩
  | 98 => ⟨S_, .f32⟩
  | 99 => ⟨S256x1, .f32⟩
  | 100 => ⟨S256x1, .f32⟩
  | 101 => ⟨S256x16384, .f32⟩
  | 102 => ⟨S256x16384, .f32⟩
  | 103 => ⟨S_, .f32⟩
  | 104 => ⟨S16384, .f32⟩
  | 105 => ⟨S1x16384, .f32⟩
  | 106 => ⟨S_, .f32⟩
  | 107 => ⟨S1x16384, .f32⟩
  | 108 => ⟨S1x16384, .f32⟩
  | 109 => ⟨S256x16384, .f32⟩
  | 110 => ⟨S256x16384, .f32⟩
  | 111 => ⟨S_, .f32⟩
  | 112 => ⟨S256x16384, .f32⟩
  | 113 => ⟨S256x16384, .f32⟩
  | 114 => ⟨S16384x256, .f32⟩
  | 115 => ⟨S_, .f32⟩
  | 116 => ⟨S16384x256, .f32⟩
  | 117 => ⟨S16384x256, .f32⟩
  | 118 => ⟨S16384x256, .f32⟩
  | 119 => ⟨S256x16384, .f32⟩
  | 120 => ⟨S_, .f32⟩
  | 121 => ⟨S_, .f32⟩
  | 122 => ⟨S256x16384, .f32⟩
  | 123 => ⟨S256x16384, .f32⟩
  | 124 => ⟨S_, .f32⟩
  | 125 => ⟨S256, .f32⟩
  | 126 => ⟨S256x1, .f32⟩
  | 127 => ⟨S_, .f32⟩
  | _ => ⟨S1000000x64, .f32⟩

abbrev hbmTy0_3 (i : Nat) : BufTy := match i % 128 with
  | 0 => ⟨S256x1, .f32⟩
  | 1 => ⟨S256x1, .f32⟩
  | 2 => ⟨S256x16384, .f32⟩
  | 3 => ⟨S256x16384, .f32⟩
  | 4 => ⟨S_, .f32⟩
  | 5 => ⟨S16384, .f32⟩
  | 6 => ⟨S1x16384, .f32⟩
  | 7 => ⟨S_, .f32⟩
  | 8 => ⟨S1x16384, .f32⟩
  | 9 => ⟨S1x16384, .f32⟩
  | 10 => ⟨S256x16384, .f32⟩
  | 11 => ⟨S256x16384, .f32⟩
  | 12 => ⟨S_, .f32⟩
  | 13 => ⟨S256, .f32⟩
  | 14 => ⟨S256x1, .f32⟩
  | 15 => ⟨S_, .f32⟩
  | 16 => ⟨S256x1, .f32⟩
  | 17 => ⟨S256x1, .f32⟩
  | 18 => ⟨S256x16384, .f32⟩
  | 19 => ⟨S256x16384, .f32⟩
  | 20 => ⟨S_, .f32⟩
  | 21 => ⟨S16384, .f32⟩
  | 22 => ⟨S1x16384, .f32⟩
  | 23 => ⟨S_, .f32⟩
  | 24 => ⟨S1x16384, .f32⟩
  | 25 => ⟨S1x16384, .f32⟩
  | 26 => ⟨S256x16384, .f32⟩
  | 27 => ⟨S256x16384, .f32⟩
  | 28 => ⟨S_, .f32⟩
  | 29 => ⟨S256, .f32⟩
  | 30 => ⟨S256x1, .f32⟩
  | 31 => ⟨S_, .f32⟩
  | 32 => ⟨S256x1, .f32⟩
  | 33 => ⟨S256x1, .f32⟩
  | 34 => ⟨S256x16384, .f32⟩
  | 35 => ⟨S256x16384, .f32⟩
  | 36 => ⟨S_, .f32⟩
  | 37 => ⟨S16384, .f32⟩
  | 38 => ⟨S1x16384, .f32⟩
  | 39 => ⟨S_, .f32⟩
  | 40 => ⟨S1x16384, .f32⟩
  | 41 => ⟨S1x16384, .f32⟩
  | 42 => ⟨S256x16384, .f32⟩
  | 43 => ⟨S256x16384, .f32⟩
  | 44 => ⟨S_, .f32⟩
  | 45 => ⟨S256x16384, .f32⟩
  | 46 => ⟨S256x16384, .f32⟩
  | 47 => ⟨S16384x256, .f32⟩
  | 48 => ⟨S16384x256, .f32⟩
  | 49 => ⟨S16384x256, .f32⟩
  | 50 => ⟨S_, .f32⟩
  | 51 => ⟨S16384, .f32⟩
  | 52 => ⟨S_, .f32⟩
  | 53 => ⟨S16384, .f32⟩
  | 54 => ⟨S16384, .f32⟩
  | 55 => ⟨S16384x1, .f32⟩
  | 56 => ⟨S16384x256, .f32⟩
  | 57 => ⟨S16384x256, .f32⟩
  | 58 => ⟨S16384x256, .f32⟩
  | 59 => ⟨S_, .f32⟩
  | 60 => ⟨S16384, .f32⟩
  | 61 => ⟨S16384x1, .f32⟩
  | 62 => ⟨S16384x1, .f32⟩
  | 63 => ⟨S16384x256, .f32⟩
  | 64 => ⟨S16384x256, .f32⟩
  | 65 => ⟨S16384x256, .f32⟩
  | 66 => ⟨S_, .f32⟩
  | 67 => ⟨S16384, .f32⟩
  | 68 => ⟨S_, .f32⟩
  | 69 => ⟨S_, .f32⟩
  | 70 => ⟨S_, .f32⟩
  | 71 => ⟨S_, .f32⟩
  | 72 => ⟨S_, .f32⟩
  | 73 => ⟨S16384x256, .f32⟩
  | 74 => ⟨S16384x256, .f32⟩
  | 75 => ⟨S_, .f32⟩
  | 76 => ⟨S16384, .f32⟩
  | 77 => ⟨S_, .f32⟩
  | 78 => ⟨S16384, .f32⟩
  | 79 => ⟨S16384, .f32⟩
  | 80 => ⟨S16384x1, .f32⟩
  | 81 => ⟨S16384x256, .f32⟩
  | 82 => ⟨S16384x256, .f32⟩
  | 83 => ⟨S16384x256, .f32⟩
  | 84 => ⟨S_, .f32⟩
  | 85 => ⟨S16384, .f32⟩
  | 86 => ⟨S16384x1, .f32⟩
  | 87 => ⟨S16384x1, .f32⟩
  | 88 => ⟨S16384x256, .f32⟩
  | 89 => ⟨S16384x256, .f32⟩
  | 90 => ⟨S16384x256, .f32⟩
  | 91 => ⟨S_, .f32⟩
  | 92 => ⟨S16384, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S16384x256, .f32⟩
  | 100 => ⟨S16384x256, .f32⟩
  | 101 => ⟨S_, .f32⟩
  | 102 => ⟨S16384, .f32⟩
  | 103 => ⟨S_, .f32⟩
  | 104 => ⟨S16384, .f32⟩
  | 105 => ⟨S16384, .f32⟩
  | 106 => ⟨S16384x1, .f32⟩
  | 107 => ⟨S16384x256, .f32⟩
  | 108 => ⟨S16384x256, .f32⟩
  | 109 => ⟨S16384x256, .f32⟩
  | 110 => ⟨S_, .f32⟩
  | 111 => ⟨S16384, .f32⟩
  | 112 => ⟨S16384x1, .f32⟩
  | 113 => ⟨S16384x1, .f32⟩
  | 114 => ⟨S16384x256, .f32⟩
  | 115 => ⟨S16384x256, .f32⟩
  | 116 => ⟨S16384x256, .f32⟩
  | 117 => ⟨S_, .f32⟩
  | 118 => ⟨S16384, .f32⟩
  | 119 => ⟨S_, .f32⟩
  | 120 => ⟨S_, .f32⟩
  | 121 => ⟨S_, .f32⟩
  | 122 => ⟨S_, .f32⟩
  | 123 => ⟨S_, .f32⟩
  | 124 => ⟨S16384x256, .f32⟩
  | 125 => ⟨S16384x256, .f32⟩
  | 126 => ⟨S_, .f32⟩
  | 127 => ⟨S16384, .f32⟩
  | _ => ⟨S1000000x64, .f32⟩

abbrev hbmTy0_4 (i : Nat) : BufTy := match i % 128 with
  | 0 => ⟨S_, .f32⟩
  | 1 => ⟨S16384, .f32⟩
  | 2 => ⟨S16384, .f32⟩
  | 3 => ⟨S16384x1, .f32⟩
  | 4 => ⟨S16384x256, .f32⟩
  | 5 => ⟨S16384x256, .f32⟩
  | 6 => ⟨S16384x256, .f32⟩
  | 7 => ⟨S_, .f32⟩
  | 8 => ⟨S16384, .f32⟩
  | 9 => ⟨S16384x1, .f32⟩
  | 10 => ⟨S16384x1, .f32⟩
  | 11 => ⟨S16384x256, .f32⟩
  | 12 => ⟨S16384x256, .f32⟩
  | 13 => ⟨S16384x256, .f32⟩
  | 14 => ⟨S_, .f32⟩
  | 15 => ⟨S16384, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S16384x256, .f32⟩
  | 23 => ⟨S16384x256, .f32⟩
  | 24 => ⟨S_, .f32⟩
  | 25 => ⟨S16384, .f32⟩
  | 26 => ⟨S_, .f32⟩
  | 27 => ⟨S16384, .f32⟩
  | 28 => ⟨S16384, .f32⟩
  | 29 => ⟨S16384x1, .f32⟩
  | 30 => ⟨S16384x256, .f32⟩
  | 31 => ⟨S16384x256, .f32⟩
  | 32 => ⟨S16384x256, .f32⟩
  | 33 => ⟨S_, .f32⟩
  | 34 => ⟨S16384, .f32⟩
  | 35 => ⟨S16384x1, .f32⟩
  | 36 => ⟨S16384x1, .f32⟩
  | 37 => ⟨S16384x256, .f32⟩
  | 38 => ⟨S16384x256, .f32⟩
  | 39 => ⟨S16384x256, .f32⟩
  | 40 => ⟨S_, .f32⟩
  | 41 => ⟨S16384, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S16384x256, .f32⟩
  | 49 => ⟨S16384x256, .f32⟩
  | 50 => ⟨S_, .f32⟩
  | 51 => ⟨S16384, .f32⟩
  | 52 => ⟨S_, .f32⟩
  | 53 => ⟨S16384, .f32⟩
  | 54 => ⟨S16384, .f32⟩
  | 55 => ⟨S16384x1, .f32⟩
  | 56 => ⟨S16384x256, .f32⟩
  | 57 => ⟨S16384x256, .f32⟩
  | 58 => ⟨S16384x256, .f32⟩
  | 59 => ⟨S_, .f32⟩
  | 60 => ⟨S16384, .f32⟩
  | 61 => ⟨S16384x1, .f32⟩
  | 62 => ⟨S16384x1, .f32⟩
  | 63 => ⟨S16384x256, .f32⟩
  | 64 => ⟨S16384x256, .f32⟩
  | 65 => ⟨S16384x256, .f32⟩
  | 66 => ⟨S_, .f32⟩
  | 67 => ⟨S16384, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S16384x256, .f32⟩
  | 75 => ⟨S16384x256, .f32⟩
  | 76 => ⟨S_, .f32⟩
  | 77 => ⟨S16384, .f32⟩
  | 78 => ⟨S_, .f32⟩
  | 79 => ⟨S16384, .f32⟩
  | 80 => ⟨S16384, .f32⟩
  | 81 => ⟨S16384x1, .f32⟩
  | 82 => ⟨S16384x256, .f32⟩
  | 83 => ⟨S16384x256, .f32⟩
  | 84 => ⟨S16384x256, .f32⟩
  | 85 => ⟨S_, .f32⟩
  | 86 => ⟨S16384, .f32⟩
  | 87 => ⟨S16384x1, .f32⟩
  | 88 => ⟨S16384x1, .f32⟩
  | 89 => ⟨S16384x256, .f32⟩
  | 90 => ⟨S16384x256, .f32⟩
  | 91 => ⟨S16384x256, .f32⟩
  | 92 => ⟨S_, .f32⟩
  | 93 => ⟨S16384, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S16384x256, .f32⟩
  | 101 => ⟨S16384x256, .f32⟩
  | 102 => ⟨S_, .f32⟩
  | 103 => ⟨S16384, .f32⟩
  | 104 => ⟨S_, .f32⟩
  | 105 => ⟨S16384, .f32⟩
  | 106 => ⟨S16384, .f32⟩
  | 107 => ⟨S16384x1, .f32⟩
  | 108 => ⟨S16384x256, .f32⟩
  | 109 => ⟨S16384x256, .f32⟩
  | 110 => ⟨S16384x256, .f32⟩
  | 111 => ⟨S_, .f32⟩
  | 112 => ⟨S16384, .f32⟩
  | 113 => ⟨S16384x1, .f32⟩
  | 114 => ⟨S16384x1, .f32⟩
  | 115 => ⟨S16384x256, .f32⟩
  | 116 => ⟨S16384x256, .f32⟩
  | 117 => ⟨S16384x256, .f32⟩
  | 118 => ⟨S_, .f32⟩
  | 119 => ⟨S16384, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S1000000x64, .f32⟩

abbrev hbmTy0_5 (i : Nat) : BufTy := match i % 128 with
  | 0 => ⟨S_, .f32⟩
  | 1 => ⟨S_, .f32⟩
  | 2 => ⟨S_, .f32⟩
  | _ => ⟨S1000000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1000000x64, .f32⟩

abbrev bufTy : (tb : Table) → Fin (tcTables nBuf tb) → BufTy
  | .hbm, ⟨i, _⟩ => hbmTy i
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_11 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_12 : Ref sig .tc := ⟨.hbm, 79, rfl⟩
abbrev main_v53 : Ref sig .tc := ⟨.hbm, 80, rfl⟩
abbrev main_v54 : Ref sig .tc := ⟨.hbm, 81, rfl⟩
abbrev main_c_13 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_15 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_c_17 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_18 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_19 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_20 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_21 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_22 : Ref sig .tc := ⟨.hbm, 136, rfl⟩
abbrev main_v100 : Ref sig .tc := ⟨.hbm, 137, rfl⟩
abbrev main_v101 : Ref sig .tc := ⟨.hbm, 138, rfl⟩
abbrev main_cst_23 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_24 : Ref sig .tc := ⟨.hbm, 144, rfl⟩
abbrev main_v106 : Ref sig .tc := ⟨.hbm, 145, rfl⟩
abbrev main_v107 : Ref sig .tc := ⟨.hbm, 146, rfl⟩
abbrev main_cst_25 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_26 : Ref sig .tc := ⟨.hbm, 152, rfl⟩
abbrev main_v112 : Ref sig .tc := ⟨.hbm, 153, rfl⟩
abbrev main_v113 : Ref sig .tc := ⟨.hbm, 154, rfl⟩
abbrev main_cst_27 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_28 : Ref sig .tc := ⟨.hbm, 160, rfl⟩
abbrev main_v118 : Ref sig .tc := ⟨.hbm, 161, rfl⟩
abbrev main_v119 : Ref sig .tc := ⟨.hbm, 162, rfl⟩
abbrev main_cst_29 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_cst_30 : Ref sig .tc := ⟨.hbm, 168, rfl⟩
abbrev main_v124 : Ref sig .tc := ⟨.hbm, 169, rfl⟩
abbrev main_v125 : Ref sig .tc := ⟨.hbm, 170, rfl⟩
abbrev main_cst_31 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_cst_32 : Ref sig .tc := ⟨.hbm, 176, rfl⟩
abbrev main_v130 : Ref sig .tc := ⟨.hbm, 177, rfl⟩
abbrev main_v131 : Ref sig .tc := ⟨.hbm, 178, rfl⟩
abbrev main_cst_33 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_cst_34 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_cst_35 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_cst_36 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_cst_37 : Ref sig .tc := ⟨.hbm, 197, rfl⟩
abbrev main_v146 : Ref sig .tc := ⟨.hbm, 198, rfl⟩
abbrev main_v147 : Ref sig .tc := ⟨.hbm, 199, rfl⟩
abbrev main_cst_38 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_cst_39 : Ref sig .tc := ⟨.hbm, 205, rfl⟩
abbrev main_v152 : Ref sig .tc := ⟨.hbm, 206, rfl⟩
abbrev main_v153 : Ref sig .tc := ⟨.hbm, 207, rfl⟩
abbrev main_cst_40 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_cst_41 : Ref sig .tc := ⟨.hbm, 213, rfl⟩
abbrev main_v158 : Ref sig .tc := ⟨.hbm, 214, rfl⟩
abbrev main_v159 : Ref sig .tc := ⟨.hbm, 215, rfl⟩
abbrev main_cst_42 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_cst_43 : Ref sig .tc := ⟨.hbm, 221, rfl⟩
abbrev main_v164 : Ref sig .tc := ⟨.hbm, 222, rfl⟩
abbrev main_v165 : Ref sig .tc := ⟨.hbm, 223, rfl⟩
abbrev main_cst_44 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_cst_45 : Ref sig .tc := ⟨.hbm, 229, rfl⟩
abbrev main_v170 : Ref sig .tc := ⟨.hbm, 230, rfl⟩
abbrev main_v171 : Ref sig .tc := ⟨.hbm, 231, rfl⟩
abbrev main_cst_46 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_cst_47 : Ref sig .tc := ⟨.hbm, 237, rfl⟩
abbrev main_v176 : Ref sig .tc := ⟨.hbm, 238, rfl⟩
abbrev main_v177 : Ref sig .tc := ⟨.hbm, 239, rfl⟩
abbrev main_cst_48 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_cst_49 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_cst_50 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_cst_51 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_cst_52 : Ref sig .tc := ⟨.hbm, 258, rfl⟩
abbrev main_v192 : Ref sig .tc := ⟨.hbm, 259, rfl⟩
abbrev main_v193 : Ref sig .tc := ⟨.hbm, 260, rfl⟩
abbrev main_cst_53 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_cst_54 : Ref sig .tc := ⟨.hbm, 266, rfl⟩
abbrev main_v198 : Ref sig .tc := ⟨.hbm, 267, rfl⟩
abbrev main_v199 : Ref sig .tc := ⟨.hbm, 268, rfl⟩
abbrev main_cst_55 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_cst_56 : Ref sig .tc := ⟨.hbm, 274, rfl⟩
abbrev main_v204 : Ref sig .tc := ⟨.hbm, 275, rfl⟩
abbrev main_v205 : Ref sig .tc := ⟨.hbm, 276, rfl⟩
abbrev main_cst_57 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_cst_58 : Ref sig .tc := ⟨.hbm, 282, rfl⟩
abbrev main_v210 : Ref sig .tc := ⟨.hbm, 283, rfl⟩
abbrev main_v211 : Ref sig .tc := ⟨.hbm, 284, rfl⟩
abbrev main_cst_59 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_cst_60 : Ref sig .tc := ⟨.hbm, 290, rfl⟩
abbrev main_v216 : Ref sig .tc := ⟨.hbm, 291, rfl⟩
abbrev main_v217 : Ref sig .tc := ⟨.hbm, 292, rfl⟩
abbrev main_cst_61 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_cst_62 : Ref sig .tc := ⟨.hbm, 298, rfl⟩
abbrev main_v222 : Ref sig .tc := ⟨.hbm, 299, rfl⟩
abbrev main_v223 : Ref sig .tc := ⟨.hbm, 300, rfl⟩
abbrev main_cst_63 : Ref sig .tc := ⟨.hbm, 301, rfl⟩
abbrev main_v224 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_cst_64 : Ref sig .tc := ⟨.hbm, 306, rfl⟩
abbrev main_v228 : Ref sig .tc := ⟨.hbm, 307, rfl⟩
abbrev main_v229 : Ref sig .tc := ⟨.hbm, 308, rfl⟩
abbrev main_v230 : Ref sig .tc := ⟨.hbm, 309, rfl⟩
abbrev main_cst_65 : Ref sig .tc := ⟨.hbm, 310, rfl⟩
abbrev main_v231 : Ref sig .tc := ⟨.hbm, 311, rfl⟩
abbrev main_v232 : Ref sig .tc := ⟨.hbm, 312, rfl⟩
abbrev main_v233 : Ref sig .tc := ⟨.hbm, 313, rfl⟩
abbrev main_v234 : Ref sig .tc := ⟨.hbm, 314, rfl⟩
abbrev main_cst_66 : Ref sig .tc := ⟨.hbm, 315, rfl⟩
abbrev main_v235 : Ref sig .tc := ⟨.hbm, 316, rfl⟩
abbrev main_v236 : Ref sig .tc := ⟨.hbm, 317, rfl⟩
abbrev main_v237 : Ref sig .tc := ⟨.hbm, 318, rfl⟩
abbrev main_cst_67 : Ref sig .tc := ⟨.hbm, 319, rfl⟩
abbrev main_v238 : Ref sig .tc := ⟨.hbm, 320, rfl⟩
abbrev main_v239 : Ref sig .tc := ⟨.hbm, 321, rfl⟩
abbrev main_cst_68 : Ref sig .tc := ⟨.hbm, 322, rfl⟩
abbrev main_v240 : Ref sig .tc := ⟨.hbm, 323, rfl⟩
abbrev main_v241 : Ref sig .tc := ⟨.hbm, 324, rfl⟩
abbrev main_v242 : Ref sig .tc := ⟨.hbm, 325, rfl⟩
abbrev main_v243 : Ref sig .tc := ⟨.hbm, 326, rfl⟩
abbrev main_cst_69 : Ref sig .tc := ⟨.hbm, 327, rfl⟩
abbrev main_v244 : Ref sig .tc := ⟨.hbm, 328, rfl⟩
abbrev main_v245 : Ref sig .tc := ⟨.hbm, 329, rfl⟩
abbrev main_cst_70 : Ref sig .tc := ⟨.hbm, 330, rfl⟩
abbrev main_v246 : Ref sig .tc := ⟨.hbm, 331, rfl⟩
abbrev main_v247 : Ref sig .tc := ⟨.hbm, 332, rfl⟩
abbrev main_v248 : Ref sig .tc := ⟨.hbm, 333, rfl⟩
abbrev main_v249 : Ref sig .tc := ⟨.hbm, 334, rfl⟩
abbrev main_cst_71 : Ref sig .tc := ⟨.hbm, 335, rfl⟩
abbrev main_v250 : Ref sig .tc := ⟨.hbm, 336, rfl⟩
abbrev main_v251 : Ref sig .tc := ⟨.hbm, 337, rfl⟩
abbrev main_cst_72 : Ref sig .tc := ⟨.hbm, 338, rfl⟩
abbrev main_v252 : Ref sig .tc := ⟨.hbm, 339, rfl⟩
abbrev main_v253 : Ref sig .tc := ⟨.hbm, 340, rfl⟩
abbrev main_v254 : Ref sig .tc := ⟨.hbm, 341, rfl⟩
abbrev main_v255 : Ref sig .tc := ⟨.hbm, 342, rfl⟩
abbrev main_cst_73 : Ref sig .tc := ⟨.hbm, 343, rfl⟩
abbrev main_v256 : Ref sig .tc := ⟨.hbm, 344, rfl⟩
abbrev main_v257 : Ref sig .tc := ⟨.hbm, 345, rfl⟩
abbrev main_cst_74 : Ref sig .tc := ⟨.hbm, 346, rfl⟩
abbrev main_v258 : Ref sig .tc := ⟨.hbm, 347, rfl⟩
abbrev main_v259 : Ref sig .tc := ⟨.hbm, 348, rfl⟩
abbrev main_v260 : Ref sig .tc := ⟨.hbm, 349, rfl⟩
abbrev main_v261 : Ref sig .tc := ⟨.hbm, 350, rfl⟩
abbrev main_cst_75 : Ref sig .tc := ⟨.hbm, 351, rfl⟩
abbrev main_v262 : Ref sig .tc := ⟨.hbm, 352, rfl⟩
abbrev main_v263 : Ref sig .tc := ⟨.hbm, 353, rfl⟩
abbrev main_cst_76 : Ref sig .tc := ⟨.hbm, 354, rfl⟩
abbrev main_v264 : Ref sig .tc := ⟨.hbm, 355, rfl⟩
abbrev main_v265 : Ref sig .tc := ⟨.hbm, 356, rfl⟩
abbrev main_v266 : Ref sig .tc := ⟨.hbm, 357, rfl⟩
abbrev main_v267 : Ref sig .tc := ⟨.hbm, 358, rfl⟩
abbrev main_cst_77 : Ref sig .tc := ⟨.hbm, 359, rfl⟩
abbrev main_v268 : Ref sig .tc := ⟨.hbm, 360, rfl⟩
abbrev main_v269 : Ref sig .tc := ⟨.hbm, 361, rfl⟩
abbrev main_cst_78 : Ref sig .tc := ⟨.hbm, 362, rfl⟩
abbrev main_v270 : Ref sig .tc := ⟨.hbm, 363, rfl⟩
abbrev main_v271 : Ref sig .tc := ⟨.hbm, 364, rfl⟩
abbrev main_v272 : Ref sig .tc := ⟨.hbm, 365, rfl⟩
abbrev main_v273 : Ref sig .tc := ⟨.hbm, 366, rfl⟩
abbrev main_cst_79 : Ref sig .tc := ⟨.hbm, 367, rfl⟩
abbrev main_v274 : Ref sig .tc := ⟨.hbm, 368, rfl⟩
abbrev main_v275 : Ref sig .tc := ⟨.hbm, 369, rfl⟩
abbrev main_v276 : Ref sig .tc := ⟨.hbm, 370, rfl⟩
abbrev main_cst_80 : Ref sig .tc := ⟨.hbm, 371, rfl⟩
abbrev main_v277 : Ref sig .tc := ⟨.hbm, 372, rfl⟩
abbrev main_v278 : Ref sig .tc := ⟨.hbm, 373, rfl⟩
abbrev main_v279 : Ref sig .tc := ⟨.hbm, 374, rfl⟩
abbrev main_v280 : Ref sig .tc := ⟨.hbm, 375, rfl⟩
abbrev main_cst_81 : Ref sig .tc := ⟨.hbm, 376, rfl⟩
abbrev main_v281 : Ref sig .tc := ⟨.hbm, 377, rfl⟩
abbrev main_v282 : Ref sig .tc := ⟨.hbm, 378, rfl⟩
abbrev main_v283 : Ref sig .tc := ⟨.hbm, 379, rfl⟩
abbrev main_cst_82 : Ref sig .tc := ⟨.hbm, 380, rfl⟩
abbrev main_v284 : Ref sig .tc := ⟨.hbm, 381, rfl⟩
abbrev main_v285 : Ref sig .tc := ⟨.hbm, 382, rfl⟩
abbrev main_cst_83 : Ref sig .tc := ⟨.hbm, 383, rfl⟩
abbrev main_v286 : Ref sig .tc := ⟨.hbm, 384, rfl⟩
abbrev main_v287 : Ref sig .tc := ⟨.hbm, 385, rfl⟩
abbrev main_v288 : Ref sig .tc := ⟨.hbm, 386, rfl⟩
abbrev main_v289 : Ref sig .tc := ⟨.hbm, 387, rfl⟩
abbrev main_cst_84 : Ref sig .tc := ⟨.hbm, 388, rfl⟩
abbrev main_v290 : Ref sig .tc := ⟨.hbm, 389, rfl⟩
abbrev main_v291 : Ref sig .tc := ⟨.hbm, 390, rfl⟩
abbrev main_cst_85 : Ref sig .tc := ⟨.hbm, 391, rfl⟩
abbrev main_v292 : Ref sig .tc := ⟨.hbm, 392, rfl⟩
abbrev main_v293 : Ref sig .tc := ⟨.hbm, 393, rfl⟩
abbrev main_v294 : Ref sig .tc := ⟨.hbm, 394, rfl⟩
abbrev main_v295 : Ref sig .tc := ⟨.hbm, 395, rfl⟩
abbrev main_cst_86 : Ref sig .tc := ⟨.hbm, 396, rfl⟩
abbrev main_v296 : Ref sig .tc := ⟨.hbm, 397, rfl⟩
abbrev main_v297 : Ref sig .tc := ⟨.hbm, 398, rfl⟩
abbrev main_cst_87 : Ref sig .tc := ⟨.hbm, 399, rfl⟩
abbrev main_v298 : Ref sig .tc := ⟨.hbm, 400, rfl⟩
abbrev main_v299 : Ref sig .tc := ⟨.hbm, 401, rfl⟩
abbrev main_v300 : Ref sig .tc := ⟨.hbm, 402, rfl⟩
abbrev main_v301 : Ref sig .tc := ⟨.hbm, 403, rfl⟩
abbrev main_cst_88 : Ref sig .tc := ⟨.hbm, 404, rfl⟩
abbrev main_v302 : Ref sig .tc := ⟨.hbm, 405, rfl⟩
abbrev main_v303 : Ref sig .tc := ⟨.hbm, 406, rfl⟩
abbrev main_cst_89 : Ref sig .tc := ⟨.hbm, 407, rfl⟩
abbrev main_v304 : Ref sig .tc := ⟨.hbm, 408, rfl⟩
abbrev main_v305 : Ref sig .tc := ⟨.hbm, 409, rfl⟩
abbrev main_v306 : Ref sig .tc := ⟨.hbm, 410, rfl⟩
abbrev main_v307 : Ref sig .tc := ⟨.hbm, 411, rfl⟩
abbrev main_cst_90 : Ref sig .tc := ⟨.hbm, 412, rfl⟩
abbrev main_v308 : Ref sig .tc := ⟨.hbm, 413, rfl⟩
abbrev main_v309 : Ref sig .tc := ⟨.hbm, 414, rfl⟩
abbrev main_cst_91 : Ref sig .tc := ⟨.hbm, 415, rfl⟩
abbrev main_v310 : Ref sig .tc := ⟨.hbm, 416, rfl⟩
abbrev main_v311 : Ref sig .tc := ⟨.hbm, 417, rfl⟩
abbrev main_v312 : Ref sig .tc := ⟨.hbm, 418, rfl⟩
abbrev main_v313 : Ref sig .tc := ⟨.hbm, 419, rfl⟩
abbrev main_cst_92 : Ref sig .tc := ⟨.hbm, 420, rfl⟩
abbrev main_v314 : Ref sig .tc := ⟨.hbm, 421, rfl⟩
abbrev main_v315 : Ref sig .tc := ⟨.hbm, 422, rfl⟩
abbrev main_cst_93 : Ref sig .tc := ⟨.hbm, 423, rfl⟩
abbrev main_v316 : Ref sig .tc := ⟨.hbm, 424, rfl⟩
abbrev main_v317 : Ref sig .tc := ⟨.hbm, 425, rfl⟩
abbrev main_v318 : Ref sig .tc := ⟨.hbm, 426, rfl⟩
abbrev main_v319 : Ref sig .tc := ⟨.hbm, 427, rfl⟩
abbrev main_cst_94 : Ref sig .tc := ⟨.hbm, 428, rfl⟩
abbrev main_v320 : Ref sig .tc := ⟨.hbm, 429, rfl⟩
abbrev main_v321 : Ref sig .tc := ⟨.hbm, 430, rfl⟩
abbrev main_v322 : Ref sig .tc := ⟨.hbm, 431, rfl⟩
abbrev main_v323 : Ref sig .tc := ⟨.hbm, 432, rfl⟩
abbrev main_v324 : Ref sig .tc := ⟨.hbm, 433, rfl⟩
abbrev main_call1_cst : Ref sig .tc := ⟨.hbm, 434, rfl⟩
abbrev main_call1_v0 : Ref sig .tc := ⟨.hbm, 435, rfl⟩
abbrev main_call1_cst_0 : Ref sig .tc := ⟨.hbm, 436, rfl⟩
abbrev main_call1_v1 : Ref sig .tc := ⟨.hbm, 437, rfl⟩
abbrev main_call1_v2 : Ref sig .tc := ⟨.hbm, 438, rfl⟩
abbrev main_call1_v3 : Ref sig .tc := ⟨.hbm, 439, rfl⟩
abbrev main_call1_v4 : Ref sig .tc := ⟨.hbm, 440, rfl⟩
abbrev main_call1_v5 : Ref sig .tc := ⟨.hbm, 441, rfl⟩
abbrev main_call1_v6 : Ref sig .tc := ⟨.hbm, 442, rfl⟩
abbrev main_call1_cst_1 : Ref sig .tc := ⟨.hbm, 443, rfl⟩
abbrev main_call1_v7 : Ref sig .tc := ⟨.hbm, 444, rfl⟩
abbrev main_call1_v8 : Ref sig .tc := ⟨.hbm, 445, rfl⟩
abbrev main_call1_v9 : Ref sig .tc := ⟨.hbm, 446, rfl⟩
abbrev main_call1_v10 : Ref sig .tc := ⟨.hbm, 447, rfl⟩
abbrev main_v325 : Ref sig .tc := ⟨.hbm, 448, rfl⟩
abbrev main_v326 : Ref sig .tc := ⟨.hbm, 449, rfl⟩
abbrev main_cst_95 : Ref sig .tc := ⟨.hbm, 450, rfl⟩
abbrev main_v327 : Ref sig .tc := ⟨.hbm, 451, rfl⟩
abbrev main_cst_96 : Ref sig .tc := ⟨.hbm, 452, rfl⟩
abbrev main_v328 : Ref sig .tc := ⟨.hbm, 453, rfl⟩
abbrev main_cst_97 : Ref sig .tc := ⟨.hbm, 454, rfl⟩
abbrev main_v329 : Ref sig .tc := ⟨.hbm, 455, rfl⟩
abbrev main_v330 : Ref sig .tc := ⟨.hbm, 456, rfl⟩
abbrev main_v331 : Ref sig .tc := ⟨.hbm, 457, rfl⟩
abbrev main_v332 : Ref sig .tc := ⟨.hbm, 458, rfl⟩
abbrev main_call2_cst : Ref sig .tc := ⟨.hbm, 459, rfl⟩
abbrev main_call2_v0 : Ref sig .tc := ⟨.hbm, 460, rfl⟩
abbrev main_call2_cst_0 : Ref sig .tc := ⟨.hbm, 461, rfl⟩
abbrev main_call2_v1 : Ref sig .tc := ⟨.hbm, 462, rfl⟩
abbrev main_call2_v2 : Ref sig .tc := ⟨.hbm, 463, rfl⟩
abbrev main_call2_v3 : Ref sig .tc := ⟨.hbm, 464, rfl⟩
abbrev main_call2_v4 : Ref sig .tc := ⟨.hbm, 465, rfl⟩
abbrev main_call2_v5 : Ref sig .tc := ⟨.hbm, 466, rfl⟩
abbrev main_call2_v6 : Ref sig .tc := ⟨.hbm, 467, rfl⟩
abbrev main_call2_cst_1 : Ref sig .tc := ⟨.hbm, 468, rfl⟩
abbrev main_call2_v7 : Ref sig .tc := ⟨.hbm, 469, rfl⟩
abbrev main_call2_v8 : Ref sig .tc := ⟨.hbm, 470, rfl⟩
abbrev main_call2_v9 : Ref sig .tc := ⟨.hbm, 471, rfl⟩
abbrev main_call2_v10 : Ref sig .tc := ⟨.hbm, 472, rfl⟩
abbrev main_v333 : Ref sig .tc := ⟨.hbm, 473, rfl⟩
abbrev main_v334 : Ref sig .tc := ⟨.hbm, 474, rfl⟩
abbrev main_cst_98 : Ref sig .tc := ⟨.hbm, 475, rfl⟩
abbrev main_v335 : Ref sig .tc := ⟨.hbm, 476, rfl⟩
abbrev main_cst_99 : Ref sig .tc := ⟨.hbm, 477, rfl⟩
abbrev main_v336 : Ref sig .tc := ⟨.hbm, 478, rfl⟩
abbrev main_cst_100 : Ref sig .tc := ⟨.hbm, 479, rfl⟩
abbrev main_v337 : Ref sig .tc := ⟨.hbm, 480, rfl⟩
abbrev main_v338 : Ref sig .tc := ⟨.hbm, 481, rfl⟩
abbrev main_v339 : Ref sig .tc := ⟨.hbm, 482, rfl⟩
abbrev main_v340 : Ref sig .tc := ⟨.hbm, 483, rfl⟩
abbrev main_v341 : Ref sig .tc := ⟨.hbm, 484, rfl⟩
abbrev main_call3_cst : Ref sig .tc := ⟨.hbm, 485, rfl⟩
abbrev main_call3_v0 : Ref sig .tc := ⟨.hbm, 486, rfl⟩
abbrev main_call3_cst_0 : Ref sig .tc := ⟨.hbm, 487, rfl⟩
abbrev main_call3_v1 : Ref sig .tc := ⟨.hbm, 488, rfl⟩
abbrev main_call3_v2 : Ref sig .tc := ⟨.hbm, 489, rfl⟩
abbrev main_call3_v3 : Ref sig .tc := ⟨.hbm, 490, rfl⟩
abbrev main_call3_v4 : Ref sig .tc := ⟨.hbm, 491, rfl⟩
abbrev main_call3_v5 : Ref sig .tc := ⟨.hbm, 492, rfl⟩
abbrev main_call3_v6 : Ref sig .tc := ⟨.hbm, 493, rfl⟩
abbrev main_call3_cst_1 : Ref sig .tc := ⟨.hbm, 494, rfl⟩
abbrev main_call3_v7 : Ref sig .tc := ⟨.hbm, 495, rfl⟩
abbrev main_call3_v8 : Ref sig .tc := ⟨.hbm, 496, rfl⟩
abbrev main_call3_v9 : Ref sig .tc := ⟨.hbm, 497, rfl⟩
abbrev main_call3_v10 : Ref sig .tc := ⟨.hbm, 498, rfl⟩
abbrev main_v342 : Ref sig .tc := ⟨.hbm, 499, rfl⟩
abbrev main_v343 : Ref sig .tc := ⟨.hbm, 500, rfl⟩
abbrev main_cst_101 : Ref sig .tc := ⟨.hbm, 501, rfl⟩
abbrev main_v344 : Ref sig .tc := ⟨.hbm, 502, rfl⟩
abbrev main_cst_102 : Ref sig .tc := ⟨.hbm, 503, rfl⟩
abbrev main_v345 : Ref sig .tc := ⟨.hbm, 504, rfl⟩
abbrev main_cst_103 : Ref sig .tc := ⟨.hbm, 505, rfl⟩
abbrev main_v346 : Ref sig .tc := ⟨.hbm, 506, rfl⟩
abbrev main_v347 : Ref sig .tc := ⟨.hbm, 507, rfl⟩
abbrev main_v348 : Ref sig .tc := ⟨.hbm, 508, rfl⟩
abbrev main_v349 : Ref sig .tc := ⟨.hbm, 509, rfl⟩
abbrev main_call4_cst : Ref sig .tc := ⟨.hbm, 510, rfl⟩
abbrev main_call4_v0 : Ref sig .tc := ⟨.hbm, 511, rfl⟩
abbrev main_call4_cst_0 : Ref sig .tc := ⟨.hbm, 512, rfl⟩
abbrev main_call4_v1 : Ref sig .tc := ⟨.hbm, 513, rfl⟩
abbrev main_call4_v2 : Ref sig .tc := ⟨.hbm, 514, rfl⟩
abbrev main_call4_v3 : Ref sig .tc := ⟨.hbm, 515, rfl⟩
abbrev main_call4_v4 : Ref sig .tc := ⟨.hbm, 516, rfl⟩
abbrev main_call4_v5 : Ref sig .tc := ⟨.hbm, 517, rfl⟩
abbrev main_call4_v6 : Ref sig .tc := ⟨.hbm, 518, rfl⟩
abbrev main_call4_cst_1 : Ref sig .tc := ⟨.hbm, 519, rfl⟩
abbrev main_call4_v7 : Ref sig .tc := ⟨.hbm, 520, rfl⟩
abbrev main_call4_v8 : Ref sig .tc := ⟨.hbm, 521, rfl⟩
abbrev main_call4_v9 : Ref sig .tc := ⟨.hbm, 522, rfl⟩
abbrev main_call4_v10 : Ref sig .tc := ⟨.hbm, 523, rfl⟩
abbrev main_v350 : Ref sig .tc := ⟨.hbm, 524, rfl⟩
abbrev main_v351 : Ref sig .tc := ⟨.hbm, 525, rfl⟩
abbrev main_cst_104 : Ref sig .tc := ⟨.hbm, 526, rfl⟩
abbrev main_v352 : Ref sig .tc := ⟨.hbm, 527, rfl⟩
abbrev main_cst_105 : Ref sig .tc := ⟨.hbm, 528, rfl⟩
abbrev main_v353 : Ref sig .tc := ⟨.hbm, 529, rfl⟩
abbrev main_cst_106 : Ref sig .tc := ⟨.hbm, 530, rfl⟩
abbrev main_v354 : Ref sig .tc := ⟨.hbm, 531, rfl⟩
abbrev main_v355 : Ref sig .tc := ⟨.hbm, 532, rfl⟩
abbrev main_v356 : Ref sig .tc := ⟨.hbm, 533, rfl⟩
abbrev main_v357 : Ref sig .tc := ⟨.hbm, 534, rfl⟩
abbrev main_v358 : Ref sig .tc := ⟨.hbm, 535, rfl⟩
abbrev main_call5_cst : Ref sig .tc := ⟨.hbm, 536, rfl⟩
abbrev main_call5_v0 : Ref sig .tc := ⟨.hbm, 537, rfl⟩
abbrev main_call5_cst_0 : Ref sig .tc := ⟨.hbm, 538, rfl⟩
abbrev main_call5_v1 : Ref sig .tc := ⟨.hbm, 539, rfl⟩
abbrev main_call5_v2 : Ref sig .tc := ⟨.hbm, 540, rfl⟩
abbrev main_call5_v3 : Ref sig .tc := ⟨.hbm, 541, rfl⟩
abbrev main_call5_v4 : Ref sig .tc := ⟨.hbm, 542, rfl⟩
abbrev main_call5_v5 : Ref sig .tc := ⟨.hbm, 543, rfl⟩
abbrev main_call5_v6 : Ref sig .tc := ⟨.hbm, 544, rfl⟩
abbrev main_call5_cst_1 : Ref sig .tc := ⟨.hbm, 545, rfl⟩
abbrev main_call5_v7 : Ref sig .tc := ⟨.hbm, 546, rfl⟩
abbrev main_call5_v8 : Ref sig .tc := ⟨.hbm, 547, rfl⟩
abbrev main_call5_v9 : Ref sig .tc := ⟨.hbm, 548, rfl⟩
abbrev main_call5_v10 : Ref sig .tc := ⟨.hbm, 549, rfl⟩
abbrev main_v359 : Ref sig .tc := ⟨.hbm, 550, rfl⟩
abbrev main_v360 : Ref sig .tc := ⟨.hbm, 551, rfl⟩
abbrev main_cst_107 : Ref sig .tc := ⟨.hbm, 552, rfl⟩
abbrev main_v361 : Ref sig .tc := ⟨.hbm, 553, rfl⟩
abbrev main_cst_108 : Ref sig .tc := ⟨.hbm, 554, rfl⟩
abbrev main_v362 : Ref sig .tc := ⟨.hbm, 555, rfl⟩
abbrev main_cst_109 : Ref sig .tc := ⟨.hbm, 556, rfl⟩
abbrev main_v363 : Ref sig .tc := ⟨.hbm, 557, rfl⟩
abbrev main_v364 : Ref sig .tc := ⟨.hbm, 558, rfl⟩
abbrev main_v365 : Ref sig .tc := ⟨.hbm, 559, rfl⟩
abbrev main_v366 : Ref sig .tc := ⟨.hbm, 560, rfl⟩
abbrev main_v367 : Ref sig .tc := ⟨.hbm, 561, rfl⟩
abbrev main_call6_cst : Ref sig .tc := ⟨.hbm, 562, rfl⟩
abbrev main_call6_v0 : Ref sig .tc := ⟨.hbm, 563, rfl⟩
abbrev main_call6_cst_0 : Ref sig .tc := ⟨.hbm, 564, rfl⟩
abbrev main_call6_v1 : Ref sig .tc := ⟨.hbm, 565, rfl⟩
abbrev main_call6_v2 : Ref sig .tc := ⟨.hbm, 566, rfl⟩
abbrev main_call6_v3 : Ref sig .tc := ⟨.hbm, 567, rfl⟩
abbrev main_call6_v4 : Ref sig .tc := ⟨.hbm, 568, rfl⟩
abbrev main_call6_v5 : Ref sig .tc := ⟨.hbm, 569, rfl⟩
abbrev main_call6_v6 : Ref sig .tc := ⟨.hbm, 570, rfl⟩
abbrev main_call6_cst_1 : Ref sig .tc := ⟨.hbm, 571, rfl⟩
abbrev main_call6_v7 : Ref sig .tc := ⟨.hbm, 572, rfl⟩
abbrev main_call6_v8 : Ref sig .tc := ⟨.hbm, 573, rfl⟩
abbrev main_call6_v9 : Ref sig .tc := ⟨.hbm, 574, rfl⟩
abbrev main_call6_v10 : Ref sig .tc := ⟨.hbm, 575, rfl⟩
abbrev main_v368 : Ref sig .tc := ⟨.hbm, 576, rfl⟩
abbrev main_v369 : Ref sig .tc := ⟨.hbm, 577, rfl⟩
abbrev main_cst_110 : Ref sig .tc := ⟨.hbm, 578, rfl⟩
abbrev main_v370 : Ref sig .tc := ⟨.hbm, 579, rfl⟩
abbrev main_cst_111 : Ref sig .tc := ⟨.hbm, 580, rfl⟩
abbrev main_v371 : Ref sig .tc := ⟨.hbm, 581, rfl⟩
abbrev main_cst_112 : Ref sig .tc := ⟨.hbm, 582, rfl⟩
abbrev main_v372 : Ref sig .tc := ⟨.hbm, 583, rfl⟩
abbrev main_v373 : Ref sig .tc := ⟨.hbm, 584, rfl⟩
abbrev main_v374 : Ref sig .tc := ⟨.hbm, 585, rfl⟩
abbrev main_v375 : Ref sig .tc := ⟨.hbm, 586, rfl⟩
abbrev main_v376 : Ref sig .tc := ⟨.hbm, 587, rfl⟩
abbrev main_call7_cst : Ref sig .tc := ⟨.hbm, 588, rfl⟩
abbrev main_call7_v0 : Ref sig .tc := ⟨.hbm, 589, rfl⟩
abbrev main_call7_cst_0 : Ref sig .tc := ⟨.hbm, 590, rfl⟩
abbrev main_call7_v1 : Ref sig .tc := ⟨.hbm, 591, rfl⟩
abbrev main_call7_v2 : Ref sig .tc := ⟨.hbm, 592, rfl⟩
abbrev main_call7_v3 : Ref sig .tc := ⟨.hbm, 593, rfl⟩
abbrev main_call7_v4 : Ref sig .tc := ⟨.hbm, 594, rfl⟩
abbrev main_call7_v5 : Ref sig .tc := ⟨.hbm, 595, rfl⟩
abbrev main_call7_v6 : Ref sig .tc := ⟨.hbm, 596, rfl⟩
abbrev main_call7_cst_1 : Ref sig .tc := ⟨.hbm, 597, rfl⟩
abbrev main_call7_v7 : Ref sig .tc := ⟨.hbm, 598, rfl⟩
abbrev main_call7_v8 : Ref sig .tc := ⟨.hbm, 599, rfl⟩
abbrev main_call7_v9 : Ref sig .tc := ⟨.hbm, 600, rfl⟩
abbrev main_call7_v10 : Ref sig .tc := ⟨.hbm, 601, rfl⟩
abbrev main_v377 : Ref sig .tc := ⟨.hbm, 602, rfl⟩
abbrev main_v378 : Ref sig .tc := ⟨.hbm, 603, rfl⟩
abbrev main_cst_113 : Ref sig .tc := ⟨.hbm, 604, rfl⟩
abbrev main_v379 : Ref sig .tc := ⟨.hbm, 605, rfl⟩
abbrev main_cst_114 : Ref sig .tc := ⟨.hbm, 606, rfl⟩
abbrev main_v380 : Ref sig .tc := ⟨.hbm, 607, rfl⟩
abbrev main_cst_115 : Ref sig .tc := ⟨.hbm, 608, rfl⟩
abbrev main_v381 : Ref sig .tc := ⟨.hbm, 609, rfl⟩
abbrev main_v382 : Ref sig .tc := ⟨.hbm, 610, rfl⟩
abbrev main_v383 : Ref sig .tc := ⟨.hbm, 611, rfl⟩
abbrev main_v384 : Ref sig .tc := ⟨.hbm, 612, rfl⟩
abbrev main_v385 : Ref sig .tc := ⟨.hbm, 613, rfl⟩
abbrev main_call8_cst : Ref sig .tc := ⟨.hbm, 614, rfl⟩
abbrev main_call8_v0 : Ref sig .tc := ⟨.hbm, 615, rfl⟩
abbrev main_call8_cst_0 : Ref sig .tc := ⟨.hbm, 616, rfl⟩
abbrev main_call8_v1 : Ref sig .tc := ⟨.hbm, 617, rfl⟩
abbrev main_call8_v2 : Ref sig .tc := ⟨.hbm, 618, rfl⟩
abbrev main_call8_v3 : Ref sig .tc := ⟨.hbm, 619, rfl⟩
abbrev main_call8_v4 : Ref sig .tc := ⟨.hbm, 620, rfl⟩
abbrev main_call8_v5 : Ref sig .tc := ⟨.hbm, 621, rfl⟩
abbrev main_call8_v6 : Ref sig .tc := ⟨.hbm, 622, rfl⟩
abbrev main_call8_cst_1 : Ref sig .tc := ⟨.hbm, 623, rfl⟩
abbrev main_call8_v7 : Ref sig .tc := ⟨.hbm, 624, rfl⟩
abbrev main_call8_v8 : Ref sig .tc := ⟨.hbm, 625, rfl⟩
abbrev main_call8_v9 : Ref sig .tc := ⟨.hbm, 626, rfl⟩
abbrev main_call8_v10 : Ref sig .tc := ⟨.hbm, 627, rfl⟩
abbrev main_v386 : Ref sig .tc := ⟨.hbm, 628, rfl⟩
abbrev main_v387 : Ref sig .tc := ⟨.hbm, 629, rfl⟩
abbrev main_cst_116 : Ref sig .tc := ⟨.hbm, 630, rfl⟩
abbrev main_v388 : Ref sig .tc := ⟨.hbm, 631, rfl⟩
abbrev main_cst_117 : Ref sig .tc := ⟨.hbm, 632, rfl⟩
abbrev main_v389 : Ref sig .tc := ⟨.hbm, 633, rfl⟩
abbrev main_cst_118 : Ref sig .tc := ⟨.hbm, 634, rfl⟩
abbrev main_v390 : Ref sig .tc := ⟨.hbm, 635, rfl⟩
abbrev main_v391 : Ref sig .tc := ⟨.hbm, 636, rfl⟩
abbrev main_v392 : Ref sig .tc := ⟨.hbm, 637, rfl⟩
abbrev main_cst_119 : Ref sig .tc := ⟨.hbm, 638, rfl⟩
abbrev main_v393 : Ref sig .tc := ⟨.hbm, 639, rfl⟩
abbrev main_cst_120 : Ref sig .tc := ⟨.hbm, 640, rfl⟩
abbrev main_v394 : Ref sig .tc := ⟨.hbm, 641, rfl⟩
abbrev main_v395 : Ref sig .tc := ⟨.hbm, 642, rfl⟩

abbrev nD : Nat := 1
abbrev τ : Topo := Topo.v7x

variable {F : FTy → Type} [FloatOps F]

class Facts₀ : Prop where
  reducesTo_S256x64_S256_d1 : S256x64.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x64_0_1 : S256x1.BroadcastsInDim S256x64 (![0, 1] : Fin 2 → Fin S256x64.rank)
  bcast_S_S16384 : S_.BroadcastsInDim S16384 (![] : Fin 0 → Fin S16384.rank)
  bcast_S16384_S16384x1_0 : S16384.BroadcastsInDim S16384x1 (![0] : Fin 1 → Fin S16384x1.rank)
  reducesTo_S16384x64_S16384_d1 : S16384x64.ReducesTo [1] S16384
  bcast_S_S16384x1 : S_.BroadcastsInDim S16384x1 (![] : Fin 0 → Fin S16384x1.rank)
  bcast_S16384x1_S16384x64_0_1 : S16384x1.BroadcastsInDim S16384x64 (![0, 1] : Fin 2 → Fin S16384x64.rank)
  transposes_S256x64_S64x256_1_0 : S256x64.Transposes [1, 0] S64x256
  bcast_S_S16384x256 : S_.BroadcastsInDim S16384x256 (![] : Fin 0 → Fin S16384x256.rank)
  transposes_S16384x256_S256x16384_1_0 : S16384x256.Transposes [1, 0] S256x16384
  reducesTo_S256x16384_S_d0_1 : S256x16384.ReducesTo [0, 1] S_
  bcast_S_S256x16384 : S_.BroadcastsInDim S256x16384 (![] : Fin 0 → Fin S256x16384.rank)
  reducesTo_S256x16384_S256_d1 : S256x16384.ReducesTo [1] S256
  bcast_S256x1_S256x16384_0_1 : S256x1.BroadcastsInDim S256x16384 (![0, 1] : Fin 2 → Fin S256x16384.rank)
  reducesTo_S256x16384_S16384_d0 : S256x16384.ReducesTo [0] S16384
  bcast_S16384_S1x16384_1 : S16384.BroadcastsInDim S1x16384 (![1] : Fin 1 → Fin S1x16384.rank)
  bcast_S_S1x16384 : S_.BroadcastsInDim S1x16384 (![] : Fin 0 → Fin S1x16384.rank)
  bcast_S1x16384_S256x16384_0_1 : S1x16384.BroadcastsInDim S256x16384 (![0, 1] : Fin 2 → Fin S256x16384.rank)
  transposes_S256x16384_S16384x256_1_0 : S256x16384.Transposes [1, 0] S16384x256
  reducesTo_S16384x256_S16384_d1 : S16384x256.ReducesTo [1] S16384
  bcast_S16384x1_S16384x256_0_1 : S16384x1.BroadcastsInDim S16384x256 (![0, 1] : Fin 2 → Fin S16384x256.rank)
  reducesTo_S16384_S_d0 : S16384.ReducesTo [0] S_
  gather_S1000000x64_S16384x1_S16384x64_1_0_n_n_0_1_164_wf : GatherDims.WF S1000000x64 S16384x1 S16384x64 [1] [0] [] [0] [] 1 ![1, 64]
  gather_S500000x64_S16384x1_S16384x64_1_0_n_n_0_1_164_wf : GatherDims.WF S500000x64 S16384x1 S16384x64 [1] [0] [] [0] [] 1 ![1, 64]
  dot_S16384x64_S64x256_S16384x256_1_0_0_1_n_n_wf : DotDims.WF S16384x64 S64x256 S16384x256 [1] [0] [0] [1] [] []

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def gather_S500000x64_S16384x1_S16384x64_1_0_n_n_0_1_164 : GatherDims S500000x64 S16384x1 S16384x64 where
  offsetDims := [1]
  collapsedSliceDims := [0]
  operandBatchingDims := []
  startIndicesBatchingDims := []
  startIndexMap := [0]
  indexVectorDim := 1
  sliceSizes := ![1, 64]
  wf := gather_S500000x64_S16384x1_S16384x64_1_0_n_n_0_1_164_wf
def dot_S16384x64_S64x256_S16384x256_1_0_0_1_n_n : DotDims S16384x64 S64x256 S16384x256 where
  lhsContracting := [1]
  rhsContracting := [0]
  lhsNonContracting := [0]
  rhsNonContracting := [1]
  lhsBatch := []
  rhsBatch := []
  wf := dot_S16384x64_S64x256_S16384x256_1_0_0_1_n_n_wf

class Facts : Prop extends Facts₀ where

variable [Facts]
-- ==== Proof.KB.Reg0.lean ====
import proofs.«402369_j86406152061536_3_alg».proof.Proof.Gen.Kernel.Launch
import proofs.«402369_j86406152061536_3_alg».proof.Proof.Gen.Kernel.Skeleton
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (a : (pcfg0 (F := F)).Adm)
variable (V : (c : Dev nD) → (b : Ref sig .tc) → Buf (Elt F) ((c : Thread nD τ).loc b))

abbrev r0 : Rect S1x1x64 := Rect.unit (s := S1x1x64) ![0, 0, 0] S1x1x64.size inb_S1x1x64_S1x1x64_0_0_0

def out0_4 (x0 : Vec F S1x1x64 .f32) : Vec F S1x1x64 .f32 := View.canon [⟨r0, k0_pay2 (View.ld x0 r0)⟩]
def out0_5 (x1 : Vec F S1x1x64 .f32) : Vec F S1x1x64 .f32 := View.canon [⟨r0, k0_pay3 (View.ld x1 r0)⟩]
def out0_6 (x2 : Vec F S1x1x64 .f32) : Vec F S1x1x64 .f32 := View.canon [⟨r0, k0_pay4 (View.ld x2 r0)⟩]
def out0_7 (x3 : Vec F S1x1x64 .f32) : Vec F S1x1x64 .f32 := View.canon [⟨r0, k0_pay1 (View.ld x3 r0)⟩]

theorem cover0 (p0 : Vec F S1x1x64 .f32) (y : S1x1x64.Idx) :
    ∃ pc ∈ ([⟨r0, p0⟩] : List (View.Piece (Elt F) S1x1x64 .f32)), y ∈ pc.1.set :=
  View.cover_of_tiled [⟨r0, p0⟩] S1x1x64.size (by rfl) y

set_option maxHeartbeats 1000000 in

theorem sound_kernel0 (c : Dev nD) (E : Set ℕ) (i : grid0.Coords)
    (arg1 : Memref sig .tc .smem S16384 .i32) (harg1 : arg1.IsWhole) (arg2 : Memref sig .tc .smem S16384 .i32) (harg2 : arg2.IsWhole)
    (arg3 : Memref sig .tc .vmem S1x1x64 .f32) (harg3 : arg3.IsWhole) (arg4 : Memref sig .tc .vmem S1x1x64 .f32) (harg4 : arg4.IsWhole)
    (arg5 : Memref sig .tc .vmem S1x1x64 .f32) (harg5 : arg5.IsWhole) (arg6 : Memref sig .tc .vmem S1x1x64 .f32) (harg6 : arg6.IsWhole)
    (arg7 : Memref sig .tc .vmem S1x1x64 .f32) (harg7 : arg7.IsWhole) (arg8 : Memref sig .tc .vmem S1x1x64 .f32) (harg8 : arg8.IsWhole)
    (arg9 : Memref sig .tc .vmem S1x1x64 .f32) (harg9 : arg9.IsWhole) (arg10 : Memref sig .tc .vmem S1x1x64 .f32) (harg10 : arg10.IsWhole)
    (x0 x1 x2 x3 : Vec F S1x1x64 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out0_4 x0) ∗ owns (c : Thread nD τ) arg8 fullShare (out0_5 x1)
            ∗ owns (c : Thread nD τ) arg9 fullShare (out0_6 x2) ∗ owns (c : Thread nD τ) arg10 fullShare (out0_7 x3)) -∗ K ⟨⟩))
      ⊢ wp frame (wpE (defs₀ (F := F)) Variants.none c none) E
          (cc0__gather_norm_kernel i arg1 harg1 arg2 harg2 arg3 harg3 arg4 harg4 arg5 harg5 arg6 harg6 arg7 harg7 arg8 harg8 arg9 harg9 arg10 harg10) K := by
  simp only [cc0__gather_norm_kernel_eq_skeleton]; unfold cc0__gather_norm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  isplitl [H5]
  · iexists _; isplitr
    swap; · iexact H5
    ipureintro
    exact View.read_writes_eq_canon _ _ _ (cover0 _)
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

abbrev st0 (w : Fin (cfg0 a).W) (t : Fin (cfg0 a).N) := ((cfg0 a).win w).stage ((cfg0 a).slots t w)

def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

theorem before0_0_of {c : Dev nD} (dat : Dat τ (Elt F) Unit ℕ (UR sig nD τ) ℕ (cfg0 a) c) (hA : dat.A 0 = V c (Pipeline.arrRef spec0 0))
    (hafter : ∀ t, dat.after 0 t = iblk0 a V c 0 t) (t : Fin (cfg0 a).N) (d) : dat.before 0 t d = iblk0 a V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ (cfg0 a) c) (hA : dat.A 1 = V c (Pipeline.arrRef spec0 1))
    (hafter : ∀ t, dat.after 1 t = iblk0 a V c 1 t) (t : Fin (cfg0 a).N) (d) : dat.before 1 t d = iblk0 a V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ (cfg0 a) c) (hA : dat.A 2 = V c (Pipeline.arrRef spec0 2))
    (hafter : ∀ t, dat.after 2 t = iblk0 a V c 2 t) (t : Fin (cfg0 a).N) (d) : dat.before 2 t d = iblk0 a V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ (cfg0 a) c) (hA : dat.A 3 = V c (Pipeline.arrRef spec0 3))
    (hafter : ∀ t, dat.after 3 t = iblk0 a V c 3 t) (t : Fin (cfg0 a).N) (d) : dat.before 3 t d = iblk0 a V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

def dat0 (c : Dev nD) : Dat τ (Elt F) Unit ℕ (UR sig nD τ) ℕ (cfg0 a) c where
  A w := V c (Pipeline.arrRef spec0 w)
  after w t := match w with
    | ⟨0, _⟩ => iblk0 a V c 0 t
    | ⟨1, _⟩ => iblk0 a V c 1 t
    | ⟨2, _⟩ => iblk0 a V c 2 t
    | ⟨3, _⟩ => iblk0 a V c 3 t
    | ⟨4, _⟩ => out0_4 (iblk0 a V c 0 t)
    | ⟨5, _⟩ => out0_5 (iblk0 a V c 1 t)
    | ⟨6, _⟩ => out0_6 (iblk0 a V c 2 t)
    | ⟨7, _⟩ => out0_7 (iblk0 a V c 3 t)
  Φ _ := iprop(Pipeline.ΦA spec0 c ∗ Pipeline.prefHeld pre0 c (fun _ => fullShare) a.1)
  q _ := fullShare
  owed _ := 0

theorem A_eq0 (c : Dev nD) (w : Fin (cfg0 a).W) : (dat0 a V c).A w = V c (Pipeline.arrRef spec0 w) := by
  dsimp only [dat0]
theorem q_eq0 (c : Dev nD) (w : Fin (cfg0 a).W) : (dat0 a V c).q w = fullShare := by
  dsimp only [dat0]
theorem owed_eq0 (c : Dev nD) (t : Fin ((cfg0 a).N + 1)) : (dat0 a V c).owed t = 0 := by
  dsimp only [dat0]
theorem Φ_eq0 (c : Dev nD) (t : Fin ((cfg0 a).N + 1)) :
    (dat0 a V c).Φ t = iprop(Pipeline.ΦA spec0 c ∗ Pipeline.prefHeld pre0 c (fun _ => fullShare) a.1) := by
  dsimp only [dat0]

theorem after0_0 (c : Dev nD) (t : Fin (cfg0 a).N) : (dat0 a V c).after 0 t = iblk0 a V c 0 t := by dsimp only [dat0]; rfl
theorem after0_1 (c : Dev nD) (t : Fin (cfg0 a).N) : (dat0 a V c).after 1 t = iblk0 a V c 1 t := by dsimp only [dat0]; rfl
theorem after0_2 (c : Dev nD) (t : Fin (cfg0 a).N) : (dat0 a V c).after 2 t = iblk0 a V c 2 t := by dsimp only [dat0]; rfl
theorem after0_3 (c : Dev nD) (t : Fin (cfg0 a).N) : (dat0 a V c).after 3 t = iblk0 a V c 3 t := by dsimp only [dat0]; rfl
theorem after0_4 (c : Dev nD) (t : Fin (cfg0 a).N) : (dat0 a V c).after 4 t = out0_4 (iblk0 a V c 0 t) := by dsimp only [dat0]; rfl
theorem after0_5 (c : Dev nD) (t : Fin (cfg0 a).N) : (dat0 a V c).after 5 t = out0_5 (iblk0 a V c 1 t) := by dsimp only [dat0]; rfl
theorem after0_6 (c : Dev nD) (t : Fin (cfg0 a).N) : (dat0 a V c).after 6 t = out0_6 (iblk0 a V c 2 t) := by dsimp only [dat0]; rfl
theorem after0_7 (c : Dev nD) (t : Fin (cfg0 a).N) : (dat0 a V c).after 7 t = out0_7 (iblk0 a V c 3 t) := by dsimp only [dat0]; rfl

theorem before0_0 (c : Dev nD) (t : Fin (cfg0 a).N) (d) : (dat0 a V c).before 0 t d = iblk0 a V c 0 t :=
  before0_0_of a V (dat0 a V c) (A_eq0 a V c 0) (after0_0 a V c) t d
theorem before0_1 (c : Dev nD) (t : Fin (cfg0 a).N) (d) : (dat0 a V c).before 1 t d = iblk0 a V c 1 t :=
  before0_1_of a V (dat0 a V c) (A_eq0 a V c 1) (after0_1 a V c) t d
theorem before0_2 (c : Dev nD) (t : Fin (cfg0 a).N) (d) : (dat0 a V c).before 2 t d = iblk0 a V c 2 t :=
  before0_2_of a V (dat0 a V c) (A_eq0 a V c 2) (after0_2 a V c) t d
theorem before0_3 (c : Dev nD) (t : Fin (cfg0 a).N) (d) : (dat0 a V c).before 3 t d = iblk0 a V c 3 t :=
  before0_3_of a V (dat0 a V c) (A_eq0 a V c 3) (after0_3 a V c) t d

abbrev bodyAt0 (t : Fin (cfg0 a).N) : Prog (TpuEff nD τ sig (Elt F) Λ₀ .tc) PUnit :=
  cc0__gather_norm_kernel (grid0.coords t) (Memref.whole main_arg4) (Memref.isWhole_whole _) (Memref.whole main_arg5) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (spec0_5.stage ((cfg0 a).slots t 5)) (hstage0_5 (((cfg0 a).slots t 5).cast nbuf0_5))
    (spec0_6.stage ((cfg0 a).slots t 6)) (hstage0_6 (((cfg0 a).slots t 6).cast nbuf0_6))
    (spec0_7.stage ((cfg0 a).slots t 7)) (hstage0_7 (((cfg0 a).slots t 7).cast nbuf0_7))

def bodyPre0 (c : Dev nD) (t : Fin (cfg0 a).N) : sProp 𝕄 :=
  iprop((dat0 a V c).Φ t.castSucc ∗ (dat0 a V c).owesAt () t.castSucc
    ∗ (∃ d, owns (c : Thread nD τ) (st0 a 0 t) fullShare ((dat0 a V c).before 0 t d))
    ∗ (∃ d, owns (c : Thread nD τ) (st0 a 1 t) fullShare ((dat0 a V c).before 1 t d))
    ∗ (∃ d, owns (c : Thread nD τ) (st0 a 2 t) fullShare ((dat0 a V c).before 2 t d))
    ∗ (∃ d, owns (c : Thread nD τ) (st0 a 3 t) fullShare ((dat0 a V c).before 3 t d))
    ∗ (∃ d, owns (c : Thread nD τ) (st0 a 4 t) fullShare ((dat0 a V c).before 4 t d))
    ∗ (∃ d, owns (c : Thread nD τ) (st0 a 5 t) fullShare ((dat0 a V c).before 5 t d))
    ∗ (∃ d, owns (c : Thread nD τ) (st0 a 6 t) fullShare ((dat0 a V c).before 6 t d))
    ∗ (∃ d, owns (c : Thread nD τ) (st0 a 7 t) fullShare ((dat0 a V c).before 7 t d)))

def bodyPost0 (c : Dev nD) (t : Fin (cfg0 a).N) : sProp 𝕄 :=
  iprop((dat0 a V c).Φ t.succ ∗ (dat0 a V c).owesAt () t.succ
    ∗ owns (c : Thread nD τ) (st0 a 0 t) fullShare ((dat0 a V c).after 0 t)
    ∗ owns (c : Thread nD τ) (st0 a 1 t) fullShare ((dat0 a V c).after 1 t)
    ∗ owns (c : Thread nD τ) (st0 a 2 t) fullShare ((dat0 a V c).after 2 t)
    ∗ owns (c : Thread nD τ) (st0 a 3 t) fullShare ((dat0 a V c).after 3 t)
    ∗ owns (c : Thread nD τ) (st0 a 4 t) fullShare ((dat0 a V c).after 4 t)
    ∗ owns (c : Thread nD τ) (st0 a 5 t) fullShare ((dat0 a V c).after 5 t)
    ∗ owns (c : Thread nD τ) (st0 a 6 t) fullShare ((dat0 a V c).after 6 t)
    ∗ owns (c : Thread nD τ) (st0 a 7 t) fullShare ((dat0 a V c).after 7 t))

theorem sound_body0 (c : Dev nD) (t : Fin (cfg0 a).N) :
    bodyPre0 a V c t ⊢ wp frame (wpE (defs₀ (F := F)) Variants.none c none) Set.univ (bodyAt0 a t) (fun _ => bodyPost0 a V c t) := by
  unfold bodyPre0 bodyPost0 bodyAt0
  simp only [before0_0, before0_1, before0_2, before0_3]
  rw [show (dat0 a V c).Φ t.succ = (dat0 a V c).Φ t.castSucc from rfl,
    show (dat0 a V c).owesAt () t.succ = (dat0 a V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ _ _ _ _ (iblk0 a V c 0 t) (iblk0 a V c 1 t) (iblk0 a V c 2 t) (iblk0 a V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) a V c) (defs₀ (F := F)) Variants.none () Set.univ := fun t => by
  rw [bigSep_W0, bigSep_W0]
  exact sound_body0 a V c t

theorem hin0 (c : Dev nD) :
    iprop((∃ r, prngReg c r) ∗ Pipeline.prefHeld pre0 c (fun _ => fullShare) a.1 ∗ Pipeline.scopedRest spec0 c) ⊢ (dat0 a V c).Φ 0 := by
  rw [Φ_eq0]; unfold Pipeline.ΦA
  iintro ⟨Hp, Ht, Hr⟩
  isplitl [Hr Hp]
  · isplitl [Hr]; · iexact Hr
    iexact Hp
  iexact Ht

theorem hout0 (c : Dev nD) :
    (dat0 a V c).Φ (Fin.last (cfg0 a).N) ⊢ iprop((∃ r, prngReg c r) ∗ Pipeline.prefHeld pre0 c (fun _ => fullShare) a.1 ∗ Pipeline.scopedRest spec0 c) := by
  rw [Φ_eq0]; unfold Pipeline.ΦA
  iintro ⟨⟨Hr, Hp⟩, Ht⟩
  isplitl [Hp]; · iexact Hp
  isplitl [Ht]; · iexact Ht
  iexact Hr

end Region

def tbl0 (V : (c : Dev nD) → (b : Ref sig .tc) → Buf (Elt F) ((c : Thread nD τ).loc b)) (c : Dev nD) : pre0.Contents (Elt F) :=
  fun k => V c (pre0.ref k)

def TablesAt (a : (pcfg0 (F := F)).Adm) (V : (c : Dev nD) → (b : Ref sig .tc) → Buf (Elt F) ((c : Thread nD τ).loc b)) : Prop :=
  ∀ c : Dev nD, a.1 = tbl0 V c

def rest0 (a : (pcfg0 (F := F)).Adm) (V : (c : Dev nD) → (b : Ref sig .tc) → Buf (Elt F) ((c : Thread nD τ).loc b)) (c : Dev nD) : sProp 𝕄 :=
  Pipeline.unscopedRestP pre0 spec0 c (V c)

theorem carve0_eq (a : (pcfg0 (F := F)).Adm) (V : (c : Dev nD) → (b : Ref sig .tc) → Buf (Elt F) ((c : Thread nD τ).loc b))
    (hT : TablesAt a V) (c : Dev nD) :
    (Pipeline.unscopedRest spec0 c (V c) : sProp 𝕄) = iprop(Pipeline.prefHeld pre0 c (fun _ => fullShare) a.1 ∗ rest0 a V c) := by
  rw [Pipeline.unscopedRest_split preFacts0 c (V c), hT c]; rfl

theorem carve0 (a : (pcfg0 (F := F)).Adm) (V : (c : Dev nD) → (b : Ref sig .tc) → Buf (Elt F) ((c : Thread nD τ).loc b))
    (hT : TablesAt a V) (c : Dev nD) :
    (Pipeline.unscopedRest spec0 c (V c) : sProp 𝕄) ⊢ iprop(Pipeline.prefHeld pre0 c (fun _ => fullShare) a.1 ∗ rest0 a V c) := by
  rw [carve0_eq a V hT c]

theorem uncarve0 (a : (pcfg0 (F := F)).Adm) (V : (c : Dev nD) → (b : Ref sig .tc) → Buf (Elt F) ((c : Thread nD τ).loc b))
    (hT : TablesAt a V) (c : Dev nD) :
    iprop(Pipeline.prefHeld pre0 c (fun _ => fullShare) a.1 ∗ rest0 a V c) ⊢ (Pipeline.unscopedRest spec0 c (V c) : sProp 𝕄) := by
  rw [carve0_eq a V hT c]

theorem ok0_of (pf : pre0.Contents (Elt F))
    (hu : ∀ x : S16384.Idx, (pf 0 x : BitVec 32).toNat < 1000000)
    (hi : ∀ x : S16384.Idx, (pf 1 x : BitVec 32).toNat < 500000) : ok0 pf := by
  refine ⟨fun i => ⟨fun ax => ?_, .inl rfl⟩, fun i => ⟨fun ax => ?_, .inl rfl⟩, fun i => ⟨fun ax => ?_, .inl rfl⟩, fun i => ⟨fun ax => ?_, .inl rfl⟩⟩
  · match ax with
    | ⟨0, _⟩ => show (BitVec.toNat (pf 0 _) + 1) * 1 ≤ 1000000; exact (Nat.mul_one _).le.trans (hu _)
    | ⟨1, _⟩ => show (0 + 1) * 1 ≤ 1; exact Nat.le_refl _
    | ⟨2, _⟩ => show (0 + 1) * 64 ≤ 64; exact Nat.le_refl _
  · match ax with
    | ⟨0, _⟩ => show (BitVec.toNat (pf 1 _) + 1) * 1 ≤ 500000; exact (Nat.mul_one _).le.trans (hi _)
    | ⟨1, _⟩ => show (0 + 1) * 1 ≤ 1; exact Nat.le_refl _
    | ⟨2, _⟩ => show (0 + 1) * 64 ≤ 64; exact Nat.le_refl _
  · match ax with
    | ⟨0, _⟩ => show (BitVec.toNat (pf 1 _) + 1) * 1 ≤ 500000; exact (Nat.mul_one _).le.trans (hi _)
    | ⟨1, _⟩ => show (0 + 1) * 1 ≤ 1; exact Nat.le_refl _
    | ⟨2, _⟩ => show (0 + 1) * 64 ≤ 64; exact Nat.le_refl _
  · match ax with
    | ⟨0, _⟩ => show (BitVec.toNat (pf 1 _) + 1) * 1 ≤ 500000; exact (Nat.mul_one _).le.trans (hi _)
    | ⟨1, _⟩ => show (0 + 1) * 1 ≤ 1; exact Nat.le_refl _
    | ⟨2, _⟩ => show (0 + 1) * 64 ≤ 64; exact Nat.le_refl _

def adm0 (V : (c : Dev nD) → (b : Ref sig .tc) → Buf (Elt F) ((c : Thread nD τ).loc b)) (c : Dev nD)
    (hu : ∀ x : S16384.Idx, (V c main_arg4 x : BitVec 32).toNat < 1000000)
    (hi : ∀ x : S16384.Idx, (V c main_arg5 x : BitVec 32).toNat < 500000) : (pcfg0 (F := F)).Adm :=
  ⟨tbl0 V c, ok0_of (tbl0 V c) hu hi⟩

theorem adm0_val (V : (c : Dev nD) → (b : Ref sig .tc) → Buf (Elt F) ((c : Thread nD τ).loc b)) (c : Dev nD) (hu) (hi) :
    (adm0 V c hu hi).1 = tbl0 V c := rfl

theorem tablesAt_adm0 (V : (c : Dev nD) → (b : Ref sig .tc) → Buf (Elt F) ((c : Thread nD τ).loc b)) (c : Dev nD) (hu) (hi) :
    TablesAt (adm0 V c hu hi) V := fun c' => by
  rw [Subsingleton.elim c' c]; rfl

end Cert.Kernel.Hand

end
-- ==== Proof.KB.Reg1.lean ====
import proofs.«402369_j86406152061536_3_alg».proof.Proof.Gen.Kernel.Launch
import proofs.«402369_j86406152061536_3_alg».proof.Proof.Gen.Kernel.Skeleton
import proofs.«402369_j86406152061536_3_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t :=
  (dat.before_in_eq_fetched 0 rfl (fun _ => rfl) (fun _ _ _ => rfl)
      (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t :=
  (dat.before_in_eq_fetched 1 rfl (fun _ => rfl) (fun _ _ _ => rfl)
      (fun t => by rw [hafter]; unfold Dat.blockOf iblk1; rw [hA]; try rfl) t d).trans
    (by unfold Dat.fetched Dat.blockOf iblk1; rw [hA]; try rfl)

abbrev r1_0 : Rect S4096x64 := Rect.unit (s := S4096x64) ![0, 0] S4096x64.size inb_S4096x64_S4096x64_0_0
abbrev r1_1 : Rect S64x256 := Rect.unit (s := S64x256) ![0, 0] S64x256.size inb_S64x256_S64x256_0_0
abbrev r1_2 : Rect S4096x256 := Rect.unit (s := S4096x256) ![0, 0] S4096x256.size inb_S4096x256_S4096x256_0_0

def out1_2 (x0 : Vec F S4096x64 .f32) (x1 : Vec F S64x256 .f32) : Vec F S4096x256 .f32 :=
  View.canon [⟨r1_2, k1_pay1 (View.ld x0 r1_0) (View.ld x1 r1_1)⟩]

theorem cover1_2 (p0 : Vec F S4096x256 .f32) (y : S4096x256.Idx) :
    ∃ pc ∈ ([⟨r1_2, p0⟩] : List (View.Piece (Elt F) S4096x256 .f32)), y ∈ pc.1.set :=
  View.cover_of_tiled [⟨r1_2, p0⟩] S4096x256.size (by rfl) y

set_option maxHeartbeats 1000000 in

theorem sound_kernel1 (c : Dev nD) (E : Set ℕ) (i : grid1.Coords)
    (arg1 : Memref sig .tc .vmem S4096x64 .f32) (harg1 : arg1.IsWhole)
    (arg2 : Memref sig .tc .vmem S64x256 .f32) (harg2 : arg2.IsWhole)
    (arg3 : Memref sig .tc .vmem S4096x256 .f32) (harg3 : arg3.IsWhole)
    (x0 : Vec F S4096x64 .f32) (x1 : Vec F S64x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E
          (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := by
  dsimp only [dat1]

theorem owed_eq1 (c : Dev nD) (t : Fin (cfg1.N + 1)) : (dat1 V c).owed t = 0 := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t)
      (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) :
    BodyObligation (dat1 (F := F) V c) (defs₀ (F := F)) Variants.none () Set.univ := fun t => by
  rw [bigSep_W1, bigSep_W1]
  exact sound_body1 V c t

theorem hin1 (c : Dev nD) (T : sProp 𝕄) :
    iprop((∃ r, prngReg c r) ∗ T
        ∗ Pipeline.scopedRest (Ix := Unit) (Name := ℕ) (U := UR sig nD τ) (Lvl := ℕ) (Val := Elt F) spec1 c)
      ⊢ (dat1 V c).Φ 0 := by
  rw [show (dat1 V c).Φ 0 = Pipeline.ΦA spec1 c from rfl]; unfold Pipeline.ΦA
  iintro ⟨Hp, -, Hr⟩
  isplitl [Hr]; · iexact Hr
  iexact Hp

theorem hout1 (c : Dev nD) :
    (dat1 V c).Φ (Fin.last cfg1.N)
      ⊢ iprop((∃ r, prngReg c r)
        ∗ Pipeline.scopedRest (Ix := Unit) (Name := ℕ) (U := UR sig nD τ) (Lvl := ℕ) (Val := Elt F) spec1 c) := by
  rw [show (dat1 V c).Φ (Fin.last _) = Pipeline.ΦA spec1 c from rfl]; unfold Pipeline.ΦA
  iintro ⟨Hr, Hp⟩
  isplitl [Hp]; · iexact Hp
  iexact Hr

end Cert.Kernel.Hand

end
-- ==== Proof.KB.Reg2.lean ====
import proofs.«402369_j86406152061536_3_alg».proof.Proof.Gen.Kernel.Launch
import proofs.«402369_j86406152061536_3_alg».proof.Proof.Gen.Kernel.Skeleton
import proofs.«402369_j86406152061536_3_alg».proof.Proof.Gen.Kernel.Points
import proofs.«402369_j86406152061536_3_alg».proof.Proof.KB.Reg1
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c)
    (hA : dat.A 0 = V c (Pipeline.arrRef spec2 0)) (hafter : ∀ t, dat.after 0 t = iblk2 V c 0 t)
    (t : Fin cfg2.N) (d) : dat.before 0 t d = iblk2 V c 0 t :=
  (dat.before_in_eq_fetched 0 rfl (fun _ => rfl) (fun _ _ _ => rfl)
      (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c)
    (hA : dat.A 1 = V c (Pipeline.arrRef spec2 1)) (hafter : ∀ t, dat.after 1 t = iblk2 V c 1 t)
    (t : Fin cfg2.N) (d) : dat.before 1 t d = iblk2 V c 1 t :=
  (dat.before_in_eq_fetched 1 rfl (fun _ => rfl) (fun _ _ _ => rfl)
      (fun t => by rw [hafter]; unfold Dat.blockOf iblk2; rw [hA]; try rfl) t d).trans
    (by unfold Dat.fetched Dat.blockOf iblk2; rw [hA]; try rfl)

abbrev r2_0 : Rect S4096x64 := Rect.unit (s := S4096x64) ![0, 0] S4096x64.size inb_S4096x64_S4096x64_0_0
abbrev r2_1 : Rect S64x256 := Rect.unit (s := S64x256) ![0, 0] S64x256.size inb_S64x256_S64x256_0_0
abbrev r2_2 : Rect S4096x256 := Rect.unit (s := S4096x256) ![0, 0] S4096x256.size inb_S4096x256_S4096x256_0_0

def out2_2 (x0 : Vec F S4096x64 .f32) (x1 : Vec F S64x256 .f32) : Vec F S4096x256 .f32 :=
  View.canon [⟨r2_2, k2_pay1 (View.ld x0 r2_0) (View.ld x1 r2_1)⟩]

theorem cover2_2 (p0 : Vec F S4096x256 .f32) (y : S4096x256.Idx) :
    ∃ pc ∈ ([⟨r2_2, p0⟩] : List (View.Piece (Elt F) S4096x256 .f32)), y ∈ pc.1.set :=
  View.cover_of_tiled [⟨r2_2, p0⟩] S4096x256.size (by rfl) y

theorem sound_kernel2 (c : Dev nD) (E : Set ℕ) (i : grid2.Coords)
    (arg1 : Memref sig .tc .vmem S4096x64 .f32) (harg1 : arg1.IsWhole)
    (arg2 : Memref sig .tc .vmem S64x256 .f32) (harg2 : arg2.IsWhole)
    (arg3 : Memref sig .tc .vmem S4096x256 .f32) (harg3 : arg3.IsWhole)
    (x0 : Vec F S4096x64 .f32) (x1 : Vec F S64x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E
          (cc2__matmul_kernel i arg1 harg1 arg2 harg2 arg3 harg3) K :=
  sound_kernel1 c E i arg1 harg1 arg2 harg2 arg3 harg3 x0 x1 K

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem q_eq2 (c : Dev nD) (w : Fin cfg2.W) : (dat2 V c).q w = fullShare := by
  dsimp only [dat2]

theorem owed_eq2 (c : Dev nD) (t : Fin (cfg2.N + 1)) : (dat2 V c).owed t = 0 := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t)
      (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) :
    BodyObligation (dat2 (F := F) V c) (defs₀ (F := F)) Variants.none () Set.univ := fun t => by
  rw [bigSep_W2, bigSep_W2]
  exact sound_body2 V c t

theorem hin2 (c : Dev nD) (T : sProp 𝕄) :
    iprop((∃ r, prngReg c r) ∗ T
        ∗ Pipeline.scopedRest (Ix := Unit) (Name := ℕ) (U := UR sig nD τ) (Lvl := ℕ) (Val := Elt F) spec2 c)
      ⊢ (dat2 V c).Φ 0 := by
  rw [show (dat2 V c).Φ 0 = Pipeline.ΦA spec2 c from rfl]; unfold Pipeline.ΦA
  iintro ⟨Hp, -, Hr⟩
  isplitl [Hr]; · iexact Hr
  iexact Hp

theorem hout2 (c : Dev nD) :
    (dat2 V c).Φ (Fin.last cfg2.N)
      ⊢ iprop((∃ r, prngReg c r)
        ∗ Pipeline.scopedRest (Ix := Unit) (Name := ℕ) (U := UR sig nD τ) (Lvl := ℕ) (Val := Elt F) spec2 c) := by
  rw [show (dat2 V c).Φ (Fin.last _) = Pipeline.ΦA spec2 c from rfl]; unfold Pipeline.ΦA
  iintro ⟨Hr, Hp⟩
  isplitl [Hp]; · iexact Hp
  iexact Hr

end Cert.Kernel.Hand

end
-- ==== Proof.KB.Reg3.lean ====
import proofs.«402369_j86406152061536_3_alg».proof.Proof.Gen.Kernel.Launch
import proofs.«402369_j86406152061536_3_alg».proof.Proof.Gen.Kernel.Skeleton
import proofs.«402369_j86406152061536_3_alg».proof.Proof.Gen.Kernel.Points
import proofs.«402369_j86406152061536_3_alg».proof.Proof.KB.Reg1
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c)
    (hA : dat.A 0 = V c (Pipeline.arrRef spec3 0)) (hafter : ∀ t, dat.after 0 t = iblk3 V c 0 t)
    (t : Fin cfg3.N) (d) : dat.before 0 t d = iblk3 V c 0 t :=
  (dat.before_in_eq_fetched 0 rfl (fun _ => rfl) (fun _ _ _ => rfl)
      (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c)
    (hA : dat.A 1 = V c (Pipeline.arrRef spec3 1)) (hafter : ∀ t, dat.after 1 t = iblk3 V c 1 t)
    (t : Fin cfg3.N) (d) : dat.before 1 t d = iblk3 V c 1 t :=
  (dat.before_in_eq_fetched 1 rfl (fun _ => rfl) (fun _ _ _ => rfl)
      (fun t => by rw [hafter]; unfold Dat.blockOf iblk3; rw [hA]; try rfl) t d).trans
    (by unfold Dat.fetched Dat.blockOf iblk3; rw [hA]; try rfl)

abbrev r3_0 : Rect S4096x64 := Rect.unit (s := S4096x64) ![0, 0] S4096x64.size inb_S4096x64_S4096x64_0_0
abbrev r3_1 : Rect S64x256 := Rect.unit (s := S64x256) ![0, 0] S64x256.size inb_S64x256_S64x256_0_0
abbrev r3_2 : Rect S4096x256 := Rect.unit (s := S4096x256) ![0, 0] S4096x256.size inb_S4096x256_S4096x256_0_0

def out3_2 (x0 : Vec F S4096x64 .f32) (x1 : Vec F S64x256 .f32) : Vec F S4096x256 .f32 :=
  View.canon [⟨r3_2, k3_pay1 (View.ld x0 r3_0) (View.ld x1 r3_1)⟩]

theorem cover3_2 (p0 : Vec F S4096x256 .f32) (y : S4096x256.Idx) :
    ∃ pc ∈ ([⟨r3_2, p0⟩] : List (View.Piece (Elt F) S4096x256 .f32)), y ∈ pc.1.set :=
  View.cover_of_tiled [⟨r3_2, p0⟩] S4096x256.size (by rfl) y

theorem sound_kernel3 (c : Dev nD) (E : Set ℕ) (i : grid3.Coords)
    (arg1 : Memref sig .tc .vmem S4096x64 .f32) (harg1 : arg1.IsWhole)
    (arg2 : Memref sig .tc .vmem S64x256 .f32) (harg2 : arg2.IsWhole)
    (arg3 : Memref sig .tc .vmem S4096x256 .f32) (harg3 : arg3.IsWhole)
    (x0 : Vec F S4096x64 .f32) (x1 : Vec F S64x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E
          (cc3__matmul_kernel i arg1 harg1 arg2 harg2 arg3 harg3) K :=
  sound_kernel1 c E i arg1 harg1 arg2 harg2 arg3 harg3 x0 x1 K

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem q_eq3 (c : Dev nD) (w : Fin cfg3.W) : (dat3 V c).q w = fullShare := by
  dsimp only [dat3]

theorem owed_eq3 (c : Dev nD) (t : Fin (cfg3.N + 1)) : (dat3 V c).owed t = 0 := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t)
      (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) :
    BodyObligation (dat3 (F := F) V c) (defs₀ (F := F)) Variants.none () Set.univ := fun t => by
  rw [bigSep_W3, bigSep_W3]
  exact sound_body3 V c t

theorem hin3 (c : Dev nD) (T : sProp 𝕄) :
    iprop((∃ r, prngReg c r) ∗ T
        ∗ Pipeline.scopedRest (Ix := Unit) (Name := ℕ) (U := UR sig nD τ) (Lvl := ℕ) (Val := Elt F) spec3 c)
      ⊢ (dat3 V c).Φ 0 := by
  rw [show (dat3 V c).Φ 0 = Pipeline.ΦA spec3 c from rfl]; unfold Pipeline.ΦA
  iintro ⟨Hp, -, Hr⟩
  isplitl [Hr]; · iexact Hr
  iexact Hp

theorem hout3 (c : Dev nD) :
    (dat3 V c).Φ (Fin.last cfg3.N)
      ⊢ iprop((∃ r, prngReg c r)
        ∗ Pipeline.scopedRest (Ix := Unit) (Name := ℕ) (U := UR sig nD τ) (Lvl := ℕ) (Val := Elt F) spec3 c) := by
  rw [show (dat3 V c).Φ (Fin.last _) = Pipeline.ΦA spec3 c from rfl]; unfold Pipeline.ΦA
  iintro ⟨Hr, Hp⟩
  isplitl [Hp]; · iexact Hp
  iexact Hr

end Cert.Kernel.Hand

end
-- ==== Proof.KB.Reg4.lean ====
import proofs.«402369_j86406152061536_3_alg».proof.Proof.Gen.Kernel.Launch
import proofs.«402369_j86406152061536_3_alg».proof.Proof.Gen.Kernel.Skeleton
import proofs.«402369_j86406152061536_3_alg».proof.Proof.Gen.Kernel.Points
import proofs.«402369_j86406152061536_3_alg».proof.Proof.KB.Reg1
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c)
    (hA : dat.A 0 = V c (Pipeline.arrRef spec4 0)) (hafter : ∀ t, dat.after 0 t = iblk4 V c 0 t)
    (t : Fin cfg4.N) (d) : dat.before 0 t d = iblk4 V c 0 t :=
  (dat.before_in_eq_fetched 0 rfl (fun _ => rfl) (fun _ _ _ => rfl)
      (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c)
    (hA : dat.A 1 = V c (Pipeline.arrRef spec4 1)) (hafter : ∀ t, dat.after 1 t = iblk4 V c 1 t)
    (t : Fin cfg4.N) (d) : dat.before 1 t d = iblk4 V c 1 t :=
  (dat.before_in_eq_fetched 1 rfl (fun _ => rfl) (fun _ _ _ => rfl)
      (fun t => by rw [hafter]; unfold Dat.blockOf iblk4; rw [hA]; try rfl) t d).trans
    (by unfold Dat.fetched Dat.blockOf iblk4; rw [hA]; try rfl)

abbrev r4_0 : Rect S4096x64 := Rect.unit (s := S4096x64) ![0, 0] S4096x64.size inb_S4096x64_S4096x64_0_0
abbrev r4_1 : Rect S64x256 := Rect.unit (s := S64x256) ![0, 0] S64x256.size inb_S64x256_S64x256_0_0
abbrev r4_2 : Rect S4096x256 := Rect.unit (s := S4096x256) ![0, 0] S4096x256.size inb_S4096x256_S4096x256_0_0

def out4_2 (x0 : Vec F S4096x64 .f32) (x1 : Vec F S64x256 .f32) : Vec F S4096x256 .f32 :=
  View.canon [⟨r4_2, k4_pay1 (View.ld x0 r4_0) (View.ld x1 r4_1)⟩]

theorem cover4_2 (p0 : Vec F S4096x256 .f32) (y : S4096x256.Idx) :
    ∃ pc ∈ ([⟨r4_2, p0⟩] : List (View.Piece (Elt F) S4096x256 .f32)), y ∈ pc.1.set :=
  View.cover_of_tiled [⟨r4_2, p0⟩] S4096x256.size (by rfl) y

theorem sound_kernel4 (c : Dev nD) (E : Set ℕ) (i : grid4.Coords)
    (arg1 : Memref sig .tc .vmem S4096x64 .f32) (harg1 : arg1.IsWhole)
    (arg2 : Memref sig .tc .vmem S64x256 .f32) (harg2 : arg2.IsWhole)
    (arg3 : Memref sig .tc .vmem S4096x256 .f32) (harg3 : arg3.IsWhole)
    (x0 : Vec F S4096x64 .f32) (x1 : Vec F S64x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E
          (cc4__matmul_kernel i arg1 harg1 arg2 harg2 arg3 harg3) K :=
  sound_kernel1 c E i arg1 harg1 arg2 harg2 arg3 harg3 x0 x1 K

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem q_eq4 (c : Dev nD) (w : Fin cfg4.W) : (dat4 V c).q w = fullShare := by
  dsimp only [dat4]

theorem owed_eq4 (c : Dev nD) (t : Fin (cfg4.N + 1)) : (dat4 V c).owed t = 0 := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t)
      (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) :
    BodyObligation (dat4 (F := F) V c) (defs₀ (F := F)) Variants.none () Set.univ := fun t => by
  rw [bigSep_W4, bigSep_W4]
  exact sound_body4 V c t

theorem hin4 (c : Dev nD) (T : sProp 𝕄) :
    iprop((∃ r, prngReg c r) ∗ T
        ∗ Pipeline.scopedRest (Ix := Unit) (Name := ℕ) (U := UR sig nD τ) (Lvl := ℕ) (Val := Elt F) spec4 c)
      ⊢ (dat4 V c).Φ 0 := by
  rw [show (dat4 V c).Φ 0 = Pipeline.ΦA spec4 c from rfl]; unfold Pipeline.ΦA
  iintro ⟨Hp, -, Hr⟩
  isplitl [Hr]; · iexact Hr
  iexact Hp

theorem hout4 (c : Dev nD) :
    (dat4 V c).Φ (Fin.last cfg4.N)
      ⊢ iprop((∃ r, prngReg c r)
        ∗ Pipeline.scopedRest (Ix := Unit) (Name := ℕ) (U := UR sig nD τ) (Lvl := ℕ) (Val := Elt F) spec4 c) := by
  rw [show (dat4 V c).Φ (Fin.last _) = Pipeline.ΦA spec4 c from rfl]; unfold Pipeline.ΦA
  iintro ⟨Hr, Hp⟩
  isplitl [Hp]; · iexact Hp
  iexact Hr

end Cert.Kernel.Hand

end
-- ==== Proof.KB.Reg5.lean ====
import proofs.«402369_j86406152061536_3_alg».proof.Proof.Gen.Kernel.Launch
import proofs.«402369_j86406152061536_3_alg».proof.Proof.Gen.Kernel.Skeleton
import proofs.«402369_j86406152061536_3_alg».proof.Proof.Gen.Kernel.Points
import proofs.«402369_j86406152061536_3_alg».proof.Proof.KB.Reg1
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c)
    (hA : dat.A 0 = V c (Pipeline.arrRef spec5 0)) (hafter : ∀ t, dat.after 0 t = iblk5 V c 0 t)
    (t : Fin cfg5.N) (d) : dat.before 0 t d = iblk5 V c 0 t :=
  (dat.before_in_eq_fetched 0 rfl (fun _ => rfl) (fun _ _ _ => rfl)
      (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c)
    (hA : dat.A 1 = V c (Pipeline.arrRef spec5 1)) (hafter : ∀ t, dat.after 1 t = iblk5 V c 1 t)
    (t : Fin cfg5.N) (d) : dat.before 1 t d = iblk5 V c 1 t :=
  (dat.before_in_eq_fetched 1 rfl (fun _ => rfl) (fun _ _ _ => rfl)
      (fun t => by rw [hafter]; unfold Dat.blockOf iblk5; rw [hA]; try rfl) t d).trans
    (by unfold Dat.fetched Dat.blockOf iblk5; rw [hA]; try rfl)

abbrev r5_0 : Rect S4096x64 := Rect.unit (s := S4096x64) ![0, 0] S4096x64.size inb_S4096x64_S4096x64_0_0
abbrev r5_1 : Rect S64x256 := Rect.unit (s := S64x256) ![0, 0] S64x256.size inb_S64x256_S64x256_0_0
abbrev r5_2 : Rect S4096x256 := Rect.unit (s := S4096x256) ![0, 0] S4096x256.size inb_S4096x256_S4096x256_0_0

def out5_2 (x0 : Vec F S4096x64 .f32) (x1 : Vec F S64x256 .f32) : Vec F S4096x256 .f32 :=
  View.canon [⟨r5_2, k5_pay1 (View.ld x0 r5_0) (View.ld x1 r5_1)⟩]

theorem cover5_2 (p0 : Vec F S4096x256 .f32) (y : S4096x256.Idx) :
    ∃ pc ∈ ([⟨r5_2, p0⟩] : List (View.Piece (Elt F) S4096x256 .f32)), y ∈ pc.1.set :=
  View.cover_of_tiled [⟨r5_2, p0⟩] S4096x256.size (by rfl) y

theorem sound_kernel5 (c : Dev nD) (E : Set ℕ) (i : grid5.Coords)
    (arg1 : Memref sig .tc .vmem S4096x64 .f32) (harg1 : arg1.IsWhole)
    (arg2 : Memref sig .tc .vmem S64x256 .f32) (harg2 : arg2.IsWhole)
    (arg3 : Memref sig .tc .vmem S4096x256 .f32) (harg3 : arg3.IsWhole)
    (x0 : Vec F S4096x64 .f32) (x1 : Vec F S64x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E
          (cc5__matmul_kernel i arg1 harg1 arg2 harg2 arg3 harg3) K :=
  sound_kernel1 c E i arg1 harg1 arg2 harg2 arg3 harg3 x0 x1 K

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem q_eq5 (c : Dev nD) (w : Fin cfg5.W) : (dat5 V c).q w = fullShare := by
  dsimp only [dat5]

theorem owed_eq5 (c : Dev nD) (t : Fin (cfg5.N + 1)) : (dat5 V c).owed t = 0 := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) :
    (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t)
      (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) :
    BodyObligation (dat5 (F := F) V c) (defs₀ (F := F)) Variants.none () Set.univ := fun t => by
  rw [bigSep_W5, bigSep_W5]
  exact sound_body5 V c t

theorem hin5 (c : Dev nD) (T : sProp 𝕄) :
    iprop((∃ r, prngReg c r) ∗ T
        ∗ Pipeline.scopedRest (Ix := Unit) (Name := ℕ) (U := UR sig nD τ) (Lvl := ℕ) (Val := Elt F) spec5 c)
      ⊢ (dat5 V c).Φ 0 := by
  rw [show (dat5 V c).Φ 0 = Pipeline.ΦA spec5 c from rfl]; unfold Pipeline.ΦA
  iintro ⟨Hp, -, Hr⟩
  isplitl [Hr]; · iexact Hr
  iexact Hp

theorem hout5 (c : Dev nD) :
    (dat5 V c).Φ (Fin.last cfg5.N)
      ⊢ iprop((∃ r, prngReg c r)
        ∗ Pipeline.scopedRest (Ix := Unit) (Name := ℕ) (U := UR sig nD τ) (Lvl := ℕ) (Val := Elt F) spec5 c) := by
  rw [show (dat5 V c).Φ (Fin.last _) = Pipeline.ΦA spec5 c from rfl]; unfold Pipeline.ΦA
  iintro ⟨Hr, Hp⟩
  isplitl [Hp]; · iexact Hp
  iexact Hr

end Cert.Kernel.Hand

end
-- ==== Proof.KB.Reg6.lean ====
import proofs.«402369_j86406152061536_3_alg».proof.Proof.Gen.Kernel.Launch
import proofs.«402369_j86406152061536_3_alg».proof.Proof.Gen.Kernel.Skeleton
import proofs.«402369_j86406152061536_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S16384x256 := Rect.unit (s := S16384x256) ![0, 0] S16384x256.size inb_S16384x256_S16384x256_0_0

theorem mem6_1 (y : S16384x256.Idx) : y ∈ (r6_0).set := by
  obtain ⟨pc, hm, hy⟩ := View.cover_of_tiled (Val := fun _ => PUnit) (e := .f32) [⟨r6_0, fun _ => ⟨⟩⟩] S16384x256.size (by rfl) y
  rw [List.mem_singleton] at hm; subst hm; exact hy

theorem canon6_1 (w : Vec F S16384x256 .f32) (L : List (View.Piece (Elt F) S16384x256 .f32)) :
    View.canon (⟨r6_0, w⟩ :: L) = View.canon [⟨r6_0, w⟩] := by
  funext y
  obtain ⟨x, rfl⟩ : ∃ x, (r6_0).emb x = y := (r6_0).exists_idx_of_mem (mem6_1 y)
  rw [View.canon_cons_emb, View.canon_cons_emb]

theorem cover6_1 (p0 : Vec F S16384x256 .f32) (L : List (View.Piece (Elt F) S16384x256 .f32)) (y : S16384x256.Idx) :
    ∃ pc ∈ ((⟨r6_0, p0⟩ :: L : List (View.Piece (Elt F) S16384x256 .f32))), y ∈ pc.1.set :=
  ⟨⟨r6_0, p0⟩, List.mem_cons_self, mem6_1 y⟩

def sink6_1 (x0 : Vec F S16384x256 .f32) : Vec F S16384x256 .f32 := k6_pay4 (View.ld x0 r6_0)

def sink6_2 (x0 : Vec F S16384x256 .f32) : Vec F S16384x256 .f32 := k6_pay5 (sink6_1 x0) (sink6_1 x0)

def sink6_3 (x0 : Vec F S16384x256 .f32) : Vec F S16384x256 .f32 := k6_pay6 (sink6_2 x0) (sink6_2 x0)

def sink6_4 (x0 : Vec F S16384x256 .f32) : Vec F S16384x256 .f32 := k6_pay8 (k6_pay7 (sink6_3 x0)) (sink6_3 x0)

def sink6_5 (x0 : Vec F S16384x256 .f32) : Vec F S16384x256 .f32 := k6_pay9 (sink6_4 x0) (sink6_4 x0)

def sink6_6 (x0 : Vec F S16384x256 .f32) : Vec F S16384x256 .f32 := k6_pay10 (sink6_5 x0) (sink6_5 x0)

def sink6_7 (x0 : Vec F S16384x256 .f32) : Vec F S16384x256 .f32 := k6_pay1 (k6_pay11 (sink6_6 x0)) (sink6_6 x0)

def sink6_8 (x0 : Vec F S16384x256 .f32) : Vec F S16384x256 .f32 := k6_pay2 (sink6_7 x0) (sink6_7 x0)

def sink6_9 (x0 : Vec F S16384x256 .f32) : Vec F S16384x256 .f32 := k6_pay3 (sink6_8 x0)

def out6_1 (x0 : Vec F S16384x256 .f32) : Vec F S16384x256 .f32 :=
  View.canon [⟨r6_0, sink6_9 x0⟩]

set_option maxHeartbeats 1000000 in

theorem sound_kernel6 (c : Dev nD) (E : Set ℕ) (i : grid6.Coords) (arg1 : Memref sig .tc .vmem S16384x256 .f32) (harg1 : arg1.IsWhole) (arg2 : Memref sig .tc .vmem S16384x256 .f32) (harg2 : arg2.IsWhole)
    (x0 : Vec F S16384x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out6_1 x0)) -∗ K ⟨⟩))
      ⊢ wp frame (wpE (defs₀ (F := F)) Variants.none c none) E (cc6__sinkhorn_kernel i arg1 harg1 arg2 harg2) K := by
  simp only [cc6__sinkhorn_kernel_eq_skeleton]; unfold cc6__sinkhorn_kernel_skel
  unfold owns
  iintro ⟨⟨%f0, %hf0, H0⟩, ⟨%d1, %f1, -, H1⟩, Hk⟩
  subst hf0
  sl_exec_parts
  sl_step
  iapply Hk
  isplitl [H0]
  · iexists f0; isplitr; · ipureintro; rfl
    iexact H0
  iexists _; isplitr
  swap; · iexact H1
  ipureintro
  rw [View.read_writes_eq_canon _ _ _ (cover6_1 _ _), canon6_1]
  unfold out6_1

  sl_unfold_run_names
  simp only [View.readCov_cons_toLoadRect]
  rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => out6_1 (iblk6 V c 0 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem q_eq6 (c : Dev nD) (w : Fin cfg6.W) : (dat6 V c).q w = fullShare := by
  dsimp only [dat6]

theorem owed_eq6 (c : Dev nD) (t : Fin (cfg6.N + 1)) : (dat6 V c).owed t = 0 := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = out6_1 (iblk6 V c 0 t) := by dsimp only [dat6]

theorem before6_0 (c : Dev nD) (t : Fin cfg6.N) (d) : (dat6 V c).before 0 t d = iblk6 V c 0 t :=
  before6_0_of V (dat6 V c) (A_eq6 V c 0) (after6_0 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0]
  rw [show (dat6 V c).Φ t.succ = (dat6 V c).Φ t.castSucc from rfl,
    show (dat6 V c).owesAt () t.succ = (dat6 V c).owesAt () t.castSucc from rfl,
    after6_0, after6_1]
  iintro ⟨HΦ, Ho, ⟨%d0, H0⟩, ⟨%d1, H1⟩⟩
  iapply (sound_kernel6 c Set.univ _ _ _ _ _ (iblk6 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation6 (c : Dev nD) : BodyObligation (dat6 (F := F) V c) (defs₀ (F := F)) Variants.none () Set.univ := fun t => by
  rw [bigSep_W6, bigSep_W6]
  exact sound_body6 V c t

theorem hin6 (c : Dev nD) (T : sProp 𝕄) :
    iprop((∃ r, prngReg c r) ∗ T ∗ Pipeline.scopedRest (Ix := Unit) (Name := ℕ) (U := UR sig nD τ) (Lvl := ℕ) (Val := Elt F) spec6 c) ⊢ (dat6 V c).Φ 0 := by
  rw [show (dat6 V c).Φ 0 = Pipeline.ΦA spec6 c from rfl]; unfold Pipeline.ΦA
  iintro ⟨Hp, -, Hr⟩
  isplitl [Hr]; · iexact Hr
  iexact Hp

theorem hout6 (c : Dev nD) :
    (dat6 V c).Φ (Fin.last cfg6.N) ⊢ iprop((∃ r, prngReg c r) ∗ Pipeline.scopedRest (Ix := Unit) (Name := ℕ) (U := UR sig nD τ) (Lvl := ℕ) (Val := Elt F) spec6 c) := by
  rw [show (dat6 V c).Φ (Fin.last _) = Pipeline.ΦA spec6 c from rfl]; unfold Pipeline.ΦA
  iintro ⟨Hr, Hp⟩
  isplitl [Hp]; · iexact Hp
  iexact Hr

end Region6

end Cert.Kernel.Hand

end
-- ==== Proof.KB.Reg7.lean ====
import proofs.«402369_j86406152061536_3_alg».proof.Proof.Gen.Kernel.Launch
import proofs.«402369_j86406152061536_3_alg».proof.Proof.Gen.Kernel.Skeleton
import proofs.«402369_j86406152061536_3_alg».proof.Proof.Gen.Kernel.Points
import proofs.«402369_j86406152061536_3_alg».proof.Proof.KB.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S16384x256 := Rect.unit (s := S16384x256) ![0, 0] S16384x256.size inb_S16384x256_S16384x256_0_0

theorem mem7_1 (y : S16384x256.Idx) : y ∈ (r7_0).set := by
  obtain ⟨pc, hm, hy⟩ := View.cover_of_tiled (Val := fun _ => PUnit) (e := .f32) [⟨r7_0, fun _ => ⟨⟩⟩] S16384x256.size (by rfl) y
  rw [List.mem_singleton] at hm; subst hm; exact hy

theorem canon7_1 (w : Vec F S16384x256 .f32) (L : List (View.Piece (Elt F) S16384x256 .f32)) :
    View.canon (⟨r7_0, w⟩ :: L) = View.canon [⟨r7_0, w⟩] := by
  funext y
  obtain ⟨x, rfl⟩ : ∃ x, (r7_0).emb x = y := (r7_0).exists_idx_of_mem (mem7_1 y)
  rw [View.canon_cons_emb, View.canon_cons_emb]

theorem cover7_1 (p0 : Vec F S16384x256 .f32) (L : List (View.Piece (Elt F) S16384x256 .f32)) (y : S16384x256.Idx) :
    ∃ pc ∈ ((⟨r7_0, p0⟩ :: L : List (View.Piece (Elt F) S16384x256 .f32))), y ∈ pc.1.set :=
  ⟨⟨r7_0, p0⟩, List.mem_cons_self, mem7_1 y⟩

def sink7_1 (x0 : Vec F S16384x256 .f32) : Vec F S16384x256 .f32 := k7_pay4 (View.ld x0 r7_0)

def sink7_2 (x0 : Vec F S16384x256 .f32) : Vec F S16384x256 .f32 := k7_pay5 (sink7_1 x0) (sink7_1 x0)

def sink7_3 (x0 : Vec F S16384x256 .f32) : Vec F S16384x256 .f32 := k7_pay6 (sink7_2 x0) (sink7_2 x0)

def sink7_4 (x0 : Vec F S16384x256 .f32) : Vec F S16384x256 .f32 := k7_pay8 (k7_pay7 (sink7_3 x0)) (sink7_3 x0)

def sink7_5 (x0 : Vec F S16384x256 .f32) : Vec F S16384x256 .f32 := k7_pay9 (sink7_4 x0) (sink7_4 x0)

def sink7_6 (x0 : Vec F S16384x256 .f32) : Vec F S16384x256 .f32 := k7_pay10 (sink7_5 x0) (sink7_5 x0)

def sink7_7 (x0 : Vec F S16384x256 .f32) : Vec F S16384x256 .f32 := k7_pay1 (k7_pay11 (sink7_6 x0)) (sink7_6 x0)

def sink7_8 (x0 : Vec F S16384x256 .f32) : Vec F S16384x256 .f32 := k7_pay2 (sink7_7 x0) (sink7_7 x0)

def sink7_9 (x0 : Vec F S16384x256 .f32) : Vec F S16384x256 .f32 := k7_pay3 (sink7_8 x0)

def out7_1 (x0 : Vec F S16384x256 .f32) : Vec F S16384x256 .f32 :=
  View.canon [⟨r7_0, sink7_9 x0⟩]

theorem sound_kernel7 (c : Dev nD) (E : Set ℕ) (i : grid7.Coords) (arg1 : Memref sig .tc .vmem S16384x256 .f32) (harg1 : arg1.IsWhole) (arg2 : Memref sig .tc .vmem S16384x256 .f32) (harg2 : arg2.IsWhole)
    (x0 : Vec F S16384x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out7_1 x0)) -∗ K ⟨⟩))
      ⊢ wp frame (wpE (defs₀ (F := F)) Variants.none c none) E (cc7__sinkhorn_kernel i arg1 harg1 arg2 harg2) K :=
  sound_kernel6 c E i arg1 harg1 arg2 harg2 x0 K

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => out7_1 (iblk7 V c 0 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem q_eq7 (c : Dev nD) (w : Fin cfg7.W) : (dat7 V c).q w = fullShare := by
  dsimp only [dat7]

theorem owed_eq7 (c : Dev nD) (t : Fin (cfg7.N + 1)) : (dat7 V c).owed t = 0 := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = out7_1 (iblk7 V c 0 t) := by dsimp only [dat7]

theorem before7_0 (c : Dev nD) (t : Fin cfg7.N) (d) : (dat7 V c).before 0 t d = iblk7 V c 0 t :=
  before7_0_of V (dat7 V c) (A_eq7 V c 0) (after7_0 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).Φ t.succ = (dat7 V c).Φ t.castSucc from rfl,
    show (dat7 V c).owesAt () t.succ = (dat7 V c).owesAt () t.castSucc from rfl,
    after7_0, after7_1]
  iintro ⟨HΦ, Ho, ⟨%d0, H0⟩, ⟨%d1, H1⟩⟩
  iapply (sound_kernel7 c Set.univ _ _ _ _ _ (iblk7 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation7 (c : Dev nD) : BodyObligation (dat7 (F := F) V c) (defs₀ (F := F)) Variants.none () Set.univ := fun t => by
  rw [bigSep_W7, bigSep_W7]
  exact sound_body7 V c t

theorem hin7 (c : Dev nD) (T : sProp 𝕄) :
    iprop((∃ r, prngReg c r) ∗ T ∗ Pipeline.scopedRest (Ix := Unit) (Name := ℕ) (U := UR sig nD τ) (Lvl := ℕ) (Val := Elt F) spec7 c) ⊢ (dat7 V c).Φ 0 := by
  rw [show (dat7 V c).Φ 0 = Pipeline.ΦA spec7 c from rfl]; unfold Pipeline.ΦA
  iintro ⟨Hp, -, Hr⟩
  isplitl [Hr]; · iexact Hr
  iexact Hp

theorem hout7 (c : Dev nD) :
    (dat7 V c).Φ (Fin.last cfg7.N) ⊢ iprop((∃ r, prngReg c r) ∗ Pipeline.scopedRest (Ix := Unit) (Name := ℕ) (U := UR sig nD τ) (Lvl := ℕ) (Val := Elt F) spec7 c) := by
  rw [show (dat7 V c).Φ (Fin.last _) = Pipeline.ΦA spec7 c from rfl]; unfold Pipeline.ΦA
  iintro ⟨Hr, Hp⟩
  isplitl [Hp]; · iexact Hp
  iexact Hr

end Region7

end Cert.Kernel.Hand

end
-- ==== Proof.KB.Reg8.lean ====
import proofs.«402369_j86406152061536_3_alg».proof.Proof.Gen.Kernel.Launch
import proofs.«402369_j86406152061536_3_alg».proof.Proof.Gen.Kernel.Skeleton
import proofs.«402369_j86406152061536_3_alg».proof.Proof.Gen.Kernel.Points
import proofs.«402369_j86406152061536_3_alg».proof.Proof.KB.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region8

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

abbrev r8_0 : Rect S16384x256 := Rect.unit (s := S16384x256) ![0, 0] S16384x256.size inb_S16384x256_S16384x256_0_0

theorem mem8_1 (y : S16384x256.Idx) : y ∈ (r8_0).set := by
  obtain ⟨pc, hm, hy⟩ := View.cover_of_tiled (Val := fun _ => PUnit) (e := .f32) [⟨r8_0, fun _ => ⟨⟩⟩] S16384x256.size (by rfl) y
  rw [List.mem_singleton] at hm; subst hm; exact hy

theorem canon8_1 (w : Vec F S16384x256 .f32) (L : List (View.Piece (Elt F) S16384x256 .f32)) :
    View.canon (⟨r8_0, w⟩ :: L) = View.canon [⟨r8_0, w⟩] := by
  funext y
  obtain ⟨x, rfl⟩ : ∃ x, (r8_0).emb x = y := (r8_0).exists_idx_of_mem (mem8_1 y)
  rw [View.canon_cons_emb, View.canon_cons_emb]

theorem cover8_1 (p0 : Vec F S16384x256 .f32) (L : List (View.Piece (Elt F) S16384x256 .f32)) (y : S16384x256.Idx) :
    ∃ pc ∈ ((⟨r8_0, p0⟩ :: L : List (View.Piece (Elt F) S16384x256 .f32))), y ∈ pc.1.set :=
  ⟨⟨r8_0, p0⟩, List.mem_cons_self, mem8_1 y⟩

def sink8_1 (x0 : Vec F S16384x256 .f32) : Vec F S16384x256 .f32 := k8_pay4 (View.ld x0 r8_0)

def sink8_2 (x0 : Vec F S16384x256 .f32) : Vec F S16384x256 .f32 := k8_pay5 (sink8_1 x0) (sink8_1 x0)

def sink8_3 (x0 : Vec F S16384x256 .f32) : Vec F S16384x256 .f32 := k8_pay6 (sink8_2 x0) (sink8_2 x0)

def sink8_4 (x0 : Vec F S16384x256 .f32) : Vec F S16384x256 .f32 := k8_pay8 (k8_pay7 (sink8_3 x0)) (sink8_3 x0)

def sink8_5 (x0 : Vec F S16384x256 .f32) : Vec F S16384x256 .f32 := k8_pay9 (sink8_4 x0) (sink8_4 x0)

def sink8_6 (x0 : Vec F S16384x256 .f32) : Vec F S16384x256 .f32 := k8_pay10 (sink8_5 x0) (sink8_5 x0)

def sink8_7 (x0 : Vec F S16384x256 .f32) : Vec F S16384x256 .f32 := k8_pay1 (k8_pay11 (sink8_6 x0)) (sink8_6 x0)

def sink8_8 (x0 : Vec F S16384x256 .f32) : Vec F S16384x256 .f32 := k8_pay2 (sink8_7 x0) (sink8_7 x0)

def sink8_9 (x0 : Vec F S16384x256 .f32) : Vec F S16384x256 .f32 := k8_pay3 (sink8_8 x0)

def out8_1 (x0 : Vec F S16384x256 .f32) : Vec F S16384x256 .f32 :=
  View.canon [⟨r8_0, sink8_9 x0⟩]

theorem sound_kernel8 (c : Dev nD) (E : Set ℕ) (i : grid8.Coords) (arg1 : Memref sig .tc .vmem S16384x256 .f32) (harg1 : arg1.IsWhole) (arg2 : Memref sig .tc .vmem S16384x256 .f32) (harg2 : arg2.IsWhole)
    (x0 : Vec F S16384x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out8_1 x0)) -∗ K ⟨⟩))
      ⊢ wp frame (wpE (defs₀ (F := F)) Variants.none c none) E (cc8__sinkhorn_kernel i arg1 harg1 arg2 harg2) K :=
  sound_kernel6 c E i arg1 harg1 arg2 harg2 x0 K

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => out8_1 (iblk8 V c 0 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem q_eq8 (c : Dev nD) (w : Fin cfg8.W) : (dat8 V c).q w = fullShare := by
  dsimp only [dat8]

theorem owed_eq8 (c : Dev nD) (t : Fin (cfg8.N + 1)) : (dat8 V c).owed t = 0 := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = out8_1 (iblk8 V c 0 t) := by dsimp only [dat8]

theorem before8_0 (c : Dev nD) (t : Fin cfg8.N) (d) : (dat8 V c).before 0 t d = iblk8 V c 0 t :=
  before8_0_of V (dat8 V c) (A_eq8 V c 0) (after8_0 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0]
  rw [show (dat8 V c).Φ t.succ = (dat8 V c).Φ t.castSucc from rfl,
    show (dat8 V c).owesAt () t.succ = (dat8 V c).owesAt () t.castSucc from rfl,
    after8_0, after8_1]
  iintro ⟨HΦ, Ho, ⟨%d0, H0⟩, ⟨%d1, H1⟩⟩
  iapply (sound_kernel8 c Set.univ _ _ _ _ _ (iblk8 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation8 (c : Dev nD) : BodyObligation (dat8 (F := F) V c) (defs₀ (F := F)) Variants.none () Set.univ := fun t => by
  rw [bigSep_W8, bigSep_W8]
  exact sound_body8 V c t

theorem hin8 (c : Dev nD) (T : sProp 𝕄) :
    iprop((∃ r, prngReg c r) ∗ T ∗ Pipeline.scopedRest (Ix := Unit) (Name := ℕ) (U := UR sig nD τ) (Lvl := ℕ) (Val := Elt F) spec8 c) ⊢ (dat8 V c).Φ 0 := by
  rw [show (dat8 V c).Φ 0 = Pipeline.ΦA spec8 c from rfl]; unfold Pipeline.ΦA
  iintro ⟨Hp, -, Hr⟩
  isplitl [Hr]; · iexact Hr
  iexact Hp

theorem hout8 (c : Dev nD) :
    (dat8 V c).Φ (Fin.last cfg8.N) ⊢ iprop((∃ r, prngReg c r) ∗ Pipeline.scopedRest (Ix := Unit) (Name := ℕ) (U := UR sig nD τ) (Lvl := ℕ) (Val := Elt F) spec8 c) := by
  rw [show (dat8 V c).Φ (Fin.last _) = Pipeline.ΦA spec8 c from rfl]; unfold Pipeline.ΦA
  iintro ⟨Hr, Hp⟩
  isplitl [Hp]; · iexact Hp
  iexact Hr

end Region8

end Cert.Kernel.Hand

end
-- ==== Proof.KB.Reg9.lean ====
import proofs.«402369_j86406152061536_3_alg».proof.Proof.Gen.Kernel.Launch
import proofs.«402369_j86406152061536_3_alg».proof.Proof.Gen.Kernel.Skeleton
import proofs.«402369_j86406152061536_3_alg».proof.Proof.Gen.Kernel.Points
import proofs.«402369_j86406152061536_3_alg».proof.Proof.KB.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region9

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

abbrev r9_0 : Rect S16384x256 := Rect.unit (s := S16384x256) ![0, 0] S16384x256.size inb_S16384x256_S16384x256_0_0

theorem mem9_1 (y : S16384x256.Idx) : y ∈ (r9_0).set := by
  obtain ⟨pc, hm, hy⟩ := View.cover_of_tiled (Val := fun _ => PUnit) (e := .f32) [⟨r9_0, fun _ => ⟨⟩⟩] S16384x256.size (by rfl) y
  rw [List.mem_singleton] at hm; subst hm; exact hy

theorem canon9_1 (w : Vec F S16384x256 .f32) (L : List (View.Piece (Elt F) S16384x256 .f32)) :
    View.canon (⟨r9_0, w⟩ :: L) = View.canon [⟨r9_0, w⟩] := by
  funext y
  obtain ⟨x, rfl⟩ : ∃ x, (r9_0).emb x = y := (r9_0).exists_idx_of_mem (mem9_1 y)
  rw [View.canon_cons_emb, View.canon_cons_emb]

theorem cover9_1 (p0 : Vec F S16384x256 .f32) (L : List (View.Piece (Elt F) S16384x256 .f32)) (y : S16384x256.Idx) :
    ∃ pc ∈ ((⟨r9_0, p0⟩ :: L : List (View.Piece (Elt F) S16384x256 .f32))), y ∈ pc.1.set :=
  ⟨⟨r9_0, p0⟩, List.mem_cons_self, mem9_1 y⟩

def sink9_1 (x0 : Vec F S16384x256 .f32) : Vec F S16384x256 .f32 := k9_pay4 (View.ld x0 r9_0)

def sink9_2 (x0 : Vec F S16384x256 .f32) : Vec F S16384x256 .f32 := k9_pay5 (sink9_1 x0) (sink9_1 x0)

def sink9_3 (x0 : Vec F S16384x256 .f32) : Vec F S16384x256 .f32 := k9_pay6 (sink9_2 x0) (sink9_2 x0)

def sink9_4 (x0 : Vec F S16384x256 .f32) : Vec F S16384x256 .f32 := k9_pay8 (k9_pay7 (sink9_3 x0)) (sink9_3 x0)

def sink9_5 (x0 : Vec F S16384x256 .f32) : Vec F S16384x256 .f32 := k9_pay9 (sink9_4 x0) (sink9_4 x0)

def sink9_6 (x0 : Vec F S16384x256 .f32) : Vec F S16384x256 .f32 := k9_pay10 (sink9_5 x0) (sink9_5 x0)

def sink9_7 (x0 : Vec F S16384x256 .f32) : Vec F S16384x256 .f32 := k9_pay1 (k9_pay11 (sink9_6 x0)) (sink9_6 x0)

def sink9_8 (x0 : Vec F S16384x256 .f32) : Vec F S16384x256 .f32 := k9_pay2 (sink9_7 x0) (sink9_7 x0)

def sink9_9 (x0 : Vec F S16384x256 .f32) : Vec F S16384x256 .f32 := k9_pay3 (sink9_8 x0)

def out9_1 (x0 : Vec F S16384x256 .f32) : Vec F S16384x256 .f32 :=
  View.canon [⟨r9_0, sink9_9 x0⟩]

theorem sound_kernel9 (c : Dev nD) (E : Set ℕ) (i : grid9.Coords) (arg1 : Memref sig .tc .vmem S16384x256 .f32) (harg1 : arg1.IsWhole) (arg2 : Memref sig .tc .vmem S16384x256 .f32) (harg2 : arg2.IsWhole)
    (x0 : Vec F S16384x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out9_1 x0)) -∗ K ⟨⟩))
      ⊢ wp frame (wpE (defs₀ (F := F)) Variants.none c none) E (cc9__sinkhorn_kernel i arg1 harg1 arg2 harg2) K :=
  sound_kernel6 c E i arg1 harg1 arg2 harg2 x0 K

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => out9_1 (iblk9 V c 0 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem q_eq9 (c : Dev nD) (w : Fin cfg9.W) : (dat9 V c).q w = fullShare := by
  dsimp only [dat9]

theorem owed_eq9 (c : Dev nD) (t : Fin (cfg9.N + 1)) : (dat9 V c).owed t = 0 := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = out9_1 (iblk9 V c 0 t) := by dsimp only [dat9]

theorem before9_0 (c : Dev nD) (t : Fin cfg9.N) (d) : (dat9 V c).before 0 t d = iblk9 V c 0 t :=
  before9_0_of V (dat9 V c) (A_eq9 V c 0) (after9_0 V c) t d

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0]
  rw [show (dat9 V c).Φ t.succ = (dat9 V c).Φ t.castSucc from rfl,
    show (dat9 V c).owesAt () t.succ = (dat9 V c).owesAt () t.castSucc from rfl,
    after9_0, after9_1]
  iintro ⟨HΦ, Ho, ⟨%d0, H0⟩, ⟨%d1, H1⟩⟩
  iapply (sound_kernel9 c Set.univ _ _ _ _ _ (iblk9 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation9 (c : Dev nD) : BodyObligation (dat9 (F := F) V c) (defs₀ (F := F)) Variants.none () Set.univ := fun t => by
  rw [bigSep_W9, bigSep_W9]
  exact sound_body9 V c t

theorem hin9 (c : Dev nD) (T : sProp 𝕄) :
    iprop((∃ r, prngReg c r) ∗ T ∗ Pipeline.scopedRest (Ix := Unit) (Name := ℕ) (U := UR sig nD τ) (Lvl := ℕ) (Val := Elt F) spec9 c) ⊢ (dat9 V c).Φ 0 := by
  rw [show (dat9 V c).Φ 0 = Pipeline.ΦA spec9 c from rfl]; unfold Pipeline.ΦA
  iintro ⟨Hp, -, Hr⟩
  isplitl [Hr]; · iexact Hr
  iexact Hp

theorem hout9 (c : Dev nD) :
    (dat9 V c).Φ (Fin.last cfg9.N) ⊢ iprop((∃ r, prngReg c r) ∗ Pipeline.scopedRest (Ix := Unit) (Name := ℕ) (U := UR sig nD τ) (Lvl := ℕ) (Val := Elt F) spec9 c) := by
  rw [show (dat9 V c).Φ (Fin.last _) = Pipeline.ΦA spec9 c from rfl]; unfold Pipeline.ΦA
  iintro ⟨Hr, Hp⟩
  isplitl [Hp]; · iexact Hp
  iexact Hr

end Region9

end Cert.Kernel.Hand

end
-- ==== Proof.KB.Reg10.lean ====
import proofs.«402369_j86406152061536_3_alg».proof.Proof.Gen.Kernel.Launch
import proofs.«402369_j86406152061536_3_alg».proof.Proof.Gen.Kernel.Skeleton
import proofs.«402369_j86406152061536_3_alg».proof.Proof.Gen.Kernel.Points
import proofs.«402369_j86406152061536_3_alg».proof.Proof.KB.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region10

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

abbrev r10_0 : Rect S16384x256 := Rect.unit (s := S16384x256) ![0, 0] S16384x256.size inb_S16384x256_S16384x256_0_0

theorem mem10_1 (y : S16384x256.Idx) : y ∈ (r10_0).set := by
  obtain ⟨pc, hm, hy⟩ := View.cover_of_tiled (Val := fun _ => PUnit) (e := .f32) [⟨r10_0, fun _ => ⟨⟩⟩] S16384x256.size (by rfl) y
  rw [List.mem_singleton] at hm; subst hm; exact hy

theorem canon10_1 (w : Vec F S16384x256 .f32) (L : List (View.Piece (Elt F) S16384x256 .f32)) :
    View.canon (⟨r10_0, w⟩ :: L) = View.canon [⟨r10_0, w⟩] := by
  funext y
  obtain ⟨x, rfl⟩ : ∃ x, (r10_0).emb x = y := (r10_0).exists_idx_of_mem (mem10_1 y)
  rw [View.canon_cons_emb, View.canon_cons_emb]

theorem cover10_1 (p0 : Vec F S16384x256 .f32) (L : List (View.Piece (Elt F) S16384x256 .f32)) (y : S16384x256.Idx) :
    ∃ pc ∈ ((⟨r10_0, p0⟩ :: L : List (View.Piece (Elt F) S16384x256 .f32))), y ∈ pc.1.set :=
  ⟨⟨r10_0, p0⟩, List.mem_cons_self, mem10_1 y⟩

def sink10_1 (x0 : Vec F S16384x256 .f32) : Vec F S16384x256 .f32 := k10_pay4 (View.ld x0 r10_0)

def sink10_2 (x0 : Vec F S16384x256 .f32) : Vec F S16384x256 .f32 := k10_pay5 (sink10_1 x0) (sink10_1 x0)

def sink10_3 (x0 : Vec F S16384x256 .f32) : Vec F S16384x256 .f32 := k10_pay6 (sink10_2 x0) (sink10_2 x0)

def sink10_4 (x0 : Vec F S16384x256 .f32) : Vec F S16384x256 .f32 := k10_pay8 (k10_pay7 (sink10_3 x0)) (sink10_3 x0)

def sink10_5 (x0 : Vec F S16384x256 .f32) : Vec F S16384x256 .f32 := k10_pay9 (sink10_4 x0) (sink10_4 x0)

def sink10_6 (x0 : Vec F S16384x256 .f32) : Vec F S16384x256 .f32 := k10_pay10 (sink10_5 x0) (sink10_5 x0)

def sink10_7 (x0 : Vec F S16384x256 .f32) : Vec F S16384x256 .f32 := k10_pay1 (k10_pay11 (sink10_6 x0)) (sink10_6 x0)

def sink10_8 (x0 : Vec F S16384x256 .f32) : Vec F S16384x256 .f32 := k10_pay2 (sink10_7 x0) (sink10_7 x0)

def sink10_9 (x0 : Vec F S16384x256 .f32) : Vec F S16384x256 .f32 := k10_pay3 (sink10_8 x0)

def out10_1 (x0 : Vec F S16384x256 .f32) : Vec F S16384x256 .f32 :=
  View.canon [⟨r10_0, sink10_9 x0⟩]

theorem sound_kernel10 (c : Dev nD) (E : Set ℕ) (i : grid10.Coords) (arg1 : Memref sig .tc .vmem S16384x256 .f32) (harg1 : arg1.IsWhole) (arg2 : Memref sig .tc .vmem S16384x256 .f32) (harg2 : arg2.IsWhole)
    (x0 : Vec F S16384x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out10_1 x0)) -∗ K ⟨⟩))
      ⊢ wp frame (wpE (defs₀ (F := F)) Variants.none c none) E (cc10__sinkhorn_kernel i arg1 harg1 arg2 harg2) K :=
  sound_kernel6 c E i arg1 harg1 arg2 harg2 x0 K

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => out10_1 (iblk10 V c 0 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem q_eq10 (c : Dev nD) (w : Fin cfg10.W) : (dat10 V c).q w = fullShare := by
  dsimp only [dat10]

theorem owed_eq10 (c : Dev nD) (t : Fin (cfg10.N + 1)) : (dat10 V c).owed t = 0 := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = out10_1 (iblk10 V c 0 t) := by dsimp only [dat10]

theorem before10_0 (c : Dev nD) (t : Fin cfg10.N) (d) : (dat10 V c).before 0 t d = iblk10 V c 0 t :=
  before10_0_of V (dat10 V c) (A_eq10 V c 0) (after10_0 V c) t d

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0]
  rw [show (dat10 V c).Φ t.succ = (dat10 V c).Φ t.castSucc from rfl,
    show (dat10 V c).owesAt () t.succ = (dat10 V c).owesAt () t.castSucc from rfl,
    after10_0, after10_1]
  iintro ⟨HΦ, Ho, ⟨%d0, H0⟩, ⟨%d1, H1⟩⟩
  iapply (sound_kernel10 c Set.univ _ _ _ _ _ (iblk10 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation10 (c : Dev nD) : BodyObligation (dat10 (F := F) V c) (defs₀ (F := F)) Variants.none () Set.univ := fun t => by
  rw [bigSep_W10, bigSep_W10]
  exact sound_body10 V c t

theorem hin10 (c : Dev nD) (T : sProp 𝕄) :
    iprop((∃ r, prngReg c r) ∗ T ∗ Pipeline.scopedRest (Ix := Unit) (Name := ℕ) (U := UR sig nD τ) (Lvl := ℕ) (Val := Elt F) spec10 c) ⊢ (dat10 V c).Φ 0 := by
  rw [show (dat10 V c).Φ 0 = Pipeline.ΦA spec10 c from rfl]; unfold Pipeline.ΦA
  iintro ⟨Hp, -, Hr⟩
  isplitl [Hr]; · iexact Hr
  iexact Hp

theorem hout10 (c : Dev nD) :
    (dat10 V c).Φ (Fin.last cfg10.N) ⊢ iprop((∃ r, prngReg c r) ∗ Pipeline.scopedRest (Ix := Unit) (Name := ℕ) (U := UR sig nD τ) (Lvl := ℕ) (Val := Elt F) spec10 c) := by
  rw [show (dat10 V c).Φ (Fin.last _) = Pipeline.ΦA spec10 c from rfl]; unfold Pipeline.ΦA
  iintro ⟨Hr, Hp⟩
  isplitl [Hp]; · iexact Hp
  iexact Hr

end Region10

end Cert.Kernel.Hand

end
-- ==== Proof.KB.Reg11.lean ====
import proofs.«402369_j86406152061536_3_alg».proof.Proof.Gen.Kernel.Launch
import proofs.«402369_j86406152061536_3_alg».proof.Proof.Gen.Kernel.Skeleton
import proofs.«402369_j86406152061536_3_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond11_0 (i : grid11.Coords) : Prop := (Scalar.cmpi .ne (Scalar.extui (Scalar.cmpi .eq (BitVec.ofNat 32 (i 0).val) 0#32)) 0#32) = 1#1
theorem hcond11_0 : ∀ t : Fin cfg11.N, cond11_0 (grid11.coords t) ↔ t.val = 0 :=
  (by decide +kernel : ∀ t : Fin grid11.N, cond11_0 (grid11.coords t) ↔ t.val = 0)

abbrev cond11_1 (i : grid11.Coords) : Prop := k11_cond2 i = 1#1
theorem hcond11_1 : ∀ t : Fin cfg11.N, cond11_1 (grid11.coords t) ↔ t.val = 7 :=
  (by decide +kernel : ∀ t : Fin grid11.N, cond11_1 (grid11.coords t) ↔ t.val = 7)

theorem idleAt11_3 : ∀ t : Fin cfg11.N, ¬cond11_1 (grid11.coords t) → cfg11.idle 3 (grid11.coords t) = true := by decide +kernel
theorem noFlush11_3 : ∀ t : Fin cfg11.N, ¬cond11_1 (grid11.coords t) → (cfg11.win 3).flush t = false := by decide +kernel

theorem liveAt11_3 : ∀ t : Fin cfg11.N, cond11_1 (grid11.coords t) → cfg11.idle 3 (grid11.coords t) = false := by decide +kernel

abbrev r11 : Rect S1x1 := Rect.unit (s := S1x1) ![0, 0] S1x1.size inb_S1x1_S1x1_0_0
abbrev R11 : Rect S2048x256 := Rect.unit (s := S2048x256) ![0, 0] S2048x256.size inb_S2048x256_S2048x256_0_0

theorem off11 : (![0, 0] : Fin 2 → ℕ) = fun _ => 0 := by funext a; fin_cases a <;> rfl

theorem ld11_s {sg : RefSig} (v : View sg .tc .vmem S1x1 .f32) (f : v.ty.Contents (Elt F)) :
    View.readAt (Elt F) v r11.toLoadRect f = v.read (Elt F) f :=
  View.ld_unit_zero (Val := Elt F) (S := S1x1) off11 inb_S1x1_S1x1_0_0 (v.read (Elt F) f)

theorem ld11_b {sg : RefSig} (v : View sg .tc .vmem S2048x256 .f32) (f : v.ty.Contents (Elt F)) :
    View.readAt (Elt F) v R11.toLoadRect f = v.read (Elt F) f :=
  View.ld_unit_zero (Val := Elt F) (S := S2048x256) off11 inb_S2048x256_S2048x256_0_0 (v.read (Elt F) f)

theorem read_writes11 {sg : RefSig} (v : View sg .tc .vmem S1x1 .f32) (f : v.ty.Contents (Elt F)) (w : Vec F S1x1 .f32)
    (L : List (View.Piece (Elt F) S1x1 .f32)) :
    v.read (Elt F) (v.writes (Elt F) f (⟨r11, w⟩ :: L)) = w :=
  (View.read_writes_eq_canon (Val := Elt F) v f ((⟨r11, w⟩ : View.Piece (Elt F) S1x1 .f32) :: L)
      (fun y => ⟨(⟨r11, w⟩ : View.Piece (Elt F) S1x1 .f32), List.mem_cons_self,
        View.mem_set_unit_zero (S := S1x1) off11 inb_S1x1_S1x1_0_0 y⟩)).trans
    (View.canon_cons_unit_zero (Val := Elt F) (S := S1x1) (e := .f32) off11 inb_S1x1_S1x1_0_0 w L)

set_option maxHeartbeats 1000000 in

theorem sound_kernel11_A (c : Dev nD) (E : Set ℕ) (i : grid11.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : cond11_0 i) (hc1 : ¬cond11_1 i)
    (x0 : Vec F S2048x256 .f32) (x1 : Vec F S2048x256 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k11_pay2 x2 x1 x0 k11_pay1)) -∗ K ⟨⟩))
      ⊢ wp frame (wpE (defs₀ (F := F)) Variants.none c none) E (cc11__ce_kernel i arg1 harg1 arg2 harg2 arg3 harg3 arg4 harg4 arg5 harg5) K := by
  simp only [cc11__ce_kernel_eq_skeleton]; unfold cc11__ce_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes11, View.readCov_cons_toLoadRect, ld11_s, ld11_b, ld11_b]

set_option maxHeartbeats 1000000 in

theorem sound_kernel11_B (c : Dev nD) (E : Set ℕ) (i : grid11.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond11_0 i) (hc1 : ¬cond11_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg5 fullShare (k11_pay2 x2 x1 x0 xs)) -∗ K ⟨⟩))
      ⊢ wp frame (wpE (defs₀ (F := F)) Variants.none c none) E (cc11__ce_kernel i arg1 harg1 arg2 harg2 arg3 harg3 arg4 harg4 arg5 harg5) K := by
  simp only [cc11__ce_kernel_eq_skeleton]; unfold cc11__ce_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [read_writes11, ld11_s, ld11_s, ld11_b, ld11_b]

set_option maxHeartbeats 1000000 in

theorem sound_kernel11_C (c : Dev nD) (E : Set ℕ) (i : grid11.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond11_0 i) (hc1 : cond11_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k11_pay2 x2 x1 x0 xs) ∗ owns (c : Thread nD τ) arg4 fullShare (k11_pay3 (k11_pay2 x2 x1 x0 xs))) -∗ K ⟨⟩))
      ⊢ wp frame (wpE (defs₀ (F := F)) Variants.none c none) E (cc11__ce_kernel i arg1 harg1 arg2 harg2 arg3 harg3 arg4 harg4 arg5 harg5) K := by
  simp only [cc11__ce_kernel_eq_skeleton]; unfold cc11__ce_kernel_skel
  unfold owns
  iintro ⟨⟨%f0, %hf0, H0⟩, ⟨%f1, %hf1, H1⟩, ⟨%f2, %hf2, H2⟩, ⟨%fs, %hfs, HS⟩, ⟨%dq, %fo, -, HO⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS]
  · iexists _; isplitr
    swap; · iexact HS
    ipureintro
    sl_unfold_run_names
    rw [read_writes11, ld11_s, ld11_s, ld11_b, ld11_b]
  iexists _; isplitr
  swap; · iexact HO
  ipureintro
  sl_unfold_run_names
  rw [read_writes11, View.readCov_cons_toLoadRect, ld11_s, ld11_s, ld11_b, ld11_b]

section Region

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem liveAt11_0 : ∀ t : Fin cfg11.N, cfg11.idle 0 (grid11.coords t) = false := fun _ => rfl
theorem liveAt11_1 : ∀ t : Fin cfg11.N, cfg11.idle 1 (grid11.coords t) = false := fun _ => rfl
theorem liveAt11_2 : ∀ t : Fin cfg11.N, cfg11.idle 2 (grid11.coords t) = false := fun _ => rfl

abbrev scM11 : Memref sig .tc .vmem S1x1 .f32 := Memref.whole cc11_scratch0

def acc11 (c : Dev nD) : (n : ℕ) → n < cfg11.N → Vec F S1x1 .f32
  | 0, h => k11_pay2 (iblk11 V c 2 ⟨0, h⟩) (iblk11 V c 1 ⟨0, h⟩) (iblk11 V c 0 ⟨0, h⟩) k11_pay1
  | n + 1, h => k11_pay2 (iblk11 V c 2 ⟨n + 1, h⟩) (iblk11 V c 1 ⟨n + 1, h⟩) (iblk11 V c 0 ⟨n + 1, h⟩) (acc11 c n (Nat.lt_of_succ_lt h))

theorem acc11_zero (c : Dev nD) (t : Fin cfg11.N) (h : t.val = 0) :
    acc11 V c t.val t.isLt = k11_pay2 (iblk11 V c 2 t) (iblk11 V c 1 t) (iblk11 V c 0 t) k11_pay1 := by
  obtain ⟨n, hn⟩ := t
  cases n with
  | zero => rfl
  | succ n => exact absurd h (Nat.succ_ne_zero n)

theorem acc11_pos (c : Dev nD) (t : Fin cfg11.N) (h : t.val ≠ 0) :
    acc11 V c t.val t.isLt = k11_pay2 (iblk11 V c 2 t) (iblk11 V c 1 t) (iblk11 V c 0 t)
      (acc11 V c (t.val - 1) (Nat.lt_of_le_of_lt (Nat.sub_le _ _) t.isLt)) := by
  obtain ⟨n, hn⟩ := t
  cases n with
  | zero => exact absurd rfl h
  | succ n => rfl

def Phi11 (c : Dev nD) : (n : ℕ) → n ≤ cfg11.N → sProp 𝕄
  | 0, _ => Pipeline.ΦA spec11 c
  | n + 1, hn => iprop((owns (c : Thread nD τ) scM11 fullShare (acc11 V c n hn) ∗ Pipeline.scopedRestBut (Ix := Unit) (Name := ℕ) (U := UR sig nD τ) (Lvl := ℕ) (Val := Elt F) spec11 c [cc11_scratch0]) ∗ (∃ r, prngReg c r))

theorem Phi11_zero (c : Dev nD) (n : ℕ) (h : n ≤ cfg11.N) (hz : n = 0) : Phi11 V c n h = Pipeline.ΦA spec11 c := by
  subst hz; rfl

theorem Phi11_succ (c : Dev nD) (n : ℕ) (hn : n < cfg11.N) :
    Phi11 V c (n + 1) hn = iprop((owns (c : Thread nD τ) scM11 fullShare (acc11 V c n hn) ∗ Pipeline.scopedRestBut (Ix := Unit) (Name := ℕ) (U := UR sig nD τ) (Lvl := ℕ) (Val := Elt F) spec11 c [cc11_scratch0]) ∗ (∃ r, prngReg c r)) := rfl

theorem Phi11_pos (c : Dev nD) (n : ℕ) (h : n ≤ cfg11.N) (hz : n ≠ 0) :
    Phi11 V c n h = iprop((owns (c : Thread nD τ) scM11 fullShare (acc11 V c (n - 1) (by omega)) ∗ Pipeline.scopedRestBut (Ix := Unit) (Name := ℕ) (U := UR sig nD τ) (Lvl := ℕ) (Val := Elt F) spec11 c [cc11_scratch0]) ∗ (∃ r, prngReg c r)) := by
  cases n with
  | zero => exact absurd rfl hz
  | succ n => rfl

theorem PhiA11_eq (c : Dev nD) :
    (Pipeline.ΦA spec11 c : sProp 𝕄)
      = iprop(((∃ d, owns (c : Thread nD τ) scM11 fullShare d) ∗ Pipeline.scopedRestBut (Ix := Unit) (Name := ℕ) (U := UR sig nD τ) (Lvl := ℕ) (Val := Elt F) spec11 c [cc11_scratch0]) ∗ (∃ r, prngReg c r)) := by
  unfold Pipeline.ΦA; rw [scopedRest11_split]; simp only [scM11, owns_whole]; try rfl

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => k11_pay3 (acc11 V c t.val t.isLt)
  Φ t := Phi11 V c t.val (Nat.le_of_lt_succ t.isLt)
  q _ := fullShare
  owed _ := 0

theorem A_eq11 (c : Dev nD) (w : Fin cfg11.W) : (dat11 V c).A w = V c (Pipeline.arrRef spec11 w) := by
  dsimp only [dat11]
theorem q_eq11 (c : Dev nD) (w : Fin cfg11.W) : (dat11 V c).q w = fullShare := by dsimp only [dat11]
theorem owed_eq11 (c : Dev nD) (t : Fin (cfg11.N + 1)) : (dat11 V c).owed t = 0 := by dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = k11_pay3 (acc11 V c t.val t.isLt) := by dsimp only [dat11]

theorem Phi11_castSucc (c : Dev nD) (t : Fin cfg11.N) :
    (dat11 V c).Φ t.castSucc = Phi11 V c t.val (Nat.le_of_lt t.isLt) := by
  dsimp only [dat11]; simp only [Fin.coe_castSucc]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t
    ∗ (dat11 V c).leavesExact 3 t)

set_option maxHeartbeats 4000000 in

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).owesAt () t.succ = (dat11 V c).owesAt () t.castSucc from rfl]
  rw [show (dat11 V c).Φ t.succ = Phi11 V c (t.val + 1) t.isLt from rfl, Phi11_succ]
  rw [show (dat11 V c).leavesExact 0 t = owns (c : Thread nD τ) (st11_0 t) fullShare ((dat11 V c).after 0 t) from by
    unfold Dat.leavesExact; rw [liveAt11_0 t], after11_0]
  rw [show (dat11 V c).leavesExact 1 t = owns (c : Thread nD τ) (st11_1 t) fullShare ((dat11 V c).after 1 t) from by
    unfold Dat.leavesExact; rw [liveAt11_1 t], after11_1]
  rw [show (dat11 V c).leavesExact 2 t = owns (c : Thread nD τ) (st11_2 t) fullShare ((dat11 V c).after 2 t) from by
    unfold Dat.leavesExact; rw [liveAt11_2 t], after11_2]
  have hN : t.val < 8 := lt_of_lt_of_eq t.isLt (show cfg11.N = 8 from N_11)
  by_cases h0 : t.val = 0
  · have hc0 : cond11_0 (grid11.coords t) := (hcond11_0 t).mpr h0
    have hc1 : ¬cond11_1 (grid11.coords t) := fun h => by have := (hcond11_1 t).mp h; omega
    rw [Dat.leavesExact_idle (dat11 V c) 3 t (idleAt11_3 t hc1) (noFlush11_3 t hc1)]
    rw [acc11_zero V c t h0]
    rw [Phi11_castSucc V c t, Phi11_zero V c _ _ h0, PhiA11_eq]
    iintro ⟨⟨⟨HS, HB⟩, Hg⟩, Ho, ⟨%d0, H0⟩, ⟨%d1, H1⟩, ⟨%d2, H2⟩, H3⟩
    iapply (sound_kernel11_A c Set.univ (grid11.coords t) _ _ _ _ _ _ _ _ _ _ hc0 hc1 (iblk11 V c 0 t) (iblk11 V c 1 t) (iblk11 V c 2 t) _)
    isplitl [H0]; · iexact H0
    isplitl [H1]; · iexact H1
    isplitl [H2]; · iexact H2
    isplitl [HS]; · iexact HS
    iintro ⟨H0, H1, H2, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    iexact H3
  · have hc0 : ¬cond11_0 (grid11.coords t) := fun h => h0 ((hcond11_0 t).mp h)
    rw [acc11_pos V c t h0]
    rw [Phi11_castSucc V c t, Phi11_pos V c _ _ h0]
    by_cases h7 : t.val = 7
    · have hc1 : cond11_1 (grid11.coords t) := (hcond11_1 t).mpr h7
      rw [show (dat11 V c).leavesExact 3 t = owns (c : Thread nD τ) (st11_3 t) fullShare ((dat11 V c).after 3 t) from by
        unfold Dat.leavesExact; rw [liveAt11_3 t hc1], after11_3, acc11_pos V c t h0]
      iintro ⟨⟨⟨HS, HB⟩, Hg⟩, Ho, ⟨%d0, H0⟩, ⟨%d1, H1⟩, ⟨%d2, H2⟩, ⟨%d3, H3⟩⟩
      iapply (sound_kernel11_C c Set.univ (grid11.coords t) _ _ _ _ _ _ _ _ _ _ hc0 hc1 (iblk11 V c 0 t) (iblk11 V c 1 t) (iblk11 V c 2 t) _ _)
      isplitl [H0]; · iexact H0
      isplitl [H1]; · iexact H1
      isplitl [H2]; · iexact H2
      isplitl [HS]; · iexact HS
      isplitl [H3]; · iexists _; iexact H3
      iintro ⟨H0, H1, H2, HS, H3⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3
    · have hc1 : ¬cond11_1 (grid11.coords t) := fun h => h7 ((hcond11_1 t).mp h)
      rw [Dat.leavesExact_idle (dat11 V c) 3 t (idleAt11_3 t hc1) (noFlush11_3 t hc1)]
      iintro ⟨⟨⟨HS, HB⟩, Hg⟩, Ho, ⟨%d0, H0⟩, ⟨%d1, H1⟩, ⟨%d2, H2⟩, H3⟩
      iapply (sound_kernel11_B c Set.univ (grid11.coords t) _ _ _ _ _ _ _ _ _ _ hc0 hc1 (iblk11 V c 0 t) (iblk11 V c 1 t) (iblk11 V c 2 t) _ _)
      isplitl [H0]; · iexact H0
      isplitl [H1]; · iexact H1
      isplitl [H2]; · iexact H2
      isplitl [HS]; · iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3

theorem body_obligation11 (c : Dev nD) : BodyObligation (dat11 (F := F) V c) (defs₀ (F := F)) Variants.none () Set.univ := fun t => by
  rw [bigSep_W11, bigSep_W11]
  exact sound_body11 V c t

theorem hin11 (c : Dev nD) (T : sProp 𝕄) :
    iprop((∃ r, prngReg c r) ∗ T ∗ Pipeline.scopedRest spec11 c) ⊢ (dat11 V c).Φ 0 := by
  rw [show (dat11 V c).Φ 0 = Pipeline.ΦA spec11 c from rfl]; unfold Pipeline.ΦA
  iintro ⟨Hp, -, Hr⟩
  isplitl [Hr]; · iexact Hr
  iexact Hp

theorem hout11 (c : Dev nD) :
    (dat11 V c).Φ (Fin.last cfg11.N) ⊢ iprop((∃ r, prngReg c r) ∗ Pipeline.scopedRest spec11 c) := by
  rw [show (dat11 V c).Φ (Fin.last cfg11.N) = Phi11 V c (Fin.last cfg11.N).val (Nat.le_of_lt_succ (Fin.last cfg11.N).isLt) from rfl,
    Phi11_pos V c _ _ (by rw [Fin.val_last]; have : cfg11.N = 8 := N_11; omega), scopedRest11_split]
  simp only [scM11, owns_whole]
  iintro ⟨⟨HS, HB⟩, Hg⟩
  isplitl [Hg]; · iexact Hg
  isplitl [HS]; · iexists _; iexact HS
  iexact HB

end Region

end Cert.Kernel.Hand

end
-- ==== Proof.KB.Reg12.lean ====
import proofs.«402369_j86406152061536_3_alg».proof.Proof.Gen.Kernel.Launch
import proofs.«402369_j86406152061536_3_alg».proof.Proof.Gen.Kernel.Skeleton
import proofs.«402369_j86406152061536_3_alg».proof.Proof.Gen.Kernel.Points
import proofs.«402369_j86406152061536_3_alg».proof.Proof.KB.Reg11
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond12_0 (i : grid12.Coords) : Prop := (Scalar.cmpi .ne (Scalar.extui (Scalar.cmpi .eq (BitVec.ofNat 32 (i 0).val) 0#32)) 0#32) = 1#1
theorem hcond12_0 : ∀ t : Fin cfg12.N, cond12_0 (grid12.coords t) ↔ t.val = 0 :=
  (by decide +kernel : ∀ t : Fin grid12.N, cond12_0 (grid12.coords t) ↔ t.val = 0)

abbrev cond12_1 (i : grid12.Coords) : Prop := k12_cond2 i = 1#1
theorem hcond12_1 : ∀ t : Fin cfg12.N, cond12_1 (grid12.coords t) ↔ t.val = 7 :=
  (by decide +kernel : ∀ t : Fin grid12.N, cond12_1 (grid12.coords t) ↔ t.val = 7)

theorem idleAt12_3 : ∀ t : Fin cfg12.N, ¬cond12_1 (grid12.coords t) → cfg12.idle 3 (grid12.coords t) = true := by decide +kernel
theorem noFlush12_3 : ∀ t : Fin cfg12.N, ¬cond12_1 (grid12.coords t) → (cfg12.win 3).flush t = false := by decide +kernel

theorem liveAt12_3 : ∀ t : Fin cfg12.N, cond12_1 (grid12.coords t) → cfg12.idle 3 (grid12.coords t) = false := by decide +kernel

theorem sound_kernel12_A (c : Dev nD) (E : Set ℕ) (i : grid12.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : cond12_0 i) (hc1 : ¬cond12_1 i)
    (x0 : Vec F S2048x256 .f32) (x1 : Vec F S2048x256 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k12_pay2 x2 x1 x0 k12_pay1)) -∗ K ⟨⟩))
      ⊢ wp frame (wpE (defs₀ (F := F)) Variants.none c none) E (cc12__ce_kernel i arg1 harg1 arg2 harg2 arg3 harg3 arg4 harg4 arg5 harg5) K :=
  sound_kernel11_A c E i arg1 harg1 arg2 harg2 arg3 harg3 arg4 harg4 arg5 harg5 hc0 hc1 x0 x1 x2 K

theorem sound_kernel12_B (c : Dev nD) (E : Set ℕ) (i : grid12.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond12_0 i) (hc1 : ¬cond12_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg5 fullShare (k12_pay2 x2 x1 x0 xs)) -∗ K ⟨⟩))
      ⊢ wp frame (wpE (defs₀ (F := F)) Variants.none c none) E (cc12__ce_kernel i arg1 harg1 arg2 harg2 arg3 harg3 arg4 harg4 arg5 harg5) K :=
  sound_kernel11_B c E i arg1 harg1 arg2 harg2 arg3 harg3 arg4 harg4 arg5 harg5 hc0 hc1 x0 x1 x2 xs K

theorem sound_kernel12_C (c : Dev nD) (E : Set ℕ) (i : grid12.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond12_0 i) (hc1 : cond12_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k12_pay2 x2 x1 x0 xs) ∗ owns (c : Thread nD τ) arg4 fullShare (k12_pay3 (k12_pay2 x2 x1 x0 xs))) -∗ K ⟨⟩))
      ⊢ wp frame (wpE (defs₀ (F := F)) Variants.none c none) E (cc12__ce_kernel i arg1 harg1 arg2 harg2 arg3 harg3 arg4 harg4 arg5 harg5) K :=
  sound_kernel11_C c E i arg1 harg1 arg2 harg2 arg3 harg3 arg4 harg4 arg5 harg5 hc0 hc1 x0 x1 x2 xs K

section Region

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

theorem liveAt12_0 : ∀ t : Fin cfg12.N, cfg12.idle 0 (grid12.coords t) = false := fun _ => rfl
theorem liveAt12_1 : ∀ t : Fin cfg12.N, cfg12.idle 1 (grid12.coords t) = false := fun _ => rfl
theorem liveAt12_2 : ∀ t : Fin cfg12.N, cfg12.idle 2 (grid12.coords t) = false := fun _ => rfl

abbrev scM12 : Memref sig .tc .vmem S1x1 .f32 := Memref.whole cc12_scratch0

def acc12 (c : Dev nD) : (n : ℕ) → n < cfg12.N → Vec F S1x1 .f32
  | 0, h => k12_pay2 (iblk12 V c 2 ⟨0, h⟩) (iblk12 V c 1 ⟨0, h⟩) (iblk12 V c 0 ⟨0, h⟩) k12_pay1
  | n + 1, h => k12_pay2 (iblk12 V c 2 ⟨n + 1, h⟩) (iblk12 V c 1 ⟨n + 1, h⟩) (iblk12 V c 0 ⟨n + 1, h⟩) (acc12 c n (Nat.lt_of_succ_lt h))

theorem acc12_zero (c : Dev nD) (t : Fin cfg12.N) (h : t.val = 0) :
    acc12 V c t.val t.isLt = k12_pay2 (iblk12 V c 2 t) (iblk12 V c 1 t) (iblk12 V c 0 t) k12_pay1 := by
  obtain ⟨n, hn⟩ := t
  cases n with
  | zero => rfl
  | succ n => exact absurd h (Nat.succ_ne_zero n)

theorem acc12_pos (c : Dev nD) (t : Fin cfg12.N) (h : t.val ≠ 0) :
    acc12 V c t.val t.isLt = k12_pay2 (iblk12 V c 2 t) (iblk12 V c 1 t) (iblk12 V c 0 t)
      (acc12 V c (t.val - 1) (Nat.lt_of_le_of_lt (Nat.sub_le _ _) t.isLt)) := by
  obtain ⟨n, hn⟩ := t
  cases n with
  | zero => exact absurd rfl h
  | succ n => rfl

def Phi12 (c : Dev nD) : (n : ℕ) → n ≤ cfg12.N → sProp 𝕄
  | 0, _ => Pipeline.ΦA spec12 c
  | n + 1, hn => iprop((owns (c : Thread nD τ) scM12 fullShare (acc12 V c n hn) ∗ Pipeline.scopedRestBut (Ix := Unit) (Name := ℕ) (U := UR sig nD τ) (Lvl := ℕ) (Val := Elt F) spec12 c [cc12_scratch0]) ∗ (∃ r, prngReg c r))

theorem Phi12_zero (c : Dev nD) (n : ℕ) (h : n ≤ cfg12.N) (hz : n = 0) : Phi12 V c n h = Pipeline.ΦA spec12 c := by
  subst hz; rfl

theorem Phi12_succ (c : Dev nD) (n : ℕ) (hn : n < cfg12.N) :
    Phi12 V c (n + 1) hn = iprop((owns (c : Thread nD τ) scM12 fullShare (acc12 V c n hn) ∗ Pipeline.scopedRestBut (Ix := Unit) (Name := ℕ) (U := UR sig nD τ) (Lvl := ℕ) (Val := Elt F) spec12 c [cc12_scratch0]) ∗ (∃ r, prngReg c r)) := rfl

theorem Phi12_pos (c : Dev nD) (n : ℕ) (h : n ≤ cfg12.N) (hz : n ≠ 0) :
    Phi12 V c n h = iprop((owns (c : Thread nD τ) scM12 fullShare (acc12 V c (n - 1) (by omega)) ∗ Pipeline.scopedRestBut (Ix := Unit) (Name := ℕ) (U := UR sig nD τ) (Lvl := ℕ) (Val := Elt F) spec12 c [cc12_scratch0]) ∗ (∃ r, prngReg c r)) := by
  cases n with
  | zero => exact absurd rfl hz
  | succ n => rfl

theorem PhiA12_eq (c : Dev nD) :
    (Pipeline.ΦA spec12 c : sProp 𝕄)
      = iprop(((∃ d, owns (c : Thread nD τ) scM12 fullShare d) ∗ Pipeline.scopedRestBut (Ix := Unit) (Name := ℕ) (U := UR sig nD τ) (Lvl := ℕ) (Val := Elt F) spec12 c [cc12_scratch0]) ∗ (∃ r, prngReg c r)) := by
  unfold Pipeline.ΦA; rw [scopedRest12_split]; simp only [scM12, owns_whole]; try rfl

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => k12_pay3 (acc12 V c t.val t.isLt)
  Φ t := Phi12 V c t.val (Nat.le_of_lt_succ t.isLt)
  q _ := fullShare
  owed _ := 0

theorem A_eq12 (c : Dev nD) (w : Fin cfg12.W) : (dat12 V c).A w = V c (Pipeline.arrRef spec12 w) := by
  dsimp only [dat12]
theorem q_eq12 (c : Dev nD) (w : Fin cfg12.W) : (dat12 V c).q w = fullShare := by dsimp only [dat12]
theorem owed_eq12 (c : Dev nD) (t : Fin (cfg12.N + 1)) : (dat12 V c).owed t = 0 := by dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = k12_pay3 (acc12 V c t.val t.isLt) := by dsimp only [dat12]

theorem Phi12_castSucc (c : Dev nD) (t : Fin cfg12.N) :
    (dat12 V c).Φ t.castSucc = Phi12 V c t.val (Nat.le_of_lt t.isLt) := by
  dsimp only [dat12]; simp only [Fin.coe_castSucc]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t
    ∗ (dat12 V c).leavesExact 3 t)

set_option maxHeartbeats 4000000 in

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).owesAt () t.succ = (dat12 V c).owesAt () t.castSucc from rfl]
  rw [show (dat12 V c).Φ t.succ = Phi12 V c (t.val + 1) t.isLt from rfl, Phi12_succ]
  rw [show (dat12 V c).leavesExact 0 t = owns (c : Thread nD τ) (st12_0 t) fullShare ((dat12 V c).after 0 t) from by
    unfold Dat.leavesExact; rw [liveAt12_0 t], after12_0]
  rw [show (dat12 V c).leavesExact 1 t = owns (c : Thread nD τ) (st12_1 t) fullShare ((dat12 V c).after 1 t) from by
    unfold Dat.leavesExact; rw [liveAt12_1 t], after12_1]
  rw [show (dat12 V c).leavesExact 2 t = owns (c : Thread nD τ) (st12_2 t) fullShare ((dat12 V c).after 2 t) from by
    unfold Dat.leavesExact; rw [liveAt12_2 t], after12_2]
  have hN : t.val < 8 := lt_of_lt_of_eq t.isLt (show cfg12.N = 8 from N_12)
  by_cases h0 : t.val = 0
  · have hc0 : cond12_0 (grid12.coords t) := (hcond12_0 t).mpr h0
    have hc1 : ¬cond12_1 (grid12.coords t) := fun h => by have := (hcond12_1 t).mp h; omega
    rw [Dat.leavesExact_idle (dat12 V c) 3 t (idleAt12_3 t hc1) (noFlush12_3 t hc1)]
    rw [acc12_zero V c t h0]
    rw [Phi12_castSucc V c t, Phi12_zero V c _ _ h0, PhiA12_eq]
    iintro ⟨⟨⟨HS, HB⟩, Hg⟩, Ho, ⟨%d0, H0⟩, ⟨%d1, H1⟩, ⟨%d2, H2⟩, H3⟩
    iapply (sound_kernel12_A c Set.univ (grid12.coords t) _ _ _ _ _ _ _ _ _ _ hc0 hc1 (iblk12 V c 0 t) (iblk12 V c 1 t) (iblk12 V c 2 t) _)
    isplitl [H0]; · iexact H0
    isplitl [H1]; · iexact H1
    isplitl [H2]; · iexact H2
    isplitl [HS]; · iexact HS
    iintro ⟨H0, H1, H2, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    iexact H3
  · have hc0 : ¬cond12_0 (grid12.coords t) := fun h => h0 ((hcond12_0 t).mp h)
    rw [acc12_pos V c t h0]
    rw [Phi12_castSucc V c t, Phi12_pos V c _ _ h0]
    by_cases h7 : t.val = 7
    · have hc1 : cond12_1 (grid12.coords t) := (hcond12_1 t).mpr h7
      rw [show (dat12 V c).leavesExact 3 t = owns (c : Thread nD τ) (st12_3 t) fullShare ((dat12 V c).after 3 t) from by
        unfold Dat.leavesExact; rw [liveAt12_3 t hc1], after12_3, acc12_pos V c t h0]
      iintro ⟨⟨⟨HS, HB⟩, Hg⟩, Ho, ⟨%d0, H0⟩, ⟨%d1, H1⟩, ⟨%d2, H2⟩, ⟨%d3, H3⟩⟩
      iapply (sound_kernel12_C c Set.univ (grid12.coords t) _ _ _ _ _ _ _ _ _ _ hc0 hc1 (iblk12 V c 0 t) (iblk12 V c 1 t) (iblk12 V c 2 t) _ _)
      isplitl [H0]; · iexact H0
      isplitl [H1]; · iexact H1
      isplitl [H2]; · iexact H2
      isplitl [HS]; · iexact HS
      isplitl [H3]; · iexists _; iexact H3
      iintro ⟨H0, H1, H2, HS, H3⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3
    · have hc1 : ¬cond12_1 (grid12.coords t) := fun h => h7 ((hcond12_1 t).mp h)
      rw [Dat.leavesExact_idle (dat12 V c) 3 t (idleAt12_3 t hc1) (noFlush12_3 t hc1)]
      iintro ⟨⟨⟨HS, HB⟩, Hg⟩, Ho, ⟨%d0, H0⟩, ⟨%d1, H1⟩, ⟨%d2, H2⟩, H3⟩
      iapply (sound_kernel12_B c Set.univ (grid12.coords t) _ _ _ _ _ _ _ _ _ _ hc0 hc1 (iblk12 V c 0 t) (iblk12 V c 1 t) (iblk12 V c 2 t) _ _)
      isplitl [H0]; · iexact H0
      isplitl [H1]; · iexact H1
      isplitl [H2]; · iexact H2
      isplitl [HS]; · iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3

theorem body_obligation12 (c : Dev nD) : BodyObligation (dat12 (F := F) V c) (defs₀ (F := F)) Variants.none () Set.univ := fun t => by
  rw [bigSep_W12, bigSep_W12]
  exact sound_body12 V c t

theorem hin12 (c : Dev nD) (T : sProp 𝕄) :
    iprop((∃ r, prngReg c r) ∗ T ∗ Pipeline.scopedRest spec12 c) ⊢ (dat12 V c).Φ 0 := by
  rw [show (dat12 V c).Φ 0 = Pipeline.ΦA spec12 c from rfl]; unfold Pipeline.ΦA
  iintro ⟨Hp, -, Hr⟩
  isplitl [Hr]; · iexact Hr
  iexact Hp

theorem hout12 (c : Dev nD) :
    (dat12 V c).Φ (Fin.last cfg12.N) ⊢ iprop((∃ r, prngReg c r) ∗ Pipeline.scopedRest spec12 c) := by
  rw [show (dat12 V c).Φ (Fin.last cfg12.N) = Phi12 V c (Fin.last cfg12.N).val (Nat.le_of_lt_succ (Fin.last cfg12.N).isLt) from rfl,
    Phi12_pos V c _ _ (by rw [Fin.val_last]; have : cfg12.N = 8 := N_12; omega), scopedRest12_split]
  simp only [scM12, owns_whole]
  iintro ⟨⟨HS, HB⟩, Hg⟩
  isplitl [Hg]; · iexact Hg
  isplitl [HS]; · iexists _; iexact HS
  iexact HB

end Region

end Cert.Kernel.Hand

end
-- ==== Proof.KB.Reg13.lean ====
import proofs.«402369_j86406152061536_3_alg».proof.Proof.Gen.Kernel.Launch
import proofs.«402369_j86406152061536_3_alg».proof.Proof.Gen.Kernel.Skeleton
import proofs.«402369_j86406152061536_3_alg».proof.Proof.Gen.Kernel.Points
import proofs.«402369_j86406152061536_3_alg».proof.Proof.KB.Reg11
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond13_0 (i : grid13.Coords) : Prop := (Scalar.cmpi .ne (Scalar.extui (Scalar.cmpi .eq (BitVec.ofNat 32 (i 0).val) 0#32)) 0#32) = 1#1
theorem hcond13_0 : ∀ t : Fin cfg13.N, cond13_0 (grid13.coords t) ↔ t.val = 0 :=
  (by decide +kernel : ∀ t : Fin grid13.N, cond13_0 (grid13.coords t) ↔ t.val = 0)

abbrev cond13_1 (i : grid13.Coords) : Prop := k13_cond2 i = 1#1
theorem hcond13_1 : ∀ t : Fin cfg13.N, cond13_1 (grid13.coords t) ↔ t.val = 7 :=
  (by decide +kernel : ∀ t : Fin grid13.N, cond13_1 (grid13.coords t) ↔ t.val = 7)

theorem idleAt13_3 : ∀ t : Fin cfg13.N, ¬cond13_1 (grid13.coords t) → cfg13.idle 3 (grid13.coords t) = true := by decide +kernel
theorem noFlush13_3 : ∀ t : Fin cfg13.N, ¬cond13_1 (grid13.coords t) → (cfg13.win 3).flush t = false := by decide +kernel

theorem liveAt13_3 : ∀ t : Fin cfg13.N, cond13_1 (grid13.coords t) → cfg13.idle 3 (grid13.coords t) = false := by decide +kernel

theorem sound_kernel13_A (c : Dev nD) (E : Set ℕ) (i : grid13.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : cond13_0 i) (hc1 : ¬cond13_1 i)
    (x0 : Vec F S2048x256 .f32) (x1 : Vec F S2048x256 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k13_pay2 x2 x1 x0 k13_pay1)) -∗ K ⟨⟩))
      ⊢ wp frame (wpE (defs₀ (F := F)) Variants.none c none) E (cc13__ce_kernel i arg1 harg1 arg2 harg2 arg3 harg3 arg4 harg4 arg5 harg5) K :=
  sound_kernel11_A c E i arg1 harg1 arg2 harg2 arg3 harg3 arg4 harg4 arg5 harg5 hc0 hc1 x0 x1 x2 K

theorem sound_kernel13_B (c : Dev nD) (E : Set ℕ) (i : grid13.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond13_0 i) (hc1 : ¬cond13_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg5 fullShare (k13_pay2 x2 x1 x0 xs)) -∗ K ⟨⟩))
      ⊢ wp frame (wpE (defs₀ (F := F)) Variants.none c none) E (cc13__ce_kernel i arg1 harg1 arg2 harg2 arg3 harg3 arg4 harg4 arg5 harg5) K :=
  sound_kernel11_B c E i arg1 harg1 arg2 harg2 arg3 harg3 arg4 harg4 arg5 harg5 hc0 hc1 x0 x1 x2 xs K

theorem sound_kernel13_C (c : Dev nD) (E : Set ℕ) (i : grid13.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond13_0 i) (hc1 : cond13_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k13_pay2 x2 x1 x0 xs) ∗ owns (c : Thread nD τ) arg4 fullShare (k13_pay3 (k13_pay2 x2 x1 x0 xs))) -∗ K ⟨⟩))
      ⊢ wp frame (wpE (defs₀ (F := F)) Variants.none c none) E (cc13__ce_kernel i arg1 harg1 arg2 harg2 arg3 harg3 arg4 harg4 arg5 harg5) K :=
  sound_kernel11_C c E i arg1 harg1 arg2 harg2 arg3 harg3 arg4 harg4 arg5 harg5 hc0 hc1 x0 x1 x2 xs K

section Region

variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

theorem liveAt13_0 : ∀ t : Fin cfg13.N, cfg13.idle 0 (grid13.coords t) = false := fun _ => rfl
theorem liveAt13_1 : ∀ t : Fin cfg13.N, cfg13.idle 1 (grid13.coords t) = false := fun _ => rfl
theorem liveAt13_2 : ∀ t : Fin cfg13.N, cfg13.idle 2 (grid13.coords t) = false := fun _ => rfl

abbrev scM13 : Memref sig .tc .vmem S1x1 .f32 := Memref.whole cc13_scratch0

def acc13 (c : Dev nD) : (n : ℕ) → n < cfg13.N → Vec F S1x1 .f32
  | 0, h => k13_pay2 (iblk13 V c 2 ⟨0, h⟩) (iblk13 V c 1 ⟨0, h⟩) (iblk13 V c 0 ⟨0, h⟩) k13_pay1
  | n + 1, h => k13_pay2 (iblk13 V c 2 ⟨n + 1, h⟩) (iblk13 V c 1 ⟨n + 1, h⟩) (iblk13 V c 0 ⟨n + 1, h⟩) (acc13 c n (Nat.lt_of_succ_lt h))

theorem acc13_zero (c : Dev nD) (t : Fin cfg13.N) (h : t.val = 0) :
    acc13 V c t.val t.isLt = k13_pay2 (iblk13 V c 2 t) (iblk13 V c 1 t) (iblk13 V c 0 t) k13_pay1 := by
  obtain ⟨n, hn⟩ := t
  cases n with
  | zero => rfl
  | succ n => exact absurd h (Nat.succ_ne_zero n)

theorem acc13_pos (c : Dev nD) (t : Fin cfg13.N) (h : t.val ≠ 0) :
    acc13 V c t.val t.isLt = k13_pay2 (iblk13 V c 2 t) (iblk13 V c 1 t) (iblk13 V c 0 t)
      (acc13 V c (t.val - 1) (Nat.lt_of_le_of_lt (Nat.sub_le _ _) t.isLt)) := by
  obtain ⟨n, hn⟩ := t
  cases n with
  | zero => exact absurd rfl h
  | succ n => rfl

def Phi13 (c : Dev nD) : (n : ℕ) → n ≤ cfg13.N → sProp 𝕄
  | 0, _ => Pipeline.ΦA spec13 c
  | n + 1, hn => iprop((owns (c : Thread nD τ) scM13 fullShare (acc13 V c n hn) ∗ Pipeline.scopedRestBut (Ix := Unit) (Name := ℕ) (U := UR sig nD τ) (Lvl := ℕ) (Val := Elt F) spec13 c [cc13_scratch0]) ∗ (∃ r, prngReg c r))

theorem Phi13_zero (c : Dev nD) (n : ℕ) (h : n ≤ cfg13.N) (hz : n = 0) : Phi13 V c n h = Pipeline.ΦA spec13 c := by
  subst hz; rfl

theorem Phi13_succ (c : Dev nD) (n : ℕ) (hn : n < cfg13.N) :
    Phi13 V c (n + 1) hn = iprop((owns (c : Thread nD τ) scM13 fullShare (acc13 V c n hn) ∗ Pipeline.scopedRestBut (Ix := Unit) (Name := ℕ) (U := UR sig nD τ) (Lvl := ℕ) (Val := Elt F) spec13 c [cc13_scratch0]) ∗ (∃ r, prngReg c r)) := rfl

theorem Phi13_pos (c : Dev nD) (n : ℕ) (h : n ≤ cfg13.N) (hz : n ≠ 0) :
    Phi13 V c n h = iprop((owns (c : Thread nD τ) scM13 fullShare (acc13 V c (n - 1) (by omega)) ∗ Pipeline.scopedRestBut (Ix := Unit) (Name := ℕ) (U := UR sig nD τ) (Lvl := ℕ) (Val := Elt F) spec13 c [cc13_scratch0]) ∗ (∃ r, prngReg c r)) := by
  cases n with
  | zero => exact absurd rfl hz
  | succ n => rfl

theorem PhiA13_eq (c : Dev nD) :
    (Pipeline.ΦA spec13 c : sProp 𝕄)
      = iprop(((∃ d, owns (c : Thread nD τ) scM13 fullShare d) ∗ Pipeline.scopedRestBut (Ix := Unit) (Name := ℕ) (U := UR sig nD τ) (Lvl := ℕ) (Val := Elt F) spec13 c [cc13_scratch0]) ∗ (∃ r, prngReg c r)) := by
  unfold Pipeline.ΦA; rw [scopedRest13_split]; simp only [scM13, owns_whole]; try rfl

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => k13_pay3 (acc13 V c t.val t.isLt)
  Φ t := Phi13 V c t.val (Nat.le_of_lt_succ t.isLt)
  q _ := fullShare
  owed _ := 0

theorem A_eq13 (c : Dev nD) (w : Fin cfg13.W) : (dat13 V c).A w = V c (Pipeline.arrRef spec13 w) := by
  dsimp only [dat13]
theorem q_eq13 (c : Dev nD) (w : Fin cfg13.W) : (dat13 V c).q w = fullShare := by dsimp only [dat13]
theorem owed_eq13 (c : Dev nD) (t : Fin (cfg13.N + 1)) : (dat13 V c).owed t = 0 := by dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = k13_pay3 (acc13 V c t.val t.isLt) := by dsimp only [dat13]

theorem Phi13_castSucc (c : Dev nD) (t : Fin cfg13.N) :
    (dat13 V c).Φ t.castSucc = Phi13 V c t.val (Nat.le_of_lt t.isLt) := by
  dsimp only [dat13]; simp only [Fin.coe_castSucc]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d)))

def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t
    ∗ (dat13 V c).leavesExact 3 t)

set_option maxHeartbeats 4000000 in

theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).owesAt () t.succ = (dat13 V c).owesAt () t.castSucc from rfl]
  rw [show (dat13 V c).Φ t.succ = Phi13 V c (t.val + 1) t.isLt from rfl, Phi13_succ]
  rw [show (dat13 V c).leavesExact 0 t = owns (c : Thread nD τ) (st13_0 t) fullShare ((dat13 V c).after 0 t) from by
    unfold Dat.leavesExact; rw [liveAt13_0 t], after13_0]
  rw [show (dat13 V c).leavesExact 1 t = owns (c : Thread nD τ) (st13_1 t) fullShare ((dat13 V c).after 1 t) from by
    unfold Dat.leavesExact; rw [liveAt13_1 t], after13_1]
  rw [show (dat13 V c).leavesExact 2 t = owns (c : Thread nD τ) (st13_2 t) fullShare ((dat13 V c).after 2 t) from by
    unfold Dat.leavesExact; rw [liveAt13_2 t], after13_2]
  have hN : t.val < 8 := lt_of_lt_of_eq t.isLt (show cfg13.N = 8 from N_13)
  by_cases h0 : t.val = 0
  · have hc0 : cond13_0 (grid13.coords t) := (hcond13_0 t).mpr h0
    have hc1 : ¬cond13_1 (grid13.coords t) := fun h => by have := (hcond13_1 t).mp h; omega
    rw [Dat.leavesExact_idle (dat13 V c) 3 t (idleAt13_3 t hc1) (noFlush13_3 t hc1)]
    rw [acc13_zero V c t h0]
    rw [Phi13_castSucc V c t, Phi13_zero V c _ _ h0, PhiA13_eq]
    iintro ⟨⟨⟨HS, HB⟩, Hg⟩, Ho, ⟨%d0, H0⟩, ⟨%d1, H1⟩, ⟨%d2, H2⟩, H3⟩
    iapply (sound_kernel13_A c Set.univ (grid13.coords t) _ _ _ _ _ _ _ _ _ _ hc0 hc1 (iblk13 V c 0 t) (iblk13 V c 1 t) (iblk13 V c 2 t) _)
    isplitl [H0]; · iexact H0
    isplitl [H1]; · iexact H1
    isplitl [H2]; · iexact H2
    isplitl [HS]; · iexact HS
    iintro ⟨H0, H1, H2, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    iexact H3
  · have hc0 : ¬cond13_0 (grid13.coords t) := fun h => h0 ((hcond13_0 t).mp h)
    rw [acc13_pos V c t h0]
    rw [Phi13_castSucc V c t, Phi13_pos V c _ _ h0]
    by_cases h7 : t.val = 7
    · have hc1 : cond13_1 (grid13.coords t) := (hcond13_1 t).mpr h7
      rw [show (dat13 V c).leavesExact 3 t = owns (c : Thread nD τ) (st13_3 t) fullShare ((dat13 V c).after 3 t) from by
        unfold Dat.leavesExact; rw [liveAt13_3 t hc1], after13_3, acc13_pos V c t h0]
      iintro ⟨⟨⟨HS, HB⟩, Hg⟩, Ho, ⟨%d0, H0⟩, ⟨%d1, H1⟩, ⟨%d2, H2⟩, ⟨%d3, H3⟩⟩
      iapply (sound_kernel13_C c Set.univ (grid13.coords t) _ _ _ _ _ _ _ _ _ _ hc0 hc1 (iblk13 V c 0 t) (iblk13 V c 1 t) (iblk13 V c 2 t) _ _)
      isplitl [H0]; · iexact H0
      isplitl [H1]; · iexact H1
      isplitl [H2]; · iexact H2
      isplitl [HS]; · iexact HS
      isplitl [H3]; · iexists _; iexact H3
      iintro ⟨H0, H1, H2, HS, H3⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3
    · have hc1 : ¬cond13_1 (grid13.coords t) := fun h => h7 ((hcond13_1 t).mp h)
      rw [Dat.leavesExact_idle (dat13 V c) 3 t (idleAt13_3 t hc1) (noFlush13_3 t hc1)]
      iintro ⟨⟨⟨HS, HB⟩, Hg⟩, Ho, ⟨%d0, H0⟩, ⟨%d1, H1⟩, ⟨%d2, H2⟩, H3⟩
      iapply (sound_kernel13_B c Set.univ (grid13.coords t) _ _ _ _ _ _ _ _ _ _ hc0 hc1 (iblk13 V c 0 t) (iblk13 V c 1 t) (iblk13 V c 2 t) _ _)
      isplitl [H0]; · iexact H0
      isplitl [H1]; · iexact H1
      isplitl [H2]; · iexact H2
      isplitl [HS]; · iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3

theorem body_obligation13 (c : Dev nD) : BodyObligation (dat13 (F := F) V c) (defs₀ (F := F)) Variants.none () Set.univ := fun t => by
  rw [bigSep_W13, bigSep_W13]
  exact sound_body13 V c t

theorem hin13 (c : Dev nD) (T : sProp 𝕄) :
    iprop((∃ r, prngReg c r) ∗ T ∗ Pipeline.scopedRest spec13 c) ⊢ (dat13 V c).Φ 0 := by
  rw [show (dat13 V c).Φ 0 = Pipeline.ΦA spec13 c from rfl]; unfold Pipeline.ΦA
  iintro ⟨Hp, -, Hr⟩
  isplitl [Hr]; · iexact Hr
  iexact Hp

theorem hout13 (c : Dev nD) :
    (dat13 V c).Φ (Fin.last cfg13.N) ⊢ iprop((∃ r, prngReg c r) ∗ Pipeline.scopedRest spec13 c) := by
  rw [show (dat13 V c).Φ (Fin.last cfg13.N) = Phi13 V c (Fin.last cfg13.N).val (Nat.le_of_lt_succ (Fin.last cfg13.N).isLt) from rfl,
    Phi13_pos V c _ _ (by rw [Fin.val_last]; have : cfg13.N = 8 := N_13; omega), scopedRest13_split]
  simp only [scM13, owns_whole]
  iintro ⟨⟨HS, HB⟩, Hg⟩
  isplitl [Hg]; · iexact Hg
  isplitl [HS]; · iexists _; iexact HS
  iexact HB

end Region

end Cert.Kernel.Hand

end
-- ==== Proof.KB.Reg14.lean ====
import proofs.«402369_j86406152061536_3_alg».proof.Proof.Gen.Kernel.Launch
import proofs.«402369_j86406152061536_3_alg».proof.Proof.Gen.Kernel.Skeleton
import proofs.«402369_j86406152061536_3_alg».proof.Proof.Gen.Kernel.Points
import proofs.«402369_j86406152061536_3_alg».proof.Proof.KB.Reg11
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond14_0 (i : grid14.Coords) : Prop := (Scalar.cmpi .ne (Scalar.extui (Scalar.cmpi .eq (BitVec.ofNat 32 (i 0).val) 0#32)) 0#32) = 1#1
theorem hcond14_0 : ∀ t : Fin cfg14.N, cond14_0 (grid14.coords t) ↔ t.val = 0 :=
  (by decide +kernel : ∀ t : Fin grid14.N, cond14_0 (grid14.coords t) ↔ t.val = 0)

abbrev cond14_1 (i : grid14.Coords) : Prop := k14_cond2 i = 1#1
theorem hcond14_1 : ∀ t : Fin cfg14.N, cond14_1 (grid14.coords t) ↔ t.val = 7 :=
  (by decide +kernel : ∀ t : Fin grid14.N, cond14_1 (grid14.coords t) ↔ t.val = 7)

theorem idleAt14_3 : ∀ t : Fin cfg14.N, ¬cond14_1 (grid14.coords t) → cfg14.idle 3 (grid14.coords t) = true := by decide +kernel
theorem noFlush14_3 : ∀ t : Fin cfg14.N, ¬cond14_1 (grid14.coords t) → (cfg14.win 3).flush t = false := by decide +kernel

theorem liveAt14_3 : ∀ t : Fin cfg14.N, cond14_1 (grid14.coords t) → cfg14.idle 3 (grid14.coords t) = false := by decide +kernel

theorem sound_kernel14_A (c : Dev nD) (E : Set ℕ) (i : grid14.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : cond14_0 i) (hc1 : ¬cond14_1 i)
    (x0 : Vec F S2048x256 .f32) (x1 : Vec F S2048x256 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k14_pay2 x2 x1 x0 k14_pay1)) -∗ K ⟨⟩))
      ⊢ wp frame (wpE (defs₀ (F := F)) Variants.none c none) E (cc14__ce_kernel i arg1 harg1 arg2 harg2 arg3 harg3 arg4 harg4 arg5 harg5) K :=
  sound_kernel11_A c E i arg1 harg1 arg2 harg2 arg3 harg3 arg4 harg4 arg5 harg5 hc0 hc1 x0 x1 x2 K

theorem sound_kernel14_B (c : Dev nD) (E : Set ℕ) (i : grid14.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond14_0 i) (hc1 : ¬cond14_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg5 fullShare (k14_pay2 x2 x1 x0 xs)) -∗ K ⟨⟩))
      ⊢ wp frame (wpE (defs₀ (F := F)) Variants.none c none) E (cc14__ce_kernel i arg1 harg1 arg2 harg2 arg3 harg3 arg4 harg4 arg5 harg5) K :=
  sound_kernel11_B c E i arg1 harg1 arg2 harg2 arg3 harg3 arg4 harg4 arg5 harg5 hc0 hc1 x0 x1 x2 xs K

theorem sound_kernel14_C (c : Dev nD) (E : Set ℕ) (i : grid14.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond14_0 i) (hc1 : cond14_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k14_pay2 x2 x1 x0 xs) ∗ owns (c : Thread nD τ) arg4 fullShare (k14_pay3 (k14_pay2 x2 x1 x0 xs))) -∗ K ⟨⟩))
      ⊢ wp frame (wpE (defs₀ (F := F)) Variants.none c none) E (cc14__ce_kernel i arg1 harg1 arg2 harg2 arg3 harg3 arg4 harg4 arg5 harg5) K :=
  sound_kernel11_C c E i arg1 harg1 arg2 harg2 arg3 harg3 arg4 harg4 arg5 harg5 hc0 hc1 x0 x1 x2 xs K

section Region

variable (V : (c : Dev nD) → (b : Ref sig .tc) → Buf (Elt F) ((c : Thread nD τ).loc b))

def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

theorem liveAt14_0 : ∀ t : Fin cfg14.N, cfg14.idle 0 (grid14.coords t) = false := fun _ => rfl
theorem liveAt14_1 : ∀ t : Fin cfg14.N, cfg14.idle 1 (grid14.coords t) = false := fun _ => rfl
theorem liveAt14_2 : ∀ t : Fin cfg14.N, cfg14.idle 2 (grid14.coords t) = false := fun _ => rfl

abbrev scM14 : Memref sig .tc .vmem S1x1 .f32 := Memref.whole cc14_scratch0

def acc14 (c : Dev nD) : (n : ℕ) → n < cfg14.N → Vec F S1x1 .f32
  | 0, h => k14_pay2 (iblk14 V c 2 ⟨0, h⟩) (iblk14 V c 1 ⟨0, h⟩) (iblk14 V c 0 ⟨0, h⟩) k14_pay1
  | n + 1, h => k14_pay2 (iblk14 V c 2 ⟨n + 1, h⟩) (iblk14 V c 1 ⟨n + 1, h⟩) (iblk14 V c 0 ⟨n + 1, h⟩) (acc14 c n (Nat.lt_of_succ_lt h))

theorem acc14_zero (c : Dev nD) (t : Fin cfg14.N) (h : t.val = 0) :
    acc14 V c t.val t.isLt = k14_pay2 (iblk14 V c 2 t) (iblk14 V c 1 t) (iblk14 V c 0 t) k14_pay1 := by
  obtain ⟨n, hn⟩ := t
  cases n with
  | zero => rfl
  | succ n => exact absurd h (Nat.succ_ne_zero n)

theorem acc14_pos (c : Dev nD) (t : Fin cfg14.N) (h : t.val ≠ 0) :
    acc14 V c t.val t.isLt = k14_pay2 (iblk14 V c 2 t) (iblk14 V c 1 t) (iblk14 V c 0 t)
      (acc14 V c (t.val - 1) (Nat.lt_of_le_of_lt (Nat.sub_le _ _) t.isLt)) := by
  obtain ⟨n, hn⟩ := t
  cases n with
  | zero => exact absurd rfl h
  | succ n => rfl

def Phi14 (c : Dev nD) : (n : ℕ) → n ≤ cfg14.N → sProp 𝕄
  | 0, _ => Pipeline.ΦA spec14 c
  | n + 1, hn => iprop((owns (c : Thread nD τ) scM14 fullShare (acc14 V c n hn) ∗ Pipeline.scopedRestBut (Ix := Unit) (Name := ℕ) (U := UR sig nD τ) (Lvl := ℕ) (Val := Elt F) spec14 c [cc14_scratch0]) ∗ (∃ r, prngReg c r))

theorem Phi14_zero (c : Dev nD) (n : ℕ) (h : n ≤ cfg14.N) (hz : n = 0) : Phi14 V c n h = Pipeline.ΦA spec14 c := by
  subst hz; rfl

theorem Phi14_succ (c : Dev nD) (n : ℕ) (hn : n < cfg14.N) :
    Phi14 V c (n + 1) hn = iprop((owns (c : Thread nD τ) scM14 fullShare (acc14 V c n hn) ∗ Pipeline.scopedRestBut (Ix := Unit) (Name := ℕ) (U := UR sig nD τ) (Lvl := ℕ) (Val := Elt F) spec14 c [cc14_scratch0]) ∗ (∃ r, prngReg c r)) := rfl

theorem Phi14_pos (c : Dev nD) (n : ℕ) (h : n ≤ cfg14.N) (hz : n ≠ 0) :
    Phi14 V c n h = iprop((owns (c : Thread nD τ) scM14 fullShare (acc14 V c (n - 1) (by omega)) ∗ Pipeline.scopedRestBut (Ix := Unit) (Name := ℕ) (U := UR sig nD τ) (Lvl := ℕ) (Val := Elt F) spec14 c [cc14_scratch0]) ∗ (∃ r, prngReg c r)) := by
  cases n with
  | zero => exact absurd rfl hz
  | succ n => rfl

theorem PhiA14_eq (c : Dev nD) :
    (Pipeline.ΦA spec14 c : sProp 𝕄)
      = iprop(((∃ d, owns (c : Thread nD τ) scM14 fullShare d) ∗ Pipeline.scopedRestBut (Ix := Unit) (Name := ℕ) (U := UR sig nD τ) (Lvl := ℕ) (Val := Elt F) spec14 c [cc14_scratch0]) ∗ (∃ r, prngReg c r)) := by
  unfold Pipeline.ΦA; rw [scopedRest14_split]; simp only [scM14, owns_whole]; try rfl

def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => k14_pay3 (acc14 V c t.val t.isLt)
  Φ t := Phi14 V c t.val (Nat.le_of_lt_succ t.isLt)
  q _ := fullShare
  owed _ := 0

theorem A_eq14 (c : Dev nD) (w : Fin cfg14.W) : (dat14 V c).A w = V c (Pipeline.arrRef spec14 w) := by
  dsimp only [dat14]
theorem q_eq14 (c : Dev nD) (w : Fin cfg14.W) : (dat14 V c).q w = fullShare := by dsimp only [dat14]
theorem owed_eq14 (c : Dev nD) (t : Fin (cfg14.N + 1)) : (dat14 V c).owed t = 0 := by dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = k14_pay3 (acc14 V c t.val t.isLt) := by dsimp only [dat14]

theorem Phi14_castSucc (c : Dev nD) (t : Fin cfg14.N) :
    (dat14 V c).Φ t.castSucc = Phi14 V c t.val (Nat.le_of_lt t.isLt) := by
  dsimp only [dat14]; simp only [Fin.coe_castSucc]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d

def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d)))

def bodyPost14 (c : Dev nD) (t : Fin cfg14.N) : sProp 𝕄 :=
  iprop((dat14 V c).Φ t.succ ∗ (dat14 V c).owesAt () t.succ
    ∗ (dat14 V c).leavesExact 0 t
    ∗ (dat14 V c).leavesExact 1 t
    ∗ (dat14 V c).leavesExact 2 t
    ∗ (dat14 V c).leavesExact 3 t)

set_option maxHeartbeats 4000000 in

theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).owesAt () t.succ = (dat14 V c).owesAt () t.castSucc from rfl]
  rw [show (dat14 V c).Φ t.succ = Phi14 V c (t.val + 1) t.isLt from rfl, Phi14_succ]
  rw [show (dat14 V c).leavesExact 0 t = owns (c : Thread nD τ) (st14_0 t) fullShare ((dat14 V c).after 0 t) from by
    unfold Dat.leavesExact; rw [liveAt14_0 t], after14_0]
  rw [show (dat14 V c).leavesExact 1 t = owns (c : Thread nD τ) (st14_1 t) fullShare ((dat14 V c).after 1 t) from by
    unfold Dat.leavesExact; rw [liveAt14_1 t], after14_1]
  rw [show (dat14 V c).leavesExact 2 t = owns (c : Thread nD τ) (st14_2 t) fullShare ((dat14 V c).after 2 t) from by
    unfold Dat.leavesExact; rw [liveAt14_2 t], after14_2]
  have hN : t.val < 8 := lt_of_lt_of_eq t.isLt (show cfg14.N = 8 from N_14)
  by_cases h0 : t.val = 0
  · have hc0 : cond14_0 (grid14.coords t) := (hcond14_0 t).mpr h0
    have hc1 : ¬cond14_1 (grid14.coords t) := fun h => by have := (hcond14_1 t).mp h; omega
    rw [Dat.leavesExact_idle (dat14 V c) 3 t (idleAt14_3 t hc1) (noFlush14_3 t hc1)]
    rw [acc14_zero V c t h0]
    rw [Phi14_castSucc V c t, Phi14_zero V c _ _ h0, PhiA14_eq]
    iintro ⟨⟨⟨HS, HB⟩, Hg⟩, Ho, ⟨%d0, H0⟩, ⟨%d1, H1⟩, ⟨%d2, H2⟩, H3⟩
    iapply (sound_kernel14_A c Set.univ (grid14.coords t) _ _ _ _ _ _ _ _ _ _ hc0 hc1 (iblk14 V c 0 t) (iblk14 V c 1 t) (iblk14 V c 2 t) _)
    isplitl [H0]; · iexact H0
    isplitl [H1]; · iexact H1
    isplitl [H2]; · iexact H2
    isplitl [HS]; · iexact HS
    iintro ⟨H0, H1, H2, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    iexact H3
  · have hc0 : ¬cond14_0 (grid14.coords t) := fun h => h0 ((hcond14_0 t).mp h)
    rw [acc14_pos V c t h0]
    rw [Phi14_castSucc V c t, Phi14_pos V c _ _ h0]
    by_cases h7 : t.val = 7
    · have hc1 : cond14_1 (grid14.coords t) := (hcond14_1 t).mpr h7
      rw [show (dat14 V c).leavesExact 3 t = owns (c : Thread nD τ) (st14_3 t) fullShare ((dat14 V c).after 3 t) from by
        unfold Dat.leavesExact; rw [liveAt14_3 t hc1], after14_3, acc14_pos V c t h0]
      iintro ⟨⟨⟨HS, HB⟩, Hg⟩, Ho, ⟨%d0, H0⟩, ⟨%d1, H1⟩, ⟨%d2, H2⟩, ⟨%d3, H3⟩⟩
      iapply (sound_kernel14_C c Set.univ (grid14.coords t) _ _ _ _ _ _ _ _ _ _ hc0 hc1 (iblk14 V c 0 t) (iblk14 V c 1 t) (iblk14 V c 2 t) _ _)
      isplitl [H0]; · iexact H0
      isplitl [H1]; · iexact H1
      isplitl [H2]; · iexact H2
      isplitl [HS]; · iexact HS
      isplitl [H3]; · iexists _; iexact H3
      iintro ⟨H0, H1, H2, HS, H3⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3
    · have hc1 : ¬cond14_1 (grid14.coords t) := fun h => h7 ((hcond14_1 t).mp h)
      rw [Dat.leavesExact_idle (dat14 V c) 3 t (idleAt14_3 t hc1) (noFlush14_3 t hc1)]
      iintro ⟨⟨⟨HS, HB⟩, Hg⟩, Ho, ⟨%d0, H0⟩, ⟨%d1, H1⟩, ⟨%d2, H2⟩, H3⟩
      iapply (sound_kernel14_B c Set.univ (grid14.coords t) _ _ _ _ _ _ _ _ _ _ hc0 hc1 (iblk14 V c 0 t) (iblk14 V c 1 t) (iblk14 V c 2 t) _ _)
      isplitl [H0]; · iexact H0
      isplitl [H1]; · iexact H1
      isplitl [H2]; · iexact H2
      isplitl [HS]; · iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3

theorem body_obligation14 (c : Dev nD) : BodyObligation (dat14 (F := F) V c) (defs₀ (F := F)) Variants.none () Set.univ := fun t => by
  rw [bigSep_W14, bigSep_W14]
  exact sound_body14 V c t

theorem hin14 (c : Dev nD) (T : sProp 𝕄) :
    iprop((∃ r, prngReg c r) ∗ T ∗ Pipeline.scopedRest spec14 c) ⊢ (dat14 V c).Φ 0 := by
  rw [show (dat14 V c).Φ 0 = Pipeline.ΦA spec14 c from rfl]; unfold Pipeline.ΦA
  iintro ⟨Hp, -, Hr⟩
  isplitl [Hr]; · iexact Hr
  iexact Hp

theorem hout14 (c : Dev nD) :
    (dat14 V c).Φ (Fin.last cfg14.N) ⊢ iprop((∃ r, prngReg c r) ∗ Pipeline.scopedRest spec14 c) := by
  rw [show (dat14 V c).Φ (Fin.last cfg14.N) = Phi14 V c (Fin.last cfg14.N).val (Nat.le_of_lt_succ (Fin.last cfg14.N).isLt) from rfl,
    Phi14_pos V c _ _ (by rw [Fin.val_last]; have : cfg14.N = 8 := N_14; omega), scopedRest14_split]
  simp only [scM14, owns_whole]
  iintro ⟨⟨HS, HB⟩, Hg⟩
  isplitl [Hg]; · iexact Hg
  isplitl [HS]; · iexists _; iexact HS
  iexact HB

end Region

end Cert.Kernel.Hand

end
-- ==== Proof.KB.Reg15.lean ====
import proofs.«402369_j86406152061536_3_alg».proof.Proof.Gen.Kernel.Launch
import proofs.«402369_j86406152061536_3_alg».proof.Proof.Gen.Kernel.Skeleton
import proofs.«402369_j86406152061536_3_alg».proof.Proof.Gen.Kernel.Points
import proofs.«402369_j86406152061536_3_alg».proof.Proof.KB.Reg11
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond15_0 (i : grid15.Coords) : Prop := (Scalar.cmpi .ne (Scalar.extui (Scalar.cmpi .eq (BitVec.ofNat 32 (i 0).val) 0#32)) 0#32) = 1#1
theorem hcond15_0 : ∀ t : Fin cfg15.N, cond15_0 (grid15.coords t) ↔ t.val = 0 :=
  (by decide +kernel : ∀ t : Fin grid15.N, cond15_0 (grid15.coords t) ↔ t.val = 0)

abbrev cond15_1 (i : grid15.Coords) : Prop := k15_cond2 i = 1#1
theorem hcond15_1 : ∀ t : Fin cfg15.N, cond15_1 (grid15.coords t) ↔ t.val = 7 :=
  (by decide +kernel : ∀ t : Fin grid15.N, cond15_1 (grid15.coords t) ↔ t.val = 7)

theorem idleAt15_3 : ∀ t : Fin cfg15.N, ¬cond15_1 (grid15.coords t) → cfg15.idle 3 (grid15.coords t) = true := by decide +kernel
theorem noFlush15_3 : ∀ t : Fin cfg15.N, ¬cond15_1 (grid15.coords t) → (cfg15.win 3).flush t = false := by decide +kernel

theorem liveAt15_3 : ∀ t : Fin cfg15.N, cond15_1 (grid15.coords t) → cfg15.idle 3 (grid15.coords t) = false := by decide +kernel

theorem sound_kernel15_A (c : Dev nD) (E : Set ℕ) (i : grid15.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : cond15_0 i) (hc1 : ¬cond15_1 i)
    (x0 : Vec F S2048x256 .f32) (x1 : Vec F S2048x256 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k15_pay2 x2 x1 x0 k15_pay1)) -∗ K ⟨⟩))
      ⊢ wp frame (wpE (defs₀ (F := F)) Variants.none c none) E (cc15__ce_kernel i arg1 harg1 arg2 harg2 arg3 harg3 arg4 harg4 arg5 harg5) K :=
  sound_kernel11_A c E i arg1 harg1 arg2 harg2 arg3 harg3 arg4 harg4 arg5 harg5 hc0 hc1 x0 x1 x2 K

theorem sound_kernel15_B (c : Dev nD) (E : Set ℕ) (i : grid15.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond15_0 i) (hc1 : ¬cond15_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg5 fullShare (k15_pay2 x2 x1 x0 xs)) -∗ K ⟨⟩))
      ⊢ wp frame (wpE (defs₀ (F := F)) Variants.none c none) E (cc15__ce_kernel i arg1 harg1 arg2 harg2 arg3 harg3 arg4 harg4 arg5 harg5) K :=
  sound_kernel11_B c E i arg1 harg1 arg2 harg2 arg3 harg3 arg4 harg4 arg5 harg5 hc0 hc1 x0 x1 x2 xs K

theorem sound_kernel15_C (c : Dev nD) (E : Set ℕ) (i : grid15.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond15_0 i) (hc1 : cond15_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k15_pay2 x2 x1 x0 xs) ∗ owns (c : Thread nD τ) arg4 fullShare (k15_pay3 (k15_pay2 x2 x1 x0 xs))) -∗ K ⟨⟩))
      ⊢ wp frame (wpE (defs₀ (F := F)) Variants.none c none) E (cc15__ce_kernel i arg1 harg1 arg2 harg2 arg3 harg3 arg4 harg4 arg5 harg5) K :=
  sound_kernel11_C c E i arg1 harg1 arg2 harg2 arg3 harg3 arg4 harg4 arg5 harg5 hc0 hc1 x0 x1 x2 xs K

section Region

variable (V : (c : Dev nD) → (b : Ref sig .tc) → Buf (Elt F) ((c : Thread nD τ).loc b))

def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

theorem liveAt15_0 : ∀ t : Fin cfg15.N, cfg15.idle 0 (grid15.coords t) = false := fun _ => rfl
theorem liveAt15_1 : ∀ t : Fin cfg15.N, cfg15.idle 1 (grid15.coords t) = false := fun _ => rfl
theorem liveAt15_2 : ∀ t : Fin cfg15.N, cfg15.idle 2 (grid15.coords t) = false := fun _ => rfl

abbrev scM15 : Memref sig .tc .vmem S1x1 .f32 := Memref.whole cc15_scratch0

def acc15 (c : Dev nD) : (n : ℕ) → n < cfg15.N → Vec F S1x1 .f32
  | 0, h => k15_pay2 (iblk15 V c 2 ⟨0, h⟩) (iblk15 V c 1 ⟨0, h⟩) (iblk15 V c 0 ⟨0, h⟩) k15_pay1
  | n + 1, h => k15_pay2 (iblk15 V c 2 ⟨n + 1, h⟩) (iblk15 V c 1 ⟨n + 1, h⟩) (iblk15 V c 0 ⟨n + 1, h⟩) (acc15 c n (Nat.lt_of_succ_lt h))

theorem acc15_zero (c : Dev nD) (t : Fin cfg15.N) (h : t.val = 0) :
    acc15 V c t.val t.isLt = k15_pay2 (iblk15 V c 2 t) (iblk15 V c 1 t) (iblk15 V c 0 t) k15_pay1 := by
  obtain ⟨n, hn⟩ := t
  cases n with
  | zero => rfl
  | succ n => exact absurd h (Nat.succ_ne_zero n)

theorem acc15_pos (c : Dev nD) (t : Fin cfg15.N) (h : t.val ≠ 0) :
    acc15 V c t.val t.isLt = k15_pay2 (iblk15 V c 2 t) (iblk15 V c 1 t) (iblk15 V c 0 t)
      (acc15 V c (t.val - 1) (Nat.lt_of_le_of_lt (Nat.sub_le _ _) t.isLt)) := by
  obtain ⟨n, hn⟩ := t
  cases n with
  | zero => exact absurd rfl h
  | succ n => rfl

def Phi15 (c : Dev nD) : (n : ℕ) → n ≤ cfg15.N → sProp 𝕄
  | 0, _ => Pipeline.ΦA spec15 c
  | n + 1, hn => iprop((owns (c : Thread nD τ) scM15 fullShare (acc15 V c n hn) ∗ Pipeline.scopedRestBut (Ix := Unit) (Name := ℕ) (U := UR sig nD τ) (Lvl := ℕ) (Val := Elt F) spec15 c [cc15_scratch0]) ∗ (∃ r, prngReg c r))

theorem Phi15_zero (c : Dev nD) (n : ℕ) (h : n ≤ cfg15.N) (hz : n = 0) : Phi15 V c n h = Pipeline.ΦA spec15 c := by
  subst hz; rfl

theorem Phi15_succ (c : Dev nD) (n : ℕ) (hn : n < cfg15.N) :
    Phi15 V c (n + 1) hn = iprop((owns (c : Thread nD τ) scM15 fullShare (acc15 V c n hn) ∗ Pipeline.scopedRestBut (Ix := Unit) (Name := ℕ) (U := UR sig nD τ) (Lvl := ℕ) (Val := Elt F) spec15 c [cc15_scratch0]) ∗ (∃ r, prngReg c r)) := rfl

theorem Phi15_pos (c : Dev nD) (n : ℕ) (h : n ≤ cfg15.N) (hz : n ≠ 0) :
    Phi15 V c n h = iprop((owns (c : Thread nD τ) scM15 fullShare (acc15 V c (n - 1) (by omega)) ∗ Pipeline.scopedRestBut (Ix := Unit) (Name := ℕ) (U := UR sig nD τ) (Lvl := ℕ) (Val := Elt F) spec15 c [cc15_scratch0]) ∗ (∃ r, prngReg c r)) := by
  cases n with
  | zero => exact absurd rfl hz
  | succ n => rfl

theorem PhiA15_eq (c : Dev nD) :
    (Pipeline.ΦA spec15 c : sProp 𝕄)
      = iprop(((∃ d, owns (c : Thread nD τ) scM15 fullShare d) ∗ Pipeline.scopedRestBut (Ix := Unit) (Name := ℕ) (U := UR sig nD τ) (Lvl := ℕ) (Val := Elt F) spec15 c [cc15_scratch0]) ∗ (∃ r, prngReg c r)) := by
  unfold Pipeline.ΦA; rw [scopedRest15_split]; simp only [scM15, owns_whole]; try rfl

def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => k15_pay3 (acc15 V c t.val t.isLt)
  Φ t := Phi15 V c t.val (Nat.le_of_lt_succ t.isLt)
  q _ := fullShare
  owed _ := 0

theorem A_eq15 (c : Dev nD) (w : Fin cfg15.W) : (dat15 V c).A w = V c (Pipeline.arrRef spec15 w) := by
  dsimp only [dat15]
theorem q_eq15 (c : Dev nD) (w : Fin cfg15.W) : (dat15 V c).q w = fullShare := by dsimp only [dat15]
theorem owed_eq15 (c : Dev nD) (t : Fin (cfg15.N + 1)) : (dat15 V c).owed t = 0 := by dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = k15_pay3 (acc15 V c t.val t.isLt) := by dsimp only [dat15]

theorem Phi15_castSucc (c : Dev nD) (t : Fin cfg15.N) :
    (dat15 V c).Φ t.castSucc = Phi15 V c t.val (Nat.le_of_lt t.isLt) := by
  dsimp only [dat15]; simp only [Fin.coe_castSucc]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d)))

def bodyPost15 (c : Dev nD) (t : Fin cfg15.N) : sProp 𝕄 :=
  iprop((dat15 V c).Φ t.succ ∗ (dat15 V c).owesAt () t.succ
    ∗ (dat15 V c).leavesExact 0 t
    ∗ (dat15 V c).leavesExact 1 t
    ∗ (dat15 V c).leavesExact 2 t
    ∗ (dat15 V c).leavesExact 3 t)

set_option maxHeartbeats 4000000 in

theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).owesAt () t.succ = (dat15 V c).owesAt () t.castSucc from rfl]
  rw [show (dat15 V c).Φ t.succ = Phi15 V c (t.val + 1) t.isLt from rfl, Phi15_succ]
  rw [show (dat15 V c).leavesExact 0 t = owns (c : Thread nD τ) (st15_0 t) fullShare ((dat15 V c).after 0 t) from by
    unfold Dat.leavesExact; rw [liveAt15_0 t], after15_0]
  rw [show (dat15 V c).leavesExact 1 t = owns (c : Thread nD τ) (st15_1 t) fullShare ((dat15 V c).after 1 t) from by
    unfold Dat.leavesExact; rw [liveAt15_1 t], after15_1]
  rw [show (dat15 V c).leavesExact 2 t = owns (c : Thread nD τ) (st15_2 t) fullShare ((dat15 V c).after 2 t) from by
    unfold Dat.leavesExact; rw [liveAt15_2 t], after15_2]
  have hN : t.val < 8 := lt_of_lt_of_eq t.isLt (show cfg15.N = 8 from N_15)
  by_cases h0 : t.val = 0
  · have hc0 : cond15_0 (grid15.coords t) := (hcond15_0 t).mpr h0
    have hc1 : ¬cond15_1 (grid15.coords t) := fun h => by have := (hcond15_1 t).mp h; omega
    rw [Dat.leavesExact_idle (dat15 V c) 3 t (idleAt15_3 t hc1) (noFlush15_3 t hc1)]
    rw [acc15_zero V c t h0]
    rw [Phi15_castSucc V c t, Phi15_zero V c _ _ h0, PhiA15_eq]
    iintro ⟨⟨⟨HS, HB⟩, Hg⟩, Ho, ⟨%d0, H0⟩, ⟨%d1, H1⟩, ⟨%d2, H2⟩, H3⟩
    iapply (sound_kernel15_A c Set.univ (grid15.coords t) _ _ _ _ _ _ _ _ _ _ hc0 hc1 (iblk15 V c 0 t) (iblk15 V c 1 t) (iblk15 V c 2 t) _)
    isplitl [H0]; · iexact H0
    isplitl [H1]; · iexact H1
    isplitl [H2]; · iexact H2
    isplitl [HS]; · iexact HS
    iintro ⟨H0, H1, H2, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    iexact H3
  · have hc0 : ¬cond15_0 (grid15.coords t) := fun h => h0 ((hcond15_0 t).mp h)
    rw [acc15_pos V c t h0]
    rw [Phi15_castSucc V c t, Phi15_pos V c _ _ h0]
    by_cases h7 : t.val = 7
    · have hc1 : cond15_1 (grid15.coords t) := (hcond15_1 t).mpr h7
      rw [show (dat15 V c).leavesExact 3 t = owns (c : Thread nD τ) (st15_3 t) fullShare ((dat15 V c).after 3 t) from by
        unfold Dat.leavesExact; rw [liveAt15_3 t hc1], after15_3, acc15_pos V c t h0]
      iintro ⟨⟨⟨HS, HB⟩, Hg⟩, Ho, ⟨%d0, H0⟩, ⟨%d1, H1⟩, ⟨%d2, H2⟩, ⟨%d3, H3⟩⟩
      iapply (sound_kernel15_C c Set.univ (grid15.coords t) _ _ _ _ _ _ _ _ _ _ hc0 hc1 (iblk15 V c 0 t) (iblk15 V c 1 t) (iblk15 V c 2 t) _ _)
      isplitl [H0]; · iexact H0
      isplitl [H1]; · iexact H1
      isplitl [H2]; · iexact H2
      isplitl [HS]; · iexact HS
      isplitl [H3]; · iexists _; iexact H3
      iintro ⟨H0, H1, H2, HS, H3⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3
    · have hc1 : ¬cond15_1 (grid15.coords t) := fun h => h7 ((hcond15_1 t).mp h)
      rw [Dat.leavesExact_idle (dat15 V c) 3 t (idleAt15_3 t hc1) (noFlush15_3 t hc1)]
      iintro ⟨⟨⟨HS, HB⟩, Hg⟩, Ho, ⟨%d0, H0⟩, ⟨%d1, H1⟩, ⟨%d2, H2⟩, H3⟩
      iapply (sound_kernel15_B c Set.univ (grid15.coords t) _ _ _ _ _ _ _ _ _ _ hc0 hc1 (iblk15 V c 0 t) (iblk15 V c 1 t) (iblk15 V c 2 t) _ _)
      isplitl [H0]; · iexact H0
      isplitl [H1]; · iexact H1
      isplitl [H2]; · iexact H2
      isplitl [HS]; · iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3

theorem body_obligation15 (c : Dev nD) : BodyObligation (dat15 (F := F) V c) (defs₀ (F := F)) Variants.none () Set.univ := fun t => by
  rw [bigSep_W15, bigSep_W15]
  exact sound_body15 V c t

theorem hin15 (c : Dev nD) (T : sProp 𝕄) :
    iprop((∃ r, prngReg c r) ∗ T ∗ Pipeline.scopedRest spec15 c) ⊢ (dat15 V c).Φ 0 := by
  rw [show (dat15 V c).Φ 0 = Pipeline.ΦA spec15 c from rfl]; unfold Pipeline.ΦA
  iintro ⟨Hp, -, Hr⟩
  isplitl [Hr]; · iexact Hr
  iexact Hp

theorem hout15 (c : Dev nD) :
    (dat15 V c).Φ (Fin.last cfg15.N) ⊢ iprop((∃ r, prngReg c r) ∗ Pipeline.scopedRest spec15 c) := by
  rw [show (dat15 V c).Φ (Fin.last cfg15.N) = Phi15 V c (Fin.last cfg15.N).val (Nat.le_of_lt_succ (Fin.last cfg15.N).isLt) from rfl,
    Phi15_pos V c _ _ (by rw [Fin.val_last]; have : cfg15.N = 8 := N_15; omega), scopedRest15_split]
  simp only [scM15, owns_whole]
  iintro ⟨⟨HS, HB⟩, Hg⟩
  isplitl [Hg]; · iexact Hg
  isplitl [HS]; · iexists _; iexact HS
  iexact HB

end Region

end Cert.Kernel.Hand

end
-- ==== Proof.KB.Reg16.lean ====
import proofs.«402369_j86406152061536_3_alg».proof.Proof.Gen.Kernel.Launch
import proofs.«402369_j86406152061536_3_alg».proof.Proof.Gen.Kernel.Skeleton
import proofs.«402369_j86406152061536_3_alg».proof.Proof.Gen.Kernel.Points
import proofs.«402369_j86406152061536_3_alg».proof.Proof.KB.Reg11
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond16_0 (i : grid16.Coords) : Prop := (Scalar.cmpi .ne (Scalar.extui (Scalar.cmpi .eq (BitVec.ofNat 32 (i 0).val) 0#32)) 0#32) = 1#1
theorem hcond16_0 : ∀ t : Fin cfg16.N, cond16_0 (grid16.coords t) ↔ t.val = 0 :=
  (by decide +kernel : ∀ t : Fin grid16.N, cond16_0 (grid16.coords t) ↔ t.val = 0)

abbrev cond16_1 (i : grid16.Coords) : Prop := k16_cond2 i = 1#1
theorem hcond16_1 : ∀ t : Fin cfg16.N, cond16_1 (grid16.coords t) ↔ t.val = 7 :=
  (by decide +kernel : ∀ t : Fin grid16.N, cond16_1 (grid16.coords t) ↔ t.val = 7)

theorem idleAt16_3 : ∀ t : Fin cfg16.N, ¬cond16_1 (grid16.coords t) → cfg16.idle 3 (grid16.coords t) = true := by decide +kernel
theorem noFlush16_3 : ∀ t : Fin cfg16.N, ¬cond16_1 (grid16.coords t) → (cfg16.win 3).flush t = false := by decide +kernel

theorem liveAt16_3 : ∀ t : Fin cfg16.N, cond16_1 (grid16.coords t) → cfg16.idle 3 (grid16.coords t) = false := by decide +kernel

theorem sound_kernel16_A (c : Dev nD) (E : Set ℕ) (i : grid16.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : cond16_0 i) (hc1 : ¬cond16_1 i)
    (x0 : Vec F S2048x256 .f32) (x1 : Vec F S2048x256 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k16_pay2 x2 x1 x0 k16_pay1)) -∗ K ⟨⟩))
      ⊢ wp frame (wpE (defs₀ (F := F)) Variants.none c none) E (cc16__ce_kernel i arg1 harg1 arg2 harg2 arg3 harg3 arg4 harg4 arg5 harg5) K :=
  sound_kernel11_A c E i arg1 harg1 arg2 harg2 arg3 harg3 arg4 harg4 arg5 harg5 hc0 hc1 x0 x1 x2 K

theorem sound_kernel16_B (c : Dev nD) (E : Set ℕ) (i : grid16.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond16_0 i) (hc1 : ¬cond16_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg5 fullShare (k16_pay2 x2 x1 x0 xs)) -∗ K ⟨⟩))
      ⊢ wp frame (wpE (defs₀ (F := F)) Variants.none c none) E (cc16__ce_kernel i arg1 harg1 arg2 harg2 arg3 harg3 arg4 harg4 arg5 harg5) K :=
  sound_kernel11_B c E i arg1 harg1 arg2 harg2 arg3 harg3 arg4 harg4 arg5 harg5 hc0 hc1 x0 x1 x2 xs K

theorem sound_kernel16_C (c : Dev nD) (E : Set ℕ) (i : grid16.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond16_0 i) (hc1 : cond16_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k16_pay2 x2 x1 x0 xs) ∗ owns (c : Thread nD τ) arg4 fullShare (k16_pay3 (k16_pay2 x2 x1 x0 xs))) -∗ K ⟨⟩))
      ⊢ wp frame (wpE (defs₀ (F := F)) Variants.none c none) E (cc16__ce_kernel i arg1 harg1 arg2 harg2 arg3 harg3 arg4 harg4 arg5 harg5) K :=
  sound_kernel11_C c E i arg1 harg1 arg2 harg2 arg3 harg3 arg4 harg4 arg5 harg5 hc0 hc1 x0 x1 x2 xs K

section Region

variable (V : (c : Dev nD) → (b : Ref sig .tc) → Buf (Elt F) ((c : Thread nD τ).loc b))

def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)

theorem liveAt16_0 : ∀ t : Fin cfg16.N, cfg16.idle 0 (grid16.coords t) = false := fun _ => rfl
theorem liveAt16_1 : ∀ t : Fin cfg16.N, cfg16.idle 1 (grid16.coords t) = false := fun _ => rfl
theorem liveAt16_2 : ∀ t : Fin cfg16.N, cfg16.idle 2 (grid16.coords t) = false := fun _ => rfl

abbrev scM16 : Memref sig .tc .vmem S1x1 .f32 := Memref.whole cc16_scratch0

def acc16 (c : Dev nD) : (n : ℕ) → n < cfg16.N → Vec F S1x1 .f32
  | 0, h => k16_pay2 (iblk16 V c 2 ⟨0, h⟩) (iblk16 V c 1 ⟨0, h⟩) (iblk16 V c 0 ⟨0, h⟩) k16_pay1
  | n + 1, h => k16_pay2 (iblk16 V c 2 ⟨n + 1, h⟩) (iblk16 V c 1 ⟨n + 1, h⟩) (iblk16 V c 0 ⟨n + 1, h⟩) (acc16 c n (Nat.lt_of_succ_lt h))

theorem acc16_zero (c : Dev nD) (t : Fin cfg16.N) (h : t.val = 0) :
    acc16 V c t.val t.isLt = k16_pay2 (iblk16 V c 2 t) (iblk16 V c 1 t) (iblk16 V c 0 t) k16_pay1 := by
  obtain ⟨n, hn⟩ := t
  cases n with
  | zero => rfl
  | succ n => exact absurd h (Nat.succ_ne_zero n)

theorem acc16_pos (c : Dev nD) (t : Fin cfg16.N) (h : t.val ≠ 0) :
    acc16 V c t.val t.isLt = k16_pay2 (iblk16 V c 2 t) (iblk16 V c 1 t) (iblk16 V c 0 t)
      (acc16 V c (t.val - 1) (Nat.lt_of_le_of_lt (Nat.sub_le _ _) t.isLt)) := by
  obtain ⟨n, hn⟩ := t
  cases n with
  | zero => exact absurd rfl h
  | succ n => rfl

def Phi16 (c : Dev nD) : (n : ℕ) → n ≤ cfg16.N → sProp 𝕄
  | 0, _ => Pipeline.ΦA spec16 c
  | n + 1, hn => iprop((owns (c : Thread nD τ) scM16 fullShare (acc16 V c n hn) ∗ Pipeline.scopedRestBut (Ix := Unit) (Name := ℕ) (U := UR sig nD τ) (Lvl := ℕ) (Val := Elt F) spec16 c [cc16_scratch0]) ∗ (∃ r, prngReg c r))

theorem Phi16_zero (c : Dev nD) (n : ℕ) (h : n ≤ cfg16.N) (hz : n = 0) : Phi16 V c n h = Pipeline.ΦA spec16 c := by
  subst hz; rfl

theorem Phi16_succ (c : Dev nD) (n : ℕ) (hn : n < cfg16.N) :
    Phi16 V c (n + 1) hn = iprop((owns (c : Thread nD τ) scM16 fullShare (acc16 V c n hn) ∗ Pipeline.scopedRestBut (Ix := Unit) (Name := ℕ) (U := UR sig nD τ) (Lvl := ℕ) (Val := Elt F) spec16 c [cc16_scratch0]) ∗ (∃ r, prngReg c r)) := rfl

theorem Phi16_pos (c : Dev nD) (n : ℕ) (h : n ≤ cfg16.N) (hz : n ≠ 0) :
    Phi16 V c n h = iprop((owns (c : Thread nD τ) scM16 fullShare (acc16 V c (n - 1) (by omega)) ∗ Pipeline.scopedRestBut (Ix := Unit) (Name := ℕ) (U := UR sig nD τ) (Lvl := ℕ) (Val := Elt F) spec16 c [cc16_scratch0]) ∗ (∃ r, prngReg c r)) := by
  cases n with
  | zero => exact absurd rfl hz
  | succ n => rfl

theorem PhiA16_eq (c : Dev nD) :
    (Pipeline.ΦA spec16 c : sProp 𝕄)
      = iprop(((∃ d, owns (c : Thread nD τ) scM16 fullShare d) ∗ Pipeline.scopedRestBut (Ix := Unit) (Name := ℕ) (U := UR sig nD τ) (Lvl := ℕ) (Val := Elt F) spec16 c [cc16_scratch0]) ∗ (∃ r, prngReg c r)) := by
  unfold Pipeline.ΦA; rw [scopedRest16_split]; simp only [scM16, owns_whole]; try rfl

def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => k16_pay3 (acc16 V c t.val t.isLt)
  Φ t := Phi16 V c t.val (Nat.le_of_lt_succ t.isLt)
  q _ := fullShare
  owed _ := 0

theorem A_eq16 (c : Dev nD) (w : Fin cfg16.W) : (dat16 V c).A w = V c (Pipeline.arrRef spec16 w) := by
  dsimp only [dat16]
theorem q_eq16 (c : Dev nD) (w : Fin cfg16.W) : (dat16 V c).q w = fullShare := by dsimp only [dat16]
theorem owed_eq16 (c : Dev nD) (t : Fin (cfg16.N + 1)) : (dat16 V c).owed t = 0 := by dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = k16_pay3 (acc16 V c t.val t.isLt) := by dsimp only [dat16]

theorem Phi16_castSucc (c : Dev nD) (t : Fin cfg16.N) :
    (dat16 V c).Φ t.castSucc = Phi16 V c t.val (Nat.le_of_lt t.isLt) := by
  dsimp only [dat16]; simp only [Fin.coe_castSucc]

theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d

def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d)))

def bodyPost16 (c : Dev nD) (t : Fin cfg16.N) : sProp 𝕄 :=
  iprop((dat16 V c).Φ t.succ ∗ (dat16 V c).owesAt () t.succ
    ∗ (dat16 V c).leavesExact 0 t
    ∗ (dat16 V c).leavesExact 1 t
    ∗ (dat16 V c).leavesExact 2 t
    ∗ (dat16 V c).leavesExact 3 t)

set_option maxHeartbeats 4000000 in

theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2]
  rw [show (dat16 V c).owesAt () t.succ = (dat16 V c).owesAt () t.castSucc from rfl]
  rw [show (dat16 V c).Φ t.succ = Phi16 V c (t.val + 1) t.isLt from rfl, Phi16_succ]
  rw [show (dat16 V c).leavesExact 0 t = owns (c : Thread nD τ) (st16_0 t) fullShare ((dat16 V c).after 0 t) from by
    unfold Dat.leavesExact; rw [liveAt16_0 t], after16_0]
  rw [show (dat16 V c).leavesExact 1 t = owns (c : Thread nD τ) (st16_1 t) fullShare ((dat16 V c).after 1 t) from by
    unfold Dat.leavesExact; rw [liveAt16_1 t], after16_1]
  rw [show (dat16 V c).leavesExact 2 t = owns (c : Thread nD τ) (st16_2 t) fullShare ((dat16 V c).after 2 t) from by
    unfold Dat.leavesExact; rw [liveAt16_2 t], after16_2]
  have hN : t.val < 8 := lt_of_lt_of_eq t.isLt (show cfg16.N = 8 from N_16)
  by_cases h0 : t.val = 0
  · have hc0 : cond16_0 (grid16.coords t) := (hcond16_0 t).mpr h0
    have hc1 : ¬cond16_1 (grid16.coords t) := fun h => by have := (hcond16_1 t).mp h; omega
    rw [Dat.leavesExact_idle (dat16 V c) 3 t (idleAt16_3 t hc1) (noFlush16_3 t hc1)]
    rw [acc16_zero V c t h0]
    rw [Phi16_castSucc V c t, Phi16_zero V c _ _ h0, PhiA16_eq]
    iintro ⟨⟨⟨HS, HB⟩, Hg⟩, Ho, ⟨%d0, H0⟩, ⟨%d1, H1⟩, ⟨%d2, H2⟩, H3⟩
    iapply (sound_kernel16_A c Set.univ (grid16.coords t) _ _ _ _ _ _ _ _ _ _ hc0 hc1 (iblk16 V c 0 t) (iblk16 V c 1 t) (iblk16 V c 2 t) _)
    isplitl [H0]; · iexact H0
    isplitl [H1]; · iexact H1
    isplitl [H2]; · iexact H2
    isplitl [HS]; · iexact HS
    iintro ⟨H0, H1, H2, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    iexact H3
  · have hc0 : ¬cond16_0 (grid16.coords t) := fun h => h0 ((hcond16_0 t).mp h)
    rw [acc16_pos V c t h0]
    rw [Phi16_castSucc V c t, Phi16_pos V c _ _ h0]
    by_cases h7 : t.val = 7
    · have hc1 : cond16_1 (grid16.coords t) := (hcond16_1 t).mpr h7
      rw [show (dat16 V c).leavesExact 3 t = owns (c : Thread nD τ) (st16_3 t) fullShare ((dat16 V c).after 3 t) from by
        unfold Dat.leavesExact; rw [liveAt16_3 t hc1], after16_3, acc16_pos V c t h0]
      iintro ⟨⟨⟨HS, HB⟩, Hg⟩, Ho, ⟨%d0, H0⟩, ⟨%d1, H1⟩, ⟨%d2, H2⟩, ⟨%d3, H3⟩⟩
      iapply (sound_kernel16_C c Set.univ (grid16.coords t) _ _ _ _ _ _ _ _ _ _ hc0 hc1 (iblk16 V c 0 t) (iblk16 V c 1 t) (iblk16 V c 2 t) _ _)
      isplitl [H0]; · iexact H0
      isplitl [H1]; · iexact H1
      isplitl [H2]; · iexact H2
      isplitl [HS]; · iexact HS
      isplitl [H3]; · iexists _; iexact H3
      iintro ⟨H0, H1, H2, HS, H3⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3
    · have hc1 : ¬cond16_1 (grid16.coords t) := fun h => h7 ((hcond16_1 t).mp h)
      rw [Dat.leavesExact_idle (dat16 V c) 3 t (idleAt16_3 t hc1) (noFlush16_3 t hc1)]
      iintro ⟨⟨⟨HS, HB⟩, Hg⟩, Ho, ⟨%d0, H0⟩, ⟨%d1, H1⟩, ⟨%d2, H2⟩, H3⟩
      iapply (sound_kernel16_B c Set.univ (grid16.coords t) _ _ _ _ _ _ _ _ _ _ hc0 hc1 (iblk16 V c 0 t) (iblk16 V c 1 t) (iblk16 V c 2 t) _ _)
      isplitl [H0]; · iexact H0
      isplitl [H1]; · iexact H1
      isplitl [H2]; · iexact H2
      isplitl [HS]; · iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3

theorem body_obligation16 (c : Dev nD) : BodyObligation (dat16 (F := F) V c) (defs₀ (F := F)) Variants.none () Set.univ := fun t => by
  rw [bigSep_W16, bigSep_W16]
  exact sound_body16 V c t

theorem hin16 (c : Dev nD) (T : sProp 𝕄) :
    iprop((∃ r, prngReg c r) ∗ T ∗ Pipeline.scopedRest spec16 c) ⊢ (dat16 V c).Φ 0 := by
  rw [show (dat16 V c).Φ 0 = Pipeline.ΦA spec16 c from rfl]; unfold Pipeline.ΦA
  iintro ⟨Hp, -, Hr⟩
  isplitl [Hr]; · iexact Hr
  iexact Hp

theorem hout16 (c : Dev nD) :
    (dat16 V c).Φ (Fin.last cfg16.N) ⊢ iprop((∃ r, prngReg c r) ∗ Pipeline.scopedRest spec16 c) := by
  rw [show (dat16 V c).Φ (Fin.last cfg16.N) = Phi16 V c (Fin.last cfg16.N).val (Nat.le_of_lt_succ (Fin.last cfg16.N).isLt) from rfl,
    Phi16_pos V c _ _ (by rw [Fin.val_last]; have : cfg16.N = 8 := N_16; omega), scopedRest16_split]
  simp only [scM16, owns_whole]
  iintro ⟨⟨HS, HB⟩, Hg⟩
  isplitl [Hg]; · iexact Hg
  isplitl [HS]; · iexists _; iexact HS
  iexact HB

end Region

end Cert.Kernel.Hand

end
-- ==== Proof.KB.Reg17.lean ====
import proofs.«402369_j86406152061536_3_alg».proof.Proof.Gen.Kernel.Launch
import proofs.«402369_j86406152061536_3_alg».proof.Proof.Gen.Kernel.Skeleton
import proofs.«402369_j86406152061536_3_alg».proof.Proof.Gen.Kernel.Points
import proofs.«402369_j86406152061536_3_alg».proof.Proof.KB.Reg11
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond17_0 (i : grid17.Coords) : Prop := (Scalar.cmpi .ne (Scalar.extui (Scalar.cmpi .eq (BitVec.ofNat 32 (i 0).val) 0#32)) 0#32) = 1#1
theorem hcond17_0 : ∀ t : Fin cfg17.N, cond17_0 (grid17.coords t) ↔ t.val = 0 :=
  (by decide +kernel : ∀ t : Fin grid17.N, cond17_0 (grid17.coords t) ↔ t.val = 0)

abbrev cond17_1 (i : grid17.Coords) : Prop := k17_cond2 i = 1#1
theorem hcond17_1 : ∀ t : Fin cfg17.N, cond17_1 (grid17.coords t) ↔ t.val = 7 :=
  (by decide +kernel : ∀ t : Fin grid17.N, cond17_1 (grid17.coords t) ↔ t.val = 7)

theorem idleAt17_3 : ∀ t : Fin cfg17.N, ¬cond17_1 (grid17.coords t) → cfg17.idle 3 (grid17.coords t) = true := by decide +kernel
theorem noFlush17_3 : ∀ t : Fin cfg17.N, ¬cond17_1 (grid17.coords t) → (cfg17.win 3).flush t = false := by decide +kernel

theorem liveAt17_3 : ∀ t : Fin cfg17.N, cond17_1 (grid17.coords t) → cfg17.idle 3 (grid17.coords t) = false := by decide +kernel

theorem sound_kernel17_A (c : Dev nD) (E : Set ℕ) (i : grid17.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : cond17_0 i) (hc1 : ¬cond17_1 i)
    (x0 : Vec F S2048x256 .f32) (x1 : Vec F S2048x256 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k17_pay2 x2 x1 x0 k17_pay1)) -∗ K ⟨⟩))
      ⊢ wp frame (wpE (defs₀ (F := F)) Variants.none c none) E (cc17__ce_kernel i arg1 harg1 arg2 harg2 arg3 harg3 arg4 harg4 arg5 harg5) K :=
  sound_kernel11_A c E i arg1 harg1 arg2 harg2 arg3 harg3 arg4 harg4 arg5 harg5 hc0 hc1 x0 x1 x2 K

theorem sound_kernel17_B (c : Dev nD) (E : Set ℕ) (i : grid17.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond17_0 i) (hc1 : ¬cond17_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg5 fullShare (k17_pay2 x2 x1 x0 xs)) -∗ K ⟨⟩))
      ⊢ wp frame (wpE (defs₀ (F := F)) Variants.none c none) E (cc17__ce_kernel i arg1 harg1 arg2 harg2 arg3 harg3 arg4 harg4 arg5 harg5) K :=
  sound_kernel11_B c E i arg1 harg1 arg2 harg2 arg3 harg3 arg4 harg4 arg5 harg5 hc0 hc1 x0 x1 x2 xs K

theorem sound_kernel17_C (c : Dev nD) (E : Set ℕ) (i : grid17.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond17_0 i) (hc1 : cond17_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k17_pay2 x2 x1 x0 xs) ∗ owns (c : Thread nD τ) arg4 fullShare (k17_pay3 (k17_pay2 x2 x1 x0 xs))) -∗ K ⟨⟩))
      ⊢ wp frame (wpE (defs₀ (F := F)) Variants.none c none) E (cc17__ce_kernel i arg1 harg1 arg2 harg2 arg3 harg3 arg4 harg4 arg5 harg5) K :=
  sound_kernel11_C c E i arg1 harg1 arg2 harg2 arg3 harg3 arg4 harg4 arg5 harg5 hc0 hc1 x0 x1 x2 xs K

section Region

variable (V : (c : Dev nD) → (b : Ref sig .tc) → Buf (Elt F) ((c : Thread nD τ).loc b))

def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)

theorem liveAt17_0 : ∀ t : Fin cfg17.N, cfg17.idle 0 (grid17.coords t) = false := fun _ => rfl
theorem liveAt17_1 : ∀ t : Fin cfg17.N, cfg17.idle 1 (grid17.coords t) = false := fun _ => rfl
theorem liveAt17_2 : ∀ t : Fin cfg17.N, cfg17.idle 2 (grid17.coords t) = false := fun _ => rfl

abbrev scM17 : Memref sig .tc .vmem S1x1 .f32 := Memref.whole cc17_scratch0

def acc17 (c : Dev nD) : (n : ℕ) → n < cfg17.N → Vec F S1x1 .f32
  | 0, h => k17_pay2 (iblk17 V c 2 ⟨0, h⟩) (iblk17 V c 1 ⟨0, h⟩) (iblk17 V c 0 ⟨0, h⟩) k17_pay1
  | n + 1, h => k17_pay2 (iblk17 V c 2 ⟨n + 1, h⟩) (iblk17 V c 1 ⟨n + 1, h⟩) (iblk17 V c 0 ⟨n + 1, h⟩) (acc17 c n (Nat.lt_of_succ_lt h))

theorem acc17_zero (c : Dev nD) (t : Fin cfg17.N) (h : t.val = 0) :
    acc17 V c t.val t.isLt = k17_pay2 (iblk17 V c 2 t) (iblk17 V c 1 t) (iblk17 V c 0 t) k17_pay1 := by
  obtain ⟨n, hn⟩ := t
  cases n with
  | zero => rfl
  | succ n => exact absurd h (Nat.succ_ne_zero n)

theorem acc17_pos (c : Dev nD) (t : Fin cfg17.N) (h : t.val ≠ 0) :
    acc17 V c t.val t.isLt = k17_pay2 (iblk17 V c 2 t) (iblk17 V c 1 t) (iblk17 V c 0 t)
      (acc17 V c (t.val - 1) (Nat.lt_of_le_of_lt (Nat.sub_le _ _) t.isLt)) := by
  obtain ⟨n, hn⟩ := t
  cases n with
  | zero => exact absurd rfl h
  | succ n => rfl

def Phi17 (c : Dev nD) : (n : ℕ) → n ≤ cfg17.N → sProp 𝕄
  | 0, _ => Pipeline.ΦA spec17 c
  | n + 1, hn => iprop((owns (c : Thread nD τ) scM17 fullShare (acc17 V c n hn) ∗ Pipeline.scopedRestBut (Ix := Unit) (Name := ℕ) (U := UR sig nD τ) (Lvl := ℕ) (Val := Elt F) spec17 c [cc17_scratch0]) ∗ (∃ r, prngReg c r))

theorem Phi17_zero (c : Dev nD) (n : ℕ) (h : n ≤ cfg17.N) (hz : n = 0) : Phi17 V c n h = Pipeline.ΦA spec17 c := by
  subst hz; rfl

theorem Phi17_succ (c : Dev nD) (n : ℕ) (hn : n < cfg17.N) :
    Phi17 V c (n + 1) hn = iprop((owns (c : Thread nD τ) scM17 fullShare (acc17 V c n hn) ∗ Pipeline.scopedRestBut (Ix := Unit) (Name := ℕ) (U := UR sig nD τ) (Lvl := ℕ) (Val := Elt F) spec17 c [cc17_scratch0]) ∗ (∃ r, prngReg c r)) := rfl

theorem Phi17_pos (c : Dev nD) (n : ℕ) (h : n ≤ cfg17.N) (hz : n ≠ 0) :
    Phi17 V c n h = iprop((owns (c : Thread nD τ) scM17 fullShare (acc17 V c (n - 1) (by omega)) ∗ Pipeline.scopedRestBut (Ix := Unit) (Name := ℕ) (U := UR sig nD τ) (Lvl := ℕ) (Val := Elt F) spec17 c [cc17_scratch0]) ∗ (∃ r, prngReg c r)) := by
  cases n with
  | zero => exact absurd rfl hz
  | succ n => rfl

theorem PhiA17_eq (c : Dev nD) :
    (Pipeline.ΦA spec17 c : sProp 𝕄)
      = iprop(((∃ d, owns (c : Thread nD τ) scM17 fullShare d) ∗ Pipeline.scopedRestBut (Ix := Unit) (Name := ℕ) (U := UR sig nD τ) (Lvl := ℕ) (Val := Elt F) spec17 c [cc17_scratch0]) ∗ (∃ r, prngReg c r)) := by
  unfold Pipeline.ΦA; rw [scopedRest17_split]; simp only [scM17, owns_whole]; try rfl

def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => k17_pay3 (acc17 V c t.val t.isLt)
  Φ t := Phi17 V c t.val (Nat.le_of_lt_succ t.isLt)
  q _ := fullShare
  owed _ := 0

theorem A_eq17 (c : Dev nD) (w : Fin cfg17.W) : (dat17 V c).A w = V c (Pipeline.arrRef spec17 w) := by
  dsimp only [dat17]
theorem q_eq17 (c : Dev nD) (w : Fin cfg17.W) : (dat17 V c).q w = fullShare := by dsimp only [dat17]
theorem owed_eq17 (c : Dev nD) (t : Fin (cfg17.N + 1)) : (dat17 V c).owed t = 0 := by dsimp only [dat17]

theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t = k17_pay3 (acc17 V c t.val t.isLt) := by dsimp only [dat17]

theorem Phi17_castSucc (c : Dev nD) (t : Fin cfg17.N) :
    (dat17 V c).Φ t.castSucc = Phi17 V c t.val (Nat.le_of_lt t.isLt) := by
  dsimp only [dat17]; simp only [Fin.coe_castSucc]

theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d

def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d)))

def bodyPost17 (c : Dev nD) (t : Fin cfg17.N) : sProp 𝕄 :=
  iprop((dat17 V c).Φ t.succ ∗ (dat17 V c).owesAt () t.succ
    ∗ (dat17 V c).leavesExact 0 t
    ∗ (dat17 V c).leavesExact 1 t
    ∗ (dat17 V c).leavesExact 2 t
    ∗ (dat17 V c).leavesExact 3 t)

set_option maxHeartbeats 4000000 in

theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2]
  rw [show (dat17 V c).owesAt () t.succ = (dat17 V c).owesAt () t.castSucc from rfl]
  rw [show (dat17 V c).Φ t.succ = Phi17 V c (t.val + 1) t.isLt from rfl, Phi17_succ]
  rw [show (dat17 V c).leavesExact 0 t = owns (c : Thread nD τ) (st17_0 t) fullShare ((dat17 V c).after 0 t) from by
    unfold Dat.leavesExact; rw [liveAt17_0 t], after17_0]
  rw [show (dat17 V c).leavesExact 1 t = owns (c : Thread nD τ) (st17_1 t) fullShare ((dat17 V c).after 1 t) from by
    unfold Dat.leavesExact; rw [liveAt17_1 t], after17_1]
  rw [show (dat17 V c).leavesExact 2 t = owns (c : Thread nD τ) (st17_2 t) fullShare ((dat17 V c).after 2 t) from by
    unfold Dat.leavesExact; rw [liveAt17_2 t], after17_2]
  have hN : t.val < 8 := lt_of_lt_of_eq t.isLt (show cfg17.N = 8 from N_17)
  by_cases h0 : t.val = 0
  · have hc0 : cond17_0 (grid17.coords t) := (hcond17_0 t).mpr h0
    have hc1 : ¬cond17_1 (grid17.coords t) := fun h => by have := (hcond17_1 t).mp h; omega
    rw [Dat.leavesExact_idle (dat17 V c) 3 t (idleAt17_3 t hc1) (noFlush17_3 t hc1)]
    rw [acc17_zero V c t h0]
    rw [Phi17_castSucc V c t, Phi17_zero V c _ _ h0, PhiA17_eq]
    iintro ⟨⟨⟨HS, HB⟩, Hg⟩, Ho, ⟨%d0, H0⟩, ⟨%d1, H1⟩, ⟨%d2, H2⟩, H3⟩
    iapply (sound_kernel17_A c Set.univ (grid17.coords t) _ _ _ _ _ _ _ _ _ _ hc0 hc1 (iblk17 V c 0 t) (iblk17 V c 1 t) (iblk17 V c 2 t) _)
    isplitl [H0]; · iexact H0
    isplitl [H1]; · iexact H1
    isplitl [H2]; · iexact H2
    isplitl [HS]; · iexact HS
    iintro ⟨H0, H1, H2, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    iexact H3
  · have hc0 : ¬cond17_0 (grid17.coords t) := fun h => h0 ((hcond17_0 t).mp h)
    rw [acc17_pos V c t h0]
    rw [Phi17_castSucc V c t, Phi17_pos V c _ _ h0]
    by_cases h7 : t.val = 7
    · have hc1 : cond17_1 (grid17.coords t) := (hcond17_1 t).mpr h7
      rw [show (dat17 V c).leavesExact 3 t = owns (c : Thread nD τ) (st17_3 t) fullShare ((dat17 V c).after 3 t) from by
        unfold Dat.leavesExact; rw [liveAt17_3 t hc1], after17_3, acc17_pos V c t h0]
      iintro ⟨⟨⟨HS, HB⟩, Hg⟩, Ho, ⟨%d0, H0⟩, ⟨%d1, H1⟩, ⟨%d2, H2⟩, ⟨%d3, H3⟩⟩
      iapply (sound_kernel17_C c Set.univ (grid17.coords t) _ _ _ _ _ _ _ _ _ _ hc0 hc1 (iblk17 V c 0 t) (iblk17 V c 1 t) (iblk17 V c 2 t) _ _)
      isplitl [H0]; · iexact H0
      isplitl [H1]; · iexact H1
      isplitl [H2]; · iexact H2
      isplitl [HS]; · iexact HS
      isplitl [H3]; · iexists _; iexact H3
      iintro ⟨H0, H1, H2, HS, H3⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3
    · have hc1 : ¬cond17_1 (grid17.coords t) := fun h => h7 ((hcond17_1 t).mp h)
      rw [Dat.leavesExact_idle (dat17 V c) 3 t (idleAt17_3 t hc1) (noFlush17_3 t hc1)]
      iintro ⟨⟨⟨HS, HB⟩, Hg⟩, Ho, ⟨%d0, H0⟩, ⟨%d1, H1⟩, ⟨%d2, H2⟩, H3⟩
      iapply (sound_kernel17_B c Set.univ (grid17.coords t) _ _ _ _ _ _ _ _ _ _ hc0 hc1 (iblk17 V c 0 t) (iblk17 V c 1 t) (iblk17 V c 2 t) _ _)
      isplitl [H0]; · iexact H0
      isplitl [H1]; · iexact H1
      isplitl [H2]; · iexact H2
      isplitl [HS]; · iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3

theorem body_obligation17 (c : Dev nD) : BodyObligation (dat17 (F := F) V c) (defs₀ (F := F)) Variants.none () Set.univ := fun t => by
  rw [bigSep_W17, bigSep_W17]
  exact sound_body17 V c t

theorem hin17 (c : Dev nD) (T : sProp 𝕄) :
    iprop((∃ r, prngReg c r) ∗ T ∗ Pipeline.scopedRest spec17 c) ⊢ (dat17 V c).Φ 0 := by
  rw [show (dat17 V c).Φ 0 = Pipeline.ΦA spec17 c from rfl]; unfold Pipeline.ΦA
  iintro ⟨Hp, -, Hr⟩
  isplitl [Hr]; · iexact Hr
  iexact Hp

theorem hout17 (c : Dev nD) :
    (dat17 V c).Φ (Fin.last cfg17.N) ⊢ iprop((∃ r, prngReg c r) ∗ Pipeline.scopedRest spec17 c) := by
  rw [show (dat17 V c).Φ (Fin.last cfg17.N) = Phi17 V c (Fin.last cfg17.N).val (Nat.le_of_lt_succ (Fin.last cfg17.N).isLt) from rfl,
    Phi17_pos V c _ _ (by rw [Fin.val_last]; have : cfg17.N = 8 := N_17; omega), scopedRest17_split]
  simp only [scM17, owns_whole]
  iintro ⟨⟨HS, HB⟩, Hg⟩
  isplitl [Hg]; · iexact Hg
  isplitl [HS]; · iexists _; iexact HS
  iexact HB

end Region

end Cert.Kernel.Hand

end
-- ==== Proof.KB.Reg18.lean ====
import proofs.«402369_j86406152061536_3_alg».proof.Proof.Gen.Kernel.Launch
import proofs.«402369_j86406152061536_3_alg».proof.Proof.Gen.Kernel.Skeleton
import proofs.«402369_j86406152061536_3_alg».proof.Proof.Gen.Kernel.Points
import proofs.«402369_j86406152061536_3_alg».proof.Proof.KB.Reg11
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond18_0 (i : grid18.Coords) : Prop := (Scalar.cmpi .ne (Scalar.extui (Scalar.cmpi .eq (BitVec.ofNat 32 (i 0).val) 0#32)) 0#32) = 1#1
theorem hcond18_0 : ∀ t : Fin cfg18.N, cond18_0 (grid18.coords t) ↔ t.val = 0 :=
  (by decide +kernel : ∀ t : Fin grid18.N, cond18_0 (grid18.coords t) ↔ t.val = 0)

abbrev cond18_1 (i : grid18.Coords) : Prop := k18_cond2 i = 1#1
theorem hcond18_1 : ∀ t : Fin cfg18.N, cond18_1 (grid18.coords t) ↔ t.val = 7 :=
  (by decide +kernel : ∀ t : Fin grid18.N, cond18_1 (grid18.coords t) ↔ t.val = 7)

theorem idleAt18_3 : ∀ t : Fin cfg18.N, ¬cond18_1 (grid18.coords t) → cfg18.idle 3 (grid18.coords t) = true := by decide +kernel
theorem noFlush18_3 : ∀ t : Fin cfg18.N, ¬cond18_1 (grid18.coords t) → (cfg18.win 3).flush t = false := by decide +kernel

theorem liveAt18_3 : ∀ t : Fin cfg18.N, cond18_1 (grid18.coords t) → cfg18.idle 3 (grid18.coords t) = false := by decide +kernel

theorem sound_kernel18_A (c : Dev nD) (E : Set ℕ) (i : grid18.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : cond18_0 i) (hc1 : ¬cond18_1 i)
    (x0 : Vec F S2048x256 .f32) (x1 : Vec F S2048x256 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k18_pay2 x2 x1 x0 k18_pay1)) -∗ K ⟨⟩))
      ⊢ wp frame (wpE (defs₀ (F := F)) Variants.none c none) E (cc18__ce_kernel i arg1 harg1 arg2 harg2 arg3 harg3 arg4 harg4 arg5 harg5) K :=
  sound_kernel11_A c E i arg1 harg1 arg2 harg2 arg3 harg3 arg4 harg4 arg5 harg5 hc0 hc1 x0 x1 x2 K

theorem sound_kernel18_B (c : Dev nD) (E : Set ℕ) (i : grid18.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond18_0 i) (hc1 : ¬cond18_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg5 fullShare (k18_pay2 x2 x1 x0 xs)) -∗ K ⟨⟩))
      ⊢ wp frame (wpE (defs₀ (F := F)) Variants.none c none) E (cc18__ce_kernel i arg1 harg1 arg2 harg2 arg3 harg3 arg4 harg4 arg5 harg5) K :=
  sound_kernel11_B c E i arg1 harg1 arg2 harg2 arg3 harg3 arg4 harg4 arg5 harg5 hc0 hc1 x0 x1 x2 xs K

theorem sound_kernel18_C (c : Dev nD) (E : Set ℕ) (i : grid18.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond18_0 i) (hc1 : cond18_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k18_pay2 x2 x1 x0 xs) ∗ owns (c : Thread nD τ) arg4 fullShare (k18_pay3 (k18_pay2 x2 x1 x0 xs))) -∗ K ⟨⟩))
      ⊢ wp frame (wpE (defs₀ (F := F)) Variants.none c none) E (cc18__ce_kernel i arg1 harg1 arg2 harg2 arg3 harg3 arg4 harg4 arg5 harg5) K :=
  sound_kernel11_C c E i arg1 harg1 arg2 harg2 arg3 harg3 arg4 harg4 arg5 harg5 hc0 hc1 x0 x1 x2 xs K

section Region

variable (V : (c : Dev nD) → (b : Ref sig .tc) → Buf (Elt F) ((c : Thread nD τ).loc b))

def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)

theorem liveAt18_0 : ∀ t : Fin cfg18.N, cfg18.idle 0 (grid18.coords t) = false := fun _ => rfl
theorem liveAt18_1 : ∀ t : Fin cfg18.N, cfg18.idle 1 (grid18.coords t) = false := fun _ => rfl
theorem liveAt18_2 : ∀ t : Fin cfg18.N, cfg18.idle 2 (grid18.coords t) = false := fun _ => rfl

abbrev scM18 : Memref sig .tc .vmem S1x1 .f32 := Memref.whole cc18_scratch0

def acc18 (c : Dev nD) : (n : ℕ) → n < cfg18.N → Vec F S1x1 .f32
  | 0, h => k18_pay2 (iblk18 V c 2 ⟨0, h⟩) (iblk18 V c 1 ⟨0, h⟩) (iblk18 V c 0 ⟨0, h⟩) k18_pay1
  | n + 1, h => k18_pay2 (iblk18 V c 2 ⟨n + 1, h⟩) (iblk18 V c 1 ⟨n + 1, h⟩) (iblk18 V c 0 ⟨n + 1, h⟩) (acc18 c n (Nat.lt_of_succ_lt h))

theorem acc18_zero (c : Dev nD) (t : Fin cfg18.N) (h : t.val = 0) :
    acc18 V c t.val t.isLt = k18_pay2 (iblk18 V c 2 t) (iblk18 V c 1 t) (iblk18 V c 0 t) k18_pay1 := by
  obtain ⟨n, hn⟩ := t
  cases n with
  | zero => rfl
  | succ n => exact absurd h (Nat.succ_ne_zero n)

theorem acc18_pos (c : Dev nD) (t : Fin cfg18.N) (h : t.val ≠ 0) :
    acc18 V c t.val t.isLt = k18_pay2 (iblk18 V c 2 t) (iblk18 V c 1 t) (iblk18 V c 0 t)
      (acc18 V c (t.val - 1) (Nat.lt_of_le_of_lt (Nat.sub_le _ _) t.isLt)) := by
  obtain ⟨n, hn⟩ := t
  cases n with
  | zero => exact absurd rfl h
  | succ n => rfl

def Phi18 (c : Dev nD) : (n : ℕ) → n ≤ cfg18.N → sProp 𝕄
  | 0, _ => Pipeline.ΦA spec18 c
  | n + 1, hn => iprop((owns (c : Thread nD τ) scM18 fullShare (acc18 V c n hn) ∗ Pipeline.scopedRestBut (Ix := Unit) (Name := ℕ) (U := UR sig nD τ) (Lvl := ℕ) (Val := Elt F) spec18 c [cc18_scratch0]) ∗ (∃ r, prngReg c r))

theorem Phi18_zero (c : Dev nD) (n : ℕ) (h : n ≤ cfg18.N) (hz : n = 0) : Phi18 V c n h = Pipeline.ΦA spec18 c := by
  subst hz; rfl

theorem Phi18_succ (c : Dev nD) (n : ℕ) (hn : n < cfg18.N) :
    Phi18 V c (n + 1) hn = iprop((owns (c : Thread nD τ) scM18 fullShare (acc18 V c n hn) ∗ Pipeline.scopedRestBut (Ix := Unit) (Name := ℕ) (U := UR sig nD τ) (Lvl := ℕ) (Val := Elt F) spec18 c [cc18_scratch0]) ∗ (∃ r, prngReg c r)) := rfl

theorem Phi18_pos (c : Dev nD) (n : ℕ) (h : n ≤ cfg18.N) (hz : n ≠ 0) :
    Phi18 V c n h = iprop((owns (c : Thread nD τ) scM18 fullShare (acc18 V c (n - 1) (by omega)) ∗ Pipeline.scopedRestBut (Ix := Unit) (Name := ℕ) (U := UR sig nD τ) (Lvl := ℕ) (Val := Elt F) spec18 c [cc18_scratch0]) ∗ (∃ r, prngReg c r)) := by
  cases n with
  | zero => exact absurd rfl hz
  | succ n => rfl

theorem PhiA18_eq (c : Dev nD) :
    (Pipeline.ΦA spec18 c : sProp 𝕄)
      = iprop(((∃ d, owns (c : Thread nD τ) scM18 fullShare d) ∗ Pipeline.scopedRestBut (Ix := Unit) (Name := ℕ) (U := UR sig nD τ) (Lvl := ℕ) (Val := Elt F) spec18 c [cc18_scratch0]) ∗ (∃ r, prngReg c r)) := by
  unfold Pipeline.ΦA; rw [scopedRest18_split]; simp only [scM18, owns_whole]; try rfl

def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => k18_pay3 (acc18 V c t.val t.isLt)
  Φ t := Phi18 V c t.val (Nat.le_of_lt_succ t.isLt)
  q _ := fullShare
  owed _ := 0

theorem A_eq18 (c : Dev nD) (w : Fin cfg18.W) : (dat18 V c).A w = V c (Pipeline.arrRef spec18 w) := by
  dsimp only [dat18]
theorem q_eq18 (c : Dev nD) (w : Fin cfg18.W) : (dat18 V c).q w = fullShare := by dsimp only [dat18]
theorem owed_eq18 (c : Dev nD) (t : Fin (cfg18.N + 1)) : (dat18 V c).owed t = 0 := by dsimp only [dat18]

theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) : (dat18 V c).after 3 t = k18_pay3 (acc18 V c t.val t.isLt) := by dsimp only [dat18]

theorem Phi18_castSucc (c : Dev nD) (t : Fin cfg18.N) :
    (dat18 V c).Φ t.castSucc = Phi18 V c t.val (Nat.le_of_lt t.isLt) := by
  dsimp only [dat18]; simp only [Fin.coe_castSucc]

theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d

def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d))
    ∗ (∃ d, owns (c : Thread nD τ) (st18_3 t) fullShare ((dat18 V c).before 3 t d)))

def bodyPost18 (c : Dev nD) (t : Fin cfg18.N) : sProp 𝕄 :=
  iprop((dat18 V c).Φ t.succ ∗ (dat18 V c).owesAt () t.succ
    ∗ (dat18 V c).leavesExact 0 t
    ∗ (dat18 V c).leavesExact 1 t
    ∗ (dat18 V c).leavesExact 2 t
    ∗ (dat18 V c).leavesExact 3 t)

set_option maxHeartbeats 4000000 in

theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1, before18_2]
  rw [show (dat18 V c).owesAt () t.succ = (dat18 V c).owesAt () t.castSucc from rfl]
  rw [show (dat18 V c).Φ t.succ = Phi18 V c (t.val + 1) t.isLt from rfl, Phi18_succ]
  rw [show (dat18 V c).leavesExact 0 t = owns (c : Thread nD τ) (st18_0 t) fullShare ((dat18 V c).after 0 t) from by
    unfold Dat.leavesExact; rw [liveAt18_0 t], after18_0]
  rw [show (dat18 V c).leavesExact 1 t = owns (c : Thread nD τ) (st18_1 t) fullShare ((dat18 V c).after 1 t) from by
    unfold Dat.leavesExact; rw [liveAt18_1 t], after18_1]
  rw [show (dat18 V c).leavesExact 2 t = owns (c : Thread nD τ) (st18_2 t) fullShare ((dat18 V c).after 2 t) from by
    unfold Dat.leavesExact; rw [liveAt18_2 t], after18_2]
  have hN : t.val < 8 := lt_of_lt_of_eq t.isLt (show cfg18.N = 8 from N_18)
  by_cases h0 : t.val = 0
  · have hc0 : cond18_0 (grid18.coords t) := (hcond18_0 t).mpr h0
    have hc1 : ¬cond18_1 (grid18.coords t) := fun h => by have := (hcond18_1 t).mp h; omega
    rw [Dat.leavesExact_idle (dat18 V c) 3 t (idleAt18_3 t hc1) (noFlush18_3 t hc1)]
    rw [acc18_zero V c t h0]
    rw [Phi18_castSucc V c t, Phi18_zero V c _ _ h0, PhiA18_eq]
    iintro ⟨⟨⟨HS, HB⟩, Hg⟩, Ho, ⟨%d0, H0⟩, ⟨%d1, H1⟩, ⟨%d2, H2⟩, H3⟩
    iapply (sound_kernel18_A c Set.univ (grid18.coords t) _ _ _ _ _ _ _ _ _ _ hc0 hc1 (iblk18 V c 0 t) (iblk18 V c 1 t) (iblk18 V c 2 t) _)
    isplitl [H0]; · iexact H0
    isplitl [H1]; · iexact H1
    isplitl [H2]; · iexact H2
    isplitl [HS]; · iexact HS
    iintro ⟨H0, H1, H2, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    iexact H3
  · have hc0 : ¬cond18_0 (grid18.coords t) := fun h => h0 ((hcond18_0 t).mp h)
    rw [acc18_pos V c t h0]
    rw [Phi18_castSucc V c t, Phi18_pos V c _ _ h0]
    by_cases h7 : t.val = 7
    · have hc1 : cond18_1 (grid18.coords t) := (hcond18_1 t).mpr h7
      rw [show (dat18 V c).leavesExact 3 t = owns (c : Thread nD τ) (st18_3 t) fullShare ((dat18 V c).after 3 t) from by
        unfold Dat.leavesExact; rw [liveAt18_3 t hc1], after18_3, acc18_pos V c t h0]
      iintro ⟨⟨⟨HS, HB⟩, Hg⟩, Ho, ⟨%d0, H0⟩, ⟨%d1, H1⟩, ⟨%d2, H2⟩, ⟨%d3, H3⟩⟩
      iapply (sound_kernel18_C c Set.univ (grid18.coords t) _ _ _ _ _ _ _ _ _ _ hc0 hc1 (iblk18 V c 0 t) (iblk18 V c 1 t) (iblk18 V c 2 t) _ _)
      isplitl [H0]; · iexact H0
      isplitl [H1]; · iexact H1
      isplitl [H2]; · iexact H2
      isplitl [HS]; · iexact HS
      isplitl [H3]; · iexists _; iexact H3
      iintro ⟨H0, H1, H2, HS, H3⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3
    · have hc1 : ¬cond18_1 (grid18.coords t) := fun h => h7 ((hcond18_1 t).mp h)
      rw [Dat.leavesExact_idle (dat18 V c) 3 t (idleAt18_3 t hc1) (noFlush18_3 t hc1)]
      iintro ⟨⟨⟨HS, HB⟩, Hg⟩, Ho, ⟨%d0, H0⟩, ⟨%d1, H1⟩, ⟨%d2, H2⟩, H3⟩
      iapply (sound_kernel18_B c Set.univ (grid18.coords t) _ _ _ _ _ _ _ _ _ _ hc0 hc1 (iblk18 V c 0 t) (iblk18 V c 1 t) (iblk18 V c 2 t) _ _)
      isplitl [H0]; · iexact H0
      isplitl [H1]; · iexact H1
      isplitl [H2]; · iexact H2
      isplitl [HS]; · iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3

theorem body_obligation18 (c : Dev nD) : BodyObligation (dat18 (F := F) V c) (defs₀ (F := F)) Variants.none () Set.univ := fun t => by
  rw [bigSep_W18, bigSep_W18]
  exact sound_body18 V c t

theorem hin18 (c : Dev nD) (T : sProp 𝕄) :
    iprop((∃ r, prngReg c r) ∗ T ∗ Pipeline.scopedRest spec18 c) ⊢ (dat18 V c).Φ 0 := by
  rw [show (dat18 V c).Φ 0 = Pipeline.ΦA spec18 c from rfl]; unfold Pipeline.ΦA
  iintro ⟨Hp, -, Hr⟩
  isplitl [Hr]; · iexact Hr
  iexact Hp

theorem hout18 (c : Dev nD) :
    (dat18 V c).Φ (Fin.last cfg18.N) ⊢ iprop((∃ r, prngReg c r) ∗ Pipeline.scopedRest spec18 c) := by
  rw [show (dat18 V c).Φ (Fin.last cfg18.N) = Phi18 V c (Fin.last cfg18.N).val (Nat.le_of_lt_succ (Fin.last cfg18.N).isLt) from rfl,
    Phi18_pos V c _ _ (by rw [Fin.val_last]; have : cfg18.N = 8 := N_18; omega), scopedRest18_split]
  simp only [scM18, owns_whole]
  iintro ⟨⟨HS, HB⟩, Hg⟩
  isplitl [Hg]; · iexact Hg
  isplitl [HS]; · iexists _; iexact HS
  iexact HB

end Region

end Cert.Kernel.Hand

end
-- ==== Proof.KB.Chain.lean ====
import proofs.«402369_j86406152061536_3_alg».proof.Proof.KB.Reg0
import proofs.«402369_j86406152061536_3_alg».proof.Proof.KB.Reg1
import proofs.«402369_j86406152061536_3_alg».proof.Proof.KB.Reg2
import proofs.«402369_j86406152061536_3_alg».proof.Proof.KB.Reg3
import proofs.«402369_j86406152061536_3_alg».proof.Proof.KB.Reg4
import proofs.«402369_j86406152061536_3_alg».proof.Proof.KB.Reg5
import proofs.«402369_j86406152061536_3_alg».proof.Proof.KB.Reg6
import proofs.«402369_j86406152061536_3_alg».proof.Proof.KB.Reg7
import proofs.«402369_j86406152061536_3_alg».proof.Proof.KB.Reg8
import proofs.«402369_j86406152061536_3_alg».proof.Proof.KB.Reg9
import proofs.«402369_j86406152061536_3_alg».proof.Proof.KB.Reg10
import proofs.«402369_j86406152061536_3_alg».proof.Proof.KB.Reg11
import proofs.«402369_j86406152061536_3_alg».proof.Proof.KB.Reg12
import proofs.«402369_j86406152061536_3_alg».proof.Proof.KB.Reg13
import proofs.«402369_j86406152061536_3_alg».proof.Proof.KB.Reg14
import proofs.«402369_j86406152061536_3_alg».proof.Proof.KB.Reg15
import proofs.«402369_j86406152061536_3_alg».proof.Proof.KB.Reg16
import proofs.«402369_j86406152061536_3_alg».proof.Proof.KB.Reg17
import proofs.«402369_j86406152061536_3_alg».proof.Proof.KB.Reg18
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (a0 : (pcfg0 (F := F)).Adm)

abbrev W0 : Dev nD → Valuation τ sig (Elt F) := fun c b => m (c, b)

abbrev W1 : Dev nD → Valuation τ sig (Elt F) := fun c => StableHlo.after hostOps0 (W0 m c)

abbrev W2 : Dev nD → Valuation τ sig (Elt F) := fun c => StableHlo.after hostOps0_1 (W1 m c)

abbrev W3 : Dev nD → Valuation τ sig (Elt F) := fun c => StableHlo.after hostOps0_2 (W2 m c)

abbrev Vr3 : (c : Dev nD) → (b : Ref sig .tc) → Buf (Elt F) ((c : Thread nD τ).loc b) := fun c b => W3 m c b

def W4 (c : Dev nD) : Valuation τ sig (Elt F) :=
  Pipeline.withArrays spec0 c (W3 m c) fun w => (dat0 a0 (Vr3 m) c).arrAt w (cfg0 a0).N
theorem W4_arr (c : Dev nD) (w : Fin 8) :
    W4 m a0 c (Proc.devRef .tc (Pipeline.arrRef spec0 w)) = (dat0 a0 (Vr3 m) c).arrAt w (cfg0 a0).N := by
  unfold W4; exact Pipeline.withArrays_arr spec0 winFacts0.arr_inj c _ _ w
theorem W4_of_ne (c : Dev nD) (b : Ref sig .tc) (hb : ∀ w, Pipeline.arrRef spec0 w ≠ b) :
    W4 m a0 c (Proc.devRef .tc b) = W3 m c (Proc.devRef .tc b) := by
  unfold W4; exact Pipeline.withArrays_of_ne spec0 c _ _ b hb
abbrev Vx4 : (c : Dev nD) → (b : Ref sig .tc) → Buf (Elt F) ((c : Thread nD τ).loc b) := fun c b => W4 m a0 c b
theorem hF0 (c : Dev nD) (w : Fin 8) : (dat0 a0 (Vr3 m) c).arrAt w (cfg0 a0).N = Vx4 m a0 c (Pipeline.arrRef spec0 w) :=
  (W4_arr m a0 c w).symm
theorem hrest0 (c : Dev nD) : ∀ b, b ∉ Finset.univ.image (Pipeline.arrRef spec0) → Vx4 m a0 c b = Vr3 m c b :=
  fun b hb => W4_of_ne m a0 c b fun w e => hb (Finset.mem_image.mpr ⟨w, Finset.mem_univ _, e⟩)

abbrev W5 : Dev nD → Valuation τ sig (Elt F) := fun c => StableHlo.after hostOps1 (W4 m a0 c)

abbrev Vr5 : (c : Dev nD) → (b : Ref sig .tc) → Buf (Elt F) ((c : Thread nD τ).loc b) := fun c b => W5 m a0 c b

def W6 (c : Dev nD) : Valuation τ sig (Elt F) :=
  Pipeline.withArrays spec1 c (W5 m a0 c) fun w => (dat1 (Vr5 m a0) c).arrAt w cfg1.N
theorem W6_arr (c : Dev nD) (w : Fin 3) :
    W6 m a0 c (Proc.devRef .tc (Pipeline.arrRef spec1 w)) = (dat1 (Vr5 m a0) c).arrAt w cfg1.N := by
  unfold W6; exact Pipeline.withArrays_arr spec1 winFacts1.arr_inj c _ _ w
theorem W6_of_ne (c : Dev nD) (b : Ref sig .tc) (hb : ∀ w, Pipeline.arrRef spec1 w ≠ b) :
    W6 m a0 c (Proc.devRef .tc b) = W5 m a0 c (Proc.devRef .tc b) := by
  unfold W6; exact Pipeline.withArrays_of_ne spec1 c _ _ b hb
abbrev Vx6 : (c : Dev nD) → (b : Ref sig .tc) → Buf (Elt F) ((c : Thread nD τ).loc b) := fun c b => W6 m a0 c b
theorem hF1 (c : Dev nD) (w : Fin 3) : (dat1 (Vr5 m a0) c).arrAt w cfg1.N = Vx6 m a0 c (Pipeline.arrRef spec1 w) :=
  (W6_arr m a0 c w).symm
theorem hrest1 (c : Dev nD) : ∀ b, b ∉ Finset.univ.image (Pipeline.arrRef spec1) → Vx6 m a0 c b = Vr5 m a0 c b :=
  fun b hb => W6_of_ne m a0 c b fun w e => hb (Finset.mem_image.mpr ⟨w, Finset.mem_univ _, e⟩)

abbrev Vr6 : (c : Dev nD) → (b : Ref sig .tc) → Buf (Elt F) ((c : Thread nD τ).loc b) := fun c b => W6 m a0 c b

def W7 (c : Dev nD) : Valuation τ sig (Elt F) :=
  Pipeline.withArrays spec2 c (W6 m a0 c) fun w => (dat2 (Vr6 m a0) c).arrAt w cfg2.N
theorem W7_arr (c : Dev nD) (w : Fin 3) :
    W7 m a0 c (Proc.devRef .tc (Pipeline.arrRef spec2 w)) = (dat2 (Vr6 m a0) c).arrAt w cfg2.N := by
  unfold W7; exact Pipeline.withArrays_arr spec2 winFacts2.arr_inj c _ _ w
theorem W7_of_ne (c : Dev nD) (b : Ref sig .tc) (hb : ∀ w, Pipeline.arrRef spec2 w ≠ b) :
    W7 m a0 c (Proc.devRef .tc b) = W6 m a0 c (Proc.devRef .tc b) := by
  unfold W7; exact Pipeline.withArrays_of_ne spec2 c _ _ b hb
abbrev Vx7 : (c : Dev nD) → (b : Ref sig .tc) → Buf (Elt F) ((c : Thread nD τ).loc b) := fun c b => W7 m a0 c b
theorem hF2 (c : Dev nD) (w : Fin 3) : (dat2 (Vr6 m a0) c).arrAt w cfg2.N = Vx7 m a0 c (Pipeline.arrRef spec2 w) :=
  (W7_arr m a0 c w).symm
theorem hrest2 (c : Dev nD) : ∀ b, b ∉ Finset.univ.image (Pipeline.arrRef spec2) → Vx7 m a0 c b = Vr6 m a0 c b :=
  fun b hb => W7_of_ne m a0 c b fun w e => hb (Finset.mem_image.mpr ⟨w, Finset.mem_univ _, e⟩)

abbrev Vr7 : (c : Dev nD) → (b : Ref sig .tc) → Buf (Elt F) ((c : Thread nD τ).loc b) := fun c b => W7 m a0 c b

def W8 (c : Dev nD) : Valuation τ sig (Elt F) :=
  Pipeline.withArrays spec3 c (W7 m a0 c) fun w => (dat3 (Vr7 m a0) c).arrAt w cfg3.N
theorem W8_arr (c : Dev nD) (w : Fin 3) :
    W8 m a0 c (Proc.devRef .tc (Pipeline.arrRef spec3 w)) = (dat3 (Vr7 m a0) c).arrAt w cfg3.N := by
  unfold W8; exact Pipeline.withArrays_arr spec3 winFacts3.arr_inj c _ _ w
theorem W8_of_ne (c : Dev nD) (b : Ref sig .tc) (hb : ∀ w, Pipeline.arrRef spec3 w ≠ b) :
    W8 m a0 c (Proc.devRef .tc b) = W7 m a0 c (Proc.devRef .tc b) := by
  unfold W8; exact Pipeline.withArrays_of_ne spec3 c _ _ b hb
abbrev Vx8 : (c : Dev nD) → (b : Ref sig .tc) → Buf (Elt F) ((c : Thread nD τ).loc b) := fun c b => W8 m a0 c b
theorem hF3 (c : Dev nD) (w : Fin 3) : (dat3 (Vr7 m a0) c).arrAt w cfg3.N = Vx8 m a0 c (Pipeline.arrRef spec3 w) :=
  (W8_arr m a0 c w).symm
theorem hrest3 (c : Dev nD) : ∀ b, b ∉ Finset.univ.image (Pipeline.arrRef spec3) → Vx8 m a0 c b = Vr7 m a0 c b :=
  fun b hb => W8_of_ne m a0 c b fun w e => hb (Finset.mem_image.mpr ⟨w, Finset.mem_univ _, e⟩)

abbrev Vr8 : (c : Dev nD) → (b : Ref sig .tc) → Buf (Elt F) ((c : Thread nD τ).loc b) := fun c b => W8 m a0 c b

def W9 (c : Dev nD) : Valuation τ sig (Elt F) :=
  Pipeline.withArrays spec4 c (W8 m a0 c) fun w => (dat4 (Vr8 m a0) c).arrAt w cfg4.N
theorem W9_arr (c : Dev nD) (w : Fin 3) :
    W9 m a0 c (Proc.devRef .tc (Pipeline.arrRef spec4 w)) = (dat4 (Vr8 m a0) c).arrAt w cfg4.N := by
  unfold W9; exact Pipeline.withArrays_arr spec4 winFacts4.arr_inj c _ _ w
theorem W9_of_ne (c : Dev nD) (b : Ref sig .tc) (hb : ∀ w, Pipeline.arrRef spec4 w ≠ b) :
    W9 m a0 c (Proc.devRef .tc b) = W8 m a0 c (Proc.devRef .tc b) := by
  unfold W9; exact Pipeline.withArrays_of_ne spec4 c _ _ b hb
abbrev Vx9 : (c : Dev nD) → (b : Ref sig .tc) → Buf (Elt F) ((c : Thread nD τ).loc b) := fun c b => W9 m a0 c b
theorem hF4 (c : Dev nD) (w : Fin 3) : (dat4 (Vr8 m a0) c).arrAt w cfg4.N = Vx9 m a0 c (Pipeline.arrRef spec4 w) :=
  (W9_arr m a0 c w).symm
theorem hrest4 (c : Dev nD) : ∀ b, b ∉ Finset.univ.image (Pipeline.arrRef spec4) → Vx9 m a0 c b = Vr8 m a0 c b :=
  fun b hb => W9_of_ne m a0 c b fun w e => hb (Finset.mem_image.mpr ⟨w, Finset.mem_univ _, e⟩)

abbrev Vr9 : (c : Dev nD) → (b : Ref sig .tc) → Buf (Elt F) ((c : Thread nD τ).loc b) := fun c b => W9 m a0 c b

def W10 (c : Dev nD) : Valuation τ sig (Elt F) :=
  Pipeline.withArrays spec5 c (W9 m a0 c) fun w => (dat5 (Vr9 m a0) c).arrAt w cfg5.N
theorem W10_arr (c : Dev nD) (w : Fin 3) :
    W10 m a0 c (Proc.devRef .tc (Pipeline.arrRef spec5 w)) = (dat5 (Vr9 m a0) c).arrAt w cfg5.N := by
  unfold W10; exact Pipeline.withArrays_arr spec5 winFacts5.arr_inj c _ _ w
theorem W10_of_ne (c : Dev nD) (b : Ref sig .tc) (hb : ∀ w, Pipeline.arrRef spec5 w ≠ b) :
    W10 m a0 c (Proc.devRef .tc b) = W9 m a0 c (Proc.devRef .tc b) := by
  unfold W10; exact Pipeline.withArrays_of_ne spec5 c _ _ b hb
abbrev Vx10 : (c : Dev nD) → (b : Ref sig .tc) → Buf (Elt F) ((c : Thread nD τ).loc b) := fun c b => W10 m a0 c b
theorem hF5 (c : Dev nD) (w : Fin 3) : (dat5 (Vr9 m a0) c).arrAt w cfg5.N = Vx10 m a0 c (Pipeline.arrRef spec5 w) :=
  (W10_arr m a0 c w).symm
theorem hrest5 (c : Dev nD) : ∀ b, b ∉ Finset.univ.image (Pipeline.arrRef spec5) → Vx10 m a0 c b = Vr9 m a0 c b :=
  fun b hb => W10_of_ne m a0 c b fun w e => hb (Finset.mem_image.mpr ⟨w, Finset.mem_univ _, e⟩)

abbrev Vr10 : (c : Dev nD) → (b : Ref sig .tc) → Buf (Elt F) ((c : Thread nD τ).loc b) := fun c b => W10 m a0 c b

def W11 (c : Dev nD) : Valuation τ sig (Elt F) :=
  Pipeline.withArrays spec6 c (W10 m a0 c) fun w => (dat6 (Vr10 m a0) c).arrAt w cfg6.N
theorem W11_arr (c : Dev nD) (w : Fin 2) :
    W11 m a0 c (Proc.devRef .tc (Pipeline.arrRef spec6 w)) = (dat6 (Vr10 m a0) c).arrAt w cfg6.N := by
  unfold W11; exact Pipeline.withArrays_arr spec6 winFacts6.arr_inj c _ _ w
theorem W11_of_ne (c : Dev nD) (b : Ref sig .tc) (hb : ∀ w, Pipeline.arrRef spec6 w ≠ b) :
    W11 m a0 c (Proc.devRef .tc b) = W10 m a0 c (Proc.devRef .tc b) := by
  unfold W11; exact Pipeline.withArrays_of_ne spec6 c _ _ b hb
abbrev Vx11 : (c : Dev nD) → (b : Ref sig .tc) → Buf (Elt F) ((c : Thread nD τ).loc b) := fun c b => W11 m a0 c b
theorem hF6 (c : Dev nD) (w : Fin 2) : (dat6 (Vr10 m a0) c).arrAt w cfg6.N = Vx11 m a0 c (Pipeline.arrRef spec6 w) :=
  (W11_arr m a0 c w).symm
theorem hrest6 (c : Dev nD) : ∀ b, b ∉ Finset.univ.image (Pipeline.arrRef spec6) → Vx11 m a0 c b = Vr10 m a0 c b :=
  fun b hb => W11_of_ne m a0 c b fun w e => hb (Finset.mem_image.mpr ⟨w, Finset.mem_univ _, e⟩)

abbrev Vr11 : (c : Dev nD) → (b : Ref sig .tc) → Buf (Elt F) ((c : Thread nD τ).loc b) := fun c b => W11 m a0 c b

def W12 (c : Dev nD) : Valuation τ sig (Elt F) :=
  Pipeline.withArrays spec7 c (W11 m a0 c) fun w => (dat7 (Vr11 m a0) c).arrAt w cfg7.N
theorem W12_arr (c : Dev nD) (w : Fin 2) :
    W12 m a0 c (Proc.devRef .tc (Pipeline.arrRef spec7 w)) = (dat7 (Vr11 m a0) c).arrAt w cfg7.N := by
  unfold W12; exact Pipeline.withArrays_arr spec7 winFacts7.arr_inj c _ _ w
theorem W12_of_ne (c : Dev nD) (b : Ref sig .tc) (hb : ∀ w, Pipeline.arrRef spec7 w ≠ b) :
    W12 m a0 c (Proc.devRef .tc b) = W11 m a0 c (Proc.devRef .tc b) := by
  unfold W12; exact Pipeline.withArrays_of_ne spec7 c _ _ b hb
abbrev Vx12 : (c : Dev nD) → (b : Ref sig .tc) → Buf (Elt F) ((c : Thread nD τ).loc b) := fun c b => W12 m a0 c b
theorem hF7 (c : Dev nD) (w : Fin 2) : (dat7 (Vr11 m a0) c).arrAt w cfg7.N = Vx12 m a0 c (Pipeline.arrRef spec7 w) :=
  (W12_arr m a0 c w).symm
theorem hrest7 (c : Dev nD) : ∀ b, b ∉ Finset.univ.image (Pipeline.arrRef spec7) → Vx12 m a0 c b = Vr11 m a0 c b :=
  fun b hb => W12_of_ne m a0 c b fun w e => hb (Finset.mem_image.mpr ⟨w, Finset.mem_univ _, e⟩)

abbrev Vr12 : (c : Dev nD) → (b : Ref sig .tc) → Buf (Elt F) ((c : Thread nD τ).loc b) := fun c b => W12 m a0 c b

def W13 (c : Dev nD) : Valuation τ sig (Elt F) :=
  Pipeline.withArrays spec8 c (W12 m a0 c) fun w => (dat8 (Vr12 m a0) c).arrAt w cfg8.N
theorem W13_arr (c : Dev nD) (w : Fin 2) :
    W13 m a0 c (Proc.devRef .tc (Pipeline.arrRef spec8 w)) = (dat8 (Vr12 m a0) c).arrAt w cfg8.N := by
  unfold W13; exact Pipeline.withArrays_arr spec8 winFacts8.arr_inj c _ _ w
theorem W13_of_ne (c : Dev nD) (b : Ref sig .tc) (hb : ∀ w, Pipeline.arrRef spec8 w ≠ b) :
    W13 m a0 c (Proc.devRef .tc b) = W12 m a0 c (Proc.devRef .tc b) := by
  unfold W13; exact Pipeline.withArrays_of_ne spec8 c _ _ b hb
abbrev Vx13 : (c : Dev nD) → (b : Ref sig .tc) → Buf (Elt F) ((c : Thread nD τ).loc b) := fun c b => W13 m a0 c b
theorem hF8 (c : Dev nD) (w : Fin 2) : (dat8 (Vr12 m a0) c).arrAt w cfg8.N = Vx13 m a0 c (Pipeline.arrRef spec8 w) :=
  (W13_arr m a0 c w).symm
theorem hrest8 (c : Dev nD) : ∀ b, b ∉ Finset.univ.image (Pipeline.arrRef spec8) → Vx13 m a0 c b = Vr12 m a0 c b :=
  fun b hb => W13_of_ne m a0 c b fun w e => hb (Finset.mem_image.mpr ⟨w, Finset.mem_univ _, e⟩)

abbrev Vr13 : (c : Dev nD) → (b : Ref sig .tc) → Buf (Elt F) ((c : Thread nD τ).loc b) := fun c b => W13 m a0 c b

def W14 (c : Dev nD) : Valuation τ sig (Elt F) :=
  Pipeline.withArrays spec9 c (W13 m a0 c) fun w => (dat9 (Vr13 m a0) c).arrAt w cfg9.N
theorem W14_arr (c : Dev nD) (w : Fin 2) :
    W14 m a0 c (Proc.devRef .tc (Pipeline.arrRef spec9 w)) = (dat9 (Vr13 m a0) c).arrAt w cfg9.N := by
  unfold W14; exact Pipeline.withArrays_arr spec9 winFacts9.arr_inj c _ _ w
theorem W14_of_ne (c : Dev nD) (b : Ref sig .tc) (hb : ∀ w, Pipeline.arrRef spec9 w ≠ b) :
    W14 m a0 c (Proc.devRef .tc b) = W13 m a0 c (Proc.devRef .tc b) := by
  unfold W14; exact Pipeline.withArrays_of_ne spec9 c _ _ b hb
abbrev Vx14 : (c : Dev nD) → (b : Ref sig .tc) → Buf (Elt F) ((c : Thread nD τ).loc b) := fun c b => W14 m a0 c b
theorem hF9 (c : Dev nD) (w : Fin 2) : (dat9 (Vr13 m a0) c).arrAt w cfg9.N = Vx14 m a0 c (Pipeline.arrRef spec9 w) :=
  (W14_arr m a0 c w).symm
theorem hrest9 (c : Dev nD) : ∀ b, b ∉ Finset.univ.image (Pipeline.arrRef spec9) → Vx14 m a0 c b = Vr13 m a0 c b :=
  fun b hb => W14_of_ne m a0 c b fun w e => hb (Finset.mem_image.mpr ⟨w, Finset.mem_univ _, e⟩)

abbrev Vr14 : (c : Dev nD) → (b : Ref sig .tc) → Buf (Elt F) ((c : Thread nD τ).loc b) := fun c b => W14 m a0 c b

def W15 (c : Dev nD) : Valuation τ sig (Elt F) :=
  Pipeline.withArrays spec10 c (W14 m a0 c) fun w => (dat10 (Vr14 m a0) c).arrAt w cfg10.N
theorem W15_arr (c : Dev nD) (w : Fin 2) :
    W15 m a0 c (Proc.devRef .tc (Pipeline.arrRef spec10 w)) = (dat10 (Vr14 m a0) c).arrAt w cfg10.N := by
  unfold W15; exact Pipeline.withArrays_arr spec10 winFacts10.arr_inj c _ _ w
theorem W15_of_ne (c : Dev nD) (b : Ref sig .tc) (hb : ∀ w, Pipeline.arrRef spec10 w ≠ b) :
    W15 m a0 c (Proc.devRef .tc b) = W14 m a0 c (Proc.devRef .tc b) := by
  unfold W15; exact Pipeline.withArrays_of_ne spec10 c _ _ b hb
abbrev Vx15 : (c : Dev nD) → (b : Ref sig .tc) → Buf (Elt F) ((c : Thread nD τ).loc b) := fun c b => W15 m a0 c b
theorem hF10 (c : Dev nD) (w : Fin 2) : (dat10 (Vr14 m a0) c).arrAt w cfg10.N = Vx15 m a0 c (Pipeline.arrRef spec10 w) :=
  (W15_arr m a0 c w).symm
theorem hrest10 (c : Dev nD) : ∀ b, b ∉ Finset.univ.image (Pipeline.arrRef spec10) → Vx15 m a0 c b = Vr14 m a0 c b :=
  fun b hb => W15_of_ne m a0 c b fun w e => hb (Finset.mem_image.mpr ⟨w, Finset.mem_univ _, e⟩)

abbrev Vr15 : (c : Dev nD) → (b : Ref sig .tc) → Buf (Elt F) ((c : Thread nD τ).loc b) := fun c b => W15 m a0 c b

def W16 (c : Dev nD) : Valuation τ sig (Elt F) :=
  Pipeline.withArrays spec11 c (W15 m a0 c) fun w => (dat11 (Vr15 m a0) c).arrAt w cfg11.N
theorem W16_arr (c : Dev nD) (w : Fin 4) :
    W16 m a0 c (Proc.devRef .tc (Pipeline.arrRef spec11 w)) = (dat11 (Vr15 m a0) c).arrAt w cfg11.N := by
  unfold W16; exact Pipeline.withArrays_arr spec11 winFacts11.arr_inj c _ _ w
theorem W16_of_ne (c : Dev nD) (b : Ref sig .tc) (hb : ∀ w, Pipeline.arrRef spec11 w ≠ b) :
    W16 m a0 c (Proc.devRef .tc b) = W15 m a0 c (Proc.devRef .tc b) := by
  unfold W16; exact Pipeline.withArrays_of_ne spec11 c _ _ b hb
abbrev Vx16 : (c : Dev nD) → (b : Ref sig .tc) → Buf (Elt F) ((c : Thread nD τ).loc b) := fun c b => W16 m a0 c b
theorem hF11 (c : Dev nD) (w : Fin 4) : (dat11 (Vr15 m a0) c).arrAt w cfg11.N = Vx16 m a0 c (Pipeline.arrRef spec11 w) :=
  (W16_arr m a0 c w).symm
theorem hrest11 (c : Dev nD) : ∀ b, b ∉ Finset.univ.image (Pipeline.arrRef spec11) → Vx16 m a0 c b = Vr15 m a0 c b :=
  fun b hb => W16_of_ne m a0 c b fun w e => hb (Finset.mem_image.mpr ⟨w, Finset.mem_univ _, e⟩)

abbrev W17 : Dev nD → Valuation τ sig (Elt F) := fun c => StableHlo.after hostOps12 (W16 m a0 c)

abbrev Vr17 : (c : Dev nD) → (b : Ref sig .tc) → Buf (Elt F) ((c : Thread nD τ).loc b) := fun c b => W17 m a0 c b

def W18 (c : Dev nD) : Valuation τ sig (Elt F) :=
  Pipeline.withArrays spec12 c (W17 m a0 c) fun w => (dat12 (Vr17 m a0) c).arrAt w cfg12.N
theorem W18_arr (c : Dev nD) (w : Fin 4) :
    W18 m a0 c (Proc.devRef .tc (Pipeline.arrRef spec12 w)) = (dat12 (Vr17 m a0) c).arrAt w cfg12.N := by
  unfold W18; exact Pipeline.withArrays_arr spec12 winFacts12.arr_inj c _ _ w
theorem W18_of_ne (c : Dev nD) (b : Ref sig .tc) (hb : ∀ w, Pipeline.arrRef spec12 w ≠ b) :
    W18 m a0 c (Proc.devRef .tc b) = W17 m a0 c (Proc.devRef .tc b) := by
  unfold W18; exact Pipeline.withArrays_of_ne spec12 c _ _ b hb
abbrev Vx18 : (c : Dev nD) → (b : Ref sig .tc) → Buf (Elt F) ((c : Thread nD τ).loc b) := fun c b => W18 m a0 c b
theorem hF12 (c : Dev nD) (w : Fin 4) : (dat12 (Vr17 m a0) c).arrAt w cfg12.N = Vx18 m a0 c (Pipeline.arrRef spec12 w) :=
  (W18_arr m a0 c w).symm
theorem hrest12 (c : Dev nD) : ∀ b, b ∉ Finset.univ.image (Pipeline.arrRef spec12) → Vx18 m a0 c b = Vr17 m a0 c b :=
  fun b hb => W18_of_ne m a0 c b fun w e => hb (Finset.mem_image.mpr ⟨w, Finset.mem_univ _, e⟩)

abbrev W19 : Dev nD → Valuation τ sig (Elt F) := fun c => StableHlo.after hostOps13 (W18 m a0 c)

abbrev Vr19 : (c : Dev nD) → (b : Ref sig .tc) → Buf (Elt F) ((c : Thread nD τ).loc b) := fun c b => W19 m a0 c b

def W20 (c : Dev nD) : Valuation τ sig (Elt F) :=
  Pipeline.withArrays spec13 c (W19 m a0 c) fun w => (dat13 (Vr19 m a0) c).arrAt w cfg13.N
theorem W20_arr (c : Dev nD) (w : Fin 4) :
    W20 m a0 c (Proc.devRef .tc (Pipeline.arrRef spec13 w)) = (dat13 (Vr19 m a0) c).arrAt w cfg13.N := by
  unfold W20; exact Pipeline.withArrays_arr spec13 winFacts13.arr_inj c _ _ w
theorem W20_of_ne (c : Dev nD) (b : Ref sig .tc) (hb : ∀ w, Pipeline.arrRef spec13 w ≠ b) :
    W20 m a0 c (Proc.devRef .tc b) = W19 m a0 c (Proc.devRef .tc b) := by
  unfold W20; exact Pipeline.withArrays_of_ne spec13 c _ _ b hb
abbrev Vx20 : (c : Dev nD) → (b : Ref sig .tc) → Buf (Elt F) ((c : Thread nD τ).loc b) := fun c b => W20 m a0 c b
theorem hF13 (c : Dev nD) (w : Fin 4) : (dat13 (Vr19 m a0) c).arrAt w cfg13.N = Vx20 m a0 c (Pipeline.arrRef spec13 w) :=
  (W20_arr m a0 c w).symm
theorem hrest13 (c : Dev nD) : ∀ b, b ∉ Finset.univ.image (Pipeline.arrRef spec13) → Vx20 m a0 c b = Vr19 m a0 c b :=
  fun b hb => W20_of_ne m a0 c b fun w e => hb (Finset.mem_image.mpr ⟨w, Finset.mem_univ _, e⟩)

abbrev W21 : Dev nD → Valuation τ sig (Elt F) := fun c => StableHlo.after hostOps14 (W20 m a0 c)

abbrev Vr21 : (c : Dev nD) → (b : Ref sig .tc) → Buf (Elt F) ((c : Thread nD τ).loc b) := fun c b => W21 m a0 c b

def W22 (c : Dev nD) : Valuation τ sig (Elt F) :=
  Pipeline.withArrays spec14 c (W21 m a0 c) fun w => (dat14 (Vr21 m a0) c).arrAt w cfg14.N
theorem W22_arr (c : Dev nD) (w : Fin 4) :
    W22 m a0 c (Proc.devRef .tc (Pipeline.arrRef spec14 w)) = (dat14 (Vr21 m a0) c).arrAt w cfg14.N := by
  unfold W22; exact Pipeline.withArrays_arr spec14 winFacts14.arr_inj c _ _ w
theorem W22_of_ne (c : Dev nD) (b : Ref sig .tc) (hb : ∀ w, Pipeline.arrRef spec14 w ≠ b) :
    W22 m a0 c (Proc.devRef .tc b) = W21 m a0 c (Proc.devRef .tc b) := by
  unfold W22; exact Pipeline.withArrays_of_ne spec14 c _ _ b hb
abbrev Vx22 : (c : Dev nD) → (b : Ref sig .tc) → Buf (Elt F) ((c : Thread nD τ).loc b) := fun c b => W22 m a0 c b
theorem hF14 (c : Dev nD) (w : Fin 4) : (dat14 (Vr21 m a0) c).arrAt w cfg14.N = Vx22 m a0 c (Pipeline.arrRef spec14 w) :=
  (W22_arr m a0 c w).symm
theorem hrest14 (c : Dev nD) : ∀ b, b ∉ Finset.univ.image (Pipeline.arrRef spec14) → Vx22 m a0 c b = Vr21 m a0 c b :=
  fun b hb => W22_of_ne m a0 c b fun w e => hb (Finset.mem_image.mpr ⟨w, Finset.mem_univ _, e⟩)

abbrev W23 : Dev nD → Valuation τ sig (Elt F) := fun c => StableHlo.after hostOps15 (W22 m a0 c)

abbrev Vr23 : (c : Dev nD) → (b : Ref sig .tc) → Buf (Elt F) ((c : Thread nD τ).loc b) := fun c b => W23 m a0 c b

def W24 (c : Dev nD) : Valuation τ sig (Elt F) :=
  Pipeline.withArrays spec15 c (W23 m a0 c) fun w => (dat15 (Vr23 m a0) c).arrAt w cfg15.N
theorem W24_arr (c : Dev nD) (w : Fin 4) :
    W24 m a0 c (Proc.devRef .tc (Pipeline.arrRef spec15 w)) = (dat15 (Vr23 m a0) c).arrAt w cfg15.N := by
  unfold W24; exact Pipeline.withArrays_arr spec15 winFacts15.arr_inj c _ _ w
theorem W24_of_ne (c : Dev nD) (b : Ref sig .tc) (hb : ∀ w, Pipeline.arrRef spec15 w ≠ b) :
    W24 m a0 c (Proc.devRef .tc b) = W23 m a0 c (Proc.devRef .tc b) := by
  unfold W24; exact Pipeline.withArrays_of_ne spec15 c _ _ b hb
abbrev Vx24 : (c : Dev nD) → (b : Ref sig .tc) → Buf (Elt F) ((c : Thread nD τ).loc b) := fun c b => W24 m a0 c b
theorem hF15 (c : Dev nD) (w : Fin 4) : (dat15 (Vr23 m a0) c).arrAt w cfg15.N = Vx24 m a0 c (Pipeline.arrRef spec15 w) :=
  (W24_arr m a0 c w).symm
theorem hrest15 (c : Dev nD) : ∀ b, b ∉ Finset.univ.image (Pipeline.arrRef spec15) → Vx24 m a0 c b = Vr23 m a0 c b :=
  fun b hb => W24_of_ne m a0 c b fun w e => hb (Finset.mem_image.mpr ⟨w, Finset.mem_univ _, e⟩)

abbrev W25 : Dev nD → Valuation τ sig (Elt F) := fun c => StableHlo.after hostOps16 (W24 m a0 c)

abbrev Vr25 : (c : Dev nD) → (b : Ref sig .tc) → Buf (Elt F) ((c : Thread nD τ).loc b) := fun c b => W25 m a0 c b

def W26 (c : Dev nD) : Valuation τ sig (Elt F) :=
  Pipeline.withArrays spec16 c (W25 m a0 c) fun w => (dat16 (Vr25 m a0) c).arrAt w cfg16.N
theorem W26_arr (c : Dev nD) (w : Fin 4) :
    W26 m a0 c (Proc.devRef .tc (Pipeline.arrRef spec16 w)) = (dat16 (Vr25 m a0) c).arrAt w cfg16.N := by
  unfold W26; exact Pipeline.withArrays_arr spec16 winFacts16.arr_inj c _ _ w
theorem W26_of_ne (c : Dev nD) (b : Ref sig .tc) (hb : ∀ w, Pipeline.arrRef spec16 w ≠ b) :
    W26 m a0 c (Proc.devRef .tc b) = W25 m a0 c (Proc.devRef .tc b) := by
  unfold W26; exact Pipeline.withArrays_of_ne spec16 c _ _ b hb
abbrev Vx26 : (c : Dev nD) → (b : Ref sig .tc) → Buf (Elt F) ((c : Thread nD τ).loc b) := fun c b => W26 m a0 c b
theorem hF16 (c : Dev nD) (w : Fin 4) : (dat16 (Vr25 m a0) c).arrAt w cfg16.N = Vx26 m a0 c (Pipeline.arrRef spec16 w) :=
  (W26_arr m a0 c w).symm
theorem hrest16 (c : Dev nD) : ∀ b, b ∉ Finset.univ.image (Pipeline.arrRef spec16) → Vx26 m a0 c b = Vr25 m a0 c b :=
  fun b hb => W26_of_ne m a0 c b fun w e => hb (Finset.mem_image.mpr ⟨w, Finset.mem_univ _, e⟩)

abbrev W27 : Dev nD → Valuation τ sig (Elt F) := fun c => StableHlo.after hostOps17 (W26 m a0 c)

abbrev Vr27 : (c : Dev nD) → (b : Ref sig .tc) → Buf (Elt F) ((c : Thread nD τ).loc b) := fun c b => W27 m a0 c b

def W28 (c : Dev nD) : Valuation τ sig (Elt F) :=
  Pipeline.withArrays spec17 c (W27 m a0 c) fun w => (dat17 (Vr27 m a0) c).arrAt w cfg17.N
theorem W28_arr (c : Dev nD) (w : Fin 4) :
    W28 m a0 c (Proc.devRef .tc (Pipeline.arrRef spec17 w)) = (dat17 (Vr27 m a0) c).arrAt w cfg17.N := by
  unfold W28; exact Pipeline.withArrays_arr spec17 winFacts17.arr_inj c _ _ w
theorem W28_of_ne (c : Dev nD) (b : Ref sig .tc) (hb : ∀ w, Pipeline.arrRef spec17 w ≠ b) :
    W28 m a0 c (Proc.devRef .tc b) = W27 m a0 c (Proc.devRef .tc b) := by
  unfold W28; exact Pipeline.withArrays_of_ne spec17 c _ _ b hb
abbrev Vx28 : (c : Dev nD) → (b : Ref sig .tc) → Buf (Elt F) ((c : Thread nD τ).loc b) := fun c b => W28 m a0 c b
theorem hF17 (c : Dev nD) (w : Fin 4) : (dat17 (Vr27 m a0) c).arrAt w cfg17.N = Vx28 m a0 c (Pipeline.arrRef spec17 w) :=
  (W28_arr m a0 c w).symm
theorem hrest17 (c : Dev nD) : ∀ b, b ∉ Finset.univ.image (Pipeline.arrRef spec17) → Vx28 m a0 c b = Vr27 m a0 c b :=
  fun b hb => W28_of_ne m a0 c b fun w e => hb (Finset.mem_image.mpr ⟨w, Finset.mem_univ _, e⟩)

abbrev W29 : Dev nD → Valuation τ sig (Elt F) := fun c => StableHlo.after hostOps18 (W28 m a0 c)

abbrev Vr29 : (c : Dev nD) → (b : Ref sig .tc) → Buf (Elt F) ((c : Thread nD τ).loc b) := fun c b => W29 m a0 c b

def W30 (c : Dev nD) : Valuation τ sig (Elt F) :=
  Pipeline.withArrays spec18 c (W29 m a0 c) fun w => (dat18 (Vr29 m a0) c).arrAt w cfg18.N
theorem W30_arr (c : Dev nD) (w : Fin 4) :
    W30 m a0 c (Proc.devRef .tc (Pipeline.arrRef spec18 w)) = (dat18 (Vr29 m a0) c).arrAt w cfg18.N := by
  unfold W30; exact Pipeline.withArrays_arr spec18 winFacts18.arr_inj c _ _ w
theorem W30_of_ne (c : Dev nD) (b : Ref sig .tc) (hb : ∀ w, Pipeline.arrRef spec18 w ≠ b) :
    W30 m a0 c (Proc.devRef .tc b) = W29 m a0 c (Proc.devRef .tc b) := by
  unfold W30; exact Pipeline.withArrays_of_ne spec18 c _ _ b hb
abbrev Vx30 : (c : Dev nD) → (b : Ref sig .tc) → Buf (Elt F) ((c : Thread nD τ).loc b) := fun c b => W30 m a0 c b
theorem hF18 (c : Dev nD) (w : Fin 4) : (dat18 (Vr29 m a0) c).arrAt w cfg18.N = Vx30 m a0 c (Pipeline.arrRef spec18 w) :=
  (W30_arr m a0 c w).symm
theorem hrest18 (c : Dev nD) : ∀ b, b ∉ Finset.univ.image (Pipeline.arrRef spec18) → Vx30 m a0 c b = Vr29 m a0 c b :=
  fun b hb => W30_of_ne m a0 c b fun w e => hb (Finset.mem_image.mpr ⟨w, Finset.mem_univ _, e⟩)

abbrev W31 : Dev nD → Valuation τ sig (Elt F) := fun c => StableHlo.after hostOps19 (W30 m a0 c)

def adm : (p : Fin 19) → (pcfgs (F := F) p).Adm
  | ⟨0, _⟩ => a0
  | ⟨1, _⟩ => cfg1.toPCfg_adm
  | ⟨2, _⟩ => cfg2.toPCfg_adm
  | ⟨3, _⟩ => cfg3.toPCfg_adm
  | ⟨4, _⟩ => cfg4.toPCfg_adm
  | ⟨5, _⟩ => cfg5.toPCfg_adm
  | ⟨6, _⟩ => cfg6.toPCfg_adm
  | ⟨7, _⟩ => cfg7.toPCfg_adm
  | ⟨8, _⟩ => cfg8.toPCfg_adm
  | ⟨9, _⟩ => cfg9.toPCfg_adm
  | ⟨10, _⟩ => cfg10.toPCfg_adm
  | ⟨11, _⟩ => cfg11.toPCfg_adm
  | ⟨12, _⟩ => cfg12.toPCfg_adm
  | ⟨13, _⟩ => cfg13.toPCfg_adm
  | ⟨14, _⟩ => cfg14.toPCfg_adm
  | ⟨15, _⟩ => cfg15.toPCfg_adm
  | ⟨16, _⟩ => cfg16.toPCfg_adm
  | ⟨17, _⟩ => cfg17.toPCfg_adm
  | ⟨18, _⟩ => cfg18.toPCfg_adm
  | ⟨_ + 19, h⟩ => absurd h (Nat.not_lt.2 (Nat.le_add_left _ _))

def pdats : (p : Fin 19) → (c : Dev nD) → Dat τ (Elt F) Unit ℕ (UR sig nD τ) ℕ (Pipeline.pin (pcfgs (F := F)) (adm a0) p) c
  | ⟨0, _⟩ => fun c => dat0 a0 (Vr3 m) c
  | ⟨1, _⟩ => fun c => dat1 (Vr5 m a0) c
  | ⟨2, _⟩ => fun c => dat2 (Vr6 m a0) c
  | ⟨3, _⟩ => fun c => dat3 (Vr7 m a0) c
  | ⟨4, _⟩ => fun c => dat4 (Vr8 m a0) c
  | ⟨5, _⟩ => fun c => dat5 (Vr9 m a0) c
  | ⟨6, _⟩ => fun c => dat6 (Vr10 m a0) c
  | ⟨7, _⟩ => fun c => dat7 (Vr11 m a0) c
  | ⟨8, _⟩ => fun c => dat8 (Vr12 m a0) c
  | ⟨9, _⟩ => fun c => dat9 (Vr13 m a0) c
  | ⟨10, _⟩ => fun c => dat10 (Vr14 m a0) c
  | ⟨11, _⟩ => fun c => dat11 (Vr15 m a0) c
  | ⟨12, _⟩ => fun c => dat12 (Vr17 m a0) c
  | ⟨13, _⟩ => fun c => dat13 (Vr19 m a0) c
  | ⟨14, _⟩ => fun c => dat14 (Vr21 m a0) c
  | ⟨15, _⟩ => fun c => dat15 (Vr23 m a0) c
  | ⟨16, _⟩ => fun c => dat16 (Vr25 m a0) c
  | ⟨17, _⟩ => fun c => dat17 (Vr27 m a0) c
  | ⟨18, _⟩ => fun c => dat18 (Vr29 m a0) c
  | ⟨_ + 19, h⟩ => absurd h (Nat.not_lt.2 (Nat.le_add_left _ _))
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_noalloc : (hostOps0 : List (HloOp τ sig (Elt F))).Forall fun op => op.fresh = ∅ := by
  simp only [List.Forall]; repeat' constructor
theorem hostOps0_1_noalloc : (hostOps0_1 : List (HloOp τ sig (Elt F))).Forall fun op => op.fresh = ∅ := by
  simp only [List.Forall]; repeat' constructor
theorem hostOps0_2_noalloc : (hostOps0_2 : List (HloOp τ sig (Elt F))).Forall fun op => op.fresh = ∅ := by
  simp only [List.Forall]; repeat' constructor
theorem hostOps1_noalloc : (hostOps1 : List (HloOp τ sig (Elt F))).Forall fun op => op.fresh = ∅ := by
  simp only [List.Forall]; repeat' constructor
theorem hostOps12_noalloc : (hostOps12 : List (HloOp τ sig (Elt F))).Forall fun op => op.fresh = ∅ := by
  simp only [List.Forall]; repeat' constructor
theorem hostOps13_noalloc : (hostOps13 : List (HloOp τ sig (Elt F))).Forall fun op => op.fresh = ∅ := by
  simp only [List.Forall]; repeat' constructor
theorem hostOps14_noalloc : (hostOps14 : List (HloOp τ sig (Elt F))).Forall fun op => op.fresh = ∅ := by
  simp only [List.Forall]; repeat' constructor
theorem hostOps15_noalloc : (hostOps15 : List (HloOp τ sig (Elt F))).Forall fun op => op.fresh = ∅ := by
  simp only [List.Forall]; repeat' constructor
theorem hostOps16_noalloc : (hostOps16 : List (HloOp τ sig (Elt F))).Forall fun op => op.fresh = ∅ := by
  simp only [List.Forall]; repeat' constructor
theorem hostOps17_noalloc : (hostOps17 : List (HloOp τ sig (Elt F))).Forall fun op => op.fresh = ∅ := by
  simp only [List.Forall]; repeat' constructor
theorem hostOps18_noalloc : (hostOps18 : List (HloOp τ sig (Elt F))).Forall fun op => op.fresh = ∅ := by
  simp only [List.Forall]; repeat' constructor
theorem hostOps19_noalloc : (hostOps19 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
end Cert.Kernel.Hand

end
-- ==== Proof.KB.Run.lean ====
import proofs.«402369_j86406152061536_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (a0 : (pcfg0 (F := F)).Adm)

abbrev Tₙ (c : Dev nD) : sProp 𝕄 := iprop(StableHlo.held (c : Thread nD τ) (Pipeline.ucRefs τ sig) (W31 m a0 c) ∗ ∃ r, prngReg c r)

variable (hT0 : TablesAt a0 (Vr3 m))

set_option backward.isDefEq.respectTransparency.types false in
def reg0 : Pipeline.RegionSeg (pcfgs (F := F)) (adm a0) (pdats m a0) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (F := F) a0 (Vr3 m) c).loose
  hwaits := Pipeline.hwaits_of_owed_zero (pcfgs (F := F)) (adm a0) (pdats m a0) () L lv 0 fun c t => owed_eq0 (F := F) a0 (Vr3 m) c t
  pre c := iprop(StableHlo.held (c : Thread nD τ) (Pipeline.ucRefs τ sig) (W3 m c) ∗ R c)
  post c := iprop(StableHlo.held (c : Thread nD τ) (Pipeline.ucRefs τ sig) (W4 m a0 c) ∗ R c)
  X c := iprop(∃ r, prngReg c r)
  Y c := iprop((∃ r, prngReg c r) ∗ Pipeline.prefHeld pre0 c (fun _ => fullShare) a0.1)
  Z c := rest0 a0 (Vr3 m) c
  hentry c := by
    rw [Pipeline.ownSems0_none]
    have hsplit := Pipeline.arrays_of_unscopedBufs (p := 0) (pcfgs (F := F)) (adm a0) (pdats m a0) (launch0 (F := F)).win (launch0 (F := F)).arr_whole c
      ((pdats m a0 0 c).share_full fun w => q_eq0 (F := F) a0 (Vr3 m) c w) (Vr3 m c) fun w => A_eq0 (F := F) a0 (Vr3 m) c w
    rw [Pipeline.unscopedBufs_held] at hsplit
    iintro ⟨⟨Hub, Hp, HO⟩, -, -⟩
    ihave H := hsplit $$ Hub
    icases H with ⟨Ha, Hrest⟩
    ihave Hc := (carve0 a0 (Vr3 m) hT0 c) $$ Hrest
    icases Hc with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin0 (F := F) a0 (Vr3 m) c
  hout c := by
    rw [Pipeline.ownSems0_none, show (pdats m a0 0 c).Φ (Fin.last _) = (dat0 a0 (Vr3 m) c).Φ (Fin.last (cfg0 a0).N) from rfl]
    iintro H
    ihave H' := (hout0 (F := F) a0 (Vr3 m) c) $$ H
    icases H' with ⟨Hp, Hpf, Hr⟩
    isplitl [Hp Hpf]
    · isplitl [Hp]; · iexact Hp
      iexact Hpf
    isplitr; · iempintro
    iexact Hr
  hexit c := by
    have hjoin := Pipeline.unscopedBufs_of_arrays (p := 0) (pcfgs (F := F)) (adm a0) (Ix := Unit) (Name := ℕ) (U := UR sig nD τ) (Lvl := ℕ)
      (launch0 (F := F)).win (launch0 (F := F)).arr_whole c (pdats m a0) ((pdats m a0 0 c).share_full fun w => q_eq0 (F := F) a0 (Vr3 m) c w)
      (Vr3 m c) (Vx4 m a0 c) ((pdats m a0 0 c).arrAt · (cfg0 a0).N) (hF0 m a0 c) (hrest0 m a0 c)
    rw [Pipeline.unscopedBufs_held] at hjoin
    iintro ⟨Ha, HO, ⟨HY, Hpf⟩, Hrest⟩
    ihave Hrest := (uncarve0 a0 (Vr3 m) hT0 c) $$ [Hpf Hrest]
    · isplitl [Hpf]; · iexact Hpf
      iexact Hrest
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev onRefs (W : Dev nD → Valuation τ sig (Elt F)) : (c : Dev nD) → (b : Ref sig .tc) → Buf (Elt F) ((c : Thread nD τ).loc b) := fun c b => W c b

set_option backward.isDefEq.respectTransparency.types false in
def regOf (p : Fin 19) {Wa Wb : Dev nD → Valuation τ sig (Elt F)} (hl : Pipeline.PLaunchFacts (nD := nD) (τ := τ) (pcfgs (F := F)) p)
    (hbody : ∀ c, BodyObligation (pdats m a0 p c) defs₀ 𝒱₀ () Set.univ) (howed : ∀ c t, (pdats m a0 p c).owed t = 0)
    (hq : ∀ c w, (pdats m a0 p c).q w = fullShare) (hA : ∀ c w, (pdats m a0 p c).A w = onRefs Wa c (Pipeline.arrRef (pcfgs (F := F) p).spec w))
    (hin : ∀ c (T : sProp 𝕄), iprop((∃ r, prngReg c r) ∗ T ∗ Pipeline.scopedRest (pcfgs (F := F) p).spec c) ⊢ (pdats m a0 p c).Φ 0)
    (hout : ∀ c, (pdats m a0 p c).Φ (Fin.last _) ⊢ (iprop((∃ r, prngReg c r) ∗ Pipeline.scopedRest (pcfgs (F := F) p).spec c) : sProp 𝕄))
    (hF : ∀ c w, (pdats m a0 p c).arrAt w (Pipeline.pin (pcfgs (F := F)) (adm a0) p).N = onRefs Wb c (Pipeline.arrRef (pcfgs (F := F) p).spec w))
    (hrest : ∀ c b, b ∉ Finset.univ.image (Pipeline.arrRef (pcfgs (F := F) p).spec) → onRefs Wb c b = onRefs Wa c b)
    (hK : (pcfgs (F := F) p).pre.K = 0 := by rfl) (hrec : ∀ c, (pdats m a0 p c).recorded 0 = Set.univ := by intro; rfl) :
    Pipeline.RegionSeg (pcfgs (F := F)) (adm a0) (pdats m a0) () defs₀ 𝒱₀ L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero (pcfgs (F := F)) (adm a0) (pdats m a0) () L lv p howed
  pre c := iprop(StableHlo.held (c : Thread nD τ) (Pipeline.ucRefs τ sig) (Wa c) ∗ R c)
  post c := iprop(StableHlo.held (c : Thread nD τ) (Pipeline.ucRefs τ sig) (Wb c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (onRefs Wa c)
  hentry c := by
    rw [Pipeline.ownSems0_none]
    have hsplit := Pipeline.arrays_of_unscopedBufs (p := p) (pcfgs (F := F)) (adm a0) (pdats m a0) hl.win hl.arr_whole c
      ((pdats m a0 p c).share_full (hq c)) (onRefs Wa c) (hA c)
    rw [Pipeline.unscopedBufs_held] at hsplit
    haveI : IsEmpty (Fin (pcfgs (F := F) p).pre.K) := ⟨fun k => by have := k.2; omega⟩
    iintro ⟨⟨Hub, Hp, HO⟩, -, -⟩
    ihave H := hsplit $$ Hub
    icases H with ⟨Ha, Hrest⟩
    imodintro
    isplitl [Ha]; · iexact Ha
    isplitr; · unfold Pipeline.prefHeld; rw [Finset.univ_eq_empty, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    iexact Hrest
  hin c := hin c _
  hout c := by rw [Pipeline.ownSems0_none]; exact (hout c).trans (sep_mono .rfl emp_sep_intro)
  hexit c := by
    have hjoin := Pipeline.unscopedBufs_of_arrays (p := p) (pcfgs (F := F)) (adm a0) (Ix := Unit) (Name := ℕ) (U := UR sig nD τ) (Lvl := ℕ)
      hl.win hl.arr_whole c (pdats m a0) ((pdats m a0 p c).share_full (hq c)) (onRefs Wa c) (onRefs Wb c) _ (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

def reg1 : Pipeline.RegionSeg (pcfgs (F := F)) (adm a0) (pdats m a0) () defs₀ 𝒱₀ L lv 1 :=
  regOf m a0 1 launch1 (body_obligation1 _) (owed_eq1 _) (q_eq1 _) (A_eq1 _) (hin1 _) (hout1 _) (hF1 m a0) (hrest1 m a0)
def reg2 : Pipeline.RegionSeg (pcfgs (F := F)) (adm a0) (pdats m a0) () defs₀ 𝒱₀ L lv 2 :=
  regOf m a0 2 launch2 (body_obligation2 _) (owed_eq2 _) (q_eq2 _) (A_eq2 _) (hin2 _) (hout2 _) (hF2 m a0) (hrest2 m a0)
def reg3 : Pipeline.RegionSeg (pcfgs (F := F)) (adm a0) (pdats m a0) () defs₀ 𝒱₀ L lv 3 :=
  regOf m a0 3 launch3 (body_obligation3 _) (owed_eq3 _) (q_eq3 _) (A_eq3 _) (hin3 _) (hout3 _) (hF3 m a0) (hrest3 m a0)
def reg4 : Pipeline.RegionSeg (pcfgs (F := F)) (adm a0) (pdats m a0) () defs₀ 𝒱₀ L lv 4 :=
  regOf m a0 4 launch4 (body_obligation4 _) (owed_eq4 _) (q_eq4 _) (A_eq4 _) (hin4 _) (hout4 _) (hF4 m a0) (hrest4 m a0)
def reg5 : Pipeline.RegionSeg (pcfgs (F := F)) (adm a0) (pdats m a0) () defs₀ 𝒱₀ L lv 5 :=
  regOf m a0 5 launch5 (body_obligation5 _) (owed_eq5 _) (q_eq5 _) (A_eq5 _) (hin5 _) (hout5 _) (hF5 m a0) (hrest5 m a0)
def reg6 : Pipeline.RegionSeg (pcfgs (F := F)) (adm a0) (pdats m a0) () defs₀ 𝒱₀ L lv 6 :=
  regOf m a0 6 launch6 (body_obligation6 _) (owed_eq6 _) (q_eq6 _) (A_eq6 _) (hin6 _) (hout6 _) (hF6 m a0) (hrest6 m a0)
def reg7 : Pipeline.RegionSeg (pcfgs (F := F)) (adm a0) (pdats m a0) () defs₀ 𝒱₀ L lv 7 :=
  regOf m a0 7 launch7 (body_obligation7 _) (owed_eq7 _) (q_eq7 _) (A_eq7 _) (hin7 _) (hout7 _) (hF7 m a0) (hrest7 m a0)
def reg8 : Pipeline.RegionSeg (pcfgs (F := F)) (adm a0) (pdats m a0) () defs₀ 𝒱₀ L lv 8 :=
  regOf m a0 8 launch8 (body_obligation8 _) (owed_eq8 _) (q_eq8 _) (A_eq8 _) (hin8 _) (hout8 _) (hF8 m a0) (hrest8 m a0)
def reg9 : Pipeline.RegionSeg (pcfgs (F := F)) (adm a0) (pdats m a0) () defs₀ 𝒱₀ L lv 9 :=
  regOf m a0 9 launch9 (body_obligation9 _) (owed_eq9 _) (q_eq9 _) (A_eq9 _) (hin9 _) (hout9 _) (hF9 m a0) (hrest9 m a0)
def reg10 : Pipeline.RegionSeg (pcfgs (F := F)) (adm a0) (pdats m a0) () defs₀ 𝒱₀ L lv 10 :=
  regOf m a0 10 launch10 (body_obligation10 _) (owed_eq10 _) (q_eq10 _) (A_eq10 _) (hin10 _) (hout10 _) (hF10 m a0) (hrest10 m a0)
def reg11 : Pipeline.RegionSeg (pcfgs (F := F)) (adm a0) (pdats m a0) () defs₀ 𝒱₀ L lv 11 :=
  regOf m a0 11 launch11 (body_obligation11 _) (owed_eq11 _) (q_eq11 _) (A_eq11 _) (hin11 _) (hout11 _) (hF11 m a0) (hrest11 m a0)
def reg12 : Pipeline.RegionSeg (pcfgs (F := F)) (adm a0) (pdats m a0) () defs₀ 𝒱₀ L lv 12 :=
  regOf m a0 12 launch12 (body_obligation12 _) (owed_eq12 _) (q_eq12 _) (A_eq12 _) (hin12 _) (hout12 _) (hF12 m a0) (hrest12 m a0)
def reg13 : Pipeline.RegionSeg (pcfgs (F := F)) (adm a0) (pdats m a0) () defs₀ 𝒱₀ L lv 13 :=
  regOf m a0 13 launch13 (body_obligation13 _) (owed_eq13 _) (q_eq13 _) (A_eq13 _) (hin13 _) (hout13 _) (hF13 m a0) (hrest13 m a0)
def reg14 : Pipeline.RegionSeg (pcfgs (F := F)) (adm a0) (pdats m a0) () defs₀ 𝒱₀ L lv 14 :=
  regOf m a0 14 launch14 (body_obligation14 _) (owed_eq14 _) (q_eq14 _) (A_eq14 _) (hin14 _) (hout14 _) (hF14 m a0) (hrest14 m a0)
def reg15 : Pipeline.RegionSeg (pcfgs (F := F)) (adm a0) (pdats m a0) () defs₀ 𝒱₀ L lv 15 :=
  regOf m a0 15 launch15 (body_obligation15 _) (owed_eq15 _) (q_eq15 _) (A_eq15 _) (hin15 _) (hout15 _) (hF15 m a0) (hrest15 m a0)
def reg16 : Pipeline.RegionSeg (pcfgs (F := F)) (adm a0) (pdats m a0) () defs₀ 𝒱₀ L lv 16 :=
  regOf m a0 16 launch16 (body_obligation16 _) (owed_eq16 _) (q_eq16 _) (A_eq16 _) (hin16 _) (hout16 _) (hF16 m a0) (hrest16 m a0)
def reg17 : Pipeline.RegionSeg (pcfgs (F := F)) (adm a0) (pdats m a0) () defs₀ 𝒱₀ L lv 17 :=
  regOf m a0 17 launch17 (body_obligation17 _) (owed_eq17 _) (q_eq17 _) (A_eq17 _) (hin17 _) (hout17 _) (hF17 m a0) (hrest17 m a0)
def reg18 : Pipeline.RegionSeg (pcfgs (F := F)) (adm a0) (pdats m a0) () defs₀ 𝒱₀ L lv 18 :=
  regOf m a0 18 launch18 (body_obligation18 _) (owed_eq18 _) (q_eq18 _) (A_eq18 _) (hin18 _) (hout18 _) (hF18 m a0) (hrest18 m a0)

abbrev segs : List (Pipeline.Seg (pcfgs (F := F)) (adm a0) (pdats m a0) () defs₀ 𝒱₀ L lv) :=
  [ .host (hseg hostOps0 hostOps0_sub hostOps0_noalloc (W0 m)),
    .host (hseg hostOps0_1 hostOps0_1_sub hostOps0_1_noalloc (W1 m)),
    .host (hseg hostOps0_2 hostOps0_2_sub hostOps0_2_noalloc (W2 m)),
    .region (reg0 m a0 hT0),
    .host (hseg hostOps1 hostOps1_sub hostOps1_noalloc (W4 m a0)),
    .region (reg1 m a0),
    .region (reg2 m a0),
    .region (reg3 m a0),
    .region (reg4 m a0),
    .region (reg5 m a0),
    .region (reg6 m a0),
    .region (reg7 m a0),
    .region (reg8 m a0),
    .region (reg9 m a0),
    .region (reg10 m a0),
    .region (reg11 m a0),
    .host (hseg hostOps12 hostOps12_sub hostOps12_noalloc (W16 m a0)),
    .region (reg12 m a0),
    .host (hseg hostOps13 hostOps13_sub hostOps13_noalloc (W18 m a0)),
    .region (reg13 m a0),
    .host (hseg hostOps14 hostOps14_sub hostOps14_noalloc (W20 m a0)),
    .region (reg14 m a0),
    .host (hseg hostOps15 hostOps15_sub hostOps15_noalloc (W22 m a0)),
    .region (reg15 m a0),
    .host (hseg hostOps16 hostOps16_sub hostOps16_noalloc (W24 m a0)),
    .region (reg16 m a0),
    .host (hseg hostOps17 hostOps17_sub hostOps17_noalloc (W26 m a0)),
    .region (reg17 m a0),
    .host (hseg hostOps18 hostOps18_sub hostOps18_noalloc (W28 m a0)),
    .region (reg18 m a0),
    .host (hseg hostOps19 hostOps19_sub hostOps19_noalloc (W30 m a0)) ]
theorem main_run (c : Dev nD) : main (F := F) c = Pipeline.Seg.run (segs m a0 hT0) := (main_chain c).trans (by chain_rfl)

include hT0 in
set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = W31 m a0 c b) :=
  Pipeline.θ_run_regions_kit (pcfgs (F := F)) (adm a0) (pdats m a0) () (cellOf_inj (adm a0)) emb₁ defs₀ 𝒱₀ L lv m ρ main (segs m a0 hT0)
    (fun c Q => by rw [main_run m a0 hT0 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm a0)) (cellOf_inj (adm a0))) (Pipeline.launchToks (Pipeline.pin (pcfgs (F := F)) (adm a0)) (cellOf_inj (adm a0))))
    (hu₀ := by
      iintro Hu; imodintro
      isplitl [Hu]
      · iapply (show (ownU (initOf (Pipeline.cells (Pipeline.pin (pcfgs (F := F)) (adm a0)) (cellOf_inj (adm a0))) (Pipeline.launchToks (Pipeline.pin (pcfgs (F := F)) (adm a0)) (cellOf_inj (adm a0)))) : sProp 𝕄)
            ⊢ BI.own (emb₁ (initOf (Pipeline.cells (Pipeline.pin (pcfgs (F := F)) (adm a0)) (cellOf_inj (adm a0))) (Pipeline.launchToks (Pipeline.pin (pcfgs (F := F)) (adm a0)) (cellOf_inj (adm a0))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m a0)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W31 m a0 c) ∗ R c) : sProp 𝕄) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W31 m a0 c b)
    (hfin := fun c s' => by
      iintro ⟨⟨Hh, -⟩, HSI⟩
      unfold StableHlo.held
      imodintro
      iapply (pointsTo_read_all (Pipeline.ucRefs τ sig) (fun b => (((c : Thread nD τ)).1, b)) (W31 m a0 c) s')
      isplitl [Hh] <;> iassumption)
    (hQ := fun s h c => h c)

end Cert.Kernel.Hand

end
-- ==== Proof.KB.Keep.lean ====
import proofs.«402369_j86406152061536_3_alg».proof.Proof.KB.Chain
import proofs.«402369_j86406152061536_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (a0 : (pcfg0 (F := F)).Adm)

theorem keep1 (c : Dev nD) (r : Ref sig .tc) (h : r ∉ (hostOps0_W : List (Ref sig .tc))) :
    W1 m c (Proc.devRef .tc r) = W0 m c (Proc.devRef .tc r) :=
  StableHlo.after_of_writes_sub hostOps0 _ hostOps0_writes h
theorem keep2 (c : Dev nD) (r : Ref sig .tc) (h : r ∉ (hostOps0_1_W : List (Ref sig .tc))) :
    W2 m c (Proc.devRef .tc r) = W1 m c (Proc.devRef .tc r) :=
  StableHlo.after_of_writes_sub hostOps0_1 _ hostOps0_1_writes h
theorem keep3 (c : Dev nD) (r : Ref sig .tc) (h : r ∉ (hostOps0_2_W : List (Ref sig .tc))) :
    W3 m c (Proc.devRef .tc r) = W2 m c (Proc.devRef .tc r) :=
  StableHlo.after_of_writes_sub hostOps0_2 _ hostOps0_2_writes h
theorem keep4 (c : Dev nD) (r : Ref sig .tc) (h : ∀ w, Pipeline.arrRef spec0 w ≠ r) :
    W4 m a0 c (Proc.devRef .tc r) = W3 m c (Proc.devRef .tc r) :=
  W4_of_ne m a0 c r h
theorem keep5 (c : Dev nD) (r : Ref sig .tc) (h : r ∉ (hostOps1_W : List (Ref sig .tc))) :
    W5 m a0 c (Proc.devRef .tc r) = W4 m a0 c (Proc.devRef .tc r) :=
  StableHlo.after_of_writes_sub hostOps1 _ hostOps1_writes h
theorem keep6 (c : Dev nD) (r : Ref sig .tc) (h : ∀ w, Pipeline.arrRef spec1 w ≠ r) :
    W6 m a0 c (Proc.devRef .tc r) = W5 m a0 c (Proc.devRef .tc r) :=
  W6_of_ne m a0 c r h
theorem keep7 (c : Dev nD) (r : Ref sig .tc) (h : ∀ w, Pipeline.arrRef spec2 w ≠ r) :
    W7 m a0 c (Proc.devRef .tc r) = W6 m a0 c (Proc.devRef .tc r) :=
  W7_of_ne m a0 c r h
theorem keep8 (c : Dev nD) (r : Ref sig .tc) (h : ∀ w, Pipeline.arrRef spec3 w ≠ r) :
    W8 m a0 c (Proc.devRef .tc r) = W7 m a0 c (Proc.devRef .tc r) :=
  W8_of_ne m a0 c r h
theorem keep9 (c : Dev nD) (r : Ref sig .tc) (h : ∀ w, Pipeline.arrRef spec4 w ≠ r) :
    W9 m a0 c (Proc.devRef .tc r) = W8 m a0 c (Proc.devRef .tc r) :=
  W9_of_ne m a0 c r h
theorem keep10 (c : Dev nD) (r : Ref sig .tc) (h : ∀ w, Pipeline.arrRef spec5 w ≠ r) :
    W10 m a0 c (Proc.devRef .tc r) = W9 m a0 c (Proc.devRef .tc r) :=
  W10_of_ne m a0 c r h
theorem keep11 (c : Dev nD) (r : Ref sig .tc) (h : ∀ w, Pipeline.arrRef spec6 w ≠ r) :
    W11 m a0 c (Proc.devRef .tc r) = W10 m a0 c (Proc.devRef .tc r) :=
  W11_of_ne m a0 c r h
theorem keep12 (c : Dev nD) (r : Ref sig .tc) (h : ∀ w, Pipeline.arrRef spec7 w ≠ r) :
    W12 m a0 c (Proc.devRef .tc r) = W11 m a0 c (Proc.devRef .tc r) :=
  W12_of_ne m a0 c r h
theorem keep13 (c : Dev nD) (r : Ref sig .tc) (h : ∀ w, Pipeline.arrRef spec8 w ≠ r) :
    W13 m a0 c (Proc.devRef .tc r) = W12 m a0 c (Proc.devRef .tc r) :=
  W13_of_ne m a0 c r h
theorem keep14 (c : Dev nD) (r : Ref sig .tc) (h : ∀ w, Pipeline.arrRef spec9 w ≠ r) :
    W14 m a0 c (Proc.devRef .tc r) = W13 m a0 c (Proc.devRef .tc r) :=
  W14_of_ne m a0 c r h
theorem keep15 (c : Dev nD) (r : Ref sig .tc) (h : ∀ w, Pipeline.arrRef spec10 w ≠ r) :
    W15 m a0 c (Proc.devRef .tc r) = W14 m a0 c (Proc.devRef .tc r) :=
  W15_of_ne m a0 c r h
theorem keep16 (c : Dev nD) (r : Ref sig .tc) (h : ∀ w, Pipeline.arrRef spec11 w ≠ r) :
    W16 m a0 c (Proc.devRef .tc r) = W15 m a0 c (Proc.devRef .tc r) :=
  W16_of_ne m a0 c r h
theorem keep17 (c : Dev nD) (r : Ref sig .tc) (h : r ∉ (hostOps12_W : List (Ref sig .tc))) :
    W17 m a0 c (Proc.devRef .tc r) = W16 m a0 c (Proc.devRef .tc r) :=
  StableHlo.after_of_writes_sub hostOps12 _ hostOps12_writes h
theorem keep18 (c : Dev nD) (r : Ref sig .tc) (h : ∀ w, Pipeline.arrRef spec12 w ≠ r) :
    W18 m a0 c (Proc.devRef .tc r) = W17 m a0 c (Proc.devRef .tc r) :=
  W18_of_ne m a0 c r h
theorem keep19 (c : Dev nD) (r : Ref sig .tc) (h : r ∉ (hostOps13_W : List (Ref sig .tc))) :
    W19 m a0 c (Proc.devRef .tc r) = W18 m a0 c (Proc.devRef .tc r) :=
  StableHlo.after_of_writes_sub hostOps13 _ hostOps13_writes h
theorem keep20 (c : Dev nD) (r : Ref sig .tc) (h : ∀ w, Pipeline.arrRef spec13 w ≠ r) :
    W20 m a0 c (Proc.devRef .tc r) = W19 m a0 c (Proc.devRef .tc r) :=
  W20_of_ne m a0 c r h
theorem keep21 (c : Dev nD) (r : Ref sig .tc) (h : r ∉ (hostOps14_W : List (Ref sig .tc))) :
    W21 m a0 c (Proc.devRef .tc r) = W20 m a0 c (Proc.devRef .tc r) :=
  StableHlo.after_of_writes_sub hostOps14 _ hostOps14_writes h
theorem keep22 (c : Dev nD) (r : Ref sig .tc) (h : ∀ w, Pipeline.arrRef spec14 w ≠ r) :
    W22 m a0 c (Proc.devRef .tc r) = W21 m a0 c (Proc.devRef .tc r) :=
  W22_of_ne m a0 c r h
theorem keep23 (c : Dev nD) (r : Ref sig .tc) (h : r ∉ (hostOps15_W : List (Ref sig .tc))) :
    W23 m a0 c (Proc.devRef .tc r) = W22 m a0 c (Proc.devRef .tc r) :=
  StableHlo.after_of_writes_sub hostOps15 _ hostOps15_writes h
theorem keep24 (c : Dev nD) (r : Ref sig .tc) (h : ∀ w, Pipeline.arrRef spec15 w ≠ r) :
    W24 m a0 c (Proc.devRef .tc r) = W23 m a0 c (Proc.devRef .tc r) :=
  W24_of_ne m a0 c r h
theorem keep25 (c : Dev nD) (r : Ref sig .tc) (h : r ∉ (hostOps16_W : List (Ref sig .tc))) :
    W25 m a0 c (Proc.devRef .tc r) = W24 m a0 c (Proc.devRef .tc r) :=
  StableHlo.after_of_writes_sub hostOps16 _ hostOps16_writes h
theorem keep26 (c : Dev nD) (r : Ref sig .tc) (h : ∀ w, Pipeline.arrRef spec16 w ≠ r) :
    W26 m a0 c (Proc.devRef .tc r) = W25 m a0 c (Proc.devRef .tc r) :=
  W26_of_ne m a0 c r h
theorem keep27 (c : Dev nD) (r : Ref sig .tc) (h : r ∉ (hostOps17_W : List (Ref sig .tc))) :
    W27 m a0 c (Proc.devRef .tc r) = W26 m a0 c (Proc.devRef .tc r) :=
  StableHlo.after_of_writes_sub hostOps17 _ hostOps17_writes h
theorem keep28 (c : Dev nD) (r : Ref sig .tc) (h : ∀ w, Pipeline.arrRef spec17 w ≠ r) :
    W28 m a0 c (Proc.devRef .tc r) = W27 m a0 c (Proc.devRef .tc r) :=
  W28_of_ne m a0 c r h
theorem keep29 (c : Dev nD) (r : Ref sig .tc) (h : r ∉ (hostOps18_W : List (Ref sig .tc))) :
    W29 m a0 c (Proc.devRef .tc r) = W28 m a0 c (Proc.devRef .tc r) :=
  StableHlo.after_of_writes_sub hostOps18 _ hostOps18_writes h
theorem keep30 (c : Dev nD) (r : Ref sig .tc) (h : ∀ w, Pipeline.arrRef spec18 w ≠ r) :
    W30 m a0 c (Proc.devRef .tc r) = W29 m a0 c (Proc.devRef .tc r) :=
  W30_of_ne m a0 c r h
theorem keep31 (c : Dev nD) (r : Ref sig .tc) (h : r ∉ (hostOps19_W : List (Ref sig .tc))) :
    W31 m a0 c (Proc.devRef .tc r) = W30 m a0 c (Proc.devRef .tc r) :=
  StableHlo.after_of_writes_sub hostOps19 _ hostOps19_writes h

/-- One step per item of the entry function, each from that item's write set. -/
theorem W31_of_untouched (c : Dev nD) (r : Ref sig .tc)
    (h : (r ∉ (hostOps0_W : List (Ref sig .tc)))
      ∧ (r ∉ (hostOps0_1_W : List (Ref sig .tc)))
      ∧ (r ∉ (hostOps0_2_W : List (Ref sig .tc)))
      ∧ (∀ w, Pipeline.arrRef spec0 w ≠ r)
      ∧ (r ∉ (hostOps1_W : List (Ref sig .tc)))
      ∧ (∀ w, Pipeline.arrRef spec1 w ≠ r)
      ∧ (∀ w, Pipeline.arrRef spec2 w ≠ r)
      ∧ (∀ w, Pipeline.arrRef spec3 w ≠ r)
      ∧ (∀ w, Pipeline.arrRef spec4 w ≠ r)
      ∧ (∀ w, Pipeline.arrRef spec5 w ≠ r)
      ∧ (∀ w, Pipeline.arrRef spec6 w ≠ r)
      ∧ (∀ w, Pipeline.arrRef spec7 w ≠ r)
      ∧ (∀ w, Pipeline.arrRef spec8 w ≠ r)
      ∧ (∀ w, Pipeline.arrRef spec9 w ≠ r)
      ∧ (∀ w, Pipeline.arrRef spec10 w ≠ r)
      ∧ (∀ w, Pipeline.arrRef spec11 w ≠ r)
      ∧ (r ∉ (hostOps12_W : List (Ref sig .tc)))
      ∧ (∀ w, Pipeline.arrRef spec12 w ≠ r)
      ∧ (r ∉ (hostOps13_W : List (Ref sig .tc)))
      ∧ (∀ w, Pipeline.arrRef spec13 w ≠ r)
      ∧ (r ∉ (hostOps14_W : List (Ref sig .tc)))
      ∧ (∀ w, Pipeline.arrRef spec14 w ≠ r)
      ∧ (r ∉ (hostOps15_W : List (Ref sig .tc)))
      ∧ (∀ w, Pipeline.arrRef spec15 w ≠ r)
      ∧ (r ∉ (hostOps16_W : List (Ref sig .tc)))
      ∧ (∀ w, Pipeline.arrRef spec16 w ≠ r)
      ∧ (r ∉ (hostOps17_W : List (Ref sig .tc)))
      ∧ (∀ w, Pipeline.arrRef spec17 w ≠ r)
      ∧ (r ∉ (hostOps18_W : List (Ref sig .tc)))
      ∧ (∀ w, Pipeline.arrRef spec18 w ≠ r)
      ∧ (r ∉ (hostOps19_W : List (Ref sig .tc)))) :
    W31 m a0 c (Proc.devRef .tc r) = W0 m c (Proc.devRef .tc r) := by
  obtain ⟨h1, h2, h3, h4, h5, h6, h7, h8, h9, h10, h11, h12, h13, h14, h15, h16, h17, h18, h19, h20, h21, h22, h23, h24, h25, h26, h27, h28, h29, h30, h31⟩ := h
  exact (keep31 m a0 c r h31).trans <|
    (keep30 m a0 c r h30).trans <|
    (keep29 m a0 c r h29).trans <|
    (keep28 m a0 c r h28).trans <|
    (keep27 m a0 c r h27).trans <|
    (keep26 m a0 c r h26).trans <|
    (keep25 m a0 c r h25).trans <|
    (keep24 m a0 c r h24).trans <|
    (keep23 m a0 c r h23).trans <|
    (keep22 m a0 c r h22).trans <|
    (keep21 m a0 c r h21).trans <|
    (keep20 m a0 c r h20).trans <|
    (keep19 m a0 c r h19).trans <|
    (keep18 m a0 c r h18).trans <|
    (keep17 m a0 c r h17).trans <|
    (keep16 m a0 c r h16).trans <|
    (keep15 m a0 c r h15).trans <|
    (keep14 m a0 c r h14).trans <|
    (keep13 m a0 c r h13).trans <|
    (keep12 m a0 c r h12).trans <|
    (keep11 m a0 c r h11).trans <|
    (keep10 m a0 c r h10).trans <|
    (keep9 m a0 c r h9).trans <|
    (keep8 m a0 c r h8).trans <|
    (keep7 m a0 c r h7).trans <|
    (keep6 m a0 c r h6).trans <|
    (keep5 m a0 c r h5).trans <|
    (keep4 m a0 c r h4).trans <|
    (keep3 m c r h3).trans <|
    (keep2 m c r h2).trans <|
    (keep1 m c r h1)

theorem W31_main_arg0 (c : Dev nD) : W31 m a0 c (Proc.devRef .tc main_arg0) = W0 m c (Proc.devRef .tc main_arg0) :=
  W31_of_untouched m a0 c main_arg0 (by and_intros <;> decide)
theorem W31_main_arg1 (c : Dev nD) : W31 m a0 c (Proc.devRef .tc main_arg1) = W0 m c (Proc.devRef .tc main_arg1) :=
  W31_of_untouched m a0 c main_arg1 (by and_intros <;> decide)
theorem W31_main_arg2 (c : Dev nD) : W31 m a0 c (Proc.devRef .tc main_arg2) = W0 m c (Proc.devRef .tc main_arg2) :=
  W31_of_untouched m a0 c main_arg2 (by and_intros <;> decide)
theorem W31_main_arg3 (c : Dev nD) : W31 m a0 c (Proc.devRef .tc main_arg3) = W0 m c (Proc.devRef .tc main_arg3) :=
  W31_of_untouched m a0 c main_arg3 (by and_intros <;> decide)
theorem W31_main_arg4 (c : Dev nD) : W31 m a0 c (Proc.devRef .tc main_arg4) = W0 m c (Proc.devRef .tc main_arg4) :=
  W31_of_untouched m a0 c main_arg4 (by and_intros <;> decide)
theorem W31_main_arg5 (c : Dev nD) : W31 m a0 c (Proc.devRef .tc main_arg5) = W0 m c (Proc.devRef .tc main_arg5) :=
  W31_of_untouched m a0 c main_arg5 (by and_intros <;> decide)
theorem W31_main_arg6 (c : Dev nD) : W31 m a0 c (Proc.devRef .tc main_arg6) = W0 m c (Proc.devRef .tc main_arg6) :=
  W31_of_untouched m a0 c main_arg6 (by and_intros <;> decide)
theorem W31_main_arg7 (c : Dev nD) : W31 m a0 c (Proc.devRef .tc main_arg7) = W0 m c (Proc.devRef .tc main_arg7) :=
  W31_of_untouched m a0 c main_arg7 (by and_intros <;> decide)
theorem W31_main_arg8 (c : Dev nD) : W31 m a0 c (Proc.devRef .tc main_arg8) = W0 m c (Proc.devRef .tc main_arg8) :=
  W31_of_untouched m a0 c main_arg8 (by and_intros <;> decide)
theorem W3_main_arg4 (c : Dev nD) : W3 m c (Proc.devRef .tc main_arg4) = W0 m c (Proc.devRef .tc main_arg4) :=
  (keep3 m c main_arg4 (by decide)).trans <| (keep2 m c main_arg4 (by decide)).trans <| (keep1 m c main_arg4 (by decide))
theorem W3_main_arg5 (c : Dev nD) : W3 m c (Proc.devRef .tc main_arg5) = W0 m c (Proc.devRef .tc main_arg5) :=
  (keep3 m c main_arg5 (by decide)).trans <| (keep2 m c main_arg5 (by decide)).trans <| (keep1 m c main_arg5 (by decide))

end Cert.Kernel.Hand

end
-- ==== Proof.KB.Frame.lean ====
import proofs.«402369_j86406152061536_3_alg».proof.Proof.KB.Run
import proofs.«402369_j86406152061536_3_alg».proof.Proof.KB.Keep

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

abbrev core₀ : Dev nD := ⟨0, Nat.one_pos⟩

theorem users_in_range
    (hu : ∀ (c : Dev nD) (x : S16384.Idx), (m ((c.tc : Thread nD τ).loc main_arg4) x : BitVec 32).toNat < 1000000)
    (c : Dev nD) (x : S16384.Idx) : (Vr3 m c main_arg4 x : BitVec 32).toNat < 1000000 := by
  have e : Vr3 m c main_arg4 = m ((c.tc : Thread nD τ).loc main_arg4) := W3_main_arg4 m c
  rw [e]; exact hu c x

theorem items_in_range
    (hi : ∀ (c : Dev nD) (x : S16384.Idx), (m ((c.tc : Thread nD τ).loc main_arg5) x : BitVec 32).toNat < 500000)
    (c : Dev nD) (x : S16384.Idx) : (Vr3 m c main_arg5 x : BitVec 32).toNat < 500000 := by
  have e : Vr3 m c main_arg5 = m ((c.tc : Thread nD τ).loc main_arg5) := W3_main_arg5 m c
  rw [e]; exact hi c x

def tables₀
    (hu : ∀ (c : Dev nD) (x : S16384.Idx), (m ((c.tc : Thread nD τ).loc main_arg4) x : BitVec 32).toNat < 1000000)
    (hi : ∀ (c : Dev nD) (x : S16384.Idx), (m ((c.tc : Thread nD τ).loc main_arg5) x : BitVec 32).toNat < 500000) :
    (pcfg0 (F := F)).Adm :=
  adm0 (Vr3 m) core₀ (users_in_range m hu core₀) (items_in_range m hi core₀)

theorem tables₀_at
    (hu : ∀ (c : Dev nD) (x : S16384.Idx), (m ((c.tc : Thread nD τ).loc main_arg4) x : BitVec 32).toNat < 1000000)
    (hi : ∀ (c : Dev nD) (x : S16384.Idx), (m ((c.tc : Thread nD τ).loc main_arg5) x : BitVec 32).toNat < 500000) :
    TablesAt (tables₀ m hu hi) (Vr3 m) :=
  tablesAt_adm0 (Vr3 m) core₀ (users_in_range m hu core₀) (items_in_range m hi core₀)

theorem frame
    (hu : ∀ (c : Dev nD) (x : S16384.Idx), (m ((c.tc : Thread nD τ).loc main_arg4) x : BitVec 32).toNat < 1000000)
    (hi : ∀ (c : Dev nD) (x : S16384.Idx), (m ((c.tc : Thread nD τ).loc main_arg5) x : BitVec 32).toNat < 500000) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W31_main_arg0 m (tables₀ m hu hi) c),
     (h c _ (mem_uc main_arg1 (by decide))).trans (W31_main_arg1 m (tables₀ m hu hi) c),
     (h c _ (mem_uc main_arg2 (by decide))).trans (W31_main_arg2 m (tables₀ m hu hi) c),
     (h c _ (mem_uc main_arg3 (by decide))).trans (W31_main_arg3 m (tables₀ m hu hi) c),
     (h c _ (mem_uc main_arg4 (by decide))).trans (W31_main_arg4 m (tables₀ m hu hi) c),
     (h c _ (mem_uc main_arg5 (by decide))).trans (W31_main_arg5 m (tables₀ m hu hi) c),
     (h c _ (mem_uc main_arg6 (by decide))).trans (W31_main_arg6 m (tables₀ m hu hi) c),
     (h c _ (mem_uc main_arg7 (by decide))).trans (W31_main_arg7 m (tables₀ m hu hi) c),
     (h c _ (mem_uc main_arg8 (by decide))).trans (W31_main_arg8 m (tables₀ m hu hi) c)⟩)
    (run_main m ρ (tables₀ m hu hi) (tables₀_at m hu hi))

end Cert.Kernel.Hand

end
-- ==== Proof.KI.Reg0.lean ====
import proofs.«402369_j86406152061536_3_alg».proof.Proof.Gen.KernelIdeal.Launch
import proofs.«402369_j86406152061536_3_alg».proof.Proof.Gen.KernelIdeal.Skeleton
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region

variable (a : (pcfg0 (F := F)).Adm)
variable (V : (c : Dev nD) → (b : Ref sig .tc) → Buf (Elt F) ((c : Thread nD τ).loc b))

abbrev r0 : Rect S1x1x64 := Rect.unit (s := S1x1x64) ![0, 0, 0] S1x1x64.size inb_S1x1x64_S1x1x64_0_0_0

def out0_4 (x0 : Vec F S1x1x64 .f32) : Vec F S1x1x64 .f32 := View.canon [⟨r0, k0_pay2 (View.ld x0 r0)⟩]
def out0_5 (x1 : Vec F S1x1x64 .f32) : Vec F S1x1x64 .f32 := View.canon [⟨r0, k0_pay3 (View.ld x1 r0)⟩]
def out0_6 (x2 : Vec F S1x1x64 .f32) : Vec F S1x1x64 .f32 := View.canon [⟨r0, k0_pay4 (View.ld x2 r0)⟩]
def out0_7 (x3 : Vec F S1x1x64 .f32) : Vec F S1x1x64 .f32 := View.canon [⟨r0, k0_pay1 (View.ld x3 r0)⟩]

theorem cover0 (p0 : Vec F S1x1x64 .f32) (y : S1x1x64.Idx) :
    ∃ pc ∈ ([⟨r0, p0⟩] : List (View.Piece (Elt F) S1x1x64 .f32)), y ∈ pc.1.set :=
  View.cover_of_tiled [⟨r0, p0⟩] S1x1x64.size (by rfl) y

set_option maxHeartbeats 1000000 in

theorem sound_kernel0 (c : Dev nD) (E : Set ℕ) (i : grid0.Coords)
    (arg1 : Memref sig .tc .smem S16384 .i32) (harg1 : arg1.IsWhole) (arg2 : Memref sig .tc .smem S16384 .i32) (harg2 : arg2.IsWhole)
    (arg3 : Memref sig .tc .vmem S1x1x64 .f32) (harg3 : arg3.IsWhole) (arg4 : Memref sig .tc .vmem S1x1x64 .f32) (harg4 : arg4.IsWhole)
    (arg5 : Memref sig .tc .vmem S1x1x64 .f32) (harg5 : arg5.IsWhole) (arg6 : Memref sig .tc .vmem S1x1x64 .f32) (harg6 : arg6.IsWhole)
    (arg7 : Memref sig .tc .vmem S1x1x64 .f32) (harg7 : arg7.IsWhole) (arg8 : Memref sig .tc .vmem S1x1x64 .f32) (harg8 : arg8.IsWhole)
    (arg9 : Memref sig .tc .vmem S1x1x64 .f32) (harg9 : arg9.IsWhole) (arg10 : Memref sig .tc .vmem S1x1x64 .f32) (harg10 : arg10.IsWhole)
    (x0 x1 x2 x3 : Vec F S1x1x64 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out0_4 x0) ∗ owns (c : Thread nD τ) arg8 fullShare (out0_5 x1)
            ∗ owns (c : Thread nD τ) arg9 fullShare (out0_6 x2) ∗ owns (c : Thread nD τ) arg10 fullShare (out0_7 x3)) -∗ K ⟨⟩))
      ⊢ wp frame (wpE (defs₀ (F := F)) Variants.none c none) E
          (cc0__gather_norm_kernel i arg1 harg1 arg2 harg2 arg3 harg3 arg4 harg4 arg5 harg5 arg6 harg6 arg7 harg7 arg8 harg8 arg9 harg9 arg10 harg10) K := by
  simp only [cc0__gather_norm_kernel_eq_skeleton]; unfold cc0__gather_norm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  isplitl [H5]
  · iexists _; isplitr
    swap; · iexact H5
    ipureintro
    exact View.read_writes_eq_canon _ _ _ (cover0 _)
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

abbrev st0 (w : Fin (cfg0 a).W) (t : Fin (cfg0 a).N) := ((cfg0 a).win w).stage ((cfg0 a).slots t w)

def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

theorem before0_0_of {c : Dev nD} (dat : Dat τ (Elt F) Unit ℕ (UR sig nD τ) ℕ (cfg0 a) c) (hA : dat.A 0 = V c (Pipeline.arrRef spec0 0))
    (hafter : ∀ t, dat.after 0 t = iblk0 a V c 0 t) (t : Fin (cfg0 a).N) (d) : dat.before 0 t d = iblk0 a V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ (cfg0 a) c) (hA : dat.A 1 = V c (Pipeline.arrRef spec0 1))
    (hafter : ∀ t, dat.after 1 t = iblk0 a V c 1 t) (t : Fin (cfg0 a).N) (d) : dat.before 1 t d = iblk0 a V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ (cfg0 a) c) (hA : dat.A 2 = V c (Pipeline.arrRef spec0 2))
    (hafter : ∀ t, dat.after 2 t = iblk0 a V c 2 t) (t : Fin (cfg0 a).N) (d) : dat.before 2 t d = iblk0 a V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ (cfg0 a) c) (hA : dat.A 3 = V c (Pipeline.arrRef spec0 3))
    (hafter : ∀ t, dat.after 3 t = iblk0 a V c 3 t) (t : Fin (cfg0 a).N) (d) : dat.before 3 t d = iblk0 a V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

def dat0 (c : Dev nD) : Dat τ (Elt F) Unit ℕ (UR sig nD τ) ℕ (cfg0 a) c where
  A w := V c (Pipeline.arrRef spec0 w)
  after w t := match w with
    | ⟨0, _⟩ => iblk0 a V c 0 t
    | ⟨1, _⟩ => iblk0 a V c 1 t
    | ⟨2, _⟩ => iblk0 a V c 2 t
    | ⟨3, _⟩ => iblk0 a V c 3 t
    | ⟨4, _⟩ => out0_4 (iblk0 a V c 0 t)
    | ⟨5, _⟩ => out0_5 (iblk0 a V c 1 t)
    | ⟨6, _⟩ => out0_6 (iblk0 a V c 2 t)
    | ⟨7, _⟩ => out0_7 (iblk0 a V c 3 t)
  Φ _ := iprop(Pipeline.ΦA spec0 c ∗ Pipeline.prefHeld pre0 c (fun _ => fullShare) a.1)
  q _ := fullShare
  owed _ := 0

theorem A_eq0 (c : Dev nD) (w : Fin (cfg0 a).W) : (dat0 a V c).A w = V c (Pipeline.arrRef spec0 w) := by
  dsimp only [dat0]
theorem q_eq0 (c : Dev nD) (w : Fin (cfg0 a).W) : (dat0 a V c).q w = fullShare := by
  dsimp only [dat0]
theorem owed_eq0 (c : Dev nD) (t : Fin ((cfg0 a).N + 1)) : (dat0 a V c).owed t = 0 := by
  dsimp only [dat0]
theorem Φ_eq0 (c : Dev nD) (t : Fin ((cfg0 a).N + 1)) :
    (dat0 a V c).Φ t = iprop(Pipeline.ΦA spec0 c ∗ Pipeline.prefHeld pre0 c (fun _ => fullShare) a.1) := by
  dsimp only [dat0]

theorem after0_0 (c : Dev nD) (t : Fin (cfg0 a).N) : (dat0 a V c).after 0 t = iblk0 a V c 0 t := by dsimp only [dat0]; rfl
theorem after0_1 (c : Dev nD) (t : Fin (cfg0 a).N) : (dat0 a V c).after 1 t = iblk0 a V c 1 t := by dsimp only [dat0]; rfl
theorem after0_2 (c : Dev nD) (t : Fin (cfg0 a).N) : (dat0 a V c).after 2 t = iblk0 a V c 2 t := by dsimp only [dat0]; rfl
theorem after0_3 (c : Dev nD) (t : Fin (cfg0 a).N) : (dat0 a V c).after 3 t = iblk0 a V c 3 t := by dsimp only [dat0]; rfl
theorem after0_4 (c : Dev nD) (t : Fin (cfg0 a).N) : (dat0 a V c).after 4 t = out0_4 (iblk0 a V c 0 t) := by dsimp only [dat0]; rfl
theorem after0_5 (c : Dev nD) (t : Fin (cfg0 a).N) : (dat0 a V c).after 5 t = out0_5 (iblk0 a V c 1 t) := by dsimp only [dat0]; rfl
theorem after0_6 (c : Dev nD) (t : Fin (cfg0 a).N) : (dat0 a V c).after 6 t = out0_6 (iblk0 a V c 2 t) := by dsimp only [dat0]; rfl
theorem after0_7 (c : Dev nD) (t : Fin (cfg0 a).N) : (dat0 a V c).after 7 t = out0_7 (iblk0 a V c 3 t) := by dsimp only [dat0]; rfl

theorem before0_0 (c : Dev nD) (t : Fin (cfg0 a).N) (d) : (dat0 a V c).before 0 t d = iblk0 a V c 0 t :=
  before0_0_of a V (dat0 a V c) (A_eq0 a V c 0) (after0_0 a V c) t d
theorem before0_1 (c : Dev nD) (t : Fin (cfg0 a).N) (d) : (dat0 a V c).before 1 t d = iblk0 a V c 1 t :=
  before0_1_of a V (dat0 a V c) (A_eq0 a V c 1) (after0_1 a V c) t d
theorem before0_2 (c : Dev nD) (t : Fin (cfg0 a).N) (d) : (dat0 a V c).before 2 t d = iblk0 a V c 2 t :=
  before0_2_of a V (dat0 a V c) (A_eq0 a V c 2) (after0_2 a V c) t d
theorem before0_3 (c : Dev nD) (t : Fin (cfg0 a).N) (d) : (dat0 a V c).before 3 t d = iblk0 a V c 3 t :=
  before0_3_of a V (dat0 a V c) (A_eq0 a V c 3) (after0_3 a V c) t d

abbrev bodyAt0 (t : Fin (cfg0 a).N) : Prog (TpuEff nD τ sig (Elt F) Λ₀ .tc) PUnit :=
  cc0__gather_norm_kernel (grid0.coords t) (Memref.whole main_arg4) (Memref.isWhole_whole _) (Memref.whole main_arg5) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (spec0_5.stage ((cfg0 a).slots t 5)) (hstage0_5 (((cfg0 a).slots t 5).cast nbuf0_5))
    (spec0_6.stage ((cfg0 a).slots t 6)) (hstage0_6 (((cfg0 a).slots t 6).cast nbuf0_6))
    (spec0_7.stage ((cfg0 a).slots t 7)) (hstage0_7 (((cfg0 a).slots t 7).cast nbuf0_7))

def bodyPre0 (c : Dev nD) (t : Fin (cfg0 a).N) : sProp 𝕄 :=
  iprop((dat0 a V c).Φ t.castSucc ∗ (dat0 a V c).owesAt () t.castSucc
    ∗ (∃ d, owns (c : Thread nD τ) (st0 a 0 t) fullShare ((dat0 a V c).before 0 t d))
    ∗ (∃ d, owns (c : Thread nD τ) (st0 a 1 t) fullShare ((dat0 a V c).before 1 t d))
    ∗ (∃ d, owns (c : Thread nD τ) (st0 a 2 t) fullShare ((dat0 a V c).before 2 t d))
    ∗ (∃ d, owns (c : Thread nD τ) (st0 a 3 t) fullShare ((dat0 a V c).before 3 t d))
    ∗ (∃ d, owns (c : Thread nD τ) (st0 a 4 t) fullShare ((dat0 a V c).before 4 t d))
    ∗ (∃ d, owns (c : Thread nD τ) (st0 a 5 t) fullShare ((dat0 a V c).before 5 t d))
    ∗ (∃ d, owns (c : Thread nD τ) (st0 a 6 t) fullShare ((dat0 a V c).before 6 t d))
    ∗ (∃ d, owns (c : Thread nD τ) (st0 a 7 t) fullShare ((dat0 a V c).before 7 t d)))

def bodyPost0 (c : Dev nD) (t : Fin (cfg0 a).N) : sProp 𝕄 :=
  iprop((dat0 a V c).Φ t.succ ∗ (dat0 a V c).owesAt () t.succ
    ∗ owns (c : Thread nD τ) (st0 a 0 t) fullShare ((dat0 a V c).after 0 t)
    ∗ owns (c : Thread nD τ) (st0 a 1 t) fullShare ((dat0 a V c).after 1 t)
    ∗ owns (c : Thread nD τ) (st0 a 2 t) fullShare ((dat0 a V c).after 2 t)
    ∗ owns (c : Thread nD τ) (st0 a 3 t) fullShare ((dat0 a V c).after 3 t)
    ∗ owns (c : Thread nD τ) (st0 a 4 t) fullShare ((dat0 a V c).after 4 t)
    ∗ owns (c : Thread nD τ) (st0 a 5 t) fullShare ((dat0 a V c).after 5 t)
    ∗ owns (c : Thread nD τ) (st0 a 6 t) fullShare ((dat0 a V c).after 6 t)
    ∗ owns (c : Thread nD τ) (st0 a 7 t) fullShare ((dat0 a V c).after 7 t))

theorem sound_body0 (c : Dev nD) (t : Fin (cfg0 a).N) :
    bodyPre0 a V c t ⊢ wp frame (wpE (defs₀ (F := F)) Variants.none c none) Set.univ (bodyAt0 a t) (fun _ => bodyPost0 a V c t) := by
  unfold bodyPre0 bodyPost0 bodyAt0
  simp only [before0_0, before0_1, before0_2, before0_3]
  rw [show (dat0 a V c).Φ t.succ = (dat0 a V c).Φ t.castSucc from rfl,
    show (dat0 a V c).owesAt () t.succ = (dat0 a V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ _ _ _ _ (iblk0 a V c 0 t) (iblk0 a V c 1 t) (iblk0 a V c 2 t) (iblk0 a V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) a V c) (defs₀ (F := F)) Variants.none () Set.univ := fun t => by
  rw [bigSep_W0, bigSep_W0]
  exact sound_body0 a V c t

theorem hin0 (c : Dev nD) :
    iprop((∃ r, prngReg c r) ∗ Pipeline.prefHeld pre0 c (fun _ => fullShare) a.1 ∗ Pipeline.scopedRest spec0 c) ⊢ (dat0 a V c).Φ 0 := by
  rw [Φ_eq0]; unfold Pipeline.ΦA
  iintro ⟨Hp, Ht, Hr⟩
  isplitl [Hr Hp]
  · isplitl [Hr]; · iexact Hr
    iexact Hp
  iexact Ht

theorem hout0 (c : Dev nD) :
    (dat0 a V c).Φ (Fin.last (cfg0 a).N) ⊢ iprop((∃ r, prngReg c r) ∗ Pipeline.prefHeld pre0 c (fun _ => fullShare) a.1 ∗ Pipeline.scopedRest spec0 c) := by
  rw [Φ_eq0]; unfold Pipeline.ΦA
  iintro ⟨⟨Hr, Hp⟩, Ht⟩
  isplitl [Hp]; · iexact Hp
  isplitl [Ht]; · iexact Ht
  iexact Hr

end Region

def tbl0 (V : (c : Dev nD) → (b : Ref sig .tc) → Buf (Elt F) ((c : Thread nD τ).loc b)) (c : Dev nD) : pre0.Contents (Elt F) :=
  fun k => V c (pre0.ref k)

def TablesAt (a : (pcfg0 (F := F)).Adm) (V : (c : Dev nD) → (b : Ref sig .tc) → Buf (Elt F) ((c : Thread nD τ).loc b)) : Prop :=
  ∀ c : Dev nD, a.1 = tbl0 V c

def rest0 (a : (pcfg0 (F := F)).Adm) (V : (c : Dev nD) → (b : Ref sig .tc) → Buf (Elt F) ((c : Thread nD τ).loc b)) (c : Dev nD) : sProp 𝕄 :=
  Pipeline.unscopedRestP pre0 spec0 c (V c)

theorem carve0_eq (a : (pcfg0 (F := F)).Adm) (V : (c : Dev nD) → (b : Ref sig .tc) → Buf (Elt F) ((c : Thread nD τ).loc b))
    (hT : TablesAt a V) (c : Dev nD) :
    (Pipeline.unscopedRest spec0 c (V c) : sProp 𝕄) = iprop(Pipeline.prefHeld pre0 c (fun _ => fullShare) a.1 ∗ rest0 a V c) := by
  rw [Pipeline.unscopedRest_split preFacts0 c (V c), hT c]; rfl

theorem carve0 (a : (pcfg0 (F := F)).Adm) (V : (c : Dev nD) → (b : Ref sig .tc) → Buf (Elt F) ((c : Thread nD τ).loc b))
    (hT : TablesAt a V) (c : Dev nD) :
    (Pipeline.unscopedRest spec0 c (V c) : sProp 𝕄) ⊢ iprop(Pipeline.prefHeld pre0 c (fun _ => fullShare) a.1 ∗ rest0 a V c) := by
  rw [carve0_eq a V hT c]

theorem uncarve0 (a : (pcfg0 (F := F)).Adm) (V : (c : Dev nD) → (b : Ref sig .tc) → Buf (Elt F) ((c : Thread nD τ).loc b))
    (hT : TablesAt a V) (c : Dev nD) :
    iprop(Pipeline.prefHeld pre0 c (fun _ => fullShare) a.1 ∗ rest0 a V c) ⊢ (Pipeline.unscopedRest spec0 c (V c) : sProp 𝕄) := by
  rw [carve0_eq a V hT c]

theorem ok0_of (pf : pre0.Contents (Elt F))
    (hu : ∀ x : S16384.Idx, (pf 0 x : BitVec 32).toNat < 1000000)
    (hi : ∀ x : S16384.Idx, (pf 1 x : BitVec 32).toNat < 500000) : ok0 pf := by
  refine ⟨fun i => ⟨fun ax => ?_, .inl rfl⟩, fun i => ⟨fun ax => ?_, .inl rfl⟩, fun i => ⟨fun ax => ?_, .inl rfl⟩, fun i => ⟨fun ax => ?_, .inl rfl⟩⟩
  · match ax with
    | ⟨0, _⟩ => show (BitVec.toNat (pf 0 _) + 1) * 1 ≤ 1000000; exact (Nat.mul_one _).le.trans (hu _)
    | ⟨1, _⟩ => show (0 + 1) * 1 ≤ 1; exact Nat.le_refl _
    | ⟨2, _⟩ => show (0 + 1) * 64 ≤ 64; exact Nat.le_refl _
  · match ax with
    | ⟨0, _⟩ => show (BitVec.toNat (pf 1 _) + 1) * 1 ≤ 500000; exact (Nat.mul_one _).le.trans (hi _)
    | ⟨1, _⟩ => show (0 + 1) * 1 ≤ 1; exact Nat.le_refl _
    | ⟨2, _⟩ => show (0 + 1) * 64 ≤ 64; exact Nat.le_refl _
  · match ax with
    | ⟨0, _⟩ => show (BitVec.toNat (pf 1 _) + 1) * 1 ≤ 500000; exact (Nat.mul_one _).le.trans (hi _)
    | ⟨1, _⟩ => show (0 + 1) * 1 ≤ 1; exact Nat.le_refl _
    | ⟨2, _⟩ => show (0 + 1) * 64 ≤ 64; exact Nat.le_refl _
  · match ax with
    | ⟨0, _⟩ => show (BitVec.toNat (pf 1 _) + 1) * 1 ≤ 500000; exact (Nat.mul_one _).le.trans (hi _)
    | ⟨1, _⟩ => show (0 + 1) * 1 ≤ 1; exact Nat.le_refl _
    | ⟨2, _⟩ => show (0 + 1) * 64 ≤ 64; exact Nat.le_refl _

def adm0 (V : (c : Dev nD) → (b : Ref sig .tc) → Buf (Elt F) ((c : Thread nD τ).loc b)) (c : Dev nD)
    (hu : ∀ x : S16384.Idx, (V c main_arg4 x : BitVec 32).toNat < 1000000)
    (hi : ∀ x : S16384.Idx, (V c main_arg5 x : BitVec 32).toNat < 500000) : (pcfg0 (F := F)).Adm :=
  ⟨tbl0 V c, ok0_of (tbl0 V c) hu hi⟩

theorem adm0_val (V : (c : Dev nD) → (b : Ref sig .tc) → Buf (Elt F) ((c : Thread nD τ).loc b)) (c : Dev nD) (hu) (hi) :
    (adm0 V c hu hi).1 = tbl0 V c := rfl

theorem tablesAt_adm0 (V : (c : Dev nD) → (b : Ref sig .tc) → Buf (Elt F) ((c : Thread nD τ).loc b)) (c : Dev nD) (hu) (hi) :
    TablesAt (adm0 V c hu hi) V := fun c' => by
  rw [Subsingleton.elim c' c]; rfl

end Cert.KernelIdeal.Hand

end
-- ==== Proof.KI.Reg1.lean ====
import proofs.«402369_j86406152061536_3_alg».proof.Proof.Gen.KernelIdeal.Launch
import proofs.«402369_j86406152061536_3_alg».proof.Proof.Gen.KernelIdeal.Skeleton
import proofs.«402369_j86406152061536_3_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t :=
  (dat.before_in_eq_fetched 0 rfl (fun _ => rfl) (fun _ _ _ => rfl)
      (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t :=
  (dat.before_in_eq_fetched 1 rfl (fun _ => rfl) (fun _ _ _ => rfl)
      (fun t => by rw [hafter]; unfold Dat.blockOf iblk1; rw [hA]; try rfl) t d).trans
    (by unfold Dat.fetched Dat.blockOf iblk1; rw [hA]; try rfl)

abbrev r1_0 : Rect S4096x64 := Rect.unit (s := S4096x64) ![0, 0] S4096x64.size inb_S4096x64_S4096x64_0_0
abbrev r1_1 : Rect S64x256 := Rect.unit (s := S64x256) ![0, 0] S64x256.size inb_S64x256_S64x256_0_0
abbrev r1_2 : Rect S4096x256 := Rect.unit (s := S4096x256) ![0, 0] S4096x256.size inb_S4096x256_S4096x256_0_0

def out1_2 (x0 : Vec F S4096x64 .f32) (x1 : Vec F S64x256 .f32) : Vec F S4096x256 .f32 :=
  View.canon [⟨r1_2, k1_pay1 (View.ld x0 r1_0) (View.ld x1 r1_1)⟩]

theorem cover1_2 (p0 : Vec F S4096x256 .f32) (y : S4096x256.Idx) :
    ∃ pc ∈ ([⟨r1_2, p0⟩] : List (View.Piece (Elt F) S4096x256 .f32)), y ∈ pc.1.set :=
  View.cover_of_tiled [⟨r1_2, p0⟩] S4096x256.size (by rfl) y

set_option maxHeartbeats 1000000 in

theorem sound_kernel1 (c : Dev nD) (E : Set ℕ) (i : grid1.Coords)
    (arg1 : Memref sig .tc .vmem S4096x64 .f32) (harg1 : arg1.IsWhole)
    (arg2 : Memref sig .tc .vmem S64x256 .f32) (harg2 : arg2.IsWhole)
    (arg3 : Memref sig .tc .vmem S4096x256 .f32) (harg3 : arg3.IsWhole)
    (x0 : Vec F S4096x64 .f32) (x1 : Vec F S64x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E
          (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := by
  dsimp only [dat1]

theorem owed_eq1 (c : Dev nD) (t : Fin (cfg1.N + 1)) : (dat1 V c).owed t = 0 := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t)
      (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) :
    BodyObligation (dat1 (F := F) V c) (defs₀ (F := F)) Variants.none () Set.univ := fun t => by
  rw [bigSep_W1, bigSep_W1]
  exact sound_body1 V c t

theorem hin1 (c : Dev nD) (T : sProp 𝕄) :
    iprop((∃ r, prngReg c r) ∗ T
        ∗ Pipeline.scopedRest (Ix := Unit) (Name := ℕ) (U := UR sig nD τ) (Lvl := ℕ) (Val := Elt F) spec1 c)
      ⊢ (dat1 V c).Φ 0 := by
  rw [show (dat1 V c).Φ 0 = Pipeline.ΦA spec1 c from rfl]; unfold Pipeline.ΦA
  iintro ⟨Hp, -, Hr⟩
  isplitl [Hr]; · iexact Hr
  iexact Hp

theorem hout1 (c : Dev nD) :
    (dat1 V c).Φ (Fin.last cfg1.N)
      ⊢ iprop((∃ r, prngReg c r)
        ∗ Pipeline.scopedRest (Ix := Unit) (Name := ℕ) (U := UR sig nD τ) (Lvl := ℕ) (Val := Elt F) spec1 c) := by
  rw [show (dat1 V c).Φ (Fin.last _) = Pipeline.ΦA spec1 c from rfl]; unfold Pipeline.ΦA
  iintro ⟨Hr, Hp⟩
  isplitl [Hp]; · iexact Hp
  iexact Hr

end Cert.KernelIdeal.Hand

end
-- ==== Proof.KI.Reg2.lean ====
import proofs.«402369_j86406152061536_3_alg».proof.Proof.Gen.KernelIdeal.Launch
import proofs.«402369_j86406152061536_3_alg».proof.Proof.Gen.KernelIdeal.Skeleton
import proofs.«402369_j86406152061536_3_alg».proof.Proof.Gen.KernelIdeal.Points
import proofs.«402369_j86406152061536_3_alg».proof.Proof.KI.Reg1
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c)
    (hA : dat.A 0 = V c (Pipeline.arrRef spec2 0)) (hafter : ∀ t, dat.after 0 t = iblk2 V c 0 t)
    (t : Fin cfg2.N) (d) : dat.before 0 t d = iblk2 V c 0 t :=
  (dat.before_in_eq_fetched 0 rfl (fun _ => rfl) (fun _ _ _ => rfl)
      (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c)
    (hA : dat.A 1 = V c (Pipeline.arrRef spec2 1)) (hafter : ∀ t, dat.after 1 t = iblk2 V c 1 t)
    (t : Fin cfg2.N) (d) : dat.before 1 t d = iblk2 V c 1 t :=
  (dat.before_in_eq_fetched 1 rfl (fun _ => rfl) (fun _ _ _ => rfl)
      (fun t => by rw [hafter]; unfold Dat.blockOf iblk2; rw [hA]; try rfl) t d).trans
    (by unfold Dat.fetched Dat.blockOf iblk2; rw [hA]; try rfl)

abbrev r2_0 : Rect S4096x64 := Rect.unit (s := S4096x64) ![0, 0] S4096x64.size inb_S4096x64_S4096x64_0_0
abbrev r2_1 : Rect S64x256 := Rect.unit (s := S64x256) ![0, 0] S64x256.size inb_S64x256_S64x256_0_0
abbrev r2_2 : Rect S4096x256 := Rect.unit (s := S4096x256) ![0, 0] S4096x256.size inb_S4096x256_S4096x256_0_0

def out2_2 (x0 : Vec F S4096x64 .f32) (x1 : Vec F S64x256 .f32) : Vec F S4096x256 .f32 :=
  View.canon [⟨r2_2, k2_pay1 (View.ld x0 r2_0) (View.ld x1 r2_1)⟩]

theorem cover2_2 (p0 : Vec F S4096x256 .f32) (y : S4096x256.Idx) :
    ∃ pc ∈ ([⟨r2_2, p0⟩] : List (View.Piece (Elt F) S4096x256 .f32)), y ∈ pc.1.set :=
  View.cover_of_tiled [⟨r2_2, p0⟩] S4096x256.size (by rfl) y

theorem sound_kernel2 (c : Dev nD) (E : Set ℕ) (i : grid2.Coords)
    (arg1 : Memref sig .tc .vmem S4096x64 .f32) (harg1 : arg1.IsWhole)
    (arg2 : Memref sig .tc .vmem S64x256 .f32) (harg2 : arg2.IsWhole)
    (arg3 : Memref sig .tc .vmem S4096x256 .f32) (harg3 : arg3.IsWhole)
    (x0 : Vec F S4096x64 .f32) (x1 : Vec F S64x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E
          (cc2__matmul_kernel i arg1 harg1 arg2 harg2 arg3 harg3) K :=
  sound_kernel1 c E i arg1 harg1 arg2 harg2 arg3 harg3 x0 x1 K

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem q_eq2 (c : Dev nD) (w : Fin cfg2.W) : (dat2 V c).q w = fullShare := by
  dsimp only [dat2]

theorem owed_eq2 (c : Dev nD) (t : Fin (cfg2.N + 1)) : (dat2 V c).owed t = 0 := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t)
      (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) :
    BodyObligation (dat2 (F := F) V c) (defs₀ (F := F)) Variants.none () Set.univ := fun t => by
  rw [bigSep_W2, bigSep_W2]
  exact sound_body2 V c t

theorem hin2 (c : Dev nD) (T : sProp 𝕄) :
    iprop((∃ r, prngReg c r) ∗ T
        ∗ Pipeline.scopedRest (Ix := Unit) (Name := ℕ) (U := UR sig nD τ) (Lvl := ℕ) (Val := Elt F) spec2 c)
      ⊢ (dat2 V c).Φ 0 := by
  rw [show (dat2 V c).Φ 0 = Pipeline.ΦA spec2 c from rfl]; unfold Pipeline.ΦA
  iintro ⟨Hp, -, Hr⟩
  isplitl [Hr]; · iexact Hr
  iexact Hp

theorem hout2 (c : Dev nD) :
    (dat2 V c).Φ (Fin.last cfg2.N)
      ⊢ iprop((∃ r, prngReg c r)
        ∗ Pipeline.scopedRest (Ix := Unit) (Name := ℕ) (U := UR sig nD τ) (Lvl := ℕ) (Val := Elt F) spec2 c) := by
  rw [show (dat2 V c).Φ (Fin.last _) = Pipeline.ΦA spec2 c from rfl]; unfold Pipeline.ΦA
  iintro ⟨Hr, Hp⟩
  isplitl [Hp]; · iexact Hp
  iexact Hr

end Cert.KernelIdeal.Hand

end
-- ==== Proof.KI.Reg3.lean ====
import proofs.«402369_j86406152061536_3_alg».proof.Proof.Gen.KernelIdeal.Launch
import proofs.«402369_j86406152061536_3_alg».proof.Proof.Gen.KernelIdeal.Skeleton
import proofs.«402369_j86406152061536_3_alg».proof.Proof.Gen.KernelIdeal.Points
import proofs.«402369_j86406152061536_3_alg».proof.Proof.KI.Reg1
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c)
    (hA : dat.A 0 = V c (Pipeline.arrRef spec3 0)) (hafter : ∀ t, dat.after 0 t = iblk3 V c 0 t)
    (t : Fin cfg3.N) (d) : dat.before 0 t d = iblk3 V c 0 t :=
  (dat.before_in_eq_fetched 0 rfl (fun _ => rfl) (fun _ _ _ => rfl)
      (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c)
    (hA : dat.A 1 = V c (Pipeline.arrRef spec3 1)) (hafter : ∀ t, dat.after 1 t = iblk3 V c 1 t)
    (t : Fin cfg3.N) (d) : dat.before 1 t d = iblk3 V c 1 t :=
  (dat.before_in_eq_fetched 1 rfl (fun _ => rfl) (fun _ _ _ => rfl)
      (fun t => by rw [hafter]; unfold Dat.blockOf iblk3; rw [hA]; try rfl) t d).trans
    (by unfold Dat.fetched Dat.blockOf iblk3; rw [hA]; try rfl)

abbrev r3_0 : Rect S4096x64 := Rect.unit (s := S4096x64) ![0, 0] S4096x64.size inb_S4096x64_S4096x64_0_0
abbrev r3_1 : Rect S64x256 := Rect.unit (s := S64x256) ![0, 0] S64x256.size inb_S64x256_S64x256_0_0
abbrev r3_2 : Rect S4096x256 := Rect.unit (s := S4096x256) ![0, 0] S4096x256.size inb_S4096x256_S4096x256_0_0

def out3_2 (x0 : Vec F S4096x64 .f32) (x1 : Vec F S64x256 .f32) : Vec F S4096x256 .f32 :=
  View.canon [⟨r3_2, k3_pay1 (View.ld x0 r3_0) (View.ld x1 r3_1)⟩]

theorem cover3_2 (p0 : Vec F S4096x256 .f32) (y : S4096x256.Idx) :
    ∃ pc ∈ ([⟨r3_2, p0⟩] : List (View.Piece (Elt F) S4096x256 .f32)), y ∈ pc.1.set :=
  View.cover_of_tiled [⟨r3_2, p0⟩] S4096x256.size (by rfl) y

theorem sound_kernel3 (c : Dev nD) (E : Set ℕ) (i : grid3.Coords)
    (arg1 : Memref sig .tc .vmem S4096x64 .f32) (harg1 : arg1.IsWhole)
    (arg2 : Memref sig .tc .vmem S64x256 .f32) (harg2 : arg2.IsWhole)
    (arg3 : Memref sig .tc .vmem S4096x256 .f32) (harg3 : arg3.IsWhole)
    (x0 : Vec F S4096x64 .f32) (x1 : Vec F S64x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E
          (cc3__matmul_kernel i arg1 harg1 arg2 harg2 arg3 harg3) K :=
  sound_kernel1 c E i arg1 harg1 arg2 harg2 arg3 harg3 x0 x1 K

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem q_eq3 (c : Dev nD) (w : Fin cfg3.W) : (dat3 V c).q w = fullShare := by
  dsimp only [dat3]

theorem owed_eq3 (c : Dev nD) (t : Fin (cfg3.N + 1)) : (dat3 V c).owed t = 0 := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t)
      (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) :
    BodyObligation (dat3 (F := F) V c) (defs₀ (F := F)) Variants.none () Set.univ := fun t => by
  rw [bigSep_W3, bigSep_W3]
  exact sound_body3 V c t

theorem hin3 (c : Dev nD) (T : sProp 𝕄) :
    iprop((∃ r, prngReg c r) ∗ T
        ∗ Pipeline.scopedRest (Ix := Unit) (Name := ℕ) (U := UR sig nD τ) (Lvl := ℕ) (Val := Elt F) spec3 c)
      ⊢ (dat3 V c).Φ 0 := by
  rw [show (dat3 V c).Φ 0 = Pipeline.ΦA spec3 c from rfl]; unfold Pipeline.ΦA
  iintro ⟨Hp, -, Hr⟩
  isplitl [Hr]; · iexact Hr
  iexact Hp

theorem hout3 (c : Dev nD) :
    (dat3 V c).Φ (Fin.last cfg3.N)
      ⊢ iprop((∃ r, prngReg c r)
        ∗ Pipeline.scopedRest (Ix := Unit) (Name := ℕ) (U := UR sig nD τ) (Lvl := ℕ) (Val := Elt F) spec3 c) := by
  rw [show (dat3 V c).Φ (Fin.last _) = Pipeline.ΦA spec3 c from rfl]; unfold Pipeline.ΦA
  iintro ⟨Hr, Hp⟩
  isplitl [Hp]; · iexact Hp
  iexact Hr

end Cert.KernelIdeal.Hand

end
-- ==== Proof.KI.Reg4.lean ====
import proofs.«402369_j86406152061536_3_alg».proof.Proof.Gen.KernelIdeal.Launch
import proofs.«402369_j86406152061536_3_alg».proof.Proof.Gen.KernelIdeal.Skeleton
import proofs.«402369_j86406152061536_3_alg».proof.Proof.Gen.KernelIdeal.Points
import proofs.«402369_j86406152061536_3_alg».proof.Proof.KI.Reg1
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c)
    (hA : dat.A 0 = V c (Pipeline.arrRef spec4 0)) (hafter : ∀ t, dat.after 0 t = iblk4 V c 0 t)
    (t : Fin cfg4.N) (d) : dat.before 0 t d = iblk4 V c 0 t :=
  (dat.before_in_eq_fetched 0 rfl (fun _ => rfl) (fun _ _ _ => rfl)
      (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c)
    (hA : dat.A 1 = V c (Pipeline.arrRef spec4 1)) (hafter : ∀ t, dat.after 1 t = iblk4 V c 1 t)
    (t : Fin cfg4.N) (d) : dat.before 1 t d = iblk4 V c 1 t :=
  (dat.before_in_eq_fetched 1 rfl (fun _ => rfl) (fun _ _ _ => rfl)
      (fun t => by rw [hafter]; unfold Dat.blockOf iblk4; rw [hA]; try rfl) t d).trans
    (by unfold Dat.fetched Dat.blockOf iblk4; rw [hA]; try rfl)

abbrev r4_0 : Rect S4096x64 := Rect.unit (s := S4096x64) ![0, 0] S4096x64.size inb_S4096x64_S4096x64_0_0
abbrev r4_1 : Rect S64x256 := Rect.unit (s := S64x256) ![0, 0] S64x256.size inb_S64x256_S64x256_0_0
abbrev r4_2 : Rect S4096x256 := Rect.unit (s := S4096x256) ![0, 0] S4096x256.size inb_S4096x256_S4096x256_0_0

def out4_2 (x0 : Vec F S4096x64 .f32) (x1 : Vec F S64x256 .f32) : Vec F S4096x256 .f32 :=
  View.canon [⟨r4_2, k4_pay1 (View.ld x0 r4_0) (View.ld x1 r4_1)⟩]

theorem cover4_2 (p0 : Vec F S4096x256 .f32) (y : S4096x256.Idx) :
    ∃ pc ∈ ([⟨r4_2, p0⟩] : List (View.Piece (Elt F) S4096x256 .f32)), y ∈ pc.1.set :=
  View.cover_of_tiled [⟨r4_2, p0⟩] S4096x256.size (by rfl) y

theorem sound_kernel4 (c : Dev nD) (E : Set ℕ) (i : grid4.Coords)
    (arg1 : Memref sig .tc .vmem S4096x64 .f32) (harg1 : arg1.IsWhole)
    (arg2 : Memref sig .tc .vmem S64x256 .f32) (harg2 : arg2.IsWhole)
    (arg3 : Memref sig .tc .vmem S4096x256 .f32) (harg3 : arg3.IsWhole)
    (x0 : Vec F S4096x64 .f32) (x1 : Vec F S64x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E
          (cc4__matmul_kernel i arg1 harg1 arg2 harg2 arg3 harg3) K :=
  sound_kernel1 c E i arg1 harg1 arg2 harg2 arg3 harg3 x0 x1 K

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem q_eq4 (c : Dev nD) (w : Fin cfg4.W) : (dat4 V c).q w = fullShare := by
  dsimp only [dat4]

theorem owed_eq4 (c : Dev nD) (t : Fin (cfg4.N + 1)) : (dat4 V c).owed t = 0 := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t)
      (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) :
    BodyObligation (dat4 (F := F) V c) (defs₀ (F := F)) Variants.none () Set.univ := fun t => by
  rw [bigSep_W4, bigSep_W4]
  exact sound_body4 V c t

theorem hin4 (c : Dev nD) (T : sProp 𝕄) :
    iprop((∃ r, prngReg c r) ∗ T
        ∗ Pipeline.scopedRest (Ix := Unit) (Name := ℕ) (U := UR sig nD τ) (Lvl := ℕ) (Val := Elt F) spec4 c)
      ⊢ (dat4 V c).Φ 0 := by
  rw [show (dat4 V c).Φ 0 = Pipeline.ΦA spec4 c from rfl]; unfold Pipeline.ΦA
  iintro ⟨Hp, -, Hr⟩
  isplitl [Hr]; · iexact Hr
  iexact Hp

theorem hout4 (c : Dev nD) :
    (dat4 V c).Φ (Fin.last cfg4.N)
      ⊢ iprop((∃ r, prngReg c r)
        ∗ Pipeline.scopedRest (Ix := Unit) (Name := ℕ) (U := UR sig nD τ) (Lvl := ℕ) (Val := Elt F) spec4 c) := by
  rw [show (dat4 V c).Φ (Fin.last _) = Pipeline.ΦA spec4 c from rfl]; unfold Pipeline.ΦA
  iintro ⟨Hr, Hp⟩
  isplitl [Hp]; · iexact Hp
  iexact Hr

end Cert.KernelIdeal.Hand

end
-- ==== Proof.KI.Reg5.lean ====
import proofs.«402369_j86406152061536_3_alg».proof.Proof.Gen.KernelIdeal.Launch
import proofs.«402369_j86406152061536_3_alg».proof.Proof.Gen.KernelIdeal.Skeleton
import proofs.«402369_j86406152061536_3_alg».proof.Proof.Gen.KernelIdeal.Points
import proofs.«402369_j86406152061536_3_alg».proof.Proof.KI.Reg1
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c)
    (hA : dat.A 0 = V c (Pipeline.arrRef spec5 0)) (hafter : ∀ t, dat.after 0 t = iblk5 V c 0 t)
    (t : Fin cfg5.N) (d) : dat.before 0 t d = iblk5 V c 0 t :=
  (dat.before_in_eq_fetched 0 rfl (fun _ => rfl) (fun _ _ _ => rfl)
      (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c)
    (hA : dat.A 1 = V c (Pipeline.arrRef spec5 1)) (hafter : ∀ t, dat.after 1 t = iblk5 V c 1 t)
    (t : Fin cfg5.N) (d) : dat.before 1 t d = iblk5 V c 1 t :=
  (dat.before_in_eq_fetched 1 rfl (fun _ => rfl) (fun _ _ _ => rfl)
      (fun t => by rw [hafter]; unfold Dat.blockOf iblk5; rw [hA]; try rfl) t d).trans
    (by unfold Dat.fetched Dat.blockOf iblk5; rw [hA]; try rfl)

abbrev r5_0 : Rect S4096x64 := Rect.unit (s := S4096x64) ![0, 0] S4096x64.size inb_S4096x64_S4096x64_0_0
abbrev r5_1 : Rect S64x256 := Rect.unit (s := S64x256) ![0, 0] S64x256.size inb_S64x256_S64x256_0_0
abbrev r5_2 : Rect S4096x256 := Rect.unit (s := S4096x256) ![0, 0] S4096x256.size inb_S4096x256_S4096x256_0_0

def out5_2 (x0 : Vec F S4096x64 .f32) (x1 : Vec F S64x256 .f32) : Vec F S4096x256 .f32 :=
  View.canon [⟨r5_2, k5_pay1 (View.ld x0 r5_0) (View.ld x1 r5_1)⟩]

theorem cover5_2 (p0 : Vec F S4096x256 .f32) (y : S4096x256.Idx) :
    ∃ pc ∈ ([⟨r5_2, p0⟩] : List (View.Piece (Elt F) S4096x256 .f32)), y ∈ pc.1.set :=
  View.cover_of_tiled [⟨r5_2, p0⟩] S4096x256.size (by rfl) y

theorem sound_kernel5 (c : Dev nD) (E : Set ℕ) (i : grid5.Coords)
    (arg1 : Memref sig .tc .vmem S4096x64 .f32) (harg1 : arg1.IsWhole)
    (arg2 : Memref sig .tc .vmem S64x256 .f32) (harg2 : arg2.IsWhole)
    (arg3 : Memref sig .tc .vmem S4096x256 .f32) (harg3 : arg3.IsWhole)
    (x0 : Vec F S4096x64 .f32) (x1 : Vec F S64x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E
          (cc5__matmul_kernel i arg1 harg1 arg2 harg2 arg3 harg3) K :=
  sound_kernel1 c E i arg1 harg1 arg2 harg2 arg3 harg3 x0 x1 K

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem q_eq5 (c : Dev nD) (w : Fin cfg5.W) : (dat5 V c).q w = fullShare := by
  dsimp only [dat5]

theorem owed_eq5 (c : Dev nD) (t : Fin (cfg5.N + 1)) : (dat5 V c).owed t = 0 := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) :
    (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t)
      (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) :
    BodyObligation (dat5 (F := F) V c) (defs₀ (F := F)) Variants.none () Set.univ := fun t => by
  rw [bigSep_W5, bigSep_W5]
  exact sound_body5 V c t

theorem hin5 (c : Dev nD) (T : sProp 𝕄) :
    iprop((∃ r, prngReg c r) ∗ T
        ∗ Pipeline.scopedRest (Ix := Unit) (Name := ℕ) (U := UR sig nD τ) (Lvl := ℕ) (Val := Elt F) spec5 c)
      ⊢ (dat5 V c).Φ 0 := by
  rw [show (dat5 V c).Φ 0 = Pipeline.ΦA spec5 c from rfl]; unfold Pipeline.ΦA
  iintro ⟨Hp, -, Hr⟩
  isplitl [Hr]; · iexact Hr
  iexact Hp

theorem hout5 (c : Dev nD) :
    (dat5 V c).Φ (Fin.last cfg5.N)
      ⊢ iprop((∃ r, prngReg c r)
        ∗ Pipeline.scopedRest (Ix := Unit) (Name := ℕ) (U := UR sig nD τ) (Lvl := ℕ) (Val := Elt F) spec5 c) := by
  rw [show (dat5 V c).Φ (Fin.last _) = Pipeline.ΦA spec5 c from rfl]; unfold Pipeline.ΦA
  iintro ⟨Hr, Hp⟩
  isplitl [Hp]; · iexact Hp
  iexact Hr

end Cert.KernelIdeal.Hand

end
-- ==== Proof.KI.Reg6.lean ====
import proofs.«402369_j86406152061536_3_alg».proof.Proof.Gen.KernelIdeal.Launch
import proofs.«402369_j86406152061536_3_alg».proof.Proof.Gen.KernelIdeal.Skeleton
import proofs.«402369_j86406152061536_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region6

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S16384x256 := Rect.unit (s := S16384x256) ![0, 0] S16384x256.size inb_S16384x256_S16384x256_0_0

theorem mem6_1 (y : S16384x256.Idx) : y ∈ (r6_0).set := by
  obtain ⟨pc, hm, hy⟩ := View.cover_of_tiled (Val := fun _ => PUnit) (e := .f32) [⟨r6_0, fun _ => ⟨⟩⟩] S16384x256.size (by rfl) y
  rw [List.mem_singleton] at hm; subst hm; exact hy

theorem canon6_1 (w : Vec F S16384x256 .f32) (L : List (View.Piece (Elt F) S16384x256 .f32)) :
    View.canon (⟨r6_0, w⟩ :: L) = View.canon [⟨r6_0, w⟩] := by
  funext y
  obtain ⟨x, rfl⟩ : ∃ x, (r6_0).emb x = y := (r6_0).exists_idx_of_mem (mem6_1 y)
  rw [View.canon_cons_emb, View.canon_cons_emb]

theorem cover6_1 (p0 : Vec F S16384x256 .f32) (L : List (View.Piece (Elt F) S16384x256 .f32)) (y : S16384x256.Idx) :
    ∃ pc ∈ ((⟨r6_0, p0⟩ :: L : List (View.Piece (Elt F) S16384x256 .f32))), y ∈ pc.1.set :=
  ⟨⟨r6_0, p0⟩, List.mem_cons_self, mem6_1 y⟩

def sink6_1 (x0 : Vec F S16384x256 .f32) : Vec F S16384x256 .f32 := k6_pay4 (View.ld x0 r6_0)

def sink6_2 (x0 : Vec F S16384x256 .f32) : Vec F S16384x256 .f32 := k6_pay5 (sink6_1 x0) (sink6_1 x0)

def sink6_3 (x0 : Vec F S16384x256 .f32) : Vec F S16384x256 .f32 := k6_pay6 (sink6_2 x0) (sink6_2 x0)

def sink6_4 (x0 : Vec F S16384x256 .f32) : Vec F S16384x256 .f32 := k6_pay8 (k6_pay7 (sink6_3 x0)) (sink6_3 x0)

def sink6_5 (x0 : Vec F S16384x256 .f32) : Vec F S16384x256 .f32 := k6_pay9 (sink6_4 x0) (sink6_4 x0)

def sink6_6 (x0 : Vec F S16384x256 .f32) : Vec F S16384x256 .f32 := k6_pay10 (sink6_5 x0) (sink6_5 x0)

def sink6_7 (x0 : Vec F S16384x256 .f32) : Vec F S16384x256 .f32 := k6_pay1 (k6_pay11 (sink6_6 x0)) (sink6_6 x0)

def sink6_8 (x0 : Vec F S16384x256 .f32) : Vec F S16384x256 .f32 := k6_pay2 (sink6_7 x0) (sink6_7 x0)

def sink6_9 (x0 : Vec F S16384x256 .f32) : Vec F S16384x256 .f32 := k6_pay3 (sink6_8 x0)

def out6_1 (x0 : Vec F S16384x256 .f32) : Vec F S16384x256 .f32 :=
  View.canon [⟨r6_0, sink6_9 x0⟩]

set_option maxHeartbeats 1000000 in

theorem sound_kernel6 (c : Dev nD) (E : Set ℕ) (i : grid6.Coords) (arg1 : Memref sig .tc .vmem S16384x256 .f32) (harg1 : arg1.IsWhole) (arg2 : Memref sig .tc .vmem S16384x256 .f32) (harg2 : arg2.IsWhole)
    (x0 : Vec F S16384x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out6_1 x0)) -∗ K ⟨⟩))
      ⊢ wp frame (wpE (defs₀ (F := F)) Variants.none c none) E (cc6__sinkhorn_kernel i arg1 harg1 arg2 harg2) K := by
  simp only [cc6__sinkhorn_kernel_eq_skeleton]; unfold cc6__sinkhorn_kernel_skel
  unfold owns
  iintro ⟨⟨%f0, %hf0, H0⟩, ⟨%d1, %f1, -, H1⟩, Hk⟩
  subst hf0
  sl_exec_parts
  sl_step
  iapply Hk
  isplitl [H0]
  · iexists f0; isplitr; · ipureintro; rfl
    iexact H0
  iexists _; isplitr
  swap; · iexact H1
  ipureintro
  rw [View.read_writes_eq_canon _ _ _ (cover6_1 _ _), canon6_1]
  unfold out6_1

  sl_unfold_run_names
  simp only [View.readCov_cons_toLoadRect]
  rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => out6_1 (iblk6 V c 0 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem q_eq6 (c : Dev nD) (w : Fin cfg6.W) : (dat6 V c).q w = fullShare := by
  dsimp only [dat6]

theorem owed_eq6 (c : Dev nD) (t : Fin (cfg6.N + 1)) : (dat6 V c).owed t = 0 := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = out6_1 (iblk6 V c 0 t) := by dsimp only [dat6]

theorem before6_0 (c : Dev nD) (t : Fin cfg6.N) (d) : (dat6 V c).before 0 t d = iblk6 V c 0 t :=
  before6_0_of V (dat6 V c) (A_eq6 V c 0) (after6_0 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0]
  rw [show (dat6 V c).Φ t.succ = (dat6 V c).Φ t.castSucc from rfl,
    show (dat6 V c).owesAt () t.succ = (dat6 V c).owesAt () t.castSucc from rfl,
    after6_0, after6_1]
  iintro ⟨HΦ, Ho, ⟨%d0, H0⟩, ⟨%d1, H1⟩⟩
  iapply (sound_kernel6 c Set.univ _ _ _ _ _ (iblk6 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation6 (c : Dev nD) : BodyObligation (dat6 (F := F) V c) (defs₀ (F := F)) Variants.none () Set.univ := fun t => by
  rw [bigSep_W6, bigSep_W6]
  exact sound_body6 V c t

theorem hin6 (c : Dev nD) (T : sProp 𝕄) :
    iprop((∃ r, prngReg c r) ∗ T ∗ Pipeline.scopedRest (Ix := Unit) (Name := ℕ) (U := UR sig nD τ) (Lvl := ℕ) (Val := Elt F) spec6 c) ⊢ (dat6 V c).Φ 0 := by
  rw [show (dat6 V c).Φ 0 = Pipeline.ΦA spec6 c from rfl]; unfold Pipeline.ΦA
  iintro ⟨Hp, -, Hr⟩
  isplitl [Hr]; · iexact Hr
  iexact Hp

theorem hout6 (c : Dev nD) :
    (dat6 V c).Φ (Fin.last cfg6.N) ⊢ iprop((∃ r, prngReg c r) ∗ Pipeline.scopedRest (Ix := Unit) (Name := ℕ) (U := UR sig nD τ) (Lvl := ℕ) (Val := Elt F) spec6 c) := by
  rw [show (dat6 V c).Φ (Fin.last _) = Pipeline.ΦA spec6 c from rfl]; unfold Pipeline.ΦA
  iintro ⟨Hr, Hp⟩
  isplitl [Hp]; · iexact Hp
  iexact Hr

end Region6

end Cert.KernelIdeal.Hand

end
-- ==== Proof.KI.Reg7.lean ====
import proofs.«402369_j86406152061536_3_alg».proof.Proof.Gen.KernelIdeal.Launch
import proofs.«402369_j86406152061536_3_alg».proof.Proof.Gen.KernelIdeal.Skeleton
import proofs.«402369_j86406152061536_3_alg».proof.Proof.Gen.KernelIdeal.Points
import proofs.«402369_j86406152061536_3_alg».proof.Proof.KI.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region7

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S16384x256 := Rect.unit (s := S16384x256) ![0, 0] S16384x256.size inb_S16384x256_S16384x256_0_0

theorem mem7_1 (y : S16384x256.Idx) : y ∈ (r7_0).set := by
  obtain ⟨pc, hm, hy⟩ := View.cover_of_tiled (Val := fun _ => PUnit) (e := .f32) [⟨r7_0, fun _ => ⟨⟩⟩] S16384x256.size (by rfl) y
  rw [List.mem_singleton] at hm; subst hm; exact hy

theorem canon7_1 (w : Vec F S16384x256 .f32) (L : List (View.Piece (Elt F) S16384x256 .f32)) :
    View.canon (⟨r7_0, w⟩ :: L) = View.canon [⟨r7_0, w⟩] := by
  funext y
  obtain ⟨x, rfl⟩ : ∃ x, (r7_0).emb x = y := (r7_0).exists_idx_of_mem (mem7_1 y)
  rw [View.canon_cons_emb, View.canon_cons_emb]

theorem cover7_1 (p0 : Vec F S16384x256 .f32) (L : List (View.Piece (Elt F) S16384x256 .f32)) (y : S16384x256.Idx) :
    ∃ pc ∈ ((⟨r7_0, p0⟩ :: L : List (View.Piece (Elt F) S16384x256 .f32))), y ∈ pc.1.set :=
  ⟨⟨r7_0, p0⟩, List.mem_cons_self, mem7_1 y⟩

def sink7_1 (x0 : Vec F S16384x256 .f32) : Vec F S16384x256 .f32 := k7_pay4 (View.ld x0 r7_0)

def sink7_2 (x0 : Vec F S16384x256 .f32) : Vec F S16384x256 .f32 := k7_pay5 (sink7_1 x0) (sink7_1 x0)

def sink7_3 (x0 : Vec F S16384x256 .f32) : Vec F S16384x256 .f32 := k7_pay6 (sink7_2 x0) (sink7_2 x0)

def sink7_4 (x0 : Vec F S16384x256 .f32) : Vec F S16384x256 .f32 := k7_pay8 (k7_pay7 (sink7_3 x0)) (sink7_3 x0)

def sink7_5 (x0 : Vec F S16384x256 .f32) : Vec F S16384x256 .f32 := k7_pay9 (sink7_4 x0) (sink7_4 x0)

def sink7_6 (x0 : Vec F S16384x256 .f32) : Vec F S16384x256 .f32 := k7_pay10 (sink7_5 x0) (sink7_5 x0)

def sink7_7 (x0 : Vec F S16384x256 .f32) : Vec F S16384x256 .f32 := k7_pay1 (k7_pay11 (sink7_6 x0)) (sink7_6 x0)

def sink7_8 (x0 : Vec F S16384x256 .f32) : Vec F S16384x256 .f32 := k7_pay2 (sink7_7 x0) (sink7_7 x0)

def sink7_9 (x0 : Vec F S16384x256 .f32) : Vec F S16384x256 .f32 := k7_pay3 (sink7_8 x0)

def out7_1 (x0 : Vec F S16384x256 .f32) : Vec F S16384x256 .f32 :=
  View.canon [⟨r7_0, sink7_9 x0⟩]

theorem sound_kernel7 (c : Dev nD) (E : Set ℕ) (i : grid7.Coords) (arg1 : Memref sig .tc .vmem S16384x256 .f32) (harg1 : arg1.IsWhole) (arg2 : Memref sig .tc .vmem S16384x256 .f32) (harg2 : arg2.IsWhole)
    (x0 : Vec F S16384x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out7_1 x0)) -∗ K ⟨⟩))
      ⊢ wp frame (wpE (defs₀ (F := F)) Variants.none c none) E (cc7__sinkhorn_kernel i arg1 harg1 arg2 harg2) K :=
  sound_kernel6 c E i arg1 harg1 arg2 harg2 x0 K

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => out7_1 (iblk7 V c 0 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem q_eq7 (c : Dev nD) (w : Fin cfg7.W) : (dat7 V c).q w = fullShare := by
  dsimp only [dat7]

theorem owed_eq7 (c : Dev nD) (t : Fin (cfg7.N + 1)) : (dat7 V c).owed t = 0 := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = out7_1 (iblk7 V c 0 t) := by dsimp only [dat7]

theorem before7_0 (c : Dev nD) (t : Fin cfg7.N) (d) : (dat7 V c).before 0 t d = iblk7 V c 0 t :=
  before7_0_of V (dat7 V c) (A_eq7 V c 0) (after7_0 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).Φ t.succ = (dat7 V c).Φ t.castSucc from rfl,
    show (dat7 V c).owesAt () t.succ = (dat7 V c).owesAt () t.castSucc from rfl,
    after7_0, after7_1]
  iintro ⟨HΦ, Ho, ⟨%d0, H0⟩, ⟨%d1, H1⟩⟩
  iapply (sound_kernel7 c Set.univ _ _ _ _ _ (iblk7 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation7 (c : Dev nD) : BodyObligation (dat7 (F := F) V c) (defs₀ (F := F)) Variants.none () Set.univ := fun t => by
  rw [bigSep_W7, bigSep_W7]
  exact sound_body7 V c t

theorem hin7 (c : Dev nD) (T : sProp 𝕄) :
    iprop((∃ r, prngReg c r) ∗ T ∗ Pipeline.scopedRest (Ix := Unit) (Name := ℕ) (U := UR sig nD τ) (Lvl := ℕ) (Val := Elt F) spec7 c) ⊢ (dat7 V c).Φ 0 := by
  rw [show (dat7 V c).Φ 0 = Pipeline.ΦA spec7 c from rfl]; unfold Pipeline.ΦA
  iintro ⟨Hp, -, Hr⟩
  isplitl [Hr]; · iexact Hr
  iexact Hp

theorem hout7 (c : Dev nD) :
    (dat7 V c).Φ (Fin.last cfg7.N) ⊢ iprop((∃ r, prngReg c r) ∗ Pipeline.scopedRest (Ix := Unit) (Name := ℕ) (U := UR sig nD τ) (Lvl := ℕ) (Val := Elt F) spec7 c) := by
  rw [show (dat7 V c).Φ (Fin.last _) = Pipeline.ΦA spec7 c from rfl]; unfold Pipeline.ΦA
  iintro ⟨Hr, Hp⟩
  isplitl [Hp]; · iexact Hp
  iexact Hr

end Region7

end Cert.KernelIdeal.Hand

end
-- ==== Proof.KI.Reg8.lean ====
import proofs.«402369_j86406152061536_3_alg».proof.Proof.Gen.KernelIdeal.Launch
import proofs.«402369_j86406152061536_3_alg».proof.Proof.Gen.KernelIdeal.Skeleton
import proofs.«402369_j86406152061536_3_alg».proof.Proof.Gen.KernelIdeal.Points
import proofs.«402369_j86406152061536_3_alg».proof.Proof.KI.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region8

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

abbrev r8_0 : Rect S16384x256 := Rect.unit (s := S16384x256) ![0, 0] S16384x256.size inb_S16384x256_S16384x256_0_0

theorem mem8_1 (y : S16384x256.Idx) : y ∈ (r8_0).set := by
  obtain ⟨pc, hm, hy⟩ := View.cover_of_tiled (Val := fun _ => PUnit) (e := .f32) [⟨r8_0, fun _ => ⟨⟩⟩] S16384x256.size (by rfl) y
  rw [List.mem_singleton] at hm; subst hm; exact hy

theorem canon8_1 (w : Vec F S16384x256 .f32) (L : List (View.Piece (Elt F) S16384x256 .f32)) :
    View.canon (⟨r8_0, w⟩ :: L) = View.canon [⟨r8_0, w⟩] := by
  funext y
  obtain ⟨x, rfl⟩ : ∃ x, (r8_0).emb x = y := (r8_0).exists_idx_of_mem (mem8_1 y)
  rw [View.canon_cons_emb, View.canon_cons_emb]

theorem cover8_1 (p0 : Vec F S16384x256 .f32) (L : List (View.Piece (Elt F) S16384x256 .f32)) (y : S16384x256.Idx) :
    ∃ pc ∈ ((⟨r8_0, p0⟩ :: L : List (View.Piece (Elt F) S16384x256 .f32))), y ∈ pc.1.set :=
  ⟨⟨r8_0, p0⟩, List.mem_cons_self, mem8_1 y⟩

def sink8_1 (x0 : Vec F S16384x256 .f32) : Vec F S16384x256 .f32 := k8_pay4 (View.ld x0 r8_0)

def sink8_2 (x0 : Vec F S16384x256 .f32) : Vec F S16384x256 .f32 := k8_pay5 (sink8_1 x0) (sink8_1 x0)

def sink8_3 (x0 : Vec F S16384x256 .f32) : Vec F S16384x256 .f32 := k8_pay6 (sink8_2 x0) (sink8_2 x0)

def sink8_4 (x0 : Vec F S16384x256 .f32) : Vec F S16384x256 .f32 := k8_pay8 (k8_pay7 (sink8_3 x0)) (sink8_3 x0)

def sink8_5 (x0 : Vec F S16384x256 .f32) : Vec F S16384x256 .f32 := k8_pay9 (sink8_4 x0) (sink8_4 x0)

def sink8_6 (x0 : Vec F S16384x256 .f32) : Vec F S16384x256 .f32 := k8_pay10 (sink8_5 x0) (sink8_5 x0)

def sink8_7 (x0 : Vec F S16384x256 .f32) : Vec F S16384x256 .f32 := k8_pay1 (k8_pay11 (sink8_6 x0)) (sink8_6 x0)

def sink8_8 (x0 : Vec F S16384x256 .f32) : Vec F S16384x256 .f32 := k8_pay2 (sink8_7 x0) (sink8_7 x0)

def sink8_9 (x0 : Vec F S16384x256 .f32) : Vec F S16384x256 .f32 := k8_pay3 (sink8_8 x0)

def out8_1 (x0 : Vec F S16384x256 .f32) : Vec F S16384x256 .f32 :=
  View.canon [⟨r8_0, sink8_9 x0⟩]

theorem sound_kernel8 (c : Dev nD) (E : Set ℕ) (i : grid8.Coords) (arg1 : Memref sig .tc .vmem S16384x256 .f32) (harg1 : arg1.IsWhole) (arg2 : Memref sig .tc .vmem S16384x256 .f32) (harg2 : arg2.IsWhole)
    (x0 : Vec F S16384x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out8_1 x0)) -∗ K ⟨⟩))
      ⊢ wp frame (wpE (defs₀ (F := F)) Variants.none c none) E (cc8__sinkhorn_kernel i arg1 harg1 arg2 harg2) K :=
  sound_kernel6 c E i arg1 harg1 arg2 harg2 x0 K

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => out8_1 (iblk8 V c 0 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem q_eq8 (c : Dev nD) (w : Fin cfg8.W) : (dat8 V c).q w = fullShare := by
  dsimp only [dat8]

theorem owed_eq8 (c : Dev nD) (t : Fin (cfg8.N + 1)) : (dat8 V c).owed t = 0 := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = out8_1 (iblk8 V c 0 t) := by dsimp only [dat8]

theorem before8_0 (c : Dev nD) (t : Fin cfg8.N) (d) : (dat8 V c).before 0 t d = iblk8 V c 0 t :=
  before8_0_of V (dat8 V c) (A_eq8 V c 0) (after8_0 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0]
  rw [show (dat8 V c).Φ t.succ = (dat8 V c).Φ t.castSucc from rfl,
    show (dat8 V c).owesAt () t.succ = (dat8 V c).owesAt () t.castSucc from rfl,
    after8_0, after8_1]
  iintro ⟨HΦ, Ho, ⟨%d0, H0⟩, ⟨%d1, H1⟩⟩
  iapply (sound_kernel8 c Set.univ _ _ _ _ _ (iblk8 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation8 (c : Dev nD) : BodyObligation (dat8 (F := F) V c) (defs₀ (F := F)) Variants.none () Set.univ := fun t => by
  rw [bigSep_W8, bigSep_W8]
  exact sound_body8 V c t

theorem hin8 (c : Dev nD) (T : sProp 𝕄) :
    iprop((∃ r, prngReg c r) ∗ T ∗ Pipeline.scopedRest (Ix := Unit) (Name := ℕ) (U := UR sig nD τ) (Lvl := ℕ) (Val := Elt F) spec8 c) ⊢ (dat8 V c).Φ 0 := by
  rw [show (dat8 V c).Φ 0 = Pipeline.ΦA spec8 c from rfl]; unfold Pipeline.ΦA
  iintro ⟨Hp, -, Hr⟩
  isplitl [Hr]; · iexact Hr
  iexact Hp

theorem hout8 (c : Dev nD) :
    (dat8 V c).Φ (Fin.last cfg8.N) ⊢ iprop((∃ r, prngReg c r) ∗ Pipeline.scopedRest (Ix := Unit) (Name := ℕ) (U := UR sig nD τ) (Lvl := ℕ) (Val := Elt F) spec8 c) := by
  rw [show (dat8 V c).Φ (Fin.last _) = Pipeline.ΦA spec8 c from rfl]; unfold Pipeline.ΦA
  iintro ⟨Hr, Hp⟩
  isplitl [Hp]; · iexact Hp
  iexact Hr

end Region8

end Cert.KernelIdeal.Hand

end
-- ==== Proof.KI.Reg9.lean ====
import proofs.«402369_j86406152061536_3_alg».proof.Proof.Gen.KernelIdeal.Launch
import proofs.«402369_j86406152061536_3_alg».proof.Proof.Gen.KernelIdeal.Skeleton
import proofs.«402369_j86406152061536_3_alg».proof.Proof.Gen.KernelIdeal.Points
import proofs.«402369_j86406152061536_3_alg».proof.Proof.KI.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region9

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

abbrev r9_0 : Rect S16384x256 := Rect.unit (s := S16384x256) ![0, 0] S16384x256.size inb_S16384x256_S16384x256_0_0

theorem mem9_1 (y : S16384x256.Idx) : y ∈ (r9_0).set := by
  obtain ⟨pc, hm, hy⟩ := View.cover_of_tiled (Val := fun _ => PUnit) (e := .f32) [⟨r9_0, fun _ => ⟨⟩⟩] S16384x256.size (by rfl) y
  rw [List.mem_singleton] at hm; subst hm; exact hy

theorem canon9_1 (w : Vec F S16384x256 .f32) (L : List (View.Piece (Elt F) S16384x256 .f32)) :
    View.canon (⟨r9_0, w⟩ :: L) = View.canon [⟨r9_0, w⟩] := by
  funext y
  obtain ⟨x, rfl⟩ : ∃ x, (r9_0).emb x = y := (r9_0).exists_idx_of_mem (mem9_1 y)
  rw [View.canon_cons_emb, View.canon_cons_emb]

theorem cover9_1 (p0 : Vec F S16384x256 .f32) (L : List (View.Piece (Elt F) S16384x256 .f32)) (y : S16384x256.Idx) :
    ∃ pc ∈ ((⟨r9_0, p0⟩ :: L : List (View.Piece (Elt F) S16384x256 .f32))), y ∈ pc.1.set :=
  ⟨⟨r9_0, p0⟩, List.mem_cons_self, mem9_1 y⟩

def sink9_1 (x0 : Vec F S16384x256 .f32) : Vec F S16384x256 .f32 := k9_pay4 (View.ld x0 r9_0)

def sink9_2 (x0 : Vec F S16384x256 .f32) : Vec F S16384x256 .f32 := k9_pay5 (sink9_1 x0) (sink9_1 x0)

def sink9_3 (x0 : Vec F S16384x256 .f32) : Vec F S16384x256 .f32 := k9_pay6 (sink9_2 x0) (sink9_2 x0)

def sink9_4 (x0 : Vec F S16384x256 .f32) : Vec F S16384x256 .f32 := k9_pay8 (k9_pay7 (sink9_3 x0)) (sink9_3 x0)

def sink9_5 (x0 : Vec F S16384x256 .f32) : Vec F S16384x256 .f32 := k9_pay9 (sink9_4 x0) (sink9_4 x0)

def sink9_6 (x0 : Vec F S16384x256 .f32) : Vec F S16384x256 .f32 := k9_pay10 (sink9_5 x0) (sink9_5 x0)

def sink9_7 (x0 : Vec F S16384x256 .f32) : Vec F S16384x256 .f32 := k9_pay1 (k9_pay11 (sink9_6 x0)) (sink9_6 x0)

def sink9_8 (x0 : Vec F S16384x256 .f32) : Vec F S16384x256 .f32 := k9_pay2 (sink9_7 x0) (sink9_7 x0)

def sink9_9 (x0 : Vec F S16384x256 .f32) : Vec F S16384x256 .f32 := k9_pay3 (sink9_8 x0)

def out9_1 (x0 : Vec F S16384x256 .f32) : Vec F S16384x256 .f32 :=
  View.canon [⟨r9_0, sink9_9 x0⟩]

theorem sound_kernel9 (c : Dev nD) (E : Set ℕ) (i : grid9.Coords) (arg1 : Memref sig .tc .vmem S16384x256 .f32) (harg1 : arg1.IsWhole) (arg2 : Memref sig .tc .vmem S16384x256 .f32) (harg2 : arg2.IsWhole)
    (x0 : Vec F S16384x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out9_1 x0)) -∗ K ⟨⟩))
      ⊢ wp frame (wpE (defs₀ (F := F)) Variants.none c none) E (cc9__sinkhorn_kernel i arg1 harg1 arg2 harg2) K :=
  sound_kernel6 c E i arg1 harg1 arg2 harg2 x0 K

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => out9_1 (iblk9 V c 0 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem q_eq9 (c : Dev nD) (w : Fin cfg9.W) : (dat9 V c).q w = fullShare := by
  dsimp only [dat9]

theorem owed_eq9 (c : Dev nD) (t : Fin (cfg9.N + 1)) : (dat9 V c).owed t = 0 := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = out9_1 (iblk9 V c 0 t) := by dsimp only [dat9]

theorem before9_0 (c : Dev nD) (t : Fin cfg9.N) (d) : (dat9 V c).before 0 t d = iblk9 V c 0 t :=
  before9_0_of V (dat9 V c) (A_eq9 V c 0) (after9_0 V c) t d

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0]
  rw [show (dat9 V c).Φ t.succ = (dat9 V c).Φ t.castSucc from rfl,
    show (dat9 V c).owesAt () t.succ = (dat9 V c).owesAt () t.castSucc from rfl,
    after9_0, after9_1]
  iintro ⟨HΦ, Ho, ⟨%d0, H0⟩, ⟨%d1, H1⟩⟩
  iapply (sound_kernel9 c Set.univ _ _ _ _ _ (iblk9 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation9 (c : Dev nD) : BodyObligation (dat9 (F := F) V c) (defs₀ (F := F)) Variants.none () Set.univ := fun t => by
  rw [bigSep_W9, bigSep_W9]
  exact sound_body9 V c t

theorem hin9 (c : Dev nD) (T : sProp 𝕄) :
    iprop((∃ r, prngReg c r) ∗ T ∗ Pipeline.scopedRest (Ix := Unit) (Name := ℕ) (U := UR sig nD τ) (Lvl := ℕ) (Val := Elt F) spec9 c) ⊢ (dat9 V c).Φ 0 := by
  rw [show (dat9 V c).Φ 0 = Pipeline.ΦA spec9 c from rfl]; unfold Pipeline.ΦA
  iintro ⟨Hp, -, Hr⟩
  isplitl [Hr]; · iexact Hr
  iexact Hp

theorem hout9 (c : Dev nD) :
    (dat9 V c).Φ (Fin.last cfg9.N) ⊢ iprop((∃ r, prngReg c r) ∗ Pipeline.scopedRest (Ix := Unit) (Name := ℕ) (U := UR sig nD τ) (Lvl := ℕ) (Val := Elt F) spec9 c) := by
  rw [show (dat9 V c).Φ (Fin.last _) = Pipeline.ΦA spec9 c from rfl]; unfold Pipeline.ΦA
  iintro ⟨Hr, Hp⟩
  isplitl [Hp]; · iexact Hp
  iexact Hr

end Region9

end Cert.KernelIdeal.Hand

end
-- ==== Proof.KI.Reg10.lean ====
import proofs.«402369_j86406152061536_3_alg».proof.Proof.Gen.KernelIdeal.Launch
import proofs.«402369_j86406152061536_3_alg».proof.Proof.Gen.KernelIdeal.Skeleton
import proofs.«402369_j86406152061536_3_alg».proof.Proof.Gen.KernelIdeal.Points
import proofs.«402369_j86406152061536_3_alg».proof.Proof.KI.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region10

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

abbrev r10_0 : Rect S16384x256 := Rect.unit (s := S16384x256) ![0, 0] S16384x256.size inb_S16384x256_S16384x256_0_0

theorem mem10_1 (y : S16384x256.Idx) : y ∈ (r10_0).set := by
  obtain ⟨pc, hm, hy⟩ := View.cover_of_tiled (Val := fun _ => PUnit) (e := .f32) [⟨r10_0, fun _ => ⟨⟩⟩] S16384x256.size (by rfl) y
  rw [List.mem_singleton] at hm; subst hm; exact hy

theorem canon10_1 (w : Vec F S16384x256 .f32) (L : List (View.Piece (Elt F) S16384x256 .f32)) :
    View.canon (⟨r10_0, w⟩ :: L) = View.canon [⟨r10_0, w⟩] := by
  funext y
  obtain ⟨x, rfl⟩ : ∃ x, (r10_0).emb x = y := (r10_0).exists_idx_of_mem (mem10_1 y)
  rw [View.canon_cons_emb, View.canon_cons_emb]

theorem cover10_1 (p0 : Vec F S16384x256 .f32) (L : List (View.Piece (Elt F) S16384x256 .f32)) (y : S16384x256.Idx) :
    ∃ pc ∈ ((⟨r10_0, p0⟩ :: L : List (View.Piece (Elt F) S16384x256 .f32))), y ∈ pc.1.set :=
  ⟨⟨r10_0, p0⟩, List.mem_cons_self, mem10_1 y⟩

def sink10_1 (x0 : Vec F S16384x256 .f32) : Vec F S16384x256 .f32 := k10_pay4 (View.ld x0 r10_0)

def sink10_2 (x0 : Vec F S16384x256 .f32) : Vec F S16384x256 .f32 := k10_pay5 (sink10_1 x0) (sink10_1 x0)

def sink10_3 (x0 : Vec F S16384x256 .f32) : Vec F S16384x256 .f32 := k10_pay6 (sink10_2 x0) (sink10_2 x0)

def sink10_4 (x0 : Vec F S16384x256 .f32) : Vec F S16384x256 .f32 := k10_pay8 (k10_pay7 (sink10_3 x0)) (sink10_3 x0)

def sink10_5 (x0 : Vec F S16384x256 .f32) : Vec F S16384x256 .f32 := k10_pay9 (sink10_4 x0) (sink10_4 x0)

def sink10_6 (x0 : Vec F S16384x256 .f32) : Vec F S16384x256 .f32 := k10_pay10 (sink10_5 x0) (sink10_5 x0)

def sink10_7 (x0 : Vec F S16384x256 .f32) : Vec F S16384x256 .f32 := k10_pay1 (k10_pay11 (sink10_6 x0)) (sink10_6 x0)

def sink10_8 (x0 : Vec F S16384x256 .f32) : Vec F S16384x256 .f32 := k10_pay2 (sink10_7 x0) (sink10_7 x0)

def sink10_9 (x0 : Vec F S16384x256 .f32) : Vec F S16384x256 .f32 := k10_pay3 (sink10_8 x0)

def out10_1 (x0 : Vec F S16384x256 .f32) : Vec F S16384x256 .f32 :=
  View.canon [⟨r10_0, sink10_9 x0⟩]

theorem sound_kernel10 (c : Dev nD) (E : Set ℕ) (i : grid10.Coords) (arg1 : Memref sig .tc .vmem S16384x256 .f32) (harg1 : arg1.IsWhole) (arg2 : Memref sig .tc .vmem S16384x256 .f32) (harg2 : arg2.IsWhole)
    (x0 : Vec F S16384x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out10_1 x0)) -∗ K ⟨⟩))
      ⊢ wp frame (wpE (defs₀ (F := F)) Variants.none c none) E (cc10__sinkhorn_kernel i arg1 harg1 arg2 harg2) K :=
  sound_kernel6 c E i arg1 harg1 arg2 harg2 x0 K

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => out10_1 (iblk10 V c 0 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem q_eq10 (c : Dev nD) (w : Fin cfg10.W) : (dat10 V c).q w = fullShare := by
  dsimp only [dat10]

theorem owed_eq10 (c : Dev nD) (t : Fin (cfg10.N + 1)) : (dat10 V c).owed t = 0 := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = out10_1 (iblk10 V c 0 t) := by dsimp only [dat10]

theorem before10_0 (c : Dev nD) (t : Fin cfg10.N) (d) : (dat10 V c).before 0 t d = iblk10 V c 0 t :=
  before10_0_of V (dat10 V c) (A_eq10 V c 0) (after10_0 V c) t d

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0]
  rw [show (dat10 V c).Φ t.succ = (dat10 V c).Φ t.castSucc from rfl,
    show (dat10 V c).owesAt () t.succ = (dat10 V c).owesAt () t.castSucc from rfl,
    after10_0, after10_1]
  iintro ⟨HΦ, Ho, ⟨%d0, H0⟩, ⟨%d1, H1⟩⟩
  iapply (sound_kernel10 c Set.univ _ _ _ _ _ (iblk10 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation10 (c : Dev nD) : BodyObligation (dat10 (F := F) V c) (defs₀ (F := F)) Variants.none () Set.univ := fun t => by
  rw [bigSep_W10, bigSep_W10]
  exact sound_body10 V c t

theorem hin10 (c : Dev nD) (T : sProp 𝕄) :
    iprop((∃ r, prngReg c r) ∗ T ∗ Pipeline.scopedRest (Ix := Unit) (Name := ℕ) (U := UR sig nD τ) (Lvl := ℕ) (Val := Elt F) spec10 c) ⊢ (dat10 V c).Φ 0 := by
  rw [show (dat10 V c).Φ 0 = Pipeline.ΦA spec10 c from rfl]; unfold Pipeline.ΦA
  iintro ⟨Hp, -, Hr⟩
  isplitl [Hr]; · iexact Hr
  iexact Hp

theorem hout10 (c : Dev nD) :
    (dat10 V c).Φ (Fin.last cfg10.N) ⊢ iprop((∃ r, prngReg c r) ∗ Pipeline.scopedRest (Ix := Unit) (Name := ℕ) (U := UR sig nD τ) (Lvl := ℕ) (Val := Elt F) spec10 c) := by
  rw [show (dat10 V c).Φ (Fin.last _) = Pipeline.ΦA spec10 c from rfl]; unfold Pipeline.ΦA
  iintro ⟨Hr, Hp⟩
  isplitl [Hp]; · iexact Hp
  iexact Hr

end Region10

end Cert.KernelIdeal.Hand

end
-- ==== Proof.KI.Reg11.lean ====
import proofs.«402369_j86406152061536_3_alg».proof.Proof.Gen.KernelIdeal.Launch
import proofs.«402369_j86406152061536_3_alg».proof.Proof.Gen.KernelIdeal.Skeleton
import proofs.«402369_j86406152061536_3_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev cond11_0 (i : grid11.Coords) : Prop := (Scalar.cmpi .ne (Scalar.extui (Scalar.cmpi .eq (BitVec.ofNat 32 (i 0).val) 0#32)) 0#32) = 1#1
theorem hcond11_0 : ∀ t : Fin cfg11.N, cond11_0 (grid11.coords t) ↔ t.val = 0 :=
  (by decide +kernel : ∀ t : Fin grid11.N, cond11_0 (grid11.coords t) ↔ t.val = 0)

abbrev cond11_1 (i : grid11.Coords) : Prop := k11_cond2 i = 1#1
theorem hcond11_1 : ∀ t : Fin cfg11.N, cond11_1 (grid11.coords t) ↔ t.val = 7 :=
  (by decide +kernel : ∀ t : Fin grid11.N, cond11_1 (grid11.coords t) ↔ t.val = 7)

theorem idleAt11_3 : ∀ t : Fin cfg11.N, ¬cond11_1 (grid11.coords t) → cfg11.idle 3 (grid11.coords t) = true := by decide +kernel
theorem noFlush11_3 : ∀ t : Fin cfg11.N, ¬cond11_1 (grid11.coords t) → (cfg11.win 3).flush t = false := by decide +kernel

theorem liveAt11_3 : ∀ t : Fin cfg11.N, cond11_1 (grid11.coords t) → cfg11.idle 3 (grid11.coords t) = false := by decide +kernel

abbrev r11 : Rect S1x1 := Rect.unit (s := S1x1) ![0, 0] S1x1.size inb_S1x1_S1x1_0_0
abbrev R11 : Rect S2048x256 := Rect.unit (s := S2048x256) ![0, 0] S2048x256.size inb_S2048x256_S2048x256_0_0

theorem off11 : (![0, 0] : Fin 2 → ℕ) = fun _ => 0 := by funext a; fin_cases a <;> rfl

theorem ld11_s {sg : RefSig} (v : View sg .tc .vmem S1x1 .f32) (f : v.ty.Contents (Elt F)) :
    View.readAt (Elt F) v r11.toLoadRect f = v.read (Elt F) f :=
  View.ld_unit_zero (Val := Elt F) (S := S1x1) off11 inb_S1x1_S1x1_0_0 (v.read (Elt F) f)

theorem ld11_b {sg : RefSig} (v : View sg .tc .vmem S2048x256 .f32) (f : v.ty.Contents (Elt F)) :
    View.readAt (Elt F) v R11.toLoadRect f = v.read (Elt F) f :=
  View.ld_unit_zero (Val := Elt F) (S := S2048x256) off11 inb_S2048x256_S2048x256_0_0 (v.read (Elt F) f)

theorem read_writes11 {sg : RefSig} (v : View sg .tc .vmem S1x1 .f32) (f : v.ty.Contents (Elt F)) (w : Vec F S1x1 .f32)
    (L : List (View.Piece (Elt F) S1x1 .f32)) :
    v.read (Elt F) (v.writes (Elt F) f (⟨r11, w⟩ :: L)) = w :=
  (View.read_writes_eq_canon (Val := Elt F) v f ((⟨r11, w⟩ : View.Piece (Elt F) S1x1 .f32) :: L)
      (fun y => ⟨(⟨r11, w⟩ : View.Piece (Elt F) S1x1 .f32), List.mem_cons_self,
        View.mem_set_unit_zero (S := S1x1) off11 inb_S1x1_S1x1_0_0 y⟩)).trans
    (View.canon_cons_unit_zero (Val := Elt F) (S := S1x1) (e := .f32) off11 inb_S1x1_S1x1_0_0 w L)

set_option maxHeartbeats 1000000 in

theorem sound_kernel11_A (c : Dev nD) (E : Set ℕ) (i : grid11.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : cond11_0 i) (hc1 : ¬cond11_1 i)
    (x0 : Vec F S2048x256 .f32) (x1 : Vec F S2048x256 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k11_pay2 x2 x1 x0 k11_pay1)) -∗ K ⟨⟩))
      ⊢ wp frame (wpE (defs₀ (F := F)) Variants.none c none) E (cc11__ce_kernel i arg1 harg1 arg2 harg2 arg3 harg3 arg4 harg4 arg5 harg5) K := by
  simp only [cc11__ce_kernel_eq_skeleton]; unfold cc11__ce_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes11, View.readCov_cons_toLoadRect, ld11_s, ld11_b, ld11_b]

set_option maxHeartbeats 1000000 in

theorem sound_kernel11_B (c : Dev nD) (E : Set ℕ) (i : grid11.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond11_0 i) (hc1 : ¬cond11_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg5 fullShare (k11_pay2 x2 x1 x0 xs)) -∗ K ⟨⟩))
      ⊢ wp frame (wpE (defs₀ (F := F)) Variants.none c none) E (cc11__ce_kernel i arg1 harg1 arg2 harg2 arg3 harg3 arg4 harg4 arg5 harg5) K := by
  simp only [cc11__ce_kernel_eq_skeleton]; unfold cc11__ce_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [read_writes11, ld11_s, ld11_s, ld11_b, ld11_b]

set_option maxHeartbeats 1000000 in

theorem sound_kernel11_C (c : Dev nD) (E : Set ℕ) (i : grid11.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond11_0 i) (hc1 : cond11_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k11_pay2 x2 x1 x0 xs) ∗ owns (c : Thread nD τ) arg4 fullShare (k11_pay3 (k11_pay2 x2 x1 x0 xs))) -∗ K ⟨⟩))
      ⊢ wp frame (wpE (defs₀ (F := F)) Variants.none c none) E (cc11__ce_kernel i arg1 harg1 arg2 harg2 arg3 harg3 arg4 harg4 arg5 harg5) K := by
  simp only [cc11__ce_kernel_eq_skeleton]; unfold cc11__ce_kernel_skel
  unfold owns
  iintro ⟨⟨%f0, %hf0, H0⟩, ⟨%f1, %hf1, H1⟩, ⟨%f2, %hf2, H2⟩, ⟨%fs, %hfs, HS⟩, ⟨%dq, %fo, -, HO⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS]
  · iexists _; isplitr
    swap; · iexact HS
    ipureintro
    sl_unfold_run_names
    rw [read_writes11, ld11_s, ld11_s, ld11_b, ld11_b]
  iexists _; isplitr
  swap; · iexact HO
  ipureintro
  sl_unfold_run_names
  rw [read_writes11, View.readCov_cons_toLoadRect, ld11_s, ld11_s, ld11_b, ld11_b]

section Region

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem liveAt11_0 : ∀ t : Fin cfg11.N, cfg11.idle 0 (grid11.coords t) = false := fun _ => rfl
theorem liveAt11_1 : ∀ t : Fin cfg11.N, cfg11.idle 1 (grid11.coords t) = false := fun _ => rfl
theorem liveAt11_2 : ∀ t : Fin cfg11.N, cfg11.idle 2 (grid11.coords t) = false := fun _ => rfl

abbrev scM11 : Memref sig .tc .vmem S1x1 .f32 := Memref.whole cc11_scratch0

def acc11 (c : Dev nD) : (n : ℕ) → n < cfg11.N → Vec F S1x1 .f32
  | 0, h => k11_pay2 (iblk11 V c 2 ⟨0, h⟩) (iblk11 V c 1 ⟨0, h⟩) (iblk11 V c 0 ⟨0, h⟩) k11_pay1
  | n + 1, h => k11_pay2 (iblk11 V c 2 ⟨n + 1, h⟩) (iblk11 V c 1 ⟨n + 1, h⟩) (iblk11 V c 0 ⟨n + 1, h⟩) (acc11 c n (Nat.lt_of_succ_lt h))

theorem acc11_zero (c : Dev nD) (t : Fin cfg11.N) (h : t.val = 0) :
    acc11 V c t.val t.isLt = k11_pay2 (iblk11 V c 2 t) (iblk11 V c 1 t) (iblk11 V c 0 t) k11_pay1 := by
  obtain ⟨n, hn⟩ := t
  cases n with
  | zero => rfl
  | succ n => exact absurd h (Nat.succ_ne_zero n)

theorem acc11_pos (c : Dev nD) (t : Fin cfg11.N) (h : t.val ≠ 0) :
    acc11 V c t.val t.isLt = k11_pay2 (iblk11 V c 2 t) (iblk11 V c 1 t) (iblk11 V c 0 t)
      (acc11 V c (t.val - 1) (Nat.lt_of_le_of_lt (Nat.sub_le _ _) t.isLt)) := by
  obtain ⟨n, hn⟩ := t
  cases n with
  | zero => exact absurd rfl h
  | succ n => rfl

def Phi11 (c : Dev nD) : (n : ℕ) → n ≤ cfg11.N → sProp 𝕄
  | 0, _ => Pipeline.ΦA spec11 c
  | n + 1, hn => iprop((owns (c : Thread nD τ) scM11 fullShare (acc11 V c n hn) ∗ Pipeline.scopedRestBut (Ix := Unit) (Name := ℕ) (U := UR sig nD τ) (Lvl := ℕ) (Val := Elt F) spec11 c [cc11_scratch0]) ∗ (∃ r, prngReg c r))

theorem Phi11_zero (c : Dev nD) (n : ℕ) (h : n ≤ cfg11.N) (hz : n = 0) : Phi11 V c n h = Pipeline.ΦA spec11 c := by
  subst hz; rfl

theorem Phi11_succ (c : Dev nD) (n : ℕ) (hn : n < cfg11.N) :
    Phi11 V c (n + 1) hn = iprop((owns (c : Thread nD τ) scM11 fullShare (acc11 V c n hn) ∗ Pipeline.scopedRestBut (Ix := Unit) (Name := ℕ) (U := UR sig nD τ) (Lvl := ℕ) (Val := Elt F) spec11 c [cc11_scratch0]) ∗ (∃ r, prngReg c r)) := rfl

theorem Phi11_pos (c : Dev nD) (n : ℕ) (h : n ≤ cfg11.N) (hz : n ≠ 0) :
    Phi11 V c n h = iprop((owns (c : Thread nD τ) scM11 fullShare (acc11 V c (n - 1) (by omega)) ∗ Pipeline.scopedRestBut (Ix := Unit) (Name := ℕ) (U := UR sig nD τ) (Lvl := ℕ) (Val := Elt F) spec11 c [cc11_scratch0]) ∗ (∃ r, prngReg c r)) := by
  cases n with
  | zero => exact absurd rfl hz
  | succ n => rfl

theorem PhiA11_eq (c : Dev nD) :
    (Pipeline.ΦA spec11 c : sProp 𝕄)
      = iprop(((∃ d, owns (c : Thread nD τ) scM11 fullShare d) ∗ Pipeline.scopedRestBut (Ix := Unit) (Name := ℕ) (U := UR sig nD τ) (Lvl := ℕ) (Val := Elt F) spec11 c [cc11_scratch0]) ∗ (∃ r, prngReg c r)) := by
  unfold Pipeline.ΦA; rw [scopedRest11_split]; simp only [scM11, owns_whole]; try rfl

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => k11_pay3 (acc11 V c t.val t.isLt)
  Φ t := Phi11 V c t.val (Nat.le_of_lt_succ t.isLt)
  q _ := fullShare
  owed _ := 0

theorem A_eq11 (c : Dev nD) (w : Fin cfg11.W) : (dat11 V c).A w = V c (Pipeline.arrRef spec11 w) := by
  dsimp only [dat11]
theorem q_eq11 (c : Dev nD) (w : Fin cfg11.W) : (dat11 V c).q w = fullShare := by dsimp only [dat11]
theorem owed_eq11 (c : Dev nD) (t : Fin (cfg11.N + 1)) : (dat11 V c).owed t = 0 := by dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = k11_pay3 (acc11 V c t.val t.isLt) := by dsimp only [dat11]

theorem Phi11_castSucc (c : Dev nD) (t : Fin cfg11.N) :
    (dat11 V c).Φ t.castSucc = Phi11 V c t.val (Nat.le_of_lt t.isLt) := by
  dsimp only [dat11]; simp only [Fin.coe_castSucc]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t
    ∗ (dat11 V c).leavesExact 3 t)

set_option maxHeartbeats 4000000 in

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).owesAt () t.succ = (dat11 V c).owesAt () t.castSucc from rfl]
  rw [show (dat11 V c).Φ t.succ = Phi11 V c (t.val + 1) t.isLt from rfl, Phi11_succ]
  rw [show (dat11 V c).leavesExact 0 t = owns (c : Thread nD τ) (st11_0 t) fullShare ((dat11 V c).after 0 t) from by
    unfold Dat.leavesExact; rw [liveAt11_0 t], after11_0]
  rw [show (dat11 V c).leavesExact 1 t = owns (c : Thread nD τ) (st11_1 t) fullShare ((dat11 V c).after 1 t) from by
    unfold Dat.leavesExact; rw [liveAt11_1 t], after11_1]
  rw [show (dat11 V c).leavesExact 2 t = owns (c : Thread nD τ) (st11_2 t) fullShare ((dat11 V c).after 2 t) from by
    unfold Dat.leavesExact; rw [liveAt11_2 t], after11_2]
  have hN : t.val < 8 := lt_of_lt_of_eq t.isLt (show cfg11.N = 8 from N_11)
  by_cases h0 : t.val = 0
  · have hc0 : cond11_0 (grid11.coords t) := (hcond11_0 t).mpr h0
    have hc1 : ¬cond11_1 (grid11.coords t) := fun h => by have := (hcond11_1 t).mp h; omega
    rw [Dat.leavesExact_idle (dat11 V c) 3 t (idleAt11_3 t hc1) (noFlush11_3 t hc1)]
    rw [acc11_zero V c t h0]
    rw [Phi11_castSucc V c t, Phi11_zero V c _ _ h0, PhiA11_eq]
    iintro ⟨⟨⟨HS, HB⟩, Hg⟩, Ho, ⟨%d0, H0⟩, ⟨%d1, H1⟩, ⟨%d2, H2⟩, H3⟩
    iapply (sound_kernel11_A c Set.univ (grid11.coords t) _ _ _ _ _ _ _ _ _ _ hc0 hc1 (iblk11 V c 0 t) (iblk11 V c 1 t) (iblk11 V c 2 t) _)
    isplitl [H0]; · iexact H0
    isplitl [H1]; · iexact H1
    isplitl [H2]; · iexact H2
    isplitl [HS]; · iexact HS
    iintro ⟨H0, H1, H2, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    iexact H3
  · have hc0 : ¬cond11_0 (grid11.coords t) := fun h => h0 ((hcond11_0 t).mp h)
    rw [acc11_pos V c t h0]
    rw [Phi11_castSucc V c t, Phi11_pos V c _ _ h0]
    by_cases h7 : t.val = 7
    · have hc1 : cond11_1 (grid11.coords t) := (hcond11_1 t).mpr h7
      rw [show (dat11 V c).leavesExact 3 t = owns (c : Thread nD τ) (st11_3 t) fullShare ((dat11 V c).after 3 t) from by
        unfold Dat.leavesExact; rw [liveAt11_3 t hc1], after11_3, acc11_pos V c t h0]
      iintro ⟨⟨⟨HS, HB⟩, Hg⟩, Ho, ⟨%d0, H0⟩, ⟨%d1, H1⟩, ⟨%d2, H2⟩, ⟨%d3, H3⟩⟩
      iapply (sound_kernel11_C c Set.univ (grid11.coords t) _ _ _ _ _ _ _ _ _ _ hc0 hc1 (iblk11 V c 0 t) (iblk11 V c 1 t) (iblk11 V c 2 t) _ _)
      isplitl [H0]; · iexact H0
      isplitl [H1]; · iexact H1
      isplitl [H2]; · iexact H2
      isplitl [HS]; · iexact HS
      isplitl [H3]; · iexists _; iexact H3
      iintro ⟨H0, H1, H2, HS, H3⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3
    · have hc1 : ¬cond11_1 (grid11.coords t) := fun h => h7 ((hcond11_1 t).mp h)
      rw [Dat.leavesExact_idle (dat11 V c) 3 t (idleAt11_3 t hc1) (noFlush11_3 t hc1)]
      iintro ⟨⟨⟨HS, HB⟩, Hg⟩, Ho, ⟨%d0, H0⟩, ⟨%d1, H1⟩, ⟨%d2, H2⟩, H3⟩
      iapply (sound_kernel11_B c Set.univ (grid11.coords t) _ _ _ _ _ _ _ _ _ _ hc0 hc1 (iblk11 V c 0 t) (iblk11 V c 1 t) (iblk11 V c 2 t) _ _)
      isplitl [H0]; · iexact H0
      isplitl [H1]; · iexact H1
      isplitl [H2]; · iexact H2
      isplitl [HS]; · iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3

theorem body_obligation11 (c : Dev nD) : BodyObligation (dat11 (F := F) V c) (defs₀ (F := F)) Variants.none () Set.univ := fun t => by
  rw [bigSep_W11, bigSep_W11]
  exact sound_body11 V c t

theorem hin11 (c : Dev nD) (T : sProp 𝕄) :
    iprop((∃ r, prngReg c r) ∗ T ∗ Pipeline.scopedRest spec11 c) ⊢ (dat11 V c).Φ 0 := by
  rw [show (dat11 V c).Φ 0 = Pipeline.ΦA spec11 c from rfl]; unfold Pipeline.ΦA
  iintro ⟨Hp, -, Hr⟩
  isplitl [Hr]; · iexact Hr
  iexact Hp

theorem hout11 (c : Dev nD) :
    (dat11 V c).Φ (Fin.last cfg11.N) ⊢ iprop((∃ r, prngReg c r) ∗ Pipeline.scopedRest spec11 c) := by
  rw [show (dat11 V c).Φ (Fin.last cfg11.N) = Phi11 V c (Fin.last cfg11.N).val (Nat.le_of_lt_succ (Fin.last cfg11.N).isLt) from rfl,
    Phi11_pos V c _ _ (by rw [Fin.val_last]; have : cfg11.N = 8 := N_11; omega), scopedRest11_split]
  simp only [scM11, owns_whole]
  iintro ⟨⟨HS, HB⟩, Hg⟩
  isplitl [Hg]; · iexact Hg
  isplitl [HS]; · iexists _; iexact HS
  iexact HB

end Region

end Cert.KernelIdeal.Hand

end
-- ==== Proof.KI.Reg12.lean ====
import proofs.«402369_j86406152061536_3_alg».proof.Proof.Gen.KernelIdeal.Launch
import proofs.«402369_j86406152061536_3_alg».proof.Proof.Gen.KernelIdeal.Skeleton
import proofs.«402369_j86406152061536_3_alg».proof.Proof.Gen.KernelIdeal.Points
import proofs.«402369_j86406152061536_3_alg».proof.Proof.KI.Reg11
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev cond12_0 (i : grid12.Coords) : Prop := (Scalar.cmpi .ne (Scalar.extui (Scalar.cmpi .eq (BitVec.ofNat 32 (i 0).val) 0#32)) 0#32) = 1#1
theorem hcond12_0 : ∀ t : Fin cfg12.N, cond12_0 (grid12.coords t) ↔ t.val = 0 :=
  (by decide +kernel : ∀ t : Fin grid12.N, cond12_0 (grid12.coords t) ↔ t.val = 0)

abbrev cond12_1 (i : grid12.Coords) : Prop := k12_cond2 i = 1#1
theorem hcond12_1 : ∀ t : Fin cfg12.N, cond12_1 (grid12.coords t) ↔ t.val = 7 :=
  (by decide +kernel : ∀ t : Fin grid12.N, cond12_1 (grid12.coords t) ↔ t.val = 7)

theorem idleAt12_3 : ∀ t : Fin cfg12.N, ¬cond12_1 (grid12.coords t) → cfg12.idle 3 (grid12.coords t) = true := by decide +kernel
theorem noFlush12_3 : ∀ t : Fin cfg12.N, ¬cond12_1 (grid12.coords t) → (cfg12.win 3).flush t = false := by decide +kernel

theorem liveAt12_3 : ∀ t : Fin cfg12.N, cond12_1 (grid12.coords t) → cfg12.idle 3 (grid12.coords t) = false := by decide +kernel

theorem sound_kernel12_A (c : Dev nD) (E : Set ℕ) (i : grid12.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : cond12_0 i) (hc1 : ¬cond12_1 i)
    (x0 : Vec F S2048x256 .f32) (x1 : Vec F S2048x256 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k12_pay2 x2 x1 x0 k12_pay1)) -∗ K ⟨⟩))
      ⊢ wp frame (wpE (defs₀ (F := F)) Variants.none c none) E (cc12__ce_kernel i arg1 harg1 arg2 harg2 arg3 harg3 arg4 harg4 arg5 harg5) K :=
  sound_kernel11_A c E i arg1 harg1 arg2 harg2 arg3 harg3 arg4 harg4 arg5 harg5 hc0 hc1 x0 x1 x2 K

theorem sound_kernel12_B (c : Dev nD) (E : Set ℕ) (i : grid12.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond12_0 i) (hc1 : ¬cond12_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg5 fullShare (k12_pay2 x2 x1 x0 xs)) -∗ K ⟨⟩))
      ⊢ wp frame (wpE (defs₀ (F := F)) Variants.none c none) E (cc12__ce_kernel i arg1 harg1 arg2 harg2 arg3 harg3 arg4 harg4 arg5 harg5) K :=
  sound_kernel11_B c E i arg1 harg1 arg2 harg2 arg3 harg3 arg4 harg4 arg5 harg5 hc0 hc1 x0 x1 x2 xs K

theorem sound_kernel12_C (c : Dev nD) (E : Set ℕ) (i : grid12.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond12_0 i) (hc1 : cond12_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k12_pay2 x2 x1 x0 xs) ∗ owns (c : Thread nD τ) arg4 fullShare (k12_pay3 (k12_pay2 x2 x1 x0 xs))) -∗ K ⟨⟩))
      ⊢ wp frame (wpE (defs₀ (F := F)) Variants.none c none) E (cc12__ce_kernel i arg1 harg1 arg2 harg2 arg3 harg3 arg4 harg4 arg5 harg5) K :=
  sound_kernel11_C c E i arg1 harg1 arg2 harg2 arg3 harg3 arg4 harg4 arg5 harg5 hc0 hc1 x0 x1 x2 xs K

section Region

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

theorem liveAt12_0 : ∀ t : Fin cfg12.N, cfg12.idle 0 (grid12.coords t) = false := fun _ => rfl
theorem liveAt12_1 : ∀ t : Fin cfg12.N, cfg12.idle 1 (grid12.coords t) = false := fun _ => rfl
theorem liveAt12_2 : ∀ t : Fin cfg12.N, cfg12.idle 2 (grid12.coords t) = false := fun _ => rfl

abbrev scM12 : Memref sig .tc .vmem S1x1 .f32 := Memref.whole cc12_scratch0

def acc12 (c : Dev nD) : (n : ℕ) → n < cfg12.N → Vec F S1x1 .f32
  | 0, h => k12_pay2 (iblk12 V c 2 ⟨0, h⟩) (iblk12 V c 1 ⟨0, h⟩) (iblk12 V c 0 ⟨0, h⟩) k12_pay1
  | n + 1, h => k12_pay2 (iblk12 V c 2 ⟨n + 1, h⟩) (iblk12 V c 1 ⟨n + 1, h⟩) (iblk12 V c 0 ⟨n + 1, h⟩) (acc12 c n (Nat.lt_of_succ_lt h))

theorem acc12_zero (c : Dev nD) (t : Fin cfg12.N) (h : t.val = 0) :
    acc12 V c t.val t.isLt = k12_pay2 (iblk12 V c 2 t) (iblk12 V c 1 t) (iblk12 V c 0 t) k12_pay1 := by
  obtain ⟨n, hn⟩ := t
  cases n with
  | zero => rfl
  | succ n => exact absurd h (Nat.succ_ne_zero n)

theorem acc12_pos (c : Dev nD) (t : Fin cfg12.N) (h : t.val ≠ 0) :
    acc12 V c t.val t.isLt = k12_pay2 (iblk12 V c 2 t) (iblk12 V c 1 t) (iblk12 V c 0 t)
      (acc12 V c (t.val - 1) (Nat.lt_of_le_of_lt (Nat.sub_le _ _) t.isLt)) := by
  obtain ⟨n, hn⟩ := t
  cases n with
  | zero => exact absurd rfl h
  | succ n => rfl

def Phi12 (c : Dev nD) : (n : ℕ) → n ≤ cfg12.N → sProp 𝕄
  | 0, _ => Pipeline.ΦA spec12 c
  | n + 1, hn => iprop((owns (c : Thread nD τ) scM12 fullShare (acc12 V c n hn) ∗ Pipeline.scopedRestBut (Ix := Unit) (Name := ℕ) (U := UR sig nD τ) (Lvl := ℕ) (Val := Elt F) spec12 c [cc12_scratch0]) ∗ (∃ r, prngReg c r))

theorem Phi12_zero (c : Dev nD) (n : ℕ) (h : n ≤ cfg12.N) (hz : n = 0) : Phi12 V c n h = Pipeline.ΦA spec12 c := by
  subst hz; rfl

theorem Phi12_succ (c : Dev nD) (n : ℕ) (hn : n < cfg12.N) :
    Phi12 V c (n + 1) hn = iprop((owns (c : Thread nD τ) scM12 fullShare (acc12 V c n hn) ∗ Pipeline.scopedRestBut (Ix := Unit) (Name := ℕ) (U := UR sig nD τ) (Lvl := ℕ) (Val := Elt F) spec12 c [cc12_scratch0]) ∗ (∃ r, prngReg c r)) := rfl

theorem Phi12_pos (c : Dev nD) (n : ℕ) (h : n ≤ cfg12.N) (hz : n ≠ 0) :
    Phi12 V c n h = iprop((owns (c : Thread nD τ) scM12 fullShare (acc12 V c (n - 1) (by omega)) ∗ Pipeline.scopedRestBut (Ix := Unit) (Name := ℕ) (U := UR sig nD τ) (Lvl := ℕ) (Val := Elt F) spec12 c [cc12_scratch0]) ∗ (∃ r, prngReg c r)) := by
  cases n with
  | zero => exact absurd rfl hz
  | succ n => rfl

theorem PhiA12_eq (c : Dev nD) :
    (Pipeline.ΦA spec12 c : sProp 𝕄)
      = iprop(((∃ d, owns (c : Thread nD τ) scM12 fullShare d) ∗ Pipeline.scopedRestBut (Ix := Unit) (Name := ℕ) (U := UR sig nD τ) (Lvl := ℕ) (Val := Elt F) spec12 c [cc12_scratch0]) ∗ (∃ r, prngReg c r)) := by
  unfold Pipeline.ΦA; rw [scopedRest12_split]; simp only [scM12, owns_whole]; try rfl

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => k12_pay3 (acc12 V c t.val t.isLt)
  Φ t := Phi12 V c t.val (Nat.le_of_lt_succ t.isLt)
  q _ := fullShare
  owed _ := 0

theorem A_eq12 (c : Dev nD) (w : Fin cfg12.W) : (dat12 V c).A w = V c (Pipeline.arrRef spec12 w) := by
  dsimp only [dat12]
theorem q_eq12 (c : Dev nD) (w : Fin cfg12.W) : (dat12 V c).q w = fullShare := by dsimp only [dat12]
theorem owed_eq12 (c : Dev nD) (t : Fin (cfg12.N + 1)) : (dat12 V c).owed t = 0 := by dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = k12_pay3 (acc12 V c t.val t.isLt) := by dsimp only [dat12]

theorem Phi12_castSucc (c : Dev nD) (t : Fin cfg12.N) :
    (dat12 V c).Φ t.castSucc = Phi12 V c t.val (Nat.le_of_lt t.isLt) := by
  dsimp only [dat12]; simp only [Fin.coe_castSucc]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t
    ∗ (dat12 V c).leavesExact 3 t)

set_option maxHeartbeats 4000000 in

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).owesAt () t.succ = (dat12 V c).owesAt () t.castSucc from rfl]
  rw [show (dat12 V c).Φ t.succ = Phi12 V c (t.val + 1) t.isLt from rfl, Phi12_succ]
  rw [show (dat12 V c).leavesExact 0 t = owns (c : Thread nD τ) (st12_0 t) fullShare ((dat12 V c).after 0 t) from by
    unfold Dat.leavesExact; rw [liveAt12_0 t], after12_0]
  rw [show (dat12 V c).leavesExact 1 t = owns (c : Thread nD τ) (st12_1 t) fullShare ((dat12 V c).after 1 t) from by
    unfold Dat.leavesExact; rw [liveAt12_1 t], after12_1]
  rw [show (dat12 V c).leavesExact 2 t = owns (c : Thread nD τ) (st12_2 t) fullShare ((dat12 V c).after 2 t) from by
    unfold Dat.leavesExact; rw [liveAt12_2 t], after12_2]
  have hN : t.val < 8 := lt_of_lt_of_eq t.isLt (show cfg12.N = 8 from N_12)
  by_cases h0 : t.val = 0
  · have hc0 : cond12_0 (grid12.coords t) := (hcond12_0 t).mpr h0
    have hc1 : ¬cond12_1 (grid12.coords t) := fun h => by have := (hcond12_1 t).mp h; omega
    rw [Dat.leavesExact_idle (dat12 V c) 3 t (idleAt12_3 t hc1) (noFlush12_3 t hc1)]
    rw [acc12_zero V c t h0]
    rw [Phi12_castSucc V c t, Phi12_zero V c _ _ h0, PhiA12_eq]
    iintro ⟨⟨⟨HS, HB⟩, Hg⟩, Ho, ⟨%d0, H0⟩, ⟨%d1, H1⟩, ⟨%d2, H2⟩, H3⟩
    iapply (sound_kernel12_A c Set.univ (grid12.coords t) _ _ _ _ _ _ _ _ _ _ hc0 hc1 (iblk12 V c 0 t) (iblk12 V c 1 t) (iblk12 V c 2 t) _)
    isplitl [H0]; · iexact H0
    isplitl [H1]; · iexact H1
    isplitl [H2]; · iexact H2
    isplitl [HS]; · iexact HS
    iintro ⟨H0, H1, H2, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    iexact H3
  · have hc0 : ¬cond12_0 (grid12.coords t) := fun h => h0 ((hcond12_0 t).mp h)
    rw [acc12_pos V c t h0]
    rw [Phi12_castSucc V c t, Phi12_pos V c _ _ h0]
    by_cases h7 : t.val = 7
    · have hc1 : cond12_1 (grid12.coords t) := (hcond12_1 t).mpr h7
      rw [show (dat12 V c).leavesExact 3 t = owns (c : Thread nD τ) (st12_3 t) fullShare ((dat12 V c).after 3 t) from by
        unfold Dat.leavesExact; rw [liveAt12_3 t hc1], after12_3, acc12_pos V c t h0]
      iintro ⟨⟨⟨HS, HB⟩, Hg⟩, Ho, ⟨%d0, H0⟩, ⟨%d1, H1⟩, ⟨%d2, H2⟩, ⟨%d3, H3⟩⟩
      iapply (sound_kernel12_C c Set.univ (grid12.coords t) _ _ _ _ _ _ _ _ _ _ hc0 hc1 (iblk12 V c 0 t) (iblk12 V c 1 t) (iblk12 V c 2 t) _ _)
      isplitl [H0]; · iexact H0
      isplitl [H1]; · iexact H1
      isplitl [H2]; · iexact H2
      isplitl [HS]; · iexact HS
      isplitl [H3]; · iexists _; iexact H3
      iintro ⟨H0, H1, H2, HS, H3⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3
    · have hc1 : ¬cond12_1 (grid12.coords t) := fun h => h7 ((hcond12_1 t).mp h)
      rw [Dat.leavesExact_idle (dat12 V c) 3 t (idleAt12_3 t hc1) (noFlush12_3 t hc1)]
      iintro ⟨⟨⟨HS, HB⟩, Hg⟩, Ho, ⟨%d0, H0⟩, ⟨%d1, H1⟩, ⟨%d2, H2⟩, H3⟩
      iapply (sound_kernel12_B c Set.univ (grid12.coords t) _ _ _ _ _ _ _ _ _ _ hc0 hc1 (iblk12 V c 0 t) (iblk12 V c 1 t) (iblk12 V c 2 t) _ _)
      isplitl [H0]; · iexact H0
      isplitl [H1]; · iexact H1
      isplitl [H2]; · iexact H2
      isplitl [HS]; · iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3

theorem body_obligation12 (c : Dev nD) : BodyObligation (dat12 (F := F) V c) (defs₀ (F := F)) Variants.none () Set.univ := fun t => by
  rw [bigSep_W12, bigSep_W12]
  exact sound_body12 V c t

theorem hin12 (c : Dev nD) (T : sProp 𝕄) :
    iprop((∃ r, prngReg c r) ∗ T ∗ Pipeline.scopedRest spec12 c) ⊢ (dat12 V c).Φ 0 := by
  rw [show (dat12 V c).Φ 0 = Pipeline.ΦA spec12 c from rfl]; unfold Pipeline.ΦA
  iintro ⟨Hp, -, Hr⟩
  isplitl [Hr]; · iexact Hr
  iexact Hp

theorem hout12 (c : Dev nD) :
    (dat12 V c).Φ (Fin.last cfg12.N) ⊢ iprop((∃ r, prngReg c r) ∗ Pipeline.scopedRest spec12 c) := by
  rw [show (dat12 V c).Φ (Fin.last cfg12.N) = Phi12 V c (Fin.last cfg12.N).val (Nat.le_of_lt_succ (Fin.last cfg12.N).isLt) from rfl,
    Phi12_pos V c _ _ (by rw [Fin.val_last]; have : cfg12.N = 8 := N_12; omega), scopedRest12_split]
  simp only [scM12, owns_whole]
  iintro ⟨⟨HS, HB⟩, Hg⟩
  isplitl [Hg]; · iexact Hg
  isplitl [HS]; · iexists _; iexact HS
  iexact HB

end Region

end Cert.KernelIdeal.Hand

end
-- ==== Proof.KI.Reg13.lean ====
import proofs.«402369_j86406152061536_3_alg».proof.Proof.Gen.KernelIdeal.Launch
import proofs.«402369_j86406152061536_3_alg».proof.Proof.Gen.KernelIdeal.Skeleton
import proofs.«402369_j86406152061536_3_alg».proof.Proof.Gen.KernelIdeal.Points
import proofs.«402369_j86406152061536_3_alg».proof.Proof.KI.Reg11
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev cond13_0 (i : grid13.Coords) : Prop := (Scalar.cmpi .ne (Scalar.extui (Scalar.cmpi .eq (BitVec.ofNat 32 (i 0).val) 0#32)) 0#32) = 1#1
theorem hcond13_0 : ∀ t : Fin cfg13.N, cond13_0 (grid13.coords t) ↔ t.val = 0 :=
  (by decide +kernel : ∀ t : Fin grid13.N, cond13_0 (grid13.coords t) ↔ t.val = 0)

abbrev cond13_1 (i : grid13.Coords) : Prop := k13_cond2 i = 1#1
theorem hcond13_1 : ∀ t : Fin cfg13.N, cond13_1 (grid13.coords t) ↔ t.val = 7 :=
  (by decide +kernel : ∀ t : Fin grid13.N, cond13_1 (grid13.coords t) ↔ t.val = 7)

theorem idleAt13_3 : ∀ t : Fin cfg13.N, ¬cond13_1 (grid13.coords t) → cfg13.idle 3 (grid13.coords t) = true := by decide +kernel
theorem noFlush13_3 : ∀ t : Fin cfg13.N, ¬cond13_1 (grid13.coords t) → (cfg13.win 3).flush t = false := by decide +kernel

theorem liveAt13_3 : ∀ t : Fin cfg13.N, cond13_1 (grid13.coords t) → cfg13.idle 3 (grid13.coords t) = false := by decide +kernel

theorem sound_kernel13_A (c : Dev nD) (E : Set ℕ) (i : grid13.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : cond13_0 i) (hc1 : ¬cond13_1 i)
    (x0 : Vec F S2048x256 .f32) (x1 : Vec F S2048x256 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k13_pay2 x2 x1 x0 k13_pay1)) -∗ K ⟨⟩))
      ⊢ wp frame (wpE (defs₀ (F := F)) Variants.none c none) E (cc13__ce_kernel i arg1 harg1 arg2 harg2 arg3 harg3 arg4 harg4 arg5 harg5) K :=
  sound_kernel11_A c E i arg1 harg1 arg2 harg2 arg3 harg3 arg4 harg4 arg5 harg5 hc0 hc1 x0 x1 x2 K

theorem sound_kernel13_B (c : Dev nD) (E : Set ℕ) (i : grid13.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond13_0 i) (hc1 : ¬cond13_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg5 fullShare (k13_pay2 x2 x1 x0 xs)) -∗ K ⟨⟩))
      ⊢ wp frame (wpE (defs₀ (F := F)) Variants.none c none) E (cc13__ce_kernel i arg1 harg1 arg2 harg2 arg3 harg3 arg4 harg4 arg5 harg5) K :=
  sound_kernel11_B c E i arg1 harg1 arg2 harg2 arg3 harg3 arg4 harg4 arg5 harg5 hc0 hc1 x0 x1 x2 xs K

theorem sound_kernel13_C (c : Dev nD) (E : Set ℕ) (i : grid13.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond13_0 i) (hc1 : cond13_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k13_pay2 x2 x1 x0 xs) ∗ owns (c : Thread nD τ) arg4 fullShare (k13_pay3 (k13_pay2 x2 x1 x0 xs))) -∗ K ⟨⟩))
      ⊢ wp frame (wpE (defs₀ (F := F)) Variants.none c none) E (cc13__ce_kernel i arg1 harg1 arg2 harg2 arg3 harg3 arg4 harg4 arg5 harg5) K :=
  sound_kernel11_C c E i arg1 harg1 arg2 harg2 arg3 harg3 arg4 harg4 arg5 harg5 hc0 hc1 x0 x1 x2 xs K

section Region

variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

theorem liveAt13_0 : ∀ t : Fin cfg13.N, cfg13.idle 0 (grid13.coords t) = false := fun _ => rfl
theorem liveAt13_1 : ∀ t : Fin cfg13.N, cfg13.idle 1 (grid13.coords t) = false := fun _ => rfl
theorem liveAt13_2 : ∀ t : Fin cfg13.N, cfg13.idle 2 (grid13.coords t) = false := fun _ => rfl

abbrev scM13 : Memref sig .tc .vmem S1x1 .f32 := Memref.whole cc13_scratch0

def acc13 (c : Dev nD) : (n : ℕ) → n < cfg13.N → Vec F S1x1 .f32
  | 0, h => k13_pay2 (iblk13 V c 2 ⟨0, h⟩) (iblk13 V c 1 ⟨0, h⟩) (iblk13 V c 0 ⟨0, h⟩) k13_pay1
  | n + 1, h => k13_pay2 (iblk13 V c 2 ⟨n + 1, h⟩) (iblk13 V c 1 ⟨n + 1, h⟩) (iblk13 V c 0 ⟨n + 1, h⟩) (acc13 c n (Nat.lt_of_succ_lt h))

theorem acc13_zero (c : Dev nD) (t : Fin cfg13.N) (h : t.val = 0) :
    acc13 V c t.val t.isLt = k13_pay2 (iblk13 V c 2 t) (iblk13 V c 1 t) (iblk13 V c 0 t) k13_pay1 := by
  obtain ⟨n, hn⟩ := t
  cases n with
  | zero => rfl
  | succ n => exact absurd h (Nat.succ_ne_zero n)

theorem acc13_pos (c : Dev nD) (t : Fin cfg13.N) (h : t.val ≠ 0) :
    acc13 V c t.val t.isLt = k13_pay2 (iblk13 V c 2 t) (iblk13 V c 1 t) (iblk13 V c 0 t)
      (acc13 V c (t.val - 1) (Nat.lt_of_le_of_lt (Nat.sub_le _ _) t.isLt)) := by
  obtain ⟨n, hn⟩ := t
  cases n with
  | zero => exact absurd rfl h
  | succ n => rfl

def Phi13 (c : Dev nD) : (n : ℕ) → n ≤ cfg13.N → sProp 𝕄
  | 0, _ => Pipeline.ΦA spec13 c
  | n + 1, hn => iprop((owns (c : Thread nD τ) scM13 fullShare (acc13 V c n hn) ∗ Pipeline.scopedRestBut (Ix := Unit) (Name := ℕ) (U := UR sig nD τ) (Lvl := ℕ) (Val := Elt F) spec13 c [cc13_scratch0]) ∗ (∃ r, prngReg c r))

theorem Phi13_zero (c : Dev nD) (n : ℕ) (h : n ≤ cfg13.N) (hz : n = 0) : Phi13 V c n h = Pipeline.ΦA spec13 c := by
  subst hz; rfl

theorem Phi13_succ (c : Dev nD) (n : ℕ) (hn : n < cfg13.N) :
    Phi13 V c (n + 1) hn = iprop((owns (c : Thread nD τ) scM13 fullShare (acc13 V c n hn) ∗ Pipeline.scopedRestBut (Ix := Unit) (Name := ℕ) (U := UR sig nD τ) (Lvl := ℕ) (Val := Elt F) spec13 c [cc13_scratch0]) ∗ (∃ r, prngReg c r)) := rfl

theorem Phi13_pos (c : Dev nD) (n : ℕ) (h : n ≤ cfg13.N) (hz : n ≠ 0) :
    Phi13 V c n h = iprop((owns (c : Thread nD τ) scM13 fullShare (acc13 V c (n - 1) (by omega)) ∗ Pipeline.scopedRestBut (Ix := Unit) (Name := ℕ) (U := UR sig nD τ) (Lvl := ℕ) (Val := Elt F) spec13 c [cc13_scratch0]) ∗ (∃ r, prngReg c r)) := by
  cases n with
  | zero => exact absurd rfl hz
  | succ n => rfl

theorem PhiA13_eq (c : Dev nD) :
    (Pipeline.ΦA spec13 c : sProp 𝕄)
      = iprop(((∃ d, owns (c : Thread nD τ) scM13 fullShare d) ∗ Pipeline.scopedRestBut (Ix := Unit) (Name := ℕ) (U := UR sig nD τ) (Lvl := ℕ) (Val := Elt F) spec13 c [cc13_scratch0]) ∗ (∃ r, prngReg c r)) := by
  unfold Pipeline.ΦA; rw [scopedRest13_split]; simp only [scM13, owns_whole]; try rfl

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => k13_pay3 (acc13 V c t.val t.isLt)
  Φ t := Phi13 V c t.val (Nat.le_of_lt_succ t.isLt)
  q _ := fullShare
  owed _ := 0

theorem A_eq13 (c : Dev nD) (w : Fin cfg13.W) : (dat13 V c).A w = V c (Pipeline.arrRef spec13 w) := by
  dsimp only [dat13]
theorem q_eq13 (c : Dev nD) (w : Fin cfg13.W) : (dat13 V c).q w = fullShare := by dsimp only [dat13]
theorem owed_eq13 (c : Dev nD) (t : Fin (cfg13.N + 1)) : (dat13 V c).owed t = 0 := by dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = k13_pay3 (acc13 V c t.val t.isLt) := by dsimp only [dat13]

theorem Phi13_castSucc (c : Dev nD) (t : Fin cfg13.N) :
    (dat13 V c).Φ t.castSucc = Phi13 V c t.val (Nat.le_of_lt t.isLt) := by
  dsimp only [dat13]; simp only [Fin.coe_castSucc]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d)))

def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t
    ∗ (dat13 V c).leavesExact 3 t)

set_option maxHeartbeats 4000000 in

theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).owesAt () t.succ = (dat13 V c).owesAt () t.castSucc from rfl]
  rw [show (dat13 V c).Φ t.succ = Phi13 V c (t.val + 1) t.isLt from rfl, Phi13_succ]
  rw [show (dat13 V c).leavesExact 0 t = owns (c : Thread nD τ) (st13_0 t) fullShare ((dat13 V c).after 0 t) from by
    unfold Dat.leavesExact; rw [liveAt13_0 t], after13_0]
  rw [show (dat13 V c).leavesExact 1 t = owns (c : Thread nD τ) (st13_1 t) fullShare ((dat13 V c).after 1 t) from by
    unfold Dat.leavesExact; rw [liveAt13_1 t], after13_1]
  rw [show (dat13 V c).leavesExact 2 t = owns (c : Thread nD τ) (st13_2 t) fullShare ((dat13 V c).after 2 t) from by
    unfold Dat.leavesExact; rw [liveAt13_2 t], after13_2]
  have hN : t.val < 8 := lt_of_lt_of_eq t.isLt (show cfg13.N = 8 from N_13)
  by_cases h0 : t.val = 0
  · have hc0 : cond13_0 (grid13.coords t) := (hcond13_0 t).mpr h0
    have hc1 : ¬cond13_1 (grid13.coords t) := fun h => by have := (hcond13_1 t).mp h; omega
    rw [Dat.leavesExact_idle (dat13 V c) 3 t (idleAt13_3 t hc1) (noFlush13_3 t hc1)]
    rw [acc13_zero V c t h0]
    rw [Phi13_castSucc V c t, Phi13_zero V c _ _ h0, PhiA13_eq]
    iintro ⟨⟨⟨HS, HB⟩, Hg⟩, Ho, ⟨%d0, H0⟩, ⟨%d1, H1⟩, ⟨%d2, H2⟩, H3⟩
    iapply (sound_kernel13_A c Set.univ (grid13.coords t) _ _ _ _ _ _ _ _ _ _ hc0 hc1 (iblk13 V c 0 t) (iblk13 V c 1 t) (iblk13 V c 2 t) _)
    isplitl [H0]; · iexact H0
    isplitl [H1]; · iexact H1
    isplitl [H2]; · iexact H2
    isplitl [HS]; · iexact HS
    iintro ⟨H0, H1, H2, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    iexact H3
  · have hc0 : ¬cond13_0 (grid13.coords t) := fun h => h0 ((hcond13_0 t).mp h)
    rw [acc13_pos V c t h0]
    rw [Phi13_castSucc V c t, Phi13_pos V c _ _ h0]
    by_cases h7 : t.val = 7
    · have hc1 : cond13_1 (grid13.coords t) := (hcond13_1 t).mpr h7
      rw [show (dat13 V c).leavesExact 3 t = owns (c : Thread nD τ) (st13_3 t) fullShare ((dat13 V c).after 3 t) from by
        unfold Dat.leavesExact; rw [liveAt13_3 t hc1], after13_3, acc13_pos V c t h0]
      iintro ⟨⟨⟨HS, HB⟩, Hg⟩, Ho, ⟨%d0, H0⟩, ⟨%d1, H1⟩, ⟨%d2, H2⟩, ⟨%d3, H3⟩⟩
      iapply (sound_kernel13_C c Set.univ (grid13.coords t) _ _ _ _ _ _ _ _ _ _ hc0 hc1 (iblk13 V c 0 t) (iblk13 V c 1 t) (iblk13 V c 2 t) _ _)
      isplitl [H0]; · iexact H0
      isplitl [H1]; · iexact H1
      isplitl [H2]; · iexact H2
      isplitl [HS]; · iexact HS
      isplitl [H3]; · iexists _; iexact H3
      iintro ⟨H0, H1, H2, HS, H3⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3
    · have hc1 : ¬cond13_1 (grid13.coords t) := fun h => h7 ((hcond13_1 t).mp h)
      rw [Dat.leavesExact_idle (dat13 V c) 3 t (idleAt13_3 t hc1) (noFlush13_3 t hc1)]
      iintro ⟨⟨⟨HS, HB⟩, Hg⟩, Ho, ⟨%d0, H0⟩, ⟨%d1, H1⟩, ⟨%d2, H2⟩, H3⟩
      iapply (sound_kernel13_B c Set.univ (grid13.coords t) _ _ _ _ _ _ _ _ _ _ hc0 hc1 (iblk13 V c 0 t) (iblk13 V c 1 t) (iblk13 V c 2 t) _ _)
      isplitl [H0]; · iexact H0
      isplitl [H1]; · iexact H1
      isplitl [H2]; · iexact H2
      isplitl [HS]; · iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3

theorem body_obligation13 (c : Dev nD) : BodyObligation (dat13 (F := F) V c) (defs₀ (F := F)) Variants.none () Set.univ := fun t => by
  rw [bigSep_W13, bigSep_W13]
  exact sound_body13 V c t

theorem hin13 (c : Dev nD) (T : sProp 𝕄) :
    iprop((∃ r, prngReg c r) ∗ T ∗ Pipeline.scopedRest spec13 c) ⊢ (dat13 V c).Φ 0 := by
  rw [show (dat13 V c).Φ 0 = Pipeline.ΦA spec13 c from rfl]; unfold Pipeline.ΦA
  iintro ⟨Hp, -, Hr⟩
  isplitl [Hr]; · iexact Hr
  iexact Hp

theorem hout13 (c : Dev nD) :
    (dat13 V c).Φ (Fin.last cfg13.N) ⊢ iprop((∃ r, prngReg c r) ∗ Pipeline.scopedRest spec13 c) := by
  rw [show (dat13 V c).Φ (Fin.last cfg13.N) = Phi13 V c (Fin.last cfg13.N).val (Nat.le_of_lt_succ (Fin.last cfg13.N).isLt) from rfl,
    Phi13_pos V c _ _ (by rw [Fin.val_last]; have : cfg13.N = 8 := N_13; omega), scopedRest13_split]
  simp only [scM13, owns_whole]
  iintro ⟨⟨HS, HB⟩, Hg⟩
  isplitl [Hg]; · iexact Hg
  isplitl [HS]; · iexists _; iexact HS
  iexact HB

end Region

end Cert.KernelIdeal.Hand

end
-- ==== Proof.KI.Reg14.lean ====
import proofs.«402369_j86406152061536_3_alg».proof.Proof.Gen.KernelIdeal.Launch
import proofs.«402369_j86406152061536_3_alg».proof.Proof.Gen.KernelIdeal.Skeleton
import proofs.«402369_j86406152061536_3_alg».proof.Proof.Gen.KernelIdeal.Points
import proofs.«402369_j86406152061536_3_alg».proof.Proof.KI.Reg11
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev cond14_0 (i : grid14.Coords) : Prop := (Scalar.cmpi .ne (Scalar.extui (Scalar.cmpi .eq (BitVec.ofNat 32 (i 0).val) 0#32)) 0#32) = 1#1
theorem hcond14_0 : ∀ t : Fin cfg14.N, cond14_0 (grid14.coords t) ↔ t.val = 0 :=
  (by decide +kernel : ∀ t : Fin grid14.N, cond14_0 (grid14.coords t) ↔ t.val = 0)

abbrev cond14_1 (i : grid14.Coords) : Prop := k14_cond2 i = 1#1
theorem hcond14_1 : ∀ t : Fin cfg14.N, cond14_1 (grid14.coords t) ↔ t.val = 7 :=
  (by decide +kernel : ∀ t : Fin grid14.N, cond14_1 (grid14.coords t) ↔ t.val = 7)

theorem idleAt14_3 : ∀ t : Fin cfg14.N, ¬cond14_1 (grid14.coords t) → cfg14.idle 3 (grid14.coords t) = true := by decide +kernel
theorem noFlush14_3 : ∀ t : Fin cfg14.N, ¬cond14_1 (grid14.coords t) → (cfg14.win 3).flush t = false := by decide +kernel

theorem liveAt14_3 : ∀ t : Fin cfg14.N, cond14_1 (grid14.coords t) → cfg14.idle 3 (grid14.coords t) = false := by decide +kernel

theorem sound_kernel14_A (c : Dev nD) (E : Set ℕ) (i : grid14.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : cond14_0 i) (hc1 : ¬cond14_1 i)
    (x0 : Vec F S2048x256 .f32) (x1 : Vec F S2048x256 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k14_pay2 x2 x1 x0 k14_pay1)) -∗ K ⟨⟩))
      ⊢ wp frame (wpE (defs₀ (F := F)) Variants.none c none) E (cc14__ce_kernel i arg1 harg1 arg2 harg2 arg3 harg3 arg4 harg4 arg5 harg5) K :=
  sound_kernel11_A c E i arg1 harg1 arg2 harg2 arg3 harg3 arg4 harg4 arg5 harg5 hc0 hc1 x0 x1 x2 K

theorem sound_kernel14_B (c : Dev nD) (E : Set ℕ) (i : grid14.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond14_0 i) (hc1 : ¬cond14_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg5 fullShare (k14_pay2 x2 x1 x0 xs)) -∗ K ⟨⟩))
      ⊢ wp frame (wpE (defs₀ (F := F)) Variants.none c none) E (cc14__ce_kernel i arg1 harg1 arg2 harg2 arg3 harg3 arg4 harg4 arg5 harg5) K :=
  sound_kernel11_B c E i arg1 harg1 arg2 harg2 arg3 harg3 arg4 harg4 arg5 harg5 hc0 hc1 x0 x1 x2 xs K

theorem sound_kernel14_C (c : Dev nD) (E : Set ℕ) (i : grid14.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond14_0 i) (hc1 : cond14_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k14_pay2 x2 x1 x0 xs) ∗ owns (c : Thread nD τ) arg4 fullShare (k14_pay3 (k14_pay2 x2 x1 x0 xs))) -∗ K ⟨⟩))
      ⊢ wp frame (wpE (defs₀ (F := F)) Variants.none c none) E (cc14__ce_kernel i arg1 harg1 arg2 harg2 arg3 harg3 arg4 harg4 arg5 harg5) K :=
  sound_kernel11_C c E i arg1 harg1 arg2 harg2 arg3 harg3 arg4 harg4 arg5 harg5 hc0 hc1 x0 x1 x2 xs K

section Region

variable (V : (c : Dev nD) → (b : Ref sig .tc) → Buf (Elt F) ((c : Thread nD τ).loc b))

def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

theorem liveAt14_0 : ∀ t : Fin cfg14.N, cfg14.idle 0 (grid14.coords t) = false := fun _ => rfl
theorem liveAt14_1 : ∀ t : Fin cfg14.N, cfg14.idle 1 (grid14.coords t) = false := fun _ => rfl
theorem liveAt14_2 : ∀ t : Fin cfg14.N, cfg14.idle 2 (grid14.coords t) = false := fun _ => rfl

abbrev scM14 : Memref sig .tc .vmem S1x1 .f32 := Memref.whole cc14_scratch0

def acc14 (c : Dev nD) : (n : ℕ) → n < cfg14.N → Vec F S1x1 .f32
  | 0, h => k14_pay2 (iblk14 V c 2 ⟨0, h⟩) (iblk14 V c 1 ⟨0, h⟩) (iblk14 V c 0 ⟨0, h⟩) k14_pay1
  | n + 1, h => k14_pay2 (iblk14 V c 2 ⟨n + 1, h⟩) (iblk14 V c 1 ⟨n + 1, h⟩) (iblk14 V c 0 ⟨n + 1, h⟩) (acc14 c n (Nat.lt_of_succ_lt h))

theorem acc14_zero (c : Dev nD) (t : Fin cfg14.N) (h : t.val = 0) :
    acc14 V c t.val t.isLt = k14_pay2 (iblk14 V c 2 t) (iblk14 V c 1 t) (iblk14 V c 0 t) k14_pay1 := by
  obtain ⟨n, hn⟩ := t
  cases n with
  | zero => rfl
  | succ n => exact absurd h (Nat.succ_ne_zero n)

theorem acc14_pos (c : Dev nD) (t : Fin cfg14.N) (h : t.val ≠ 0) :
    acc14 V c t.val t.isLt = k14_pay2 (iblk14 V c 2 t) (iblk14 V c 1 t) (iblk14 V c 0 t)
      (acc14 V c (t.val - 1) (Nat.lt_of_le_of_lt (Nat.sub_le _ _) t.isLt)) := by
  obtain ⟨n, hn⟩ := t
  cases n with
  | zero => exact absurd rfl h
  | succ n => rfl

def Phi14 (c : Dev nD) : (n : ℕ) → n ≤ cfg14.N → sProp 𝕄
  | 0, _ => Pipeline.ΦA spec14 c
  | n + 1, hn => iprop((owns (c : Thread nD τ) scM14 fullShare (acc14 V c n hn) ∗ Pipeline.scopedRestBut (Ix := Unit) (Name := ℕ) (U := UR sig nD τ) (Lvl := ℕ) (Val := Elt F) spec14 c [cc14_scratch0]) ∗ (∃ r, prngReg c r))

theorem Phi14_zero (c : Dev nD) (n : ℕ) (h : n ≤ cfg14.N) (hz : n = 0) : Phi14 V c n h = Pipeline.ΦA spec14 c := by
  subst hz; rfl

theorem Phi14_succ (c : Dev nD) (n : ℕ) (hn : n < cfg14.N) :
    Phi14 V c (n + 1) hn = iprop((owns (c : Thread nD τ) scM14 fullShare (acc14 V c n hn) ∗ Pipeline.scopedRestBut (Ix := Unit) (Name := ℕ) (U := UR sig nD τ) (Lvl := ℕ) (Val := Elt F) spec14 c [cc14_scratch0]) ∗ (∃ r, prngReg c r)) := rfl

theorem Phi14_pos (c : Dev nD) (n : ℕ) (h : n ≤ cfg14.N) (hz : n ≠ 0) :
    Phi14 V c n h = iprop((owns (c : Thread nD τ) scM14 fullShare (acc14 V c (n - 1) (by omega)) ∗ Pipeline.scopedRestBut (Ix := Unit) (Name := ℕ) (U := UR sig nD τ) (Lvl := ℕ) (Val := Elt F) spec14 c [cc14_scratch0]) ∗ (∃ r, prngReg c r)) := by
  cases n with
  | zero => exact absurd rfl hz
  | succ n => rfl

theorem PhiA14_eq (c : Dev nD) :
    (Pipeline.ΦA spec14 c : sProp 𝕄)
      = iprop(((∃ d, owns (c : Thread nD τ) scM14 fullShare d) ∗ Pipeline.scopedRestBut (Ix := Unit) (Name := ℕ) (U := UR sig nD τ) (Lvl := ℕ) (Val := Elt F) spec14 c [cc14_scratch0]) ∗ (∃ r, prngReg c r)) := by
  unfold Pipeline.ΦA; rw [scopedRest14_split]; simp only [scM14, owns_whole]; try rfl

def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => k14_pay3 (acc14 V c t.val t.isLt)
  Φ t := Phi14 V c t.val (Nat.le_of_lt_succ t.isLt)
  q _ := fullShare
  owed _ := 0

theorem A_eq14 (c : Dev nD) (w : Fin cfg14.W) : (dat14 V c).A w = V c (Pipeline.arrRef spec14 w) := by
  dsimp only [dat14]
theorem q_eq14 (c : Dev nD) (w : Fin cfg14.W) : (dat14 V c).q w = fullShare := by dsimp only [dat14]
theorem owed_eq14 (c : Dev nD) (t : Fin (cfg14.N + 1)) : (dat14 V c).owed t = 0 := by dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = k14_pay3 (acc14 V c t.val t.isLt) := by dsimp only [dat14]

theorem Phi14_castSucc (c : Dev nD) (t : Fin cfg14.N) :
    (dat14 V c).Φ t.castSucc = Phi14 V c t.val (Nat.le_of_lt t.isLt) := by
  dsimp only [dat14]; simp only [Fin.coe_castSucc]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d

def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d)))

def bodyPost14 (c : Dev nD) (t : Fin cfg14.N) : sProp 𝕄 :=
  iprop((dat14 V c).Φ t.succ ∗ (dat14 V c).owesAt () t.succ
    ∗ (dat14 V c).leavesExact 0 t
    ∗ (dat14 V c).leavesExact 1 t
    ∗ (dat14 V c).leavesExact 2 t
    ∗ (dat14 V c).leavesExact 3 t)

set_option maxHeartbeats 4000000 in

theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).owesAt () t.succ = (dat14 V c).owesAt () t.castSucc from rfl]
  rw [show (dat14 V c).Φ t.succ = Phi14 V c (t.val + 1) t.isLt from rfl, Phi14_succ]
  rw [show (dat14 V c).leavesExact 0 t = owns (c : Thread nD τ) (st14_0 t) fullShare ((dat14 V c).after 0 t) from by
    unfold Dat.leavesExact; rw [liveAt14_0 t], after14_0]
  rw [show (dat14 V c).leavesExact 1 t = owns (c : Thread nD τ) (st14_1 t) fullShare ((dat14 V c).after 1 t) from by
    unfold Dat.leavesExact; rw [liveAt14_1 t], after14_1]
  rw [show (dat14 V c).leavesExact 2 t = owns (c : Thread nD τ) (st14_2 t) fullShare ((dat14 V c).after 2 t) from by
    unfold Dat.leavesExact; rw [liveAt14_2 t], after14_2]
  have hN : t.val < 8 := lt_of_lt_of_eq t.isLt (show cfg14.N = 8 from N_14)
  by_cases h0 : t.val = 0
  · have hc0 : cond14_0 (grid14.coords t) := (hcond14_0 t).mpr h0
    have hc1 : ¬cond14_1 (grid14.coords t) := fun h => by have := (hcond14_1 t).mp h; omega
    rw [Dat.leavesExact_idle (dat14 V c) 3 t (idleAt14_3 t hc1) (noFlush14_3 t hc1)]
    rw [acc14_zero V c t h0]
    rw [Phi14_castSucc V c t, Phi14_zero V c _ _ h0, PhiA14_eq]
    iintro ⟨⟨⟨HS, HB⟩, Hg⟩, Ho, ⟨%d0, H0⟩, ⟨%d1, H1⟩, ⟨%d2, H2⟩, H3⟩
    iapply (sound_kernel14_A c Set.univ (grid14.coords t) _ _ _ _ _ _ _ _ _ _ hc0 hc1 (iblk14 V c 0 t) (iblk14 V c 1 t) (iblk14 V c 2 t) _)
    isplitl [H0]; · iexact H0
    isplitl [H1]; · iexact H1
    isplitl [H2]; · iexact H2
    isplitl [HS]; · iexact HS
    iintro ⟨H0, H1, H2, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    iexact H3
  · have hc0 : ¬cond14_0 (grid14.coords t) := fun h => h0 ((hcond14_0 t).mp h)
    rw [acc14_pos V c t h0]
    rw [Phi14_castSucc V c t, Phi14_pos V c _ _ h0]
    by_cases h7 : t.val = 7
    · have hc1 : cond14_1 (grid14.coords t) := (hcond14_1 t).mpr h7
      rw [show (dat14 V c).leavesExact 3 t = owns (c : Thread nD τ) (st14_3 t) fullShare ((dat14 V c).after 3 t) from by
        unfold Dat.leavesExact; rw [liveAt14_3 t hc1], after14_3, acc14_pos V c t h0]
      iintro ⟨⟨⟨HS, HB⟩, Hg⟩, Ho, ⟨%d0, H0⟩, ⟨%d1, H1⟩, ⟨%d2, H2⟩, ⟨%d3, H3⟩⟩
      iapply (sound_kernel14_C c Set.univ (grid14.coords t) _ _ _ _ _ _ _ _ _ _ hc0 hc1 (iblk14 V c 0 t) (iblk14 V c 1 t) (iblk14 V c 2 t) _ _)
      isplitl [H0]; · iexact H0
      isplitl [H1]; · iexact H1
      isplitl [H2]; · iexact H2
      isplitl [HS]; · iexact HS
      isplitl [H3]; · iexists _; iexact H3
      iintro ⟨H0, H1, H2, HS, H3⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3
    · have hc1 : ¬cond14_1 (grid14.coords t) := fun h => h7 ((hcond14_1 t).mp h)
      rw [Dat.leavesExact_idle (dat14 V c) 3 t (idleAt14_3 t hc1) (noFlush14_3 t hc1)]
      iintro ⟨⟨⟨HS, HB⟩, Hg⟩, Ho, ⟨%d0, H0⟩, ⟨%d1, H1⟩, ⟨%d2, H2⟩, H3⟩
      iapply (sound_kernel14_B c Set.univ (grid14.coords t) _ _ _ _ _ _ _ _ _ _ hc0 hc1 (iblk14 V c 0 t) (iblk14 V c 1 t) (iblk14 V c 2 t) _ _)
      isplitl [H0]; · iexact H0
      isplitl [H1]; · iexact H1
      isplitl [H2]; · iexact H2
      isplitl [HS]; · iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3

theorem body_obligation14 (c : Dev nD) : BodyObligation (dat14 (F := F) V c) (defs₀ (F := F)) Variants.none () Set.univ := fun t => by
  rw [bigSep_W14, bigSep_W14]
  exact sound_body14 V c t

theorem hin14 (c : Dev nD) (T : sProp 𝕄) :
    iprop((∃ r, prngReg c r) ∗ T ∗ Pipeline.scopedRest spec14 c) ⊢ (dat14 V c).Φ 0 := by
  rw [show (dat14 V c).Φ 0 = Pipeline.ΦA spec14 c from rfl]; unfold Pipeline.ΦA
  iintro ⟨Hp, -, Hr⟩
  isplitl [Hr]; · iexact Hr
  iexact Hp

theorem hout14 (c : Dev nD) :
    (dat14 V c).Φ (Fin.last cfg14.N) ⊢ iprop((∃ r, prngReg c r) ∗ Pipeline.scopedRest spec14 c) := by
  rw [show (dat14 V c).Φ (Fin.last cfg14.N) = Phi14 V c (Fin.last cfg14.N).val (Nat.le_of_lt_succ (Fin.last cfg14.N).isLt) from rfl,
    Phi14_pos V c _ _ (by rw [Fin.val_last]; have : cfg14.N = 8 := N_14; omega), scopedRest14_split]
  simp only [scM14, owns_whole]
  iintro ⟨⟨HS, HB⟩, Hg⟩
  isplitl [Hg]; · iexact Hg
  isplitl [HS]; · iexists _; iexact HS
  iexact HB

end Region

end Cert.KernelIdeal.Hand

end
-- ==== Proof.KI.Reg15.lean ====
import proofs.«402369_j86406152061536_3_alg».proof.Proof.Gen.KernelIdeal.Launch
import proofs.«402369_j86406152061536_3_alg».proof.Proof.Gen.KernelIdeal.Skeleton
import proofs.«402369_j86406152061536_3_alg».proof.Proof.Gen.KernelIdeal.Points
import proofs.«402369_j86406152061536_3_alg».proof.Proof.KI.Reg11
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev cond15_0 (i : grid15.Coords) : Prop := (Scalar.cmpi .ne (Scalar.extui (Scalar.cmpi .eq (BitVec.ofNat 32 (i 0).val) 0#32)) 0#32) = 1#1
theorem hcond15_0 : ∀ t : Fin cfg15.N, cond15_0 (grid15.coords t) ↔ t.val = 0 :=
  (by decide +kernel : ∀ t : Fin grid15.N, cond15_0 (grid15.coords t) ↔ t.val = 0)

abbrev cond15_1 (i : grid15.Coords) : Prop := k15_cond2 i = 1#1
theorem hcond15_1 : ∀ t : Fin cfg15.N, cond15_1 (grid15.coords t) ↔ t.val = 7 :=
  (by decide +kernel : ∀ t : Fin grid15.N, cond15_1 (grid15.coords t) ↔ t.val = 7)

theorem idleAt15_3 : ∀ t : Fin cfg15.N, ¬cond15_1 (grid15.coords t) → cfg15.idle 3 (grid15.coords t) = true := by decide +kernel
theorem noFlush15_3 : ∀ t : Fin cfg15.N, ¬cond15_1 (grid15.coords t) → (cfg15.win 3).flush t = false := by decide +kernel

theorem liveAt15_3 : ∀ t : Fin cfg15.N, cond15_1 (grid15.coords t) → cfg15.idle 3 (grid15.coords t) = false := by decide +kernel

theorem sound_kernel15_A (c : Dev nD) (E : Set ℕ) (i : grid15.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : cond15_0 i) (hc1 : ¬cond15_1 i)
    (x0 : Vec F S2048x256 .f32) (x1 : Vec F S2048x256 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k15_pay2 x2 x1 x0 k15_pay1)) -∗ K ⟨⟩))
      ⊢ wp frame (wpE (defs₀ (F := F)) Variants.none c none) E (cc15__ce_kernel i arg1 harg1 arg2 harg2 arg3 harg3 arg4 harg4 arg5 harg5) K :=
  sound_kernel11_A c E i arg1 harg1 arg2 harg2 arg3 harg3 arg4 harg4 arg5 harg5 hc0 hc1 x0 x1 x2 K

theorem sound_kernel15_B (c : Dev nD) (E : Set ℕ) (i : grid15.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond15_0 i) (hc1 : ¬cond15_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg5 fullShare (k15_pay2 x2 x1 x0 xs)) -∗ K ⟨⟩))
      ⊢ wp frame (wpE (defs₀ (F := F)) Variants.none c none) E (cc15__ce_kernel i arg1 harg1 arg2 harg2 arg3 harg3 arg4 harg4 arg5 harg5) K :=
  sound_kernel11_B c E i arg1 harg1 arg2 harg2 arg3 harg3 arg4 harg4 arg5 harg5 hc0 hc1 x0 x1 x2 xs K

theorem sound_kernel15_C (c : Dev nD) (E : Set ℕ) (i : grid15.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond15_0 i) (hc1 : cond15_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k15_pay2 x2 x1 x0 xs) ∗ owns (c : Thread nD τ) arg4 fullShare (k15_pay3 (k15_pay2 x2 x1 x0 xs))) -∗ K ⟨⟩))
      ⊢ wp frame (wpE (defs₀ (F := F)) Variants.none c none) E (cc15__ce_kernel i arg1 harg1 arg2 harg2 arg3 harg3 arg4 harg4 arg5 harg5) K :=
  sound_kernel11_C c E i arg1 harg1 arg2 harg2 arg3 harg3 arg4 harg4 arg5 harg5 hc0 hc1 x0 x1 x2 xs K

section Region

variable (V : (c : Dev nD) → (b : Ref sig .tc) → Buf (Elt F) ((c : Thread nD τ).loc b))

def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

theorem liveAt15_0 : ∀ t : Fin cfg15.N, cfg15.idle 0 (grid15.coords t) = false := fun _ => rfl
theorem liveAt15_1 : ∀ t : Fin cfg15.N, cfg15.idle 1 (grid15.coords t) = false := fun _ => rfl
theorem liveAt15_2 : ∀ t : Fin cfg15.N, cfg15.idle 2 (grid15.coords t) = false := fun _ => rfl

abbrev scM15 : Memref sig .tc .vmem S1x1 .f32 := Memref.whole cc15_scratch0

def acc15 (c : Dev nD) : (n : ℕ) → n < cfg15.N → Vec F S1x1 .f32
  | 0, h => k15_pay2 (iblk15 V c 2 ⟨0, h⟩) (iblk15 V c 1 ⟨0, h⟩) (iblk15 V c 0 ⟨0, h⟩) k15_pay1
  | n + 1, h => k15_pay2 (iblk15 V c 2 ⟨n + 1, h⟩) (iblk15 V c 1 ⟨n + 1, h⟩) (iblk15 V c 0 ⟨n + 1, h⟩) (acc15 c n (Nat.lt_of_succ_lt h))

theorem acc15_zero (c : Dev nD) (t : Fin cfg15.N) (h : t.val = 0) :
    acc15 V c t.val t.isLt = k15_pay2 (iblk15 V c 2 t) (iblk15 V c 1 t) (iblk15 V c 0 t) k15_pay1 := by
  obtain ⟨n, hn⟩ := t
  cases n with
  | zero => rfl
  | succ n => exact absurd h (Nat.succ_ne_zero n)

theorem acc15_pos (c : Dev nD) (t : Fin cfg15.N) (h : t.val ≠ 0) :
    acc15 V c t.val t.isLt = k15_pay2 (iblk15 V c 2 t) (iblk15 V c 1 t) (iblk15 V c 0 t)
      (acc15 V c (t.val - 1) (Nat.lt_of_le_of_lt (Nat.sub_le _ _) t.isLt)) := by
  obtain ⟨n, hn⟩ := t
  cases n with
  | zero => exact absurd rfl h
  | succ n => rfl

def Phi15 (c : Dev nD) : (n : ℕ) → n ≤ cfg15.N → sProp 𝕄
  | 0, _ => Pipeline.ΦA spec15 c
  | n + 1, hn => iprop((owns (c : Thread nD τ) scM15 fullShare (acc15 V c n hn) ∗ Pipeline.scopedRestBut (Ix := Unit) (Name := ℕ) (U := UR sig nD τ) (Lvl := ℕ) (Val := Elt F) spec15 c [cc15_scratch0]) ∗ (∃ r, prngReg c r))

theorem Phi15_zero (c : Dev nD) (n : ℕ) (h : n ≤ cfg15.N) (hz : n = 0) : Phi15 V c n h = Pipeline.ΦA spec15 c := by
  subst hz; rfl

theorem Phi15_succ (c : Dev nD) (n : ℕ) (hn : n < cfg15.N) :
    Phi15 V c (n + 1) hn = iprop((owns (c : Thread nD τ) scM15 fullShare (acc15 V c n hn) ∗ Pipeline.scopedRestBut (Ix := Unit) (Name := ℕ) (U := UR sig nD τ) (Lvl := ℕ) (Val := Elt F) spec15 c [cc15_scratch0]) ∗ (∃ r, prngReg c r)) := rfl

theorem Phi15_pos (c : Dev nD) (n : ℕ) (h : n ≤ cfg15.N) (hz : n ≠ 0) :
    Phi15 V c n h = iprop((owns (c : Thread nD τ) scM15 fullShare (acc15 V c (n - 1) (by omega)) ∗ Pipeline.scopedRestBut (Ix := Unit) (Name := ℕ) (U := UR sig nD τ) (Lvl := ℕ) (Val := Elt F) spec15 c [cc15_scratch0]) ∗ (∃ r, prngReg c r)) := by
  cases n with
  | zero => exact absurd rfl hz
  | succ n => rfl

theorem PhiA15_eq (c : Dev nD) :
    (Pipeline.ΦA spec15 c : sProp 𝕄)
      = iprop(((∃ d, owns (c : Thread nD τ) scM15 fullShare d) ∗ Pipeline.scopedRestBut (Ix := Unit) (Name := ℕ) (U := UR sig nD τ) (Lvl := ℕ) (Val := Elt F) spec15 c [cc15_scratch0]) ∗ (∃ r, prngReg c r)) := by
  unfold Pipeline.ΦA; rw [scopedRest15_split]; simp only [scM15, owns_whole]; try rfl

def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => k15_pay3 (acc15 V c t.val t.isLt)
  Φ t := Phi15 V c t.val (Nat.le_of_lt_succ t.isLt)
  q _ := fullShare
  owed _ := 0

theorem A_eq15 (c : Dev nD) (w : Fin cfg15.W) : (dat15 V c).A w = V c (Pipeline.arrRef spec15 w) := by
  dsimp only [dat15]
theorem q_eq15 (c : Dev nD) (w : Fin cfg15.W) : (dat15 V c).q w = fullShare := by dsimp only [dat15]
theorem owed_eq15 (c : Dev nD) (t : Fin (cfg15.N + 1)) : (dat15 V c).owed t = 0 := by dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = k15_pay3 (acc15 V c t.val t.isLt) := by dsimp only [dat15]

theorem Phi15_castSucc (c : Dev nD) (t : Fin cfg15.N) :
    (dat15 V c).Φ t.castSucc = Phi15 V c t.val (Nat.le_of_lt t.isLt) := by
  dsimp only [dat15]; simp only [Fin.coe_castSucc]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d)))

def bodyPost15 (c : Dev nD) (t : Fin cfg15.N) : sProp 𝕄 :=
  iprop((dat15 V c).Φ t.succ ∗ (dat15 V c).owesAt () t.succ
    ∗ (dat15 V c).leavesExact 0 t
    ∗ (dat15 V c).leavesExact 1 t
    ∗ (dat15 V c).leavesExact 2 t
    ∗ (dat15 V c).leavesExact 3 t)

set_option maxHeartbeats 4000000 in

theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).owesAt () t.succ = (dat15 V c).owesAt () t.castSucc from rfl]
  rw [show (dat15 V c).Φ t.succ = Phi15 V c (t.val + 1) t.isLt from rfl, Phi15_succ]
  rw [show (dat15 V c).leavesExact 0 t = owns (c : Thread nD τ) (st15_0 t) fullShare ((dat15 V c).after 0 t) from by
    unfold Dat.leavesExact; rw [liveAt15_0 t], after15_0]
  rw [show (dat15 V c).leavesExact 1 t = owns (c : Thread nD τ) (st15_1 t) fullShare ((dat15 V c).after 1 t) from by
    unfold Dat.leavesExact; rw [liveAt15_1 t], after15_1]
  rw [show (dat15 V c).leavesExact 2 t = owns (c : Thread nD τ) (st15_2 t) fullShare ((dat15 V c).after 2 t) from by
    unfold Dat.leavesExact; rw [liveAt15_2 t], after15_2]
  have hN : t.val < 8 := lt_of_lt_of_eq t.isLt (show cfg15.N = 8 from N_15)
  by_cases h0 : t.val = 0
  · have hc0 : cond15_0 (grid15.coords t) := (hcond15_0 t).mpr h0
    have hc1 : ¬cond15_1 (grid15.coords t) := fun h => by have := (hcond15_1 t).mp h; omega
    rw [Dat.leavesExact_idle (dat15 V c) 3 t (idleAt15_3 t hc1) (noFlush15_3 t hc1)]
    rw [acc15_zero V c t h0]
    rw [Phi15_castSucc V c t, Phi15_zero V c _ _ h0, PhiA15_eq]
    iintro ⟨⟨⟨HS, HB⟩, Hg⟩, Ho, ⟨%d0, H0⟩, ⟨%d1, H1⟩, ⟨%d2, H2⟩, H3⟩
    iapply (sound_kernel15_A c Set.univ (grid15.coords t) _ _ _ _ _ _ _ _ _ _ hc0 hc1 (iblk15 V c 0 t) (iblk15 V c 1 t) (iblk15 V c 2 t) _)
    isplitl [H0]; · iexact H0
    isplitl [H1]; · iexact H1
    isplitl [H2]; · iexact H2
    isplitl [HS]; · iexact HS
    iintro ⟨H0, H1, H2, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    iexact H3
  · have hc0 : ¬cond15_0 (grid15.coords t) := fun h => h0 ((hcond15_0 t).mp h)
    rw [acc15_pos V c t h0]
    rw [Phi15_castSucc V c t, Phi15_pos V c _ _ h0]
    by_cases h7 : t.val = 7
    · have hc1 : cond15_1 (grid15.coords t) := (hcond15_1 t).mpr h7
      rw [show (dat15 V c).leavesExact 3 t = owns (c : Thread nD τ) (st15_3 t) fullShare ((dat15 V c).after 3 t) from by
        unfold Dat.leavesExact; rw [liveAt15_3 t hc1], after15_3, acc15_pos V c t h0]
      iintro ⟨⟨⟨HS, HB⟩, Hg⟩, Ho, ⟨%d0, H0⟩, ⟨%d1, H1⟩, ⟨%d2, H2⟩, ⟨%d3, H3⟩⟩
      iapply (sound_kernel15_C c Set.univ (grid15.coords t) _ _ _ _ _ _ _ _ _ _ hc0 hc1 (iblk15 V c 0 t) (iblk15 V c 1 t) (iblk15 V c 2 t) _ _)
      isplitl [H0]; · iexact H0
      isplitl [H1]; · iexact H1
      isplitl [H2]; · iexact H2
      isplitl [HS]; · iexact HS
      isplitl [H3]; · iexists _; iexact H3
      iintro ⟨H0, H1, H2, HS, H3⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3
    · have hc1 : ¬cond15_1 (grid15.coords t) := fun h => h7 ((hcond15_1 t).mp h)
      rw [Dat.leavesExact_idle (dat15 V c) 3 t (idleAt15_3 t hc1) (noFlush15_3 t hc1)]
      iintro ⟨⟨⟨HS, HB⟩, Hg⟩, Ho, ⟨%d0, H0⟩, ⟨%d1, H1⟩, ⟨%d2, H2⟩, H3⟩
      iapply (sound_kernel15_B c Set.univ (grid15.coords t) _ _ _ _ _ _ _ _ _ _ hc0 hc1 (iblk15 V c 0 t) (iblk15 V c 1 t) (iblk15 V c 2 t) _ _)
      isplitl [H0]; · iexact H0
      isplitl [H1]; · iexact H1
      isplitl [H2]; · iexact H2
      isplitl [HS]; · iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3

theorem body_obligation15 (c : Dev nD) : BodyObligation (dat15 (F := F) V c) (defs₀ (F := F)) Variants.none () Set.univ := fun t => by
  rw [bigSep_W15, bigSep_W15]
  exact sound_body15 V c t

theorem hin15 (c : Dev nD) (T : sProp 𝕄) :
    iprop((∃ r, prngReg c r) ∗ T ∗ Pipeline.scopedRest spec15 c) ⊢ (dat15 V c).Φ 0 := by
  rw [show (dat15 V c).Φ 0 = Pipeline.ΦA spec15 c from rfl]; unfold Pipeline.ΦA
  iintro ⟨Hp, -, Hr⟩
  isplitl [Hr]; · iexact Hr
  iexact Hp

theorem hout15 (c : Dev nD) :
    (dat15 V c).Φ (Fin.last cfg15.N) ⊢ iprop((∃ r, prngReg c r) ∗ Pipeline.scopedRest spec15 c) := by
  rw [show (dat15 V c).Φ (Fin.last cfg15.N) = Phi15 V c (Fin.last cfg15.N).val (Nat.le_of_lt_succ (Fin.last cfg15.N).isLt) from rfl,
    Phi15_pos V c _ _ (by rw [Fin.val_last]; have : cfg15.N = 8 := N_15; omega), scopedRest15_split]
  simp only [scM15, owns_whole]
  iintro ⟨⟨HS, HB⟩, Hg⟩
  isplitl [Hg]; · iexact Hg
  isplitl [HS]; · iexists _; iexact HS
  iexact HB

end Region

end Cert.KernelIdeal.Hand

end
-- ==== Proof.KI.Reg16.lean ====
import proofs.«402369_j86406152061536_3_alg».proof.Proof.Gen.KernelIdeal.Launch
import proofs.«402369_j86406152061536_3_alg».proof.Proof.Gen.KernelIdeal.Skeleton
import proofs.«402369_j86406152061536_3_alg».proof.Proof.Gen.KernelIdeal.Points
import proofs.«402369_j86406152061536_3_alg».proof.Proof.KI.Reg11
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev cond16_0 (i : grid16.Coords) : Prop := (Scalar.cmpi .ne (Scalar.extui (Scalar.cmpi .eq (BitVec.ofNat 32 (i 0).val) 0#32)) 0#32) = 1#1
theorem hcond16_0 : ∀ t : Fin cfg16.N, cond16_0 (grid16.coords t) ↔ t.val = 0 :=
  (by decide +kernel : ∀ t : Fin grid16.N, cond16_0 (grid16.coords t) ↔ t.val = 0)

abbrev cond16_1 (i : grid16.Coords) : Prop := k16_cond2 i = 1#1
theorem hcond16_1 : ∀ t : Fin cfg16.N, cond16_1 (grid16.coords t) ↔ t.val = 7 :=
  (by decide +kernel : ∀ t : Fin grid16.N, cond16_1 (grid16.coords t) ↔ t.val = 7)

theorem idleAt16_3 : ∀ t : Fin cfg16.N, ¬cond16_1 (grid16.coords t) → cfg16.idle 3 (grid16.coords t) = true := by decide +kernel
theorem noFlush16_3 : ∀ t : Fin cfg16.N, ¬cond16_1 (grid16.coords t) → (cfg16.win 3).flush t = false := by decide +kernel

theorem liveAt16_3 : ∀ t : Fin cfg16.N, cond16_1 (grid16.coords t) → cfg16.idle 3 (grid16.coords t) = false := by decide +kernel

theorem sound_kernel16_A (c : Dev nD) (E : Set ℕ) (i : grid16.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : cond16_0 i) (hc1 : ¬cond16_1 i)
    (x0 : Vec F S2048x256 .f32) (x1 : Vec F S2048x256 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k16_pay2 x2 x1 x0 k16_pay1)) -∗ K ⟨⟩))
      ⊢ wp frame (wpE (defs₀ (F := F)) Variants.none c none) E (cc16__ce_kernel i arg1 harg1 arg2 harg2 arg3 harg3 arg4 harg4 arg5 harg5) K :=
  sound_kernel11_A c E i arg1 harg1 arg2 harg2 arg3 harg3 arg4 harg4 arg5 harg5 hc0 hc1 x0 x1 x2 K

theorem sound_kernel16_B (c : Dev nD) (E : Set ℕ) (i : grid16.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond16_0 i) (hc1 : ¬cond16_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg5 fullShare (k16_pay2 x2 x1 x0 xs)) -∗ K ⟨⟩))
      ⊢ wp frame (wpE (defs₀ (F := F)) Variants.none c none) E (cc16__ce_kernel i arg1 harg1 arg2 harg2 arg3 harg3 arg4 harg4 arg5 harg5) K :=
  sound_kernel11_B c E i arg1 harg1 arg2 harg2 arg3 harg3 arg4 harg4 arg5 harg5 hc0 hc1 x0 x1 x2 xs K

theorem sound_kernel16_C (c : Dev nD) (E : Set ℕ) (i : grid16.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond16_0 i) (hc1 : cond16_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k16_pay2 x2 x1 x0 xs) ∗ owns (c : Thread nD τ) arg4 fullShare (k16_pay3 (k16_pay2 x2 x1 x0 xs))) -∗ K ⟨⟩))
      ⊢ wp frame (wpE (defs₀ (F := F)) Variants.none c none) E (cc16__ce_kernel i arg1 harg1 arg2 harg2 arg3 harg3 arg4 harg4 arg5 harg5) K :=
  sound_kernel11_C c E i arg1 harg1 arg2 harg2 arg3 harg3 arg4 harg4 arg5 harg5 hc0 hc1 x0 x1 x2 xs K

section Region

variable (V : (c : Dev nD) → (b : Ref sig .tc) → Buf (Elt F) ((c : Thread nD τ).loc b))

def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)

theorem liveAt16_0 : ∀ t : Fin cfg16.N, cfg16.idle 0 (grid16.coords t) = false := fun _ => rfl
theorem liveAt16_1 : ∀ t : Fin cfg16.N, cfg16.idle 1 (grid16.coords t) = false := fun _ => rfl
theorem liveAt16_2 : ∀ t : Fin cfg16.N, cfg16.idle 2 (grid16.coords t) = false := fun _ => rfl

abbrev scM16 : Memref sig .tc .vmem S1x1 .f32 := Memref.whole cc16_scratch0

def acc16 (c : Dev nD) : (n : ℕ) → n < cfg16.N → Vec F S1x1 .f32
  | 0, h => k16_pay2 (iblk16 V c 2 ⟨0, h⟩) (iblk16 V c 1 ⟨0, h⟩) (iblk16 V c 0 ⟨0, h⟩) k16_pay1
  | n + 1, h => k16_pay2 (iblk16 V c 2 ⟨n + 1, h⟩) (iblk16 V c 1 ⟨n + 1, h⟩) (iblk16 V c 0 ⟨n + 1, h⟩) (acc16 c n (Nat.lt_of_succ_lt h))

theorem acc16_zero (c : Dev nD) (t : Fin cfg16.N) (h : t.val = 0) :
    acc16 V c t.val t.isLt = k16_pay2 (iblk16 V c 2 t) (iblk16 V c 1 t) (iblk16 V c 0 t) k16_pay1 := by
  obtain ⟨n, hn⟩ := t
  cases n with
  | zero => rfl
  | succ n => exact absurd h (Nat.succ_ne_zero n)

theorem acc16_pos (c : Dev nD) (t : Fin cfg16.N) (h : t.val ≠ 0) :
    acc16 V c t.val t.isLt = k16_pay2 (iblk16 V c 2 t) (iblk16 V c 1 t) (iblk16 V c 0 t)
      (acc16 V c (t.val - 1) (Nat.lt_of_le_of_lt (Nat.sub_le _ _) t.isLt)) := by
  obtain ⟨n, hn⟩ := t
  cases n with
  | zero => exact absurd rfl h
  | succ n => rfl

def Phi16 (c : Dev nD) : (n : ℕ) → n ≤ cfg16.N → sProp 𝕄
  | 0, _ => Pipeline.ΦA spec16 c
  | n + 1, hn => iprop((owns (c : Thread nD τ) scM16 fullShare (acc16 V c n hn) ∗ Pipeline.scopedRestBut (Ix := Unit) (Name := ℕ) (U := UR sig nD τ) (Lvl := ℕ) (Val := Elt F) spec16 c [cc16_scratch0]) ∗ (∃ r, prngReg c r))

theorem Phi16_zero (c : Dev nD) (n : ℕ) (h : n ≤ cfg16.N) (hz : n = 0) : Phi16 V c n h = Pipeline.ΦA spec16 c := by
  subst hz; rfl

theorem Phi16_succ (c : Dev nD) (n : ℕ) (hn : n < cfg16.N) :
    Phi16 V c (n + 1) hn = iprop((owns (c : Thread nD τ) scM16 fullShare (acc16 V c n hn) ∗ Pipeline.scopedRestBut (Ix := Unit) (Name := ℕ) (U := UR sig nD τ) (Lvl := ℕ) (Val := Elt F) spec16 c [cc16_scratch0]) ∗ (∃ r, prngReg c r)) := rfl

theorem Phi16_pos (c : Dev nD) (n : ℕ) (h : n ≤ cfg16.N) (hz : n ≠ 0) :
    Phi16 V c n h = iprop((owns (c : Thread nD τ) scM16 fullShare (acc16 V c (n - 1) (by omega)) ∗ Pipeline.scopedRestBut (Ix := Unit) (Name := ℕ) (U := UR sig nD τ) (Lvl := ℕ) (Val := Elt F) spec16 c [cc16_scratch0]) ∗ (∃ r, prngReg c r)) := by
  cases n with
  | zero => exact absurd rfl hz
  | succ n => rfl

theorem PhiA16_eq (c : Dev nD) :
    (Pipeline.ΦA spec16 c : sProp 𝕄)
      = iprop(((∃ d, owns (c : Thread nD τ) scM16 fullShare d) ∗ Pipeline.scopedRestBut (Ix := Unit) (Name := ℕ) (U := UR sig nD τ) (Lvl := ℕ) (Val := Elt F) spec16 c [cc16_scratch0]) ∗ (∃ r, prngReg c r)) := by
  unfold Pipeline.ΦA; rw [scopedRest16_split]; simp only [scM16, owns_whole]; try rfl

def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => k16_pay3 (acc16 V c t.val t.isLt)
  Φ t := Phi16 V c t.val (Nat.le_of_lt_succ t.isLt)
  q _ := fullShare
  owed _ := 0

theorem A_eq16 (c : Dev nD) (w : Fin cfg16.W) : (dat16 V c).A w = V c (Pipeline.arrRef spec16 w) := by
  dsimp only [dat16]
theorem q_eq16 (c : Dev nD) (w : Fin cfg16.W) : (dat16 V c).q w = fullShare := by dsimp only [dat16]
theorem owed_eq16 (c : Dev nD) (t : Fin (cfg16.N + 1)) : (dat16 V c).owed t = 0 := by dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = k16_pay3 (acc16 V c t.val t.isLt) := by dsimp only [dat16]

theorem Phi16_castSucc (c : Dev nD) (t : Fin cfg16.N) :
    (dat16 V c).Φ t.castSucc = Phi16 V c t.val (Nat.le_of_lt t.isLt) := by
  dsimp only [dat16]; simp only [Fin.coe_castSucc]

theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d

def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d)))

def bodyPost16 (c : Dev nD) (t : Fin cfg16.N) : sProp 𝕄 :=
  iprop((dat16 V c).Φ t.succ ∗ (dat16 V c).owesAt () t.succ
    ∗ (dat16 V c).leavesExact 0 t
    ∗ (dat16 V c).leavesExact 1 t
    ∗ (dat16 V c).leavesExact 2 t
    ∗ (dat16 V c).leavesExact 3 t)

set_option maxHeartbeats 4000000 in

theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2]
  rw [show (dat16 V c).owesAt () t.succ = (dat16 V c).owesAt () t.castSucc from rfl]
  rw [show (dat16 V c).Φ t.succ = Phi16 V c (t.val + 1) t.isLt from rfl, Phi16_succ]
  rw [show (dat16 V c).leavesExact 0 t = owns (c : Thread nD τ) (st16_0 t) fullShare ((dat16 V c).after 0 t) from by
    unfold Dat.leavesExact; rw [liveAt16_0 t], after16_0]
  rw [show (dat16 V c).leavesExact 1 t = owns (c : Thread nD τ) (st16_1 t) fullShare ((dat16 V c).after 1 t) from by
    unfold Dat.leavesExact; rw [liveAt16_1 t], after16_1]
  rw [show (dat16 V c).leavesExact 2 t = owns (c : Thread nD τ) (st16_2 t) fullShare ((dat16 V c).after 2 t) from by
    unfold Dat.leavesExact; rw [liveAt16_2 t], after16_2]
  have hN : t.val < 8 := lt_of_lt_of_eq t.isLt (show cfg16.N = 8 from N_16)
  by_cases h0 : t.val = 0
  · have hc0 : cond16_0 (grid16.coords t) := (hcond16_0 t).mpr h0
    have hc1 : ¬cond16_1 (grid16.coords t) := fun h => by have := (hcond16_1 t).mp h; omega
    rw [Dat.leavesExact_idle (dat16 V c) 3 t (idleAt16_3 t hc1) (noFlush16_3 t hc1)]
    rw [acc16_zero V c t h0]
    rw [Phi16_castSucc V c t, Phi16_zero V c _ _ h0, PhiA16_eq]
    iintro ⟨⟨⟨HS, HB⟩, Hg⟩, Ho, ⟨%d0, H0⟩, ⟨%d1, H1⟩, ⟨%d2, H2⟩, H3⟩
    iapply (sound_kernel16_A c Set.univ (grid16.coords t) _ _ _ _ _ _ _ _ _ _ hc0 hc1 (iblk16 V c 0 t) (iblk16 V c 1 t) (iblk16 V c 2 t) _)
    isplitl [H0]; · iexact H0
    isplitl [H1]; · iexact H1
    isplitl [H2]; · iexact H2
    isplitl [HS]; · iexact HS
    iintro ⟨H0, H1, H2, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    iexact H3
  · have hc0 : ¬cond16_0 (grid16.coords t) := fun h => h0 ((hcond16_0 t).mp h)
    rw [acc16_pos V c t h0]
    rw [Phi16_castSucc V c t, Phi16_pos V c _ _ h0]
    by_cases h7 : t.val = 7
    · have hc1 : cond16_1 (grid16.coords t) := (hcond16_1 t).mpr h7
      rw [show (dat16 V c).leavesExact 3 t = owns (c : Thread nD τ) (st16_3 t) fullShare ((dat16 V c).after 3 t) from by
        unfold Dat.leavesExact; rw [liveAt16_3 t hc1], after16_3, acc16_pos V c t h0]
      iintro ⟨⟨⟨HS, HB⟩, Hg⟩, Ho, ⟨%d0, H0⟩, ⟨%d1, H1⟩, ⟨%d2, H2⟩, ⟨%d3, H3⟩⟩
      iapply (sound_kernel16_C c Set.univ (grid16.coords t) _ _ _ _ _ _ _ _ _ _ hc0 hc1 (iblk16 V c 0 t) (iblk16 V c 1 t) (iblk16 V c 2 t) _ _)
      isplitl [H0]; · iexact H0
      isplitl [H1]; · iexact H1
      isplitl [H2]; · iexact H2
      isplitl [HS]; · iexact HS
      isplitl [H3]; · iexists _; iexact H3
      iintro ⟨H0, H1, H2, HS, H3⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3
    · have hc1 : ¬cond16_1 (grid16.coords t) := fun h => h7 ((hcond16_1 t).mp h)
      rw [Dat.leavesExact_idle (dat16 V c) 3 t (idleAt16_3 t hc1) (noFlush16_3 t hc1)]
      iintro ⟨⟨⟨HS, HB⟩, Hg⟩, Ho, ⟨%d0, H0⟩, ⟨%d1, H1⟩, ⟨%d2, H2⟩, H3⟩
      iapply (sound_kernel16_B c Set.univ (grid16.coords t) _ _ _ _ _ _ _ _ _ _ hc0 hc1 (iblk16 V c 0 t) (iblk16 V c 1 t) (iblk16 V c 2 t) _ _)
      isplitl [H0]; · iexact H0
      isplitl [H1]; · iexact H1
      isplitl [H2]; · iexact H2
      isplitl [HS]; · iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3

theorem body_obligation16 (c : Dev nD) : BodyObligation (dat16 (F := F) V c) (defs₀ (F := F)) Variants.none () Set.univ := fun t => by
  rw [bigSep_W16, bigSep_W16]
  exact sound_body16 V c t

theorem hin16 (c : Dev nD) (T : sProp 𝕄) :
    iprop((∃ r, prngReg c r) ∗ T ∗ Pipeline.scopedRest spec16 c) ⊢ (dat16 V c).Φ 0 := by
  rw [show (dat16 V c).Φ 0 = Pipeline.ΦA spec16 c from rfl]; unfold Pipeline.ΦA
  iintro ⟨Hp, -, Hr⟩
  isplitl [Hr]; · iexact Hr
  iexact Hp

theorem hout16 (c : Dev nD) :
    (dat16 V c).Φ (Fin.last cfg16.N) ⊢ iprop((∃ r, prngReg c r) ∗ Pipeline.scopedRest spec16 c) := by
  rw [show (dat16 V c).Φ (Fin.last cfg16.N) = Phi16 V c (Fin.last cfg16.N).val (Nat.le_of_lt_succ (Fin.last cfg16.N).isLt) from rfl,
    Phi16_pos V c _ _ (by rw [Fin.val_last]; have : cfg16.N = 8 := N_16; omega), scopedRest16_split]
  simp only [scM16, owns_whole]
  iintro ⟨⟨HS, HB⟩, Hg⟩
  isplitl [Hg]; · iexact Hg
  isplitl [HS]; · iexists _; iexact HS
  iexact HB

end Region

end Cert.KernelIdeal.Hand

end
-- ==== Proof.KI.Reg17.lean ====
import proofs.«402369_j86406152061536_3_alg».proof.Proof.Gen.KernelIdeal.Launch
import proofs.«402369_j86406152061536_3_alg».proof.Proof.Gen.KernelIdeal.Skeleton
import proofs.«402369_j86406152061536_3_alg».proof.Proof.Gen.KernelIdeal.Points
import proofs.«402369_j86406152061536_3_alg».proof.Proof.KI.Reg11
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev cond17_0 (i : grid17.Coords) : Prop := (Scalar.cmpi .ne (Scalar.extui (Scalar.cmpi .eq (BitVec.ofNat 32 (i 0).val) 0#32)) 0#32) = 1#1
theorem hcond17_0 : ∀ t : Fin cfg17.N, cond17_0 (grid17.coords t) ↔ t.val = 0 :=
  (by decide +kernel : ∀ t : Fin grid17.N, cond17_0 (grid17.coords t) ↔ t.val = 0)

abbrev cond17_1 (i : grid17.Coords) : Prop := k17_cond2 i = 1#1
theorem hcond17_1 : ∀ t : Fin cfg17.N, cond17_1 (grid17.coords t) ↔ t.val = 7 :=
  (by decide +kernel : ∀ t : Fin grid17.N, cond17_1 (grid17.coords t) ↔ t.val = 7)

theorem idleAt17_3 : ∀ t : Fin cfg17.N, ¬cond17_1 (grid17.coords t) → cfg17.idle 3 (grid17.coords t) = true := by decide +kernel
theorem noFlush17_3 : ∀ t : Fin cfg17.N, ¬cond17_1 (grid17.coords t) → (cfg17.win 3).flush t = false := by decide +kernel

theorem liveAt17_3 : ∀ t : Fin cfg17.N, cond17_1 (grid17.coords t) → cfg17.idle 3 (grid17.coords t) = false := by decide +kernel

theorem sound_kernel17_A (c : Dev nD) (E : Set ℕ) (i : grid17.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : cond17_0 i) (hc1 : ¬cond17_1 i)
    (x0 : Vec F S2048x256 .f32) (x1 : Vec F S2048x256 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k17_pay2 x2 x1 x0 k17_pay1)) -∗ K ⟨⟩))
      ⊢ wp frame (wpE (defs₀ (F := F)) Variants.none c none) E (cc17__ce_kernel i arg1 harg1 arg2 harg2 arg3 harg3 arg4 harg4 arg5 harg5) K :=
  sound_kernel11_A c E i arg1 harg1 arg2 harg2 arg3 harg3 arg4 harg4 arg5 harg5 hc0 hc1 x0 x1 x2 K

theorem sound_kernel17_B (c : Dev nD) (E : Set ℕ) (i : grid17.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond17_0 i) (hc1 : ¬cond17_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg5 fullShare (k17_pay2 x2 x1 x0 xs)) -∗ K ⟨⟩))
      ⊢ wp frame (wpE (defs₀ (F := F)) Variants.none c none) E (cc17__ce_kernel i arg1 harg1 arg2 harg2 arg3 harg3 arg4 harg4 arg5 harg5) K :=
  sound_kernel11_B c E i arg1 harg1 arg2 harg2 arg3 harg3 arg4 harg4 arg5 harg5 hc0 hc1 x0 x1 x2 xs K

theorem sound_kernel17_C (c : Dev nD) (E : Set ℕ) (i : grid17.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond17_0 i) (hc1 : cond17_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k17_pay2 x2 x1 x0 xs) ∗ owns (c : Thread nD τ) arg4 fullShare (k17_pay3 (k17_pay2 x2 x1 x0 xs))) -∗ K ⟨⟩))
      ⊢ wp frame (wpE (defs₀ (F := F)) Variants.none c none) E (cc17__ce_kernel i arg1 harg1 arg2 harg2 arg3 harg3 arg4 harg4 arg5 harg5) K :=
  sound_kernel11_C c E i arg1 harg1 arg2 harg2 arg3 harg3 arg4 harg4 arg5 harg5 hc0 hc1 x0 x1 x2 xs K

section Region

variable (V : (c : Dev nD) → (b : Ref sig .tc) → Buf (Elt F) ((c : Thread nD τ).loc b))

def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)

theorem liveAt17_0 : ∀ t : Fin cfg17.N, cfg17.idle 0 (grid17.coords t) = false := fun _ => rfl
theorem liveAt17_1 : ∀ t : Fin cfg17.N, cfg17.idle 1 (grid17.coords t) = false := fun _ => rfl
theorem liveAt17_2 : ∀ t : Fin cfg17.N, cfg17.idle 2 (grid17.coords t) = false := fun _ => rfl

abbrev scM17 : Memref sig .tc .vmem S1x1 .f32 := Memref.whole cc17_scratch0

def acc17 (c : Dev nD) : (n : ℕ) → n < cfg17.N → Vec F S1x1 .f32
  | 0, h => k17_pay2 (iblk17 V c 2 ⟨0, h⟩) (iblk17 V c 1 ⟨0, h⟩) (iblk17 V c 0 ⟨0, h⟩) k17_pay1
  | n + 1, h => k17_pay2 (iblk17 V c 2 ⟨n + 1, h⟩) (iblk17 V c 1 ⟨n + 1, h⟩) (iblk17 V c 0 ⟨n + 1, h⟩) (acc17 c n (Nat.lt_of_succ_lt h))

theorem acc17_zero (c : Dev nD) (t : Fin cfg17.N) (h : t.val = 0) :
    acc17 V c t.val t.isLt = k17_pay2 (iblk17 V c 2 t) (iblk17 V c 1 t) (iblk17 V c 0 t) k17_pay1 := by
  obtain ⟨n, hn⟩ := t
  cases n with
  | zero => rfl
  | succ n => exact absurd h (Nat.succ_ne_zero n)

theorem acc17_pos (c : Dev nD) (t : Fin cfg17.N) (h : t.val ≠ 0) :
    acc17 V c t.val t.isLt = k17_pay2 (iblk17 V c 2 t) (iblk17 V c 1 t) (iblk17 V c 0 t)
      (acc17 V c (t.val - 1) (Nat.lt_of_le_of_lt (Nat.sub_le _ _) t.isLt)) := by
  obtain ⟨n, hn⟩ := t
  cases n with
  | zero => exact absurd rfl h
  | succ n => rfl

def Phi17 (c : Dev nD) : (n : ℕ) → n ≤ cfg17.N → sProp 𝕄
  | 0, _ => Pipeline.ΦA spec17 c
  | n + 1, hn => iprop((owns (c : Thread nD τ) scM17 fullShare (acc17 V c n hn) ∗ Pipeline.scopedRestBut (Ix := Unit) (Name := ℕ) (U := UR sig nD τ) (Lvl := ℕ) (Val := Elt F) spec17 c [cc17_scratch0]) ∗ (∃ r, prngReg c r))

theorem Phi17_zero (c : Dev nD) (n : ℕ) (h : n ≤ cfg17.N) (hz : n = 0) : Phi17 V c n h = Pipeline.ΦA spec17 c := by
  subst hz; rfl

theorem Phi17_succ (c : Dev nD) (n : ℕ) (hn : n < cfg17.N) :
    Phi17 V c (n + 1) hn = iprop((owns (c : Thread nD τ) scM17 fullShare (acc17 V c n hn) ∗ Pipeline.scopedRestBut (Ix := Unit) (Name := ℕ) (U := UR sig nD τ) (Lvl := ℕ) (Val := Elt F) spec17 c [cc17_scratch0]) ∗ (∃ r, prngReg c r)) := rfl

theorem Phi17_pos (c : Dev nD) (n : ℕ) (h : n ≤ cfg17.N) (hz : n ≠ 0) :
    Phi17 V c n h = iprop((owns (c : Thread nD τ) scM17 fullShare (acc17 V c (n - 1) (by omega)) ∗ Pipeline.scopedRestBut (Ix := Unit) (Name := ℕ) (U := UR sig nD τ) (Lvl := ℕ) (Val := Elt F) spec17 c [cc17_scratch0]) ∗ (∃ r, prngReg c r)) := by
  cases n with
  | zero => exact absurd rfl hz
  | succ n => rfl

theorem PhiA17_eq (c : Dev nD) :
    (Pipeline.ΦA spec17 c : sProp 𝕄)
      = iprop(((∃ d, owns (c : Thread nD τ) scM17 fullShare d) ∗ Pipeline.scopedRestBut (Ix := Unit) (Name := ℕ) (U := UR sig nD τ) (Lvl := ℕ) (Val := Elt F) spec17 c [cc17_scratch0]) ∗ (∃ r, prngReg c r)) := by
  unfold Pipeline.ΦA; rw [scopedRest17_split]; simp only [scM17, owns_whole]; try rfl

def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => k17_pay3 (acc17 V c t.val t.isLt)
  Φ t := Phi17 V c t.val (Nat.le_of_lt_succ t.isLt)
  q _ := fullShare
  owed _ := 0

theorem A_eq17 (c : Dev nD) (w : Fin cfg17.W) : (dat17 V c).A w = V c (Pipeline.arrRef spec17 w) := by
  dsimp only [dat17]
theorem q_eq17 (c : Dev nD) (w : Fin cfg17.W) : (dat17 V c).q w = fullShare := by dsimp only [dat17]
theorem owed_eq17 (c : Dev nD) (t : Fin (cfg17.N + 1)) : (dat17 V c).owed t = 0 := by dsimp only [dat17]

theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t = k17_pay3 (acc17 V c t.val t.isLt) := by dsimp only [dat17]

theorem Phi17_castSucc (c : Dev nD) (t : Fin cfg17.N) :
    (dat17 V c).Φ t.castSucc = Phi17 V c t.val (Nat.le_of_lt t.isLt) := by
  dsimp only [dat17]; simp only [Fin.coe_castSucc]

theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d

def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d)))

def bodyPost17 (c : Dev nD) (t : Fin cfg17.N) : sProp 𝕄 :=
  iprop((dat17 V c).Φ t.succ ∗ (dat17 V c).owesAt () t.succ
    ∗ (dat17 V c).leavesExact 0 t
    ∗ (dat17 V c).leavesExact 1 t
    ∗ (dat17 V c).leavesExact 2 t
    ∗ (dat17 V c).leavesExact 3 t)

set_option maxHeartbeats 4000000 in

theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2]
  rw [show (dat17 V c).owesAt () t.succ = (dat17 V c).owesAt () t.castSucc from rfl]
  rw [show (dat17 V c).Φ t.succ = Phi17 V c (t.val + 1) t.isLt from rfl, Phi17_succ]
  rw [show (dat17 V c).leavesExact 0 t = owns (c : Thread nD τ) (st17_0 t) fullShare ((dat17 V c).after 0 t) from by
    unfold Dat.leavesExact; rw [liveAt17_0 t], after17_0]
  rw [show (dat17 V c).leavesExact 1 t = owns (c : Thread nD τ) (st17_1 t) fullShare ((dat17 V c).after 1 t) from by
    unfold Dat.leavesExact; rw [liveAt17_1 t], after17_1]
  rw [show (dat17 V c).leavesExact 2 t = owns (c : Thread nD τ) (st17_2 t) fullShare ((dat17 V c).after 2 t) from by
    unfold Dat.leavesExact; rw [liveAt17_2 t], after17_2]
  have hN : t.val < 8 := lt_of_lt_of_eq t.isLt (show cfg17.N = 8 from N_17)
  by_cases h0 : t.val = 0
  · have hc0 : cond17_0 (grid17.coords t) := (hcond17_0 t).mpr h0
    have hc1 : ¬cond17_1 (grid17.coords t) := fun h => by have := (hcond17_1 t).mp h; omega
    rw [Dat.leavesExact_idle (dat17 V c) 3 t (idleAt17_3 t hc1) (noFlush17_3 t hc1)]
    rw [acc17_zero V c t h0]
    rw [Phi17_castSucc V c t, Phi17_zero V c _ _ h0, PhiA17_eq]
    iintro ⟨⟨⟨HS, HB⟩, Hg⟩, Ho, ⟨%d0, H0⟩, ⟨%d1, H1⟩, ⟨%d2, H2⟩, H3⟩
    iapply (sound_kernel17_A c Set.univ (grid17.coords t) _ _ _ _ _ _ _ _ _ _ hc0 hc1 (iblk17 V c 0 t) (iblk17 V c 1 t) (iblk17 V c 2 t) _)
    isplitl [H0]; · iexact H0
    isplitl [H1]; · iexact H1
    isplitl [H2]; · iexact H2
    isplitl [HS]; · iexact HS
    iintro ⟨H0, H1, H2, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    iexact H3
  · have hc0 : ¬cond17_0 (grid17.coords t) := fun h => h0 ((hcond17_0 t).mp h)
    rw [acc17_pos V c t h0]
    rw [Phi17_castSucc V c t, Phi17_pos V c _ _ h0]
    by_cases h7 : t.val = 7
    · have hc1 : cond17_1 (grid17.coords t) := (hcond17_1 t).mpr h7
      rw [show (dat17 V c).leavesExact 3 t = owns (c : Thread nD τ) (st17_3 t) fullShare ((dat17 V c).after 3 t) from by
        unfold Dat.leavesExact; rw [liveAt17_3 t hc1], after17_3, acc17_pos V c t h0]
      iintro ⟨⟨⟨HS, HB⟩, Hg⟩, Ho, ⟨%d0, H0⟩, ⟨%d1, H1⟩, ⟨%d2, H2⟩, ⟨%d3, H3⟩⟩
      iapply (sound_kernel17_C c Set.univ (grid17.coords t) _ _ _ _ _ _ _ _ _ _ hc0 hc1 (iblk17 V c 0 t) (iblk17 V c 1 t) (iblk17 V c 2 t) _ _)
      isplitl [H0]; · iexact H0
      isplitl [H1]; · iexact H1
      isplitl [H2]; · iexact H2
      isplitl [HS]; · iexact HS
      isplitl [H3]; · iexists _; iexact H3
      iintro ⟨H0, H1, H2, HS, H3⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3
    · have hc1 : ¬cond17_1 (grid17.coords t) := fun h => h7 ((hcond17_1 t).mp h)
      rw [Dat.leavesExact_idle (dat17 V c) 3 t (idleAt17_3 t hc1) (noFlush17_3 t hc1)]
      iintro ⟨⟨⟨HS, HB⟩, Hg⟩, Ho, ⟨%d0, H0⟩, ⟨%d1, H1⟩, ⟨%d2, H2⟩, H3⟩
      iapply (sound_kernel17_B c Set.univ (grid17.coords t) _ _ _ _ _ _ _ _ _ _ hc0 hc1 (iblk17 V c 0 t) (iblk17 V c 1 t) (iblk17 V c 2 t) _ _)
      isplitl [H0]; · iexact H0
      isplitl [H1]; · iexact H1
      isplitl [H2]; · iexact H2
      isplitl [HS]; · iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3

theorem body_obligation17 (c : Dev nD) : BodyObligation (dat17 (F := F) V c) (defs₀ (F := F)) Variants.none () Set.univ := fun t => by
  rw [bigSep_W17, bigSep_W17]
  exact sound_body17 V c t

theorem hin17 (c : Dev nD) (T : sProp 𝕄) :
    iprop((∃ r, prngReg c r) ∗ T ∗ Pipeline.scopedRest spec17 c) ⊢ (dat17 V c).Φ 0 := by
  rw [show (dat17 V c).Φ 0 = Pipeline.ΦA spec17 c from rfl]; unfold Pipeline.ΦA
  iintro ⟨Hp, -, Hr⟩
  isplitl [Hr]; · iexact Hr
  iexact Hp

theorem hout17 (c : Dev nD) :
    (dat17 V c).Φ (Fin.last cfg17.N) ⊢ iprop((∃ r, prngReg c r) ∗ Pipeline.scopedRest spec17 c) := by
  rw [show (dat17 V c).Φ (Fin.last cfg17.N) = Phi17 V c (Fin.last cfg17.N).val (Nat.le_of_lt_succ (Fin.last cfg17.N).isLt) from rfl,
    Phi17_pos V c _ _ (by rw [Fin.val_last]; have : cfg17.N = 8 := N_17; omega), scopedRest17_split]
  simp only [scM17, owns_whole]
  iintro ⟨⟨HS, HB⟩, Hg⟩
  isplitl [Hg]; · iexact Hg
  isplitl [HS]; · iexists _; iexact HS
  iexact HB

end Region

end Cert.KernelIdeal.Hand

end
-- ==== Proof.KI.Reg18.lean ====
import proofs.«402369_j86406152061536_3_alg».proof.Proof.Gen.KernelIdeal.Launch
import proofs.«402369_j86406152061536_3_alg».proof.Proof.Gen.KernelIdeal.Skeleton
import proofs.«402369_j86406152061536_3_alg».proof.Proof.Gen.KernelIdeal.Points
import proofs.«402369_j86406152061536_3_alg».proof.Proof.KI.Reg11
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev cond18_0 (i : grid18.Coords) : Prop := (Scalar.cmpi .ne (Scalar.extui (Scalar.cmpi .eq (BitVec.ofNat 32 (i 0).val) 0#32)) 0#32) = 1#1
theorem hcond18_0 : ∀ t : Fin cfg18.N, cond18_0 (grid18.coords t) ↔ t.val = 0 :=
  (by decide +kernel : ∀ t : Fin grid18.N, cond18_0 (grid18.coords t) ↔ t.val = 0)

abbrev cond18_1 (i : grid18.Coords) : Prop := k18_cond2 i = 1#1
theorem hcond18_1 : ∀ t : Fin cfg18.N, cond18_1 (grid18.coords t) ↔ t.val = 7 :=
  (by decide +kernel : ∀ t : Fin grid18.N, cond18_1 (grid18.coords t) ↔ t.val = 7)

theorem idleAt18_3 : ∀ t : Fin cfg18.N, ¬cond18_1 (grid18.coords t) → cfg18.idle 3 (grid18.coords t) = true := by decide +kernel
theorem noFlush18_3 : ∀ t : Fin cfg18.N, ¬cond18_1 (grid18.coords t) → (cfg18.win 3).flush t = false := by decide +kernel

theorem liveAt18_3 : ∀ t : Fin cfg18.N, cond18_1 (grid18.coords t) → cfg18.idle 3 (grid18.coords t) = false := by decide +kernel

theorem sound_kernel18_A (c : Dev nD) (E : Set ℕ) (i : grid18.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : cond18_0 i) (hc1 : ¬cond18_1 i)
    (x0 : Vec F S2048x256 .f32) (x1 : Vec F S2048x256 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k18_pay2 x2 x1 x0 k18_pay1)) -∗ K ⟨⟩))
      ⊢ wp frame (wpE (defs₀ (F := F)) Variants.none c none) E (cc18__ce_kernel i arg1 harg1 arg2 harg2 arg3 harg3 arg4 harg4 arg5 harg5) K :=
  sound_kernel11_A c E i arg1 harg1 arg2 harg2 arg3 harg3 arg4 harg4 arg5 harg5 hc0 hc1 x0 x1 x2 K

theorem sound_kernel18_B (c : Dev nD) (E : Set ℕ) (i : grid18.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond18_0 i) (hc1 : ¬cond18_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg5 fullShare (k18_pay2 x2 x1 x0 xs)) -∗ K ⟨⟩))
      ⊢ wp frame (wpE (defs₀ (F := F)) Variants.none c none) E (cc18__ce_kernel i arg1 harg1 arg2 harg2 arg3 harg3 arg4 harg4 arg5 harg5) K :=
  sound_kernel11_B c E i arg1 harg1 arg2 harg2 arg3 harg3 arg4 harg4 arg5 harg5 hc0 hc1 x0 x1 x2 xs K

theorem sound_kernel18_C (c : Dev nD) (E : Set ℕ) (i : grid18.Coords)
    (arg1 : Memref sig .tc .vmem S2048x256 .f32) (harg1 : arg1.IsWhole) (arg2 : Memref sig .tc .vmem S2048x256 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (hc0 : ¬cond18_0 i) (hc1 : cond18_1 i)
    (x0 : Vec F S2048x256 .f32) (x1 : Vec F S2048x256 .f32) (x2 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare xs ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg5 fullShare (k18_pay2 x2 x1 x0 xs) ∗ owns (c : Thread nD τ) arg4 fullShare (k18_pay3 (k18_pay2 x2 x1 x0 xs))) -∗ K ⟨⟩))
      ⊢ wp frame (wpE (defs₀ (F := F)) Variants.none c none) E (cc18__ce_kernel i arg1 harg1 arg2 harg2 arg3 harg3 arg4 harg4 arg5 harg5) K :=
  sound_kernel11_C c E i arg1 harg1 arg2 harg2 arg3 harg3 arg4 harg4 arg5 harg5 hc0 hc1 x0 x1 x2 xs K

section Region

variable (V : (c : Dev nD) → (b : Ref sig .tc) → Buf (Elt F) ((c : Thread nD τ).loc b))

def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)

theorem liveAt18_0 : ∀ t : Fin cfg18.N, cfg18.idle 0 (grid18.coords t) = false := fun _ => rfl
theorem liveAt18_1 : ∀ t : Fin cfg18.N, cfg18.idle 1 (grid18.coords t) = false := fun _ => rfl
theorem liveAt18_2 : ∀ t : Fin cfg18.N, cfg18.idle 2 (grid18.coords t) = false := fun _ => rfl

abbrev scM18 : Memref sig .tc .vmem S1x1 .f32 := Memref.whole cc18_scratch0

def acc18 (c : Dev nD) : (n : ℕ) → n < cfg18.N → Vec F S1x1 .f32
  | 0, h => k18_pay2 (iblk18 V c 2 ⟨0, h⟩) (iblk18 V c 1 ⟨0, h⟩) (iblk18 V c 0 ⟨0, h⟩) k18_pay1
  | n + 1, h => k18_pay2 (iblk18 V c 2 ⟨n + 1, h⟩) (iblk18 V c 1 ⟨n + 1, h⟩) (iblk18 V c 0 ⟨n + 1, h⟩) (acc18 c n (Nat.lt_of_succ_lt h))

theorem acc18_zero (c : Dev nD) (t : Fin cfg18.N) (h : t.val = 0) :
    acc18 V c t.val t.isLt = k18_pay2 (iblk18 V c 2 t) (iblk18 V c 1 t) (iblk18 V c 0 t) k18_pay1 := by
  obtain ⟨n, hn⟩ := t
  cases n with
  | zero => rfl
  | succ n => exact absurd h (Nat.succ_ne_zero n)

theorem acc18_pos (c : Dev nD) (t : Fin cfg18.N) (h : t.val ≠ 0) :
    acc18 V c t.val t.isLt = k18_pay2 (iblk18 V c 2 t) (iblk18 V c 1 t) (iblk18 V c 0 t)
      (acc18 V c (t.val - 1) (Nat.lt_of_le_of_lt (Nat.sub_le _ _) t.isLt)) := by
  obtain ⟨n, hn⟩ := t
  cases n with
  | zero => exact absurd rfl h
  | succ n => rfl

def Phi18 (c : Dev nD) : (n : ℕ) → n ≤ cfg18.N → sProp 𝕄
  | 0, _ => Pipeline.ΦA spec18 c
  | n + 1, hn => iprop((owns (c : Thread nD τ) scM18 fullShare (acc18 V c n hn) ∗ Pipeline.scopedRestBut (Ix := Unit) (Name := ℕ) (U := UR sig nD τ) (Lvl := ℕ) (Val := Elt F) spec18 c [cc18_scratch0]) ∗ (∃ r, prngReg c r))

theorem Phi18_zero (c : Dev nD) (n : ℕ) (h : n ≤ cfg18.N) (hz : n = 0) : Phi18 V c n h = Pipeline.ΦA spec18 c := by
  subst hz; rfl

theorem Phi18_succ (c : Dev nD) (n : ℕ) (hn : n < cfg18.N) :
    Phi18 V c (n + 1) hn = iprop((owns (c : Thread nD τ) scM18 fullShare (acc18 V c n hn) ∗ Pipeline.scopedRestBut (Ix := Unit) (Name := ℕ) (U := UR sig nD τ) (Lvl := ℕ) (Val := Elt F) spec18 c [cc18_scratch0]) ∗ (∃ r, prngReg c r)) := rfl

theorem Phi18_pos (c : Dev nD) (n : ℕ) (h : n ≤ cfg18.N) (hz : n ≠ 0) :
    Phi18 V c n h = iprop((owns (c : Thread nD τ) scM18 fullShare (acc18 V c (n - 1) (by omega)) ∗ Pipeline.scopedRestBut (Ix := Unit) (Name := ℕ) (U := UR sig nD τ) (Lvl := ℕ) (Val := Elt F) spec18 c [cc18_scratch0]) ∗ (∃ r, prngReg c r)) := by
  cases n with
  | zero => exact absurd rfl hz
  | succ n => rfl

theorem PhiA18_eq (c : Dev nD) :
    (Pipeline.ΦA spec18 c : sProp 𝕄)
      = iprop(((∃ d, owns (c : Thread nD τ) scM18 fullShare d) ∗ Pipeline.scopedRestBut (Ix := Unit) (Name := ℕ) (U := UR sig nD τ) (Lvl := ℕ) (Val := Elt F) spec18 c [cc18_scratch0]) ∗ (∃ r, prngReg c r)) := by
  unfold Pipeline.ΦA; rw [scopedRest18_split]; simp only [scM18, owns_whole]; try rfl

def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => k18_pay3 (acc18 V c t.val t.isLt)
  Φ t := Phi18 V c t.val (Nat.le_of_lt_succ t.isLt)
  q _ := fullShare
  owed _ := 0

theorem A_eq18 (c : Dev nD) (w : Fin cfg18.W) : (dat18 V c).A w = V c (Pipeline.arrRef spec18 w) := by
  dsimp only [dat18]
theorem q_eq18 (c : Dev nD) (w : Fin cfg18.W) : (dat18 V c).q w = fullShare := by dsimp only [dat18]
theorem owed_eq18 (c : Dev nD) (t : Fin (cfg18.N + 1)) : (dat18 V c).owed t = 0 := by dsimp only [dat18]

theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) : (dat18 V c).after 3 t = k18_pay3 (acc18 V c t.val t.isLt) := by dsimp only [dat18]

theorem Phi18_castSucc (c : Dev nD) (t : Fin cfg18.N) :
    (dat18 V c).Φ t.castSucc = Phi18 V c t.val (Nat.le_of_lt t.isLt) := by
  dsimp only [dat18]; simp only [Fin.coe_castSucc]

theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d

def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d))
    ∗ (∃ d, owns (c : Thread nD τ) (st18_3 t) fullShare ((dat18 V c).before 3 t d)))

def bodyPost18 (c : Dev nD) (t : Fin cfg18.N) : sProp 𝕄 :=
  iprop((dat18 V c).Φ t.succ ∗ (dat18 V c).owesAt () t.succ
    ∗ (dat18 V c).leavesExact 0 t
    ∗ (dat18 V c).leavesExact 1 t
    ∗ (dat18 V c).leavesExact 2 t
    ∗ (dat18 V c).leavesExact 3 t)

set_option maxHeartbeats 4000000 in

theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1, before18_2]
  rw [show (dat18 V c).owesAt () t.succ = (dat18 V c).owesAt () t.castSucc from rfl]
  rw [show (dat18 V c).Φ t.succ = Phi18 V c (t.val + 1) t.isLt from rfl, Phi18_succ]
  rw [show (dat18 V c).leavesExact 0 t = owns (c : Thread nD τ) (st18_0 t) fullShare ((dat18 V c).after 0 t) from by
    unfold Dat.leavesExact; rw [liveAt18_0 t], after18_0]
  rw [show (dat18 V c).leavesExact 1 t = owns (c : Thread nD τ) (st18_1 t) fullShare ((dat18 V c).after 1 t) from by
    unfold Dat.leavesExact; rw [liveAt18_1 t], after18_1]
  rw [show (dat18 V c).leavesExact 2 t = owns (c : Thread nD τ) (st18_2 t) fullShare ((dat18 V c).after 2 t) from by
    unfold Dat.leavesExact; rw [liveAt18_2 t], after18_2]
  have hN : t.val < 8 := lt_of_lt_of_eq t.isLt (show cfg18.N = 8 from N_18)
  by_cases h0 : t.val = 0
  · have hc0 : cond18_0 (grid18.coords t) := (hcond18_0 t).mpr h0
    have hc1 : ¬cond18_1 (grid18.coords t) := fun h => by have := (hcond18_1 t).mp h; omega
    rw [Dat.leavesExact_idle (dat18 V c) 3 t (idleAt18_3 t hc1) (noFlush18_3 t hc1)]
    rw [acc18_zero V c t h0]
    rw [Phi18_castSucc V c t, Phi18_zero V c _ _ h0, PhiA18_eq]
    iintro ⟨⟨⟨HS, HB⟩, Hg⟩, Ho, ⟨%d0, H0⟩, ⟨%d1, H1⟩, ⟨%d2, H2⟩, H3⟩
    iapply (sound_kernel18_A c Set.univ (grid18.coords t) _ _ _ _ _ _ _ _ _ _ hc0 hc1 (iblk18 V c 0 t) (iblk18 V c 1 t) (iblk18 V c 2 t) _)
    isplitl [H0]; · iexact H0
    isplitl [H1]; · iexact H1
    isplitl [H2]; · iexact H2
    isplitl [HS]; · iexact HS
    iintro ⟨H0, H1, H2, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    iexact H3
  · have hc0 : ¬cond18_0 (grid18.coords t) := fun h => h0 ((hcond18_0 t).mp h)
    rw [acc18_pos V c t h0]
    rw [Phi18_castSucc V c t, Phi18_pos V c _ _ h0]
    by_cases h7 : t.val = 7
    · have hc1 : cond18_1 (grid18.coords t) := (hcond18_1 t).mpr h7
      rw [show (dat18 V c).leavesExact 3 t = owns (c : Thread nD τ) (st18_3 t) fullShare ((dat18 V c).after 3 t) from by
        unfold Dat.leavesExact; rw [liveAt18_3 t hc1], after18_3, acc18_pos V c t h0]
      iintro ⟨⟨⟨HS, HB⟩, Hg⟩, Ho, ⟨%d0, H0⟩, ⟨%d1, H1⟩, ⟨%d2, H2⟩, ⟨%d3, H3⟩⟩
      iapply (sound_kernel18_C c Set.univ (grid18.coords t) _ _ _ _ _ _ _ _ _ _ hc0 hc1 (iblk18 V c 0 t) (iblk18 V c 1 t) (iblk18 V c 2 t) _ _)
      isplitl [H0]; · iexact H0
      isplitl [H1]; · iexact H1
      isplitl [H2]; · iexact H2
      isplitl [HS]; · iexact HS
      isplitl [H3]; · iexists _; iexact H3
      iintro ⟨H0, H1, H2, HS, H3⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3
    · have hc1 : ¬cond18_1 (grid18.coords t) := fun h => h7 ((hcond18_1 t).mp h)
      rw [Dat.leavesExact_idle (dat18 V c) 3 t (idleAt18_3 t hc1) (noFlush18_3 t hc1)]
      iintro ⟨⟨⟨HS, HB⟩, Hg⟩, Ho, ⟨%d0, H0⟩, ⟨%d1, H1⟩, ⟨%d2, H2⟩, H3⟩
      iapply (sound_kernel18_B c Set.univ (grid18.coords t) _ _ _ _ _ _ _ _ _ _ hc0 hc1 (iblk18 V c 0 t) (iblk18 V c 1 t) (iblk18 V c 2 t) _ _)
      isplitl [H0]; · iexact H0
      isplitl [H1]; · iexact H1
      isplitl [H2]; · iexact H2
      isplitl [HS]; · iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      iexact H3

theorem body_obligation18 (c : Dev nD) : BodyObligation (dat18 (F := F) V c) (defs₀ (F := F)) Variants.none () Set.univ := fun t => by
  rw [bigSep_W18, bigSep_W18]
  exact sound_body18 V c t

theorem hin18 (c : Dev nD) (T : sProp 𝕄) :
    iprop((∃ r, prngReg c r) ∗ T ∗ Pipeline.scopedRest spec18 c) ⊢ (dat18 V c).Φ 0 := by
  rw [show (dat18 V c).Φ 0 = Pipeline.ΦA spec18 c from rfl]; unfold Pipeline.ΦA
  iintro ⟨Hp, -, Hr⟩
  isplitl [Hr]; · iexact Hr
  iexact Hp

theorem hout18 (c : Dev nD) :
    (dat18 V c).Φ (Fin.last cfg18.N) ⊢ iprop((∃ r, prngReg c r) ∗ Pipeline.scopedRest spec18 c) := by
  rw [show (dat18 V c).Φ (Fin.last cfg18.N) = Phi18 V c (Fin.last cfg18.N).val (Nat.le_of_lt_succ (Fin.last cfg18.N).isLt) from rfl,
    Phi18_pos V c _ _ (by rw [Fin.val_last]; have : cfg18.N = 8 := N_18; omega), scopedRest18_split]
  simp only [scM18, owns_whole]
  iintro ⟨⟨HS, HB⟩, Hg⟩
  isplitl [Hg]; · iexact Hg
  isplitl [HS]; · iexists _; iexact HS
  iexact HB

end Region

end Cert.KernelIdeal.Hand

end
-- ==== Proof.KI.Chain.lean ====
import proofs.«402369_j86406152061536_3_alg».proof.Proof.KI.Reg0
import proofs.«402369_j86406152061536_3_alg».proof.Proof.KI.Reg1
import proofs.«402369_j86406152061536_3_alg».proof.Proof.KI.Reg2
import proofs.«402369_j86406152061536_3_alg».proof.Proof.KI.Reg3
import proofs.«402369_j86406152061536_3_alg».proof.Proof.KI.Reg4
import proofs.«402369_j86406152061536_3_alg».proof.Proof.KI.Reg5
import proofs.«402369_j86406152061536_3_alg».proof.Proof.KI.Reg6
import proofs.«402369_j86406152061536_3_alg».proof.Proof.KI.Reg7
import proofs.«402369_j86406152061536_3_alg».proof.Proof.KI.Reg8
import proofs.«402369_j86406152061536_3_alg».proof.Proof.KI.Reg9
import proofs.«402369_j86406152061536_3_alg».proof.Proof.KI.Reg10
import proofs.«402369_j86406152061536_3_alg».proof.Proof.KI.Reg11
import proofs.«402369_j86406152061536_3_alg».proof.Proof.KI.Reg12
import proofs.«402369_j86406152061536_3_alg».proof.Proof.KI.Reg13
import proofs.«402369_j86406152061536_3_alg».proof.Proof.KI.Reg14
import proofs.«402369_j86406152061536_3_alg».proof.Proof.KI.Reg15
import proofs.«402369_j86406152061536_3_alg».proof.Proof.KI.Reg16
import proofs.«402369_j86406152061536_3_alg».proof.Proof.KI.Reg17
import proofs.«402369_j86406152061536_3_alg».proof.Proof.KI.Reg18
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (a0 : (pcfg0 (F := F)).Adm)

abbrev W0 : Dev nD → Valuation τ sig (Elt F) := fun c b => m (c, b)

abbrev W1 : Dev nD → Valuation τ sig (Elt F) := fun c => StableHlo.after hostOps0 (W0 m c)

abbrev W2 : Dev nD → Valuation τ sig (Elt F) := fun c => StableHlo.after hostOps0_1 (W1 m c)

abbrev W3 : Dev nD → Valuation τ sig (Elt F) := fun c => StableHlo.after hostOps0_2 (W2 m c)

abbrev Vr3 : (c : Dev nD) → (b : Ref sig .tc) → Buf (Elt F) ((c : Thread nD τ).loc b) := fun c b => W3 m c b

def W4 (c : Dev nD) : Valuation τ sig (Elt F) :=
  Pipeline.withArrays spec0 c (W3 m c) fun w => (dat0 a0 (Vr3 m) c).arrAt w (cfg0 a0).N
theorem W4_arr (c : Dev nD) (w : Fin 8) :
    W4 m a0 c (Proc.devRef .tc (Pipeline.arrRef spec0 w)) = (dat0 a0 (Vr3 m) c).arrAt w (cfg0 a0).N := by
  unfold W4; exact Pipeline.withArrays_arr spec0 winFacts0.arr_inj c _ _ w
theorem W4_of_ne (c : Dev nD) (b : Ref sig .tc) (hb : ∀ w, Pipeline.arrRef spec0 w ≠ b) :
    W4 m a0 c (Proc.devRef .tc b) = W3 m c (Proc.devRef .tc b) := by
  unfold W4; exact Pipeline.withArrays_of_ne spec0 c _ _ b hb
abbrev Vx4 : (c : Dev nD) → (b : Ref sig .tc) → Buf (Elt F) ((c : Thread nD τ).loc b) := fun c b => W4 m a0 c b
theorem hF0 (c : Dev nD) (w : Fin 8) : (dat0 a0 (Vr3 m) c).arrAt w (cfg0 a0).N = Vx4 m a0 c (Pipeline.arrRef spec0 w) :=
  (W4_arr m a0 c w).symm
theorem hrest0 (c : Dev nD) : ∀ b, b ∉ Finset.univ.image (Pipeline.arrRef spec0) → Vx4 m a0 c b = Vr3 m c b :=
  fun b hb => W4_of_ne m a0 c b fun w e => hb (Finset.mem_image.mpr ⟨w, Finset.mem_univ _, e⟩)

abbrev W5 : Dev nD → Valuation τ sig (Elt F) := fun c => StableHlo.after hostOps1 (W4 m a0 c)

abbrev Vr5 : (c : Dev nD) → (b : Ref sig .tc) → Buf (Elt F) ((c : Thread nD τ).loc b) := fun c b => W5 m a0 c b

def W6 (c : Dev nD) : Valuation τ sig (Elt F) :=
  Pipeline.withArrays spec1 c (W5 m a0 c) fun w => (dat1 (Vr5 m a0) c).arrAt w cfg1.N
theorem W6_arr (c : Dev nD) (w : Fin 3) :
    W6 m a0 c (Proc.devRef .tc (Pipeline.arrRef spec1 w)) = (dat1 (Vr5 m a0) c).arrAt w cfg1.N := by
  unfold W6; exact Pipeline.withArrays_arr spec1 winFacts1.arr_inj c _ _ w
theorem W6_of_ne (c : Dev nD) (b : Ref sig .tc) (hb : ∀ w, Pipeline.arrRef spec1 w ≠ b) :
    W6 m a0 c (Proc.devRef .tc b) = W5 m a0 c (Proc.devRef .tc b) := by
  unfold W6; exact Pipeline.withArrays_of_ne spec1 c _ _ b hb
abbrev Vx6 : (c : Dev nD) → (b : Ref sig .tc) → Buf (Elt F) ((c : Thread nD τ).loc b) := fun c b => W6 m a0 c b
theorem hF1 (c : Dev nD) (w : Fin 3) : (dat1 (Vr5 m a0) c).arrAt w cfg1.N = Vx6 m a0 c (Pipeline.arrRef spec1 w) :=
  (W6_arr m a0 c w).symm
theorem hrest1 (c : Dev nD) : ∀ b, b ∉ Finset.univ.image (Pipeline.arrRef spec1) → Vx6 m a0 c b = Vr5 m a0 c b :=
  fun b hb => W6_of_ne m a0 c b fun w e => hb (Finset.mem_image.mpr ⟨w, Finset.mem_univ _, e⟩)

abbrev Vr6 : (c : Dev nD) → (b : Ref sig .tc) → Buf (Elt F) ((c : Thread nD τ).loc b) := fun c b => W6 m a0 c b

def W7 (c : Dev nD) : Valuation τ sig (Elt F) :=
  Pipeline.withArrays spec2 c (W6 m a0 c) fun w => (dat2 (Vr6 m a0) c).arrAt w cfg2.N
theorem W7_arr (c : Dev nD) (w : Fin 3) :
    W7 m a0 c (Proc.devRef .tc (Pipeline.arrRef spec2 w)) = (dat2 (Vr6 m a0) c).arrAt w cfg2.N := by
  unfold W7; exact Pipeline.withArrays_arr spec2 winFacts2.arr_inj c _ _ w
theorem W7_of_ne (c : Dev nD) (b : Ref sig .tc) (hb : ∀ w, Pipeline.arrRef spec2 w ≠ b) :
    W7 m a0 c (Proc.devRef .tc b) = W6 m a0 c (Proc.devRef .tc b) := by
  unfold W7; exact Pipeline.withArrays_of_ne spec2 c _ _ b hb
abbrev Vx7 : (c : Dev nD) → (b : Ref sig .tc) → Buf (Elt F) ((c : Thread nD τ).loc b) := fun c b => W7 m a0 c b
theorem hF2 (c : Dev nD) (w : Fin 3) : (dat2 (Vr6 m a0) c).arrAt w cfg2.N = Vx7 m a0 c (Pipeline.arrRef spec2 w) :=
  (W7_arr m a0 c w).symm
theorem hrest2 (c : Dev nD) : ∀ b, b ∉ Finset.univ.image (Pipeline.arrRef spec2) → Vx7 m a0 c b = Vr6 m a0 c b :=
  fun b hb => W7_of_ne m a0 c b fun w e => hb (Finset.mem_image.mpr ⟨w, Finset.mem_univ _, e⟩)

abbrev Vr7 : (c : Dev nD) → (b : Ref sig .tc) → Buf (Elt F) ((c : Thread nD τ).loc b) := fun c b => W7 m a0 c b

def W8 (c : Dev nD) : Valuation τ sig (Elt F) :=
  Pipeline.withArrays spec3 c (W7 m a0 c) fun w => (dat3 (Vr7 m a0) c).arrAt w cfg3.N
theorem W8_arr (c : Dev nD) (w : Fin 3) :
    W8 m a0 c (Proc.devRef .tc (Pipeline.arrRef spec3 w)) = (dat3 (Vr7 m a0) c).arrAt w cfg3.N := by
  unfold W8; exact Pipeline.withArrays_arr spec3 winFacts3.arr_inj c _ _ w
theorem W8_of_ne (c : Dev nD) (b : Ref sig .tc) (hb : ∀ w, Pipeline.arrRef spec3 w ≠ b) :
    W8 m a0 c (Proc.devRef .tc b) = W7 m a0 c (Proc.devRef .tc b) := by
  unfold W8; exact Pipeline.withArrays_of_ne spec3 c _ _ b hb
abbrev Vx8 : (c : Dev nD) → (b : Ref sig .tc) → Buf (Elt F) ((c : Thread nD τ).loc b) := fun c b => W8 m a0 c b
theorem hF3 (c : Dev nD) (w : Fin 3) : (dat3 (Vr7 m a0) c).arrAt w cfg3.N = Vx8 m a0 c (Pipeline.arrRef spec3 w) :=
  (W8_arr m a0 c w).symm
theorem hrest3 (c : Dev nD) : ∀ b, b ∉ Finset.univ.image (Pipeline.arrRef spec3) → Vx8 m a0 c b = Vr7 m a0 c b :=
  fun b hb => W8_of_ne m a0 c b fun w e => hb (Finset.mem_image.mpr ⟨w, Finset.mem_univ _, e⟩)

abbrev Vr8 : (c : Dev nD) → (b : Ref sig .tc) → Buf (Elt F) ((c : Thread nD τ).loc b) := fun c b => W8 m a0 c b

def W9 (c : Dev nD) : Valuation τ sig (Elt F) :=
  Pipeline.withArrays spec4 c (W8 m a0 c) fun w => (dat4 (Vr8 m a0) c).arrAt w cfg4.N
theorem W9_arr (c : Dev nD) (w : Fin 3) :
    W9 m a0 c (Proc.devRef .tc (Pipeline.arrRef spec4 w)) = (dat4 (Vr8 m a0) c).arrAt w cfg4.N := by
  unfold W9; exact Pipeline.withArrays_arr spec4 winFacts4.arr_inj c _ _ w
theorem W9_of_ne (c : Dev nD) (b : Ref sig .tc) (hb : ∀ w, Pipeline.arrRef spec4 w ≠ b) :
    W9 m a0 c (Proc.devRef .tc b) = W8 m a0 c (Proc.devRef .tc b) := by
  unfold W9; exact Pipeline.withArrays_of_ne spec4 c _ _ b hb
abbrev Vx9 : (c : Dev nD) → (b : Ref sig .tc) → Buf (Elt F) ((c : Thread nD τ).loc b) := fun c b => W9 m a0 c b
theorem hF4 (c : Dev nD) (w : Fin 3) : (dat4 (Vr8 m a0) c).arrAt w cfg4.N = Vx9 m a0 c (Pipeline.arrRef spec4 w) :=
  (W9_arr m a0 c w).symm
theorem hrest4 (c : Dev nD) : ∀ b, b ∉ Finset.univ.image (Pipeline.arrRef spec4) → Vx9 m a0 c b = Vr8 m a0 c b :=
  fun b hb => W9_of_ne m a0 c b fun w e => hb (Finset.mem_image.mpr ⟨w, Finset.mem_univ _, e⟩)

abbrev Vr9 : (c : Dev nD) → (b : Ref sig .tc) → Buf (Elt F) ((c : Thread nD τ).loc b) := fun c b => W9 m a0 c b

def W10 (c : Dev nD) : Valuation τ sig (Elt F) :=
  Pipeline.withArrays spec5 c (W9 m a0 c) fun w => (dat5 (Vr9 m a0) c).arrAt w cfg5.N
theorem W10_arr (c : Dev nD) (w : Fin 3) :
    W10 m a0 c (Proc.devRef .tc (Pipeline.arrRef spec5 w)) = (dat5 (Vr9 m a0) c).arrAt w cfg5.N := by
  unfold W10; exact Pipeline.withArrays_arr spec5 winFacts5.arr_inj c _ _ w
theorem W10_of_ne (c : Dev nD) (b : Ref sig .tc) (hb : ∀ w, Pipeline.arrRef spec5 w ≠ b) :
    W10 m a0 c (Proc.devRef .tc b) = W9 m a0 c (Proc.devRef .tc b) := by
  unfold W10; exact Pipeline.withArrays_of_ne spec5 c _ _ b hb
abbrev Vx10 : (c : Dev nD) → (b : Ref sig .tc) → Buf (Elt F) ((c : Thread nD τ).loc b) := fun c b => W10 m a0 c b
theorem hF5 (c : Dev nD) (w : Fin 3) : (dat5 (Vr9 m a0) c).arrAt w cfg5.N = Vx10 m a0 c (Pipeline.arrRef spec5 w) :=
  (W10_arr m a0 c w).symm
theorem hrest5 (c : Dev nD) : ∀ b, b ∉ Finset.univ.image (Pipeline.arrRef spec5) → Vx10 m a0 c b = Vr9 m a0 c b :=
  fun b hb => W10_of_ne m a0 c b fun w e => hb (Finset.mem_image.mpr ⟨w, Finset.mem_univ _, e⟩)

abbrev Vr10 : (c : Dev nD) → (b : Ref sig .tc) → Buf (Elt F) ((c : Thread nD τ).loc b) := fun c b => W10 m a0 c b

def W11 (c : Dev nD) : Valuation τ sig (Elt F) :=
  Pipeline.withArrays spec6 c (W10 m a0 c) fun w => (dat6 (Vr10 m a0) c).arrAt w cfg6.N
theorem W11_arr (c : Dev nD) (w : Fin 2) :
    W11 m a0 c (Proc.devRef .tc (Pipeline.arrRef spec6 w)) = (dat6 (Vr10 m a0) c).arrAt w cfg6.N := by
  unfold W11; exact Pipeline.withArrays_arr spec6 winFacts6.arr_inj c _ _ w
theorem W11_of_ne (c : Dev nD) (b : Ref sig .tc) (hb : ∀ w, Pipeline.arrRef spec6 w ≠ b) :
    W11 m a0 c (Proc.devRef .tc b) = W10 m a0 c (Proc.devRef .tc b) := by
  unfold W11; exact Pipeline.withArrays_of_ne spec6 c _ _ b hb
abbrev Vx11 : (c : Dev nD) → (b : Ref sig .tc) → Buf (Elt F) ((c : Thread nD τ).loc b) := fun c b => W11 m a0 c b
theorem hF6 (c : Dev nD) (w : Fin 2) : (dat6 (Vr10 m a0) c).arrAt w cfg6.N = Vx11 m a0 c (Pipeline.arrRef spec6 w) :=
  (W11_arr m a0 c w).symm
theorem hrest6 (c : Dev nD) : ∀ b, b ∉ Finset.univ.image (Pipeline.arrRef spec6) → Vx11 m a0 c b = Vr10 m a0 c b :=
  fun b hb => W11_of_ne m a0 c b fun w e => hb (Finset.mem_image.mpr ⟨w, Finset.mem_univ _, e⟩)

abbrev Vr11 : (c : Dev nD) → (b : Ref sig .tc) → Buf (Elt F) ((c : Thread nD τ).loc b) := fun c b => W11 m a0 c b

def W12 (c : Dev nD) : Valuation τ sig (Elt F) :=
  Pipeline.withArrays spec7 c (W11 m a0 c) fun w => (dat7 (Vr11 m a0) c).arrAt w cfg7.N
theorem W12_arr (c : Dev nD) (w : Fin 2) :
    W12 m a0 c (Proc.devRef .tc (Pipeline.arrRef spec7 w)) = (dat7 (Vr11 m a0) c).arrAt w cfg7.N := by
  unfold W12; exact Pipeline.withArrays_arr spec7 winFacts7.arr_inj c _ _ w
theorem W12_of_ne (c : Dev nD) (b : Ref sig .tc) (hb : ∀ w, Pipeline.arrRef spec7 w ≠ b) :
    W12 m a0 c (Proc.devRef .tc b) = W11 m a0 c (Proc.devRef .tc b) := by
  unfold W12; exact Pipeline.withArrays_of_ne spec7 c _ _ b hb
abbrev Vx12 : (c : Dev nD) → (b : Ref sig .tc) → Buf (Elt F) ((c : Thread nD τ).loc b) := fun c b => W12 m a0 c b
theorem hF7 (c : Dev nD) (w : Fin 2) : (dat7 (Vr11 m a0) c).arrAt w cfg7.N = Vx12 m a0 c (Pipeline.arrRef spec7 w) :=
  (W12_arr m a0 c w).symm
theorem hrest7 (c : Dev nD) : ∀ b, b ∉ Finset.univ.image (Pipeline.arrRef spec7) → Vx12 m a0 c b = Vr11 m a0 c b :=
  fun b hb => W12_of_ne m a0 c b fun w e => hb (Finset.mem_image.mpr ⟨w, Finset.mem_univ _, e⟩)

abbrev Vr12 : (c : Dev nD) → (b : Ref sig .tc) → Buf (Elt F) ((c : Thread nD τ).loc b) := fun c b => W12 m a0 c b

def W13 (c : Dev nD) : Valuation τ sig (Elt F) :=
  Pipeline.withArrays spec8 c (W12 m a0 c) fun w => (dat8 (Vr12 m a0) c).arrAt w cfg8.N
theorem W13_arr (c : Dev nD) (w : Fin 2) :
    W13 m a0 c (Proc.devRef .tc (Pipeline.arrRef spec8 w)) = (dat8 (Vr12 m a0) c).arrAt w cfg8.N := by
  unfold W13; exact Pipeline.withArrays_arr spec8 winFacts8.arr_inj c _ _ w
theorem W13_of_ne (c : Dev nD) (b : Ref sig .tc) (hb : ∀ w, Pipeline.arrRef spec8 w ≠ b) :
    W13 m a0 c (Proc.devRef .tc b) = W12 m a0 c (Proc.devRef .tc b) := by
  unfold W13; exact Pipeline.withArrays_of_ne spec8 c _ _ b hb
abbrev Vx13 : (c : Dev nD) → (b : Ref sig .tc) → Buf (Elt F) ((c : Thread nD τ).loc b) := fun c b => W13 m a0 c b
theorem hF8 (c : Dev nD) (w : Fin 2) : (dat8 (Vr12 m a0) c).arrAt w cfg8.N = Vx13 m a0 c (Pipeline.arrRef spec8 w) :=
  (W13_arr m a0 c w).symm
theorem hrest8 (c : Dev nD) : ∀ b, b ∉ Finset.univ.image (Pipeline.arrRef spec8) → Vx13 m a0 c b = Vr12 m a0 c b :=
  fun b hb => W13_of_ne m a0 c b fun w e => hb (Finset.mem_image.mpr ⟨w, Finset.mem_univ _, e⟩)

abbrev Vr13 : (c : Dev nD) → (b : Ref sig .tc) → Buf (Elt F) ((c : Thread nD τ).loc b) := fun c b => W13 m a0 c b

def W14 (c : Dev nD) : Valuation τ sig (Elt F) :=
  Pipeline.withArrays spec9 c (W13 m a0 c) fun w => (dat9 (Vr13 m a0) c).arrAt w cfg9.N
theorem W14_arr (c : Dev nD) (w : Fin 2) :
    W14 m a0 c (Proc.devRef .tc (Pipeline.arrRef spec9 w)) = (dat9 (Vr13 m a0) c).arrAt w cfg9.N := by
  unfold W14; exact Pipeline.withArrays_arr spec9 winFacts9.arr_inj c _ _ w
theorem W14_of_ne (c : Dev nD) (b : Ref sig .tc) (hb : ∀ w, Pipeline.arrRef spec9 w ≠ b) :
    W14 m a0 c (Proc.devRef .tc b) = W13 m a0 c (Proc.devRef .tc b) := by
  unfold W14; exact Pipeline.withArrays_of_ne spec9 c _ _ b hb
abbrev Vx14 : (c : Dev nD) → (b : Ref sig .tc) → Buf (Elt F) ((c : Thread nD τ).loc b) := fun c b => W14 m a0 c b
theorem hF9 (c : Dev nD) (w : Fin 2) : (dat9 (Vr13 m a0) c).arrAt w cfg9.N = Vx14 m a0 c (Pipeline.arrRef spec9 w) :=
  (W14_arr m a0 c w).symm
theorem hrest9 (c : Dev nD) : ∀ b, b ∉ Finset.univ.image (Pipeline.arrRef spec9) → Vx14 m a0 c b = Vr13 m a0 c b :=
  fun b hb => W14_of_ne m a0 c b fun w e => hb (Finset.mem_image.mpr ⟨w, Finset.mem_univ _, e⟩)

abbrev Vr14 : (c : Dev nD) → (b : Ref sig .tc) → Buf (Elt F) ((c : Thread nD τ).loc b) := fun c b => W14 m a0 c b

def W15 (c : Dev nD) : Valuation τ sig (Elt F) :=
  Pipeline.withArrays spec10 c (W14 m a0 c) fun w => (dat10 (Vr14 m a0) c).arrAt w cfg10.N
theorem W15_arr (c : Dev nD) (w : Fin 2) :
    W15 m a0 c (Proc.devRef .tc (Pipeline.arrRef spec10 w)) = (dat10 (Vr14 m a0) c).arrAt w cfg10.N := by
  unfold W15; exact Pipeline.withArrays_arr spec10 winFacts10.arr_inj c _ _ w
theorem W15_of_ne (c : Dev nD) (b : Ref sig .tc) (hb : ∀ w, Pipeline.arrRef spec10 w ≠ b) :
    W15 m a0 c (Proc.devRef .tc b) = W14 m a0 c (Proc.devRef .tc b) := by
  unfold W15; exact Pipeline.withArrays_of_ne spec10 c _ _ b hb
abbrev Vx15 : (c : Dev nD) → (b : Ref sig .tc) → Buf (Elt F) ((c : Thread nD τ).loc b) := fun c b => W15 m a0 c b
theorem hF10 (c : Dev nD) (w : Fin 2) : (dat10 (Vr14 m a0) c).arrAt w cfg10.N = Vx15 m a0 c (Pipeline.arrRef spec10 w) :=
  (W15_arr m a0 c w).symm
theorem hrest10 (c : Dev nD) : ∀ b, b ∉ Finset.univ.image (Pipeline.arrRef spec10) → Vx15 m a0 c b = Vr14 m a0 c b :=
  fun b hb => W15_of_ne m a0 c b fun w e => hb (Finset.mem_image.mpr ⟨w, Finset.mem_univ _, e⟩)

abbrev Vr15 : (c : Dev nD) → (b : Ref sig .tc) → Buf (Elt F) ((c : Thread nD τ).loc b) := fun c b => W15 m a0 c b

def W16 (c : Dev nD) : Valuation τ sig (Elt F) :=
  Pipeline.withArrays spec11 c (W15 m a0 c) fun w => (dat11 (Vr15 m a0) c).arrAt w cfg11.N
theorem W16_arr (c : Dev nD) (w : Fin 4) :
    W16 m a0 c (Proc.devRef .tc (Pipeline.arrRef spec11 w)) = (dat11 (Vr15 m a0) c).arrAt w cfg11.N := by
  unfold W16; exact Pipeline.withArrays_arr spec11 winFacts11.arr_inj c _ _ w
theorem W16_of_ne (c : Dev nD) (b : Ref sig .tc) (hb : ∀ w, Pipeline.arrRef spec11 w ≠ b) :
    W16 m a0 c (Proc.devRef .tc b) = W15 m a0 c (Proc.devRef .tc b) := by
  unfold W16; exact Pipeline.withArrays_of_ne spec11 c _ _ b hb
abbrev Vx16 : (c : Dev nD) → (b : Ref sig .tc) → Buf (Elt F) ((c : Thread nD τ).loc b) := fun c b => W16 m a0 c b
theorem hF11 (c : Dev nD) (w : Fin 4) : (dat11 (Vr15 m a0) c).arrAt w cfg11.N = Vx16 m a0 c (Pipeline.arrRef spec11 w) :=
  (W16_arr m a0 c w).symm
theorem hrest11 (c : Dev nD) : ∀ b, b ∉ Finset.univ.image (Pipeline.arrRef spec11) → Vx16 m a0 c b = Vr15 m a0 c b :=
  fun b hb => W16_of_ne m a0 c b fun w e => hb (Finset.mem_image.mpr ⟨w, Finset.mem_univ _, e⟩)

abbrev W17 : Dev nD → Valuation τ sig (Elt F) := fun c => StableHlo.after hostOps12 (W16 m a0 c)

abbrev Vr17 : (c : Dev nD) → (b : Ref sig .tc) → Buf (Elt F) ((c : Thread nD τ).loc b) := fun c b => W17 m a0 c b

def W18 (c : Dev nD) : Valuation τ sig (Elt F) :=
  Pipeline.withArrays spec12 c (W17 m a0 c) fun w => (dat12 (Vr17 m a0) c).arrAt w cfg12.N
theorem W18_arr (c : Dev nD) (w : Fin 4) :
    W18 m a0 c (Proc.devRef .tc (Pipeline.arrRef spec12 w)) = (dat12 (Vr17 m a0) c).arrAt w cfg12.N := by
  unfold W18; exact Pipeline.withArrays_arr spec12 winFacts12.arr_inj c _ _ w
theorem W18_of_ne (c : Dev nD) (b : Ref sig .tc) (hb : ∀ w, Pipeline.arrRef spec12 w ≠ b) :
    W18 m a0 c (Proc.devRef .tc b) = W17 m a0 c (Proc.devRef .tc b) := by
  unfold W18; exact Pipeline.withArrays_of_ne spec12 c _ _ b hb
abbrev Vx18 : (c : Dev nD) → (b : Ref sig .tc) → Buf (Elt F) ((c : Thread nD τ).loc b) := fun c b => W18 m a0 c b
theorem hF12 (c : Dev nD) (w : Fin 4) : (dat12 (Vr17 m a0) c).arrAt w cfg12.N = Vx18 m a0 c (Pipeline.arrRef spec12 w) :=
  (W18_arr m a0 c w).symm
theorem hrest12 (c : Dev nD) : ∀ b, b ∉ Finset.univ.image (Pipeline.arrRef spec12) → Vx18 m a0 c b = Vr17 m a0 c b :=
  fun b hb => W18_of_ne m a0 c b fun w e => hb (Finset.mem_image.mpr ⟨w, Finset.mem_univ _, e⟩)

abbrev W19 : Dev nD → Valuation τ sig (Elt F) := fun c => StableHlo.after hostOps13 (W18 m a0 c)

abbrev Vr19 : (c : Dev nD) → (b : Ref sig .tc) → Buf (Elt F) ((c : Thread nD τ).loc b) := fun c b => W19 m a0 c b

def W20 (c : Dev nD) : Valuation τ sig (Elt F) :=
  Pipeline.withArrays spec13 c (W19 m a0 c) fun w => (dat13 (Vr19 m a0) c).arrAt w cfg13.N
theorem W20_arr (c : Dev nD) (w : Fin 4) :
    W20 m a0 c (Proc.devRef .tc (Pipeline.arrRef spec13 w)) = (dat13 (Vr19 m a0) c).arrAt w cfg13.N := by
  unfold W20; exact Pipeline.withArrays_arr spec13 winFacts13.arr_inj c _ _ w
theorem W20_of_ne (c : Dev nD) (b : Ref sig .tc) (hb : ∀ w, Pipeline.arrRef spec13 w ≠ b) :
    W20 m a0 c (Proc.devRef .tc b) = W19 m a0 c (Proc.devRef .tc b) := by
  unfold W20; exact Pipeline.withArrays_of_ne spec13 c _ _ b hb
abbrev Vx20 : (c : Dev nD) → (b : Ref sig .tc) → Buf (Elt F) ((c : Thread nD τ).loc b) := fun c b => W20 m a0 c b
theorem hF13 (c : Dev nD) (w : Fin 4) : (dat13 (Vr19 m a0) c).arrAt w cfg13.N = Vx20 m a0 c (Pipeline.arrRef spec13 w) :=
  (W20_arr m a0 c w).symm
theorem hrest13 (c : Dev nD) : ∀ b, b ∉ Finset.univ.image (Pipeline.arrRef spec13) → Vx20 m a0 c b = Vr19 m a0 c b :=
  fun b hb => W20_of_ne m a0 c b fun w e => hb (Finset.mem_image.mpr ⟨w, Finset.mem_univ _, e⟩)

abbrev W21 : Dev nD → Valuation τ sig (Elt F) := fun c => StableHlo.after hostOps14 (W20 m a0 c)

abbrev Vr21 : (c : Dev nD) → (b : Ref sig .tc) → Buf (Elt F) ((c : Thread nD τ).loc b) := fun c b => W21 m a0 c b

def W22 (c : Dev nD) : Valuation τ sig (Elt F) :=
  Pipeline.withArrays spec14 c (W21 m a0 c) fun w => (dat14 (Vr21 m a0) c).arrAt w cfg14.N
theorem W22_arr (c : Dev nD) (w : Fin 4) :
    W22 m a0 c (Proc.devRef .tc (Pipeline.arrRef spec14 w)) = (dat14 (Vr21 m a0) c).arrAt w cfg14.N := by
  unfold W22; exact Pipeline.withArrays_arr spec14 winFacts14.arr_inj c _ _ w
theorem W22_of_ne (c : Dev nD) (b : Ref sig .tc) (hb : ∀ w, Pipeline.arrRef spec14 w ≠ b) :
    W22 m a0 c (Proc.devRef .tc b) = W21 m a0 c (Proc.devRef .tc b) := by
  unfold W22; exact Pipeline.withArrays_of_ne spec14 c _ _ b hb
abbrev Vx22 : (c : Dev nD) → (b : Ref sig .tc) → Buf (Elt F) ((c : Thread nD τ).loc b) := fun c b => W22 m a0 c b
theorem hF14 (c : Dev nD) (w : Fin 4) : (dat14 (Vr21 m a0) c).arrAt w cfg14.N = Vx22 m a0 c (Pipeline.arrRef spec14 w) :=
  (W22_arr m a0 c w).symm
theorem hrest14 (c : Dev nD) : ∀ b, b ∉ Finset.univ.image (Pipeline.arrRef spec14) → Vx22 m a0 c b = Vr21 m a0 c b :=
  fun b hb => W22_of_ne m a0 c b fun w e => hb (Finset.mem_image.mpr ⟨w, Finset.mem_univ _, e⟩)

abbrev W23 : Dev nD → Valuation τ sig (Elt F) := fun c => StableHlo.after hostOps15 (W22 m a0 c)

abbrev Vr23 : (c : Dev nD) → (b : Ref sig .tc) → Buf (Elt F) ((c : Thread nD τ).loc b) := fun c b => W23 m a0 c b

def W24 (c : Dev nD) : Valuation τ sig (Elt F) :=
  Pipeline.withArrays spec15 c (W23 m a0 c) fun w => (dat15 (Vr23 m a0) c).arrAt w cfg15.N
theorem W24_arr (c : Dev nD) (w : Fin 4) :
    W24 m a0 c (Proc.devRef .tc (Pipeline.arrRef spec15 w)) = (dat15 (Vr23 m a0) c).arrAt w cfg15.N := by
  unfold W24; exact Pipeline.withArrays_arr spec15 winFacts15.arr_inj c _ _ w
theorem W24_of_ne (c : Dev nD) (b : Ref sig .tc) (hb : ∀ w, Pipeline.arrRef spec15 w ≠ b) :
    W24 m a0 c (Proc.devRef .tc b) = W23 m a0 c (Proc.devRef .tc b) := by
  unfold W24; exact Pipeline.withArrays_of_ne spec15 c _ _ b hb
abbrev Vx24 : (c : Dev nD) → (b : Ref sig .tc) → Buf (Elt F) ((c : Thread nD τ).loc b) := fun c b => W24 m a0 c b
theorem hF15 (c : Dev nD) (w : Fin 4) : (dat15 (Vr23 m a0) c).arrAt w cfg15.N = Vx24 m a0 c (Pipeline.arrRef spec15 w) :=
  (W24_arr m a0 c w).symm
theorem hrest15 (c : Dev nD) : ∀ b, b ∉ Finset.univ.image (Pipeline.arrRef spec15) → Vx24 m a0 c b = Vr23 m a0 c b :=
  fun b hb => W24_of_ne m a0 c b fun w e => hb (Finset.mem_image.mpr ⟨w, Finset.mem_univ _, e⟩)

abbrev W25 : Dev nD → Valuation τ sig (Elt F) := fun c => StableHlo.after hostOps16 (W24 m a0 c)

abbrev Vr25 : (c : Dev nD) → (b : Ref sig .tc) → Buf (Elt F) ((c : Thread nD τ).loc b) := fun c b => W25 m a0 c b

def W26 (c : Dev nD) : Valuation τ sig (Elt F) :=
  Pipeline.withArrays spec16 c (W25 m a0 c) fun w => (dat16 (Vr25 m a0) c).arrAt w cfg16.N
theorem W26_arr (c : Dev nD) (w : Fin 4) :
    W26 m a0 c (Proc.devRef .tc (Pipeline.arrRef spec16 w)) = (dat16 (Vr25 m a0) c).arrAt w cfg16.N := by
  unfold W26; exact Pipeline.withArrays_arr spec16 winFacts16.arr_inj c _ _ w
theorem W26_of_ne (c : Dev nD) (b : Ref sig .tc) (hb : ∀ w, Pipeline.arrRef spec16 w ≠ b) :
    W26 m a0 c (Proc.devRef .tc b) = W25 m a0 c (Proc.devRef .tc b) := by
  unfold W26; exact Pipeline.withArrays_of_ne spec16 c _ _ b hb
abbrev Vx26 : (c : Dev nD) → (b : Ref sig .tc) → Buf (Elt F) ((c : Thread nD τ).loc b) := fun c b => W26 m a0 c b
theorem hF16 (c : Dev nD) (w : Fin 4) : (dat16 (Vr25 m a0) c).arrAt w cfg16.N = Vx26 m a0 c (Pipeline.arrRef spec16 w) :=
  (W26_arr m a0 c w).symm
theorem hrest16 (c : Dev nD) : ∀ b, b ∉ Finset.univ.image (Pipeline.arrRef spec16) → Vx26 m a0 c b = Vr25 m a0 c b :=
  fun b hb => W26_of_ne m a0 c b fun w e => hb (Finset.mem_image.mpr ⟨w, Finset.mem_univ _, e⟩)

abbrev W27 : Dev nD → Valuation τ sig (Elt F) := fun c => StableHlo.after hostOps17 (W26 m a0 c)

abbrev Vr27 : (c : Dev nD) → (b : Ref sig .tc) → Buf (Elt F) ((c : Thread nD τ).loc b) := fun c b => W27 m a0 c b

def W28 (c : Dev nD) : Valuation τ sig (Elt F) :=
  Pipeline.withArrays spec17 c (W27 m a0 c) fun w => (dat17 (Vr27 m a0) c).arrAt w cfg17.N
theorem W28_arr (c : Dev nD) (w : Fin 4) :
    W28 m a0 c (Proc.devRef .tc (Pipeline.arrRef spec17 w)) = (dat17 (Vr27 m a0) c).arrAt w cfg17.N := by
  unfold W28; exact Pipeline.withArrays_arr spec17 winFacts17.arr_inj c _ _ w
theorem W28_of_ne (c : Dev nD) (b : Ref sig .tc) (hb : ∀ w, Pipeline.arrRef spec17 w ≠ b) :
    W28 m a0 c (Proc.devRef .tc b) = W27 m a0 c (Proc.devRef .tc b) := by
  unfold W28; exact Pipeline.withArrays_of_ne spec17 c _ _ b hb
abbrev Vx28 : (c : Dev nD) → (b : Ref sig .tc) → Buf (Elt F) ((c : Thread nD τ).loc b) := fun c b => W28 m a0 c b
theorem hF17 (c : Dev nD) (w : Fin 4) : (dat17 (Vr27 m a0) c).arrAt w cfg17.N = Vx28 m a0 c (Pipeline.arrRef spec17 w) :=
  (W28_arr m a0 c w).symm
theorem hrest17 (c : Dev nD) : ∀ b, b ∉ Finset.univ.image (Pipeline.arrRef spec17) → Vx28 m a0 c b = Vr27 m a0 c b :=
  fun b hb => W28_of_ne m a0 c b fun w e => hb (Finset.mem_image.mpr ⟨w, Finset.mem_univ _, e⟩)

abbrev W29 : Dev nD → Valuation τ sig (Elt F) := fun c => StableHlo.after hostOps18 (W28 m a0 c)

abbrev Vr29 : (c : Dev nD) → (b : Ref sig .tc) → Buf (Elt F) ((c : Thread nD τ).loc b) := fun c b => W29 m a0 c b

def W30 (c : Dev nD) : Valuation τ sig (Elt F) :=
  Pipeline.withArrays spec18 c (W29 m a0 c) fun w => (dat18 (Vr29 m a0) c).arrAt w cfg18.N
theorem W30_arr (c : Dev nD) (w : Fin 4) :
    W30 m a0 c (Proc.devRef .tc (Pipeline.arrRef spec18 w)) = (dat18 (Vr29 m a0) c).arrAt w cfg18.N := by
  unfold W30; exact Pipeline.withArrays_arr spec18 winFacts18.arr_inj c _ _ w
theorem W30_of_ne (c : Dev nD) (b : Ref sig .tc) (hb : ∀ w, Pipeline.arrRef spec18 w ≠ b) :
    W30 m a0 c (Proc.devRef .tc b) = W29 m a0 c (Proc.devRef .tc b) := by
  unfold W30; exact Pipeline.withArrays_of_ne spec18 c _ _ b hb
abbrev Vx30 : (c : Dev nD) → (b : Ref sig .tc) → Buf (Elt F) ((c : Thread nD τ).loc b) := fun c b => W30 m a0 c b
theorem hF18 (c : Dev nD) (w : Fin 4) : (dat18 (Vr29 m a0) c).arrAt w cfg18.N = Vx30 m a0 c (Pipeline.arrRef spec18 w) :=
  (W30_arr m a0 c w).symm
theorem hrest18 (c : Dev nD) : ∀ b, b ∉ Finset.univ.image (Pipeline.arrRef spec18) → Vx30 m a0 c b = Vr29 m a0 c b :=
  fun b hb => W30_of_ne m a0 c b fun w e => hb (Finset.mem_image.mpr ⟨w, Finset.mem_univ _, e⟩)

abbrev W31 : Dev nD → Valuation τ sig (Elt F) := fun c => StableHlo.after hostOps19 (W30 m a0 c)

def adm : (p : Fin 19) → (pcfgs (F := F) p).Adm
  | ⟨0, _⟩ => a0
  | ⟨1, _⟩ => cfg1.toPCfg_adm
  | ⟨2, _⟩ => cfg2.toPCfg_adm
  | ⟨3, _⟩ => cfg3.toPCfg_adm
  | ⟨4, _⟩ => cfg4.toPCfg_adm
  | ⟨5, _⟩ => cfg5.toPCfg_adm
  | ⟨6, _⟩ => cfg6.toPCfg_adm
  | ⟨7, _⟩ => cfg7.toPCfg_adm
  | ⟨8, _⟩ => cfg8.toPCfg_adm
  | ⟨9, _⟩ => cfg9.toPCfg_adm
  | ⟨10, _⟩ => cfg10.toPCfg_adm
  | ⟨11, _⟩ => cfg11.toPCfg_adm
  | ⟨12, _⟩ => cfg12.toPCfg_adm
  | ⟨13, _⟩ => cfg13.toPCfg_adm
  | ⟨14, _⟩ => cfg14.toPCfg_adm
  | ⟨15, _⟩ => cfg15.toPCfg_adm
  | ⟨16, _⟩ => cfg16.toPCfg_adm
  | ⟨17, _⟩ => cfg17.toPCfg_adm
  | ⟨18, _⟩ => cfg18.toPCfg_adm
  | ⟨_ + 19, h⟩ => absurd h (Nat.not_lt.2 (Nat.le_add_left _ _))

def pdats : (p : Fin 19) → (c : Dev nD) → Dat τ (Elt F) Unit ℕ (UR sig nD τ) ℕ (Pipeline.pin (pcfgs (F := F)) (adm a0) p) c
  | ⟨0, _⟩ => fun c => dat0 a0 (Vr3 m) c
  | ⟨1, _⟩ => fun c => dat1 (Vr5 m a0) c
  | ⟨2, _⟩ => fun c => dat2 (Vr6 m a0) c
  | ⟨3, _⟩ => fun c => dat3 (Vr7 m a0) c
  | ⟨4, _⟩ => fun c => dat4 (Vr8 m a0) c
  | ⟨5, _⟩ => fun c => dat5 (Vr9 m a0) c
  | ⟨6, _⟩ => fun c => dat6 (Vr10 m a0) c
  | ⟨7, _⟩ => fun c => dat7 (Vr11 m a0) c
  | ⟨8, _⟩ => fun c => dat8 (Vr12 m a0) c
  | ⟨9, _⟩ => fun c => dat9 (Vr13 m a0) c
  | ⟨10, _⟩ => fun c => dat10 (Vr14 m a0) c
  | ⟨11, _⟩ => fun c => dat11 (Vr15 m a0) c
  | ⟨12, _⟩ => fun c => dat12 (Vr17 m a0) c
  | ⟨13, _⟩ => fun c => dat13 (Vr19 m a0) c
  | ⟨14, _⟩ => fun c => dat14 (Vr21 m a0) c
  | ⟨15, _⟩ => fun c => dat15 (Vr23 m a0) c
  | ⟨16, _⟩ => fun c => dat16 (Vr25 m a0) c
  | ⟨17, _⟩ => fun c => dat17 (Vr27 m a0) c
  | ⟨18, _⟩ => fun c => dat18 (Vr29 m a0) c
  | ⟨_ + 19, h⟩ => absurd h (Nat.not_lt.2 (Nat.le_add_left _ _))
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_noalloc : (hostOps0 : List (HloOp τ sig (Elt F))).Forall fun op => op.fresh = ∅ := by
  simp only [List.Forall]; repeat' constructor
theorem hostOps0_1_noalloc : (hostOps0_1 : List (HloOp τ sig (Elt F))).Forall fun op => op.fresh = ∅ := by
  simp only [List.Forall]; repeat' constructor
theorem hostOps0_2_noalloc : (hostOps0_2 : List (HloOp τ sig (Elt F))).Forall fun op => op.fresh = ∅ := by
  simp only [List.Forall]; repeat' constructor
theorem hostOps1_noalloc : (hostOps1 : List (HloOp τ sig (Elt F))).Forall fun op => op.fresh = ∅ := by
  simp only [List.Forall]; repeat' constructor
theorem hostOps12_noalloc : (hostOps12 : List (HloOp τ sig (Elt F))).Forall fun op => op.fresh = ∅ := by
  simp only [List.Forall]; repeat' constructor
theorem hostOps13_noalloc : (hostOps13 : List (HloOp τ sig (Elt F))).Forall fun op => op.fresh = ∅ := by
  simp only [List.Forall]; repeat' constructor
theorem hostOps14_noalloc : (hostOps14 : List (HloOp τ sig (Elt F))).Forall fun op => op.fresh = ∅ := by
  simp only [List.Forall]; repeat' constructor
theorem hostOps15_noalloc : (hostOps15 : List (HloOp τ sig (Elt F))).Forall fun op => op.fresh = ∅ := by
  simp only [List.Forall]; repeat' constructor
theorem hostOps16_noalloc : (hostOps16 : List (HloOp τ sig (Elt F))).Forall fun op => op.fresh = ∅ := by
  simp only [List.Forall]; repeat' constructor
theorem hostOps17_noalloc : (hostOps17 : List (HloOp τ sig (Elt F))).Forall fun op => op.fresh = ∅ := by
  simp only [List.Forall]; repeat' constructor
theorem hostOps18_noalloc : (hostOps18 : List (HloOp τ sig (Elt F))).Forall fun op => op.fresh = ∅ := by
  simp only [List.Forall]; repeat' constructor
theorem hostOps19_noalloc : (hostOps19 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
end Cert.KernelIdeal.Hand

end
-- ==== Proof.KI.Run.lean ====
import proofs.«402369_j86406152061536_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (a0 : (pcfg0 (F := F)).Adm)

abbrev Tₙ (c : Dev nD) : sProp 𝕄 := iprop(StableHlo.held (c : Thread nD τ) (Pipeline.ucRefs τ sig) (W31 m a0 c) ∗ ∃ r, prngReg c r)

variable (hT0 : TablesAt a0 (Vr3 m))

set_option backward.isDefEq.respectTransparency.types false in
def reg0 : Pipeline.RegionSeg (pcfgs (F := F)) (adm a0) (pdats m a0) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (F := F) a0 (Vr3 m) c).loose
  hwaits := Pipeline.hwaits_of_owed_zero (pcfgs (F := F)) (adm a0) (pdats m a0) () L lv 0 fun c t => owed_eq0 (F := F) a0 (Vr3 m) c t
  pre c := iprop(StableHlo.held (c : Thread nD τ) (Pipeline.ucRefs τ sig) (W3 m c) ∗ R c)
  post c := iprop(StableHlo.held (c : Thread nD τ) (Pipeline.ucRefs τ sig) (W4 m a0 c) ∗ R c)
  X c := iprop(∃ r, prngReg c r)
  Y c := iprop((∃ r, prngReg c r) ∗ Pipeline.prefHeld pre0 c (fun _ => fullShare) a0.1)
  Z c := rest0 a0 (Vr3 m) c
  hentry c := by
    rw [Pipeline.ownSems0_none]
    have hsplit := Pipeline.arrays_of_unscopedBufs (p := 0) (pcfgs (F := F)) (adm a0) (pdats m a0) (launch0 (F := F)).win (launch0 (F := F)).arr_whole c
      ((pdats m a0 0 c).share_full fun w => q_eq0 (F := F) a0 (Vr3 m) c w) (Vr3 m c) fun w => A_eq0 (F := F) a0 (Vr3 m) c w
    rw [Pipeline.unscopedBufs_held] at hsplit
    iintro ⟨⟨Hub, Hp, HO⟩, -, -⟩
    ihave H := hsplit $$ Hub
    icases H with ⟨Ha, Hrest⟩
    ihave Hc := (carve0 a0 (Vr3 m) hT0 c) $$ Hrest
    icases Hc with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin0 (F := F) a0 (Vr3 m) c
  hout c := by
    rw [Pipeline.ownSems0_none, show (pdats m a0 0 c).Φ (Fin.last _) = (dat0 a0 (Vr3 m) c).Φ (Fin.last (cfg0 a0).N) from rfl]
    iintro H
    ihave H' := (hout0 (F := F) a0 (Vr3 m) c) $$ H
    icases H' with ⟨Hp, Hpf, Hr⟩
    isplitl [Hp Hpf]
    · isplitl [Hp]; · iexact Hp
      iexact Hpf
    isplitr; · iempintro
    iexact Hr
  hexit c := by
    have hjoin := Pipeline.unscopedBufs_of_arrays (p := 0) (pcfgs (F := F)) (adm a0) (Ix := Unit) (Name := ℕ) (U := UR sig nD τ) (Lvl := ℕ)
      (launch0 (F := F)).win (launch0 (F := F)).arr_whole c (pdats m a0) ((pdats m a0 0 c).share_full fun w => q_eq0 (F := F) a0 (Vr3 m) c w)
      (Vr3 m c) (Vx4 m a0 c) ((pdats m a0 0 c).arrAt · (cfg0 a0).N) (hF0 m a0 c) (hrest0 m a0 c)
    rw [Pipeline.unscopedBufs_held] at hjoin
    iintro ⟨Ha, HO, ⟨HY, Hpf⟩, Hrest⟩
    ihave Hrest := (uncarve0 a0 (Vr3 m) hT0 c) $$ [Hpf Hrest]
    · isplitl [Hpf]; · iexact Hpf
      iexact Hrest
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev onRefs (W : Dev nD → Valuation τ sig (Elt F)) : (c : Dev nD) → (b : Ref sig .tc) → Buf (Elt F) ((c : Thread nD τ).loc b) := fun c b => W c b

set_option backward.isDefEq.respectTransparency.types false in
def regOf (p : Fin 19) {Wa Wb : Dev nD → Valuation τ sig (Elt F)} (hl : Pipeline.PLaunchFacts (nD := nD) (τ := τ) (pcfgs (F := F)) p)
    (hbody : ∀ c, BodyObligation (pdats m a0 p c) defs₀ 𝒱₀ () Set.univ) (howed : ∀ c t, (pdats m a0 p c).owed t = 0)
    (hq : ∀ c w, (pdats m a0 p c).q w = fullShare) (hA : ∀ c w, (pdats m a0 p c).A w = onRefs Wa c (Pipeline.arrRef (pcfgs (F := F) p).spec w))
    (hin : ∀ c (T : sProp 𝕄), iprop((∃ r, prngReg c r) ∗ T ∗ Pipeline.scopedRest (pcfgs (F := F) p).spec c) ⊢ (pdats m a0 p c).Φ 0)
    (hout : ∀ c, (pdats m a0 p c).Φ (Fin.last _) ⊢ (iprop((∃ r, prngReg c r) ∗ Pipeline.scopedRest (pcfgs (F := F) p).spec c) : sProp 𝕄))
    (hF : ∀ c w, (pdats m a0 p c).arrAt w (Pipeline.pin (pcfgs (F := F)) (adm a0) p).N = onRefs Wb c (Pipeline.arrRef (pcfgs (F := F) p).spec w))
    (hrest : ∀ c b, b ∉ Finset.univ.image (Pipeline.arrRef (pcfgs (F := F) p).spec) → onRefs Wb c b = onRefs Wa c b)
    (hK : (pcfgs (F := F) p).pre.K = 0 := by rfl) (hrec : ∀ c, (pdats m a0 p c).recorded 0 = Set.univ := by intro; rfl) :
    Pipeline.RegionSeg (pcfgs (F := F)) (adm a0) (pdats m a0) () defs₀ 𝒱₀ L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero (pcfgs (F := F)) (adm a0) (pdats m a0) () L lv p howed
  pre c := iprop(StableHlo.held (c : Thread nD τ) (Pipeline.ucRefs τ sig) (Wa c) ∗ R c)
  post c := iprop(StableHlo.held (c : Thread nD τ) (Pipeline.ucRefs τ sig) (Wb c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (onRefs Wa c)
  hentry c := by
    rw [Pipeline.ownSems0_none]
    have hsplit := Pipeline.arrays_of_unscopedBufs (p := p) (pcfgs (F := F)) (adm a0) (pdats m a0) hl.win hl.arr_whole c
      ((pdats m a0 p c).share_full (hq c)) (onRefs Wa c) (hA c)
    rw [Pipeline.unscopedBufs_held] at hsplit
    haveI : IsEmpty (Fin (pcfgs (F := F) p).pre.K) := ⟨fun k => by have := k.2; omega⟩
    iintro ⟨⟨Hub, Hp, HO⟩, -, -⟩
    ihave H := hsplit $$ Hub
    icases H with ⟨Ha, Hrest⟩
    imodintro
    isplitl [Ha]; · iexact Ha
    isplitr; · unfold Pipeline.prefHeld; rw [Finset.univ_eq_empty, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    iexact Hrest
  hin c := hin c _
  hout c := by rw [Pipeline.ownSems0_none]; exact (hout c).trans (sep_mono .rfl emp_sep_intro)
  hexit c := by
    have hjoin := Pipeline.unscopedBufs_of_arrays (p := p) (pcfgs (F := F)) (adm a0) (Ix := Unit) (Name := ℕ) (U := UR sig nD τ) (Lvl := ℕ)
      hl.win hl.arr_whole c (pdats m a0) ((pdats m a0 p c).share_full (hq c)) (onRefs Wa c) (onRefs Wb c) _ (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

def reg1 : Pipeline.RegionSeg (pcfgs (F := F)) (adm a0) (pdats m a0) () defs₀ 𝒱₀ L lv 1 :=
  regOf m a0 1 launch1 (body_obligation1 _) (owed_eq1 _) (q_eq1 _) (A_eq1 _) (hin1 _) (hout1 _) (hF1 m a0) (hrest1 m a0)
def reg2 : Pipeline.RegionSeg (pcfgs (F := F)) (adm a0) (pdats m a0) () defs₀ 𝒱₀ L lv 2 :=
  regOf m a0 2 launch2 (body_obligation2 _) (owed_eq2 _) (q_eq2 _) (A_eq2 _) (hin2 _) (hout2 _) (hF2 m a0) (hrest2 m a0)
def reg3 : Pipeline.RegionSeg (pcfgs (F := F)) (adm a0) (pdats m a0) () defs₀ 𝒱₀ L lv 3 :=
  regOf m a0 3 launch3 (body_obligation3 _) (owed_eq3 _) (q_eq3 _) (A_eq3 _) (hin3 _) (hout3 _) (hF3 m a0) (hrest3 m a0)
def reg4 : Pipeline.RegionSeg (pcfgs (F := F)) (adm a0) (pdats m a0) () defs₀ 𝒱₀ L lv 4 :=
  regOf m a0 4 launch4 (body_obligation4 _) (owed_eq4 _) (q_eq4 _) (A_eq4 _) (hin4 _) (hout4 _) (hF4 m a0) (hrest4 m a0)
def reg5 : Pipeline.RegionSeg (pcfgs (F := F)) (adm a0) (pdats m a0) () defs₀ 𝒱₀ L lv 5 :=
  regOf m a0 5 launch5 (body_obligation5 _) (owed_eq5 _) (q_eq5 _) (A_eq5 _) (hin5 _) (hout5 _) (hF5 m a0) (hrest5 m a0)
def reg6 : Pipeline.RegionSeg (pcfgs (F := F)) (adm a0) (pdats m a0) () defs₀ 𝒱₀ L lv 6 :=
  regOf m a0 6 launch6 (body_obligation6 _) (owed_eq6 _) (q_eq6 _) (A_eq6 _) (hin6 _) (hout6 _) (hF6 m a0) (hrest6 m a0)
def reg7 : Pipeline.RegionSeg (pcfgs (F := F)) (adm a0) (pdats m a0) () defs₀ 𝒱₀ L lv 7 :=
  regOf m a0 7 launch7 (body_obligation7 _) (owed_eq7 _) (q_eq7 _) (A_eq7 _) (hin7 _) (hout7 _) (hF7 m a0) (hrest7 m a0)
def reg8 : Pipeline.RegionSeg (pcfgs (F := F)) (adm a0) (pdats m a0) () defs₀ 𝒱₀ L lv 8 :=
  regOf m a0 8 launch8 (body_obligation8 _) (owed_eq8 _) (q_eq8 _) (A_eq8 _) (hin8 _) (hout8 _) (hF8 m a0) (hrest8 m a0)
def reg9 : Pipeline.RegionSeg (pcfgs (F := F)) (adm a0) (pdats m a0) () defs₀ 𝒱₀ L lv 9 :=
  regOf m a0 9 launch9 (body_obligation9 _) (owed_eq9 _) (q_eq9 _) (A_eq9 _) (hin9 _) (hout9 _) (hF9 m a0) (hrest9 m a0)
def reg10 : Pipeline.RegionSeg (pcfgs (F := F)) (adm a0) (pdats m a0) () defs₀ 𝒱₀ L lv 10 :=
  regOf m a0 10 launch10 (body_obligation10 _) (owed_eq10 _) (q_eq10 _) (A_eq10 _) (hin10 _) (hout10 _) (hF10 m a0) (hrest10 m a0)
def reg11 : Pipeline.RegionSeg (pcfgs (F := F)) (adm a0) (pdats m a0) () defs₀ 𝒱₀ L lv 11 :=
  regOf m a0 11 launch11 (body_obligation11 _) (owed_eq11 _) (q_eq11 _) (A_eq11 _) (hin11 _) (hout11 _) (hF11 m a0) (hrest11 m a0)
def reg12 : Pipeline.RegionSeg (pcfgs (F := F)) (adm a0) (pdats m a0) () defs₀ 𝒱₀ L lv 12 :=
  regOf m a0 12 launch12 (body_obligation12 _) (owed_eq12 _) (q_eq12 _) (A_eq12 _) (hin12 _) (hout12 _) (hF12 m a0) (hrest12 m a0)
def reg13 : Pipeline.RegionSeg (pcfgs (F := F)) (adm a0) (pdats m a0) () defs₀ 𝒱₀ L lv 13 :=
  regOf m a0 13 launch13 (body_obligation13 _) (owed_eq13 _) (q_eq13 _) (A_eq13 _) (hin13 _) (hout13 _) (hF13 m a0) (hrest13 m a0)
def reg14 : Pipeline.RegionSeg (pcfgs (F := F)) (adm a0) (pdats m a0) () defs₀ 𝒱₀ L lv 14 :=
  regOf m a0 14 launch14 (body_obligation14 _) (owed_eq14 _) (q_eq14 _) (A_eq14 _) (hin14 _) (hout14 _) (hF14 m a0) (hrest14 m a0)
def reg15 : Pipeline.RegionSeg (pcfgs (F := F)) (adm a0) (pdats m a0) () defs₀ 𝒱₀ L lv 15 :=
  regOf m a0 15 launch15 (body_obligation15 _) (owed_eq15 _) (q_eq15 _) (A_eq15 _) (hin15 _) (hout15 _) (hF15 m a0) (hrest15 m a0)
def reg16 : Pipeline.RegionSeg (pcfgs (F := F)) (adm a0) (pdats m a0) () defs₀ 𝒱₀ L lv 16 :=
  regOf m a0 16 launch16 (body_obligation16 _) (owed_eq16 _) (q_eq16 _) (A_eq16 _) (hin16 _) (hout16 _) (hF16 m a0) (hrest16 m a0)
def reg17 : Pipeline.RegionSeg (pcfgs (F := F)) (adm a0) (pdats m a0) () defs₀ 𝒱₀ L lv 17 :=
  regOf m a0 17 launch17 (body_obligation17 _) (owed_eq17 _) (q_eq17 _) (A_eq17 _) (hin17 _) (hout17 _) (hF17 m a0) (hrest17 m a0)
def reg18 : Pipeline.RegionSeg (pcfgs (F := F)) (adm a0) (pdats m a0) () defs₀ 𝒱₀ L lv 18 :=
  regOf m a0 18 launch18 (body_obligation18 _) (owed_eq18 _) (q_eq18 _) (A_eq18 _) (hin18 _) (hout18 _) (hF18 m a0) (hrest18 m a0)

abbrev segs : List (Pipeline.Seg (pcfgs (F := F)) (adm a0) (pdats m a0) () defs₀ 𝒱₀ L lv) :=
  [ .host (hseg hostOps0 hostOps0_sub hostOps0_noalloc (W0 m)),
    .host (hseg hostOps0_1 hostOps0_1_sub hostOps0_1_noalloc (W1 m)),
    .host (hseg hostOps0_2 hostOps0_2_sub hostOps0_2_noalloc (W2 m)),
    .region (reg0 m a0 hT0),
    .host (hseg hostOps1 hostOps1_sub hostOps1_noalloc (W4 m a0)),
    .region (reg1 m a0),
    .region (reg2 m a0),
    .region (reg3 m a0),
    .region (reg4 m a0),
    .region (reg5 m a0),
    .region (reg6 m a0),
    .region (reg7 m a0),
    .region (reg8 m a0),
    .region (reg9 m a0),
    .region (reg10 m a0),
    .region (reg11 m a0),
    .host (hseg hostOps12 hostOps12_sub hostOps12_noalloc (W16 m a0)),
    .region (reg12 m a0),
    .host (hseg hostOps13 hostOps13_sub hostOps13_noalloc (W18 m a0)),
    .region (reg13 m a0),
    .host (hseg hostOps14 hostOps14_sub hostOps14_noalloc (W20 m a0)),
    .region (reg14 m a0),
    .host (hseg hostOps15 hostOps15_sub hostOps15_noalloc (W22 m a0)),
    .region (reg15 m a0),
    .host (hseg hostOps16 hostOps16_sub hostOps16_noalloc (W24 m a0)),
    .region (reg16 m a0),
    .host (hseg hostOps17 hostOps17_sub hostOps17_noalloc (W26 m a0)),
    .region (reg17 m a0),
    .host (hseg hostOps18 hostOps18_sub hostOps18_noalloc (W28 m a0)),
    .region (reg18 m a0),
    .host (hseg hostOps19 hostOps19_sub hostOps19_noalloc (W30 m a0)) ]
theorem main_run (c : Dev nD) : main (F := F) c = Pipeline.Seg.run (segs m a0 hT0) := (main_chain c).trans (by chain_rfl)

include hT0 in
set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = W31 m a0 c b) :=
  Pipeline.θ_run_regions_kit (pcfgs (F := F)) (adm a0) (pdats m a0) () (cellOf_inj (adm a0)) emb₁ defs₀ 𝒱₀ L lv m ρ main (segs m a0 hT0)
    (fun c Q => by rw [main_run m a0 hT0 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm a0)) (cellOf_inj (adm a0))) (Pipeline.launchToks (Pipeline.pin (pcfgs (F := F)) (adm a0)) (cellOf_inj (adm a0))))
    (hu₀ := by
      iintro Hu; imodintro
      isplitl [Hu]
      · iapply (show (ownU (initOf (Pipeline.cells (Pipeline.pin (pcfgs (F := F)) (adm a0)) (cellOf_inj (adm a0))) (Pipeline.launchToks (Pipeline.pin (pcfgs (F := F)) (adm a0)) (cellOf_inj (adm a0)))) : sProp 𝕄)
            ⊢ BI.own (emb₁ (initOf (Pipeline.cells (Pipeline.pin (pcfgs (F := F)) (adm a0)) (cellOf_inj (adm a0))) (Pipeline.launchToks (Pipeline.pin (pcfgs (F := F)) (adm a0)) (cellOf_inj (adm a0))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m a0)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W31 m a0 c) ∗ R c) : sProp 𝕄) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W31 m a0 c b)
    (hfin := fun c s' => by
      iintro ⟨⟨Hh, -⟩, HSI⟩
      unfold StableHlo.held
      imodintro
      iapply (pointsTo_read_all (Pipeline.ucRefs τ sig) (fun b => (((c : Thread nD τ)).1, b)) (W31 m a0 c) s')
      isplitl [Hh] <;> iassumption)
    (hQ := fun s h c => h c)

end Cert.KernelIdeal.Hand

end
-- ==== Proof.KI.Keep.lean ====
import proofs.«402369_j86406152061536_3_alg».proof.Proof.KI.Chain
import proofs.«402369_j86406152061536_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (a0 : (pcfg0 (F := F)).Adm)

theorem keep1 (c : Dev nD) (r : Ref sig .tc) (h : r ∉ (hostOps0_W : List (Ref sig .tc))) :
    W1 m c (Proc.devRef .tc r) = W0 m c (Proc.devRef .tc r) :=
  StableHlo.after_of_writes_sub hostOps0 _ hostOps0_writes h
theorem keep2 (c : Dev nD) (r : Ref sig .tc) (h : r ∉ (hostOps0_1_W : List (Ref sig .tc))) :
    W2 m c (Proc.devRef .tc r) = W1 m c (Proc.devRef .tc r) :=
  StableHlo.after_of_writes_sub hostOps0_1 _ hostOps0_1_writes h
theorem keep3 (c : Dev nD) (r : Ref sig .tc) (h : r ∉ (hostOps0_2_W : List (Ref sig .tc))) :
    W3 m c (Proc.devRef .tc r) = W2 m c (Proc.devRef .tc r) :=
  StableHlo.after_of_writes_sub hostOps0_2 _ hostOps0_2_writes h
theorem keep4 (c : Dev nD) (r : Ref sig .tc) (h : ∀ w, Pipeline.arrRef spec0 w ≠ r) :
    W4 m a0 c (Proc.devRef .tc r) = W3 m c (Proc.devRef .tc r) :=
  W4_of_ne m a0 c r h
theorem keep5 (c : Dev nD) (r : Ref sig .tc) (h : r ∉ (hostOps1_W : List (Ref sig .tc))) :
    W5 m a0 c (Proc.devRef .tc r) = W4 m a0 c (Proc.devRef .tc r) :=
  StableHlo.after_of_writes_sub hostOps1 _ hostOps1_writes h
theorem keep6 (c : Dev nD) (r : Ref sig .tc) (h : ∀ w, Pipeline.arrRef spec1 w ≠ r) :
    W6 m a0 c (Proc.devRef .tc r) = W5 m a0 c (Proc.devRef .tc r) :=
  W6_of_ne m a0 c r h
theorem keep7 (c : Dev nD) (r : Ref sig .tc) (h : ∀ w, Pipeline.arrRef spec2 w ≠ r) :
    W7 m a0 c (Proc.devRef .tc r) = W6 m a0 c (Proc.devRef .tc r) :=
  W7_of_ne m a0 c r h
theorem keep8 (c : Dev nD) (r : Ref sig .tc) (h : ∀ w, Pipeline.arrRef spec3 w ≠ r) :
    W8 m a0 c (Proc.devRef .tc r) = W7 m a0 c (Proc.devRef .tc r) :=
  W8_of_ne m a0 c r h
theorem keep9 (c : Dev nD) (r : Ref sig .tc) (h : ∀ w, Pipeline.arrRef spec4 w ≠ r) :
    W9 m a0 c (Proc.devRef .tc r) = W8 m a0 c (Proc.devRef .tc r) :=
  W9_of_ne m a0 c r h
theorem keep10 (c : Dev nD) (r : Ref sig .tc) (h : ∀ w, Pipeline.arrRef spec5 w ≠ r) :
    W10 m a0 c (Proc.devRef .tc r) = W9 m a0 c (Proc.devRef .tc r) :=
  W10_of_ne m a0 c r h
theorem keep11 (c : Dev nD) (r : Ref sig .tc) (h : ∀ w, Pipeline.arrRef spec6 w ≠ r) :
    W11 m a0 c (Proc.devRef .tc r) = W10 m a0 c (Proc.devRef .tc r) :=
  W11_of_ne m a0 c r h
theorem keep12 (c : Dev nD) (r : Ref sig .tc) (h : ∀ w, Pipeline.arrRef spec7 w ≠ r) :
    W12 m a0 c (Proc.devRef .tc r) = W11 m a0 c (Proc.devRef .tc r) :=
  W12_of_ne m a0 c r h
theorem keep13 (c : Dev nD) (r : Ref sig .tc) (h : ∀ w, Pipeline.arrRef spec8 w ≠ r) :
    W13 m a0 c (Proc.devRef .tc r) = W12 m a0 c (Proc.devRef .tc r) :=
  W13_of_ne m a0 c r h
theorem keep14 (c : Dev nD) (r : Ref sig .tc) (h : ∀ w, Pipeline.arrRef spec9 w ≠ r) :
    W14 m a0 c (Proc.devRef .tc r) = W13 m a0 c (Proc.devRef .tc r) :=
  W14_of_ne m a0 c r h
theorem keep15 (c : Dev nD) (r : Ref sig .tc) (h : ∀ w, Pipeline.arrRef spec10 w ≠ r) :
    W15 m a0 c (Proc.devRef .tc r) = W14 m a0 c (Proc.devRef .tc r) :=
  W15_of_ne m a0 c r h
theorem keep16 (c : Dev nD) (r : Ref sig .tc) (h : ∀ w, Pipeline.arrRef spec11 w ≠ r) :
    W16 m a0 c (Proc.devRef .tc r) = W15 m a0 c (Proc.devRef .tc r) :=
  W16_of_ne m a0 c r h
theorem keep17 (c : Dev nD) (r : Ref sig .tc) (h : r ∉ (hostOps12_W : List (Ref sig .tc))) :
    W17 m a0 c (Proc.devRef .tc r) = W16 m a0 c (Proc.devRef .tc r) :=
  StableHlo.after_of_writes_sub hostOps12 _ hostOps12_writes h
theorem keep18 (c : Dev nD) (r : Ref sig .tc) (h : ∀ w, Pipeline.arrRef spec12 w ≠ r) :
    W18 m a0 c (Proc.devRef .tc r) = W17 m a0 c (Proc.devRef .tc r) :=
  W18_of_ne m a0 c r h
theorem keep19 (c : Dev nD) (r : Ref sig .tc) (h : r ∉ (hostOps13_W : List (Ref sig .tc))) :
    W19 m a0 c (Proc.devRef .tc r) = W18 m a0 c (Proc.devRef .tc r) :=
  StableHlo.after_of_writes_sub hostOps13 _ hostOps13_writes h
theorem keep20 (c : Dev nD) (r : Ref sig .tc) (h : ∀ w, Pipeline.arrRef spec13 w ≠ r) :
    W20 m a0 c (Proc.devRef .tc r) = W19 m a0 c (Proc.devRef .tc r) :=
  W20_of_ne m a0 c r h
theorem keep21 (c : Dev nD) (r : Ref sig .tc) (h : r ∉ (hostOps14_W : List (Ref sig .tc))) :
    W21 m a0 c (Proc.devRef .tc r) = W20 m a0 c (Proc.devRef .tc r) :=
  StableHlo.after_of_writes_sub hostOps14 _ hostOps14_writes h
theorem keep22 (c : Dev nD) (r : Ref sig .tc) (h : ∀ w, Pipeline.arrRef spec14 w ≠ r) :
    W22 m a0 c (Proc.devRef .tc r) = W21 m a0 c (Proc.devRef .tc r) :=
  W22_of_ne m a0 c r h
theorem keep23 (c : Dev nD) (r : Ref sig .tc) (h : r ∉ (hostOps15_W : List (Ref sig .tc))) :
    W23 m a0 c (Proc.devRef .tc r) = W22 m a0 c (Proc.devRef .tc r) :=
  StableHlo.after_of_writes_sub hostOps15 _ hostOps15_writes h
theorem keep24 (c : Dev nD) (r : Ref sig .tc) (h : ∀ w, Pipeline.arrRef spec15 w ≠ r) :
    W24 m a0 c (Proc.devRef .tc r) = W23 m a0 c (Proc.devRef .tc r) :=
  W24_of_ne m a0 c r h
theorem keep25 (c : Dev nD) (r : Ref sig .tc) (h : r ∉ (hostOps16_W : List (Ref sig .tc))) :
    W25 m a0 c (Proc.devRef .tc r) = W24 m a0 c (Proc.devRef .tc r) :=
  StableHlo.after_of_writes_sub hostOps16 _ hostOps16_writes h
theorem keep26 (c : Dev nD) (r : Ref sig .tc) (h : ∀ w, Pipeline.arrRef spec16 w ≠ r) :
    W26 m a0 c (Proc.devRef .tc r) = W25 m a0 c (Proc.devRef .tc r) :=
  W26_of_ne m a0 c r h
theorem keep27 (c : Dev nD) (r : Ref sig .tc) (h : r ∉ (hostOps17_W : List (Ref sig .tc))) :
    W27 m a0 c (Proc.devRef .tc r) = W26 m a0 c (Proc.devRef .tc r) :=
  StableHlo.after_of_writes_sub hostOps17 _ hostOps17_writes h
theorem keep28 (c : Dev nD) (r : Ref sig .tc) (h : ∀ w, Pipeline.arrRef spec17 w ≠ r) :
    W28 m a0 c (Proc.devRef .tc r) = W27 m a0 c (Proc.devRef .tc r) :=
  W28_of_ne m a0 c r h
theorem keep29 (c : Dev nD) (r : Ref sig .tc) (h : r ∉ (hostOps18_W : List (Ref sig .tc))) :
    W29 m a0 c (Proc.devRef .tc r) = W28 m a0 c (Proc.devRef .tc r) :=
  StableHlo.after_of_writes_sub hostOps18 _ hostOps18_writes h
theorem keep30 (c : Dev nD) (r : Ref sig .tc) (h : ∀ w, Pipeline.arrRef spec18 w ≠ r) :
    W30 m a0 c (Proc.devRef .tc r) = W29 m a0 c (Proc.devRef .tc r) :=
  W30_of_ne m a0 c r h
theorem keep31 (c : Dev nD) (r : Ref sig .tc) (h : r ∉ (hostOps19_W : List (Ref sig .tc))) :
    W31 m a0 c (Proc.devRef .tc r) = W30 m a0 c (Proc.devRef .tc r) :=
  StableHlo.after_of_writes_sub hostOps19 _ hostOps19_writes h

/-- One step per item of the entry function, each from that item's write set. -/
theorem W31_of_untouched (c : Dev nD) (r : Ref sig .tc)
    (h : (r ∉ (hostOps0_W : List (Ref sig .tc)))
      ∧ (r ∉ (hostOps0_1_W : List (Ref sig .tc)))
      ∧ (r ∉ (hostOps0_2_W : List (Ref sig .tc)))
      ∧ (∀ w, Pipeline.arrRef spec0 w ≠ r)
      ∧ (r ∉ (hostOps1_W : List (Ref sig .tc)))
      ∧ (∀ w, Pipeline.arrRef spec1 w ≠ r)
      ∧ (∀ w, Pipeline.arrRef spec2 w ≠ r)
      ∧ (∀ w, Pipeline.arrRef spec3 w ≠ r)
      ∧ (∀ w, Pipeline.arrRef spec4 w ≠ r)
      ∧ (∀ w, Pipeline.arrRef spec5 w ≠ r)
      ∧ (∀ w, Pipeline.arrRef spec6 w ≠ r)
      ∧ (∀ w, Pipeline.arrRef spec7 w ≠ r)
      ∧ (∀ w, Pipeline.arrRef spec8 w ≠ r)
      ∧ (∀ w, Pipeline.arrRef spec9 w ≠ r)
      ∧ (∀ w, Pipeline.arrRef spec10 w ≠ r)
      ∧ (∀ w, Pipeline.arrRef spec11 w ≠ r)
      ∧ (r ∉ (hostOps12_W : List (Ref sig .tc)))
      ∧ (∀ w, Pipeline.arrRef spec12 w ≠ r)
      ∧ (r ∉ (hostOps13_W : List (Ref sig .tc)))
      ∧ (∀ w, Pipeline.arrRef spec13 w ≠ r)
      ∧ (r ∉ (hostOps14_W : List (Ref sig .tc)))
      ∧ (∀ w, Pipeline.arrRef spec14 w ≠ r)
      ∧ (r ∉ (hostOps15_W : List (Ref sig .tc)))
      ∧ (∀ w, Pipeline.arrRef spec15 w ≠ r)
      ∧ (r ∉ (hostOps16_W : List (Ref sig .tc)))
      ∧ (∀ w, Pipeline.arrRef spec16 w ≠ r)
      ∧ (r ∉ (hostOps17_W : List (Ref sig .tc)))
      ∧ (∀ w, Pipeline.arrRef spec17 w ≠ r)
      ∧ (r ∉ (hostOps18_W : List (Ref sig .tc)))
      ∧ (∀ w, Pipeline.arrRef spec18 w ≠ r)
      ∧ (r ∉ (hostOps19_W : List (Ref sig .tc)))) :
    W31 m a0 c (Proc.devRef .tc r) = W0 m c (Proc.devRef .tc r) := by
  obtain ⟨h1, h2, h3, h4, h5, h6, h7, h8, h9, h10, h11, h12, h13, h14, h15, h16, h17, h18, h19, h20, h21, h22, h23, h24, h25, h26, h27, h28, h29, h30, h31⟩ := h
  exact (keep31 m a0 c r h31).trans <|
    (keep30 m a0 c r h30).trans <|
    (keep29 m a0 c r h29).trans <|
    (keep28 m a0 c r h28).trans <|
    (keep27 m a0 c r h27).trans <|
    (keep26 m a0 c r h26).trans <|
    (keep25 m a0 c r h25).trans <|
    (keep24 m a0 c r h24).trans <|
    (keep23 m a0 c r h23).trans <|
    (keep22 m a0 c r h22).trans <|
    (keep21 m a0 c r h21).trans <|
    (keep20 m a0 c r h20).trans <|
    (keep19 m a0 c r h19).trans <|
    (keep18 m a0 c r h18).trans <|
    (keep17 m a0 c r h17).trans <|
    (keep16 m a0 c r h16).trans <|
    (keep15 m a0 c r h15).trans <|
    (keep14 m a0 c r h14).trans <|
    (keep13 m a0 c r h13).trans <|
    (keep12 m a0 c r h12).trans <|
    (keep11 m a0 c r h11).trans <|
    (keep10 m a0 c r h10).trans <|
    (keep9 m a0 c r h9).trans <|
    (keep8 m a0 c r h8).trans <|
    (keep7 m a0 c r h7).trans <|
    (keep6 m a0 c r h6).trans <|
    (keep5 m a0 c r h5).trans <|
    (keep4 m a0 c r h4).trans <|
    (keep3 m c r h3).trans <|
    (keep2 m c r h2).trans <|
    (keep1 m c r h1)

theorem W31_main_arg0 (c : Dev nD) : W31 m a0 c (Proc.devRef .tc main_arg0) = W0 m c (Proc.devRef .tc main_arg0) :=
  W31_of_untouched m a0 c main_arg0 (by and_intros <;> decide)
theorem W31_main_arg1 (c : Dev nD) : W31 m a0 c (Proc.devRef .tc main_arg1) = W0 m c (Proc.devRef .tc main_arg1) :=
  W31_of_untouched m a0 c main_arg1 (by and_intros <;> decide)
theorem W31_main_arg2 (c : Dev nD) : W31 m a0 c (Proc.devRef .tc main_arg2) = W0 m c (Proc.devRef .tc main_arg2) :=
  W31_of_untouched m a0 c main_arg2 (by and_intros <;> decide)
theorem W31_main_arg3 (c : Dev nD) : W31 m a0 c (Proc.devRef .tc main_arg3) = W0 m c (Proc.devRef .tc main_arg3) :=
  W31_of_untouched m a0 c main_arg3 (by and_intros <;> decide)
theorem W31_main_arg4 (c : Dev nD) : W31 m a0 c (Proc.devRef .tc main_arg4) = W0 m c (Proc.devRef .tc main_arg4) :=
  W31_of_untouched m a0 c main_arg4 (by and_intros <;> decide)
theorem W31_main_arg5 (c : Dev nD) : W31 m a0 c (Proc.devRef .tc main_arg5) = W0 m c (Proc.devRef .tc main_arg5) :=
  W31_of_untouched m a0 c main_arg5 (by and_intros <;> decide)
theorem W31_main_arg6 (c : Dev nD) : W31 m a0 c (Proc.devRef .tc main_arg6) = W0 m c (Proc.devRef .tc main_arg6) :=
  W31_of_untouched m a0 c main_arg6 (by and_intros <;> decide)
theorem W31_main_arg7 (c : Dev nD) : W31 m a0 c (Proc.devRef .tc main_arg7) = W0 m c (Proc.devRef .tc main_arg7) :=
  W31_of_untouched m a0 c main_arg7 (by and_intros <;> decide)
theorem W31_main_arg8 (c : Dev nD) : W31 m a0 c (Proc.devRef .tc main_arg8) = W0 m c (Proc.devRef .tc main_arg8) :=
  W31_of_untouched m a0 c main_arg8 (by and_intros <;> decide)
theorem W3_main_arg4 (c : Dev nD) : W3 m c (Proc.devRef .tc main_arg4) = W0 m c (Proc.devRef .tc main_arg4) :=
  (keep3 m c main_arg4 (by decide)).trans <| (keep2 m c main_arg4 (by decide)).trans <| (keep1 m c main_arg4 (by decide))
theorem W3_main_arg5 (c : Dev nD) : W3 m c (Proc.devRef .tc main_arg5) = W0 m c (Proc.devRef .tc main_arg5) :=
  (keep3 m c main_arg5 (by decide)).trans <| (keep2 m c main_arg5 (by decide)).trans <| (keep1 m c main_arg5 (by decide))

end Cert.KernelIdeal.Hand

end
-- ==== Proof.KI.Frame.lean ====
import proofs.«402369_j86406152061536_3_alg».proof.Proof.KI.Run
import proofs.«402369_j86406152061536_3_alg».proof.Proof.KI.Keep

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

variable (m : (ℓ : Loc nD τ sig) → Buf (Elt F) ℓ) (ρ : Dev nD → PrngReg)

abbrev core₀ : Dev nD := ⟨0, Nat.one_pos⟩

theorem users_in_range
    (hu : ∀ (c : Dev nD) (x : S16384.Idx), (m ((c.tc : Thread nD τ).loc main_arg4) x : BitVec 32).toNat < 1000000)
    (c : Dev nD) (x : S16384.Idx) : (Vr3 m c main_arg4 x : BitVec 32).toNat < 1000000 := by
  have e : Vr3 m c main_arg4 = m ((c.tc : Thread nD τ).loc main_arg4) := W3_main_arg4 m c
  rw [e]; exact hu c x

theorem items_in_range
    (hi : ∀ (c : Dev nD) (x : S16384.Idx), (m ((c.tc : Thread nD τ).loc main_arg5) x : BitVec 32).toNat < 500000)
    (c : Dev nD) (x : S16384.Idx) : (Vr3 m c main_arg5 x : BitVec 32).toNat < 500000 := by
  have e : Vr3 m c main_arg5 = m ((c.tc : Thread nD τ).loc main_arg5) := W3_main_arg5 m c
  rw [e]; exact hi c x

def tables₀
    (hu : ∀ (c : Dev nD) (x : S16384.Idx), (m ((c.tc : Thread nD τ).loc main_arg4) x : BitVec 32).toNat < 1000000)
    (hi : ∀ (c : Dev nD) (x : S16384.Idx), (m ((c.tc : Thread nD τ).loc main_arg5) x : BitVec 32).toNat < 500000) :
    (pcfg0 (F := F)).Adm :=
  adm0 (Vr3 m) core₀ (users_in_range m hu core₀) (items_in_range m hi core₀)

theorem tables₀_at
    (hu : ∀ (c : Dev nD) (x : S16384.Idx), (m ((c.tc : Thread nD τ).loc main_arg4) x : BitVec 32).toNat < 1000000)
    (hi : ∀ (c : Dev nD) (x : S16384.Idx), (m ((c.tc : Thread nD τ).loc main_arg5) x : BitVec 32).toNat < 500000) :
    TablesAt (tables₀ m hu hi) (Vr3 m) :=
  tablesAt_adm0 (Vr3 m) core₀ (users_in_range m hu core₀) (items_in_range m hi core₀)

theorem frame
    (hu : ∀ (c : Dev nD) (x : S16384.Idx), (m ((c.tc : Thread nD τ).loc main_arg4) x : BitVec 32).toNat < 1000000)
    (hi : ∀ (c : Dev nD) (x : S16384.Idx), (m ((c.tc : Thread nD τ).loc main_arg5) x : BitVec 32).toNat < 500000) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W31_main_arg0 m (tables₀ m hu hi) c),
     (h c _ (mem_uc main_arg1 (by decide))).trans (W31_main_arg1 m (tables₀ m hu hi) c),
     (h c _ (mem_uc main_arg2 (by decide))).trans (W31_main_arg2 m (tables₀ m hu hi) c),
     (h c _ (mem_uc main_arg3 (by decide))).trans (W31_main_arg3 m (tables₀ m hu hi) c),
     (h c _ (mem_uc main_arg4 (by decide))).trans (W31_main_arg4 m (tables₀ m hu hi) c),
     (h c _ (mem_uc main_arg5 (by decide))).trans (W31_main_arg5 m (tables₀ m hu hi) c),
     (h c _ (mem_uc main_arg6 (by decide))).trans (W31_main_arg6 m (tables₀ m hu hi) c),
     (h c _ (mem_uc main_arg7 (by decide))).trans (W31_main_arg7 m (tables₀ m hu hi) c),
     (h c _ (mem_uc main_arg8 (by decide))).trans (W31_main_arg8 m (tables₀ m hu hi) c)⟩)
    (run_main m ρ (tables₀ m hu hi) (tables₀_at m hu hi))

theorem run_result
    (hu : ∀ (c : Dev nD) (x : S16384.Idx), (m ((c.tc : Thread nD τ).loc main_arg4) x : BitVec 32).toNat < 1000000)
    (hi : ∀ (c : Dev nD) (x : S16384.Idx), (m ((c.tc : Thread nD τ).loc main_arg5) x : BitVec 32).toNat < 500000) :
    ∃ a0 : (pcfg0 (F := F)).Adm, TablesAt a0 (Vr3 m) ∧
      θ_run defs (onTc (τ := τ) (main (F := F))) ⟨m, fun _ => 0, ρ⟩ (fun r => ∀ c : Dev nD,
        r.2.mem ((c.tc : Thread nD τ).loc main_v63) = W31 m a0 c (Proc.devRef .tc main_v63)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)) :=
  ⟨tables₀ m hu hi, tables₀_at m hu hi,
    (θ_run defs _ _).mono (fun r h c =>
      ⟨h c _ (mem_uc main_v63 (by decide)),
       (h c _ (mem_uc main_arg0 (by decide))).trans (W31_main_arg0 m (tables₀ m hu hi) c),
       (h c _ (mem_uc main_arg1 (by decide))).trans (W31_main_arg1 m (tables₀ m hu hi) c),
       (h c _ (mem_uc main_arg2 (by decide))).trans (W31_main_arg2 m (tables₀ m hu hi) c),
       (h c _ (mem_uc main_arg3 (by decide))).trans (W31_main_arg3 m (tables₀ m hu hi) c),
       (h c _ (mem_uc main_arg4 (by decide))).trans (W31_main_arg4 m (tables₀ m hu hi) c),
       (h c _ (mem_uc main_arg5 (by decide))).trans (W31_main_arg5 m (tables₀ m hu hi) c),
       (h c _ (mem_uc main_arg6 (by decide))).trans (W31_main_arg6 m (tables₀ m hu hi) c),
       (h c _ (mem_uc main_arg7 (by decide))).trans (W31_main_arg7 m (tables₀ m hu hi) c),
       (h c _ (mem_uc main_arg8 (by decide))).trans (W31_main_arg8 m (tables₀ m hu hi) c)⟩)
      (run_main m ρ (tables₀ m hu hi) (tables₀_at m hu hi))⟩

end Cert.KernelIdeal.Hand

end
-- ==== Proof.KI.Reads.lean ====
import proofs.«402369_j86406152061536_3_alg».proof.Proof.KI.Keep
import proofs.«402369_j86406152061536_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (a0 : (pcfg0 (F := F)).Adm)

theorem read4_main_v20 (c : Dev nD) : W4 m a0 c (Proc.devRef .tc main_v20) = W3 m c (Proc.devRef .tc main_v20) :=
  (W4_arr m a0 c 0).trans (((dat0 a0 (Vr3 m) c).arrAt_in 0 rfl _).trans (A_eq0 (F := F) a0 (Vr3 m) c 0))
theorem read4_main_v21 (c : Dev nD) : W4 m a0 c (Proc.devRef .tc main_v21) = W3 m c (Proc.devRef .tc main_v21) :=
  (W4_arr m a0 c 1).trans (((dat0 a0 (Vr3 m) c).arrAt_in 1 rfl _).trans (A_eq0 (F := F) a0 (Vr3 m) c 1))
theorem read4_main_v22 (c : Dev nD) : W4 m a0 c (Proc.devRef .tc main_v22) = W3 m c (Proc.devRef .tc main_v22) :=
  (W4_arr m a0 c 2).trans (((dat0 a0 (Vr3 m) c).arrAt_in 2 rfl _).trans (A_eq0 (F := F) a0 (Vr3 m) c 2))
theorem read4_main_v23 (c : Dev nD) : W4 m a0 c (Proc.devRef .tc main_v23) = W3 m c (Proc.devRef .tc main_v23) :=
  (W4_arr m a0 c 3).trans (((dat0 a0 (Vr3 m) c).arrAt_in 3 rfl _).trans (A_eq0 (F := F) a0 (Vr3 m) c 3))
theorem read6_main_v25 (c : Dev nD) : W6 m a0 c (Proc.devRef .tc main_v25) = W5 m a0 c (Proc.devRef .tc main_v25) :=
  (W6_arr m a0 c 0).trans (((dat1 (Vr5 m a0) c).arrAt_in 0 rfl _).trans (A_eq1 (F := F) (Vr5 m a0) c 0))
theorem read6_main_v18 (c : Dev nD) : W6 m a0 c (Proc.devRef .tc main_v18) = W5 m a0 c (Proc.devRef .tc main_v18) :=
  (W6_arr m a0 c 1).trans (((dat1 (Vr5 m a0) c).arrAt_in 1 rfl _).trans (A_eq1 (F := F) (Vr5 m a0) c 1))
theorem read7_main_v26 (c : Dev nD) : W7 m a0 c (Proc.devRef .tc main_v26) = W6 m a0 c (Proc.devRef .tc main_v26) :=
  (W7_arr m a0 c 0).trans (((dat2 (Vr6 m a0) c).arrAt_in 0 rfl _).trans (A_eq2 (F := F) (Vr6 m a0) c 0))
theorem read7_main_v18 (c : Dev nD) : W7 m a0 c (Proc.devRef .tc main_v18) = W6 m a0 c (Proc.devRef .tc main_v18) :=
  (W7_arr m a0 c 1).trans (((dat2 (Vr6 m a0) c).arrAt_in 1 rfl _).trans (A_eq2 (F := F) (Vr6 m a0) c 1))
theorem read8_main_v26 (c : Dev nD) : W8 m a0 c (Proc.devRef .tc main_v26) = W7 m a0 c (Proc.devRef .tc main_v26) :=
  (W8_arr m a0 c 0).trans (((dat3 (Vr7 m a0) c).arrAt_in 0 rfl _).trans (A_eq3 (F := F) (Vr7 m a0) c 0))
theorem read8_main_v19 (c : Dev nD) : W8 m a0 c (Proc.devRef .tc main_v19) = W7 m a0 c (Proc.devRef .tc main_v19) :=
  (W8_arr m a0 c 1).trans (((dat3 (Vr7 m a0) c).arrAt_in 1 rfl _).trans (A_eq3 (F := F) (Vr7 m a0) c 1))
theorem read9_main_v27 (c : Dev nD) : W9 m a0 c (Proc.devRef .tc main_v27) = W8 m a0 c (Proc.devRef .tc main_v27) :=
  (W9_arr m a0 c 0).trans (((dat4 (Vr8 m a0) c).arrAt_in 0 rfl _).trans (A_eq4 (F := F) (Vr8 m a0) c 0))
theorem read9_main_v19 (c : Dev nD) : W9 m a0 c (Proc.devRef .tc main_v19) = W8 m a0 c (Proc.devRef .tc main_v19) :=
  (W9_arr m a0 c 1).trans (((dat4 (Vr8 m a0) c).arrAt_in 1 rfl _).trans (A_eq4 (F := F) (Vr8 m a0) c 1))
theorem read10_main_v28 (c : Dev nD) : W10 m a0 c (Proc.devRef .tc main_v28) = W9 m a0 c (Proc.devRef .tc main_v28) :=
  (W10_arr m a0 c 0).trans (((dat5 (Vr9 m a0) c).arrAt_in 0 rfl _).trans (A_eq5 (F := F) (Vr9 m a0) c 0))
theorem read10_main_v19 (c : Dev nD) : W10 m a0 c (Proc.devRef .tc main_v19) = W9 m a0 c (Proc.devRef .tc main_v19) :=
  (W10_arr m a0 c 1).trans (((dat5 (Vr9 m a0) c).arrAt_in 1 rfl _).trans (A_eq5 (F := F) (Vr9 m a0) c 1))
theorem read11_main_v29 (c : Dev nD) : W11 m a0 c (Proc.devRef .tc main_v29) = W10 m a0 c (Proc.devRef .tc main_v29) :=
  (W11_arr m a0 c 0).trans (((dat6 (Vr10 m a0) c).arrAt_in 0 rfl _).trans (A_eq6 (F := F) (Vr10 m a0) c 0))
theorem read12_main_v30 (c : Dev nD) : W12 m a0 c (Proc.devRef .tc main_v30) = W11 m a0 c (Proc.devRef .tc main_v30) :=
  (W12_arr m a0 c 0).trans (((dat7 (Vr11 m a0) c).arrAt_in 0 rfl _).trans (A_eq7 (F := F) (Vr11 m a0) c 0))
theorem read13_main_v31 (c : Dev nD) : W13 m a0 c (Proc.devRef .tc main_v31) = W12 m a0 c (Proc.devRef .tc main_v31) :=
  (W13_arr m a0 c 0).trans (((dat8 (Vr12 m a0) c).arrAt_in 0 rfl _).trans (A_eq8 (F := F) (Vr12 m a0) c 0))
theorem read14_main_v32 (c : Dev nD) : W14 m a0 c (Proc.devRef .tc main_v32) = W13 m a0 c (Proc.devRef .tc main_v32) :=
  (W14_arr m a0 c 0).trans (((dat9 (Vr13 m a0) c).arrAt_in 0 rfl _).trans (A_eq9 (F := F) (Vr13 m a0) c 0))
theorem read15_main_v33 (c : Dev nD) : W15 m a0 c (Proc.devRef .tc main_v33) = W14 m a0 c (Proc.devRef .tc main_v33) :=
  (W15_arr m a0 c 0).trans (((dat10 (Vr14 m a0) c).arrAt_in 0 rfl _).trans (A_eq10 (F := F) (Vr14 m a0) c 0))
theorem read16_main_v34 (c : Dev nD) : W16 m a0 c (Proc.devRef .tc main_v34) = W15 m a0 c (Proc.devRef .tc main_v34) :=
  (W16_arr m a0 c 0).trans (((dat11 (Vr15 m a0) c).arrAt_in 0 rfl _).trans (A_eq11 (F := F) (Vr15 m a0) c 0))
theorem read16_main_v30 (c : Dev nD) : W16 m a0 c (Proc.devRef .tc main_v30) = W15 m a0 c (Proc.devRef .tc main_v30) :=
  (W16_arr m a0 c 1).trans (((dat11 (Vr15 m a0) c).arrAt_in 1 rfl _).trans (A_eq11 (F := F) (Vr15 m a0) c 1))
theorem read16_main_v1 (c : Dev nD) : W16 m a0 c (Proc.devRef .tc main_v1) = W15 m a0 c (Proc.devRef .tc main_v1) :=
  (W16_arr m a0 c 2).trans (((dat11 (Vr15 m a0) c).arrAt_in 2 rfl _).trans (A_eq11 (F := F) (Vr15 m a0) c 2))
theorem read18_main_v35 (c : Dev nD) : W18 m a0 c (Proc.devRef .tc main_v35) = W17 m a0 c (Proc.devRef .tc main_v35) :=
  (W18_arr m a0 c 0).trans (((dat12 (Vr17 m a0) c).arrAt_in 0 rfl _).trans (A_eq12 (F := F) (Vr17 m a0) c 0))
theorem read18_main_v29 (c : Dev nD) : W18 m a0 c (Proc.devRef .tc main_v29) = W17 m a0 c (Proc.devRef .tc main_v29) :=
  (W18_arr m a0 c 1).trans (((dat12 (Vr17 m a0) c).arrAt_in 1 rfl _).trans (A_eq12 (F := F) (Vr17 m a0) c 1))
theorem read18_main_v1 (c : Dev nD) : W18 m a0 c (Proc.devRef .tc main_v1) = W17 m a0 c (Proc.devRef .tc main_v1) :=
  (W18_arr m a0 c 2).trans (((dat12 (Vr17 m a0) c).arrAt_in 2 rfl _).trans (A_eq12 (F := F) (Vr17 m a0) c 2))
theorem read20_main_v36 (c : Dev nD) : W20 m a0 c (Proc.devRef .tc main_v36) = W19 m a0 c (Proc.devRef .tc main_v36) :=
  (W20_arr m a0 c 0).trans (((dat13 (Vr19 m a0) c).arrAt_in 0 rfl _).trans (A_eq13 (F := F) (Vr19 m a0) c 0))
theorem read20_main_v32 (c : Dev nD) : W20 m a0 c (Proc.devRef .tc main_v32) = W19 m a0 c (Proc.devRef .tc main_v32) :=
  (W20_arr m a0 c 1).trans (((dat13 (Vr19 m a0) c).arrAt_in 1 rfl _).trans (A_eq13 (F := F) (Vr19 m a0) c 1))
theorem read20_main_v1 (c : Dev nD) : W20 m a0 c (Proc.devRef .tc main_v1) = W19 m a0 c (Proc.devRef .tc main_v1) :=
  (W20_arr m a0 c 2).trans (((dat13 (Vr19 m a0) c).arrAt_in 2 rfl _).trans (A_eq13 (F := F) (Vr19 m a0) c 2))
theorem read22_main_v36 (c : Dev nD) : W22 m a0 c (Proc.devRef .tc main_v36) = W21 m a0 c (Proc.devRef .tc main_v36) :=
  (W22_arr m a0 c 0).trans (((dat14 (Vr21 m a0) c).arrAt_in 0 rfl _).trans (A_eq14 (F := F) (Vr21 m a0) c 0))
theorem read22_main_v33 (c : Dev nD) : W22 m a0 c (Proc.devRef .tc main_v33) = W21 m a0 c (Proc.devRef .tc main_v33) :=
  (W22_arr m a0 c 1).trans (((dat14 (Vr21 m a0) c).arrAt_in 1 rfl _).trans (A_eq14 (F := F) (Vr21 m a0) c 1))
theorem read22_main_v1 (c : Dev nD) : W22 m a0 c (Proc.devRef .tc main_v1) = W21 m a0 c (Proc.devRef .tc main_v1) :=
  (W22_arr m a0 c 2).trans (((dat14 (Vr21 m a0) c).arrAt_in 2 rfl _).trans (A_eq14 (F := F) (Vr21 m a0) c 2))
theorem read24_main_v37 (c : Dev nD) : W24 m a0 c (Proc.devRef .tc main_v37) = W23 m a0 c (Proc.devRef .tc main_v37) :=
  (W24_arr m a0 c 0).trans (((dat15 (Vr23 m a0) c).arrAt_in 0 rfl _).trans (A_eq15 (F := F) (Vr23 m a0) c 0))
theorem read24_main_v31 (c : Dev nD) : W24 m a0 c (Proc.devRef .tc main_v31) = W23 m a0 c (Proc.devRef .tc main_v31) :=
  (W24_arr m a0 c 1).trans (((dat15 (Vr23 m a0) c).arrAt_in 1 rfl _).trans (A_eq15 (F := F) (Vr23 m a0) c 1))
theorem read24_main_v1 (c : Dev nD) : W24 m a0 c (Proc.devRef .tc main_v1) = W23 m a0 c (Proc.devRef .tc main_v1) :=
  (W24_arr m a0 c 2).trans (((dat15 (Vr23 m a0) c).arrAt_in 2 rfl _).trans (A_eq15 (F := F) (Vr23 m a0) c 2))
theorem read26_main_v37 (c : Dev nD) : W26 m a0 c (Proc.devRef .tc main_v37) = W25 m a0 c (Proc.devRef .tc main_v37) :=
  (W26_arr m a0 c 0).trans (((dat16 (Vr25 m a0) c).arrAt_in 0 rfl _).trans (A_eq16 (F := F) (Vr25 m a0) c 0))
theorem read26_main_v33 (c : Dev nD) : W26 m a0 c (Proc.devRef .tc main_v33) = W25 m a0 c (Proc.devRef .tc main_v33) :=
  (W26_arr m a0 c 1).trans (((dat16 (Vr25 m a0) c).arrAt_in 1 rfl _).trans (A_eq16 (F := F) (Vr25 m a0) c 1))
theorem read26_main_v1 (c : Dev nD) : W26 m a0 c (Proc.devRef .tc main_v1) = W25 m a0 c (Proc.devRef .tc main_v1) :=
  (W26_arr m a0 c 2).trans (((dat16 (Vr25 m a0) c).arrAt_in 2 rfl _).trans (A_eq16 (F := F) (Vr25 m a0) c 2))
theorem read28_main_v38 (c : Dev nD) : W28 m a0 c (Proc.devRef .tc main_v38) = W27 m a0 c (Proc.devRef .tc main_v38) :=
  (W28_arr m a0 c 0).trans (((dat17 (Vr27 m a0) c).arrAt_in 0 rfl _).trans (A_eq17 (F := F) (Vr27 m a0) c 0))
theorem read28_main_v31 (c : Dev nD) : W28 m a0 c (Proc.devRef .tc main_v31) = W27 m a0 c (Proc.devRef .tc main_v31) :=
  (W28_arr m a0 c 1).trans (((dat17 (Vr27 m a0) c).arrAt_in 1 rfl _).trans (A_eq17 (F := F) (Vr27 m a0) c 1))
theorem read28_main_v1 (c : Dev nD) : W28 m a0 c (Proc.devRef .tc main_v1) = W27 m a0 c (Proc.devRef .tc main_v1) :=
  (W28_arr m a0 c 2).trans (((dat17 (Vr27 m a0) c).arrAt_in 2 rfl _).trans (A_eq17 (F := F) (Vr27 m a0) c 2))
theorem read30_main_v38 (c : Dev nD) : W30 m a0 c (Proc.devRef .tc main_v38) = W29 m a0 c (Proc.devRef .tc main_v38) :=
  (W30_arr m a0 c 0).trans (((dat18 (Vr29 m a0) c).arrAt_in 0 rfl _).trans (A_eq18 (F := F) (Vr29 m a0) c 0))
theorem read30_main_v32 (c : Dev nD) : W30 m a0 c (Proc.devRef .tc main_v32) = W29 m a0 c (Proc.devRef .tc main_v32) :=
  (W30_arr m a0 c 1).trans (((dat18 (Vr29 m a0) c).arrAt_in 1 rfl _).trans (A_eq18 (F := F) (Vr29 m a0) c 1))
theorem read30_main_v1 (c : Dev nD) : W30 m a0 c (Proc.devRef .tc main_v1) = W29 m a0 c (Proc.devRef .tc main_v1) :=
  (W30_arr m a0 c 2).trans (((dat18 (Vr29 m a0) c).arrAt_in 2 rfl _).trans (A_eq18 (F := F) (Vr29 m a0) c 2))

theorem W5_main_v18 (c : Dev nD) : W5 m a0 c (Proc.devRef .tc main_v18) = W3 m c (Proc.devRef .tc main_v18) :=
  (keep5 m a0 c main_v18 (by decide)).trans <| (keep4 m a0 c main_v18 (by decide))
theorem W6_main_v18 (c : Dev nD) : W6 m a0 c (Proc.devRef .tc main_v18) = W3 m c (Proc.devRef .tc main_v18) :=
  (read6_main_v18 m a0 c).trans <| (keep5 m a0 c main_v18 (by decide)).trans <| (keep4 m a0 c main_v18 (by decide))
theorem W7_main_v19 (c : Dev nD) : W7 m a0 c (Proc.devRef .tc main_v19) = W3 m c (Proc.devRef .tc main_v19) :=
  (keep7 m a0 c main_v19 (by decide)).trans <| (keep6 m a0 c main_v19 (by decide)).trans <| (keep5 m a0 c main_v19 (by decide)).trans <| (keep4 m a0 c main_v19 (by decide))
theorem W8_main_v19 (c : Dev nD) : W8 m a0 c (Proc.devRef .tc main_v19) = W3 m c (Proc.devRef .tc main_v19) :=
  (read8_main_v19 m a0 c).trans <| (keep7 m a0 c main_v19 (by decide)).trans <| (keep6 m a0 c main_v19 (by decide)).trans <| (keep5 m a0 c main_v19 (by decide)).trans <| (keep4 m a0 c main_v19 (by decide))
theorem W9_main_v19 (c : Dev nD) : W9 m a0 c (Proc.devRef .tc main_v19) = W3 m c (Proc.devRef .tc main_v19) :=
  (read9_main_v19 m a0 c).trans <| (read8_main_v19 m a0 c).trans <| (keep7 m a0 c main_v19 (by decide)).trans <| (keep6 m a0 c main_v19 (by decide)).trans <| (keep5 m a0 c main_v19 (by decide)).trans <| (keep4 m a0 c main_v19 (by decide))
theorem W15_main_v1 (c : Dev nD) : W15 m a0 c (Proc.devRef .tc main_v1) = W3 m c (Proc.devRef .tc main_v1) :=
  (keep15 m a0 c main_v1 (by decide)).trans <| (keep14 m a0 c main_v1 (by decide)).trans <| (keep13 m a0 c main_v1 (by decide)).trans <| (keep12 m a0 c main_v1 (by decide)).trans <| (keep11 m a0 c main_v1 (by decide)).trans <| (keep10 m a0 c main_v1 (by decide)).trans <| (keep9 m a0 c main_v1 (by decide)).trans <| (keep8 m a0 c main_v1 (by decide)).trans <| (keep7 m a0 c main_v1 (by decide)).trans <| (keep6 m a0 c main_v1 (by decide)).trans <| (keep5 m a0 c main_v1 (by decide)).trans <| (keep4 m a0 c main_v1 (by decide))
theorem W17_main_v1 (c : Dev nD) : W17 m a0 c (Proc.devRef .tc main_v1) = W3 m c (Proc.devRef .tc main_v1) :=
  (keep17 m a0 c main_v1 (by decide)).trans <| (read16_main_v1 m a0 c).trans <| (keep15 m a0 c main_v1 (by decide)).trans <| (keep14 m a0 c main_v1 (by decide)).trans <| (keep13 m a0 c main_v1 (by decide)).trans <| (keep12 m a0 c main_v1 (by decide)).trans <| (keep11 m a0 c main_v1 (by decide)).trans <| (keep10 m a0 c main_v1 (by decide)).trans <| (keep9 m a0 c main_v1 (by decide)).trans <| (keep8 m a0 c main_v1 (by decide)).trans <| (keep7 m a0 c main_v1 (by decide)).trans <| (keep6 m a0 c main_v1 (by decide)).trans <| (keep5 m a0 c main_v1 (by decide)).trans <| (keep4 m a0 c main_v1 (by decide))
theorem W19_main_v1 (c : Dev nD) : W19 m a0 c (Proc.devRef .tc main_v1) = W3 m c (Proc.devRef .tc main_v1) :=
  (keep19 m a0 c main_v1 (by decide)).trans <| (read18_main_v1 m a0 c).trans <| (keep17 m a0 c main_v1 (by decide)).trans <| (read16_main_v1 m a0 c).trans <| (keep15 m a0 c main_v1 (by decide)).trans <| (keep14 m a0 c main_v1 (by decide)).trans <| (keep13 m a0 c main_v1 (by decide)).trans <| (keep12 m a0 c main_v1 (by decide)).trans <| (keep11 m a0 c main_v1 (by decide)).trans <| (keep10 m a0 c main_v1 (by decide)).trans <| (keep9 m a0 c main_v1 (by decide)).trans <| (keep8 m a0 c main_v1 (by decide)).trans <| (keep7 m a0 c main_v1 (by decide)).trans <| (keep6 m a0 c main_v1 (by decide)).trans <| (keep5 m a0 c main_v1 (by decide)).trans <| (keep4 m a0 c main_v1 (by decide))
theorem W21_main_v1 (c : Dev nD) : W21 m a0 c (Proc.devRef .tc main_v1) = W3 m c (Proc.devRef .tc main_v1) :=
  (keep21 m a0 c main_v1 (by decide)).trans <| (read20_main_v1 m a0 c).trans <| (keep19 m a0 c main_v1 (by decide)).trans <| (read18_main_v1 m a0 c).trans <| (keep17 m a0 c main_v1 (by decide)).trans <| (read16_main_v1 m a0 c).trans <| (keep15 m a0 c main_v1 (by decide)).trans <| (keep14 m a0 c main_v1 (by decide)).trans <| (keep13 m a0 c main_v1 (by decide)).trans <| (keep12 m a0 c main_v1 (by decide)).trans <| (keep11 m a0 c main_v1 (by decide)).trans <| (keep10 m a0 c main_v1 (by decide)).trans <| (keep9 m a0 c main_v1 (by decide)).trans <| (keep8 m a0 c main_v1 (by decide)).trans <| (keep7 m a0 c main_v1 (by decide)).trans <| (keep6 m a0 c main_v1 (by decide)).trans <| (keep5 m a0 c main_v1 (by decide)).trans <| (keep4 m a0 c main_v1 (by decide))
theorem W23_main_v1 (c : Dev nD) : W23 m a0 c (Proc.devRef .tc main_v1) = W3 m c (Proc.devRef .tc main_v1) :=
  (keep23 m a0 c main_v1 (by decide)).trans <| (read22_main_v1 m a0 c).trans <| (keep21 m a0 c main_v1 (by decide)).trans <| (read20_main_v1 m a0 c).trans <| (keep19 m a0 c main_v1 (by decide)).trans <| (read18_main_v1 m a0 c).trans <| (keep17 m a0 c main_v1 (by decide)).trans <| (read16_main_v1 m a0 c).trans <| (keep15 m a0 c main_v1 (by decide)).trans <| (keep14 m a0 c main_v1 (by decide)).trans <| (keep13 m a0 c main_v1 (by decide)).trans <| (keep12 m a0 c main_v1 (by decide)).trans <| (keep11 m a0 c main_v1 (by decide)).trans <| (keep10 m a0 c main_v1 (by decide)).trans <| (keep9 m a0 c main_v1 (by decide)).trans <| (keep8 m a0 c main_v1 (by decide)).trans <| (keep7 m a0 c main_v1 (by decide)).trans <| (keep6 m a0 c main_v1 (by decide)).trans <| (keep5 m a0 c main_v1 (by decide)).trans <| (keep4 m a0 c main_v1 (by decide))
theorem W25_main_v1 (c : Dev nD) : W25 m a0 c (Proc.devRef .tc main_v1) = W3 m c (Proc.devRef .tc main_v1) :=
  (keep25 m a0 c main_v1 (by decide)).trans <| (read24_main_v1 m a0 c).trans <| (keep23 m a0 c main_v1 (by decide)).trans <| (read22_main_v1 m a0 c).trans <| (keep21 m a0 c main_v1 (by decide)).trans <| (read20_main_v1 m a0 c).trans <| (keep19 m a0 c main_v1 (by decide)).trans <| (read18_main_v1 m a0 c).trans <| (keep17 m a0 c main_v1 (by decide)).trans <| (read16_main_v1 m a0 c).trans <| (keep15 m a0 c main_v1 (by decide)).trans <| (keep14 m a0 c main_v1 (by decide)).trans <| (keep13 m a0 c main_v1 (by decide)).trans <| (keep12 m a0 c main_v1 (by decide)).trans <| (keep11 m a0 c main_v1 (by decide)).trans <| (keep10 m a0 c main_v1 (by decide)).trans <| (keep9 m a0 c main_v1 (by decide)).trans <| (keep8 m a0 c main_v1 (by decide)).trans <| (keep7 m a0 c main_v1 (by decide)).trans <| (keep6 m a0 c main_v1 (by decide)).trans <| (keep5 m a0 c main_v1 (by decide)).trans <| (keep4 m a0 c main_v1 (by decide))
theorem W27_main_v1 (c : Dev nD) : W27 m a0 c (Proc.devRef .tc main_v1) = W3 m c (Proc.devRef .tc main_v1) :=
  (keep27 m a0 c main_v1 (by decide)).trans <| (read26_main_v1 m a0 c).trans <| (keep25 m a0 c main_v1 (by decide)).trans <| (read24_main_v1 m a0 c).trans <| (keep23 m a0 c main_v1 (by decide)).trans <| (read22_main_v1 m a0 c).trans <| (keep21 m a0 c main_v1 (by decide)).trans <| (read20_main_v1 m a0 c).trans <| (keep19 m a0 c main_v1 (by decide)).trans <| (read18_main_v1 m a0 c).trans <| (keep17 m a0 c main_v1 (by decide)).trans <| (read16_main_v1 m a0 c).trans <| (keep15 m a0 c main_v1 (by decide)).trans <| (keep14 m a0 c main_v1 (by decide)).trans <| (keep13 m a0 c main_v1 (by decide)).trans <| (keep12 m a0 c main_v1 (by decide)).trans <| (keep11 m a0 c main_v1 (by decide)).trans <| (keep10 m a0 c main_v1 (by decide)).trans <| (keep9 m a0 c main_v1 (by decide)).trans <| (keep8 m a0 c main_v1 (by decide)).trans <| (keep7 m a0 c main_v1 (by decide)).trans <| (keep6 m a0 c main_v1 (by decide)).trans <| (keep5 m a0 c main_v1 (by decide)).trans <| (keep4 m a0 c main_v1 (by decide))
theorem W29_main_v1 (c : Dev nD) : W29 m a0 c (Proc.devRef .tc main_v1) = W3 m c (Proc.devRef .tc main_v1) :=
  (keep29 m a0 c main_v1 (by decide)).trans <| (read28_main_v1 m a0 c).trans <| (keep27 m a0 c main_v1 (by decide)).trans <| (read26_main_v1 m a0 c).trans <| (keep25 m a0 c main_v1 (by decide)).trans <| (read24_main_v1 m a0 c).trans <| (keep23 m a0 c main_v1 (by decide)).trans <| (read22_main_v1 m a0 c).trans <| (keep21 m a0 c main_v1 (by decide)).trans <| (read20_main_v1 m a0 c).trans <| (keep19 m a0 c main_v1 (by decide)).trans <| (read18_main_v1 m a0 c).trans <| (keep17 m a0 c main_v1 (by decide)).trans <| (read16_main_v1 m a0 c).trans <| (keep15 m a0 c main_v1 (by decide)).trans <| (keep14 m a0 c main_v1 (by decide)).trans <| (keep13 m a0 c main_v1 (by decide)).trans <| (keep12 m a0 c main_v1 (by decide)).trans <| (keep11 m a0 c main_v1 (by decide)).trans <| (keep10 m a0 c main_v1 (by decide)).trans <| (keep9 m a0 c main_v1 (by decide)).trans <| (keep8 m a0 c main_v1 (by decide)).trans <| (keep7 m a0 c main_v1 (by decide)).trans <| (keep6 m a0 c main_v1 (by decide)).trans <| (keep5 m a0 c main_v1 (by decide)).trans <| (keep4 m a0 c main_v1 (by decide))
theorem W6_main_v26 (c : Dev nD) : W6 m a0 c (Proc.devRef .tc main_v26) = W5 m a0 c (Proc.devRef .tc main_v26) :=
  (keep6 m a0 c main_v26 (by decide))
theorem W7_main_v26 (c : Dev nD) : W7 m a0 c (Proc.devRef .tc main_v26) = W5 m a0 c (Proc.devRef .tc main_v26) :=
  (read7_main_v26 m a0 c).trans <| (keep6 m a0 c main_v26 (by decide))
theorem W8_main_v27 (c : Dev nD) : W8 m a0 c (Proc.devRef .tc main_v27) = W5 m a0 c (Proc.devRef .tc main_v27) :=
  (keep8 m a0 c main_v27 (by decide)).trans <| (keep7 m a0 c main_v27 (by decide)).trans <| (keep6 m a0 c main_v27 (by decide))
theorem W9_main_v28 (c : Dev nD) : W9 m a0 c (Proc.devRef .tc main_v28) = W5 m a0 c (Proc.devRef .tc main_v28) :=
  (keep9 m a0 c main_v28 (by decide)).trans <| (keep8 m a0 c main_v28 (by decide)).trans <| (keep7 m a0 c main_v28 (by decide)).trans <| (keep6 m a0 c main_v28 (by decide))
theorem W10_main_v29 (c : Dev nD) : W10 m a0 c (Proc.devRef .tc main_v29) = W6 m a0 c (Proc.devRef .tc main_v29) :=
  (keep10 m a0 c main_v29 (by decide)).trans <| (keep9 m a0 c main_v29 (by decide)).trans <| (keep8 m a0 c main_v29 (by decide)).trans <| (keep7 m a0 c main_v29 (by decide))
theorem W17_main_v29 (c : Dev nD) : W17 m a0 c (Proc.devRef .tc main_v29) = W6 m a0 c (Proc.devRef .tc main_v29) :=
  (keep17 m a0 c main_v29 (by decide)).trans <| (keep16 m a0 c main_v29 (by decide)).trans <| (keep15 m a0 c main_v29 (by decide)).trans <| (keep14 m a0 c main_v29 (by decide)).trans <| (keep13 m a0 c main_v29 (by decide)).trans <| (keep12 m a0 c main_v29 (by decide)).trans <| (read11_main_v29 m a0 c).trans <| (keep10 m a0 c main_v29 (by decide)).trans <| (keep9 m a0 c main_v29 (by decide)).trans <| (keep8 m a0 c main_v29 (by decide)).trans <| (keep7 m a0 c main_v29 (by decide))
theorem W11_main_v30 (c : Dev nD) : W11 m a0 c (Proc.devRef .tc main_v30) = W7 m a0 c (Proc.devRef .tc main_v30) :=
  (keep11 m a0 c main_v30 (by decide)).trans <| (keep10 m a0 c main_v30 (by decide)).trans <| (keep9 m a0 c main_v30 (by decide)).trans <| (keep8 m a0 c main_v30 (by decide))
theorem W15_main_v30 (c : Dev nD) : W15 m a0 c (Proc.devRef .tc main_v30) = W7 m a0 c (Proc.devRef .tc main_v30) :=
  (keep15 m a0 c main_v30 (by decide)).trans <| (keep14 m a0 c main_v30 (by decide)).trans <| (keep13 m a0 c main_v30 (by decide)).trans <| (read12_main_v30 m a0 c).trans <| (keep11 m a0 c main_v30 (by decide)).trans <| (keep10 m a0 c main_v30 (by decide)).trans <| (keep9 m a0 c main_v30 (by decide)).trans <| (keep8 m a0 c main_v30 (by decide))
theorem W12_main_v31 (c : Dev nD) : W12 m a0 c (Proc.devRef .tc main_v31) = W8 m a0 c (Proc.devRef .tc main_v31) :=
  (keep12 m a0 c main_v31 (by decide)).trans <| (keep11 m a0 c main_v31 (by decide)).trans <| (keep10 m a0 c main_v31 (by decide)).trans <| (keep9 m a0 c main_v31 (by decide))
theorem W23_main_v31 (c : Dev nD) : W23 m a0 c (Proc.devRef .tc main_v31) = W8 m a0 c (Proc.devRef .tc main_v31) :=
  (keep23 m a0 c main_v31 (by decide)).trans <| (keep22 m a0 c main_v31 (by decide)).trans <| (keep21 m a0 c main_v31 (by decide)).trans <| (keep20 m a0 c main_v31 (by decide)).trans <| (keep19 m a0 c main_v31 (by decide)).trans <| (keep18 m a0 c main_v31 (by decide)).trans <| (keep17 m a0 c main_v31 (by decide)).trans <| (keep16 m a0 c main_v31 (by decide)).trans <| (keep15 m a0 c main_v31 (by decide)).trans <| (keep14 m a0 c main_v31 (by decide)).trans <| (read13_main_v31 m a0 c).trans <| (keep12 m a0 c main_v31 (by decide)).trans <| (keep11 m a0 c main_v31 (by decide)).trans <| (keep10 m a0 c main_v31 (by decide)).trans <| (keep9 m a0 c main_v31 (by decide))
theorem W27_main_v31 (c : Dev nD) : W27 m a0 c (Proc.devRef .tc main_v31) = W8 m a0 c (Proc.devRef .tc main_v31) :=
  (keep27 m a0 c main_v31 (by decide)).trans <| (keep26 m a0 c main_v31 (by decide)).trans <| (keep25 m a0 c main_v31 (by decide)).trans <| (read24_main_v31 m a0 c).trans <| (keep23 m a0 c main_v31 (by decide)).trans <| (keep22 m a0 c main_v31 (by decide)).trans <| (keep21 m a0 c main_v31 (by decide)).trans <| (keep20 m a0 c main_v31 (by decide)).trans <| (keep19 m a0 c main_v31 (by decide)).trans <| (keep18 m a0 c main_v31 (by decide)).trans <| (keep17 m a0 c main_v31 (by decide)).trans <| (keep16 m a0 c main_v31 (by decide)).trans <| (keep15 m a0 c main_v31 (by decide)).trans <| (keep14 m a0 c main_v31 (by decide)).trans <| (read13_main_v31 m a0 c).trans <| (keep12 m a0 c main_v31 (by decide)).trans <| (keep11 m a0 c main_v31 (by decide)).trans <| (keep10 m a0 c main_v31 (by decide)).trans <| (keep9 m a0 c main_v31 (by decide))
theorem W13_main_v32 (c : Dev nD) : W13 m a0 c (Proc.devRef .tc main_v32) = W9 m a0 c (Proc.devRef .tc main_v32) :=
  (keep13 m a0 c main_v32 (by decide)).trans <| (keep12 m a0 c main_v32 (by decide)).trans <| (keep11 m a0 c main_v32 (by decide)).trans <| (keep10 m a0 c main_v32 (by decide))
theorem W19_main_v32 (c : Dev nD) : W19 m a0 c (Proc.devRef .tc main_v32) = W9 m a0 c (Proc.devRef .tc main_v32) :=
  (keep19 m a0 c main_v32 (by decide)).trans <| (keep18 m a0 c main_v32 (by decide)).trans <| (keep17 m a0 c main_v32 (by decide)).trans <| (keep16 m a0 c main_v32 (by decide)).trans <| (keep15 m a0 c main_v32 (by decide)).trans <| (read14_main_v32 m a0 c).trans <| (keep13 m a0 c main_v32 (by decide)).trans <| (keep12 m a0 c main_v32 (by decide)).trans <| (keep11 m a0 c main_v32 (by decide)).trans <| (keep10 m a0 c main_v32 (by decide))
theorem W29_main_v32 (c : Dev nD) : W29 m a0 c (Proc.devRef .tc main_v32) = W9 m a0 c (Proc.devRef .tc main_v32) :=
  (keep29 m a0 c main_v32 (by decide)).trans <| (keep28 m a0 c main_v32 (by decide)).trans <| (keep27 m a0 c main_v32 (by decide)).trans <| (keep26 m a0 c main_v32 (by decide)).trans <| (keep25 m a0 c main_v32 (by decide)).trans <| (keep24 m a0 c main_v32 (by decide)).trans <| (keep23 m a0 c main_v32 (by decide)).trans <| (keep22 m a0 c main_v32 (by decide)).trans <| (keep21 m a0 c main_v32 (by decide)).trans <| (read20_main_v32 m a0 c).trans <| (keep19 m a0 c main_v32 (by decide)).trans <| (keep18 m a0 c main_v32 (by decide)).trans <| (keep17 m a0 c main_v32 (by decide)).trans <| (keep16 m a0 c main_v32 (by decide)).trans <| (keep15 m a0 c main_v32 (by decide)).trans <| (read14_main_v32 m a0 c).trans <| (keep13 m a0 c main_v32 (by decide)).trans <| (keep12 m a0 c main_v32 (by decide)).trans <| (keep11 m a0 c main_v32 (by decide)).trans <| (keep10 m a0 c main_v32 (by decide))
theorem W14_main_v33 (c : Dev nD) : W14 m a0 c (Proc.devRef .tc main_v33) = W10 m a0 c (Proc.devRef .tc main_v33) :=
  (keep14 m a0 c main_v33 (by decide)).trans <| (keep13 m a0 c main_v33 (by decide)).trans <| (keep12 m a0 c main_v33 (by decide)).trans <| (keep11 m a0 c main_v33 (by decide))
theorem W21_main_v33 (c : Dev nD) : W21 m a0 c (Proc.devRef .tc main_v33) = W10 m a0 c (Proc.devRef .tc main_v33) :=
  (keep21 m a0 c main_v33 (by decide)).trans <| (keep20 m a0 c main_v33 (by decide)).trans <| (keep19 m a0 c main_v33 (by decide)).trans <| (keep18 m a0 c main_v33 (by decide)).trans <| (keep17 m a0 c main_v33 (by decide)).trans <| (keep16 m a0 c main_v33 (by decide)).trans <| (read15_main_v33 m a0 c).trans <| (keep14 m a0 c main_v33 (by decide)).trans <| (keep13 m a0 c main_v33 (by decide)).trans <| (keep12 m a0 c main_v33 (by decide)).trans <| (keep11 m a0 c main_v33 (by decide))
theorem W25_main_v33 (c : Dev nD) : W25 m a0 c (Proc.devRef .tc main_v33) = W10 m a0 c (Proc.devRef .tc main_v33) :=
  (keep25 m a0 c main_v33 (by decide)).trans <| (keep24 m a0 c main_v33 (by decide)).trans <| (keep23 m a0 c main_v33 (by decide)).trans <| (read22_main_v33 m a0 c).trans <| (keep21 m a0 c main_v33 (by decide)).trans <| (keep20 m a0 c main_v33 (by decide)).trans <| (keep19 m a0 c main_v33 (by decide)).trans <| (keep18 m a0 c main_v33 (by decide)).trans <| (keep17 m a0 c main_v33 (by decide)).trans <| (keep16 m a0 c main_v33 (by decide)).trans <| (read15_main_v33 m a0 c).trans <| (keep14 m a0 c main_v33 (by decide)).trans <| (keep13 m a0 c main_v33 (by decide)).trans <| (keep12 m a0 c main_v33 (by decide)).trans <| (keep11 m a0 c main_v33 (by decide))
theorem W15_main_v34 (c : Dev nD) : W15 m a0 c (Proc.devRef .tc main_v34) = W11 m a0 c (Proc.devRef .tc main_v34) :=
  (keep15 m a0 c main_v34 (by decide)).trans <| (keep14 m a0 c main_v34 (by decide)).trans <| (keep13 m a0 c main_v34 (by decide)).trans <| (keep12 m a0 c main_v34 (by decide))
theorem W17_main_v35 (c : Dev nD) : W17 m a0 c (Proc.devRef .tc main_v35) = W12 m a0 c (Proc.devRef .tc main_v35) :=
  (keep17 m a0 c main_v35 (by decide)).trans <| (keep16 m a0 c main_v35 (by decide)).trans <| (keep15 m a0 c main_v35 (by decide)).trans <| (keep14 m a0 c main_v35 (by decide)).trans <| (keep13 m a0 c main_v35 (by decide))
theorem W19_main_v36 (c : Dev nD) : W19 m a0 c (Proc.devRef .tc main_v36) = W13 m a0 c (Proc.devRef .tc main_v36) :=
  (keep19 m a0 c main_v36 (by decide)).trans <| (keep18 m a0 c main_v36 (by decide)).trans <| (keep17 m a0 c main_v36 (by decide)).trans <| (keep16 m a0 c main_v36 (by decide)).trans <| (keep15 m a0 c main_v36 (by decide)).trans <| (keep14 m a0 c main_v36 (by decide))
theorem W21_main_v36 (c : Dev nD) : W21 m a0 c (Proc.devRef .tc main_v36) = W13 m a0 c (Proc.devRef .tc main_v36) :=
  (keep21 m a0 c main_v36 (by decide)).trans <| (read20_main_v36 m a0 c).trans <| (keep19 m a0 c main_v36 (by decide)).trans <| (keep18 m a0 c main_v36 (by decide)).trans <| (keep17 m a0 c main_v36 (by decide)).trans <| (keep16 m a0 c main_v36 (by decide)).trans <| (keep15 m a0 c main_v36 (by decide)).trans <| (keep14 m a0 c main_v36 (by decide))
theorem W23_main_v37 (c : Dev nD) : W23 m a0 c (Proc.devRef .tc main_v37) = W14 m a0 c (Proc.devRef .tc main_v37) :=
  (keep23 m a0 c main_v37 (by decide)).trans <| (keep22 m a0 c main_v37 (by decide)).trans <| (keep21 m a0 c main_v37 (by decide)).trans <| (keep20 m a0 c main_v37 (by decide)).trans <| (keep19 m a0 c main_v37 (by decide)).trans <| (keep18 m a0 c main_v37 (by decide)).trans <| (keep17 m a0 c main_v37 (by decide)).trans <| (keep16 m a0 c main_v37 (by decide)).trans <| (keep15 m a0 c main_v37 (by decide))
theorem W25_main_v37 (c : Dev nD) : W25 m a0 c (Proc.devRef .tc main_v37) = W14 m a0 c (Proc.devRef .tc main_v37) :=
  (keep25 m a0 c main_v37 (by decide)).trans <| (read24_main_v37 m a0 c).trans <| (keep23 m a0 c main_v37 (by decide)).trans <| (keep22 m a0 c main_v37 (by decide)).trans <| (keep21 m a0 c main_v37 (by decide)).trans <| (keep20 m a0 c main_v37 (by decide)).trans <| (keep19 m a0 c main_v37 (by decide)).trans <| (keep18 m a0 c main_v37 (by decide)).trans <| (keep17 m a0 c main_v37 (by decide)).trans <| (keep16 m a0 c main_v37 (by decide)).trans <| (keep15 m a0 c main_v37 (by decide))
theorem W27_main_v38 (c : Dev nD) : W27 m a0 c (Proc.devRef .tc main_v38) = W15 m a0 c (Proc.devRef .tc main_v38) :=
  (keep27 m a0 c main_v38 (by decide)).trans <| (keep26 m a0 c main_v38 (by decide)).trans <| (keep25 m a0 c main_v38 (by decide)).trans <| (keep24 m a0 c main_v38 (by decide)).trans <| (keep23 m a0 c main_v38 (by decide)).trans <| (keep22 m a0 c main_v38 (by decide)).trans <| (keep21 m a0 c main_v38 (by decide)).trans <| (keep20 m a0 c main_v38 (by decide)).trans <| (keep19 m a0 c main_v38 (by decide)).trans <| (keep18 m a0 c main_v38 (by decide)).trans <| (keep17 m a0 c main_v38 (by decide)).trans <| (keep16 m a0 c main_v38 (by decide))
theorem W29_main_v38 (c : Dev nD) : W29 m a0 c (Proc.devRef .tc main_v38) = W15 m a0 c (Proc.devRef .tc main_v38) :=
  (keep29 m a0 c main_v38 (by decide)).trans <| (read28_main_v38 m a0 c).trans <| (keep27 m a0 c main_v38 (by decide)).trans <| (keep26 m a0 c main_v38 (by decide)).trans <| (keep25 m a0 c main_v38 (by decide)).trans <| (keep24 m a0 c main_v38 (by decide)).trans <| (keep23 m a0 c main_v38 (by decide)).trans <| (keep22 m a0 c main_v38 (by decide)).trans <| (keep21 m a0 c main_v38 (by decide)).trans <| (keep20 m a0 c main_v38 (by decide)).trans <| (keep19 m a0 c main_v38 (by decide)).trans <| (keep18 m a0 c main_v38 (by decide)).trans <| (keep17 m a0 c main_v38 (by decide)).trans <| (keep16 m a0 c main_v38 (by decide))
theorem W30_main_v40 (c : Dev nD) : W30 m a0 c (Proc.devRef .tc main_v40) = W17 m a0 c (Proc.devRef .tc main_v40) :=
  (keep30 m a0 c main_v40 (by decide)).trans <| (keep29 m a0 c main_v40 (by decide)).trans <| (keep28 m a0 c main_v40 (by decide)).trans <| (keep27 m a0 c main_v40 (by decide)).trans <| (keep26 m a0 c main_v40 (by decide)).trans <| (keep25 m a0 c main_v40 (by decide)).trans <| (keep24 m a0 c main_v40 (by decide)).trans <| (keep23 m a0 c main_v40 (by decide)).trans <| (keep22 m a0 c main_v40 (by decide)).trans <| (keep21 m a0 c main_v40 (by decide)).trans <| (keep20 m a0 c main_v40 (by decide)).trans <| (keep19 m a0 c main_v40 (by decide)).trans <| (keep18 m a0 c main_v40 (by decide))
theorem W30_main_v42 (c : Dev nD) : W30 m a0 c (Proc.devRef .tc main_v42) = W19 m a0 c (Proc.devRef .tc main_v42) :=
  (keep30 m a0 c main_v42 (by decide)).trans <| (keep29 m a0 c main_v42 (by decide)).trans <| (keep28 m a0 c main_v42 (by decide)).trans <| (keep27 m a0 c main_v42 (by decide)).trans <| (keep26 m a0 c main_v42 (by decide)).trans <| (keep25 m a0 c main_v42 (by decide)).trans <| (keep24 m a0 c main_v42 (by decide)).trans <| (keep23 m a0 c main_v42 (by decide)).trans <| (keep22 m a0 c main_v42 (by decide)).trans <| (keep21 m a0 c main_v42 (by decide)).trans <| (keep20 m a0 c main_v42 (by decide))
theorem W30_main_v44 (c : Dev nD) : W30 m a0 c (Proc.devRef .tc main_v44) = W21 m a0 c (Proc.devRef .tc main_v44) :=
  (keep30 m a0 c main_v44 (by decide)).trans <| (keep29 m a0 c main_v44 (by decide)).trans <| (keep28 m a0 c main_v44 (by decide)).trans <| (keep27 m a0 c main_v44 (by decide)).trans <| (keep26 m a0 c main_v44 (by decide)).trans <| (keep25 m a0 c main_v44 (by decide)).trans <| (keep24 m a0 c main_v44 (by decide)).trans <| (keep23 m a0 c main_v44 (by decide)).trans <| (keep22 m a0 c main_v44 (by decide))
theorem W30_main_v46 (c : Dev nD) : W30 m a0 c (Proc.devRef .tc main_v46) = W23 m a0 c (Proc.devRef .tc main_v46) :=
  (keep30 m a0 c main_v46 (by decide)).trans <| (keep29 m a0 c main_v46 (by decide)).trans <| (keep28 m a0 c main_v46 (by decide)).trans <| (keep27 m a0 c main_v46 (by decide)).trans <| (keep26 m a0 c main_v46 (by decide)).trans <| (keep25 m a0 c main_v46 (by decide)).trans <| (keep24 m a0 c main_v46 (by decide))
theorem W30_main_v48 (c : Dev nD) : W30 m a0 c (Proc.devRef .tc main_v48) = W25 m a0 c (Proc.devRef .tc main_v48) :=
  (keep30 m a0 c main_v48 (by decide)).trans <| (keep29 m a0 c main_v48 (by decide)).trans <| (keep28 m a0 c main_v48 (by decide)).trans <| (keep27 m a0 c main_v48 (by decide)).trans <| (keep26 m a0 c main_v48 (by decide))
theorem W30_main_v50 (c : Dev nD) : W30 m a0 c (Proc.devRef .tc main_v50) = W27 m a0 c (Proc.devRef .tc main_v50) :=
  (keep30 m a0 c main_v50 (by decide)).trans <| (keep29 m a0 c main_v50 (by decide)).trans <| (keep28 m a0 c main_v50 (by decide))
theorem W30_main_v52 (c : Dev nD) : W30 m a0 c (Proc.devRef .tc main_v52) = W29 m a0 c (Proc.devRef .tc main_v52) :=
  (keep30 m a0 c main_v52 (by decide))

end Cert.KernelIdeal.Hand

end
-- ==== Proof.Spec.lean ====
import Idealize.ShloMosaic.PureOps.Ideal

noncomputable section

namespace Cert.Spec

open Idealize.ShloMosaic

abbrev B : ℕ := 16384
abbrev K : ℕ := 256
abbrev D : ℕ := 64

def floorLen : EReal := Ideal.ofBits .f32 0x2B8CBCCC#32
def tempLo : EReal := Ideal.ofBits .f32 0x3C23D70A#32
def tempHi : EReal := Ideal.ofBits .f32 0x3F7D70A4#32

def invT : EReal := ((268435456 / 13421773 : ℝ) : EReal)

def rowOf (n : ℕ) [NeZero n] (w : BitVec 32) : Fin n := Fin.ofNat n w.toNat

def unitRows {n : ℕ} (x : Fin n → Fin D → EReal) (i : Fin n) (d : Fin D) : EReal :=
  Ideal.div (x i d) (max (Ideal.sqrt (∑ e : Fin D, x i e * x i e)) floorLen)

def gathered {n : ℕ} [NeZero n] (T : Fin n → Fin D → EReal) (idx : Fin B → BitVec 32) (b : Fin B) (d : Fin D) : EReal :=
  unitRows (fun b' d' => T (rowOf n (idx b')) d') b d

def proj (x : Fin B → Fin D → EReal) (w : Fin K → Fin D → EReal) (b : Fin B) (k : Fin K) : EReal :=
  ∑ d : Fin D, x b d * w k d

def sinkRound (P : Fin B → Fin K → EReal) : Fin B → Fin K → EReal :=
  let P' : Fin B → Fin K → EReal := fun b k => Ideal.div (P b k) ((∑ b' : Fin B, P b' k) * (K : EReal))
  fun b k => Ideal.div (P' b k) ((∑ k' : Fin K, P' b k') * (B : EReal))

def plan (code : Fin B → Fin K → EReal) : Fin B → Fin K → EReal :=
  let P0 : Fin B → Fin K → EReal := fun b k => Ideal.exp (code b k * invT)
  let P1 : Fin B → Fin K → EReal := fun b k => Ideal.div (P0 b k) (∑ b' : Fin B, ∑ k' : Fin K, P0 b' k')
  fun b k => sinkRound (sinkRound (sinkRound P1)) b k * (B : EReal)

def logSoftmax (x : Fin B → Fin K → EReal) (b : Fin B) (k : Fin K) : EReal :=
  x b k - Finset.univ.sup (fun k' : Fin K => x b k')
    - Ideal.log (∑ k' : Fin K, Ideal.exp (x b k' - Finset.univ.sup (fun k'' : Fin K => x b k'')))

def crossEntropy (q code : Fin B → Fin K → EReal) (g : EReal) : EReal :=
  -(Ideal.div (∑ b : Fin B, ∑ k : Fin K, q b k * logSoftmax (fun b' k' => Ideal.div (code b' k') g) b k) (B : EReal))

def clampTemp (gamma : EReal) : EReal := min tempHi (max tempLo gamma)

def loss (Tu : Fin 1000000 → Fin D → EReal) (Tid Tim Ttx : Fin 500000 → Fin D → EReal)
    (users items : Fin B → BitVec 32) (wFeat wIi : Fin K → Fin D → EReal) (gamma : EReal) : EReal :=
  let g := clampTemp gamma
  let wF := unitRows wFeat
  let wI := unitRows wIi
  let u := gathered Tu users
  let iId := gathered Tid items
  let iIm := gathered Tim items
  let iTx := gathered Ttx items
  let cUser := proj u wF
  let cId := proj iId wF
  let cIdIi := proj iId wI
  let cImIi := proj iIm wI
  let cTxIi := proj iTx wI
  let qUser := plan cUser
  let qId := plan cId
  let qIdIi := plan cIdIi
  let qImIi := plan cImIi
  let qTxIi := plan cTxIi
  let t1 := crossEntropy qUser cId g
  let t2 := crossEntropy qId cUser g
  let t3 := crossEntropy qIdIi cImIi g
  let t4 := crossEntropy qIdIi cTxIi g
  let t5 := crossEntropy qImIi cIdIi g
  let t6 := crossEntropy qImIi cTxIi g
  let t7 := crossEntropy qTxIi cIdIi g
  let t8 := crossEntropy qTxIi cImIi g
  Ideal.div (t1 + t2) 2 + Ideal.div (((((t3 + t4) + t5) + t6) + t7) + t8) 6

end Cert.Spec

end
-- ==== Proof.Pre.lean ====
import Idealize.ShloMosaic.Lib.ReduceAll
import Idealize.ShloMosaic.Lib.StableHlo.Predicate
import Idealize.ShloMosaic.Lib.ValueIdx
import Idealize.ShloMosaic.PureOps.Ideal
import proofs.«402369_j86406152061536_3_alg».proof.Pre_finite_inputs
import proofs.«402369_j86406152061536_3_alg».proof.Proof.Gen.Pre_finite_inputs

noncomputable section

namespace Cert.Pre

open Idealize.ShloMosaic Cert.Pre_finite_inputs

variable [Facts]

instance : Subsingleton S_.Idx := ⟨fun a b => funext fun d => d.elim0⟩

def BelowInf {F : FTy → Type} [FloatOps F] (x : F .f32) : Prop :=
  FloatOps.cmpf .olt (FloatOps.hostAbsf x) (FloatOps.ofBits .f32 0x7F800000#32) = 1#1

def InRange (n w : BitVec 32) : Prop :=
  IntOp.cmpi .sge w 0#32 = 1#1 ∧ IntOp.cmpi .slt w n = 1#1

theorem split {F : FTy → Type} [FloatOps F]
    {a0 : FVec F S1000000x64 .f32} {a1 a2 a3 : FVec F S500000x64 .f32} {a4 a5 : IVec S16384 32}
    {a6 a7 : FVec F S256x64 .f32} {a8 : FVec F S_ .f32}
    (h : fn (F := F) a0 a1 a2 a3 a4 a5 a6 a7 a8 = fun _ => 1#1) :
    (∀ j, BelowInf (a0 j)) ∧ (∀ j, BelowInf (a1 j)) ∧ (∀ j, BelowInf (a2 j)) ∧ (∀ j, BelowInf (a3 j))
      ∧ (∀ j, BelowInf (a6 j)) ∧ (∀ j, BelowInf (a7 j)) ∧ (∀ j, BelowInf (a8 j))
      ∧ (∀ j, InRange 1000000#32 (a4 j)) ∧ (∀ j, InRange 500000#32 (a5 j)) := by
  have e := congrFun h ValueIdx.ix0
  dsimp only [fn, fn_part1, fn_part2, andi] at e
  simp only [IntOp.andi_eq_one] at e
  obtain ⟨⟨⟨⟨⟨⟨⟨⟨h0, h1⟩, h2⟩, h3⟩, h6⟩, h7⟩, h8⟩, h4⟩, h5⟩ := e
  refine ⟨fun j => ?_, fun j => ?_, fun j => ?_, fun j => ?_, fun j => ?_, fun j => ?_, fun j => ?_, fun j => ?_, fun j => ?_⟩
  · exact Host.reduce_andi_all _ _ _ _ _ h0 j
  · exact Host.reduce_andi_all _ _ _ _ _ h1 j
  · exact Host.reduce_andi_all _ _ _ _ _ h2 j
  · exact Host.reduce_andi_all _ _ _ _ _ h3 j
  · exact Host.reduce_andi_all _ _ _ _ _ h6 j
  · exact Host.reduce_andi_all _ _ _ _ _ h7 j
  · exact Host.reduce_andi_all _ _ _ _ _ h8 j
  · exact IntOp.andi_eq_one.1 (Host.reduce_andi_all _ _ _ _ _ h4 j)
  · exact IntOp.andi_eq_one.1 (Host.reduce_andi_all _ _ _ _ _ h5 j)

theorem real_of_belowInf {x : EReal} (h : BelowInf (F := Ideal) x) : ∃ r : ℝ, x = (r : EReal) := by
  have htop : Ideal.ofBits .f32 0x7F800000#32 = (⊤ : EReal) := by simp [Ideal.ofBits, Ideal.ieee]
  have h' : Ideal.cmp .olt (max x (-x)) (Ideal.ofBits .f32 0x7F800000#32) = 1#1 := h
  rw [htop] at h'
  simp only [Ideal.cmp, StableHlo.Predicate.ofBool_eq_one_iff, decide_eq_true_eq] at h'
  induction x using EReal.rec with
  | bot => simp at h'
  | coe r => exact ⟨r, rfl⟩
  | top => simp at h'

theorem of_inRange {n : ℕ} (hn : n < 2 ^ 31) {w : BitVec 32} (h : InRange (BitVec.ofNat 32 n) w) :
    w.toNat < n ∧ w.msb = false ∧ 0 ≤ w.toInt := by
  obtain ⟨h0, h1⟩ := h
  rw [IntOp.cmpi_sge, show (0#32 : BitVec 32).toInt = 0 from by decide] at h0
  rw [IntOp.cmpi_slt, StableHlo.Predicate.toInt_ofNat_small n hn] at h1
  have hlt : 2 * w.toNat < 2 ^ 32 := BitVec.toInt_pos_iff.1 h0
  have hm : w.msb = false := BitVec.msb_eq_false_iff_two_mul_lt.mpr hlt
  rw [StableHlo.Predicate.toInt_eq_toNat_of_lt (by omega)] at h1
  exact ⟨by exact_mod_cast h1, hm, h0⟩

theorem fun_of_forall_real {ι : Type} {a : ι → EReal} (h : ∀ j, ∃ r : ℝ, a j = (r : EReal)) :
    ∃ f : ι → ℝ, a = fun j => (f j : EReal) :=
  ⟨fun j => (h j).choose, funext fun j => (h j).choose_spec⟩

section Reals
variable {a0 : FVec Ideal S1000000x64 .f32} {a1 a2 a3 : FVec Ideal S500000x64 .f32} {a4 a5 : IVec S16384 32}
  {a6 a7 : FVec Ideal S256x64 .f32} {a8 : FVec Ideal S_ .f32}
  (h : fn (F := Ideal) a0 a1 a2 a3 a4 a5 a6 a7 a8 = fun _ => 1#1)
include h

theorem real0 (j : S1000000x64.Idx) : ∃ r : ℝ, a0 j = (r : EReal) := real_of_belowInf ((split h).1 j)
theorem real1 (j : S500000x64.Idx) : ∃ r : ℝ, a1 j = (r : EReal) := real_of_belowInf ((split h).2.1 j)
theorem real2 (j : S500000x64.Idx) : ∃ r : ℝ, a2 j = (r : EReal) := real_of_belowInf ((split h).2.2.1 j)
theorem real3 (j : S500000x64.Idx) : ∃ r : ℝ, a3 j = (r : EReal) := real_of_belowInf ((split h).2.2.2.1 j)
theorem real6 (j : S256x64.Idx) : ∃ r : ℝ, a6 j = (r : EReal) := real_of_belowInf ((split h).2.2.2.2.1 j)
theorem real7 (j : S256x64.Idx) : ∃ r : ℝ, a7 j = (r : EReal) := real_of_belowInf ((split h).2.2.2.2.2.1 j)
theorem real8 (j : S_.Idx) : ∃ r : ℝ, a8 j = (r : EReal) := real_of_belowInf ((split h).2.2.2.2.2.2.1 j)

theorem reals0 : ∃ f : S1000000x64.Idx → ℝ, a0 = fun j => (f j : EReal) := fun_of_forall_real (real0 h)
theorem reals1 : ∃ f : S500000x64.Idx → ℝ, a1 = fun j => (f j : EReal) := fun_of_forall_real (real1 h)
theorem reals2 : ∃ f : S500000x64.Idx → ℝ, a2 = fun j => (f j : EReal) := fun_of_forall_real (real2 h)
theorem reals3 : ∃ f : S500000x64.Idx → ℝ, a3 = fun j => (f j : EReal) := fun_of_forall_real (real3 h)
theorem reals6 : ∃ f : S256x64.Idx → ℝ, a6 = fun j => (f j : EReal) := fun_of_forall_real (real6 h)
theorem reals7 : ∃ f : S256x64.Idx → ℝ, a7 = fun j => (f j : EReal) := fun_of_forall_real (real7 h)
theorem reals8 : ∃ f : S_.Idx → ℝ, a8 = fun j => (f j : EReal) := fun_of_forall_real (real8 h)

end Reals

section Words
variable {F : FTy → Type} [FloatOps F]
  {a0 : FVec F S1000000x64 .f32} {a1 a2 a3 : FVec F S500000x64 .f32} {a4 a5 : IVec S16384 32}
  {a6 a7 : FVec F S256x64 .f32} {a8 : FVec F S_ .f32}
  (h : fn (F := F) a0 a1 a2 a3 a4 a5 a6 a7 a8 = fun _ => 1#1)
include h

theorem users_range (j : S16384.Idx) : (a4 j).toNat < 1000000 ∧ (a4 j).msb = false ∧ 0 ≤ (a4 j).toInt :=
  of_inRange (n := 1000000) (by decide) ((split h).2.2.2.2.2.2.2.1 j)

theorem items_range (j : S16384.Idx) : (a5 j).toNat < 500000 ∧ (a5 j).msb = false ∧ 0 ≤ (a5 j).toInt :=
  of_inRange (n := 500000) (by decide) ((split h).2.2.2.2.2.2.2.2 j)

theorem users_lt (j : S16384.Idx) : (a4 j).toNat < 1000000 := (users_range h j).1
theorem users_msb (j : S16384.Idx) : (a4 j).msb = false := (users_range h j).2.1
theorem users_nonneg (j : S16384.Idx) : 0 ≤ (a4 j).toInt := (users_range h j).2.2
theorem users_sge (j : S16384.Idx) : IntOp.cmpi .sge (a4 j) 0#32 = 1#1 := ((split h).2.2.2.2.2.2.2.1 j).1
theorem users_slt (j : S16384.Idx) : IntOp.cmpi .slt (a4 j) 1000000#32 = 1#1 := ((split h).2.2.2.2.2.2.2.1 j).2
theorem items_lt (j : S16384.Idx) : (a5 j).toNat < 500000 := (items_range h j).1
theorem items_msb (j : S16384.Idx) : (a5 j).msb = false := (items_range h j).2.1
theorem items_nonneg (j : S16384.Idx) : 0 ≤ (a5 j).toInt := (items_range h j).2.2
theorem items_sge (j : S16384.Idx) : IntOp.cmpi .sge (a5 j) 0#32 = 1#1 := ((split h).2.2.2.2.2.2.2.2 j).1
theorem items_slt (j : S16384.Idx) : IntOp.cmpi .slt (a5 j) 500000#32 = 1#1 := ((split h).2.2.2.2.2.2.2.2 j).2

theorem users_lt_at (i : Fin 16384) : (a4 (ValueIdx.ix1 i)).toNat < 1000000 := users_lt h _
theorem items_lt_at (i : Fin 16384) : (a5 (ValueIdx.ix1 i)).toNat < 500000 := items_lt h _

end Words

end Cert.Pre

end
-- ==== Proof.Val.HostGlue.lean ====
import Idealize.ShloMosaic.Lib.StableHlo.Run
import Idealize.ShloMosaic.Lib.ValueIdx
import Idealize.ShloMosaic.Lib.ValueLayout
import Idealize.ShloMosaic.PureOps.Ideal.Laws
import proofs.«402369_j86406152061536_3_alg».proof.Proof.Gen.KernelIdeal.Launch
import proofs.«402369_j86406152061536_3_alg».proof.Proof.Spec
import proofs.«402369_j86406152061536_3_alg».proof.Proof.Pre

set_option maxRecDepth 16384

noncomputable section

namespace Cert.KernelIdeal.HostGlue

open Idealize.ShloMosaic Idealize.ShloMosaic.TcCoe Idealize.ShloMosaic.ValueIdx Idealize.SL.Sem
open Cert.KernelIdeal Cert.KernelIdeal.Gen

theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

instance : Subsingleton (⟨2, ![1, 1]⟩ : Shape).Idx := ⟨fun p q => funext fun d => Fin.ext (by
  have hp := (p d).isLt; have hq := (q d).isLt
  have hs : (⟨2, ![1, 1]⟩ : Shape).size d = 1 := by fin_cases d <;> rfl
  omega)⟩

theorem shapeCast_11_scalar_apply {α : Type} (x : (⟨2, ![1, 1]⟩ : Shape).Idx → α)
    (h : (⟨2, ![1, 1]⟩ : Shape).ShapeCasts ⟨0, ![]⟩) : shapeCast ⟨0, ![]⟩ x h ValueIdx.ix0 = x (ix2 0 0) := by
  unfold shapeCast; exact congrArg x (Subsingleton.elim _ _)
theorem shapeCast_scalar_11_apply {α : Type} (x : (⟨0, ![]⟩ : Shape).Idx → α)
    (h : (⟨0, ![]⟩ : Shape).ShapeCasts ⟨2, ![1, 1]⟩) (j : (⟨2, ![1, 1]⟩ : Shape).Idx) : shapeCast ⟨2, ![1, 1]⟩ x h j = x ValueIdx.ix0 := by
  unfold shapeCast; exact congrArg x (eq_ix0 _)

variable (W : Valuation τ sig (Elt Ideal))

abbrev lead : Valuation τ sig (Elt Ideal) :=
  StableHlo.after (hostOps0_2 (F := Ideal)) (StableHlo.after (hostOps0_1 (F := Ideal)) (StableHlo.after (hostOps0 (F := Ideal)) W))

theorem hostDivf_apply {s : Shape} (a b : FVec Ideal s .f32) (i : s.Idx) : Host.divf a b i = Ideal.div (a i) (b i) := rfl
theorem hostSqrt_apply {s : Shape} (a : FVec Ideal s .f32) (i : s.Idx) : Host.sqrt a i = Ideal.sqrt (a i) := rfl

def unitRowsT (A : FVec Ideal S256x64 .f32) : FVec Ideal S64x256 .f32 :=
  transpose S64x256 [1, 0] (Host.divf A (broadcastInDim S256x64 ![0, 1] bcast_S256x1_S256x64_0_1
    (maximumf (Host.sqrt (broadcastInDim S256x1 ![0] bcast_S256_S256x1_0
        (Host.reduceAdd (mulf A A) (constant (F := Ideal) S_ .f32 0x00000000#32) reducesTo_S256x64_S256_d1 h_S_)))
      (broadcastInDim S256x1 ![] bcast_S_S256x1 (constant (F := Ideal) S_ .f32 0x2B8CBCCC#32))))) transposes_S256x64_S64x256_1_0

theorem rowSq_apply (A : FVec Ideal S256x64 .f32) (k : Fin 256) :
    Host.reduceAdd (mulf A A) (constant (F := Ideal) S_ .f32 0x00000000#32) reducesTo_S256x64_S256_d1 h_S_ (ix1 k)
      = ∑ e : Fin 64, A (ix2 k e) * A (ix2 k e) := by
  have hR : S256x64.Reduces [1] S256 := by decide
  show Ideal.hostReduceAdd reducesTo_S256x64_S256_d1 (mulf A A) (Ideal.ofBits .f32 0x00000000#32) (ix1 k) = _
  rw [Ideal.hostReduceAdd_single _ hR, Ideal.ofBits_zero_f32, zero_add]
  refine Finset.sum_congr rfl fun e _ => ?_
  have hl : hR.lift (ix1 k) e = ix2 k e := by
    funext c; apply Fin.ext; fin_cases c <;> rfl
  rw [hl]; rfl

theorem unitRowsT_apply (A : FVec Ideal S256x64 .f32) (d : Fin 64) (k : Fin 256) :
    unitRowsT A (ix2 d k) = Cert.Spec.unitRows (fun k' d' => A (ix2 k' d')) k d := by
  unfold unitRowsT
  rw [transpose_ix2_apply, hostDivf_apply,
    broadcastInDim_apply (![0, 1] : Fin 2 → Fin S256x64.rank) bcast_S256x1_S256x64_0_1 _ (ix2 k d) (ix2 k (0 : Fin 1))
      (fun a => by fin_cases a <;> rfl),
    maximumf_apply, hostSqrt_apply,
    broadcastInDim_apply (![0] : Fin 1 → Fin S256x1.rank) bcast_S256_S256x1_0 _ (ix2 k (0 : Fin 1)) (ix1 k)
      (fun a => by fin_cases a; rfl),
    rowSq_apply]
  rfl

theorem v1_fun : (lead W (Proc.devRef .tc main_v1) : S1x1.Idx → EReal)
    = shapeCast S1x1 (minimumf (constant (F := Ideal) S_ .f32 0x3F7D70A4#32)
        (maximumf (constant (F := Ideal) S_ .f32 0x3C23D70A#32) (W (Proc.devRef .tc main_arg8) : S_.Idx → EReal))) shapeCasts_S_S1x1 := by
  after_results; rfl

theorem v18_fun : (lead W (Proc.devRef .tc main_v18) : S64x256.Idx → EReal)
    = unitRowsT (W (Proc.devRef .tc main_arg6) : S256x64.Idx → EReal) := by
  after_results; rfl

theorem v19_fun : (lead W (Proc.devRef .tc main_v19) : S64x256.Idx → EReal)
    = unitRowsT (W (Proc.devRef .tc main_arg7) : S256x64.Idx → EReal) := by
  after_results; rfl

theorem v20_fun : (lead W (Proc.devRef .tc main_v20) : S1000000x1x64.Idx → EReal)
    = shapeCast S1000000x1x64 (W (Proc.devRef .tc main_arg0) : S1000000x64.Idx → EReal) shapeCasts_S1000000x64_S1000000x1x64 := by
  after_results; rfl
theorem v21_fun : (lead W (Proc.devRef .tc main_v21) : S500000x1x64.Idx → EReal)
    = shapeCast S500000x1x64 (W (Proc.devRef .tc main_arg1) : S500000x64.Idx → EReal) shapeCasts_S500000x64_S500000x1x64 := by
  after_results; rfl
theorem v22_fun : (lead W (Proc.devRef .tc main_v22) : S500000x1x64.Idx → EReal)
    = shapeCast S500000x1x64 (W (Proc.devRef .tc main_arg2) : S500000x64.Idx → EReal) shapeCasts_S500000x64_S500000x1x64 := by
  after_results; rfl
theorem v23_fun : (lead W (Proc.devRef .tc main_v23) : S500000x1x64.Idx → EReal)
    = shapeCast S500000x1x64 (W (Proc.devRef .tc main_arg3) : S500000x64.Idx → EReal) shapeCasts_S500000x64_S500000x1x64 := by
  after_results; rfl

theorem arg0_lead : lead W (Proc.devRef .tc main_arg0) = W (Proc.devRef .tc main_arg0) := by after_results
theorem arg1_lead : lead W (Proc.devRef .tc main_arg1) = W (Proc.devRef .tc main_arg1) := by after_results
theorem arg2_lead : lead W (Proc.devRef .tc main_arg2) = W (Proc.devRef .tc main_arg2) := by after_results
theorem arg3_lead : lead W (Proc.devRef .tc main_arg3) = W (Proc.devRef .tc main_arg3) := by after_results
theorem arg4_lead : lead W (Proc.devRef .tc main_arg4) = W (Proc.devRef .tc main_arg4) := by after_results
theorem arg5_lead : lead W (Proc.devRef .tc main_arg5) = W (Proc.devRef .tc main_arg5) := by after_results
theorem arg6_lead : lead W (Proc.devRef .tc main_arg6) = W (Proc.devRef .tc main_arg6) := by after_results
theorem arg7_lead : lead W (Proc.devRef .tc main_arg7) = W (Proc.devRef .tc main_arg7) := by after_results
theorem arg8_lead : lead W (Proc.devRef .tc main_arg8) = W (Proc.devRef .tc main_arg8) := by after_results

theorem v1_apply (j : S1x1.Idx) : (lead W (Proc.devRef .tc main_v1) : S1x1.Idx → EReal) j
    = Cert.Spec.clampTemp ((W (Proc.devRef .tc main_arg8) : S_.Idx → EReal) ValueIdx.ix0) := by
  rw [v1_fun, shapeCast_scalar_11_apply]; rfl

theorem v18_apply (d : Fin 64) (k : Fin 256) : (lead W (Proc.devRef .tc main_v18) : S64x256.Idx → EReal) (ix2 d k)
    = Cert.Spec.unitRows (fun k' d' => (W (Proc.devRef .tc main_arg6) : S256x64.Idx → EReal) (ix2 k' d')) k d := by
  rw [v18_fun]; exact unitRowsT_apply _ d k
theorem v19_apply (d : Fin 64) (k : Fin 256) : (lead W (Proc.devRef .tc main_v19) : S64x256.Idx → EReal) (ix2 d k)
    = Cert.Spec.unitRows (fun k' d' => (W (Proc.devRef .tc main_arg7) : S256x64.Idx → EReal) (ix2 k' d')) k d := by
  rw [v19_fun]; exact unitRowsT_apply _ d k

theorem v20_apply (r : Fin 1000000) (u : Fin 1) (d : Fin 64) :
    (lead W (Proc.devRef .tc main_v20) : S1000000x1x64.Idx → EReal) (ix3 r u d)
      = (W (Proc.devRef .tc main_arg0) : S1000000x64.Idx → EReal) (ix2 r d) := by
  rw [v20_fun]; exact shapeCast_ab_a1b_apply _ _ r u d
theorem v21_apply (r : Fin 500000) (u : Fin 1) (d : Fin 64) :
    (lead W (Proc.devRef .tc main_v21) : S500000x1x64.Idx → EReal) (ix3 r u d)
      = (W (Proc.devRef .tc main_arg1) : S500000x64.Idx → EReal) (ix2 r d) := by
  rw [v21_fun]; exact shapeCast_ab_a1b_apply _ _ r u d
theorem v22_apply (r : Fin 500000) (u : Fin 1) (d : Fin 64) :
    (lead W (Proc.devRef .tc main_v22) : S500000x1x64.Idx → EReal) (ix3 r u d)
      = (W (Proc.devRef .tc main_arg2) : S500000x64.Idx → EReal) (ix2 r d) := by
  rw [v22_fun]; exact shapeCast_ab_a1b_apply _ _ r u d
theorem v23_apply (r : Fin 500000) (u : Fin 1) (d : Fin 64) :
    (lead W (Proc.devRef .tc main_v23) : S500000x1x64.Idx → EReal) (ix3 r u d)
      = (W (Proc.devRef .tc main_arg3) : S500000x64.Idx → EReal) (ix2 r d) := by
  rw [v23_fun]; exact shapeCast_ab_a1b_apply _ _ r u d

theorem v25_fun : (StableHlo.after (hostOps1 (F := Ideal)) W (Proc.devRef .tc main_v25) : S16384x64.Idx → EReal)
    = shapeCast S16384x64 (W (Proc.devRef .tc main_v24_0) : S16384x1x64.Idx → EReal) shapeCasts_S16384x1x64_S16384x64 := by
  after_results; rfl
theorem v25_apply (b : Fin 16384) (d : Fin 64) :
    (StableHlo.after (hostOps1 (F := Ideal)) W (Proc.devRef .tc main_v25) : S16384x64.Idx → EReal) (ix2 b d)
      = (W (Proc.devRef .tc main_v24_0) : S16384x1x64.Idx → EReal) (ix3 b (0 : Fin 1) d) := by
  rw [v25_fun]; exact shapeCast_a1b_ab_apply _ _ b d
theorem v26_fun : (StableHlo.after (hostOps1 (F := Ideal)) W (Proc.devRef .tc main_v26) : S16384x64.Idx → EReal)
    = shapeCast S16384x64 (W (Proc.devRef .tc main_v24_1) : S16384x1x64.Idx → EReal) shapeCasts_S16384x1x64_S16384x64 := by
  after_results; rfl
theorem v26_apply (b : Fin 16384) (d : Fin 64) :
    (StableHlo.after (hostOps1 (F := Ideal)) W (Proc.devRef .tc main_v26) : S16384x64.Idx → EReal) (ix2 b d)
      = (W (Proc.devRef .tc main_v24_1) : S16384x1x64.Idx → EReal) (ix3 b (0 : Fin 1) d) := by
  rw [v26_fun]; exact shapeCast_a1b_ab_apply _ _ b d
theorem v27_fun : (StableHlo.after (hostOps1 (F := Ideal)) W (Proc.devRef .tc main_v27) : S16384x64.Idx → EReal)
    = shapeCast S16384x64 (W (Proc.devRef .tc main_v24_2) : S16384x1x64.Idx → EReal) shapeCasts_S16384x1x64_S16384x64 := by
  after_results; rfl
theorem v27_apply (b : Fin 16384) (d : Fin 64) :
    (StableHlo.after (hostOps1 (F := Ideal)) W (Proc.devRef .tc main_v27) : S16384x64.Idx → EReal) (ix2 b d)
      = (W (Proc.devRef .tc main_v24_2) : S16384x1x64.Idx → EReal) (ix3 b (0 : Fin 1) d) := by
  rw [v27_fun]; exact shapeCast_a1b_ab_apply _ _ b d
theorem v28_fun : (StableHlo.after (hostOps1 (F := Ideal)) W (Proc.devRef .tc main_v28) : S16384x64.Idx → EReal)
    = shapeCast S16384x64 (W (Proc.devRef .tc main_v24_3) : S16384x1x64.Idx → EReal) shapeCasts_S16384x1x64_S16384x64 := by
  after_results; rfl
theorem v28_apply (b : Fin 16384) (d : Fin 64) :
    (StableHlo.after (hostOps1 (F := Ideal)) W (Proc.devRef .tc main_v28) : S16384x64.Idx → EReal) (ix2 b d)
      = (W (Proc.devRef .tc main_v24_3) : S16384x1x64.Idx → EReal) (ix3 b (0 : Fin 1) d) := by
  rw [v28_fun]; exact shapeCast_a1b_ab_apply _ _ b d

theorem v40_fun : (StableHlo.after (hostOps12 (F := Ideal)) W (Proc.devRef .tc main_v40) : S_.Idx → EReal)
    = shapeCast S_ (W (Proc.devRef .tc main_v39) : S1x1.Idx → EReal) shapeCasts_S1x1_S_ := by
  after_results; rfl
theorem v40_apply : (StableHlo.after (hostOps12 (F := Ideal)) W (Proc.devRef .tc main_v40) : S_.Idx → EReal) ValueIdx.ix0
    = (W (Proc.devRef .tc main_v39) : S1x1.Idx → EReal) (ix2 0 0) := by
  rw [v40_fun]; exact shapeCast_11_scalar_apply _ _
theorem v42_fun : (StableHlo.after (hostOps13 (F := Ideal)) W (Proc.devRef .tc main_v42) : S_.Idx → EReal)
    = shapeCast S_ (W (Proc.devRef .tc main_v41) : S1x1.Idx → EReal) shapeCasts_S1x1_S_ := by
  after_results; rfl
theorem v42_apply : (StableHlo.after (hostOps13 (F := Ideal)) W (Proc.devRef .tc main_v42) : S_.Idx → EReal) ValueIdx.ix0
    = (W (Proc.devRef .tc main_v41) : S1x1.Idx → EReal) (ix2 0 0) := by
  rw [v42_fun]; exact shapeCast_11_scalar_apply _ _
theorem v44_fun : (StableHlo.after (hostOps14 (F := Ideal)) W (Proc.devRef .tc main_v44) : S_.Idx → EReal)
    = shapeCast S_ (W (Proc.devRef .tc main_v43) : S1x1.Idx → EReal) shapeCasts_S1x1_S_ := by
  after_results; rfl
theorem v44_apply : (StableHlo.after (hostOps14 (F := Ideal)) W (Proc.devRef .tc main_v44) : S_.Idx → EReal) ValueIdx.ix0
    = (W (Proc.devRef .tc main_v43) : S1x1.Idx → EReal) (ix2 0 0) := by
  rw [v44_fun]; exact shapeCast_11_scalar_apply _ _
theorem v46_fun : (StableHlo.after (hostOps15 (F := Ideal)) W (Proc.devRef .tc main_v46) : S_.Idx → EReal)
    = shapeCast S_ (W (Proc.devRef .tc main_v45) : S1x1.Idx → EReal) shapeCasts_S1x1_S_ := by
  after_results; rfl
theorem v46_apply : (StableHlo.after (hostOps15 (F := Ideal)) W (Proc.devRef .tc main_v46) : S_.Idx → EReal) ValueIdx.ix0
    = (W (Proc.devRef .tc main_v45) : S1x1.Idx → EReal) (ix2 0 0) := by
  rw [v46_fun]; exact shapeCast_11_scalar_apply _ _
theorem v48_fun : (StableHlo.after (hostOps16 (F := Ideal)) W (Proc.devRef .tc main_v48) : S_.Idx → EReal)
    = shapeCast S_ (W (Proc.devRef .tc main_v47) : S1x1.Idx → EReal) shapeCasts_S1x1_S_ := by
  after_results; rfl
theorem v48_apply : (StableHlo.after (hostOps16 (F := Ideal)) W (Proc.devRef .tc main_v48) : S_.Idx → EReal) ValueIdx.ix0
    = (W (Proc.devRef .tc main_v47) : S1x1.Idx → EReal) (ix2 0 0) := by
  rw [v48_fun]; exact shapeCast_11_scalar_apply _ _
theorem v50_fun : (StableHlo.after (hostOps17 (F := Ideal)) W (Proc.devRef .tc main_v50) : S_.Idx → EReal)
    = shapeCast S_ (W (Proc.devRef .tc main_v49) : S1x1.Idx → EReal) shapeCasts_S1x1_S_ := by
  after_results; rfl
theorem v50_apply : (StableHlo.after (hostOps17 (F := Ideal)) W (Proc.devRef .tc main_v50) : S_.Idx → EReal) ValueIdx.ix0
    = (W (Proc.devRef .tc main_v49) : S1x1.Idx → EReal) (ix2 0 0) := by
  rw [v50_fun]; exact shapeCast_11_scalar_apply _ _
theorem v52_fun : (StableHlo.after (hostOps18 (F := Ideal)) W (Proc.devRef .tc main_v52) : S_.Idx → EReal)
    = shapeCast S_ (W (Proc.devRef .tc main_v51) : S1x1.Idx → EReal) shapeCasts_S1x1_S_ := by
  after_results; rfl
theorem v52_apply : (StableHlo.after (hostOps18 (F := Ideal)) W (Proc.devRef .tc main_v52) : S_.Idx → EReal) ValueIdx.ix0
    = (W (Proc.devRef .tc main_v51) : S1x1.Idx → EReal) (ix2 0 0) := by
  rw [v52_fun]; exact shapeCast_11_scalar_apply _ _
theorem v54_fun : (StableHlo.after (hostOps19 (F := Ideal)) W (Proc.devRef .tc main_v54) : S_.Idx → EReal)
    = shapeCast S_ (W (Proc.devRef .tc main_v53) : S1x1.Idx → EReal) shapeCasts_S1x1_S_ := by
  after_results; rfl
theorem v54_apply : (StableHlo.after (hostOps19 (F := Ideal)) W (Proc.devRef .tc main_v54) : S_.Idx → EReal) ValueIdx.ix0
    = (W (Proc.devRef .tc main_v53) : S1x1.Idx → EReal) (ix2 0 0) := by
  rw [v54_fun]; exact shapeCast_11_scalar_apply _ _

abbrev rd0 (x : S_.Idx → EReal) : EReal := x ValueIdx.ix0
abbrev rd11 (x : S1x1.Idx → EReal) : EReal := x (ix2 0 0)

theorem ofBits_two_f32 : Ideal.ofBits .f32 0x40000000#32 = 2 := by
  rw [show (2 : EReal) = ((2 : ℝ) : EReal) by norm_cast]
  simp [Ideal.ofBits, Ideal.ieee, -EReal.coe_mul]; norm_num
theorem ofBits_six_f32 : Ideal.ofBits .f32 0x40C00000#32 = 6 := by
  rw [show (6 : EReal) = ((6 : ℝ) : EReal) by norm_cast]
  simp [Ideal.ofBits, Ideal.ieee, -EReal.coe_mul]; norm_num

def combine (t1 t2 t3 t4 t5 t6 t7 : FVec Ideal S_ .f32) (t8 : FVec Ideal S1x1 .f32) : FVec Ideal S_ .f32 :=
  addf (Host.divf (addf t1 t2) (constant (F := Ideal) S_ .f32 0x40000000#32))
    (Host.divf (addf (addf (addf (addf (addf t3 t4) t5) t6) t7) (shapeCast S_ t8 shapeCasts_S1x1_S_))
      (constant (F := Ideal) S_ .f32 0x40C00000#32))

theorem combine_apply (t1 t2 t3 t4 t5 t6 t7 : FVec Ideal S_ .f32) (t8 : FVec Ideal S1x1 .f32) :
    combine t1 t2 t3 t4 t5 t6 t7 t8 ValueIdx.ix0
      = Ideal.div (rd0 t1 + rd0 t2) 2 + Ideal.div (((((rd0 t3 + rd0 t4) + rd0 t5) + rd0 t6) + rd0 t7) + rd11 t8) 6 := by
  unfold combine
  simp only [addf_apply, hostDivf_apply, constant_apply, shapeCast_11_scalar_apply, ofBits_two_f32, ofBits_six_f32]

set_option maxHeartbeats 4000000 in
theorem v63_fun : (StableHlo.after (hostOps19 (F := Ideal)) W (Proc.devRef .tc main_v63) : S_.Idx → EReal)
    = combine (W (Proc.devRef .tc main_v40)) (W (Proc.devRef .tc main_v42)) (W (Proc.devRef .tc main_v44))
        (W (Proc.devRef .tc main_v46)) (W (Proc.devRef .tc main_v48)) (W (Proc.devRef .tc main_v50))
        (W (Proc.devRef .tc main_v52)) (W (Proc.devRef .tc main_v53)) := by
  after_results; rfl

theorem v63_apply : rd0 (StableHlo.after (hostOps19 (F := Ideal)) W (Proc.devRef .tc main_v63))
    = Ideal.div (rd0 (W (Proc.devRef .tc main_v40)) + rd0 (W (Proc.devRef .tc main_v42))) 2
      + Ideal.div (((((rd0 (W (Proc.devRef .tc main_v44)) + rd0 (W (Proc.devRef .tc main_v46)))
          + rd0 (W (Proc.devRef .tc main_v48))) + rd0 (W (Proc.devRef .tc main_v50)))
          + rd0 (W (Proc.devRef .tc main_v52))) + rd11 (W (Proc.devRef .tc main_v53))) 6 := by
  show (StableHlo.after (hostOps19 (F := Ideal)) W (Proc.devRef .tc main_v63) : S_.Idx → EReal) ValueIdx.ix0 = _
  rw [v63_fun]; exact combine_apply _ _ _ _ _ _ _ _

theorem v40_last : StableHlo.after (hostOps19 (F := Ideal)) W (Proc.devRef .tc main_v40) = W (Proc.devRef .tc main_v40) := by after_results
theorem v42_last : StableHlo.after (hostOps19 (F := Ideal)) W (Proc.devRef .tc main_v42) = W (Proc.devRef .tc main_v42) := by after_results
theorem v44_last : StableHlo.after (hostOps19 (F := Ideal)) W (Proc.devRef .tc main_v44) = W (Proc.devRef .tc main_v44) := by after_results
theorem v46_last : StableHlo.after (hostOps19 (F := Ideal)) W (Proc.devRef .tc main_v46) = W (Proc.devRef .tc main_v46) := by after_results
theorem v48_last : StableHlo.after (hostOps19 (F := Ideal)) W (Proc.devRef .tc main_v48) = W (Proc.devRef .tc main_v48) := by after_results
theorem v50_last : StableHlo.after (hostOps19 (F := Ideal)) W (Proc.devRef .tc main_v50) = W (Proc.devRef .tc main_v50) := by after_results
theorem v52_last : StableHlo.after (hostOps19 (F := Ideal)) W (Proc.devRef .tc main_v52) = W (Proc.devRef .tc main_v52) := by after_results

end Cert.KernelIdeal.HostGlue

end
-- ==== Proof.Val.ProjPay.lean ====
import proofs.«402369_j86406152061536_3_alg».proof.Proof.Gen.KernelIdeal
import Idealize.ShloMosaic.PureOps.Ideal.Laws
import Idealize.ShloMosaic.Lib.Pipeline.Value
import Idealize.ShloMosaic.Lib.ValueIdx

noncomputable section

namespace Cert.KernelIdeal.Val

open Cert.KernelIdeal Cert.KernelIdeal.Gen
open Idealize.ShloMosaic Idealize.ShloMosaic.ValueIdx

theorem lhs_rows_0 (i : S4096x256.Idx) (q : dot_S4096x64_S64x256_S4096x256_1_0_0_1_n_n.contr.Idx) :
    (dot_S4096x64_S64x256_S4096x256_1_0_0_1_n_n.lhsIdx i q 0).val = (i 0).val := by
  unfold DotDims.lhsIdx
  rw [dif_neg (show ¬(0 : Fin S4096x64.rank) ∈ dot_S4096x64_S64x256_S4096x256_1_0_0_1_n_n.lhsBatch by decide),
    dif_pos (show (0 : Fin S4096x64.rank) ∈ dot_S4096x64_S64x256_S4096x256_1_0_0_1_n_n.lhsNonContracting by decide)]
  rfl

theorem lhs_rows_1 (i : S4096x256.Idx) (q : dot_S4096x64_S64x256_S4096x256_1_0_0_1_n_n.contr.Idx) :
    (dot_S4096x64_S64x256_S4096x256_1_0_0_1_n_n.lhsIdx i q 1).val = (q ⟨0, by decide⟩).val :=
  dot_S4096x64_S64x256_S4096x256_1_0_0_1_n_n.lhsIdx_val_of_single rfl i q

theorem rhs_rows_0 (i : S4096x256.Idx) (q : dot_S4096x64_S64x256_S4096x256_1_0_0_1_n_n.contr.Idx) :
    (dot_S4096x64_S64x256_S4096x256_1_0_0_1_n_n.rhsIdx i q 0).val = (q ⟨0, by decide⟩).val :=
  dot_S4096x64_S64x256_S4096x256_1_0_0_1_n_n.rhsIdx_val_of_single rfl i q

theorem rhs_rows_1 (i : S4096x256.Idx) (q : dot_S4096x64_S64x256_S4096x256_1_0_0_1_n_n.contr.Idx) :
    (dot_S4096x64_S64x256_S4096x256_1_0_0_1_n_n.rhsIdx i q 1).val = (i 1).val := by
  unfold DotDims.rhsIdx
  rw [dif_neg (show ¬(1 : Fin S64x256.rank) ∈ dot_S4096x64_S64x256_S4096x256_1_0_0_1_n_n.rhsBatch by decide),
    dif_pos (show (1 : Fin S64x256.rank) ∈ dot_S4096x64_S64x256_S4096x256_1_0_0_1_n_n.rhsNonContracting by decide)]
  rfl

theorem prod_rows_at (x : FVec Ideal S4096x64 .f32) (w : FVec Ideal S64x256 .f32)
    (h0 : S4096x64.ShapeCasts S4096x64) (h1 : S64x256.ShapeCasts S64x256) (r : Fin 4096) (k : Fin 256) :
    matmul (F := Ideal) dot_S4096x64_S64x256_S4096x256_1_0_0_1_n_n (some .fp32) (shapeCast S4096x64 x h0) (shapeCast S64x256 w h1)
        (constant (F := Ideal) S4096x256 .f32 0x00000000#32) (ix2 r k)
      = ∑ d : Fin 64, x (ix2 r d) * w (ix2 d k) := by
  rw [shapeCast_self, shapeCast_self]
  simp only [matmul]
  rw [Ideal.matmul_constant_zero_apply,
    ← Equiv.sum_comp (ValueIdx.contrEquiv1 dot_S4096x64_S64x256_S4096x256_1_0_0_1_n_n 64 rfl rfl).symm]
  refine Finset.sum_congr rfl fun d _ => ?_
  have hd := ValueIdx.contrEquiv1_symm_val dot_S4096x64_S64x256_S4096x256_1_0_0_1_n_n 64 rfl rfl d
  have el : dot_S4096x64_S64x256_S4096x256_1_0_0_1_n_n.lhsIdx (ix2 r k) ((ValueIdx.contrEquiv1 dot_S4096x64_S64x256_S4096x256_1_0_0_1_n_n 64 rfl rfl).symm d) = ix2 r d :=
    funext fun a => Fin.ext (by
      match a with
      | ⟨0, _⟩ => exact lhs_rows_0 _ _
      | ⟨1, _⟩ => exact (lhs_rows_1 _ _).trans hd)
  have er : dot_S4096x64_S64x256_S4096x256_1_0_0_1_n_n.rhsIdx (ix2 r k) ((ValueIdx.contrEquiv1 dot_S4096x64_S64x256_S4096x256_1_0_0_1_n_n 64 rfl rfl).symm d) = ix2 d k :=
    funext fun a => Fin.ext (by
      match a with
      | ⟨0, _⟩ => exact (rhs_rows_0 _ _).trans hd
      | ⟨1, _⟩ => exact rhs_rows_1 _ _)
  rw [el, er]

def prodArr (X : FVec Ideal S16384x64 .f32) (W : FVec Ideal S64x256 .f32) : FVec Ideal S16384x256 .f32 :=
  fun i => ∑ d : Fin 64, X (ix2 (i 0) d) * W (ix2 d (i 1))

theorem prodArr_apply (X : FVec Ideal S16384x64 .f32) (W : FVec Ideal S64x256 .f32) (b : Fin 16384) (k : Fin 256) :
    prodArr X W (ix2 b k) = ∑ d : Fin 64, X (ix2 b d) * W (ix2 d k) := rfl

theorem origin2 : (![0, 0] : Fin 2 → Nat) = fun _ => 0 := funext fun a => by fin_cases a <;> rfl

end Cert.KernelIdeal.Val

end
-- ==== Proof.Val.Proj1.lean ====
import proofs.«402369_j86406152061536_3_alg».proof.Proof.KI.Reg1
import proofs.«402369_j86406152061536_3_alg».proof.Proof.Val.ProjPay
import proofs.«402369_j86406152061536_3_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

abbrev xarr1 (c : Dev nD) : FVec Ideal S16384x64 .f32 := V c main_v25
abbrev warr1 (c : Dev nD) : FVec Ideal S64x256 .f32 := V c main_v18

theorem pay_at1 (x : FVec Ideal S4096x64 .f32) (w : FVec Ideal S64x256 .f32) (r : Fin 4096) (k : Fin 256) :
    k1_pay1 (F := Ideal) x w (ix2 r k) = ∑ d : Fin 64, x (ix2 r d) * w (ix2 d k) := by
  unfold k1_pay1
  exact prod_rows_at x w _ _ r k

theorem blk_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem flushed_prod1 (c : Dev nD) (t : Fin cfg1.N) :
    (dat1 (F := Ideal) V c).flushed 2 t
      = ((cfg1.win 2).blk t).view.read (Elt Ideal) (prodArr (xarr1 V c) (warr1 V c)) := by
  show (cfg1.win 2).cut (grid1.coords t) ((dat1 (F := Ideal) V c).after 2 t) = _
  rw [after1_2]
  unfold out1_2
  rw [View.canon_unit_zero origin2]
  simp only [View.ld_unit_zero (S := S4096x64) origin2, View.ld_unit_zero (S := S64x256) origin2]
  obtain ⟨e00, e01, e10, e11, e20, e21⟩ := blk_facts1 t
  funext j
  obtain ⟨r, k, rfl⟩ : ∃ (r : Fin 4096) (k : Fin 256), j = ix2 r k := ⟨j 0, j 1, eq_ix2 j⟩
  refine (pay_at1 (iblk1 V c 0 t) (iblk1 V c 1 t) r k).trans ?_
  show _ = ∑ d : Fin 64, xarr1 V c (ix2 ((((cfg1.win 2).blk t).view.emb (ix2 r k)) 0) d)
      * warr1 V c (ix2 d ((((cfg1.win 2).blk t).view.emb (ix2 r k)) 1))
  refine Finset.sum_congr rfl fun d _ => ?_
  have hx : iblk1 V c 0 t (ix2 r d) = xarr1 V c (ix2 ((((cfg1.win 2).blk t).view.emb (ix2 r k)) 0) d) := by
    show V c main_v25 (((cfg1.win 0).blk t).view.emb (ix2 r d)) = V c main_v25 _
    refine congrArg _ (funext fun a => Fin.ext ?_)
    match a with
    | ⟨0, _⟩ =>
      show win1_0.index t (0 : Fin 2) * 4096 + 1 * r.val = win1_2.index t (0 : Fin 2) * 4096 + 1 * r.val
      omega
    | ⟨1, _⟩ =>
      show win1_0.index t (1 : Fin 2) * 64 + 1 * d.val = d.val
      omega
  have hw : iblk1 V c 1 t (ix2 d k) = warr1 V c (ix2 d ((((cfg1.win 2).blk t).view.emb (ix2 r k)) 1)) := by
    show V c main_v18 (((cfg1.win 1).blk t).view.emb (ix2 d k)) = V c main_v18 _
    refine congrArg _ (funext fun a => Fin.ext ?_)
    match a with
    | ⟨0, _⟩ =>
      show win1_1.index t (0 : Fin 2) * 64 + 1 * d.val = d.val
      omega
    | ⟨1, _⟩ =>
      show win1_1.index t (1 : Fin 2) * 256 + 1 * k.val = win1_2.index t (1 : Fin 2) * 256 + 1 * k.val
      omega
  rw [hx, hw]

theorem mem_blk1 (t : Fin cfg1.N) (i : S16384x256.Idx) :
    i ∈ ((cfg1.win 2).blk t).view.set ↔ ∀ a : Fin 2, win1_2.index t a * S4096x256.size a ≤ (i a).val
      ∧ (i a).val < win1_2.index t a * S4096x256.size a + S4096x256.size a := by
  show i ∈ ((View.whole main_v29).slice (win1_2.rect t)).set ↔ _
  rw [View.set_slice_whole, Rect.mem_set_unit]
  exact Iff.rfl

theorem cover_rows1 (i : S16384x256.Idx) :
    ∃ t : Fin cfg1.N, (cfg1.win 2).flush t = true ∧ i ∈ ((cfg1.win 2).blk t).view.set := by
  have hi0 : (i 0).val < 16384 := (i 0).isLt
  have hi1 : (i 1).val < 256 := (i 1).isLt
  have hN : (i 0).val / 4096 < cfg1.N := by rw [show cfg1.N = 4 from N_1]; omega
  obtain ⟨-, -, -, -, e20, e21⟩ := blk_facts1 ⟨(i 0).val / 4096, hN⟩
  refine ⟨⟨(i 0).val / 4096, hN⟩, flush1_2 _, ?_⟩
  rw [mem_blk1]
  intro a
  match a with
  | ⟨0, _⟩ =>
    show win1_2.index ⟨(i 0).val / 4096, hN⟩ (0 : Fin 2) * 4096 ≤ (i 0).val
      ∧ (i 0).val < win1_2.index ⟨(i 0).val / 4096, hN⟩ (0 : Fin 2) * 4096 + 4096
    rw [e20]
    show (i 0).val / 4096 * 4096 ≤ (i 0).val ∧ (i 0).val < (i 0).val / 4096 * 4096 + 4096
    omega
  | ⟨1, _⟩ =>
    show win1_2.index ⟨(i 0).val / 4096, hN⟩ (1 : Fin 2) * 256 ≤ (i 1).val
      ∧ (i 1).val < win1_2.index ⟨(i 0).val / 4096, hN⟩ (1 : Fin 2) * 256 + 256
    rw [e21]
    omega

theorem arr_prod1 (c : Dev nD) :
    (dat1 (F := Ideal) V c).arrAt 2 cfg1.N = prodArr (xarr1 V c) (warr1 V c) :=
  (dat1 (F := Ideal) V c).arrAt_eq_of_cover 2 (prodArr (xarr1 V c) (warr1 V c))
    (fun t _ => flushed_prod1 V c t) (fun i => cover_rows1 i)

theorem proj_arr1 (c : Dev nD) (b : Fin 16384) (k : Fin 256) :
    (dat1 (F := Ideal) V c).arrAt 2 cfg1.N (ValueIdx.ix2 b k)
      = Cert.Spec.proj (fun b d => V c main_v25 (ix2 b d)) (fun k d => V c main_v18 (ix2 d k)) b k := by
  rw [arr_prod1]
  rfl

end Cert.KernelIdeal.Val

end
-- ==== Proof.Val.Proj2.lean ====
import proofs.«402369_j86406152061536_3_alg».proof.Proof.KI.Reg2
import proofs.«402369_j86406152061536_3_alg».proof.Proof.Val.Proj1
import proofs.«402369_j86406152061536_3_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

abbrev xarr2 (c : Dev nD) : FVec Ideal S16384x64 .f32 := V c main_v26
abbrev warr2 (c : Dev nD) : FVec Ideal S64x256 .f32 := V c main_v18

theorem pay_at2 (x : FVec Ideal S4096x64 .f32) (w : FVec Ideal S64x256 .f32) (r : Fin 4096) (k : Fin 256) :
    k2_pay1 (F := Ideal) x w (ix2 r k) = ∑ d : Fin 64, x (ix2 r d) * w (ix2 d k) :=
  pay_at1 x w r k

theorem blk_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem flushed_prod2 (c : Dev nD) (t : Fin cfg2.N) :
    (dat2 (F := Ideal) V c).flushed 2 t
      = ((cfg2.win 2).blk t).view.read (Elt Ideal) (prodArr (xarr2 V c) (warr2 V c)) := by
  show (cfg2.win 2).cut (grid2.coords t) ((dat2 (F := Ideal) V c).after 2 t) = _
  rw [after2_2]
  unfold out2_2
  rw [View.canon_unit_zero origin2]
  simp only [View.ld_unit_zero (S := S4096x64) origin2, View.ld_unit_zero (S := S64x256) origin2]
  obtain ⟨e00, e01, e10, e11, e20, e21⟩ := blk_facts2 t
  funext j
  obtain ⟨r, k, rfl⟩ : ∃ (r : Fin 4096) (k : Fin 256), j = ix2 r k := ⟨j 0, j 1, eq_ix2 j⟩
  refine (pay_at2 (iblk2 V c 0 t) (iblk2 V c 1 t) r k).trans ?_
  show _ = ∑ d : Fin 64, xarr2 V c (ix2 ((((cfg2.win 2).blk t).view.emb (ix2 r k)) 0) d)
      * warr2 V c (ix2 d ((((cfg2.win 2).blk t).view.emb (ix2 r k)) 1))
  refine Finset.sum_congr rfl fun d _ => ?_
  have hx : iblk2 V c 0 t (ix2 r d) = xarr2 V c (ix2 ((((cfg2.win 2).blk t).view.emb (ix2 r k)) 0) d) := by
    show V c main_v26 (((cfg2.win 0).blk t).view.emb (ix2 r d)) = V c main_v26 _
    refine congrArg _ (funext fun a => Fin.ext ?_)
    match a with
    | ⟨0, _⟩ =>
      show win2_0.index t (0 : Fin 2) * 4096 + 1 * r.val = win2_2.index t (0 : Fin 2) * 4096 + 1 * r.val
      omega
    | ⟨1, _⟩ =>
      show win2_0.index t (1 : Fin 2) * 64 + 1 * d.val = d.val
      omega
  have hw : iblk2 V c 1 t (ix2 d k) = warr2 V c (ix2 d ((((cfg2.win 2).blk t).view.emb (ix2 r k)) 1)) := by
    show V c main_v18 (((cfg2.win 1).blk t).view.emb (ix2 d k)) = V c main_v18 _
    refine congrArg _ (funext fun a => Fin.ext ?_)
    match a with
    | ⟨0, _⟩ =>
      show win2_1.index t (0 : Fin 2) * 64 + 1 * d.val = d.val
      omega
    | ⟨1, _⟩ =>
      show win2_1.index t (1 : Fin 2) * 256 + 1 * k.val = win2_2.index t (1 : Fin 2) * 256 + 1 * k.val
      omega
  rw [hx, hw]

theorem mem_blk2 (t : Fin cfg2.N) (i : S16384x256.Idx) :
    i ∈ ((cfg2.win 2).blk t).view.set ↔ ∀ a : Fin 2, win2_2.index t a * S4096x256.size a ≤ (i a).val
      ∧ (i a).val < win2_2.index t a * S4096x256.size a + S4096x256.size a := by
  show i ∈ ((View.whole main_v30).slice (win2_2.rect t)).set ↔ _
  rw [View.set_slice_whole, Rect.mem_set_unit]
  exact Iff.rfl

theorem cover_rows2 (i : S16384x256.Idx) :
    ∃ t : Fin cfg2.N, (cfg2.win 2).flush t = true ∧ i ∈ ((cfg2.win 2).blk t).view.set := by
  have hi0 : (i 0).val < 16384 := (i 0).isLt
  have hi1 : (i 1).val < 256 := (i 1).isLt
  have hN : (i 0).val / 4096 < cfg2.N := by rw [show cfg2.N = 4 from N_2]; omega
  obtain ⟨-, -, -, -, e20, e21⟩ := blk_facts2 ⟨(i 0).val / 4096, hN⟩
  refine ⟨⟨(i 0).val / 4096, hN⟩, flush2_2 _, ?_⟩
  rw [mem_blk2]
  intro a
  match a with
  | ⟨0, _⟩ =>
    show win2_2.index ⟨(i 0).val / 4096, hN⟩ (0 : Fin 2) * 4096 ≤ (i 0).val
      ∧ (i 0).val < win2_2.index ⟨(i 0).val / 4096, hN⟩ (0 : Fin 2) * 4096 + 4096
    rw [e20]
    show (i 0).val / 4096 * 4096 ≤ (i 0).val ∧ (i 0).val < (i 0).val / 4096 * 4096 + 4096
    omega
  | ⟨1, _⟩ =>
    show win2_2.index ⟨(i 0).val / 4096, hN⟩ (1 : Fin 2) * 256 ≤ (i 1).val
      ∧ (i 1).val < win2_2.index ⟨(i 0).val / 4096, hN⟩ (1 : Fin 2) * 256 + 256
    rw [e21]
    omega

theorem arr_prod2 (c : Dev nD) :
    (dat2 (F := Ideal) V c).arrAt 2 cfg2.N = prodArr (xarr2 V c) (warr2 V c) :=
  (dat2 (F := Ideal) V c).arrAt_eq_of_cover 2 (prodArr (xarr2 V c) (warr2 V c))
    (fun t _ => flushed_prod2 V c t) (fun i => cover_rows2 i)

theorem proj_arr2 (c : Dev nD) (b : Fin 16384) (k : Fin 256) :
    (dat2 (F := Ideal) V c).arrAt 2 cfg2.N (ValueIdx.ix2 b k)
      = Cert.Spec.proj (fun b d => V c main_v26 (ix2 b d)) (fun k d => V c main_v18 (ix2 d k)) b k := by
  rw [arr_prod2]
  rfl

end Cert.KernelIdeal.Val

end
-- ==== Proof.Val.Proj3.lean ====
import proofs.«402369_j86406152061536_3_alg».proof.Proof.KI.Reg3
import proofs.«402369_j86406152061536_3_alg».proof.Proof.Val.Proj1
import proofs.«402369_j86406152061536_3_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

abbrev xarr3 (c : Dev nD) : FVec Ideal S16384x64 .f32 := V c main_v26
abbrev warr3 (c : Dev nD) : FVec Ideal S64x256 .f32 := V c main_v19

theorem pay_at3 (x : FVec Ideal S4096x64 .f32) (w : FVec Ideal S64x256 .f32) (r : Fin 4096) (k : Fin 256) :
    k3_pay1 (F := Ideal) x w (ix2 r k) = ∑ d : Fin 64, x (ix2 r d) * w (ix2 d k) :=
  pay_at1 x w r k

theorem blk_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem flushed_prod3 (c : Dev nD) (t : Fin cfg3.N) :
    (dat3 (F := Ideal) V c).flushed 2 t
      = ((cfg3.win 2).blk t).view.read (Elt Ideal) (prodArr (xarr3 V c) (warr3 V c)) := by
  show (cfg3.win 2).cut (grid3.coords t) ((dat3 (F := Ideal) V c).after 2 t) = _
  rw [after3_2]
  unfold out3_2
  rw [View.canon_unit_zero origin2]
  simp only [View.ld_unit_zero (S := S4096x64) origin2, View.ld_unit_zero (S := S64x256) origin2]
  obtain ⟨e00, e01, e10, e11, e20, e21⟩ := blk_facts3 t
  funext j
  obtain ⟨r, k, rfl⟩ : ∃ (r : Fin 4096) (k : Fin 256), j = ix2 r k := ⟨j 0, j 1, eq_ix2 j⟩
  refine (pay_at3 (iblk3 V c 0 t) (iblk3 V c 1 t) r k).trans ?_
  show _ = ∑ d : Fin 64, xarr3 V c (ix2 ((((cfg3.win 2).blk t).view.emb (ix2 r k)) 0) d)
      * warr3 V c (ix2 d ((((cfg3.win 2).blk t).view.emb (ix2 r k)) 1))
  refine Finset.sum_congr rfl fun d _ => ?_
  have hx : iblk3 V c 0 t (ix2 r d) = xarr3 V c (ix2 ((((cfg3.win 2).blk t).view.emb (ix2 r k)) 0) d) := by
    show V c main_v26 (((cfg3.win 0).blk t).view.emb (ix2 r d)) = V c main_v26 _
    refine congrArg _ (funext fun a => Fin.ext ?_)
    match a with
    | ⟨0, _⟩ =>
      show win3_0.index t (0 : Fin 2) * 4096 + 1 * r.val = win3_2.index t (0 : Fin 2) * 4096 + 1 * r.val
      omega
    | ⟨1, _⟩ =>
      show win3_0.index t (1 : Fin 2) * 64 + 1 * d.val = d.val
      omega
  have hw : iblk3 V c 1 t (ix2 d k) = warr3 V c (ix2 d ((((cfg3.win 2).blk t).view.emb (ix2 r k)) 1)) := by
    show V c main_v19 (((cfg3.win 1).blk t).view.emb (ix2 d k)) = V c main_v19 _
    refine congrArg _ (funext fun a => Fin.ext ?_)
    match a with
    | ⟨0, _⟩ =>
      show win3_1.index t (0 : Fin 2) * 64 + 1 * d.val = d.val
      omega
    | ⟨1, _⟩ =>
      show win3_1.index t (1 : Fin 2) * 256 + 1 * k.val = win3_2.index t (1 : Fin 2) * 256 + 1 * k.val
      omega
  rw [hx, hw]

theorem mem_blk3 (t : Fin cfg3.N) (i : S16384x256.Idx) :
    i ∈ ((cfg3.win 2).blk t).view.set ↔ ∀ a : Fin 2, win3_2.index t a * S4096x256.size a ≤ (i a).val
      ∧ (i a).val < win3_2.index t a * S4096x256.size a + S4096x256.size a := by
  show i ∈ ((View.whole main_v31).slice (win3_2.rect t)).set ↔ _
  rw [View.set_slice_whole, Rect.mem_set_unit]
  exact Iff.rfl

theorem cover_rows3 (i : S16384x256.Idx) :
    ∃ t : Fin cfg3.N, (cfg3.win 2).flush t = true ∧ i ∈ ((cfg3.win 2).blk t).view.set := by
  have hi0 : (i 0).val < 16384 := (i 0).isLt
  have hi1 : (i 1).val < 256 := (i 1).isLt
  have hN : (i 0).val / 4096 < cfg3.N := by rw [show cfg3.N = 4 from N_3]; omega
  obtain ⟨-, -, -, -, e20, e21⟩ := blk_facts3 ⟨(i 0).val / 4096, hN⟩
  refine ⟨⟨(i 0).val / 4096, hN⟩, flush3_2 _, ?_⟩
  rw [mem_blk3]
  intro a
  match a with
  | ⟨0, _⟩ =>
    show win3_2.index ⟨(i 0).val / 4096, hN⟩ (0 : Fin 2) * 4096 ≤ (i 0).val
      ∧ (i 0).val < win3_2.index ⟨(i 0).val / 4096, hN⟩ (0 : Fin 2) * 4096 + 4096
    rw [e20]
    show (i 0).val / 4096 * 4096 ≤ (i 0).val ∧ (i 0).val < (i 0).val / 4096 * 4096 + 4096
    omega
  | ⟨1, _⟩ =>
    show win3_2.index ⟨(i 0).val / 4096, hN⟩ (1 : Fin 2) * 256 ≤ (i 1).val
      ∧ (i 1).val < win3_2.index ⟨(i 0).val / 4096, hN⟩ (1 : Fin 2) * 256 + 256
    rw [e21]
    omega

theorem arr_prod3 (c : Dev nD) :
    (dat3 (F := Ideal) V c).arrAt 2 cfg3.N = prodArr (xarr3 V c) (warr3 V c) :=
  (dat3 (F := Ideal) V c).arrAt_eq_of_cover 2 (prodArr (xarr3 V c) (warr3 V c))
    (fun t _ => flushed_prod3 V c t) (fun i => cover_rows3 i)

theorem proj_arr3 (c : Dev nD) (b : Fin 16384) (k : Fin 256) :
    (dat3 (F := Ideal) V c).arrAt 2 cfg3.N (ValueIdx.ix2 b k)
      = Cert.Spec.proj (fun b d => V c main_v26 (ix2 b d)) (fun k d => V c main_v19 (ix2 d k)) b k := by
  rw [arr_prod3]
  rfl

end Cert.KernelIdeal.Val

end
-- ==== Proof.Val.Proj4.lean ====
import proofs.«402369_j86406152061536_3_alg».proof.Proof.KI.Reg4
import proofs.«402369_j86406152061536_3_alg».proof.Proof.Val.Proj1
import proofs.«402369_j86406152061536_3_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

abbrev xarr4 (c : Dev nD) : FVec Ideal S16384x64 .f32 := V c main_v27
abbrev warr4 (c : Dev nD) : FVec Ideal S64x256 .f32 := V c main_v19

theorem pay_at4 (x : FVec Ideal S4096x64 .f32) (w : FVec Ideal S64x256 .f32) (r : Fin 4096) (k : Fin 256) :
    k4_pay1 (F := Ideal) x w (ix2 r k) = ∑ d : Fin 64, x (ix2 r d) * w (ix2 d k) :=
  pay_at1 x w r k

theorem blk_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem flushed_prod4 (c : Dev nD) (t : Fin cfg4.N) :
    (dat4 (F := Ideal) V c).flushed 2 t
      = ((cfg4.win 2).blk t).view.read (Elt Ideal) (prodArr (xarr4 V c) (warr4 V c)) := by
  show (cfg4.win 2).cut (grid4.coords t) ((dat4 (F := Ideal) V c).after 2 t) = _
  rw [after4_2]
  unfold out4_2
  rw [View.canon_unit_zero origin2]
  simp only [View.ld_unit_zero (S := S4096x64) origin2, View.ld_unit_zero (S := S64x256) origin2]
  obtain ⟨e00, e01, e10, e11, e20, e21⟩ := blk_facts4 t
  funext j
  obtain ⟨r, k, rfl⟩ : ∃ (r : Fin 4096) (k : Fin 256), j = ix2 r k := ⟨j 0, j 1, eq_ix2 j⟩
  refine (pay_at4 (iblk4 V c 0 t) (iblk4 V c 1 t) r k).trans ?_
  show _ = ∑ d : Fin 64, xarr4 V c (ix2 ((((cfg4.win 2).blk t).view.emb (ix2 r k)) 0) d)
      * warr4 V c (ix2 d ((((cfg4.win 2).blk t).view.emb (ix2 r k)) 1))
  refine Finset.sum_congr rfl fun d _ => ?_
  have hx : iblk4 V c 0 t (ix2 r d) = xarr4 V c (ix2 ((((cfg4.win 2).blk t).view.emb (ix2 r k)) 0) d) := by
    show V c main_v27 (((cfg4.win 0).blk t).view.emb (ix2 r d)) = V c main_v27 _
    refine congrArg _ (funext fun a => Fin.ext ?_)
    match a with
    | ⟨0, _⟩ =>
      show win4_0.index t (0 : Fin 2) * 4096 + 1 * r.val = win4_2.index t (0 : Fin 2) * 4096 + 1 * r.val
      omega
    | ⟨1, _⟩ =>
      show win4_0.index t (1 : Fin 2) * 64 + 1 * d.val = d.val
      omega
  have hw : iblk4 V c 1 t (ix2 d k) = warr4 V c (ix2 d ((((cfg4.win 2).blk t).view.emb (ix2 r k)) 1)) := by
    show V c main_v19 (((cfg4.win 1).blk t).view.emb (ix2 d k)) = V c main_v19 _
    refine congrArg _ (funext fun a => Fin.ext ?_)
    match a with
    | ⟨0, _⟩ =>
      show win4_1.index t (0 : Fin 2) * 64 + 1 * d.val = d.val
      omega
    | ⟨1, _⟩ =>
      show win4_1.index t (1 : Fin 2) * 256 + 1 * k.val = win4_2.index t (1 : Fin 2) * 256 + 1 * k.val
      omega
  rw [hx, hw]

theorem mem_blk4 (t : Fin cfg4.N) (i : S16384x256.Idx) :
    i ∈ ((cfg4.win 2).blk t).view.set ↔ ∀ a : Fin 2, win4_2.index t a * S4096x256.size a ≤ (i a).val
      ∧ (i a).val < win4_2.index t a * S4096x256.size a + S4096x256.size a := by
  show i ∈ ((View.whole main_v32).slice (win4_2.rect t)).set ↔ _
  rw [View.set_slice_whole, Rect.mem_set_unit]
  exact Iff.rfl

theorem cover_rows4 (i : S16384x256.Idx) :
    ∃ t : Fin cfg4.N, (cfg4.win 2).flush t = true ∧ i ∈ ((cfg4.win 2).blk t).view.set := by
  have hi0 : (i 0).val < 16384 := (i 0).isLt
  have hi1 : (i 1).val < 256 := (i 1).isLt
  have hN : (i 0).val / 4096 < cfg4.N := by rw [show cfg4.N = 4 from N_4]; omega
  obtain ⟨-, -, -, -, e20, e21⟩ := blk_facts4 ⟨(i 0).val / 4096, hN⟩
  refine ⟨⟨(i 0).val / 4096, hN⟩, flush4_2 _, ?_⟩
  rw [mem_blk4]
  intro a
  match a with
  | ⟨0, _⟩ =>
    show win4_2.index ⟨(i 0).val / 4096, hN⟩ (0 : Fin 2) * 4096 ≤ (i 0).val
      ∧ (i 0).val < win4_2.index ⟨(i 0).val / 4096, hN⟩ (0 : Fin 2) * 4096 + 4096
    rw [e20]
    show (i 0).val / 4096 * 4096 ≤ (i 0).val ∧ (i 0).val < (i 0).val / 4096 * 4096 + 4096
    omega
  | ⟨1, _⟩ =>
    show win4_2.index ⟨(i 0).val / 4096, hN⟩ (1 : Fin 2) * 256 ≤ (i 1).val
      ∧ (i 1).val < win4_2.index ⟨(i 0).val / 4096, hN⟩ (1 : Fin 2) * 256 + 256
    rw [e21]
    omega

theorem arr_prod4 (c : Dev nD) :
    (dat4 (F := Ideal) V c).arrAt 2 cfg4.N = prodArr (xarr4 V c) (warr4 V c) :=
  (dat4 (F := Ideal) V c).arrAt_eq_of_cover 2 (prodArr (xarr4 V c) (warr4 V c))
    (fun t _ => flushed_prod4 V c t) (fun i => cover_rows4 i)

theorem proj_arr4 (c : Dev nD) (b : Fin 16384) (k : Fin 256) :
    (dat4 (F := Ideal) V c).arrAt 2 cfg4.N (ValueIdx.ix2 b k)
      = Cert.Spec.proj (fun b d => V c main_v27 (ix2 b d)) (fun k d => V c main_v19 (ix2 d k)) b k := by
  rw [arr_prod4]
  rfl

end Cert.KernelIdeal.Val

end
-- ==== Proof.Val.Proj5.lean ====
import proofs.«402369_j86406152061536_3_alg».proof.Proof.KI.Reg5
import proofs.«402369_j86406152061536_3_alg».proof.Proof.Val.Proj1
import proofs.«402369_j86406152061536_3_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

abbrev xarr5 (c : Dev nD) : FVec Ideal S16384x64 .f32 := V c main_v28
abbrev warr5 (c : Dev nD) : FVec Ideal S64x256 .f32 := V c main_v19

theorem pay_at5 (x : FVec Ideal S4096x64 .f32) (w : FVec Ideal S64x256 .f32) (r : Fin 4096) (k : Fin 256) :
    k5_pay1 (F := Ideal) x w (ix2 r k) = ∑ d : Fin 64, x (ix2 r d) * w (ix2 d k) :=
  pay_at1 x w r k

theorem blk_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem flushed_prod5 (c : Dev nD) (t : Fin cfg5.N) :
    (dat5 (F := Ideal) V c).flushed 2 t
      = ((cfg5.win 2).blk t).view.read (Elt Ideal) (prodArr (xarr5 V c) (warr5 V c)) := by
  show (cfg5.win 2).cut (grid5.coords t) ((dat5 (F := Ideal) V c).after 2 t) = _
  rw [after5_2]
  unfold out5_2
  rw [View.canon_unit_zero origin2]
  simp only [View.ld_unit_zero (S := S4096x64) origin2, View.ld_unit_zero (S := S64x256) origin2]
  obtain ⟨e00, e01, e10, e11, e20, e21⟩ := blk_facts5 t
  funext j
  obtain ⟨r, k, rfl⟩ : ∃ (r : Fin 4096) (k : Fin 256), j = ix2 r k := ⟨j 0, j 1, eq_ix2 j⟩
  refine (pay_at5 (iblk5 V c 0 t) (iblk5 V c 1 t) r k).trans ?_
  show _ = ∑ d : Fin 64, xarr5 V c (ix2 ((((cfg5.win 2).blk t).view.emb (ix2 r k)) 0) d)
      * warr5 V c (ix2 d ((((cfg5.win 2).blk t).view.emb (ix2 r k)) 1))
  refine Finset.sum_congr rfl fun d _ => ?_
  have hx : iblk5 V c 0 t (ix2 r d) = xarr5 V c (ix2 ((((cfg5.win 2).blk t).view.emb (ix2 r k)) 0) d) := by
    show V c main_v28 (((cfg5.win 0).blk t).view.emb (ix2 r d)) = V c main_v28 _
    refine congrArg _ (funext fun a => Fin.ext ?_)
    match a with
    | ⟨0, _⟩ =>
      show win5_0.index t (0 : Fin 2) * 4096 + 1 * r.val = win5_2.index t (0 : Fin 2) * 4096 + 1 * r.val
      omega
    | ⟨1, _⟩ =>
      show win5_0.index t (1 : Fin 2) * 64 + 1 * d.val = d.val
      omega
  have hw : iblk5 V c 1 t (ix2 d k) = warr5 V c (ix2 d ((((cfg5.win 2).blk t).view.emb (ix2 r k)) 1)) := by
    show V c main_v19 (((cfg5.win 1).blk t).view.emb (ix2 d k)) = V c main_v19 _
    refine congrArg _ (funext fun a => Fin.ext ?_)
    match a with
    | ⟨0, _⟩ =>
      show win5_1.index t (0 : Fin 2) * 64 + 1 * d.val = d.val
      omega
    | ⟨1, _⟩ =>
      show win5_1.index t (1 : Fin 2) * 256 + 1 * k.val = win5_2.index t (1 : Fin 2) * 256 + 1 * k.val
      omega
  rw [hx, hw]

theorem mem_blk5 (t : Fin cfg5.N) (i : S16384x256.Idx) :
    i ∈ ((cfg5.win 2).blk t).view.set ↔ ∀ a : Fin 2, win5_2.index t a * S4096x256.size a ≤ (i a).val
      ∧ (i a).val < win5_2.index t a * S4096x256.size a + S4096x256.size a := by
  show i ∈ ((View.whole main_v33).slice (win5_2.rect t)).set ↔ _
  rw [View.set_slice_whole, Rect.mem_set_unit]
  exact Iff.rfl

theorem cover_rows5 (i : S16384x256.Idx) :
    ∃ t : Fin cfg5.N, (cfg5.win 2).flush t = true ∧ i ∈ ((cfg5.win 2).blk t).view.set := by
  have hi0 : (i 0).val < 16384 := (i 0).isLt
  have hi1 : (i 1).val < 256 := (i 1).isLt
  have hN : (i 0).val / 4096 < cfg5.N := by rw [show cfg5.N = 4 from N_5]; omega
  obtain ⟨-, -, -, -, e20, e21⟩ := blk_facts5 ⟨(i 0).val / 4096, hN⟩
  refine ⟨⟨(i 0).val / 4096, hN⟩, flush5_2 _, ?_⟩
  rw [mem_blk5]
  intro a
  match a with
  | ⟨0, _⟩ =>
    show win5_2.index ⟨(i 0).val / 4096, hN⟩ (0 : Fin 2) * 4096 ≤ (i 0).val
      ∧ (i 0).val < win5_2.index ⟨(i 0).val / 4096, hN⟩ (0 : Fin 2) * 4096 + 4096
    rw [e20]
    show (i 0).val / 4096 * 4096 ≤ (i 0).val ∧ (i 0).val < (i 0).val / 4096 * 4096 + 4096
    omega
  | ⟨1, _⟩ =>
    show win5_2.index ⟨(i 0).val / 4096, hN⟩ (1 : Fin 2) * 256 ≤ (i 1).val
      ∧ (i 1).val < win5_2.index ⟨(i 0).val / 4096, hN⟩ (1 : Fin 2) * 256 + 256
    rw [e21]
    omega

theorem arr_prod5 (c : Dev nD) :
    (dat5 (F := Ideal) V c).arrAt 2 cfg5.N = prodArr (xarr5 V c) (warr5 V c) :=
  (dat5 (F := Ideal) V c).arrAt_eq_of_cover 2 (prodArr (xarr5 V c) (warr5 V c))
    (fun t _ => flushed_prod5 V c t) (fun i => cover_rows5 i)

theorem proj_arr5 (c : Dev nD) (b : Fin 16384) (k : Fin 256) :
    (dat5 (F := Ideal) V c).arrAt 2 cfg5.N (ValueIdx.ix2 b k)
      = Cert.Spec.proj (fun b d => V c main_v28 (ix2 b d)) (fun k d => V c main_v19 (ix2 d k)) b k := by
  rw [arr_prod5]
  rfl

end Cert.KernelIdeal.Val

end
-- ==== Proof.Val.Proj.lean ====
import proofs.«402369_j86406152061536_3_alg».proof.Proof.Val.Proj1
import proofs.«402369_j86406152061536_3_alg».proof.Proof.Val.Proj2
import proofs.«402369_j86406152061536_3_alg».proof.Proof.Val.Proj3
import proofs.«402369_j86406152061536_3_alg».proof.Proof.Val.Proj4
import proofs.«402369_j86406152061536_3_alg».proof.Proof.Val.Proj5
-- ==== Proof.Val.PlanLib.lean ====
import proofs.«402369_j86406152061536_3_alg».proof.Proof.Gen.KernelIdeal.Skeleton
import Idealize.ShloMosaic.Lib.Pipeline.Value
import Idealize.ShloMosaic.Lib.ValueIdx
import Idealize.ShloMosaic.PureOps.Ideal.Laws
import Idealize.ShloMosaic.PureOps.IdealRules
import proofs.«402369_j86406152061536_3_alg».proof.Proof.Spec

set_option maxRecDepth 16384

noncomputable section

namespace Cert.KernelIdeal.Hand

open Cert.KernelIdeal Cert.KernelIdeal.Gen
open Idealize.ShloMosaic Idealize.ShloMosaic.ValueIdx

theorem plan_lift_row (h : S16384x256.Reduces [1] S16384) (j : S16384.Idx) (k : Fin 256) : h.lift j k = ix2 (j 0) k := by
  funext c; apply Fin.ext
  match c with
  | ⟨0, _⟩ => rfl
  | ⟨1, _⟩ => rfl

theorem plan_lift_col (h : S16384x256.Reduces [0] S256) (j : S256.Idx) (b : Fin 16384) : h.lift j b = ix2 b (j 0) := by
  funext c; apply Fin.ext
  match c with
  | ⟨0, _⟩ => rfl
  | ⟨1, _⟩ => rfl

theorem plan_lift_one (h : S16384x1.Reduces [0] S1) (j : S1.Idx) (b : Fin 16384) : h.lift j b = ix2 b (j 0) := by
  funext c; apply Fin.ext
  match c with
  | ⟨0, _⟩ => rfl
  | ⟨1, _⟩ => rfl

theorem plan_rowsum (X : FVec Ideal S16384x256 .f32) (h1 : S16384x256.Reduces [1] S16384) (hφ : FKind.Formats .f32) (hacc : (0x00000000#32 : BitVec FTy.f32.bits) = FKind.add.neutral .f32 hφ) (h2 : S16384.ShapeCasts S16384x1)
    (j : S16384x1.Idx) :
    shapeCast S16384x1 (multiReduction (F := Ideal) .add [1] S16384 X 0x00000000#32 h1 hφ hacc) h2 j = ∑ k : Fin 256, X (ix2 (j 0) k) := by
  rw [shapeCast_apply _ h2 j (ix1 (j 0)) (by
    rw [Shape.rowMajor_val_one, Shape.rowMajor_val_two]
    have := (j 1).isLt
    show (j 0).val = (j 0).val * 1 + (j 1).val
    have h1' : (j 1).val < 1 := (j 1).isLt
    omega)]
  rw [Ideal.multiReduction_add_single]
  exact Finset.sum_congr rfl fun k _ => congrArg X (plan_lift_row h1 _ k)

theorem plan_colsum (X : FVec Ideal S16384x256 .f32) (h1 : S16384x256.Reduces [0] S256) (hφ : FKind.Formats .f32) (hacc : (0x00000000#32 : BitVec FTy.f32.bits) = FKind.add.neutral .f32 hφ) (h2 : S256.ShapeCasts S1x256)
    (j : S1x256.Idx) :
    shapeCast S1x256 (multiReduction (F := Ideal) .add [0] S256 X 0x00000000#32 h1 hφ hacc) h2 j = ∑ b : Fin 16384, X (ix2 b (j 1)) := by
  rw [shapeCast_apply _ h2 j (ix1 (j 1)) (by
    rw [Shape.rowMajor_val_one, Shape.rowMajor_val_two]
    have h0 : (j 0).val < 1 := (j 0).isLt
    show (j 1).val = (j 0).val * 256 + (j 1).val
    omega)]
  rw [Ideal.multiReduction_add_single]
  exact Finset.sum_congr rfl fun b _ => congrArg X (plan_lift_col h1 _ b)

theorem plan_total (Y : FVec Ideal S16384x1 .f32) (h1 : S16384x1.Reduces [0] S1) (hφ : FKind.Formats .f32)
    (hacc : (0x00000000#32 : BitVec FTy.f32.bits) = FKind.add.neutral .f32 hφ) (h2 : S1.ShapeCasts S1x1) (j : S1x1.Idx) :
    shapeCast S1x1 (multiReduction (F := Ideal) .add [0] S1 Y 0x00000000#32 h1 hφ hacc) h2 j = ∑ b : Fin 16384, Y (ix2 b (0 : Fin 1)) := by
  rw [shapeCast_apply _ h2 j (ix1 (0 : Fin 1)) (by
    rw [Shape.rowMajor_val_one, Shape.rowMajor_val_two]
    have h0 : (j 0).val < 1 := (j 0).isLt
    have h1' : (j 1).val < 1 := (j 1).isLt
    show 0 = (j 0).val * 1 + (j 1).val
    omega)]
  rw [Ideal.multiReduction_add_single]
  exact Finset.sum_congr rfl fun b _ => congrArg Y (plan_lift_one h1 _ b)

theorem plan_bc11 (Z : S1x1.Idx → EReal) (h : S1x1.Broadcasts S16384x256) (y : S16384x256.Idx) :
    broadcastTo S16384x256 Z h y = Z (ix2 (0 : Fin 1) (0 : Fin 1)) :=
  broadcastTo_apply Z h y (ix2 (0 : Fin 1) (0 : Fin 1)) (fun a => by
    match a with
    | ⟨0, _⟩ => rfl
    | ⟨1, _⟩ => rfl)

theorem plan_bcRow (Z : S1x256.Idx → EReal) (h : S1x256.Broadcasts S16384x256) (y : S16384x256.Idx) :
    broadcastTo S16384x256 Z h y = Z (ix2 (0 : Fin 1) (y 1)) :=
  broadcastTo_apply Z h y (ix2 (0 : Fin 1) (y 1)) (fun a => by
    match a with
    | ⟨0, _⟩ => rfl
    | ⟨1, _⟩ => rfl)

theorem plan_bcCol (Z : S16384x1.Idx → EReal) (h : S16384x1.Broadcasts S16384x256) (y : S16384x256.Idx) :
    broadcastTo S16384x256 Z h y = Z (ix2 (y 0) (0 : Fin 1)) :=
  broadcastTo_apply Z h y (ix2 (y 0) (0 : Fin 1)) (fun a => by
    match a with
    | ⟨0, _⟩ => rfl
    | ⟨1, _⟩ => rfl)

def toBlk (M : Fin 16384 → Fin 256 → EReal) : S16384x256.Idx → EReal := fun y => M (y 0) (y 1)

theorem toBlk_ix2 (M : Fin 16384 → Fin 256 → EReal) (b : Fin 16384) (k : Fin 256) : toBlk M (ix2 b k) = M b k := rfl

def expStep (C : Fin 16384 → Fin 256 → EReal) : Fin 16384 → Fin 256 → EReal := fun b k => Ideal.exp (C b k * Cert.Spec.invT)

def normStep (P : Fin 16384 → Fin 256 → EReal) : Fin 16384 → Fin 256 → EReal :=
  fun b k => Ideal.div (P b k) (∑ b' : Fin 16384, ∑ k' : Fin 256, P b' k')

def colStep (P : Fin 16384 → Fin 256 → EReal) : Fin 16384 → Fin 256 → EReal :=
  fun b k => Ideal.div (P b k) ((∑ b' : Fin 16384, P b' k) * ((256 : ℕ) : EReal))

def rowStep (P : Fin 16384 → Fin 256 → EReal) : Fin 16384 → Fin 256 → EReal :=
  fun b k => Ideal.div (P b k) ((∑ k' : Fin 256, P b k') * ((16384 : ℕ) : EReal))

theorem sinkRound_eq (P : Fin 16384 → Fin 256 → EReal) : Cert.Spec.sinkRound P = rowStep (colStep P) := rfl

theorem plan_eq (C : Fin 16384 → Fin 256 → EReal) :
    Cert.Spec.plan C = fun b k =>
      rowStep (colStep (rowStep (colStep (rowStep (colStep (normStep (expStep C))))))) b k * ((16384 : ℕ) : EReal) := rfl

theorem plan_hz : (![0, 0] : Fin 2 → ℕ) = fun _ => 0 := by
  funext a
  match a with
  | ⟨0, _⟩ => rfl
  | ⟨1, _⟩ => rfl

theorem plan_c256 : Ideal.ofBits .f32 0x43800000#32 = ((256 : ℕ) : EReal) := by
  simp [Ideal.ofBits, Ideal.ieee, -EReal.coe_mul]; norm_num; norm_cast

theorem plan_c16384 : Ideal.ofBits .f32 0x46800000#32 = ((16384 : ℕ) : EReal) := by
  simp [Ideal.ofBits, Ideal.ieee, -EReal.coe_mul]; norm_num; norm_cast

theorem plan_cInvT : (Named.named κ "fold_c_268435456_13421773" 0x41A00000#32 : Ideal .f32) = Cert.Spec.invT :=
  IdealRules.named_const.ideal_named_scalar _ _ _ _ rfl

end Cert.KernelIdeal.Hand
end
-- ==== Proof.Val.Plan6.lean ====
import proofs.«402369_j86406152061536_3_alg».proof.Proof.KI.Reg6
import proofs.«402369_j86406152061536_3_alg».proof.Proof.Val.PlanLib

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem plan6_pay4 (v0 : Vec Ideal S16384x256 .f32) (y : S16384x256.Idx) :
    k6_pay4 v0 y = Ideal.exp (v0 y * Cert.Spec.invT) := by
  unfold k6_pay4
  simp only [shapeCast_self]
  show Ideal.exp (v0 y * (Named.named κ "fold_c_268435456_13421773" 0x41A00000#32 : Ideal .f32)) = _
  rw [plan_cInvT]

theorem plan6_pay5 (v6 v12 : Vec Ideal S16384x256 .f32) (y : S16384x256.Idx) :
    k6_pay5 v6 v12 y = Ideal.div (v12 y) (∑ b : Fin 16384, ∑ k : Fin 256, v6 (ix2 b k)) := by
  unfold k6_pay5
  simp only [shapeCast_self]
  rw [divf_apply]
  refine congrArg (Ideal.div (v12 y)) ?_
  exact (plan_bc11 _ _ y).trans ((plan_total _ _ _ _ _ _).trans
    (Finset.sum_congr rfl fun b _ => plan_rowsum v6 _ _ _ _ (ix2 b (0 : Fin 1))))

theorem plan6_pay6 (v17 v21 : Vec Ideal S16384x256 .f32) (y : S16384x256.Idx) :
    k6_pay6 v17 v21 y = Ideal.div (v21 y) ((∑ b : Fin 16384, v17 (ix2 b (y 1))) * ((256 : ℕ) : EReal)) := by
  unfold k6_pay6
  simp only [shapeCast_self]
  rw [divf_apply]
  refine congrArg (Ideal.div (v21 y)) ?_
  refine (plan_bcRow _ _ y).trans ?_
  rw [mulf_apply]
  exact congrArg₂ (· * ·) (plan_colsum v17 _ _ _ _ (ix2 (0 : Fin 1) (y 1))) plan_c256

theorem plan6_pay7 (v28 : Vec Ideal S16384x256 .f32) (j : S16384x1.Idx) :
    k6_pay7 v28 j = ∑ k : Fin 256, v28 (ix2 (j 0) k) := by
  unfold k6_pay7
  simp only [shapeCast_self]
  exact plan_rowsum v28 _ _ _ _ j

theorem plan6_pay8 (v31 : FVec Ideal S16384x1 .f32) (v32 : Vec Ideal S16384x256 .f32) (y : S16384x256.Idx) :
    k6_pay8 v31 v32 y = Ideal.div (v32 y) (v31 (ix2 (y 0) (0 : Fin 1)) * ((16384 : ℕ) : EReal)) := by
  unfold k6_pay8
  simp only [shapeCast_self]
  rw [divf_apply]
  refine congrArg (Ideal.div (v32 y)) ?_
  refine (plan_bcCol _ _ y).trans ?_
  rw [mulf_apply]
  exact congrArg (v31 (ix2 (y 0) (0 : Fin 1)) * ·) plan_c16384

theorem plan6_pay9 (v39 v43 : Vec Ideal S16384x256 .f32) (y : S16384x256.Idx) :
    k6_pay9 v39 v43 y = Ideal.div (v43 y) ((∑ b : Fin 16384, v39 (ix2 b (y 1))) * ((256 : ℕ) : EReal)) := by
  unfold k6_pay9
  simp only [shapeCast_self]
  rw [divf_apply]
  refine congrArg (Ideal.div (v43 y)) ?_
  refine (plan_bcRow _ _ y).trans ?_
  rw [mulf_apply]
  exact congrArg₂ (· * ·) (plan_colsum v39 _ _ _ _ (ix2 (0 : Fin 1) (y 1))) plan_c256

theorem plan6_pay10 (v50 v54 : Vec Ideal S16384x256 .f32) (y : S16384x256.Idx) :
    k6_pay10 v50 v54 y = Ideal.div (v54 y) ((∑ k : Fin 256, v50 (ix2 (y 0) k)) * ((16384 : ℕ) : EReal)) := by
  unfold k6_pay10
  simp only [shapeCast_self]
  rw [divf_apply]
  refine congrArg (Ideal.div (v54 y)) ?_
  refine (plan_bcCol _ _ y).trans ?_
  rw [mulf_apply]
  exact congrArg₂ (· * ·) (plan_rowsum v50 _ _ _ _ (ix2 (y 0) (0 : Fin 1))) plan_c16384

theorem plan6_pay11 (v61 : Vec Ideal S16384x256 .f32) (j : S1x256.Idx) :
    k6_pay11 v61 j = ∑ b : Fin 16384, v61 (ix2 b (j 1)) := by
  unfold k6_pay11
  simp only [shapeCast_self]
  exact plan_colsum v61 _ _ _ _ j

theorem plan6_pay1 (v64 : FVec Ideal S1x256 .f32) (v65 : Vec Ideal S16384x256 .f32) (y : S16384x256.Idx) :
    k6_pay1 v64 v65 y = Ideal.div (v65 y) (v64 (ix2 (0 : Fin 1) (y 1)) * ((256 : ℕ) : EReal)) := by
  unfold k6_pay1
  simp only [shapeCast_self]
  rw [divf_apply]
  refine congrArg (Ideal.div (v65 y)) ?_
  refine (plan_bcRow _ _ y).trans ?_
  rw [mulf_apply]
  exact congrArg (v64 (ix2 (0 : Fin 1) (y 1)) * ·) plan_c256

theorem plan6_pay2 (v72 v76 : Vec Ideal S16384x256 .f32) (y : S16384x256.Idx) :
    k6_pay2 v72 v76 y = Ideal.div (v76 y) ((∑ k : Fin 256, v72 (ix2 (y 0) k)) * ((16384 : ℕ) : EReal)) := by
  unfold k6_pay2
  simp only [shapeCast_self]
  rw [divf_apply]
  refine congrArg (Ideal.div (v76 y)) ?_
  refine (plan_bcCol _ _ y).trans ?_
  rw [mulf_apply]
  exact congrArg₂ (· * ·) (plan_rowsum v72 _ _ _ _ (ix2 (y 0) (0 : Fin 1))) plan_c16384

theorem plan6_pay3 (v83 : Vec Ideal S16384x256 .f32) (y : S16384x256.Idx) :
    k6_pay3 v83 y = v83 y * ((16384 : ℕ) : EReal) := by
  unfold k6_pay3
  simp only [shapeCast_self]
  rw [mulf_apply]
  exact congrArg (v83 y * ·) plan_c16384

section Plan6

theorem plan6_s1 (X : Vec Ideal S16384x256 .f32) : sink6_1 X = toBlk (expStep fun b k => X (ix2 b k)) := by
  funext y
  unfold sink6_1
  rw [plan6_pay4, View.ld_unit_zero plan_hz]
  exact congrArg (fun i => Ideal.exp (X i * Cert.Spec.invT)) (eq_ix2 y)

theorem plan6_s2 (X : Vec Ideal S16384x256 .f32) : sink6_2 X = toBlk (normStep (expStep fun b k => X (ix2 b k))) := by
  funext y; unfold sink6_2; rw [plan6_pay5, plan6_s1]; rfl

theorem plan6_s3 (X : Vec Ideal S16384x256 .f32) : sink6_3 X = toBlk (colStep (normStep (expStep fun b k => X (ix2 b k)))) := by
  funext y; unfold sink6_3; rw [plan6_pay6, plan6_s2]; rfl

theorem plan6_s4 (X : Vec Ideal S16384x256 .f32) :
    sink6_4 X = toBlk (rowStep (colStep (normStep (expStep fun b k => X (ix2 b k))))) := by
  funext y; unfold sink6_4; rw [plan6_pay8, plan6_pay7, plan6_s3]; rfl

theorem plan6_s5 (X : Vec Ideal S16384x256 .f32) :
    sink6_5 X = toBlk (colStep (rowStep (colStep (normStep (expStep fun b k => X (ix2 b k)))))) := by
  funext y; unfold sink6_5; rw [plan6_pay9, plan6_s4]; rfl

theorem plan6_s6 (X : Vec Ideal S16384x256 .f32) :
    sink6_6 X = toBlk (rowStep (colStep (rowStep (colStep (normStep (expStep fun b k => X (ix2 b k))))))) := by
  funext y; unfold sink6_6; rw [plan6_pay10, plan6_s5]; rfl

theorem plan6_s7 (X : Vec Ideal S16384x256 .f32) :
    sink6_7 X = toBlk (colStep (rowStep (colStep (rowStep (colStep (normStep (expStep fun b k => X (ix2 b k)))))))) := by
  funext y; unfold sink6_7; rw [plan6_pay1, plan6_pay11, plan6_s6]; rfl

theorem plan6_s8 (X : Vec Ideal S16384x256 .f32) :
    sink6_8 X = toBlk (rowStep (colStep (rowStep (colStep (rowStep (colStep (normStep (expStep fun b k => X (ix2 b k))))))))) := by
  funext y; unfold sink6_8; rw [plan6_pay2, plan6_s7]; rfl

theorem plan6_s9 (X : Vec Ideal S16384x256 .f32) : sink6_9 X = toBlk (Cert.Spec.plan fun b k => X (ix2 b k)) := by
  funext y; unfold sink6_9; rw [plan6_pay3, plan6_s8, plan_eq]; rfl

variable (V : (c : Dev nD) → (b : Ref sig .tc) → Buf (Elt Ideal) ((c : Thread nD τ).loc b))

theorem plan6_off0 : ∀ t : Fin cfg6.N, ∀ a : Fin 2, (cfg6.win 0).index t a * (cfg6.win 0).size a = 0 :=
  (by decide +kernel : ∀ t : Fin grid6.N, ∀ a : Fin 2, win6_0.index t a * win6_0.size a = 0)
theorem plan6_off1 : ∀ t : Fin cfg6.N, ∀ a : Fin 2, (cfg6.win 1).index t a * (cfg6.win 1).size a = 0 :=
  (by decide +kernel : ∀ t : Fin grid6.N, ∀ a : Fin 2, win6_1.index t a * win6_1.size a = 0)

theorem plan6_readIn (c : Dev nD) (t : Fin cfg6.N) (A : Buf (Elt Ideal) ((c : Thread nD τ).loc main_v29)) :
    View.read (Elt Ideal) ((cfg6.win 0).blk t).view A = A :=
  Memref.read_access_unit_zero (Elt Ideal) main_v29 (funext (plan6_off0 t)) _ A

theorem plan6_readOut (c : Dev nD) (t : Fin cfg6.N) (G : Buf (Elt Ideal) ((c : Thread nD τ).loc main_v34)) :
    View.read (Elt Ideal) ((cfg6.win 1).blk t).view G = G :=
  Memref.read_access_unit_zero (Elt Ideal) main_v34 (funext (plan6_off1 t)) _ G

theorem plan6_cut (t : Fin cfg6.N) (Z : S16384x256.Idx → EReal) : (cfg6.win 1).cut (grid6.coords t) Z = Z := rfl

theorem plan6_mem (t : Fin cfg6.N) (i : S16384x256.Idx) : i ∈ ((cfg6.win 1).blk t).view.set := by
  show i ∈ ((View.whole main_v34).slice (win6_1.rect t)).set
  rw [View.set_slice_whole]
  exact View.mem_set_unit_zero (funext (plan6_off1 t)) _ i

theorem plan6_cover (c : Dev nD) (i : ((cfg6.win 1).arr.view.loc (c.tc : Thread nD τ)).2.ty.Idx) :
    ∃ t : Fin cfg6.N, (cfg6.win 1).flush t = true ∧ i ∈ ((cfg6.win 1).blk t).view.set :=
  ⟨⟨0, by decide⟩, flush6_1 _, plan6_mem _ i⟩

theorem plan6_flushed (c : Dev nD) (t : Fin cfg6.N) :
    (dat6 (F := Ideal) V c).flushed 1 t
      = ((cfg6.win 1).blk t).view.read (Elt Ideal) (toBlk (Cert.Spec.plan fun b k => V c main_v29 (ix2 b k))) := by
  show (cfg6.win 1).cut (grid6.coords t) ((dat6 V c).after 1 t) = _
  rw [after6_1]; unfold out6_1
  rw [View.canon_unit_zero plan_hz, plan6_s9, plan6_cut]
  unfold iblk6
  exact (congrArg (fun A : Buf (Elt Ideal) ((c : Thread nD τ).loc main_v29) => toBlk (Cert.Spec.plan fun b k => A (ix2 b k)))
    (plan6_readIn c t (V c main_v29))).trans (plan6_readOut c t _).symm

theorem plan_arr6 (c : Dev nD) (b : Fin 16384) (k : Fin 256) :
    (dat6 (F := Ideal) V c).arrAt 1 cfg6.N (ix2 b k) = Cert.Spec.plan (fun b' k' => V c main_v29 (ix2 b' k')) b k := by
  have hfin : (dat6 (F := Ideal) V c).arrAt 1 cfg6.N = toBlk (Cert.Spec.plan fun b' k' => V c main_v29 (ix2 b' k')) :=
    (dat6 V c).arrAt_eq_of_cover 1 _ (fun t _ => plan6_flushed V c t) (plan6_cover c)
  exact congrFun hfin (ix2 b k)

end Plan6

end Cert.KernelIdeal.Hand

end
-- ==== Proof.Val.Plan7.lean ====
import proofs.«402369_j86406152061536_3_alg».proof.Proof.KI.Reg7
import proofs.«402369_j86406152061536_3_alg».proof.Proof.Val.Plan6

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem plan7_pay4 (v0 : Vec Ideal S16384x256 .f32) (y : S16384x256.Idx) :
    k7_pay4 v0 y = Ideal.exp (v0 y * Cert.Spec.invT) :=
  plan6_pay4 v0 y

theorem plan7_pay5 (v6 v12 : Vec Ideal S16384x256 .f32) (y : S16384x256.Idx) :
    k7_pay5 v6 v12 y = Ideal.div (v12 y) (∑ b : Fin 16384, ∑ k : Fin 256, v6 (ix2 b k)) :=
  plan6_pay5 v6 v12 y

theorem plan7_pay6 (v17 v21 : Vec Ideal S16384x256 .f32) (y : S16384x256.Idx) :
    k7_pay6 v17 v21 y = Ideal.div (v21 y) ((∑ b : Fin 16384, v17 (ix2 b (y 1))) * ((256 : ℕ) : EReal)) :=
  plan6_pay6 v17 v21 y

theorem plan7_pay7 (v28 : Vec Ideal S16384x256 .f32) (j : S16384x1.Idx) :
    k7_pay7 v28 j = ∑ k : Fin 256, v28 (ix2 (j 0) k) :=
  plan6_pay7 v28 j

theorem plan7_pay8 (v31 : FVec Ideal S16384x1 .f32) (v32 : Vec Ideal S16384x256 .f32) (y : S16384x256.Idx) :
    k7_pay8 v31 v32 y = Ideal.div (v32 y) (v31 (ix2 (y 0) (0 : Fin 1)) * ((16384 : ℕ) : EReal)) :=
  plan6_pay8 v31 v32 y

theorem plan7_pay9 (v39 v43 : Vec Ideal S16384x256 .f32) (y : S16384x256.Idx) :
    k7_pay9 v39 v43 y = Ideal.div (v43 y) ((∑ b : Fin 16384, v39 (ix2 b (y 1))) * ((256 : ℕ) : EReal)) :=
  plan6_pay9 v39 v43 y

theorem plan7_pay10 (v50 v54 : Vec Ideal S16384x256 .f32) (y : S16384x256.Idx) :
    k7_pay10 v50 v54 y = Ideal.div (v54 y) ((∑ k : Fin 256, v50 (ix2 (y 0) k)) * ((16384 : ℕ) : EReal)) :=
  plan6_pay10 v50 v54 y

theorem plan7_pay11 (v61 : Vec Ideal S16384x256 .f32) (j : S1x256.Idx) :
    k7_pay11 v61 j = ∑ b : Fin 16384, v61 (ix2 b (j 1)) :=
  plan6_pay11 v61 j

theorem plan7_pay1 (v64 : FVec Ideal S1x256 .f32) (v65 : Vec Ideal S16384x256 .f32) (y : S16384x256.Idx) :
    k7_pay1 v64 v65 y = Ideal.div (v65 y) (v64 (ix2 (0 : Fin 1) (y 1)) * ((256 : ℕ) : EReal)) :=
  plan6_pay1 v64 v65 y

theorem plan7_pay2 (v72 v76 : Vec Ideal S16384x256 .f32) (y : S16384x256.Idx) :
    k7_pay2 v72 v76 y = Ideal.div (v76 y) ((∑ k : Fin 256, v72 (ix2 (y 0) k)) * ((16384 : ℕ) : EReal)) :=
  plan6_pay2 v72 v76 y

theorem plan7_pay3 (v83 : Vec Ideal S16384x256 .f32) (y : S16384x256.Idx) :
    k7_pay3 v83 y = v83 y * ((16384 : ℕ) : EReal) :=
  plan6_pay3 v83 y

section Plan7

theorem plan7_s1 (X : Vec Ideal S16384x256 .f32) : sink7_1 X = toBlk (expStep fun b k => X (ix2 b k)) :=
  plan6_s1 X

theorem plan7_s2 (X : Vec Ideal S16384x256 .f32) : sink7_2 X = toBlk (normStep (expStep fun b k => X (ix2 b k))) :=
  plan6_s2 X

theorem plan7_s3 (X : Vec Ideal S16384x256 .f32) : sink7_3 X = toBlk (colStep (normStep (expStep fun b k => X (ix2 b k)))) :=
  plan6_s3 X

theorem plan7_s4 (X : Vec Ideal S16384x256 .f32) :
    sink7_4 X = toBlk (rowStep (colStep (normStep (expStep fun b k => X (ix2 b k))))) :=
  plan6_s4 X

theorem plan7_s5 (X : Vec Ideal S16384x256 .f32) :
    sink7_5 X = toBlk (colStep (rowStep (colStep (normStep (expStep fun b k => X (ix2 b k)))))) :=
  plan6_s5 X

theorem plan7_s6 (X : Vec Ideal S16384x256 .f32) :
    sink7_6 X = toBlk (rowStep (colStep (rowStep (colStep (normStep (expStep fun b k => X (ix2 b k))))))) :=
  plan6_s6 X

theorem plan7_s7 (X : Vec Ideal S16384x256 .f32) :
    sink7_7 X = toBlk (colStep (rowStep (colStep (rowStep (colStep (normStep (expStep fun b k => X (ix2 b k)))))))) :=
  plan6_s7 X

theorem plan7_s8 (X : Vec Ideal S16384x256 .f32) :
    sink7_8 X = toBlk (rowStep (colStep (rowStep (colStep (rowStep (colStep (normStep (expStep fun b k => X (ix2 b k))))))))) :=
  plan6_s8 X

theorem plan7_s9 (X : Vec Ideal S16384x256 .f32) : sink7_9 X = toBlk (Cert.Spec.plan fun b k => X (ix2 b k)) :=
  plan6_s9 X

variable (V : (c : Dev nD) → (b : Ref sig .tc) → Buf (Elt Ideal) ((c : Thread nD τ).loc b))

theorem plan7_off0 : ∀ t : Fin cfg7.N, ∀ a : Fin 2, (cfg7.win 0).index t a * (cfg7.win 0).size a = 0 :=
  (by decide +kernel : ∀ t : Fin grid7.N, ∀ a : Fin 2, win7_0.index t a * win7_0.size a = 0)
theorem plan7_off1 : ∀ t : Fin cfg7.N, ∀ a : Fin 2, (cfg7.win 1).index t a * (cfg7.win 1).size a = 0 :=
  (by decide +kernel : ∀ t : Fin grid7.N, ∀ a : Fin 2, win7_1.index t a * win7_1.size a = 0)

theorem plan7_readIn (c : Dev nD) (t : Fin cfg7.N) (A : Buf (Elt Ideal) ((c : Thread nD τ).loc main_v30)) :
    View.read (Elt Ideal) ((cfg7.win 0).blk t).view A = A :=
  Memref.read_access_unit_zero (Elt Ideal) main_v30 (funext (plan7_off0 t)) _ A

theorem plan7_readOut (c : Dev nD) (t : Fin cfg7.N) (G : Buf (Elt Ideal) ((c : Thread nD τ).loc main_v35)) :
    View.read (Elt Ideal) ((cfg7.win 1).blk t).view G = G :=
  Memref.read_access_unit_zero (Elt Ideal) main_v35 (funext (plan7_off1 t)) _ G

theorem plan7_cut (t : Fin cfg7.N) (Z : S16384x256.Idx → EReal) : (cfg7.win 1).cut (grid7.coords t) Z = Z := rfl

theorem plan7_mem (t : Fin cfg7.N) (i : S16384x256.Idx) : i ∈ ((cfg7.win 1).blk t).view.set := by
  show i ∈ ((View.whole main_v35).slice (win7_1.rect t)).set
  rw [View.set_slice_whole]
  exact View.mem_set_unit_zero (funext (plan7_off1 t)) _ i

theorem plan7_cover (c : Dev nD) (i : ((cfg7.win 1).arr.view.loc (c.tc : Thread nD τ)).2.ty.Idx) :
    ∃ t : Fin cfg7.N, (cfg7.win 1).flush t = true ∧ i ∈ ((cfg7.win 1).blk t).view.set :=
  ⟨⟨0, by decide⟩, flush7_1 _, plan7_mem _ i⟩

theorem plan7_flushed (c : Dev nD) (t : Fin cfg7.N) :
    (dat7 (F := Ideal) V c).flushed 1 t
      = ((cfg7.win 1).blk t).view.read (Elt Ideal) (toBlk (Cert.Spec.plan fun b k => V c main_v30 (ix2 b k))) := by
  show (cfg7.win 1).cut (grid7.coords t) ((dat7 V c).after 1 t) = _
  rw [after7_1]; unfold out7_1
  rw [View.canon_unit_zero plan_hz, plan7_s9, plan7_cut]
  unfold iblk7
  exact (congrArg (fun A : Buf (Elt Ideal) ((c : Thread nD τ).loc main_v30) => toBlk (Cert.Spec.plan fun b k => A (ix2 b k)))
    (plan7_readIn c t (V c main_v30))).trans (plan7_readOut c t _).symm

theorem plan_arr7 (c : Dev nD) (b : Fin 16384) (k : Fin 256) :
    (dat7 (F := Ideal) V c).arrAt 1 cfg7.N (ix2 b k) = Cert.Spec.plan (fun b' k' => V c main_v30 (ix2 b' k')) b k := by
  have hfin : (dat7 (F := Ideal) V c).arrAt 1 cfg7.N = toBlk (Cert.Spec.plan fun b' k' => V c main_v30 (ix2 b' k')) :=
    (dat7 V c).arrAt_eq_of_cover 1 _ (fun t _ => plan7_flushed V c t) (plan7_cover c)
  exact congrFun hfin (ix2 b k)

end Plan7

end Cert.KernelIdeal.Hand

end
-- ==== Proof.Val.Plan8.lean ====
import proofs.«402369_j86406152061536_3_alg».proof.Proof.KI.Reg8
import proofs.«402369_j86406152061536_3_alg».proof.Proof.Val.Plan6

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem plan8_pay4 (v0 : Vec Ideal S16384x256 .f32) (y : S16384x256.Idx) :
    k8_pay4 v0 y = Ideal.exp (v0 y * Cert.Spec.invT) :=
  plan6_pay4 v0 y

theorem plan8_pay5 (v6 v12 : Vec Ideal S16384x256 .f32) (y : S16384x256.Idx) :
    k8_pay5 v6 v12 y = Ideal.div (v12 y) (∑ b : Fin 16384, ∑ k : Fin 256, v6 (ix2 b k)) :=
  plan6_pay5 v6 v12 y

theorem plan8_pay6 (v17 v21 : Vec Ideal S16384x256 .f32) (y : S16384x256.Idx) :
    k8_pay6 v17 v21 y = Ideal.div (v21 y) ((∑ b : Fin 16384, v17 (ix2 b (y 1))) * ((256 : ℕ) : EReal)) :=
  plan6_pay6 v17 v21 y

theorem plan8_pay7 (v28 : Vec Ideal S16384x256 .f32) (j : S16384x1.Idx) :
    k8_pay7 v28 j = ∑ k : Fin 256, v28 (ix2 (j 0) k) :=
  plan6_pay7 v28 j

theorem plan8_pay8 (v31 : FVec Ideal S16384x1 .f32) (v32 : Vec Ideal S16384x256 .f32) (y : S16384x256.Idx) :
    k8_pay8 v31 v32 y = Ideal.div (v32 y) (v31 (ix2 (y 0) (0 : Fin 1)) * ((16384 : ℕ) : EReal)) :=
  plan6_pay8 v31 v32 y

theorem plan8_pay9 (v39 v43 : Vec Ideal S16384x256 .f32) (y : S16384x256.Idx) :
    k8_pay9 v39 v43 y = Ideal.div (v43 y) ((∑ b : Fin 16384, v39 (ix2 b (y 1))) * ((256 : ℕ) : EReal)) :=
  plan6_pay9 v39 v43 y

theorem plan8_pay10 (v50 v54 : Vec Ideal S16384x256 .f32) (y : S16384x256.Idx) :
    k8_pay10 v50 v54 y = Ideal.div (v54 y) ((∑ k : Fin 256, v50 (ix2 (y 0) k)) * ((16384 : ℕ) : EReal)) :=
  plan6_pay10 v50 v54 y

theorem plan8_pay11 (v61 : Vec Ideal S16384x256 .f32) (j : S1x256.Idx) :
    k8_pay11 v61 j = ∑ b : Fin 16384, v61 (ix2 b (j 1)) :=
  plan6_pay11 v61 j

theorem plan8_pay1 (v64 : FVec Ideal S1x256 .f32) (v65 : Vec Ideal S16384x256 .f32) (y : S16384x256.Idx) :
    k8_pay1 v64 v65 y = Ideal.div (v65 y) (v64 (ix2 (0 : Fin 1) (y 1)) * ((256 : ℕ) : EReal)) :=
  plan6_pay1 v64 v65 y

theorem plan8_pay2 (v72 v76 : Vec Ideal S16384x256 .f32) (y : S16384x256.Idx) :
    k8_pay2 v72 v76 y = Ideal.div (v76 y) ((∑ k : Fin 256, v72 (ix2 (y 0) k)) * ((16384 : ℕ) : EReal)) :=
  plan6_pay2 v72 v76 y

theorem plan8_pay3 (v83 : Vec Ideal S16384x256 .f32) (y : S16384x256.Idx) :
    k8_pay3 v83 y = v83 y * ((16384 : ℕ) : EReal) :=
  plan6_pay3 v83 y

section Plan8

theorem plan8_s1 (X : Vec Ideal S16384x256 .f32) : sink8_1 X = toBlk (expStep fun b k => X (ix2 b k)) :=
  plan6_s1 X

theorem plan8_s2 (X : Vec Ideal S16384x256 .f32) : sink8_2 X = toBlk (normStep (expStep fun b k => X (ix2 b k))) :=
  plan6_s2 X

theorem plan8_s3 (X : Vec Ideal S16384x256 .f32) : sink8_3 X = toBlk (colStep (normStep (expStep fun b k => X (ix2 b k)))) :=
  plan6_s3 X

theorem plan8_s4 (X : Vec Ideal S16384x256 .f32) :
    sink8_4 X = toBlk (rowStep (colStep (normStep (expStep fun b k => X (ix2 b k))))) :=
  plan6_s4 X

theorem plan8_s5 (X : Vec Ideal S16384x256 .f32) :
    sink8_5 X = toBlk (colStep (rowStep (colStep (normStep (expStep fun b k => X (ix2 b k)))))) :=
  plan6_s5 X

theorem plan8_s6 (X : Vec Ideal S16384x256 .f32) :
    sink8_6 X = toBlk (rowStep (colStep (rowStep (colStep (normStep (expStep fun b k => X (ix2 b k))))))) :=
  plan6_s6 X

theorem plan8_s7 (X : Vec Ideal S16384x256 .f32) :
    sink8_7 X = toBlk (colStep (rowStep (colStep (rowStep (colStep (normStep (expStep fun b k => X (ix2 b k)))))))) :=
  plan6_s7 X

theorem plan8_s8 (X : Vec Ideal S16384x256 .f32) :
    sink8_8 X = toBlk (rowStep (colStep (rowStep (colStep (rowStep (colStep (normStep (expStep fun b k => X (ix2 b k))))))))) :=
  plan6_s8 X

theorem plan8_s9 (X : Vec Ideal S16384x256 .f32) : sink8_9 X = toBlk (Cert.Spec.plan fun b k => X (ix2 b k)) :=
  plan6_s9 X

variable (V : (c : Dev nD) → (b : Ref sig .tc) → Buf (Elt Ideal) ((c : Thread nD τ).loc b))

theorem plan8_off0 : ∀ t : Fin cfg8.N, ∀ a : Fin 2, (cfg8.win 0).index t a * (cfg8.win 0).size a = 0 :=
  (by decide +kernel : ∀ t : Fin grid8.N, ∀ a : Fin 2, win8_0.index t a * win8_0.size a = 0)
theorem plan8_off1 : ∀ t : Fin cfg8.N, ∀ a : Fin 2, (cfg8.win 1).index t a * (cfg8.win 1).size a = 0 :=
  (by decide +kernel : ∀ t : Fin grid8.N, ∀ a : Fin 2, win8_1.index t a * win8_1.size a = 0)

theorem plan8_readIn (c : Dev nD) (t : Fin cfg8.N) (A : Buf (Elt Ideal) ((c : Thread nD τ).loc main_v31)) :
    View.read (Elt Ideal) ((cfg8.win 0).blk t).view A = A :=
  Memref.read_access_unit_zero (Elt Ideal) main_v31 (funext (plan8_off0 t)) _ A

theorem plan8_readOut (c : Dev nD) (t : Fin cfg8.N) (G : Buf (Elt Ideal) ((c : Thread nD τ).loc main_v36)) :
    View.read (Elt Ideal) ((cfg8.win 1).blk t).view G = G :=
  Memref.read_access_unit_zero (Elt Ideal) main_v36 (funext (plan8_off1 t)) _ G

theorem plan8_cut (t : Fin cfg8.N) (Z : S16384x256.Idx → EReal) : (cfg8.win 1).cut (grid8.coords t) Z = Z := rfl

theorem plan8_mem (t : Fin cfg8.N) (i : S16384x256.Idx) : i ∈ ((cfg8.win 1).blk t).view.set := by
  show i ∈ ((View.whole main_v36).slice (win8_1.rect t)).set
  rw [View.set_slice_whole]
  exact View.mem_set_unit_zero (funext (plan8_off1 t)) _ i

theorem plan8_cover (c : Dev nD) (i : ((cfg8.win 1).arr.view.loc (c.tc : Thread nD τ)).2.ty.Idx) :
    ∃ t : Fin cfg8.N, (cfg8.win 1).flush t = true ∧ i ∈ ((cfg8.win 1).blk t).view.set :=
  ⟨⟨0, by decide⟩, flush8_1 _, plan8_mem _ i⟩

theorem plan8_flushed (c : Dev nD) (t : Fin cfg8.N) :
    (dat8 (F := Ideal) V c).flushed 1 t
      = ((cfg8.win 1).blk t).view.read (Elt Ideal) (toBlk (Cert.Spec.plan fun b k => V c main_v31 (ix2 b k))) := by
  show (cfg8.win 1).cut (grid8.coords t) ((dat8 V c).after 1 t) = _
  rw [after8_1]; unfold out8_1
  rw [View.canon_unit_zero plan_hz, plan8_s9, plan8_cut]
  unfold iblk8
  exact (congrArg (fun A : Buf (Elt Ideal) ((c : Thread nD τ).loc main_v31) => toBlk (Cert.Spec.plan fun b k => A (ix2 b k)))
    (plan8_readIn c t (V c main_v31))).trans (plan8_readOut c t _).symm

theorem plan_arr8 (c : Dev nD) (b : Fin 16384) (k : Fin 256) :
    (dat8 (F := Ideal) V c).arrAt 1 cfg8.N (ix2 b k) = Cert.Spec.plan (fun b' k' => V c main_v31 (ix2 b' k')) b k := by
  have hfin : (dat8 (F := Ideal) V c).arrAt 1 cfg8.N = toBlk (Cert.Spec.plan fun b' k' => V c main_v31 (ix2 b' k')) :=
    (dat8 V c).arrAt_eq_of_cover 1 _ (fun t _ => plan8_flushed V c t) (plan8_cover c)
  exact congrFun hfin (ix2 b k)

end Plan8

end Cert.KernelIdeal.Hand

end
-- ==== Proof.Val.Plan9.lean ====
import proofs.«402369_j86406152061536_3_alg».proof.Proof.KI.Reg9
import proofs.«402369_j86406152061536_3_alg».proof.Proof.Val.Plan6

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem plan9_pay4 (v0 : Vec Ideal S16384x256 .f32) (y : S16384x256.Idx) :
    k9_pay4 v0 y = Ideal.exp (v0 y * Cert.Spec.invT) :=
  plan6_pay4 v0 y

theorem plan9_pay5 (v6 v12 : Vec Ideal S16384x256 .f32) (y : S16384x256.Idx) :
    k9_pay5 v6 v12 y = Ideal.div (v12 y) (∑ b : Fin 16384, ∑ k : Fin 256, v6 (ix2 b k)) :=
  plan6_pay5 v6 v12 y

theorem plan9_pay6 (v17 v21 : Vec Ideal S16384x256 .f32) (y : S16384x256.Idx) :
    k9_pay6 v17 v21 y = Ideal.div (v21 y) ((∑ b : Fin 16384, v17 (ix2 b (y 1))) * ((256 : ℕ) : EReal)) :=
  plan6_pay6 v17 v21 y

theorem plan9_pay7 (v28 : Vec Ideal S16384x256 .f32) (j : S16384x1.Idx) :
    k9_pay7 v28 j = ∑ k : Fin 256, v28 (ix2 (j 0) k) :=
  plan6_pay7 v28 j

theorem plan9_pay8 (v31 : FVec Ideal S16384x1 .f32) (v32 : Vec Ideal S16384x256 .f32) (y : S16384x256.Idx) :
    k9_pay8 v31 v32 y = Ideal.div (v32 y) (v31 (ix2 (y 0) (0 : Fin 1)) * ((16384 : ℕ) : EReal)) :=
  plan6_pay8 v31 v32 y

theorem plan9_pay9 (v39 v43 : Vec Ideal S16384x256 .f32) (y : S16384x256.Idx) :
    k9_pay9 v39 v43 y = Ideal.div (v43 y) ((∑ b : Fin 16384, v39 (ix2 b (y 1))) * ((256 : ℕ) : EReal)) :=
  plan6_pay9 v39 v43 y

theorem plan9_pay10 (v50 v54 : Vec Ideal S16384x256 .f32) (y : S16384x256.Idx) :
    k9_pay10 v50 v54 y = Ideal.div (v54 y) ((∑ k : Fin 256, v50 (ix2 (y 0) k)) * ((16384 : ℕ) : EReal)) :=
  plan6_pay10 v50 v54 y

theorem plan9_pay11 (v61 : Vec Ideal S16384x256 .f32) (j : S1x256.Idx) :
    k9_pay11 v61 j = ∑ b : Fin 16384, v61 (ix2 b (j 1)) :=
  plan6_pay11 v61 j

theorem plan9_pay1 (v64 : FVec Ideal S1x256 .f32) (v65 : Vec Ideal S16384x256 .f32) (y : S16384x256.Idx) :
    k9_pay1 v64 v65 y = Ideal.div (v65 y) (v64 (ix2 (0 : Fin 1) (y 1)) * ((256 : ℕ) : EReal)) :=
  plan6_pay1 v64 v65 y

theorem plan9_pay2 (v72 v76 : Vec Ideal S16384x256 .f32) (y : S16384x256.Idx) :
    k9_pay2 v72 v76 y = Ideal.div (v76 y) ((∑ k : Fin 256, v72 (ix2 (y 0) k)) * ((16384 : ℕ) : EReal)) :=
  plan6_pay2 v72 v76 y

theorem plan9_pay3 (v83 : Vec Ideal S16384x256 .f32) (y : S16384x256.Idx) :
    k9_pay3 v83 y = v83 y * ((16384 : ℕ) : EReal) :=
  plan6_pay3 v83 y

section Plan9

theorem plan9_s1 (X : Vec Ideal S16384x256 .f32) : sink9_1 X = toBlk (expStep fun b k => X (ix2 b k)) :=
  plan6_s1 X

theorem plan9_s2 (X : Vec Ideal S16384x256 .f32) : sink9_2 X = toBlk (normStep (expStep fun b k => X (ix2 b k))) :=
  plan6_s2 X

theorem plan9_s3 (X : Vec Ideal S16384x256 .f32) : sink9_3 X = toBlk (colStep (normStep (expStep fun b k => X (ix2 b k)))) :=
  plan6_s3 X

theorem plan9_s4 (X : Vec Ideal S16384x256 .f32) :
    sink9_4 X = toBlk (rowStep (colStep (normStep (expStep fun b k => X (ix2 b k))))) :=
  plan6_s4 X

theorem plan9_s5 (X : Vec Ideal S16384x256 .f32) :
    sink9_5 X = toBlk (colStep (rowStep (colStep (normStep (expStep fun b k => X (ix2 b k)))))) :=
  plan6_s5 X

theorem plan9_s6 (X : Vec Ideal S16384x256 .f32) :
    sink9_6 X = toBlk (rowStep (colStep (rowStep (colStep (normStep (expStep fun b k => X (ix2 b k))))))) :=
  plan6_s6 X

theorem plan9_s7 (X : Vec Ideal S16384x256 .f32) :
    sink9_7 X = toBlk (colStep (rowStep (colStep (rowStep (colStep (normStep (expStep fun b k => X (ix2 b k)))))))) :=
  plan6_s7 X

theorem plan9_s8 (X : Vec Ideal S16384x256 .f32) :
    sink9_8 X = toBlk (rowStep (colStep (rowStep (colStep (rowStep (colStep (normStep (expStep fun b k => X (ix2 b k))))))))) :=
  plan6_s8 X

theorem plan9_s9 (X : Vec Ideal S16384x256 .f32) : sink9_9 X = toBlk (Cert.Spec.plan fun b k => X (ix2 b k)) :=
  plan6_s9 X

variable (V : (c : Dev nD) → (b : Ref sig .tc) → Buf (Elt Ideal) ((c : Thread nD τ).loc b))

theorem plan9_off0 : ∀ t : Fin cfg9.N, ∀ a : Fin 2, (cfg9.win 0).index t a * (cfg9.win 0).size a = 0 :=
  (by decide +kernel : ∀ t : Fin grid9.N, ∀ a : Fin 2, win9_0.index t a * win9_0.size a = 0)
theorem plan9_off1 : ∀ t : Fin cfg9.N, ∀ a : Fin 2, (cfg9.win 1).index t a * (cfg9.win 1).size a = 0 :=
  (by decide +kernel : ∀ t : Fin grid9.N, ∀ a : Fin 2, win9_1.index t a * win9_1.size a = 0)

theorem plan9_readIn (c : Dev nD) (t : Fin cfg9.N) (A : Buf (Elt Ideal) ((c : Thread nD τ).loc main_v32)) :
    View.read (Elt Ideal) ((cfg9.win 0).blk t).view A = A :=
  Memref.read_access_unit_zero (Elt Ideal) main_v32 (funext (plan9_off0 t)) _ A

theorem plan9_readOut (c : Dev nD) (t : Fin cfg9.N) (G : Buf (Elt Ideal) ((c : Thread nD τ).loc main_v37)) :
    View.read (Elt Ideal) ((cfg9.win 1).blk t).view G = G :=
  Memref.read_access_unit_zero (Elt Ideal) main_v37 (funext (plan9_off1 t)) _ G

theorem plan9_cut (t : Fin cfg9.N) (Z : S16384x256.Idx → EReal) : (cfg9.win 1).cut (grid9.coords t) Z = Z := rfl

theorem plan9_mem (t : Fin cfg9.N) (i : S16384x256.Idx) : i ∈ ((cfg9.win 1).blk t).view.set := by
  show i ∈ ((View.whole main_v37).slice (win9_1.rect t)).set
  rw [View.set_slice_whole]
  exact View.mem_set_unit_zero (funext (plan9_off1 t)) _ i

theorem plan9_cover (c : Dev nD) (i : ((cfg9.win 1).arr.view.loc (c.tc : Thread nD τ)).2.ty.Idx) :
    ∃ t : Fin cfg9.N, (cfg9.win 1).flush t = true ∧ i ∈ ((cfg9.win 1).blk t).view.set :=
  ⟨⟨0, by decide⟩, flush9_1 _, plan9_mem _ i⟩

theorem plan9_flushed (c : Dev nD) (t : Fin cfg9.N) :
    (dat9 (F := Ideal) V c).flushed 1 t
      = ((cfg9.win 1).blk t).view.read (Elt Ideal) (toBlk (Cert.Spec.plan fun b k => V c main_v32 (ix2 b k))) := by
  show (cfg9.win 1).cut (grid9.coords t) ((dat9 V c).after 1 t) = _
  rw [after9_1]; unfold out9_1
  rw [View.canon_unit_zero plan_hz, plan9_s9, plan9_cut]
  unfold iblk9
  exact (congrArg (fun A : Buf (Elt Ideal) ((c : Thread nD τ).loc main_v32) => toBlk (Cert.Spec.plan fun b k => A (ix2 b k)))
    (plan9_readIn c t (V c main_v32))).trans (plan9_readOut c t _).symm

theorem plan_arr9 (c : Dev nD) (b : Fin 16384) (k : Fin 256) :
    (dat9 (F := Ideal) V c).arrAt 1 cfg9.N (ix2 b k) = Cert.Spec.plan (fun b' k' => V c main_v32 (ix2 b' k')) b k := by
  have hfin : (dat9 (F := Ideal) V c).arrAt 1 cfg9.N = toBlk (Cert.Spec.plan fun b' k' => V c main_v32 (ix2 b' k')) :=
    (dat9 V c).arrAt_eq_of_cover 1 _ (fun t _ => plan9_flushed V c t) (plan9_cover c)
  exact congrFun hfin (ix2 b k)

end Plan9

end Cert.KernelIdeal.Hand

end
-- ==== Proof.Val.Plan10.lean ====
import proofs.«402369_j86406152061536_3_alg».proof.Proof.KI.Reg10
import proofs.«402369_j86406152061536_3_alg».proof.Proof.Val.Plan6

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem plan10_pay4 (v0 : Vec Ideal S16384x256 .f32) (y : S16384x256.Idx) :
    k10_pay4 v0 y = Ideal.exp (v0 y * Cert.Spec.invT) :=
  plan6_pay4 v0 y

theorem plan10_pay5 (v6 v12 : Vec Ideal S16384x256 .f32) (y : S16384x256.Idx) :
    k10_pay5 v6 v12 y = Ideal.div (v12 y) (∑ b : Fin 16384, ∑ k : Fin 256, v6 (ix2 b k)) :=
  plan6_pay5 v6 v12 y

theorem plan10_pay6 (v17 v21 : Vec Ideal S16384x256 .f32) (y : S16384x256.Idx) :
    k10_pay6 v17 v21 y = Ideal.div (v21 y) ((∑ b : Fin 16384, v17 (ix2 b (y 1))) * ((256 : ℕ) : EReal)) :=
  plan6_pay6 v17 v21 y

theorem plan10_pay7 (v28 : Vec Ideal S16384x256 .f32) (j : S16384x1.Idx) :
    k10_pay7 v28 j = ∑ k : Fin 256, v28 (ix2 (j 0) k) :=
  plan6_pay7 v28 j

theorem plan10_pay8 (v31 : FVec Ideal S16384x1 .f32) (v32 : Vec Ideal S16384x256 .f32) (y : S16384x256.Idx) :
    k10_pay8 v31 v32 y = Ideal.div (v32 y) (v31 (ix2 (y 0) (0 : Fin 1)) * ((16384 : ℕ) : EReal)) :=
  plan6_pay8 v31 v32 y

theorem plan10_pay9 (v39 v43 : Vec Ideal S16384x256 .f32) (y : S16384x256.Idx) :
    k10_pay9 v39 v43 y = Ideal.div (v43 y) ((∑ b : Fin 16384, v39 (ix2 b (y 1))) * ((256 : ℕ) : EReal)) :=
  plan6_pay9 v39 v43 y

theorem plan10_pay10 (v50 v54 : Vec Ideal S16384x256 .f32) (y : S16384x256.Idx) :
    k10_pay10 v50 v54 y = Ideal.div (v54 y) ((∑ k : Fin 256, v50 (ix2 (y 0) k)) * ((16384 : ℕ) : EReal)) :=
  plan6_pay10 v50 v54 y

theorem plan10_pay11 (v61 : Vec Ideal S16384x256 .f32) (j : S1x256.Idx) :
    k10_pay11 v61 j = ∑ b : Fin 16384, v61 (ix2 b (j 1)) :=
  plan6_pay11 v61 j

theorem plan10_pay1 (v64 : FVec Ideal S1x256 .f32) (v65 : Vec Ideal S16384x256 .f32) (y : S16384x256.Idx) :
    k10_pay1 v64 v65 y = Ideal.div (v65 y) (v64 (ix2 (0 : Fin 1) (y 1)) * ((256 : ℕ) : EReal)) :=
  plan6_pay1 v64 v65 y

theorem plan10_pay2 (v72 v76 : Vec Ideal S16384x256 .f32) (y : S16384x256.Idx) :
    k10_pay2 v72 v76 y = Ideal.div (v76 y) ((∑ k : Fin 256, v72 (ix2 (y 0) k)) * ((16384 : ℕ) : EReal)) :=
  plan6_pay2 v72 v76 y

theorem plan10_pay3 (v83 : Vec Ideal S16384x256 .f32) (y : S16384x256.Idx) :
    k10_pay3 v83 y = v83 y * ((16384 : ℕ) : EReal) :=
  plan6_pay3 v83 y

section Plan10

theorem plan10_s1 (X : Vec Ideal S16384x256 .f32) : sink10_1 X = toBlk (expStep fun b k => X (ix2 b k)) :=
  plan6_s1 X

theorem plan10_s2 (X : Vec Ideal S16384x256 .f32) : sink10_2 X = toBlk (normStep (expStep fun b k => X (ix2 b k))) :=
  plan6_s2 X

theorem plan10_s3 (X : Vec Ideal S16384x256 .f32) : sink10_3 X = toBlk (colStep (normStep (expStep fun b k => X (ix2 b k)))) :=
  plan6_s3 X

theorem plan10_s4 (X : Vec Ideal S16384x256 .f32) :
    sink10_4 X = toBlk (rowStep (colStep (normStep (expStep fun b k => X (ix2 b k))))) :=
  plan6_s4 X

theorem plan10_s5 (X : Vec Ideal S16384x256 .f32) :
    sink10_5 X = toBlk (colStep (rowStep (colStep (normStep (expStep fun b k => X (ix2 b k)))))) :=
  plan6_s5 X

theorem plan10_s6 (X : Vec Ideal S16384x256 .f32) :
    sink10_6 X = toBlk (rowStep (colStep (rowStep (colStep (normStep (expStep fun b k => X (ix2 b k))))))) :=
  plan6_s6 X

theorem plan10_s7 (X : Vec Ideal S16384x256 .f32) :
    sink10_7 X = toBlk (colStep (rowStep (colStep (rowStep (colStep (normStep (expStep fun b k => X (ix2 b k)))))))) :=
  plan6_s7 X

theorem plan10_s8 (X : Vec Ideal S16384x256 .f32) :
    sink10_8 X = toBlk (rowStep (colStep (rowStep (colStep (rowStep (colStep (normStep (expStep fun b k => X (ix2 b k))))))))) :=
  plan6_s8 X

theorem plan10_s9 (X : Vec Ideal S16384x256 .f32) : sink10_9 X = toBlk (Cert.Spec.plan fun b k => X (ix2 b k)) :=
  plan6_s9 X

variable (V : (c : Dev nD) → (b : Ref sig .tc) → Buf (Elt Ideal) ((c : Thread nD τ).loc b))

theorem plan10_off0 : ∀ t : Fin cfg10.N, ∀ a : Fin 2, (cfg10.win 0).index t a * (cfg10.win 0).size a = 0 :=
  (by decide +kernel : ∀ t : Fin grid10.N, ∀ a : Fin 2, win10_0.index t a * win10_0.size a = 0)
theorem plan10_off1 : ∀ t : Fin cfg10.N, ∀ a : Fin 2, (cfg10.win 1).index t a * (cfg10.win 1).size a = 0 :=
  (by decide +kernel : ∀ t : Fin grid10.N, ∀ a : Fin 2, win10_1.index t a * win10_1.size a = 0)

theorem plan10_readIn (c : Dev nD) (t : Fin cfg10.N) (A : Buf (Elt Ideal) ((c : Thread nD τ).loc main_v33)) :
    View.read (Elt Ideal) ((cfg10.win 0).blk t).view A = A :=
  Memref.read_access_unit_zero (Elt Ideal) main_v33 (funext (plan10_off0 t)) _ A

theorem plan10_readOut (c : Dev nD) (t : Fin cfg10.N) (G : Buf (Elt Ideal) ((c : Thread nD τ).loc main_v38)) :
    View.read (Elt Ideal) ((cfg10.win 1).blk t).view G = G :=
  Memref.read_access_unit_zero (Elt Ideal) main_v38 (funext (plan10_off1 t)) _ G

theorem plan10_cut (t : Fin cfg10.N) (Z : S16384x256.Idx → EReal) : (cfg10.win 1).cut (grid10.coords t) Z = Z := rfl

theorem plan10_mem (t : Fin cfg10.N) (i : S16384x256.Idx) : i ∈ ((cfg10.win 1).blk t).view.set := by
  show i ∈ ((View.whole main_v38).slice (win10_1.rect t)).set
  rw [View.set_slice_whole]
  exact View.mem_set_unit_zero (funext (plan10_off1 t)) _ i

theorem plan10_cover (c : Dev nD) (i : ((cfg10.win 1).arr.view.loc (c.tc : Thread nD τ)).2.ty.Idx) :
    ∃ t : Fin cfg10.N, (cfg10.win 1).flush t = true ∧ i ∈ ((cfg10.win 1).blk t).view.set :=
  ⟨⟨0, by decide⟩, flush10_1 _, plan10_mem _ i⟩

theorem plan10_flushed (c : Dev nD) (t : Fin cfg10.N) :
    (dat10 (F := Ideal) V c).flushed 1 t
      = ((cfg10.win 1).blk t).view.read (Elt Ideal) (toBlk (Cert.Spec.plan fun b k => V c main_v33 (ix2 b k))) := by
  show (cfg10.win 1).cut (grid10.coords t) ((dat10 V c).after 1 t) = _
  rw [after10_1]; unfold out10_1
  rw [View.canon_unit_zero plan_hz, plan10_s9, plan10_cut]
  unfold iblk10
  exact (congrArg (fun A : Buf (Elt Ideal) ((c : Thread nD τ).loc main_v33) => toBlk (Cert.Spec.plan fun b k => A (ix2 b k)))
    (plan10_readIn c t (V c main_v33))).trans (plan10_readOut c t _).symm

theorem plan_arr10 (c : Dev nD) (b : Fin 16384) (k : Fin 256) :
    (dat10 (F := Ideal) V c).arrAt 1 cfg10.N (ix2 b k) = Cert.Spec.plan (fun b' k' => V c main_v33 (ix2 b' k')) b k := by
  have hfin : (dat10 (F := Ideal) V c).arrAt 1 cfg10.N = toBlk (Cert.Spec.plan fun b' k' => V c main_v33 (ix2 b' k')) :=
    (dat10 V c).arrAt_eq_of_cover 1 _ (fun t _ => plan10_flushed V c t) (plan10_cover c)
  exact congrFun hfin (ix2 b k)

end Plan10

end Cert.KernelIdeal.Hand

end
-- ==== Proof.Val.Plan.lean ====
import proofs.«402369_j86406152061536_3_alg».proof.Proof.Val.Plan6
import proofs.«402369_j86406152061536_3_alg».proof.Proof.Val.Plan7
import proofs.«402369_j86406152061536_3_alg».proof.Proof.Val.Plan8
import proofs.«402369_j86406152061536_3_alg».proof.Proof.Val.Plan9
import proofs.«402369_j86406152061536_3_alg».proof.Proof.Val.Plan10
-- ==== Proof.Val.CrossEntropyCommon.lean ====
import proofs.«402369_j86406152061536_3_alg».proof.Proof.Gen.KernelIdeal
import proofs.«402369_j86406152061536_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen
open Idealize.ShloMosaic Idealize.ShloMosaic.ValueIdx

section Layout
variable {α : Type}

theorem ce_cast_S1_S1x1 (v : S1.Idx → α) (h : S1.ShapeCasts S1x1) (j : S1x1.Idx) : shapeCast S1x1 v h j = v (ix1 0) :=
  shapeCast_apply v h j (ix1 0) (by
    rw [Shape.rowMajor_val_one, Shape.rowMajor_val_two]
    have h0 : (j 0).val < 1 := (j 0).isLt
    have h1 : (j 1).val < 1 := (j 1).isLt
    show (0 : ℕ) = (j 0).val * 1 + (j 1).val
    omega)

theorem ce_cast_S2048_S2048x1 (v : S2048.Idx → α) (h : S2048.ShapeCasts S2048x1) (i : S2048x1.Idx) :
    shapeCast S2048x1 v h i = v (ix1 (i 0)) :=
  shapeCast_apply v h i (ix1 (i 0)) (by
    rw [Shape.rowMajor_val_one, Shape.rowMajor_val_two]
    have h1 : (i 1).val < 1 := (i 1).isLt
    show (i 0).val = (i 0).val * 1 + (i 1).val
    omega)

theorem ce_bcast_S2048x1_S2048x256 (v : S2048x1.Idx → α) (h : S2048x1.Broadcasts S2048x256) (r : Fin 2048) (k : Fin 256) :
    broadcastTo S2048x256 v h (ix2 r k) = v (ix2 r 0) :=
  broadcastTo_apply v h (ix2 r k) (ix2 r 0) (fun a => by
    match a with
    | ⟨0, _⟩ => rfl
    | ⟨1, _⟩ => rfl)

end Layout

theorem ce_ofBits_negInf : Ideal.ofBits .f32 0xFF800000#32 = ⊥ := by simp [Ideal.ofBits, Ideal.ieee]

theorem ce_rowSum_apply (src : FVec Ideal S2048x256 .f32) (hφ : FKind.Formats .f32)
    (hacc : (0x00000000#32 : BitVec FTy.f32.bits) = FKind.add.neutral .f32 hφ) (r : Fin 2048) :
    multiReduction .add [1] S2048 src 0x00000000#32 reduces_S2048x256_S2048 hφ hacc (ix1 r) = ∑ k : Fin 256, src (ix2 r k) :=
  (Ideal.multiReduction_add_single src _ reduces_S2048x256_S2048 hφ hacc (ix1 r)).trans
    (Finset.sum_congr rfl fun k _ => congrArg src (Shape.idx_ext₂ rfl rfl))

theorem ce_rowMax_apply (src : FVec Ideal S2048x256 .f32) (hφ : FKind.Formats .f32)
    (hacc : (0xFF800000#32 : BitVec FTy.f32.bits) = FKind.maximumf.neutral .f32 hφ) (r : Fin 2048) :
    multiReduction .maximumf [1] S2048 src 0xFF800000#32 reduces_S2048x256_S2048 hφ hacc (ix1 r)
      = Finset.univ.sup (fun k : Fin 256 => src (ix2 r k)) := by
  refine (Ideal.multiReduction_maximumf_single src _ reduces_S2048x256_S2048 hφ hacc (ix1 r)).trans ?_
  rw [Ideal.ofBits_def, ce_ofBits_negInf]
  show (Finset.univ : Finset (Fin 256)).fold max ⊥ (src ∘ reduces_S2048x256_S2048.lift (ix1 r)) = _
  rw [show (src ∘ reduces_S2048x256_S2048.lift (ix1 r)) = fun k : Fin 256 => src (ix2 r k) from
    funext fun k => congrArg src (Shape.idx_ext₂ rfl rfl)]
  rfl

theorem ce_colSum_apply (src : FVec Ideal S2048x1 .f32) (hφ : FKind.Formats .f32)
    (hacc : (0x00000000#32 : BitVec FTy.f32.bits) = FKind.add.neutral .f32 hφ) :
    multiReduction .add [0] S1 src 0x00000000#32 reduces_S2048x1_S1 hφ hacc (ix1 0) = ∑ r : Fin 2048, src (ix2 r 0) :=
  (Ideal.multiReduction_add_single src _ reduces_S2048x1_S1 hφ hacc (ix1 0)).trans
    (Finset.sum_congr rfl fun r _ => congrArg src (Shape.idx_ext₂ rfl rfl))

def ce_lsm {n : ℕ} (x : Fin n → Fin 256 → EReal) (b : Fin n) (k : Fin 256) : EReal :=
  x b k - Finset.univ.sup (fun k' : Fin 256 => x b k')
    - Ideal.log (∑ k' : Fin 256, Ideal.exp (x b k' - Finset.univ.sup (fun k'' : Fin 256 => x b k'')))

theorem ce_lsm_spec (x : Fin Cert.Spec.B → Fin Cert.Spec.K → EReal) (b : Fin Cert.Spec.B) (k : Fin Cert.Spec.K) :
    Cert.Spec.logSoftmax x b k = ce_lsm x b k := rfl

def ce_rowN (t : ℕ) (r : Fin 2048) : Fin 16384 := Fin.ofNat 16384 (2048 * t + r.val)

theorem ce_rowN_val (t : ℕ) (ht : t < 8) (r : Fin 2048) : (ce_rowN t r).val = 2048 * t + r.val := by
  have := r.isLt
  show (2048 * t + r.val) % 16384 = _
  exact Nat.mod_eq_of_lt (by omega)

def ce_blockTermN (q code : Fin 16384 → Fin 256 → EReal) (g : EReal) (t : ℕ) : EReal :=
  ∑ r : Fin 2048, ∑ k : Fin 256, q (ce_rowN t r) k * ce_lsm (fun b' k' => Ideal.div (code b' k') g) (ce_rowN t r) k

def ce_blockEquiv : Fin 8 × Fin 2048 ≃ Fin 16384 where
  toFun p := ⟨2048 * p.1.val + p.2.val, by have := p.1.isLt; have := p.2.isLt; omega⟩
  invFun b := (⟨b.val / 2048, by have := b.isLt; omega⟩, ⟨b.val % 2048, Nat.mod_lt _ (by decide)⟩)
  left_inv p := by
    have h1 := p.1.isLt; have h2 := p.2.isLt
    refine Prod.ext (Fin.ext ?_) (Fin.ext ?_)
    · show (2048 * p.1.val + p.2.val) / 2048 = p.1.val; omega
    · show (2048 * p.1.val + p.2.val) % 2048 = p.2.val; omega
  right_inv b := by
    refine Fin.ext ?_
    show 2048 * (b.val / 2048) + b.val % 2048 = b.val; omega

theorem ce_sum_blocks (f : Fin 16384 → EReal) :
    ∑ s ∈ Finset.range 8, ∑ r : Fin 2048, f (ce_rowN s r) = ∑ b : Fin 16384, f b := by
  rw [← Fin.sum_univ_eq_sum_range (fun s => ∑ r : Fin 2048, f (ce_rowN s r)) 8]
  rw [← Fintype.sum_prod_type' (f := fun (t : Fin 8) (r : Fin 2048) => f (ce_rowN t.val r))]
  exact Fintype.sum_equiv ce_blockEquiv _ _ (fun p => congrArg f (Fin.ext (ce_rowN_val p.1.val p.1.isLt p.2)))

theorem ce_ofBits_2pm14 : Ideal.ofBits .f32 0x38800000#32 = ((1 / 16384 : ℝ) : EReal) := by
  simp [Ideal.ofBits, Ideal.ieee, -EReal.coe_mul]; norm_num

theorem ce_rows_coe : ((Cert.Spec.B : ℕ) : EReal) = ((16384 : ℝ) : EReal) := by
  show ((16384 : ℕ) : EReal) = ((16384 : ℝ) : EReal)
  norm_cast

theorem ce_of_blocks (q code : Fin 16384 → Fin 256 → EReal) (g : EReal) :
    Ideal.ofBits .f32 0x00000000#32 - (0 + ∑ s ∈ Finset.range 8, ce_blockTermN q code g s) * Ideal.ofBits .f32 0x38800000#32
      = Cert.Spec.crossEntropy q code g := by
  have hs : ∑ s ∈ Finset.range 8, ce_blockTermN q code g s
      = ∑ b : Fin 16384, ∑ k : Fin 256, q b k * ce_lsm (fun b' k' => Ideal.div (code b' k') g) b k :=
    ce_sum_blocks (fun b => ∑ k : Fin 256, q b k * ce_lsm (fun b' k' => Ideal.div (code b' k') g) b k)
  rw [hs, Ideal.ofBits_zero_f32, ce_ofBits_2pm14, zero_add, zero_sub]
  show -(_ * _) = -(Ideal.div (∑ b : Fin 16384, ∑ k : Fin 256, q b k * ce_lsm (fun b' k' => Ideal.div (code b' k') g) b k) ((Cert.Spec.B : ℕ) : EReal))
  rw [ce_rows_coe, Ideal.div_coe (by norm_num : (16384 : ℝ) ≠ 0)]

theorem ce_extract00 {α : Type} (g : S1x1.Idx → α) (h : ∀ a, (![0, 0] : Fin 2 → ℕ) a < S1x1.size a) :
    extractAt ![0, 0] g h = g (ix2 0 0) :=
  congrArg g (Shape.idx_ext₂ rfl rfl)

theorem ce_rowMaxCol_apply (D : FVec Ideal S2048x256 .f32) (hφ : FKind.Formats .f32)
    (hm : (0xFF800000#32 : BitVec FTy.f32.bits) = FKind.maximumf.neutral .f32 hφ)
    (h1 : S2048.ShapeCasts S2048x1) (h2 : S2048x1.Broadcasts S2048x256) (r : Fin 2048) (k : Fin 256) :
    broadcastTo S2048x256 (shapeCast S2048x1 (multiReduction .maximumf [1] S2048 D 0xFF800000#32 reduces_S2048x256_S2048 hφ hm) h1) h2 (ix2 r k)
      = Finset.univ.sup (fun k' : Fin 256 => D (ix2 r k')) :=
  (ce_bcast_S2048x1_S2048x256 _ h2 r k).trans ((ce_cast_S2048_S2048x1 _ h1 (ix2 r 0)).trans (ce_rowMax_apply D hφ hm r))

theorem ce_logRowSumCol_apply (E : FVec Ideal S2048x256 .f32) (hφ : FKind.Formats .f32)
    (ha : (0x00000000#32 : BitVec FTy.f32.bits) = FKind.add.neutral .f32 hφ)
    (h1 : S2048.ShapeCasts S2048x1) (h2 : S2048x1.Broadcasts S2048x256) (r : Fin 2048) (k : Fin 256) :
    broadcastTo S2048x256 (log (shapeCast S2048x1 (multiReduction .add [1] S2048 E 0x00000000#32 reduces_S2048x256_S2048 hφ ha) h1)) h2 (ix2 r k)
      = Ideal.log (∑ k' : Fin 256, E (ix2 r k')) :=
  (ce_bcast_S2048x1_S2048x256 _ h2 r k).trans
    (congrArg Ideal.log ((ce_cast_S2048_S2048x1 _ h1 (ix2 r 0)).trans (ce_rowSum_apply E hφ ha r)))

theorem ce_term_apply (q D : FVec Ideal S2048x256 .f32) (hφ : FKind.Formats .f32)
    (hm : (0xFF800000#32 : BitVec FTy.f32.bits) = FKind.maximumf.neutral .f32 hφ)
    (ha : (0x00000000#32 : BitVec FTy.f32.bits) = FKind.add.neutral .f32 hφ)
    (h1 : S2048.ShapeCasts S2048x1) (h2 : S2048x1.Broadcasts S2048x256) (r : Fin 2048) (k : Fin 256) :
    mulf q (subf
        (subf D (broadcastTo S2048x256 (shapeCast S2048x1 (multiReduction .maximumf [1] S2048 D 0xFF800000#32 reduces_S2048x256_S2048 hφ hm) h1) h2))
        (broadcastTo S2048x256 (log (shapeCast S2048x1 (multiReduction .add [1] S2048
          (exp (subf D (broadcastTo S2048x256 (shapeCast S2048x1 (multiReduction .maximumf [1] S2048 D 0xFF800000#32 reduces_S2048x256_S2048 hφ hm) h1) h2)))
          0x00000000#32 reduces_S2048x256_S2048 hφ ha) h1)) h2)) (ix2 r k)
      = q (ix2 r k) * ce_lsm (fun r' k' => D (ix2 r' k')) r k := by
  have hM : ∀ k' : Fin 256, broadcastTo S2048x256 (shapeCast S2048x1 (multiReduction .maximumf [1] S2048 D 0xFF800000#32 reduces_S2048x256_S2048 hφ hm) h1) h2 (ix2 r k')
      = Finset.univ.sup (fun k'' : Fin 256 => D (ix2 r k'')) := fun k' => ce_rowMaxCol_apply D hφ hm h1 h2 r k'
  generalize broadcastTo S2048x256 (shapeCast S2048x1 (multiReduction .maximumf [1] S2048 D 0xFF800000#32 reduces_S2048x256_S2048 hφ hm) h1) h2 = M at hM ⊢
  have hL := ce_logRowSumCol_apply (exp (subf D M)) hφ ha h1 h2 r k
  generalize broadcastTo S2048x256 (log (shapeCast S2048x1 (multiReduction .add [1] S2048 (exp (subf D M)) 0x00000000#32 reduces_S2048x256_S2048 hφ ha) h1)) h2 = L at hL ⊢
  show q (ix2 r k) * ((D (ix2 r k) - M (ix2 r k)) - L (ix2 r k)) = _
  rw [hM k, hL]
  unfold ce_lsm
  congr 3
  refine Finset.sum_congr rfl fun k' _ => ?_
  show Ideal.exp (D (ix2 r k') - M (ix2 r k')) = _
  rw [hM k']

end Cert.KernelIdeal.Val

end
-- ==== Proof.Val.CrossEntropy.lean ====
import proofs.«402369_j86406152061536_3_alg».proof.Proof.KI.Reg11
import proofs.«402369_j86406152061536_3_alg».proof.Proof.Val.CrossEntropyCommon
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

theorem pay1_11 (j : S1x1.Idx) : k11_pay1 (F := Ideal) j = 0 := by
  unfold k11_pay1
  simp only [broadcast_apply, shapeCast_self, Scalar.ofBits, Ideal.ofBits_def, Ideal.ofBits_zero_f32]

theorem pay3_11 (s : Vec Ideal S1x1 .f32) (j : S1x1.Idx) :
    k11_pay3 (F := Ideal) s j = Ideal.ofBits .f32 0x00000000#32 - s j * Ideal.ofBits .f32 0x38800000#32 := by
  unfold k11_pay3
  simp only [subf_apply, mulf_apply, broadcast_apply, Scalar.ofBits, Ideal.ofBits_def]

theorem pay2_11 (g : Vec Ideal S1x1 .f32) (code q : Vec Ideal S2048x256 .f32) (s : Vec Ideal S1x1 .f32) (j : S1x1.Idx) :
    k11_pay2 (F := Ideal) g code q s j
      = s j + ∑ r : Fin 2048, ∑ k : Fin 256,
          q (ix2 r k) * ce_lsm (fun r' k' => Ideal.div (code (ix2 r' k')) (g (ix2 0 0))) r k := by
  unfold k11_pay2
  simp only [shapeCast_self, addf_apply]
  congr 1
  refine (ce_cast_S1_S1x1 _ _ j).trans ?_
  refine (ce_colSum_apply _ _ _).trans ?_
  refine Finset.sum_congr rfl fun r _ => ?_
  refine (ce_cast_S2048_S2048x1 _ _ _).trans ?_
  refine (ce_rowSum_apply _ _ _ r).trans ?_
  refine Finset.sum_congr rfl fun k _ => ?_
  refine (ce_term_apply q _ _ _ _ _ _ r k).trans ?_
  refine congrArg (fun X : Fin 2048 → Fin 256 → EReal => q (ix2 r k) * ce_lsm X r k) (funext fun r' => funext fun k' => ?_)
  show Ideal.div (code (ix2 r' k')) (extractAt ![0, 0] g inpos_S1x1_p0_0) = _
  rw [ce_extract00]

variable (V : (c : Dev nD) → (b : Ref sig .tc) → Buf (Elt Ideal) ((c : Thread nD τ).loc b))

abbrev qblk11 (c : Dev nD) (t : Fin cfg11.N) : FVec Ideal S2048x256 .f32 := iblk11 V c 0 t
abbrev cblk11 (c : Dev nD) (t : Fin cfg11.N) : FVec Ideal S2048x256 .f32 := iblk11 V c 1 t
abbrev gblk11 (c : Dev nD) (t : Fin cfg11.N) : FVec Ideal S1x1 .f32 := iblk11 V c 2 t

abbrev qarr11 (c : Dev nD) : Fin 16384 → Fin 256 → EReal := fun b k => V c main_v34 (ix2 b k)
abbrev carr11 (c : Dev nD) : Fin 16384 → Fin 256 → EReal := fun b k => V c main_v30 (ix2 b k)
abbrev garr11 (c : Dev nD) : EReal := V c main_v1 (ix2 0 0)

theorem blk_facts11 : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0 :=
  (by decide +kernel : ∀ t : Fin grid11.N, _)

theorem qblk11_at (c : Dev nD) (t : Fin cfg11.N) (r : Fin 2048) (k : Fin 256) :
    qblk11 V c t (ix2 r k) = qarr11 V c (ce_rowN t.val r) k := by
  obtain ⟨e0, e1, -⟩ := blk_facts11 t
  have ht : t.val < 8 := lt_of_lt_of_eq t.isLt (show cfg11.N = 8 from N_11)
  show V c main_v34 (((cfg11.win 0).blk t).view.emb (ix2 r k)) = V c main_v34 _
  refine congrArg _ (funext fun a => Fin.ext ?_)
  match a with
  | ⟨0, _⟩ =>
    show win11_0.index t (0 : Fin 2) * 2048 + 1 * r.val = (ce_rowN t.val r).val
    rw [e0, ce_rowN_val _ ht]; omega
  | ⟨1, _⟩ =>
    show win11_0.index t (1 : Fin 2) * 256 + 1 * k.val = k.val
    rw [e1]; omega

theorem cblk11_at (c : Dev nD) (t : Fin cfg11.N) (r : Fin 2048) (k : Fin 256) :
    cblk11 V c t (ix2 r k) = carr11 V c (ce_rowN t.val r) k := by
  obtain ⟨-, -, e0, e1, -⟩ := blk_facts11 t
  have ht : t.val < 8 := lt_of_lt_of_eq t.isLt (show cfg11.N = 8 from N_11)
  show V c main_v30 (((cfg11.win 1).blk t).view.emb (ix2 r k)) = V c main_v30 _
  refine congrArg _ (funext fun a => Fin.ext ?_)
  match a with
  | ⟨0, _⟩ =>
    show win11_1.index t (0 : Fin 2) * 2048 + 1 * r.val = (ce_rowN t.val r).val
    rw [e0, ce_rowN_val _ ht]; omega
  | ⟨1, _⟩ =>
    show win11_1.index t (1 : Fin 2) * 256 + 1 * k.val = k.val
    rw [e1]; omega

theorem gblk11_at (c : Dev nD) (t : Fin cfg11.N) : gblk11 V c t (ix2 0 0) = garr11 V c := by
  obtain ⟨-, -, -, -, e0, e1, -⟩ := blk_facts11 t
  show V c main_v1 (((cfg11.win 2).blk t).view.emb (ix2 0 0)) = V c main_v1 _
  refine congrArg _ (funext fun a => Fin.ext ?_)
  match a with
  | ⟨0, _⟩ =>
    show win11_2.index t (0 : Fin 2) * 1 + 1 * 0 = 0
    rw [e0]
  | ⟨1, _⟩ =>
    show win11_2.index t (1 : Fin 2) * 1 + 1 * 0 = 0
    rw [e1]

theorem block11_eq (c : Dev nD) (t : Fin cfg11.N) :
    (∑ r : Fin 2048, ∑ k : Fin 256, qblk11 V c t (ix2 r k)
        * ce_lsm (fun r' k' => Ideal.div (cblk11 V c t (ix2 r' k')) (gblk11 V c t (ix2 0 0))) r k)
      = ce_blockTermN (qarr11 V c) (carr11 V c) (garr11 V c) t.val := by
  unfold ce_blockTermN
  refine Finset.sum_congr rfl fun r _ => Finset.sum_congr rfl fun k _ => ?_
  rw [qblk11_at, gblk11_at]
  have hX : (fun (r' : Fin 2048) (k' : Fin 256) => Ideal.div (cblk11 V c t (ix2 r' k')) (garr11 V c))
      = fun r' k' => Ideal.div (carr11 V c (ce_rowN t.val r') k') (garr11 V c) :=
    funext fun r' => funext fun k' => by rw [cblk11_at]
  rw [hX]
  rfl

theorem acc11_at (c : Dev nD) : ∀ (n : ℕ) (h : n < cfg11.N),
    acc11 V c n h (ix2 0 0) = 0 + ∑ s ∈ Finset.range (n + 1), ce_blockTermN (qarr11 V c) (carr11 V c) (garr11 V c) s
  | 0, h => by
    show k11_pay2 (F := Ideal) (gblk11 V c ⟨0, h⟩) (cblk11 V c ⟨0, h⟩) (qblk11 V c ⟨0, h⟩) (k11_pay1 (F := Ideal)) (ix2 0 0) = _
    rw [pay2_11, pay1_11, Finset.sum_range_one, block11_eq V c ⟨0, h⟩]
  | n + 1, h => by
    show k11_pay2 (F := Ideal) (gblk11 V c ⟨n + 1, h⟩) (cblk11 V c ⟨n + 1, h⟩) (qblk11 V c ⟨n + 1, h⟩)
      (acc11 V c n (Nat.lt_of_succ_lt h)) (ix2 0 0) = _
    rw [pay2_11, acc11_at c n, Finset.sum_range_succ _ (n + 1), add_assoc, block11_eq V c ⟨n + 1, h⟩]

abbrev res11 (c : Dev nD) : Buf (Elt Ideal) ((c : Thread nD τ).loc main_v39) :=
  k11_pay3 (F := Ideal) (acc11 V c 7 (by rw [show cfg11.N = 8 from N_11]; decide))

theorem flushed11 (c : Dev nD) (t : Fin cfg11.N) (hf : (cfg11.win 3).flush t = true) :
    (dat11 (F := Ideal) V c).flushed 3 t = ((cfg11.win 3).blk t).view.read (Elt Ideal) (res11 V c) := by
  have hN : cfg11.N = 8 := N_11
  have h7 : t.val = 7 := by have := (flush11_3 t).mp hf; have := t.isLt; omega
  obtain rfl : t = t11_7 := Fin.ext h7
  show (cfg11.win 3).cut (grid11.coords t11_7) ((dat11 (F := Ideal) V c).after 3 t11_7) = _
  rw [after11_3]
  have hz' : (fun a => win11_3.index t11_7 a * main_v39.ty.shape.size a) = fun _ => 0 :=
    funext fun a => by fin_cases a <;> decide
  exact (Memref.read_access_unit_zero (Elt Ideal) main_v39 hz' (fun a => by rw [congrFun hz' a]; simp) (res11 V c)).symm

theorem cover11 (i : S1x1.Idx) :
    ∃ t : Fin cfg11.N, (cfg11.win 3).flush t = true ∧ i ∈ ((cfg11.win 3).blk t).view.set := by
  obtain ⟨-, -, -, -, -, -, e0, e1⟩ := blk_facts11 t11_7
  refine ⟨t11_7, (flush11_3 t11_7).mpr rfl, ?_⟩
  show i ∈ ((View.whole main_v39).slice (win11_3.rect t11_7)).set
  rw [View.set_slice_whole, Rect.mem_set_unit]
  intro a
  have h0 : (i 0).val < 1 := (i 0).isLt
  have h1 : (i 1).val < 1 := (i 1).isLt
  match a with
  | ⟨0, _⟩ =>
    show win11_3.index t11_7 (0 : Fin 2) * 1 ≤ (i 0).val ∧ (i 0).val < win11_3.index t11_7 (0 : Fin 2) * 1 + 1
    rw [e0]; omega
  | ⟨1, _⟩ =>
    show win11_3.index t11_7 (1 : Fin 2) * 1 ≤ (i 1).val ∧ (i 1).val < win11_3.index t11_7 (1 : Fin 2) * 1 + 1
    rw [e1]; omega

theorem arr11 (c : Dev nD) : (dat11 (F := Ideal) V c).arrAt 3 cfg11.N = res11 V c :=
  (dat11 (F := Ideal) V c).arrAt_eq_of_cover 3 (res11 V c) (flushed11 V c) (fun i => cover11 i)

theorem ce_arr11 (c : Dev nD) :
    (dat11 (F := Ideal) V c).arrAt 3 cfg11.N (ix2 0 0)
      = Cert.Spec.crossEntropy (fun b k => V c main_v34 (ix2 b k)) (fun b k => V c main_v30 (ix2 b k)) (V c main_v1 (ix2 0 0)) := by
  rw [arr11]
  show k11_pay3 (F := Ideal) (acc11 V c 7 _) (ix2 0 0) = _
  rw [pay3_11, acc11_at V c 7]
  exact ce_of_blocks (qarr11 V c) (carr11 V c) (garr11 V c)

end Cert.KernelIdeal.Val

end
-- ==== Proof.Val.CrossEntropy12.lean ====
import proofs.«402369_j86406152061536_3_alg».proof.Proof.KI.Reg12
import proofs.«402369_j86406152061536_3_alg».proof.Proof.Val.CrossEntropy
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

theorem pay1_12 (j : S1x1.Idx) : k12_pay1 (F := Ideal) j = 0 :=
  pay1_11 j

theorem pay3_12 (s : Vec Ideal S1x1 .f32) (j : S1x1.Idx) :
    k12_pay3 (F := Ideal) s j = Ideal.ofBits .f32 0x00000000#32 - s j * Ideal.ofBits .f32 0x38800000#32 :=
  pay3_11 s j

theorem pay2_12 (g : Vec Ideal S1x1 .f32) (code q : Vec Ideal S2048x256 .f32) (s : Vec Ideal S1x1 .f32) (j : S1x1.Idx) :
    k12_pay2 (F := Ideal) g code q s j
      = s j + ∑ r : Fin 2048, ∑ k : Fin 256,
          q (ix2 r k) * ce_lsm (fun r' k' => Ideal.div (code (ix2 r' k')) (g (ix2 0 0))) r k :=
  pay2_11 g code q s j

variable (V : (c : Dev nD) → (b : Ref sig .tc) → Buf (Elt Ideal) ((c : Thread nD τ).loc b))

abbrev qblk12 (c : Dev nD) (t : Fin cfg12.N) : FVec Ideal S2048x256 .f32 := iblk12 V c 0 t
abbrev cblk12 (c : Dev nD) (t : Fin cfg12.N) : FVec Ideal S2048x256 .f32 := iblk12 V c 1 t
abbrev gblk12 (c : Dev nD) (t : Fin cfg12.N) : FVec Ideal S1x1 .f32 := iblk12 V c 2 t

abbrev qarr12 (c : Dev nD) : Fin 16384 → Fin 256 → EReal := fun b k => V c main_v35 (ix2 b k)
abbrev carr12 (c : Dev nD) : Fin 16384 → Fin 256 → EReal := fun b k => V c main_v29 (ix2 b k)
abbrev garr12 (c : Dev nD) : EReal := V c main_v1 (ix2 0 0)

theorem blk_facts12 : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0 :=
  (by decide +kernel : ∀ t : Fin grid12.N, _)

theorem qblk12_at (c : Dev nD) (t : Fin cfg12.N) (r : Fin 2048) (k : Fin 256) :
    qblk12 V c t (ix2 r k) = qarr12 V c (ce_rowN t.val r) k := by
  obtain ⟨e0, e1, -⟩ := blk_facts12 t
  have ht : t.val < 8 := lt_of_lt_of_eq t.isLt (show cfg12.N = 8 from N_12)
  show V c main_v35 (((cfg12.win 0).blk t).view.emb (ix2 r k)) = V c main_v35 _
  refine congrArg _ (funext fun a => Fin.ext ?_)
  match a with
  | ⟨0, _⟩ =>
    show win12_0.index t (0 : Fin 2) * 2048 + 1 * r.val = (ce_rowN t.val r).val
    rw [e0, ce_rowN_val _ ht]; omega
  | ⟨1, _⟩ =>
    show win12_0.index t (1 : Fin 2) * 256 + 1 * k.val = k.val
    rw [e1]; omega

theorem cblk12_at (c : Dev nD) (t : Fin cfg12.N) (r : Fin 2048) (k : Fin 256) :
    cblk12 V c t (ix2 r k) = carr12 V c (ce_rowN t.val r) k := by
  obtain ⟨-, -, e0, e1, -⟩ := blk_facts12 t
  have ht : t.val < 8 := lt_of_lt_of_eq t.isLt (show cfg12.N = 8 from N_12)
  show V c main_v29 (((cfg12.win 1).blk t).view.emb (ix2 r k)) = V c main_v29 _
  refine congrArg _ (funext fun a => Fin.ext ?_)
  match a with
  | ⟨0, _⟩ =>
    show win12_1.index t (0 : Fin 2) * 2048 + 1 * r.val = (ce_rowN t.val r).val
    rw [e0, ce_rowN_val _ ht]; omega
  | ⟨1, _⟩ =>
    show win12_1.index t (1 : Fin 2) * 256 + 1 * k.val = k.val
    rw [e1]; omega

theorem gblk12_at (c : Dev nD) (t : Fin cfg12.N) : gblk12 V c t (ix2 0 0) = garr12 V c := by
  obtain ⟨-, -, -, -, e0, e1, -⟩ := blk_facts12 t
  show V c main_v1 (((cfg12.win 2).blk t).view.emb (ix2 0 0)) = V c main_v1 _
  refine congrArg _ (funext fun a => Fin.ext ?_)
  match a with
  | ⟨0, _⟩ =>
    show win12_2.index t (0 : Fin 2) * 1 + 1 * 0 = 0
    rw [e0]
  | ⟨1, _⟩ =>
    show win12_2.index t (1 : Fin 2) * 1 + 1 * 0 = 0
    rw [e1]

theorem block12_eq (c : Dev nD) (t : Fin cfg12.N) :
    (∑ r : Fin 2048, ∑ k : Fin 256, qblk12 V c t (ix2 r k)
        * ce_lsm (fun r' k' => Ideal.div (cblk12 V c t (ix2 r' k')) (gblk12 V c t (ix2 0 0))) r k)
      = ce_blockTermN (qarr12 V c) (carr12 V c) (garr12 V c) t.val := by
  unfold ce_blockTermN
  refine Finset.sum_congr rfl fun r _ => Finset.sum_congr rfl fun k _ => ?_
  rw [qblk12_at, gblk12_at]
  have hX : (fun (r' : Fin 2048) (k' : Fin 256) => Ideal.div (cblk12 V c t (ix2 r' k')) (garr12 V c))
      = fun r' k' => Ideal.div (carr12 V c (ce_rowN t.val r') k') (garr12 V c) :=
    funext fun r' => funext fun k' => by rw [cblk12_at]
  rw [hX]
  rfl

theorem acc12_at (c : Dev nD) : ∀ (n : ℕ) (h : n < cfg12.N),
    acc12 V c n h (ix2 0 0) = 0 + ∑ s ∈ Finset.range (n + 1), ce_blockTermN (qarr12 V c) (carr12 V c) (garr12 V c) s
  | 0, h => by
    show k12_pay2 (F := Ideal) (gblk12 V c ⟨0, h⟩) (cblk12 V c ⟨0, h⟩) (qblk12 V c ⟨0, h⟩) (k12_pay1 (F := Ideal)) (ix2 0 0) = _
    rw [pay2_12, pay1_12, Finset.sum_range_one, block12_eq V c ⟨0, h⟩]
  | n + 1, h => by
    show k12_pay2 (F := Ideal) (gblk12 V c ⟨n + 1, h⟩) (cblk12 V c ⟨n + 1, h⟩) (qblk12 V c ⟨n + 1, h⟩)
      (acc12 V c n (Nat.lt_of_succ_lt h)) (ix2 0 0) = _
    rw [pay2_12, acc12_at c n, Finset.sum_range_succ _ (n + 1), add_assoc, block12_eq V c ⟨n + 1, h⟩]

abbrev res12 (c : Dev nD) : Buf (Elt Ideal) ((c : Thread nD τ).loc main_v41) :=
  k12_pay3 (F := Ideal) (acc12 V c 7 (by rw [show cfg12.N = 8 from N_12]; decide))

theorem flushed12 (c : Dev nD) (t : Fin cfg12.N) (hf : (cfg12.win 3).flush t = true) :
    (dat12 (F := Ideal) V c).flushed 3 t = ((cfg12.win 3).blk t).view.read (Elt Ideal) (res12 V c) := by
  have hN : cfg12.N = 8 := N_12
  have h7 : t.val = 7 := by have := (flush12_3 t).mp hf; have := t.isLt; omega
  obtain rfl : t = t12_7 := Fin.ext h7
  show (cfg12.win 3).cut (grid12.coords t12_7) ((dat12 (F := Ideal) V c).after 3 t12_7) = _
  rw [after12_3]
  have hz' : (fun a => win12_3.index t12_7 a * main_v41.ty.shape.size a) = fun _ => 0 :=
    funext fun a => by fin_cases a <;> decide
  exact (Memref.read_access_unit_zero (Elt Ideal) main_v41 hz' (fun a => by rw [congrFun hz' a]; simp) (res12 V c)).symm

theorem cover12 (i : S1x1.Idx) :
    ∃ t : Fin cfg12.N, (cfg12.win 3).flush t = true ∧ i ∈ ((cfg12.win 3).blk t).view.set := by
  obtain ⟨-, -, -, -, -, -, e0, e1⟩ := blk_facts12 t12_7
  refine ⟨t12_7, (flush12_3 t12_7).mpr rfl, ?_⟩
  show i ∈ ((View.whole main_v41).slice (win12_3.rect t12_7)).set
  rw [View.set_slice_whole, Rect.mem_set_unit]
  intro a
  have h0 : (i 0).val < 1 := (i 0).isLt
  have h1 : (i 1).val < 1 := (i 1).isLt
  match a with
  | ⟨0, _⟩ =>
    show win12_3.index t12_7 (0 : Fin 2) * 1 ≤ (i 0).val ∧ (i 0).val < win12_3.index t12_7 (0 : Fin 2) * 1 + 1
    rw [e0]; omega
  | ⟨1, _⟩ =>
    show win12_3.index t12_7 (1 : Fin 2) * 1 ≤ (i 1).val ∧ (i 1).val < win12_3.index t12_7 (1 : Fin 2) * 1 + 1
    rw [e1]; omega

theorem arr12 (c : Dev nD) : (dat12 (F := Ideal) V c).arrAt 3 cfg12.N = res12 V c :=
  (dat12 (F := Ideal) V c).arrAt_eq_of_cover 3 (res12 V c) (flushed12 V c) (fun i => cover12 i)

theorem ce_arr12 (c : Dev nD) :
    (dat12 (F := Ideal) V c).arrAt 3 cfg12.N (ix2 0 0)
      = Cert.Spec.crossEntropy (fun b k => V c main_v35 (ix2 b k)) (fun b k => V c main_v29 (ix2 b k)) (V c main_v1 (ix2 0 0)) := by
  rw [arr12]
  show k12_pay3 (F := Ideal) (acc12 V c 7 _) (ix2 0 0) = _
  rw [pay3_12, acc12_at V c 7]
  exact ce_of_blocks (qarr12 V c) (carr12 V c) (garr12 V c)

end Cert.KernelIdeal.Val

end
-- ==== Proof.Val.CrossEntropy13.lean ====
import proofs.«402369_j86406152061536_3_alg».proof.Proof.KI.Reg13
import proofs.«402369_j86406152061536_3_alg».proof.Proof.Val.CrossEntropy
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

theorem pay1_13 (j : S1x1.Idx) : k13_pay1 (F := Ideal) j = 0 :=
  pay1_11 j

theorem pay3_13 (s : Vec Ideal S1x1 .f32) (j : S1x1.Idx) :
    k13_pay3 (F := Ideal) s j = Ideal.ofBits .f32 0x00000000#32 - s j * Ideal.ofBits .f32 0x38800000#32 :=
  pay3_11 s j

theorem pay2_13 (g : Vec Ideal S1x1 .f32) (code q : Vec Ideal S2048x256 .f32) (s : Vec Ideal S1x1 .f32) (j : S1x1.Idx) :
    k13_pay2 (F := Ideal) g code q s j
      = s j + ∑ r : Fin 2048, ∑ k : Fin 256,
          q (ix2 r k) * ce_lsm (fun r' k' => Ideal.div (code (ix2 r' k')) (g (ix2 0 0))) r k :=
  pay2_11 g code q s j

variable (V : (c : Dev nD) → (b : Ref sig .tc) → Buf (Elt Ideal) ((c : Thread nD τ).loc b))

abbrev qblk13 (c : Dev nD) (t : Fin cfg13.N) : FVec Ideal S2048x256 .f32 := iblk13 V c 0 t
abbrev cblk13 (c : Dev nD) (t : Fin cfg13.N) : FVec Ideal S2048x256 .f32 := iblk13 V c 1 t
abbrev gblk13 (c : Dev nD) (t : Fin cfg13.N) : FVec Ideal S1x1 .f32 := iblk13 V c 2 t

abbrev qarr13 (c : Dev nD) : Fin 16384 → Fin 256 → EReal := fun b k => V c main_v36 (ix2 b k)
abbrev carr13 (c : Dev nD) : Fin 16384 → Fin 256 → EReal := fun b k => V c main_v32 (ix2 b k)
abbrev garr13 (c : Dev nD) : EReal := V c main_v1 (ix2 0 0)

theorem blk_facts13 : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0 :=
  (by decide +kernel : ∀ t : Fin grid13.N, _)

theorem qblk13_at (c : Dev nD) (t : Fin cfg13.N) (r : Fin 2048) (k : Fin 256) :
    qblk13 V c t (ix2 r k) = qarr13 V c (ce_rowN t.val r) k := by
  obtain ⟨e0, e1, -⟩ := blk_facts13 t
  have ht : t.val < 8 := lt_of_lt_of_eq t.isLt (show cfg13.N = 8 from N_13)
  show V c main_v36 (((cfg13.win 0).blk t).view.emb (ix2 r k)) = V c main_v36 _
  refine congrArg _ (funext fun a => Fin.ext ?_)
  match a with
  | ⟨0, _⟩ =>
    show win13_0.index t (0 : Fin 2) * 2048 + 1 * r.val = (ce_rowN t.val r).val
    rw [e0, ce_rowN_val _ ht]; omega
  | ⟨1, _⟩ =>
    show win13_0.index t (1 : Fin 2) * 256 + 1 * k.val = k.val
    rw [e1]; omega

theorem cblk13_at (c : Dev nD) (t : Fin cfg13.N) (r : Fin 2048) (k : Fin 256) :
    cblk13 V c t (ix2 r k) = carr13 V c (ce_rowN t.val r) k := by
  obtain ⟨-, -, e0, e1, -⟩ := blk_facts13 t
  have ht : t.val < 8 := lt_of_lt_of_eq t.isLt (show cfg13.N = 8 from N_13)
  show V c main_v32 (((cfg13.win 1).blk t).view.emb (ix2 r k)) = V c main_v32 _
  refine congrArg _ (funext fun a => Fin.ext ?_)
  match a with
  | ⟨0, _⟩ =>
    show win13_1.index t (0 : Fin 2) * 2048 + 1 * r.val = (ce_rowN t.val r).val
    rw [e0, ce_rowN_val _ ht]; omega
  | ⟨1, _⟩ =>
    show win13_1.index t (1 : Fin 2) * 256 + 1 * k.val = k.val
    rw [e1]; omega

theorem gblk13_at (c : Dev nD) (t : Fin cfg13.N) : gblk13 V c t (ix2 0 0) = garr13 V c := by
  obtain ⟨-, -, -, -, e0, e1, -⟩ := blk_facts13 t
  show V c main_v1 (((cfg13.win 2).blk t).view.emb (ix2 0 0)) = V c main_v1 _
  refine congrArg _ (funext fun a => Fin.ext ?_)
  match a with
  | ⟨0, _⟩ =>
    show win13_2.index t (0 : Fin 2) * 1 + 1 * 0 = 0
    rw [e0]
  | ⟨1, _⟩ =>
    show win13_2.index t (1 : Fin 2) * 1 + 1 * 0 = 0
    rw [e1]

theorem block13_eq (c : Dev nD) (t : Fin cfg13.N) :
    (∑ r : Fin 2048, ∑ k : Fin 256, qblk13 V c t (ix2 r k)
        * ce_lsm (fun r' k' => Ideal.div (cblk13 V c t (ix2 r' k')) (gblk13 V c t (ix2 0 0))) r k)
      = ce_blockTermN (qarr13 V c) (carr13 V c) (garr13 V c) t.val := by
  unfold ce_blockTermN
  refine Finset.sum_congr rfl fun r _ => Finset.sum_congr rfl fun k _ => ?_
  rw [qblk13_at, gblk13_at]
  have hX : (fun (r' : Fin 2048) (k' : Fin 256) => Ideal.div (cblk13 V c t (ix2 r' k')) (garr13 V c))
      = fun r' k' => Ideal.div (carr13 V c (ce_rowN t.val r') k') (garr13 V c) :=
    funext fun r' => funext fun k' => by rw [cblk13_at]
  rw [hX]
  rfl

theorem acc13_at (c : Dev nD) : ∀ (n : ℕ) (h : n < cfg13.N),
    acc13 V c n h (ix2 0 0) = 0 + ∑ s ∈ Finset.range (n + 1), ce_blockTermN (qarr13 V c) (carr13 V c) (garr13 V c) s
  | 0, h => by
    show k13_pay2 (F := Ideal) (gblk13 V c ⟨0, h⟩) (cblk13 V c ⟨0, h⟩) (qblk13 V c ⟨0, h⟩) (k13_pay1 (F := Ideal)) (ix2 0 0) = _
    rw [pay2_13, pay1_13, Finset.sum_range_one, block13_eq V c ⟨0, h⟩]
  | n + 1, h => by
    show k13_pay2 (F := Ideal) (gblk13 V c ⟨n + 1, h⟩) (cblk13 V c ⟨n + 1, h⟩) (qblk13 V c ⟨n + 1, h⟩)
      (acc13 V c n (Nat.lt_of_succ_lt h)) (ix2 0 0) = _
    rw [pay2_13, acc13_at c n, Finset.sum_range_succ _ (n + 1), add_assoc, block13_eq V c ⟨n + 1, h⟩]

abbrev res13 (c : Dev nD) : Buf (Elt Ideal) ((c : Thread nD τ).loc main_v43) :=
  k13_pay3 (F := Ideal) (acc13 V c 7 (by rw [show cfg13.N = 8 from N_13]; decide))

theorem flushed13 (c : Dev nD) (t : Fin cfg13.N) (hf : (cfg13.win 3).flush t = true) :
    (dat13 (F := Ideal) V c).flushed 3 t = ((cfg13.win 3).blk t).view.read (Elt Ideal) (res13 V c) := by
  have hN : cfg13.N = 8 := N_13
  have h7 : t.val = 7 := by have := (flush13_3 t).mp hf; have := t.isLt; omega
  obtain rfl : t = t13_7 := Fin.ext h7
  show (cfg13.win 3).cut (grid13.coords t13_7) ((dat13 (F := Ideal) V c).after 3 t13_7) = _
  rw [after13_3]
  have hz' : (fun a => win13_3.index t13_7 a * main_v43.ty.shape.size a) = fun _ => 0 :=
    funext fun a => by fin_cases a <;> decide
  exact (Memref.read_access_unit_zero (Elt Ideal) main_v43 hz' (fun a => by rw [congrFun hz' a]; simp) (res13 V c)).symm

theorem cover13 (i : S1x1.Idx) :
    ∃ t : Fin cfg13.N, (cfg13.win 3).flush t = true ∧ i ∈ ((cfg13.win 3).blk t).view.set := by
  obtain ⟨-, -, -, -, -, -, e0, e1⟩ := blk_facts13 t13_7
  refine ⟨t13_7, (flush13_3 t13_7).mpr rfl, ?_⟩
  show i ∈ ((View.whole main_v43).slice (win13_3.rect t13_7)).set
  rw [View.set_slice_whole, Rect.mem_set_unit]
  intro a
  have h0 : (i 0).val < 1 := (i 0).isLt
  have h1 : (i 1).val < 1 := (i 1).isLt
  match a with
  | ⟨0, _⟩ =>
    show win13_3.index t13_7 (0 : Fin 2) * 1 ≤ (i 0).val ∧ (i 0).val < win13_3.index t13_7 (0 : Fin 2) * 1 + 1
    rw [e0]; omega
  | ⟨1, _⟩ =>
    show win13_3.index t13_7 (1 : Fin 2) * 1 ≤ (i 1).val ∧ (i 1).val < win13_3.index t13_7 (1 : Fin 2) * 1 + 1
    rw [e1]; omega

theorem arr13 (c : Dev nD) : (dat13 (F := Ideal) V c).arrAt 3 cfg13.N = res13 V c :=
  (dat13 (F := Ideal) V c).arrAt_eq_of_cover 3 (res13 V c) (flushed13 V c) (fun i => cover13 i)

theorem ce_arr13 (c : Dev nD) :
    (dat13 (F := Ideal) V c).arrAt 3 cfg13.N (ix2 0 0)
      = Cert.Spec.crossEntropy (fun b k => V c main_v36 (ix2 b k)) (fun b k => V c main_v32 (ix2 b k)) (V c main_v1 (ix2 0 0)) := by
  rw [arr13]
  show k13_pay3 (F := Ideal) (acc13 V c 7 _) (ix2 0 0) = _
  rw [pay3_13, acc13_at V c 7]
  exact ce_of_blocks (qarr13 V c) (carr13 V c) (garr13 V c)

end Cert.KernelIdeal.Val

end
-- ==== Proof.Val.CrossEntropy14.lean ====
import proofs.«402369_j86406152061536_3_alg».proof.Proof.KI.Reg14
import proofs.«402369_j86406152061536_3_alg».proof.Proof.Val.CrossEntropy
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

theorem pay1_14 (j : S1x1.Idx) : k14_pay1 (F := Ideal) j = 0 :=
  pay1_11 j

theorem pay3_14 (s : Vec Ideal S1x1 .f32) (j : S1x1.Idx) :
    k14_pay3 (F := Ideal) s j = Ideal.ofBits .f32 0x00000000#32 - s j * Ideal.ofBits .f32 0x38800000#32 :=
  pay3_11 s j

theorem pay2_14 (g : Vec Ideal S1x1 .f32) (code q : Vec Ideal S2048x256 .f32) (s : Vec Ideal S1x1 .f32) (j : S1x1.Idx) :
    k14_pay2 (F := Ideal) g code q s j
      = s j + ∑ r : Fin 2048, ∑ k : Fin 256,
          q (ix2 r k) * ce_lsm (fun r' k' => Ideal.div (code (ix2 r' k')) (g (ix2 0 0))) r k :=
  pay2_11 g code q s j

variable (V : (c : Dev nD) → (b : Ref sig .tc) → Buf (Elt Ideal) ((c : Thread nD τ).loc b))

abbrev qblk14 (c : Dev nD) (t : Fin cfg14.N) : FVec Ideal S2048x256 .f32 := iblk14 V c 0 t
abbrev cblk14 (c : Dev nD) (t : Fin cfg14.N) : FVec Ideal S2048x256 .f32 := iblk14 V c 1 t
abbrev gblk14 (c : Dev nD) (t : Fin cfg14.N) : FVec Ideal S1x1 .f32 := iblk14 V c 2 t

abbrev qarr14 (c : Dev nD) : Fin 16384 → Fin 256 → EReal := fun b k => V c main_v36 (ix2 b k)
abbrev carr14 (c : Dev nD) : Fin 16384 → Fin 256 → EReal := fun b k => V c main_v33 (ix2 b k)
abbrev garr14 (c : Dev nD) : EReal := V c main_v1 (ix2 0 0)

theorem blk_facts14 : ∀ t : Fin cfg14.N,
    win14_0.index t (0 : Fin 2) = t.val ∧ win14_0.index t (1 : Fin 2) = 0
    ∧ win14_1.index t (0 : Fin 2) = t.val ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0 :=
  (by decide +kernel : ∀ t : Fin grid14.N, _)

theorem qblk14_at (c : Dev nD) (t : Fin cfg14.N) (r : Fin 2048) (k : Fin 256) :
    qblk14 V c t (ix2 r k) = qarr14 V c (ce_rowN t.val r) k := by
  obtain ⟨e0, e1, -⟩ := blk_facts14 t
  have ht : t.val < 8 := lt_of_lt_of_eq t.isLt (show cfg14.N = 8 from N_14)
  show V c main_v36 (((cfg14.win 0).blk t).view.emb (ix2 r k)) = V c main_v36 _
  refine congrArg _ (funext fun a => Fin.ext ?_)
  match a with
  | ⟨0, _⟩ =>
    show win14_0.index t (0 : Fin 2) * 2048 + 1 * r.val = (ce_rowN t.val r).val
    rw [e0, ce_rowN_val _ ht]; omega
  | ⟨1, _⟩ =>
    show win14_0.index t (1 : Fin 2) * 256 + 1 * k.val = k.val
    rw [e1]; omega

theorem cblk14_at (c : Dev nD) (t : Fin cfg14.N) (r : Fin 2048) (k : Fin 256) :
    cblk14 V c t (ix2 r k) = carr14 V c (ce_rowN t.val r) k := by
  obtain ⟨-, -, e0, e1, -⟩ := blk_facts14 t
  have ht : t.val < 8 := lt_of_lt_of_eq t.isLt (show cfg14.N = 8 from N_14)
  show V c main_v33 (((cfg14.win 1).blk t).view.emb (ix2 r k)) = V c main_v33 _
  refine congrArg _ (funext fun a => Fin.ext ?_)
  match a with
  | ⟨0, _⟩ =>
    show win14_1.index t (0 : Fin 2) * 2048 + 1 * r.val = (ce_rowN t.val r).val
    rw [e0, ce_rowN_val _ ht]; omega
  | ⟨1, _⟩ =>
    show win14_1.index t (1 : Fin 2) * 256 + 1 * k.val = k.val
    rw [e1]; omega

theorem gblk14_at (c : Dev nD) (t : Fin cfg14.N) : gblk14 V c t (ix2 0 0) = garr14 V c := by
  obtain ⟨-, -, -, -, e0, e1, -⟩ := blk_facts14 t
  show V c main_v1 (((cfg14.win 2).blk t).view.emb (ix2 0 0)) = V c main_v1 _
  refine congrArg _ (funext fun a => Fin.ext ?_)
  match a with
  | ⟨0, _⟩ =>
    show win14_2.index t (0 : Fin 2) * 1 + 1 * 0 = 0
    rw [e0]
  | ⟨1, _⟩ =>
    show win14_2.index t (1 : Fin 2) * 1 + 1 * 0 = 0
    rw [e1]

theorem block14_eq (c : Dev nD) (t : Fin cfg14.N) :
    (∑ r : Fin 2048, ∑ k : Fin 256, qblk14 V c t (ix2 r k)
        * ce_lsm (fun r' k' => Ideal.div (cblk14 V c t (ix2 r' k')) (gblk14 V c t (ix2 0 0))) r k)
      = ce_blockTermN (qarr14 V c) (carr14 V c) (garr14 V c) t.val := by
  unfold ce_blockTermN
  refine Finset.sum_congr rfl fun r _ => Finset.sum_congr rfl fun k _ => ?_
  rw [qblk14_at, gblk14_at]
  have hX : (fun (r' : Fin 2048) (k' : Fin 256) => Ideal.div (cblk14 V c t (ix2 r' k')) (garr14 V c))
      = fun r' k' => Ideal.div (carr14 V c (ce_rowN t.val r') k') (garr14 V c) :=
    funext fun r' => funext fun k' => by rw [cblk14_at]
  rw [hX]
  rfl

theorem acc14_at (c : Dev nD) : ∀ (n : ℕ) (h : n < cfg14.N),
    acc14 V c n h (ix2 0 0) = 0 + ∑ s ∈ Finset.range (n + 1), ce_blockTermN (qarr14 V c) (carr14 V c) (garr14 V c) s
  | 0, h => by
    show k14_pay2 (F := Ideal) (gblk14 V c ⟨0, h⟩) (cblk14 V c ⟨0, h⟩) (qblk14 V c ⟨0, h⟩) (k14_pay1 (F := Ideal)) (ix2 0 0) = _
    rw [pay2_14, pay1_14, Finset.sum_range_one, block14_eq V c ⟨0, h⟩]
  | n + 1, h => by
    show k14_pay2 (F := Ideal) (gblk14 V c ⟨n + 1, h⟩) (cblk14 V c ⟨n + 1, h⟩) (qblk14 V c ⟨n + 1, h⟩)
      (acc14 V c n (Nat.lt_of_succ_lt h)) (ix2 0 0) = _
    rw [pay2_14, acc14_at c n, Finset.sum_range_succ _ (n + 1), add_assoc, block14_eq V c ⟨n + 1, h⟩]

abbrev res14 (c : Dev nD) : Buf (Elt Ideal) ((c : Thread nD τ).loc main_v45) :=
  k14_pay3 (F := Ideal) (acc14 V c 7 (by rw [show cfg14.N = 8 from N_14]; decide))

theorem flushed14 (c : Dev nD) (t : Fin cfg14.N) (hf : (cfg14.win 3).flush t = true) :
    (dat14 (F := Ideal) V c).flushed 3 t = ((cfg14.win 3).blk t).view.read (Elt Ideal) (res14 V c) := by
  have hN : cfg14.N = 8 := N_14
  have h7 : t.val = 7 := by have := (flush14_3 t).mp hf; have := t.isLt; omega
  obtain rfl : t = t14_7 := Fin.ext h7
  show (cfg14.win 3).cut (grid14.coords t14_7) ((dat14 (F := Ideal) V c).after 3 t14_7) = _
  rw [after14_3]
  have hz' : (fun a => win14_3.index t14_7 a * main_v45.ty.shape.size a) = fun _ => 0 :=
    funext fun a => by fin_cases a <;> decide
  exact (Memref.read_access_unit_zero (Elt Ideal) main_v45 hz' (fun a => by rw [congrFun hz' a]; simp) (res14 V c)).symm

theorem cover14 (i : S1x1.Idx) :
    ∃ t : Fin cfg14.N, (cfg14.win 3).flush t = true ∧ i ∈ ((cfg14.win 3).blk t).view.set := by
  obtain ⟨-, -, -, -, -, -, e0, e1⟩ := blk_facts14 t14_7
  refine ⟨t14_7, (flush14_3 t14_7).mpr rfl, ?_⟩
  show i ∈ ((View.whole main_v45).slice (win14_3.rect t14_7)).set
  rw [View.set_slice_whole, Rect.mem_set_unit]
  intro a
  have h0 : (i 0).val < 1 := (i 0).isLt
  have h1 : (i 1).val < 1 := (i 1).isLt
  match a with
  | ⟨0, _⟩ =>
    show win14_3.index t14_7 (0 : Fin 2) * 1 ≤ (i 0).val ∧ (i 0).val < win14_3.index t14_7 (0 : Fin 2) * 1 + 1
    rw [e0]; omega
  | ⟨1, _⟩ =>
    show win14_3.index t14_7 (1 : Fin 2) * 1 ≤ (i 1).val ∧ (i 1).val < win14_3.index t14_7 (1 : Fin 2) * 1 + 1
    rw [e1]; omega

theorem arr14 (c : Dev nD) : (dat14 (F := Ideal) V c).arrAt 3 cfg14.N = res14 V c :=
  (dat14 (F := Ideal) V c).arrAt_eq_of_cover 3 (res14 V c) (flushed14 V c) (fun i => cover14 i)

theorem ce_arr14 (c : Dev nD) :
    (dat14 (F := Ideal) V c).arrAt 3 cfg14.N (ix2 0 0)
      = Cert.Spec.crossEntropy (fun b k => V c main_v36 (ix2 b k)) (fun b k => V c main_v33 (ix2 b k)) (V c main_v1 (ix2 0 0)) := by
  rw [arr14]
  show k14_pay3 (F := Ideal) (acc14 V c 7 _) (ix2 0 0) = _
  rw [pay3_14, acc14_at V c 7]
  exact ce_of_blocks (qarr14 V c) (carr14 V c) (garr14 V c)

end Cert.KernelIdeal.Val

end
-- ==== Proof.Val.CrossEntropy15.lean ====
import proofs.«402369_j86406152061536_3_alg».proof.Proof.KI.Reg15
import proofs.«402369_j86406152061536_3_alg».proof.Proof.Val.CrossEntropy
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

theorem pay1_15 (j : S1x1.Idx) : k15_pay1 (F := Ideal) j = 0 :=
  pay1_11 j

theorem pay3_15 (s : Vec Ideal S1x1 .f32) (j : S1x1.Idx) :
    k15_pay3 (F := Ideal) s j = Ideal.ofBits .f32 0x00000000#32 - s j * Ideal.ofBits .f32 0x38800000#32 :=
  pay3_11 s j

theorem pay2_15 (g : Vec Ideal S1x1 .f32) (code q : Vec Ideal S2048x256 .f32) (s : Vec Ideal S1x1 .f32) (j : S1x1.Idx) :
    k15_pay2 (F := Ideal) g code q s j
      = s j + ∑ r : Fin 2048, ∑ k : Fin 256,
          q (ix2 r k) * ce_lsm (fun r' k' => Ideal.div (code (ix2 r' k')) (g (ix2 0 0))) r k :=
  pay2_11 g code q s j

variable (V : (c : Dev nD) → (b : Ref sig .tc) → Buf (Elt Ideal) ((c : Thread nD τ).loc b))

abbrev qblk15 (c : Dev nD) (t : Fin cfg15.N) : FVec Ideal S2048x256 .f32 := iblk15 V c 0 t
abbrev cblk15 (c : Dev nD) (t : Fin cfg15.N) : FVec Ideal S2048x256 .f32 := iblk15 V c 1 t
abbrev gblk15 (c : Dev nD) (t : Fin cfg15.N) : FVec Ideal S1x1 .f32 := iblk15 V c 2 t

abbrev qarr15 (c : Dev nD) : Fin 16384 → Fin 256 → EReal := fun b k => V c main_v37 (ix2 b k)
abbrev carr15 (c : Dev nD) : Fin 16384 → Fin 256 → EReal := fun b k => V c main_v31 (ix2 b k)
abbrev garr15 (c : Dev nD) : EReal := V c main_v1 (ix2 0 0)

theorem blk_facts15 : ∀ t : Fin cfg15.N,
    win15_0.index t (0 : Fin 2) = t.val ∧ win15_0.index t (1 : Fin 2) = 0
    ∧ win15_1.index t (0 : Fin 2) = t.val ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0 :=
  (by decide +kernel : ∀ t : Fin grid15.N, _)

theorem qblk15_at (c : Dev nD) (t : Fin cfg15.N) (r : Fin 2048) (k : Fin 256) :
    qblk15 V c t (ix2 r k) = qarr15 V c (ce_rowN t.val r) k := by
  obtain ⟨e0, e1, -⟩ := blk_facts15 t
  have ht : t.val < 8 := lt_of_lt_of_eq t.isLt (show cfg15.N = 8 from N_15)
  show V c main_v37 (((cfg15.win 0).blk t).view.emb (ix2 r k)) = V c main_v37 _
  refine congrArg _ (funext fun a => Fin.ext ?_)
  match a with
  | ⟨0, _⟩ =>
    show win15_0.index t (0 : Fin 2) * 2048 + 1 * r.val = (ce_rowN t.val r).val
    rw [e0, ce_rowN_val _ ht]; omega
  | ⟨1, _⟩ =>
    show win15_0.index t (1 : Fin 2) * 256 + 1 * k.val = k.val
    rw [e1]; omega

theorem cblk15_at (c : Dev nD) (t : Fin cfg15.N) (r : Fin 2048) (k : Fin 256) :
    cblk15 V c t (ix2 r k) = carr15 V c (ce_rowN t.val r) k := by
  obtain ⟨-, -, e0, e1, -⟩ := blk_facts15 t
  have ht : t.val < 8 := lt_of_lt_of_eq t.isLt (show cfg15.N = 8 from N_15)
  show V c main_v31 (((cfg15.win 1).blk t).view.emb (ix2 r k)) = V c main_v31 _
  refine congrArg _ (funext fun a => Fin.ext ?_)
  match a with
  | ⟨0, _⟩ =>
    show win15_1.index t (0 : Fin 2) * 2048 + 1 * r.val = (ce_rowN t.val r).val
    rw [e0, ce_rowN_val _ ht]; omega
  | ⟨1, _⟩ =>
    show win15_1.index t (1 : Fin 2) * 256 + 1 * k.val = k.val
    rw [e1]; omega

theorem gblk15_at (c : Dev nD) (t : Fin cfg15.N) : gblk15 V c t (ix2 0 0) = garr15 V c := by
  obtain ⟨-, -, -, -, e0, e1, -⟩ := blk_facts15 t
  show V c main_v1 (((cfg15.win 2).blk t).view.emb (ix2 0 0)) = V c main_v1 _
  refine congrArg _ (funext fun a => Fin.ext ?_)
  match a with
  | ⟨0, _⟩ =>
    show win15_2.index t (0 : Fin 2) * 1 + 1 * 0 = 0
    rw [e0]
  | ⟨1, _⟩ =>
    show win15_2.index t (1 : Fin 2) * 1 + 1 * 0 = 0
    rw [e1]

theorem block15_eq (c : Dev nD) (t : Fin cfg15.N) :
    (∑ r : Fin 2048, ∑ k : Fin 256, qblk15 V c t (ix2 r k)
        * ce_lsm (fun r' k' => Ideal.div (cblk15 V c t (ix2 r' k')) (gblk15 V c t (ix2 0 0))) r k)
      = ce_blockTermN (qarr15 V c) (carr15 V c) (garr15 V c) t.val := by
  unfold ce_blockTermN
  refine Finset.sum_congr rfl fun r _ => Finset.sum_congr rfl fun k _ => ?_
  rw [qblk15_at, gblk15_at]
  have hX : (fun (r' : Fin 2048) (k' : Fin 256) => Ideal.div (cblk15 V c t (ix2 r' k')) (garr15 V c))
      = fun r' k' => Ideal.div (carr15 V c (ce_rowN t.val r') k') (garr15 V c) :=
    funext fun r' => funext fun k' => by rw [cblk15_at]
  rw [hX]
  rfl

theorem acc15_at (c : Dev nD) : ∀ (n : ℕ) (h : n < cfg15.N),
    acc15 V c n h (ix2 0 0) = 0 + ∑ s ∈ Finset.range (n + 1), ce_blockTermN (qarr15 V c) (carr15 V c) (garr15 V c) s
  | 0, h => by
    show k15_pay2 (F := Ideal) (gblk15 V c ⟨0, h⟩) (cblk15 V c ⟨0, h⟩) (qblk15 V c ⟨0, h⟩) (k15_pay1 (F := Ideal)) (ix2 0 0) = _
    rw [pay2_15, pay1_15, Finset.sum_range_one, block15_eq V c ⟨0, h⟩]
  | n + 1, h => by
    show k15_pay2 (F := Ideal) (gblk15 V c ⟨n + 1, h⟩) (cblk15 V c ⟨n + 1, h⟩) (qblk15 V c ⟨n + 1, h⟩)
      (acc15 V c n (Nat.lt_of_succ_lt h)) (ix2 0 0) = _
    rw [pay2_15, acc15_at c n, Finset.sum_range_succ _ (n + 1), add_assoc, block15_eq V c ⟨n + 1, h⟩]

abbrev res15 (c : Dev nD) : Buf (Elt Ideal) ((c : Thread nD τ).loc main_v47) :=
  k15_pay3 (F := Ideal) (acc15 V c 7 (by rw [show cfg15.N = 8 from N_15]; decide))

theorem flushed15 (c : Dev nD) (t : Fin cfg15.N) (hf : (cfg15.win 3).flush t = true) :
    (dat15 (F := Ideal) V c).flushed 3 t = ((cfg15.win 3).blk t).view.read (Elt Ideal) (res15 V c) := by
  have hN : cfg15.N = 8 := N_15
  have h7 : t.val = 7 := by have := (flush15_3 t).mp hf; have := t.isLt; omega
  obtain rfl : t = t15_7 := Fin.ext h7
  show (cfg15.win 3).cut (grid15.coords t15_7) ((dat15 (F := Ideal) V c).after 3 t15_7) = _
  rw [after15_3]
  have hz' : (fun a => win15_3.index t15_7 a * main_v47.ty.shape.size a) = fun _ => 0 :=
    funext fun a => by fin_cases a <;> decide
  exact (Memref.read_access_unit_zero (Elt Ideal) main_v47 hz' (fun a => by rw [congrFun hz' a]; simp) (res15 V c)).symm

theorem cover15 (i : S1x1.Idx) :
    ∃ t : Fin cfg15.N, (cfg15.win 3).flush t = true ∧ i ∈ ((cfg15.win 3).blk t).view.set := by
  obtain ⟨-, -, -, -, -, -, e0, e1⟩ := blk_facts15 t15_7
  refine ⟨t15_7, (flush15_3 t15_7).mpr rfl, ?_⟩
  show i ∈ ((View.whole main_v47).slice (win15_3.rect t15_7)).set
  rw [View.set_slice_whole, Rect.mem_set_unit]
  intro a
  have h0 : (i 0).val < 1 := (i 0).isLt
  have h1 : (i 1).val < 1 := (i 1).isLt
  match a with
  | ⟨0, _⟩ =>
    show win15_3.index t15_7 (0 : Fin 2) * 1 ≤ (i 0).val ∧ (i 0).val < win15_3.index t15_7 (0 : Fin 2) * 1 + 1
    rw [e0]; omega
  | ⟨1, _⟩ =>
    show win15_3.index t15_7 (1 : Fin 2) * 1 ≤ (i 1).val ∧ (i 1).val < win15_3.index t15_7 (1 : Fin 2) * 1 + 1
    rw [e1]; omega

theorem arr15 (c : Dev nD) : (dat15 (F := Ideal) V c).arrAt 3 cfg15.N = res15 V c :=
  (dat15 (F := Ideal) V c).arrAt_eq_of_cover 3 (res15 V c) (flushed15 V c) (fun i => cover15 i)

theorem ce_arr15 (c : Dev nD) :
    (dat15 (F := Ideal) V c).arrAt 3 cfg15.N (ix2 0 0)
      = Cert.Spec.crossEntropy (fun b k => V c main_v37 (ix2 b k)) (fun b k => V c main_v31 (ix2 b k)) (V c main_v1 (ix2 0 0)) := by
  rw [arr15]
  show k15_pay3 (F := Ideal) (acc15 V c 7 _) (ix2 0 0) = _
  rw [pay3_15, acc15_at V c 7]
  exact ce_of_blocks (qarr15 V c) (carr15 V c) (garr15 V c)

end Cert.KernelIdeal.Val

end
-- ==== Proof.Val.CrossEntropy16.lean ====
import proofs.«402369_j86406152061536_3_alg».proof.Proof.KI.Reg16
import proofs.«402369_j86406152061536_3_alg».proof.Proof.Val.CrossEntropy
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

theorem pay1_16 (j : S1x1.Idx) : k16_pay1 (F := Ideal) j = 0 :=
  pay1_11 j

theorem pay3_16 (s : Vec Ideal S1x1 .f32) (j : S1x1.Idx) :
    k16_pay3 (F := Ideal) s j = Ideal.ofBits .f32 0x00000000#32 - s j * Ideal.ofBits .f32 0x38800000#32 :=
  pay3_11 s j

theorem pay2_16 (g : Vec Ideal S1x1 .f32) (code q : Vec Ideal S2048x256 .f32) (s : Vec Ideal S1x1 .f32) (j : S1x1.Idx) :
    k16_pay2 (F := Ideal) g code q s j
      = s j + ∑ r : Fin 2048, ∑ k : Fin 256,
          q (ix2 r k) * ce_lsm (fun r' k' => Ideal.div (code (ix2 r' k')) (g (ix2 0 0))) r k :=
  pay2_11 g code q s j

variable (V : (c : Dev nD) → (b : Ref sig .tc) → Buf (Elt Ideal) ((c : Thread nD τ).loc b))

abbrev qblk16 (c : Dev nD) (t : Fin cfg16.N) : FVec Ideal S2048x256 .f32 := iblk16 V c 0 t
abbrev cblk16 (c : Dev nD) (t : Fin cfg16.N) : FVec Ideal S2048x256 .f32 := iblk16 V c 1 t
abbrev gblk16 (c : Dev nD) (t : Fin cfg16.N) : FVec Ideal S1x1 .f32 := iblk16 V c 2 t

abbrev qarr16 (c : Dev nD) : Fin 16384 → Fin 256 → EReal := fun b k => V c main_v37 (ix2 b k)
abbrev carr16 (c : Dev nD) : Fin 16384 → Fin 256 → EReal := fun b k => V c main_v33 (ix2 b k)
abbrev garr16 (c : Dev nD) : EReal := V c main_v1 (ix2 0 0)

theorem blk_facts16 : ∀ t : Fin cfg16.N,
    win16_0.index t (0 : Fin 2) = t.val ∧ win16_0.index t (1 : Fin 2) = 0
    ∧ win16_1.index t (0 : Fin 2) = t.val ∧ win16_1.index t (1 : Fin 2) = 0
    ∧ win16_2.index t (0 : Fin 2) = 0 ∧ win16_2.index t (1 : Fin 2) = 0
    ∧ win16_3.index t (0 : Fin 2) = 0 ∧ win16_3.index t (1 : Fin 2) = 0 :=
  (by decide +kernel : ∀ t : Fin grid16.N, _)

theorem qblk16_at (c : Dev nD) (t : Fin cfg16.N) (r : Fin 2048) (k : Fin 256) :
    qblk16 V c t (ix2 r k) = qarr16 V c (ce_rowN t.val r) k := by
  obtain ⟨e0, e1, -⟩ := blk_facts16 t
  have ht : t.val < 8 := lt_of_lt_of_eq t.isLt (show cfg16.N = 8 from N_16)
  show V c main_v37 (((cfg16.win 0).blk t).view.emb (ix2 r k)) = V c main_v37 _
  refine congrArg _ (funext fun a => Fin.ext ?_)
  match a with
  | ⟨0, _⟩ =>
    show win16_0.index t (0 : Fin 2) * 2048 + 1 * r.val = (ce_rowN t.val r).val
    rw [e0, ce_rowN_val _ ht]; omega
  | ⟨1, _⟩ =>
    show win16_0.index t (1 : Fin 2) * 256 + 1 * k.val = k.val
    rw [e1]; omega

theorem cblk16_at (c : Dev nD) (t : Fin cfg16.N) (r : Fin 2048) (k : Fin 256) :
    cblk16 V c t (ix2 r k) = carr16 V c (ce_rowN t.val r) k := by
  obtain ⟨-, -, e0, e1, -⟩ := blk_facts16 t
  have ht : t.val < 8 := lt_of_lt_of_eq t.isLt (show cfg16.N = 8 from N_16)
  show V c main_v33 (((cfg16.win 1).blk t).view.emb (ix2 r k)) = V c main_v33 _
  refine congrArg _ (funext fun a => Fin.ext ?_)
  match a with
  | ⟨0, _⟩ =>
    show win16_1.index t (0 : Fin 2) * 2048 + 1 * r.val = (ce_rowN t.val r).val
    rw [e0, ce_rowN_val _ ht]; omega
  | ⟨1, _⟩ =>
    show win16_1.index t (1 : Fin 2) * 256 + 1 * k.val = k.val
    rw [e1]; omega

theorem gblk16_at (c : Dev nD) (t : Fin cfg16.N) : gblk16 V c t (ix2 0 0) = garr16 V c := by
  obtain ⟨-, -, -, -, e0, e1, -⟩ := blk_facts16 t
  show V c main_v1 (((cfg16.win 2).blk t).view.emb (ix2 0 0)) = V c main_v1 _
  refine congrArg _ (funext fun a => Fin.ext ?_)
  match a with
  | ⟨0, _⟩ =>
    show win16_2.index t (0 : Fin 2) * 1 + 1 * 0 = 0
    rw [e0]
  | ⟨1, _⟩ =>
    show win16_2.index t (1 : Fin 2) * 1 + 1 * 0 = 0
    rw [e1]

theorem block16_eq (c : Dev nD) (t : Fin cfg16.N) :
    (∑ r : Fin 2048, ∑ k : Fin 256, qblk16 V c t (ix2 r k)
        * ce_lsm (fun r' k' => Ideal.div (cblk16 V c t (ix2 r' k')) (gblk16 V c t (ix2 0 0))) r k)
      = ce_blockTermN (qarr16 V c) (carr16 V c) (garr16 V c) t.val := by
  unfold ce_blockTermN
  refine Finset.sum_congr rfl fun r _ => Finset.sum_congr rfl fun k _ => ?_
  rw [qblk16_at, gblk16_at]
  have hX : (fun (r' : Fin 2048) (k' : Fin 256) => Ideal.div (cblk16 V c t (ix2 r' k')) (garr16 V c))
      = fun r' k' => Ideal.div (carr16 V c (ce_rowN t.val r') k') (garr16 V c) :=
    funext fun r' => funext fun k' => by rw [cblk16_at]
  rw [hX]
  rfl

theorem acc16_at (c : Dev nD) : ∀ (n : ℕ) (h : n < cfg16.N),
    acc16 V c n h (ix2 0 0) = 0 + ∑ s ∈ Finset.range (n + 1), ce_blockTermN (qarr16 V c) (carr16 V c) (garr16 V c) s
  | 0, h => by
    show k16_pay2 (F := Ideal) (gblk16 V c ⟨0, h⟩) (cblk16 V c ⟨0, h⟩) (qblk16 V c ⟨0, h⟩) (k16_pay1 (F := Ideal)) (ix2 0 0) = _
    rw [pay2_16, pay1_16, Finset.sum_range_one, block16_eq V c ⟨0, h⟩]
  | n + 1, h => by
    show k16_pay2 (F := Ideal) (gblk16 V c ⟨n + 1, h⟩) (cblk16 V c ⟨n + 1, h⟩) (qblk16 V c ⟨n + 1, h⟩)
      (acc16 V c n (Nat.lt_of_succ_lt h)) (ix2 0 0) = _
    rw [pay2_16, acc16_at c n, Finset.sum_range_succ _ (n + 1), add_assoc, block16_eq V c ⟨n + 1, h⟩]

abbrev res16 (c : Dev nD) : Buf (Elt Ideal) ((c : Thread nD τ).loc main_v49) :=
  k16_pay3 (F := Ideal) (acc16 V c 7 (by rw [show cfg16.N = 8 from N_16]; decide))

theorem flushed16 (c : Dev nD) (t : Fin cfg16.N) (hf : (cfg16.win 3).flush t = true) :
    (dat16 (F := Ideal) V c).flushed 3 t = ((cfg16.win 3).blk t).view.read (Elt Ideal) (res16 V c) := by
  have hN : cfg16.N = 8 := N_16
  have h7 : t.val = 7 := by have := (flush16_3 t).mp hf; have := t.isLt; omega
  obtain rfl : t = t16_7 := Fin.ext h7
  show (cfg16.win 3).cut (grid16.coords t16_7) ((dat16 (F := Ideal) V c).after 3 t16_7) = _
  rw [after16_3]
  have hz' : (fun a => win16_3.index t16_7 a * main_v49.ty.shape.size a) = fun _ => 0 :=
    funext fun a => by fin_cases a <;> decide
  exact (Memref.read_access_unit_zero (Elt Ideal) main_v49 hz' (fun a => by rw [congrFun hz' a]; simp) (res16 V c)).symm

theorem cover16 (i : S1x1.Idx) :
    ∃ t : Fin cfg16.N, (cfg16.win 3).flush t = true ∧ i ∈ ((cfg16.win 3).blk t).view.set := by
  obtain ⟨-, -, -, -, -, -, e0, e1⟩ := blk_facts16 t16_7
  refine ⟨t16_7, (flush16_3 t16_7).mpr rfl, ?_⟩
  show i ∈ ((View.whole main_v49).slice (win16_3.rect t16_7)).set
  rw [View.set_slice_whole, Rect.mem_set_unit]
  intro a
  have h0 : (i 0).val < 1 := (i 0).isLt
  have h1 : (i 1).val < 1 := (i 1).isLt
  match a with
  | ⟨0, _⟩ =>
    show win16_3.index t16_7 (0 : Fin 2) * 1 ≤ (i 0).val ∧ (i 0).val < win16_3.index t16_7 (0 : Fin 2) * 1 + 1
    rw [e0]; omega
  | ⟨1, _⟩ =>
    show win16_3.index t16_7 (1 : Fin 2) * 1 ≤ (i 1).val ∧ (i 1).val < win16_3.index t16_7 (1 : Fin 2) * 1 + 1
    rw [e1]; omega

theorem arr16 (c : Dev nD) : (dat16 (F := Ideal) V c).arrAt 3 cfg16.N = res16 V c :=
  (dat16 (F := Ideal) V c).arrAt_eq_of_cover 3 (res16 V c) (flushed16 V c) (fun i => cover16 i)

theorem ce_arr16 (c : Dev nD) :
    (dat16 (F := Ideal) V c).arrAt 3 cfg16.N (ix2 0 0)
      = Cert.Spec.crossEntropy (fun b k => V c main_v37 (ix2 b k)) (fun b k => V c main_v33 (ix2 b k)) (V c main_v1 (ix2 0 0)) := by
  rw [arr16]
  show k16_pay3 (F := Ideal) (acc16 V c 7 _) (ix2 0 0) = _
  rw [pay3_16, acc16_at V c 7]
  exact ce_of_blocks (qarr16 V c) (carr16 V c) (garr16 V c)

end Cert.KernelIdeal.Val

end
-- ==== Proof.Val.CrossEntropy17.lean ====
import proofs.«402369_j86406152061536_3_alg».proof.Proof.KI.Reg17
import proofs.«402369_j86406152061536_3_alg».proof.Proof.Val.CrossEntropy
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

theorem pay1_17 (j : S1x1.Idx) : k17_pay1 (F := Ideal) j = 0 :=
  pay1_11 j

theorem pay3_17 (s : Vec Ideal S1x1 .f32) (j : S1x1.Idx) :
    k17_pay3 (F := Ideal) s j = Ideal.ofBits .f32 0x00000000#32 - s j * Ideal.ofBits .f32 0x38800000#32 :=
  pay3_11 s j

theorem pay2_17 (g : Vec Ideal S1x1 .f32) (code q : Vec Ideal S2048x256 .f32) (s : Vec Ideal S1x1 .f32) (j : S1x1.Idx) :
    k17_pay2 (F := Ideal) g code q s j
      = s j + ∑ r : Fin 2048, ∑ k : Fin 256,
          q (ix2 r k) * ce_lsm (fun r' k' => Ideal.div (code (ix2 r' k')) (g (ix2 0 0))) r k :=
  pay2_11 g code q s j

variable (V : (c : Dev nD) → (b : Ref sig .tc) → Buf (Elt Ideal) ((c : Thread nD τ).loc b))

abbrev qblk17 (c : Dev nD) (t : Fin cfg17.N) : FVec Ideal S2048x256 .f32 := iblk17 V c 0 t
abbrev cblk17 (c : Dev nD) (t : Fin cfg17.N) : FVec Ideal S2048x256 .f32 := iblk17 V c 1 t
abbrev gblk17 (c : Dev nD) (t : Fin cfg17.N) : FVec Ideal S1x1 .f32 := iblk17 V c 2 t

abbrev qarr17 (c : Dev nD) : Fin 16384 → Fin 256 → EReal := fun b k => V c main_v38 (ix2 b k)
abbrev carr17 (c : Dev nD) : Fin 16384 → Fin 256 → EReal := fun b k => V c main_v31 (ix2 b k)
abbrev garr17 (c : Dev nD) : EReal := V c main_v1 (ix2 0 0)

theorem blk_facts17 : ∀ t : Fin cfg17.N,
    win17_0.index t (0 : Fin 2) = t.val ∧ win17_0.index t (1 : Fin 2) = 0
    ∧ win17_1.index t (0 : Fin 2) = t.val ∧ win17_1.index t (1 : Fin 2) = 0
    ∧ win17_2.index t (0 : Fin 2) = 0 ∧ win17_2.index t (1 : Fin 2) = 0
    ∧ win17_3.index t (0 : Fin 2) = 0 ∧ win17_3.index t (1 : Fin 2) = 0 :=
  (by decide +kernel : ∀ t : Fin grid17.N, _)

theorem qblk17_at (c : Dev nD) (t : Fin cfg17.N) (r : Fin 2048) (k : Fin 256) :
    qblk17 V c t (ix2 r k) = qarr17 V c (ce_rowN t.val r) k := by
  obtain ⟨e0, e1, -⟩ := blk_facts17 t
  have ht : t.val < 8 := lt_of_lt_of_eq t.isLt (show cfg17.N = 8 from N_17)
  show V c main_v38 (((cfg17.win 0).blk t).view.emb (ix2 r k)) = V c main_v38 _
  refine congrArg _ (funext fun a => Fin.ext ?_)
  match a with
  | ⟨0, _⟩ =>
    show win17_0.index t (0 : Fin 2) * 2048 + 1 * r.val = (ce_rowN t.val r).val
    rw [e0, ce_rowN_val _ ht]; omega
  | ⟨1, _⟩ =>
    show win17_0.index t (1 : Fin 2) * 256 + 1 * k.val = k.val
    rw [e1]; omega

theorem cblk17_at (c : Dev nD) (t : Fin cfg17.N) (r : Fin 2048) (k : Fin 256) :
    cblk17 V c t (ix2 r k) = carr17 V c (ce_rowN t.val r) k := by
  obtain ⟨-, -, e0, e1, -⟩ := blk_facts17 t
  have ht : t.val < 8 := lt_of_lt_of_eq t.isLt (show cfg17.N = 8 from N_17)
  show V c main_v31 (((cfg17.win 1).blk t).view.emb (ix2 r k)) = V c main_v31 _
  refine congrArg _ (funext fun a => Fin.ext ?_)
  match a with
  | ⟨0, _⟩ =>
    show win17_1.index t (0 : Fin 2) * 2048 + 1 * r.val = (ce_rowN t.val r).val
    rw [e0, ce_rowN_val _ ht]; omega
  | ⟨1, _⟩ =>
    show win17_1.index t (1 : Fin 2) * 256 + 1 * k.val = k.val
    rw [e1]; omega

theorem gblk17_at (c : Dev nD) (t : Fin cfg17.N) : gblk17 V c t (ix2 0 0) = garr17 V c := by
  obtain ⟨-, -, -, -, e0, e1, -⟩ := blk_facts17 t
  show V c main_v1 (((cfg17.win 2).blk t).view.emb (ix2 0 0)) = V c main_v1 _
  refine congrArg _ (funext fun a => Fin.ext ?_)
  match a with
  | ⟨0, _⟩ =>
    show win17_2.index t (0 : Fin 2) * 1 + 1 * 0 = 0
    rw [e0]
  | ⟨1, _⟩ =>
    show win17_2.index t (1 : Fin 2) * 1 + 1 * 0 = 0
    rw [e1]

theorem block17_eq (c : Dev nD) (t : Fin cfg17.N) :
    (∑ r : Fin 2048, ∑ k : Fin 256, qblk17 V c t (ix2 r k)
        * ce_lsm (fun r' k' => Ideal.div (cblk17 V c t (ix2 r' k')) (gblk17 V c t (ix2 0 0))) r k)
      = ce_blockTermN (qarr17 V c) (carr17 V c) (garr17 V c) t.val := by
  unfold ce_blockTermN
  refine Finset.sum_congr rfl fun r _ => Finset.sum_congr rfl fun k _ => ?_
  rw [qblk17_at, gblk17_at]
  have hX : (fun (r' : Fin 2048) (k' : Fin 256) => Ideal.div (cblk17 V c t (ix2 r' k')) (garr17 V c))
      = fun r' k' => Ideal.div (carr17 V c (ce_rowN t.val r') k') (garr17 V c) :=
    funext fun r' => funext fun k' => by rw [cblk17_at]
  rw [hX]
  rfl

theorem acc17_at (c : Dev nD) : ∀ (n : ℕ) (h : n < cfg17.N),
    acc17 V c n h (ix2 0 0) = 0 + ∑ s ∈ Finset.range (n + 1), ce_blockTermN (qarr17 V c) (carr17 V c) (garr17 V c) s
  | 0, h => by
    show k17_pay2 (F := Ideal) (gblk17 V c ⟨0, h⟩) (cblk17 V c ⟨0, h⟩) (qblk17 V c ⟨0, h⟩) (k17_pay1 (F := Ideal)) (ix2 0 0) = _
    rw [pay2_17, pay1_17, Finset.sum_range_one, block17_eq V c ⟨0, h⟩]
  | n + 1, h => by
    show k17_pay2 (F := Ideal) (gblk17 V c ⟨n + 1, h⟩) (cblk17 V c ⟨n + 1, h⟩) (qblk17 V c ⟨n + 1, h⟩)
      (acc17 V c n (Nat.lt_of_succ_lt h)) (ix2 0 0) = _
    rw [pay2_17, acc17_at c n, Finset.sum_range_succ _ (n + 1), add_assoc, block17_eq V c ⟨n + 1, h⟩]

abbrev res17 (c : Dev nD) : Buf (Elt Ideal) ((c : Thread nD τ).loc main_v51) :=
  k17_pay3 (F := Ideal) (acc17 V c 7 (by rw [show cfg17.N = 8 from N_17]; decide))

theorem flushed17 (c : Dev nD) (t : Fin cfg17.N) (hf : (cfg17.win 3).flush t = true) :
    (dat17 (F := Ideal) V c).flushed 3 t = ((cfg17.win 3).blk t).view.read (Elt Ideal) (res17 V c) := by
  have hN : cfg17.N = 8 := N_17
  have h7 : t.val = 7 := by have := (flush17_3 t).mp hf; have := t.isLt; omega
  obtain rfl : t = t17_7 := Fin.ext h7
  show (cfg17.win 3).cut (grid17.coords t17_7) ((dat17 (F := Ideal) V c).after 3 t17_7) = _
  rw [after17_3]
  have hz' : (fun a => win17_3.index t17_7 a * main_v51.ty.shape.size a) = fun _ => 0 :=
    funext fun a => by fin_cases a <;> decide
  exact (Memref.read_access_unit_zero (Elt Ideal) main_v51 hz' (fun a => by rw [congrFun hz' a]; simp) (res17 V c)).symm

theorem cover17 (i : S1x1.Idx) :
    ∃ t : Fin cfg17.N, (cfg17.win 3).flush t = true ∧ i ∈ ((cfg17.win 3).blk t).view.set := by
  obtain ⟨-, -, -, -, -, -, e0, e1⟩ := blk_facts17 t17_7
  refine ⟨t17_7, (flush17_3 t17_7).mpr rfl, ?_⟩
  show i ∈ ((View.whole main_v51).slice (win17_3.rect t17_7)).set
  rw [View.set_slice_whole, Rect.mem_set_unit]
  intro a
  have h0 : (i 0).val < 1 := (i 0).isLt
  have h1 : (i 1).val < 1 := (i 1).isLt
  match a with
  | ⟨0, _⟩ =>
    show win17_3.index t17_7 (0 : Fin 2) * 1 ≤ (i 0).val ∧ (i 0).val < win17_3.index t17_7 (0 : Fin 2) * 1 + 1
    rw [e0]; omega
  | ⟨1, _⟩ =>
    show win17_3.index t17_7 (1 : Fin 2) * 1 ≤ (i 1).val ∧ (i 1).val < win17_3.index t17_7 (1 : Fin 2) * 1 + 1
    rw [e1]; omega

theorem arr17 (c : Dev nD) : (dat17 (F := Ideal) V c).arrAt 3 cfg17.N = res17 V c :=
  (dat17 (F := Ideal) V c).arrAt_eq_of_cover 3 (res17 V c) (flushed17 V c) (fun i => cover17 i)

theorem ce_arr17 (c : Dev nD) :
    (dat17 (F := Ideal) V c).arrAt 3 cfg17.N (ix2 0 0)
      = Cert.Spec.crossEntropy (fun b k => V c main_v38 (ix2 b k)) (fun b k => V c main_v31 (ix2 b k)) (V c main_v1 (ix2 0 0)) := by
  rw [arr17]
  show k17_pay3 (F := Ideal) (acc17 V c 7 _) (ix2 0 0) = _
  rw [pay3_17, acc17_at V c 7]
  exact ce_of_blocks (qarr17 V c) (carr17 V c) (garr17 V c)

end Cert.KernelIdeal.Val

end
-- ==== Proof.Val.CrossEntropy18.lean ====
import proofs.«402369_j86406152061536_3_alg».proof.Proof.KI.Reg18
import proofs.«402369_j86406152061536_3_alg».proof.Proof.Val.CrossEntropy
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

theorem pay1_18 (j : S1x1.Idx) : k18_pay1 (F := Ideal) j = 0 :=
  pay1_11 j

theorem pay3_18 (s : Vec Ideal S1x1 .f32) (j : S1x1.Idx) :
    k18_pay3 (F := Ideal) s j = Ideal.ofBits .f32 0x00000000#32 - s j * Ideal.ofBits .f32 0x38800000#32 :=
  pay3_11 s j

theorem pay2_18 (g : Vec Ideal S1x1 .f32) (code q : Vec Ideal S2048x256 .f32) (s : Vec Ideal S1x1 .f32) (j : S1x1.Idx) :
    k18_pay2 (F := Ideal) g code q s j
      = s j + ∑ r : Fin 2048, ∑ k : Fin 256,
          q (ix2 r k) * ce_lsm (fun r' k' => Ideal.div (code (ix2 r' k')) (g (ix2 0 0))) r k :=
  pay2_11 g code q s j

variable (V : (c : Dev nD) → (b : Ref sig .tc) → Buf (Elt Ideal) ((c : Thread nD τ).loc b))

abbrev qblk18 (c : Dev nD) (t : Fin cfg18.N) : FVec Ideal S2048x256 .f32 := iblk18 V c 0 t
abbrev cblk18 (c : Dev nD) (t : Fin cfg18.N) : FVec Ideal S2048x256 .f32 := iblk18 V c 1 t
abbrev gblk18 (c : Dev nD) (t : Fin cfg18.N) : FVec Ideal S1x1 .f32 := iblk18 V c 2 t

abbrev qarr18 (c : Dev nD) : Fin 16384 → Fin 256 → EReal := fun b k => V c main_v38 (ix2 b k)
abbrev carr18 (c : Dev nD) : Fin 16384 → Fin 256 → EReal := fun b k => V c main_v32 (ix2 b k)
abbrev garr18 (c : Dev nD) : EReal := V c main_v1 (ix2 0 0)

theorem blk_facts18 : ∀ t : Fin cfg18.N,
    win18_0.index t (0 : Fin 2) = t.val ∧ win18_0.index t (1 : Fin 2) = 0
    ∧ win18_1.index t (0 : Fin 2) = t.val ∧ win18_1.index t (1 : Fin 2) = 0
    ∧ win18_2.index t (0 : Fin 2) = 0 ∧ win18_2.index t (1 : Fin 2) = 0
    ∧ win18_3.index t (0 : Fin 2) = 0 ∧ win18_3.index t (1 : Fin 2) = 0 :=
  (by decide +kernel : ∀ t : Fin grid18.N, _)

theorem qblk18_at (c : Dev nD) (t : Fin cfg18.N) (r : Fin 2048) (k : Fin 256) :
    qblk18 V c t (ix2 r k) = qarr18 V c (ce_rowN t.val r) k := by
  obtain ⟨e0, e1, -⟩ := blk_facts18 t
  have ht : t.val < 8 := lt_of_lt_of_eq t.isLt (show cfg18.N = 8 from N_18)
  show V c main_v38 (((cfg18.win 0).blk t).view.emb (ix2 r k)) = V c main_v38 _
  refine congrArg _ (funext fun a => Fin.ext ?_)
  match a with
  | ⟨0, _⟩ =>
    show win18_0.index t (0 : Fin 2) * 2048 + 1 * r.val = (ce_rowN t.val r).val
    rw [e0, ce_rowN_val _ ht]; omega
  | ⟨1, _⟩ =>
    show win18_0.index t (1 : Fin 2) * 256 + 1 * k.val = k.val
    rw [e1]; omega

theorem cblk18_at (c : Dev nD) (t : Fin cfg18.N) (r : Fin 2048) (k : Fin 256) :
    cblk18 V c t (ix2 r k) = carr18 V c (ce_rowN t.val r) k := by
  obtain ⟨-, -, e0, e1, -⟩ := blk_facts18 t
  have ht : t.val < 8 := lt_of_lt_of_eq t.isLt (show cfg18.N = 8 from N_18)
  show V c main_v32 (((cfg18.win 1).blk t).view.emb (ix2 r k)) = V c main_v32 _
  refine congrArg _ (funext fun a => Fin.ext ?_)
  match a with
  | ⟨0, _⟩ =>
    show win18_1.index t (0 : Fin 2) * 2048 + 1 * r.val = (ce_rowN t.val r).val
    rw [e0, ce_rowN_val _ ht]; omega
  | ⟨1, _⟩ =>
    show win18_1.index t (1 : Fin 2) * 256 + 1 * k.val = k.val
    rw [e1]; omega

theorem gblk18_at (c : Dev nD) (t : Fin cfg18.N) : gblk18 V c t (ix2 0 0) = garr18 V c := by
  obtain ⟨-, -, -, -, e0, e1, -⟩ := blk_facts18 t
  show V c main_v1 (((cfg18.win 2).blk t).view.emb (ix2 0 0)) = V c main_v1 _
  refine congrArg _ (funext fun a => Fin.ext ?_)
  match a with
  | ⟨0, _⟩ =>
    show win18_2.index t (0 : Fin 2) * 1 + 1 * 0 = 0
    rw [e0]
  | ⟨1, _⟩ =>
    show win18_2.index t (1 : Fin 2) * 1 + 1 * 0 = 0
    rw [e1]

theorem block18_eq (c : Dev nD) (t : Fin cfg18.N) :
    (∑ r : Fin 2048, ∑ k : Fin 256, qblk18 V c t (ix2 r k)
        * ce_lsm (fun r' k' => Ideal.div (cblk18 V c t (ix2 r' k')) (gblk18 V c t (ix2 0 0))) r k)
      = ce_blockTermN (qarr18 V c) (carr18 V c) (garr18 V c) t.val := by
  unfold ce_blockTermN
  refine Finset.sum_congr rfl fun r _ => Finset.sum_congr rfl fun k _ => ?_
  rw [qblk18_at, gblk18_at]
  have hX : (fun (r' : Fin 2048) (k' : Fin 256) => Ideal.div (cblk18 V c t (ix2 r' k')) (garr18 V c))
      = fun r' k' => Ideal.div (carr18 V c (ce_rowN t.val r') k') (garr18 V c) :=
    funext fun r' => funext fun k' => by rw [cblk18_at]
  rw [hX]
  rfl

theorem acc18_at (c : Dev nD) : ∀ (n : ℕ) (h : n < cfg18.N),
    acc18 V c n h (ix2 0 0) = 0 + ∑ s ∈ Finset.range (n + 1), ce_blockTermN (qarr18 V c) (carr18 V c) (garr18 V c) s
  | 0, h => by
    show k18_pay2 (F := Ideal) (gblk18 V c ⟨0, h⟩) (cblk18 V c ⟨0, h⟩) (qblk18 V c ⟨0, h⟩) (k18_pay1 (F := Ideal)) (ix2 0 0) = _
    rw [pay2_18, pay1_18, Finset.sum_range_one, block18_eq V c ⟨0, h⟩]
  | n + 1, h => by
    show k18_pay2 (F := Ideal) (gblk18 V c ⟨n + 1, h⟩) (cblk18 V c ⟨n + 1, h⟩) (qblk18 V c ⟨n + 1, h⟩)
      (acc18 V c n (Nat.lt_of_succ_lt h)) (ix2 0 0) = _
    rw [pay2_18, acc18_at c n, Finset.sum_range_succ _ (n + 1), add_assoc, block18_eq V c ⟨n + 1, h⟩]

abbrev res18 (c : Dev nD) : Buf (Elt Ideal) ((c : Thread nD τ).loc main_v53) :=
  k18_pay3 (F := Ideal) (acc18 V c 7 (by rw [show cfg18.N = 8 from N_18]; decide))

theorem flushed18 (c : Dev nD) (t : Fin cfg18.N) (hf : (cfg18.win 3).flush t = true) :
    (dat18 (F := Ideal) V c).flushed 3 t = ((cfg18.win 3).blk t).view.read (Elt Ideal) (res18 V c) := by
  have hN : cfg18.N = 8 := N_18
  have h7 : t.val = 7 := by have := (flush18_3 t).mp hf; have := t.isLt; omega
  obtain rfl : t = t18_7 := Fin.ext h7
  show (cfg18.win 3).cut (grid18.coords t18_7) ((dat18 (F := Ideal) V c).after 3 t18_7) = _
  rw [after18_3]
  have hz' : (fun a => win18_3.index t18_7 a * main_v53.ty.shape.size a) = fun _ => 0 :=
    funext fun a => by fin_cases a <;> decide
  exact (Memref.read_access_unit_zero (Elt Ideal) main_v53 hz' (fun a => by rw [congrFun hz' a]; simp) (res18 V c)).symm

theorem cover18 (i : S1x1.Idx) :
    ∃ t : Fin cfg18.N, (cfg18.win 3).flush t = true ∧ i ∈ ((cfg18.win 3).blk t).view.set := by
  obtain ⟨-, -, -, -, -, -, e0, e1⟩ := blk_facts18 t18_7
  refine ⟨t18_7, (flush18_3 t18_7).mpr rfl, ?_⟩
  show i ∈ ((View.whole main_v53).slice (win18_3.rect t18_7)).set
  rw [View.set_slice_whole, Rect.mem_set_unit]
  intro a
  have h0 : (i 0).val < 1 := (i 0).isLt
  have h1 : (i 1).val < 1 := (i 1).isLt
  match a with
  | ⟨0, _⟩ =>
    show win18_3.index t18_7 (0 : Fin 2) * 1 ≤ (i 0).val ∧ (i 0).val < win18_3.index t18_7 (0 : Fin 2) * 1 + 1
    rw [e0]; omega
  | ⟨1, _⟩ =>
    show win18_3.index t18_7 (1 : Fin 2) * 1 ≤ (i 1).val ∧ (i 1).val < win18_3.index t18_7 (1 : Fin 2) * 1 + 1
    rw [e1]; omega

theorem arr18 (c : Dev nD) : (dat18 (F := Ideal) V c).arrAt 3 cfg18.N = res18 V c :=
  (dat18 (F := Ideal) V c).arrAt_eq_of_cover 3 (res18 V c) (flushed18 V c) (fun i => cover18 i)

theorem ce_arr18 (c : Dev nD) :
    (dat18 (F := Ideal) V c).arrAt 3 cfg18.N (ix2 0 0)
      = Cert.Spec.crossEntropy (fun b k => V c main_v38 (ix2 b k)) (fun b k => V c main_v32 (ix2 b k)) (V c main_v1 (ix2 0 0)) := by
  rw [arr18]
  show k18_pay3 (F := Ideal) (acc18 V c 7 _) (ix2 0 0) = _
  rw [pay3_18, acc18_at V c 7]
  exact ce_of_blocks (qarr18 V c) (carr18 V c) (garr18 V c)

end Cert.KernelIdeal.Val

end
-- ==== Proof.Val.Gather.lean ====
import proofs.«402369_j86406152061536_3_alg».proof.Proof.KI.Reg0
import proofs.«402369_j86406152061536_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

theorem lane_idx (y : S1x1x64.Idx) : y = ix3 (0 : Fin 1) (0 : Fin 1) (y 2) := by
  funext ax
  match ax with
  | ⟨0, _⟩ => exact Subsingleton.elim (α := Fin 1) _ _
  | ⟨1, _⟩ => exact Subsingleton.elim (α := Fin 1) _ _
  | ⟨2, _⟩ => rfl

/-- The lane reduction is a finite sum over the 64 lanes, and every layout step is the identity on a [1,1,64] row. -/
theorem pay_apply (x : FVec Ideal S1x1x64 .f32) (d : Fin 64) :
    k0_pay2 (F := Ideal) x (ix3 (0 : Fin 1) (0 : Fin 1) d)
      = Ideal.div (x (ix3 0 0 d)) (max (Ideal.sqrt (∑ e : Fin 64, x (ix3 0 0 e) * x (ix3 0 0 e))) Cert.Spec.floorLen) := by
  unfold k0_pay2
  dsimp only
  refine congrArg₂ Ideal.div (congrFun (shapeCast_self x _) _) ?_
  refine (broadcastTo_apply _ _ (ix3 (0 : Fin 1) (0 : Fin 1) d) (ix3 (0 : Fin 1) (0 : Fin 1) (0 : Fin 1))
    (fun a => by match a with | ⟨0, _⟩ => rfl | ⟨1, _⟩ => rfl | ⟨2, _⟩ => rfl)).trans ?_
  refine congrArg₂ max (congrArg Ideal.sqrt ?_) rfl
  refine (shapeCast_apply _ _ (ix3 (0 : Fin 1) (0 : Fin 1) (0 : Fin 1)) (ix2 (0 : Fin 1) (0 : Fin 1)) rfl).trans ?_
  refine (Ideal.multiReduction_add_single _ _ _ _ _ (ix2 (0 : Fin 1) (0 : Fin 1))).trans ?_
  refine Finset.sum_congr rfl fun e _ => ?_
  have hl : reduces_S1x1x64_S1x1.lift (ix2 (0 : Fin 1) (0 : Fin 1)) e = ix3 (0 : Fin 1) (0 : Fin 1) e := by
    funext a; match a with | ⟨0, _⟩ => rfl | ⟨1, _⟩ => rfl | ⟨2, _⟩ => rfl
  rw [mulf_apply, shapeCast_self, hl]
  rfl

theorem word_idx (n : Nat) (hn : n < 16384) (h : ∀ ax, (![(BitVec.ofNat 32 n).toNat] : Fin 1 → Nat) ax + S1.size ax ≤ S16384.size ax)
    (h0 : 0 < (Rect.unit (s := S16384) ![(BitVec.ofNat 32 n).toNat] S1.size h).shape.numel) :
    (Rect.unit (s := S16384) ![(BitVec.ofNat 32 n).toNat] S1.size h).emb (Shape.Idx.first h0) = ix1 (⟨n, hn⟩ : Fin 16384) := by
  funext ax; apply Fin.ext
  match ax with
  | ⟨0, _⟩ =>
    rw [Rect.emb_apply]
    show (BitVec.ofNat 32 n).toNat + 1 * 0 = n
    rw [BitVec.toNat_ofNat]; omega

section Value

variable (a : (pcfg0 (F := Ideal)).Adm)
variable (V : (c : Dev nD) → (b : Ref sig .tc) → Buf (Elt Ideal) ((c : Thread nD τ).loc b))

theorem hz3 : (![0, 0, 0] : Fin 3 → Nat) = fun _ => 0 := funext fun ax => by
  match ax with | ⟨0, _⟩ => rfl | ⟨1, _⟩ => rfl | ⟨2, _⟩ => rfl

theorem coord0 (t : Fin (cfg0 a).N) : (((cfg0 a).grid.coords t) 0).val = t.val := by
  have h : t.val < 16384 := t.isLt
  show t.val / 1 % 16384 = t.val
  omega

abbrev rowAt (t : Fin (cfg0 a).N) : Fin 16384 := ⟨t.val, t.isLt⟩

def users : Fin 16384 → BitVec 32 := fun b => a.1 0 (ix1 b)
def items : Fin 16384 → BitVec 32 := fun b => a.1 1 (ix1 b)

theorem index0_eq (t : Fin (cfg0 a).N) : ((cfg0 a).win 0).index t = ![(users a (rowAt a t)).toNat, 0, 0] := by
  funext ax
  match ax with
  | ⟨0, _⟩ =>
    show (a.1 0 ((Rect.unit (s := S16384) ![(BitVec.ofNat 32 (((cfg0 a).grid.coords t) 0).val).toNat] S1.size _).emb _) : BitVec 32).toNat = _
    exact congrArg (fun x => (a.1 0 x : BitVec 32).toNat) ((word_idx _ (((cfg0 a).grid.coords t) 0).isLt _ _).trans
      (congrArg ix1 (Fin.ext (coord0 a t) : (⟨_, (((cfg0 a).grid.coords t) 0).isLt⟩ : Fin 16384) = rowAt a t)))
  | ⟨1, _⟩ => rfl
  | ⟨2, _⟩ => rfl

theorem index1_eq (t : Fin (cfg0 a).N) : ((cfg0 a).win 1).index t = ![(items a (rowAt a t)).toNat, 0, 0] := by
  funext ax
  match ax with
  | ⟨0, _⟩ =>
    show (a.1 1 ((Rect.unit (s := S16384) ![(BitVec.ofNat 32 (((cfg0 a).grid.coords t) 0).val).toNat] S1.size _).emb _) : BitVec 32).toNat = _
    exact congrArg (fun x => (a.1 1 x : BitVec 32).toNat) ((word_idx _ (((cfg0 a).grid.coords t) 0).isLt _ _).trans
      (congrArg ix1 (Fin.ext (coord0 a t) : (⟨_, (((cfg0 a).grid.coords t) 0).isLt⟩ : Fin 16384) = rowAt a t)))
  | ⟨1, _⟩ => rfl
  | ⟨2, _⟩ => rfl

theorem index_out (t : Fin (cfg0 a).N) : ((cfg0 a).win 4).index t = ![t.val, 0, 0] := by
  have h : t.val < 16384 := t.isLt
  funext ax
  match ax with
  | ⟨0, _⟩ => show (BitVec.ofNat 32 (t.val / 1 % 16384)).toNat = t.val; rw [BitVec.toNat_ofNat]; omega
  | ⟨1, _⟩ => rfl
  | ⟨2, _⟩ => rfl

theorem users_lt (t : Fin (cfg0 a).N) : (users a (rowAt a t)).toNat < 1000000 := by
  have h : (((cfg0 a).win 0).index t (0 : Fin 3) + 1) * 1 ≤ 1000000 := (a.2.1 ((cfg0 a).grid.coords t)).1 (0 : Fin 3)
  rw [index0_eq] at h
  have h' : ((users a (rowAt a t)).toNat + 1) * 1 ≤ 1000000 := h
  omega

theorem items_lt (t : Fin (cfg0 a).N) : (items a (rowAt a t)).toNat < 500000 := by
  have h : (((cfg0 a).win 1).index t (0 : Fin 3) + 1) * 1 ≤ 500000 := (a.2.2.1 ((cfg0 a).grid.coords t)).1 (0 : Fin 3)
  rw [index1_eq] at h
  have h' : ((items a (rowAt a t)).toNat + 1) * 1 ≤ 500000 := h
  omega

def G {n : ℕ} [NeZero n] (T : Fin n → Fin 64 → EReal) (idx : Fin 16384 → BitVec 32) : S16384x1x64.Idx → EReal := fun j =>
  Cert.Spec.gathered T idx ⟨(j 0).val, (j 0).isLt⟩ ⟨(j 2).val, (j 2).isLt⟩

theorem idx3_of {n : ℕ} (j : (⟨3, ![n, 1, 64]⟩ : Shape).Idx) (R : Fin n) (y : S1x1x64.Idx) (ix : Fin 3 → ℕ) (hix : ix = ![R.val, 0, 0])
    (hj : ∀ ax : Fin 3, (j ax).val = ix ax * S1x1x64.size ax + 1 * (y ax).val) : j = ix3 R (y 1 : Fin 1) (y 2 : Fin 64) := by
  subst hix
  funext ax; apply Fin.ext; rw [hj]
  match ax with
  | ⟨0, _⟩ => have h : (y 0).val < 1 := (y 0).isLt; show R.val * 1 + 1 * (y 0).val = R.val; omega
  | ⟨1, _⟩ => show 0 * 1 + 1 * (y 1).val = (y 1).val; omega
  | ⟨2, _⟩ => show 0 * 64 + 1 * (y 2).val = (y 2).val; omega

theorem G_row {n : ℕ} [NeZero n] (T : Fin n → Fin 64 → EReal) (idx : Fin 16384 → BitVec 32) (b : Fin 16384) (u : Fin 1) (d : Fin 64) :
    G T idx (ix3 b u d) = Cert.Spec.gathered T idx b d := rfl

theorem out_row {n : ℕ} [NeZero n] (T : Fin n → Fin 64 → EReal) (idx : Fin 16384 → BitVec 32) (b : Fin 16384)
    (x : Vec Ideal S1x1x64 .f32) (hx : ∀ e, x (ix3 (0 : Fin 1) (0 : Fin 1) e) = T (Cert.Spec.rowOf n (idx b)) e) (y : S1x1x64.Idx) :
    out0_4 x y = Cert.Spec.gathered T idx b (y 2) := by
  unfold out0_4
  rw [View.canon_unit_zero hz3]
  simp only [View.ld_unit_zero (S := S1x1x64) hz3]
  obtain ⟨d, rfl⟩ : ∃ d : Fin 64, y = ix3 (0 : Fin 1) (0 : Fin 1) d := ⟨y 2, lane_idx y⟩
  refine (pay_apply x d).trans ?_
  simp only [hx]
  rfl

def Tu (c : Dev nD) : Fin 1000000 → Fin 64 → EReal := fun r d => V c main_v20 (ix3 r (0 : Fin 1) d)

theorem row0 (c : Dev nD) (t : Fin (cfg0 a).N) (e : Fin 64) :
    iblk0 a V c 0 t (ix3 (0 : Fin 1) (0 : Fin 1) e) = Tu V c (Cert.Spec.rowOf 1000000 (users a (rowAt a t))) e := by
  refine congrArg (V c main_v20) (idx3_of _ (Cert.Spec.rowOf 1000000 (users a (rowAt a t))) (ix3 (0 : Fin 1) (0 : Fin 1) e) (((cfg0 a).win 0).index t) ((index0_eq a t).trans ?_) fun _ => rfl)
  exact congrArg (fun r => ![r, 0, 0]) (Nat.mod_eq_of_lt (users_lt a t)).symm

theorem emb4 (t : Fin (cfg0 a).N) (y : S1x1x64.Idx) :
    (show S16384x1x64.Idx from (((cfg0 a).win 4).blk t).view.emb y) = ix3 (rowAt a t) (y 1 : Fin 1) (y 2 : Fin 64) :=
  idx3_of _ _ y (((cfg0 a).win 4).index t) (index_out a t) fun _ => rfl

theorem flush4 (t : Fin (cfg0 a).N) : ((cfg0 a).win 4).flush t = true := by
  rw [Pipeline.Window.flush_out _ rfl]
  by_cases hl : t.val + 1 = (cfg0 a).grid.N
  · exact .inl hl
  · have hN : t.val < (cfg0 a).grid.N := t.isLt
    refine .inr ⟨by omega, fun he => ?_⟩
    have h0 := congrFun he (0 : Fin 3)
    rw [index_out, index_out] at h0
    have h1 : t.val + 1 = t.val := h0
    omega

theorem flushed4_eq (c : Dev nD) (t : Fin (cfg0 a).N) :
    (dat0 a V c).flushed 4 t = (((cfg0 a).win 4).blk t).view.read (Elt Ideal) (G (Tu V c) (users a)) := by
  funext y
  exact (out_row (Tu V c) (users a) (rowAt a t) (iblk0 a V c 0 t) (row0 a V c t) y).trans
    (congrArg (G (Tu V c) (users a)) (emb4 a t y)).symm

def Tid (c : Dev nD) : Fin 500000 → Fin 64 → EReal := fun r d => V c main_v21 (ix3 r (0 : Fin 1) d)

theorem row1 (c : Dev nD) (t : Fin (cfg0 a).N) (e : Fin 64) :
    iblk0 a V c 1 t (ix3 (0 : Fin 1) (0 : Fin 1) e) = Tid V c (Cert.Spec.rowOf 500000 (items a (rowAt a t))) e := by
  refine congrArg (V c main_v21) (idx3_of _ (Cert.Spec.rowOf 500000 (items a (rowAt a t))) (ix3 (0 : Fin 1) (0 : Fin 1) e) (((cfg0 a).win 1).index t) ((index1_eq a t).trans ?_) fun _ => rfl)
  exact congrArg (fun r => ![r, 0, 0]) (Nat.mod_eq_of_lt (items_lt a t)).symm

theorem flushed5_eq (c : Dev nD) (t : Fin (cfg0 a).N) :
    (dat0 a V c).flushed 5 t = (((cfg0 a).win 5).blk t).view.read (Elt Ideal) (G (Tid V c) (items a)) := by
  funext y
  exact (out_row (Tid V c) (items a) (rowAt a t) (iblk0 a V c 1 t) (row1 a V c t) y).trans
    (congrArg (G (Tid V c) (items a)) (emb4 a t y)).symm

def Tim (c : Dev nD) : Fin 500000 → Fin 64 → EReal := fun r d => V c main_v22 (ix3 r (0 : Fin 1) d)

theorem row2 (c : Dev nD) (t : Fin (cfg0 a).N) (e : Fin 64) :
    iblk0 a V c 2 t (ix3 (0 : Fin 1) (0 : Fin 1) e) = Tim V c (Cert.Spec.rowOf 500000 (items a (rowAt a t))) e := by
  refine congrArg (V c main_v22) (idx3_of _ (Cert.Spec.rowOf 500000 (items a (rowAt a t))) (ix3 (0 : Fin 1) (0 : Fin 1) e) (((cfg0 a).win 2).index t) ((index1_eq a t).trans ?_) fun _ => rfl)
  exact congrArg (fun r => ![r, 0, 0]) (Nat.mod_eq_of_lt (items_lt a t)).symm

theorem flushed6_eq (c : Dev nD) (t : Fin (cfg0 a).N) :
    (dat0 a V c).flushed 6 t = (((cfg0 a).win 6).blk t).view.read (Elt Ideal) (G (Tim V c) (items a)) := by
  funext y
  exact (out_row (Tim V c) (items a) (rowAt a t) (iblk0 a V c 2 t) (row2 a V c t) y).trans
    (congrArg (G (Tim V c) (items a)) (emb4 a t y)).symm

def Ttx (c : Dev nD) : Fin 500000 → Fin 64 → EReal := fun r d => V c main_v23 (ix3 r (0 : Fin 1) d)

theorem row3 (c : Dev nD) (t : Fin (cfg0 a).N) (e : Fin 64) :
    iblk0 a V c 3 t (ix3 (0 : Fin 1) (0 : Fin 1) e) = Ttx V c (Cert.Spec.rowOf 500000 (items a (rowAt a t))) e := by
  refine congrArg (V c main_v23) (idx3_of _ (Cert.Spec.rowOf 500000 (items a (rowAt a t))) (ix3 (0 : Fin 1) (0 : Fin 1) e) (((cfg0 a).win 3).index t) ((index1_eq a t).trans ?_) fun _ => rfl)
  exact congrArg (fun r => ![r, 0, 0]) (Nat.mod_eq_of_lt (items_lt a t)).symm

theorem flushed7_eq (c : Dev nD) (t : Fin (cfg0 a).N) :
    (dat0 a V c).flushed 7 t = (((cfg0 a).win 7).blk t).view.read (Elt Ideal) (G (Ttx V c) (items a)) := by
  funext y
  exact (out_row (Ttx V c) (items a) (rowAt a t) (iblk0 a V c 3 t) (row3 a V c t) y).trans
    (congrArg (G (Ttx V c) (items a)) (emb4 a t y)).symm

theorem users_eq (hT : TablesAt a V) (c : Dev nD) : users a = fun b => (V c main_arg4 (ix1 b) : BitVec 32) := by
  funext b; unfold users; rw [hT c]; rfl
theorem items_eq (hT : TablesAt a V) (c : Dev nD) : items a = fun b => (V c main_arg5 (ix1 b) : BitVec 32) := by
  funext b; unfold items; rw [hT c]; rfl

theorem gather_arr0_4 (hT : TablesAt a V) (c : Dev nD) (b : Fin 16384) (u : Fin 1) (d : Fin 64) :
    (dat0 a V c).arrAt 4 (cfg0 a).N (ix3 b u d)
      = Cert.Spec.gathered (n := 1000000) (fun r d' => V c main_v20 (ix3 r (0 : Fin 1) d')) (fun b' => (V c main_arg4 (ix1 b') : BitVec 32)) b d := by
  obtain rfl : u = 0 := Subsingleton.elim _ _
  have he := emb4 a ⟨b.val, b.isLt⟩ (ix3 (0 : Fin 1) (0 : Fin 1) d)
  have h := (dat0 a V c).arrAt_apply_of_mem 4 (G (Tu V c) (users a)) (fun t _ => flushed4_eq a V c t) (cfg0 a).N ⟨b.val, b.isLt⟩
    _ b.isLt (flush4 a _) ((((cfg0 a).win 4).blk ⟨b.val, b.isLt⟩).view.emb_mem_set (ix3 (0 : Fin 1) (0 : Fin 1) d))
  exact (((congrArg ((dat0 a V c).arrAt 4 (cfg0 a).N) he).symm.trans h).trans ((congrArg (G (Tu V c) (users a)) he).trans (G_row _ _ b 0 d))).trans
    (congrArg (fun i => Cert.Spec.gathered (Tu V c) i b d) (users_eq a V hT c))

theorem gather_arr0_5 (hT : TablesAt a V) (c : Dev nD) (b : Fin 16384) (u : Fin 1) (d : Fin 64) :
    (dat0 a V c).arrAt 5 (cfg0 a).N (ix3 b u d)
      = Cert.Spec.gathered (n := 500000) (fun r d' => V c main_v21 (ix3 r (0 : Fin 1) d')) (fun b' => (V c main_arg5 (ix1 b') : BitVec 32)) b d := by
  obtain rfl : u = 0 := Subsingleton.elim _ _
  have he := emb4 a ⟨b.val, b.isLt⟩ (ix3 (0 : Fin 1) (0 : Fin 1) d)
  have h := (dat0 a V c).arrAt_apply_of_mem 5 (G (Tid V c) (items a)) (fun t _ => flushed5_eq a V c t) (cfg0 a).N ⟨b.val, b.isLt⟩
    _ b.isLt (flush4 a _) ((((cfg0 a).win 5).blk ⟨b.val, b.isLt⟩).view.emb_mem_set (ix3 (0 : Fin 1) (0 : Fin 1) d))
  exact (((congrArg ((dat0 a V c).arrAt 5 (cfg0 a).N) he).symm.trans h).trans ((congrArg (G (Tid V c) (items a)) he).trans (G_row _ _ b 0 d))).trans
    (congrArg (fun i => Cert.Spec.gathered (Tid V c) i b d) (items_eq a V hT c))

theorem gather_arr0_6 (hT : TablesAt a V) (c : Dev nD) (b : Fin 16384) (u : Fin 1) (d : Fin 64) :
    (dat0 a V c).arrAt 6 (cfg0 a).N (ix3 b u d)
      = Cert.Spec.gathered (n := 500000) (fun r d' => V c main_v22 (ix3 r (0 : Fin 1) d')) (fun b' => (V c main_arg5 (ix1 b') : BitVec 32)) b d := by
  obtain rfl : u = 0 := Subsingleton.elim _ _
  have he := emb4 a ⟨b.val, b.isLt⟩ (ix3 (0 : Fin 1) (0 : Fin 1) d)
  have h := (dat0 a V c).arrAt_apply_of_mem 6 (G (Tim V c) (items a)) (fun t _ => flushed6_eq a V c t) (cfg0 a).N ⟨b.val, b.isLt⟩
    _ b.isLt (flush4 a _) ((((cfg0 a).win 6).blk ⟨b.val, b.isLt⟩).view.emb_mem_set (ix3 (0 : Fin 1) (0 : Fin 1) d))
  exact (((congrArg ((dat0 a V c).arrAt 6 (cfg0 a).N) he).symm.trans h).trans ((congrArg (G (Tim V c) (items a)) he).trans (G_row _ _ b 0 d))).trans
    (congrArg (fun i => Cert.Spec.gathered (Tim V c) i b d) (items_eq a V hT c))

theorem gather_arr0_7 (hT : TablesAt a V) (c : Dev nD) (b : Fin 16384) (u : Fin 1) (d : Fin 64) :
    (dat0 a V c).arrAt 7 (cfg0 a).N (ix3 b u d)
      = Cert.Spec.gathered (n := 500000) (fun r d' => V c main_v23 (ix3 r (0 : Fin 1) d')) (fun b' => (V c main_arg5 (ix1 b') : BitVec 32)) b d := by
  obtain rfl : u = 0 := Subsingleton.elim _ _
  have he := emb4 a ⟨b.val, b.isLt⟩ (ix3 (0 : Fin 1) (0 : Fin 1) d)
  have h := (dat0 a V c).arrAt_apply_of_mem 7 (G (Ttx V c) (items a)) (fun t _ => flushed7_eq a V c t) (cfg0 a).N ⟨b.val, b.isLt⟩
    _ b.isLt (flush4 a _) ((((cfg0 a).win 7).blk ⟨b.val, b.isLt⟩).view.emb_mem_set (ix3 (0 : Fin 1) (0 : Fin 1) d))
  exact (((congrArg ((dat0 a V c).arrAt 7 (cfg0 a).N) he).symm.trans h).trans ((congrArg (G (Ttx V c) (items a)) he).trans (G_row _ _ b 0 d))).trans
    (congrArg (fun i => Cert.Spec.gathered (Ttx V c) i b d) (items_eq a V hT c))

end Value

end Cert.KernelIdeal.Val

end
-- ==== Proof.Val.Chain.lean ====
import proofs.«402369_j86406152061536_3_alg».proof.Proof.KI.Reads
import proofs.«402369_j86406152061536_3_alg».proof.Proof.Val.HostGlue
import proofs.«402369_j86406152061536_3_alg».proof.Proof.Val.Proj
import proofs.«402369_j86406152061536_3_alg».proof.Proof.Val.Plan
import proofs.«402369_j86406152061536_3_alg».proof.Proof.Val.CrossEntropy
import proofs.«402369_j86406152061536_3_alg».proof.Proof.Val.CrossEntropy12
import proofs.«402369_j86406152061536_3_alg».proof.Proof.Val.CrossEntropy13
import proofs.«402369_j86406152061536_3_alg».proof.Proof.Val.CrossEntropy14
import proofs.«402369_j86406152061536_3_alg».proof.Proof.Val.CrossEntropy15
import proofs.«402369_j86406152061536_3_alg».proof.Proof.Val.CrossEntropy16
import proofs.«402369_j86406152061536_3_alg».proof.Proof.Val.CrossEntropy17
import proofs.«402369_j86406152061536_3_alg».proof.Proof.Val.CrossEntropy18
import proofs.«402369_j86406152061536_3_alg».proof.Proof.Val.Gather
import proofs.«402369_j86406152061536_3_alg».proof.Proof.Spec

set_option maxRecDepth 16384

noncomputable section

namespace Cert.KernelIdeal.Val

open Cert.KernelIdeal Cert.KernelIdeal.Gen Cert.KernelIdeal.Hand Cert.KernelIdeal.HostGlue
open Idealize.ShloMosaic Idealize.ShloMosaic.TcCoe Idealize.ShloMosaic.ValueIdx
open Idealize.SL Idealize.SL.Sem

variable (m : (ℓ : Loc nD τ sig) → Buf (Elt Ideal) ℓ) (a0 : (pcfg0 (F := Ideal)).Adm) (c : Dev nD)

abbrev A0 : S1000000x64.Idx → EReal := W0 m c (Proc.devRef .tc main_arg0)
abbrev A1 : S500000x64.Idx → EReal := W0 m c (Proc.devRef .tc main_arg1)
abbrev A2 : S500000x64.Idx → EReal := W0 m c (Proc.devRef .tc main_arg2)
abbrev A3 : S500000x64.Idx → EReal := W0 m c (Proc.devRef .tc main_arg3)
abbrev A4 : S16384.Idx → BitVec 32 := W0 m c (Proc.devRef .tc main_arg4)
abbrev A5 : S16384.Idx → BitVec 32 := W0 m c (Proc.devRef .tc main_arg5)
abbrev A6 : S256x64.Idx → EReal := W0 m c (Proc.devRef .tc main_arg6)
abbrev A7 : S256x64.Idx → EReal := W0 m c (Proc.devRef .tc main_arg7)
abbrev A8 : S_.Idx → EReal := W0 m c (Proc.devRef .tc main_arg8)

def sG : EReal := Cert.Spec.clampTemp (A8 m c ValueIdx.ix0)

def sWF : Fin 256 → Fin 64 → EReal := Cert.Spec.unitRows fun k d => A6 m c (ix2 k d)
def sWI : Fin 256 → Fin 64 → EReal := Cert.Spec.unitRows fun k d => A7 m c (ix2 k d)

def sU : Fin 16384 → Fin 64 → EReal :=
  Cert.Spec.gathered (n := 1000000) (fun r d => A0 m c (ix2 r d)) (fun b => A4 m c (ix1 b))
def sId : Fin 16384 → Fin 64 → EReal :=
  Cert.Spec.gathered (n := 500000) (fun r d => A1 m c (ix2 r d)) (fun b => A5 m c (ix1 b))
def sIm : Fin 16384 → Fin 64 → EReal :=
  Cert.Spec.gathered (n := 500000) (fun r d => A2 m c (ix2 r d)) (fun b => A5 m c (ix1 b))
def sTx : Fin 16384 → Fin 64 → EReal :=
  Cert.Spec.gathered (n := 500000) (fun r d => A3 m c (ix2 r d)) (fun b => A5 m c (ix1 b))

def sCUser : Fin 16384 → Fin 256 → EReal := Cert.Spec.proj (sU m c) (sWF m c)
def sCId : Fin 16384 → Fin 256 → EReal := Cert.Spec.proj (sId m c) (sWF m c)
def sCIdIi : Fin 16384 → Fin 256 → EReal := Cert.Spec.proj (sId m c) (sWI m c)
def sCImIi : Fin 16384 → Fin 256 → EReal := Cert.Spec.proj (sIm m c) (sWI m c)
def sCTxIi : Fin 16384 → Fin 256 → EReal := Cert.Spec.proj (sTx m c) (sWI m c)

def sQUser : Fin 16384 → Fin 256 → EReal := Cert.Spec.plan (sCUser m c)
def sQId : Fin 16384 → Fin 256 → EReal := Cert.Spec.plan (sCId m c)
def sQIdIi : Fin 16384 → Fin 256 → EReal := Cert.Spec.plan (sCIdIi m c)
def sQImIi : Fin 16384 → Fin 256 → EReal := Cert.Spec.plan (sCImIi m c)
def sQTxIi : Fin 16384 → Fin 256 → EReal := Cert.Spec.plan (sCTxIi m c)

theorem at_idx {S : Shape} {α : Type} {x y : S.Idx → α} (h : x = y) (i : S.Idx) : x i = y i := congrFun h i

theorem proj_congr {x x' : Fin 16384 → Fin 64 → EReal} {w w' : Fin 256 → Fin 64 → EReal} (hx : x = x') (hw : w = w')
    (b : Fin 16384) (k : Fin 256) : Cert.Spec.proj x w b k = Cert.Spec.proj x' w' b k := by subst hx; subst hw; rfl

theorem plan_congr {x x' : Fin 16384 → Fin 256 → EReal} (hx : x = x') (b : Fin 16384) (k : Fin 256) :
    Cert.Spec.plan x b k = Cert.Spec.plan x' b k := by subst hx; rfl

theorem ce_congr {q q' x x' : Fin 16384 → Fin 256 → EReal} {g g' : EReal} (hq : q = q') (hx : x = x') (hg : g = g') :
    Cert.Spec.crossEntropy q x g = Cert.Spec.crossEntropy q' x' g' := by subst hq; subst hx; subst hg; rfl

theorem gathered_congr {n : ℕ} [NeZero n] {T T' : Fin n → Fin 64 → EReal} {idx idx' : Fin 16384 → BitVec 32}
    (hT : T = T') (hi : idx = idx') (b : Fin 16384) (d : Fin 64) :
    Cert.Spec.gathered T idx b d = Cert.Spec.gathered T' idx' b d := by subst hT; subst hi; rfl

theorem v1_at3 (j : S1x1.Idx) : (W3 m c (Proc.devRef .tc main_v1) : S1x1.Idx → EReal) j = sG m c :=
  v1_apply (W0 m c) j

theorem v18_at3 (d : Fin 64) (k : Fin 256) :
    (W3 m c (Proc.devRef .tc main_v18) : S64x256.Idx → EReal) (ix2 d k) = sWF m c k d :=
  v18_apply (W0 m c) d k
theorem v19_at3 (d : Fin 64) (k : Fin 256) :
    (W3 m c (Proc.devRef .tc main_v19) : S64x256.Idx → EReal) (ix2 d k) = sWI m c k d :=
  v19_apply (W0 m c) d k

theorem v20_at3 (r : Fin 1000000) (u : Fin 1) (d : Fin 64) :
    (W3 m c (Proc.devRef .tc main_v20) : S1000000x1x64.Idx → EReal) (ix3 r u d) = A0 m c (ix2 r d) :=
  v20_apply (W0 m c) r u d
theorem v21_at3 (r : Fin 500000) (u : Fin 1) (d : Fin 64) :
    (W3 m c (Proc.devRef .tc main_v21) : S500000x1x64.Idx → EReal) (ix3 r u d) = A1 m c (ix2 r d) :=
  v21_apply (W0 m c) r u d
theorem v22_at3 (r : Fin 500000) (u : Fin 1) (d : Fin 64) :
    (W3 m c (Proc.devRef .tc main_v22) : S500000x1x64.Idx → EReal) (ix3 r u d) = A2 m c (ix2 r d) :=
  v22_apply (W0 m c) r u d
theorem v23_at3 (r : Fin 500000) (u : Fin 1) (d : Fin 64) :
    (W3 m c (Proc.devRef .tc main_v23) : S500000x1x64.Idx → EReal) (ix3 r u d) = A3 m c (ix2 r d) :=
  v23_apply (W0 m c) r u d

theorem v24_0_at4 (hT : TablesAt a0 (Vr3 m))
    (b : Fin 16384) (u : Fin 1) (d : Fin 64) :
    (W4 m a0 c (Proc.devRef .tc main_v24_0) : S16384x1x64.Idx → EReal) (ix3 b u d) = sU m c b d :=
  (at_idx (W4_arr m a0 c 4) (ix3 b u d)).trans <|
  (gather_arr0_4 a0 (Vr3 m) hT c b u d).trans <|
  gathered_congr (funext fun r => funext fun d' => v20_at3 m c r 0 d')
    (funext fun b' => at_idx (W3_main_arg4 m c) (ix1 b')) b d

theorem v25_at5 (hT : TablesAt a0 (Vr3 m))
    (b : Fin 16384) (d : Fin 64) :
    (W5 m a0 c (Proc.devRef .tc main_v25) : S16384x64.Idx → EReal) (ix2 b d) = sU m c b d :=
  (v25_apply (W4 m a0 c) b d).trans (v24_0_at4 m a0 c hT b 0 d)

theorem v24_1_at4 (hT : TablesAt a0 (Vr3 m))
    (b : Fin 16384) (u : Fin 1) (d : Fin 64) :
    (W4 m a0 c (Proc.devRef .tc main_v24_1) : S16384x1x64.Idx → EReal) (ix3 b u d) = sId m c b d :=
  (at_idx (W4_arr m a0 c 5) (ix3 b u d)).trans <|
  (gather_arr0_5 a0 (Vr3 m) hT c b u d).trans <|
  gathered_congr (funext fun r => funext fun d' => v21_at3 m c r 0 d')
    (funext fun b' => at_idx (W3_main_arg5 m c) (ix1 b')) b d

theorem v26_at5 (hT : TablesAt a0 (Vr3 m))
    (b : Fin 16384) (d : Fin 64) :
    (W5 m a0 c (Proc.devRef .tc main_v26) : S16384x64.Idx → EReal) (ix2 b d) = sId m c b d :=
  (v26_apply (W4 m a0 c) b d).trans (v24_1_at4 m a0 c hT b 0 d)

theorem v24_2_at4 (hT : TablesAt a0 (Vr3 m))
    (b : Fin 16384) (u : Fin 1) (d : Fin 64) :
    (W4 m a0 c (Proc.devRef .tc main_v24_2) : S16384x1x64.Idx → EReal) (ix3 b u d) = sIm m c b d :=
  (at_idx (W4_arr m a0 c 6) (ix3 b u d)).trans <|
  (gather_arr0_6 a0 (Vr3 m) hT c b u d).trans <|
  gathered_congr (funext fun r => funext fun d' => v22_at3 m c r 0 d')
    (funext fun b' => at_idx (W3_main_arg5 m c) (ix1 b')) b d

theorem v27_at5 (hT : TablesAt a0 (Vr3 m))
    (b : Fin 16384) (d : Fin 64) :
    (W5 m a0 c (Proc.devRef .tc main_v27) : S16384x64.Idx → EReal) (ix2 b d) = sIm m c b d :=
  (v27_apply (W4 m a0 c) b d).trans (v24_2_at4 m a0 c hT b 0 d)

theorem v24_3_at4 (hT : TablesAt a0 (Vr3 m))
    (b : Fin 16384) (u : Fin 1) (d : Fin 64) :
    (W4 m a0 c (Proc.devRef .tc main_v24_3) : S16384x1x64.Idx → EReal) (ix3 b u d) = sTx m c b d :=
  (at_idx (W4_arr m a0 c 7) (ix3 b u d)).trans <|
  (gather_arr0_7 a0 (Vr3 m) hT c b u d).trans <|
  gathered_congr (funext fun r => funext fun d' => v23_at3 m c r 0 d')
    (funext fun b' => at_idx (W3_main_arg5 m c) (ix1 b')) b d

theorem v28_at5 (hT : TablesAt a0 (Vr3 m))
    (b : Fin 16384) (d : Fin 64) :
    (W5 m a0 c (Proc.devRef .tc main_v28) : S16384x64.Idx → EReal) (ix2 b d) = sTx m c b d :=
  (v28_apply (W4 m a0 c) b d).trans (v24_3_at4 m a0 c hT b 0 d)

theorem v29_at6 (hT : TablesAt a0 (Vr3 m))
    (b : Fin 16384) (k : Fin 256) :
    (W6 m a0 c (Proc.devRef .tc main_v29) : S16384x256.Idx → EReal) (ix2 b k) = sCUser m c b k :=
  (at_idx (W6_arr m a0 c 2) (ix2 b k)).trans <|
  (proj_arr1 (Vr5 m a0) c b k).trans <|
  proj_congr (funext fun b' => funext fun d' => v25_at5 m a0 c hT b' d')
    (funext fun k' => funext fun d' => (at_idx (W5_main_v18 m a0 c) (ix2 d' k')).trans (v18_at3 m c d' k')) b k

theorem v30_at7 (hT : TablesAt a0 (Vr3 m))
    (b : Fin 16384) (k : Fin 256) :
    (W7 m a0 c (Proc.devRef .tc main_v30) : S16384x256.Idx → EReal) (ix2 b k) = sCId m c b k :=
  (at_idx (W7_arr m a0 c 2) (ix2 b k)).trans <|
  (proj_arr2 (Vr6 m a0) c b k).trans <|
  proj_congr (funext fun b' => funext fun d' => (at_idx (W6_main_v26 m a0 c) (ix2 b' d')).trans (v26_at5 m a0 c hT b' d'))
    (funext fun k' => funext fun d' => (at_idx (W6_main_v18 m a0 c) (ix2 d' k')).trans (v18_at3 m c d' k')) b k

theorem v31_at8 (hT : TablesAt a0 (Vr3 m))
    (b : Fin 16384) (k : Fin 256) :
    (W8 m a0 c (Proc.devRef .tc main_v31) : S16384x256.Idx → EReal) (ix2 b k) = sCIdIi m c b k :=
  (at_idx (W8_arr m a0 c 2) (ix2 b k)).trans <|
  (proj_arr3 (Vr7 m a0) c b k).trans <|
  proj_congr (funext fun b' => funext fun d' => (at_idx (W7_main_v26 m a0 c) (ix2 b' d')).trans (v26_at5 m a0 c hT b' d'))
    (funext fun k' => funext fun d' => (at_idx (W7_main_v19 m a0 c) (ix2 d' k')).trans (v19_at3 m c d' k')) b k

theorem v32_at9 (hT : TablesAt a0 (Vr3 m))
    (b : Fin 16384) (k : Fin 256) :
    (W9 m a0 c (Proc.devRef .tc main_v32) : S16384x256.Idx → EReal) (ix2 b k) = sCImIi m c b k :=
  (at_idx (W9_arr m a0 c 2) (ix2 b k)).trans <|
  (proj_arr4 (Vr8 m a0) c b k).trans <|
  proj_congr (funext fun b' => funext fun d' => (at_idx (W8_main_v27 m a0 c) (ix2 b' d')).trans (v27_at5 m a0 c hT b' d'))
    (funext fun k' => funext fun d' => (at_idx (W8_main_v19 m a0 c) (ix2 d' k')).trans (v19_at3 m c d' k')) b k

theorem v33_at10 (hT : TablesAt a0 (Vr3 m))
    (b : Fin 16384) (k : Fin 256) :
    (W10 m a0 c (Proc.devRef .tc main_v33) : S16384x256.Idx → EReal) (ix2 b k) = sCTxIi m c b k :=
  (at_idx (W10_arr m a0 c 2) (ix2 b k)).trans <|
  (proj_arr5 (Vr9 m a0) c b k).trans <|
  proj_congr (funext fun b' => funext fun d' => (at_idx (W9_main_v28 m a0 c) (ix2 b' d')).trans (v28_at5 m a0 c hT b' d'))
    (funext fun k' => funext fun d' => (at_idx (W9_main_v19 m a0 c) (ix2 d' k')).trans (v19_at3 m c d' k')) b k

theorem v34_at11 (hT : TablesAt a0 (Vr3 m))
    (b : Fin 16384) (k : Fin 256) :
    (W11 m a0 c (Proc.devRef .tc main_v34) : S16384x256.Idx → EReal) (ix2 b k) = sQUser m c b k :=
  (at_idx (W11_arr m a0 c 1) (ix2 b k)).trans <|
  (plan_arr6 (Vr10 m a0) c b k).trans <|
  plan_congr (funext fun b' => funext fun k' => (at_idx (W10_main_v29 m a0 c) (ix2 b' k')).trans (v29_at6 m a0 c hT b' k')) b k

theorem v35_at12 (hT : TablesAt a0 (Vr3 m))
    (b : Fin 16384) (k : Fin 256) :
    (W12 m a0 c (Proc.devRef .tc main_v35) : S16384x256.Idx → EReal) (ix2 b k) = sQId m c b k :=
  (at_idx (W12_arr m a0 c 1) (ix2 b k)).trans <|
  (plan_arr7 (Vr11 m a0) c b k).trans <|
  plan_congr (funext fun b' => funext fun k' => (at_idx (W11_main_v30 m a0 c) (ix2 b' k')).trans (v30_at7 m a0 c hT b' k')) b k

theorem v36_at13 (hT : TablesAt a0 (Vr3 m))
    (b : Fin 16384) (k : Fin 256) :
    (W13 m a0 c (Proc.devRef .tc main_v36) : S16384x256.Idx → EReal) (ix2 b k) = sQIdIi m c b k :=
  (at_idx (W13_arr m a0 c 1) (ix2 b k)).trans <|
  (plan_arr8 (Vr12 m a0) c b k).trans <|
  plan_congr (funext fun b' => funext fun k' => (at_idx (W12_main_v31 m a0 c) (ix2 b' k')).trans (v31_at8 m a0 c hT b' k')) b k

theorem v37_at14 (hT : TablesAt a0 (Vr3 m))
    (b : Fin 16384) (k : Fin 256) :
    (W14 m a0 c (Proc.devRef .tc main_v37) : S16384x256.Idx → EReal) (ix2 b k) = sQImIi m c b k :=
  (at_idx (W14_arr m a0 c 1) (ix2 b k)).trans <|
  (plan_arr9 (Vr13 m a0) c b k).trans <|
  plan_congr (funext fun b' => funext fun k' => (at_idx (W13_main_v32 m a0 c) (ix2 b' k')).trans (v32_at9 m a0 c hT b' k')) b k

theorem v38_at15 (hT : TablesAt a0 (Vr3 m))
    (b : Fin 16384) (k : Fin 256) :
    (W15 m a0 c (Proc.devRef .tc main_v38) : S16384x256.Idx → EReal) (ix2 b k) = sQTxIi m c b k :=
  (at_idx (W15_arr m a0 c 1) (ix2 b k)).trans <|
  (plan_arr10 (Vr14 m a0) c b k).trans <|
  plan_congr (funext fun b' => funext fun k' => (at_idx (W14_main_v33 m a0 c) (ix2 b' k')).trans (v33_at10 m a0 c hT b' k')) b k

theorem v39_at16 (hT : TablesAt a0 (Vr3 m)) :
    (W16 m a0 c (Proc.devRef .tc main_v39) : S1x1.Idx → EReal) (ix2 (0 : Fin 1) (0 : Fin 1))
      = Cert.Spec.crossEntropy (sQUser m c) (sCId m c) (sG m c) :=
  (at_idx (W16_arr m a0 c 3) (ix2 (0 : Fin 1) (0 : Fin 1))).trans <|
  (ce_arr11 (Vr15 m a0) c).trans <|
  ce_congr
    (funext fun b => funext fun k => (at_idx (W15_main_v34 m a0 c) (ix2 b k)).trans (v34_at11 m a0 c hT b k))
    (funext fun b => funext fun k => (at_idx (W15_main_v30 m a0 c) (ix2 b k)).trans (v30_at7 m a0 c hT b k))
    ((at_idx (W15_main_v1 m a0 c) (ix2 (0 : Fin 1) (0 : Fin 1))).trans (v1_at3 m c (ix2 (0 : Fin 1) (0 : Fin 1))))

theorem t1_at30 (hT : TablesAt a0 (Vr3 m)) :
    rd0 (W30 m a0 c (Proc.devRef .tc main_v40)) = Cert.Spec.crossEntropy (sQUser m c) (sCId m c) (sG m c) :=
  (at_idx (W30_main_v40 m a0 c) ValueIdx.ix0).trans <|
  (v40_apply (W16 m a0 c)).trans (v39_at16 m a0 c hT)

theorem v41_at18 (hT : TablesAt a0 (Vr3 m)) :
    (W18 m a0 c (Proc.devRef .tc main_v41) : S1x1.Idx → EReal) (ix2 (0 : Fin 1) (0 : Fin 1))
      = Cert.Spec.crossEntropy (sQId m c) (sCUser m c) (sG m c) :=
  (at_idx (W18_arr m a0 c 3) (ix2 (0 : Fin 1) (0 : Fin 1))).trans <|
  (ce_arr12 (Vr17 m a0) c).trans <|
  ce_congr
    (funext fun b => funext fun k => (at_idx (W17_main_v35 m a0 c) (ix2 b k)).trans (v35_at12 m a0 c hT b k))
    (funext fun b => funext fun k => (at_idx (W17_main_v29 m a0 c) (ix2 b k)).trans (v29_at6 m a0 c hT b k))
    ((at_idx (W17_main_v1 m a0 c) (ix2 (0 : Fin 1) (0 : Fin 1))).trans (v1_at3 m c (ix2 (0 : Fin 1) (0 : Fin 1))))

theorem t2_at30 (hT : TablesAt a0 (Vr3 m)) :
    rd0 (W30 m a0 c (Proc.devRef .tc main_v42)) = Cert.Spec.crossEntropy (sQId m c) (sCUser m c) (sG m c) :=
  (at_idx (W30_main_v42 m a0 c) ValueIdx.ix0).trans <|
  (v42_apply (W18 m a0 c)).trans (v41_at18 m a0 c hT)

theorem v43_at20 (hT : TablesAt a0 (Vr3 m)) :
    (W20 m a0 c (Proc.devRef .tc main_v43) : S1x1.Idx → EReal) (ix2 (0 : Fin 1) (0 : Fin 1))
      = Cert.Spec.crossEntropy (sQIdIi m c) (sCImIi m c) (sG m c) :=
  (at_idx (W20_arr m a0 c 3) (ix2 (0 : Fin 1) (0 : Fin 1))).trans <|
  (ce_arr13 (Vr19 m a0) c).trans <|
  ce_congr
    (funext fun b => funext fun k => (at_idx (W19_main_v36 m a0 c) (ix2 b k)).trans (v36_at13 m a0 c hT b k))
    (funext fun b => funext fun k => (at_idx (W19_main_v32 m a0 c) (ix2 b k)).trans (v32_at9 m a0 c hT b k))
    ((at_idx (W19_main_v1 m a0 c) (ix2 (0 : Fin 1) (0 : Fin 1))).trans (v1_at3 m c (ix2 (0 : Fin 1) (0 : Fin 1))))

theorem t3_at30 (hT : TablesAt a0 (Vr3 m)) :
    rd0 (W30 m a0 c (Proc.devRef .tc main_v44)) = Cert.Spec.crossEntropy (sQIdIi m c) (sCImIi m c) (sG m c) :=
  (at_idx (W30_main_v44 m a0 c) ValueIdx.ix0).trans <|
  (v44_apply (W20 m a0 c)).trans (v43_at20 m a0 c hT)

theorem v45_at22 (hT : TablesAt a0 (Vr3 m)) :
    (W22 m a0 c (Proc.devRef .tc main_v45) : S1x1.Idx → EReal) (ix2 (0 : Fin 1) (0 : Fin 1))
      = Cert.Spec.crossEntropy (sQIdIi m c) (sCTxIi m c) (sG m c) :=
  (at_idx (W22_arr m a0 c 3) (ix2 (0 : Fin 1) (0 : Fin 1))).trans <|
  (ce_arr14 (Vr21 m a0) c).trans <|
  ce_congr
    (funext fun b => funext fun k => (at_idx (W21_main_v36 m a0 c) (ix2 b k)).trans (v36_at13 m a0 c hT b k))
    (funext fun b => funext fun k => (at_idx (W21_main_v33 m a0 c) (ix2 b k)).trans (v33_at10 m a0 c hT b k))
    ((at_idx (W21_main_v1 m a0 c) (ix2 (0 : Fin 1) (0 : Fin 1))).trans (v1_at3 m c (ix2 (0 : Fin 1) (0 : Fin 1))))

theorem t4_at30 (hT : TablesAt a0 (Vr3 m)) :
    rd0 (W30 m a0 c (Proc.devRef .tc main_v46)) = Cert.Spec.crossEntropy (sQIdIi m c) (sCTxIi m c) (sG m c) :=
  (at_idx (W30_main_v46 m a0 c) ValueIdx.ix0).trans <|
  (v46_apply (W22 m a0 c)).trans (v45_at22 m a0 c hT)

theorem v47_at24 (hT : TablesAt a0 (Vr3 m)) :
    (W24 m a0 c (Proc.devRef .tc main_v47) : S1x1.Idx → EReal) (ix2 (0 : Fin 1) (0 : Fin 1))
      = Cert.Spec.crossEntropy (sQImIi m c) (sCIdIi m c) (sG m c) :=
  (at_idx (W24_arr m a0 c 3) (ix2 (0 : Fin 1) (0 : Fin 1))).trans <|
  (ce_arr15 (Vr23 m a0) c).trans <|
  ce_congr
    (funext fun b => funext fun k => (at_idx (W23_main_v37 m a0 c) (ix2 b k)).trans (v37_at14 m a0 c hT b k))
    (funext fun b => funext fun k => (at_idx (W23_main_v31 m a0 c) (ix2 b k)).trans (v31_at8 m a0 c hT b k))
    ((at_idx (W23_main_v1 m a0 c) (ix2 (0 : Fin 1) (0 : Fin 1))).trans (v1_at3 m c (ix2 (0 : Fin 1) (0 : Fin 1))))

theorem t5_at30 (hT : TablesAt a0 (Vr3 m)) :
    rd0 (W30 m a0 c (Proc.devRef .tc main_v48)) = Cert.Spec.crossEntropy (sQImIi m c) (sCIdIi m c) (sG m c) :=
  (at_idx (W30_main_v48 m a0 c) ValueIdx.ix0).trans <|
  (v48_apply (W24 m a0 c)).trans (v47_at24 m a0 c hT)

theorem v49_at26 (hT : TablesAt a0 (Vr3 m)) :
    (W26 m a0 c (Proc.devRef .tc main_v49) : S1x1.Idx → EReal) (ix2 (0 : Fin 1) (0 : Fin 1))
      = Cert.Spec.crossEntropy (sQImIi m c) (sCTxIi m c) (sG m c) :=
  (at_idx (W26_arr m a0 c 3) (ix2 (0 : Fin 1) (0 : Fin 1))).trans <|
  (ce_arr16 (Vr25 m a0) c).trans <|
  ce_congr
    (funext fun b => funext fun k => (at_idx (W25_main_v37 m a0 c) (ix2 b k)).trans (v37_at14 m a0 c hT b k))
    (funext fun b => funext fun k => (at_idx (W25_main_v33 m a0 c) (ix2 b k)).trans (v33_at10 m a0 c hT b k))
    ((at_idx (W25_main_v1 m a0 c) (ix2 (0 : Fin 1) (0 : Fin 1))).trans (v1_at3 m c (ix2 (0 : Fin 1) (0 : Fin 1))))

theorem t6_at30 (hT : TablesAt a0 (Vr3 m)) :
    rd0 (W30 m a0 c (Proc.devRef .tc main_v50)) = Cert.Spec.crossEntropy (sQImIi m c) (sCTxIi m c) (sG m c) :=
  (at_idx (W30_main_v50 m a0 c) ValueIdx.ix0).trans <|
  (v50_apply (W26 m a0 c)).trans (v49_at26 m a0 c hT)

theorem v51_at28 (hT : TablesAt a0 (Vr3 m)) :
    (W28 m a0 c (Proc.devRef .tc main_v51) : S1x1.Idx → EReal) (ix2 (0 : Fin 1) (0 : Fin 1))
      = Cert.Spec.crossEntropy (sQTxIi m c) (sCIdIi m c) (sG m c) :=
  (at_idx (W28_arr m a0 c 3) (ix2 (0 : Fin 1) (0 : Fin 1))).trans <|
  (ce_arr17 (Vr27 m a0) c).trans <|
  ce_congr
    (funext fun b => funext fun k => (at_idx (W27_main_v38 m a0 c) (ix2 b k)).trans (v38_at15 m a0 c hT b k))
    (funext fun b => funext fun k => (at_idx (W27_main_v31 m a0 c) (ix2 b k)).trans (v31_at8 m a0 c hT b k))
    ((at_idx (W27_main_v1 m a0 c) (ix2 (0 : Fin 1) (0 : Fin 1))).trans (v1_at3 m c (ix2 (0 : Fin 1) (0 : Fin 1))))

theorem t7_at30 (hT : TablesAt a0 (Vr3 m)) :
    rd0 (W30 m a0 c (Proc.devRef .tc main_v52)) = Cert.Spec.crossEntropy (sQTxIi m c) (sCIdIi m c) (sG m c) :=
  (at_idx (W30_main_v52 m a0 c) ValueIdx.ix0).trans <|
  (v52_apply (W28 m a0 c)).trans (v51_at28 m a0 c hT)

theorem v53_at30 (hT : TablesAt a0 (Vr3 m)) :
    (W30 m a0 c (Proc.devRef .tc main_v53) : S1x1.Idx → EReal) (ix2 (0 : Fin 1) (0 : Fin 1))
      = Cert.Spec.crossEntropy (sQTxIi m c) (sCImIi m c) (sG m c) :=
  (at_idx (W30_arr m a0 c 3) (ix2 (0 : Fin 1) (0 : Fin 1))).trans <|
  (ce_arr18 (Vr29 m a0) c).trans <|
  ce_congr
    (funext fun b => funext fun k => (at_idx (W29_main_v38 m a0 c) (ix2 b k)).trans (v38_at15 m a0 c hT b k))
    (funext fun b => funext fun k => (at_idx (W29_main_v32 m a0 c) (ix2 b k)).trans (v32_at9 m a0 c hT b k))
    ((at_idx (W29_main_v1 m a0 c) (ix2 (0 : Fin 1) (0 : Fin 1))).trans (v1_at3 m c (ix2 (0 : Fin 1) (0 : Fin 1))))

theorem t8_at30 (hT : TablesAt a0 (Vr3 m)) :
    rd11 (W30 m a0 c (Proc.devRef .tc main_v53)) = Cert.Spec.crossEntropy (sQTxIi m c) (sCImIi m c) (sG m c) :=
  v53_at30 m a0 c hT

theorem kernel_result (hT : TablesAt a0 (Vr3 m)) :
    (W31 m a0 c (Proc.devRef .tc main_v63) : S_.Idx → EReal)
      = fun _ => Cert.Spec.loss (fun r d => A0 m c (ix2 r d)) (fun r d => A1 m c (ix2 r d)) (fun r d => A2 m c (ix2 r d))
          (fun r d => A3 m c (ix2 r d)) (fun b => A4 m c (ix1 b)) (fun b => A5 m c (ix1 b))
          (fun k d => A6 m c (ix2 k d)) (fun k d => A7 m c (ix2 k d)) (A8 m c ValueIdx.ix0) := by
  funext j
  obtain rfl : j = ValueIdx.ix0 := ValueIdx.eq_ix0 j
  refine (v63_apply (W30 m a0 c)).trans ?_
  rw [t1_at30 m a0 c hT, t2_at30 m a0 c hT, t3_at30 m a0 c hT, t4_at30 m a0 c hT,
    t5_at30 m a0 c hT, t6_at30 m a0 c hT, t7_at30 m a0 c hT, t8_at30 m a0 c hT]
  rfl

theorem kernel_result_mem (hT : TablesAt a0 (Vr3 m)) :
    (W31 m a0 c (Proc.devRef .tc main_v63) : S_.Idx → EReal)
      = fun _ => Cert.Spec.loss (fun r d => (m ((c.tc : Thread nD τ).loc main_arg0) : S1000000x64.Idx → EReal) (ix2 r d))
          (fun r d => (m ((c.tc : Thread nD τ).loc main_arg1) : S500000x64.Idx → EReal) (ix2 r d))
          (fun r d => (m ((c.tc : Thread nD τ).loc main_arg2) : S500000x64.Idx → EReal) (ix2 r d))
          (fun r d => (m ((c.tc : Thread nD τ).loc main_arg3) : S500000x64.Idx → EReal) (ix2 r d))
          (fun b => (m ((c.tc : Thread nD τ).loc main_arg4) : S16384.Idx → BitVec 32) (ix1 b))
          (fun b => (m ((c.tc : Thread nD τ).loc main_arg5) : S16384.Idx → BitVec 32) (ix1 b))
          (fun k d => (m ((c.tc : Thread nD τ).loc main_arg6) : S256x64.Idx → EReal) (ix2 k d))
          (fun k d => (m ((c.tc : Thread nD τ).loc main_arg7) : S256x64.Idx → EReal) (ix2 k d))
          ((m ((c.tc : Thread nD τ).loc main_arg8) : S_.Idx → EReal) ValueIdx.ix0) :=
  kernel_result m a0 c hT

end Cert.KernelIdeal.Val

end
-- ==== Proof.Ref.OpsA.lean ====
import proofs.«402369_j86406152061536_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops00 : List (HloOp τ sig (Elt F)) :=
  [ nullary main_cst (constant S_ .f32 0x3C23D70A#32),
    nullary main_cst_0 (constant S_ .f32 0x3F7D70A4#32),
    TRef.unary (TRef.of (T := ⟨S_, .f32⟩) main_cst) (TRef.of (T := ⟨S_, .f32⟩) main_call0_v0) id,
    TRef.binary (TRef.of (T := ⟨S_, .f32⟩) main_call0_v0) (TRef.of (T := ⟨S_, .f32⟩) main_arg8) (TRef.of (T := ⟨S_, .f32⟩) main_call0_v1) maximumf,
    TRef.unary (TRef.of (T := ⟨S_, .f32⟩) main_cst_0) (TRef.of (T := ⟨S_, .f32⟩) main_call0_v2) id,
    TRef.binary (TRef.of (T := ⟨S_, .f32⟩) main_call0_v2) (TRef.of (T := ⟨S_, .f32⟩) main_call0_v1) (TRef.of (T := ⟨S_, .f32⟩) main_v0) minimumf,
    binary main_v0 main_arg8 main_v1 (subf : (⟨S_, .f32⟩ : BufTy).Contents (Elt F) → (⟨S_, .f32⟩ : BufTy).Contents (Elt F) → (⟨S_, .f32⟩ : BufTy).Contents (Elt F)),
    binary main_arg8 main_v1 main_v2 (addf : (⟨S_, .f32⟩ : BufTy).Contents (Elt F) → (⟨S_, .f32⟩ : BufTy).Contents (Elt F) → (⟨S_, .f32⟩ : BufTy).Contents (Elt F)),
    binary main_arg6 main_arg6 main_v3 (mulf : (⟨S256x64, .f32⟩ : BufTy).Contents (Elt F) → (⟨S256x64, .f32⟩ : BufTy).Contents (Elt F) → (⟨S256x64, .f32⟩ : BufTy).Contents (Elt F)),
    nullary main_cst_1 (constant S_ .f32 0x00000000#32),
    binary main_v3 main_cst_1 main_v4 ((fun x v => Host.reduceAdd x v reducesTo_S256x64_S256_d1 h_S_) : (⟨S256x64, .f32⟩ : BufTy).Contents (Elt F) → (⟨S_, .f32⟩ : BufTy).Contents (Elt F) → (⟨S256, .f32⟩ : BufTy).Contents (Elt F)),
    unary main_v4 main_v5 (broadcastInDim S256x1 ![0] bcast_S256_S256x1_0 : (⟨S256, .f32⟩ : BufTy).Contents (Elt F) → (⟨S256x1, .f32⟩ : BufTy).Contents (Elt F)),
    unary main_v5 main_v6 (Host.sqrt : (⟨S256x1, .f32⟩ : BufTy).Contents (Elt F) → (⟨S256x1, .f32⟩ : BufTy).Contents (Elt F)),
    nullary main_cst_2 (constant S_ .f32 0x2B8CBCCC#32),
    unary main_cst_2 main_v7 (broadcastInDim S256x1 ![] bcast_S_S256x1 : (⟨S_, .f32⟩ : BufTy).Contents (Elt F) → (⟨S256x1, .f32⟩ : BufTy).Contents (Elt F)),
    binary main_v6 main_v7 main_v8 (maximumf : (⟨S256x1, .f32⟩ : BufTy).Contents (Elt F) → (⟨S256x1, .f32⟩ : BufTy).Contents (Elt F) → (⟨S256x1, .f32⟩ : BufTy).Contents (Elt F)),
    unary main_v8 main_v9 (broadcastInDim S256x64 ![0, 1] bcast_S256x1_S256x64_0_1 : (⟨S256x1, .f32⟩ : BufTy).Contents (Elt F) → (⟨S256x64, .f32⟩ : BufTy).Contents (Elt F)),
    binary main_arg6 main_v9 main_v10 (Host.divf : (⟨S256x64, .f32⟩ : BufTy).Contents (Elt F) → (⟨S256x64, .f32⟩ : BufTy).Contents (Elt F) → (⟨S256x64, .f32⟩ : BufTy).Contents (Elt F)),
    binary main_v10 main_arg6 main_v11 (subf : (⟨S256x64, .f32⟩ : BufTy).Contents (Elt F) → (⟨S256x64, .f32⟩ : BufTy).Contents (Elt F) → (⟨S256x64, .f32⟩ : BufTy).Contents (Elt F)),
    binary main_arg6 main_v11 main_v12 (addf : (⟨S256x64, .f32⟩ : BufTy).Contents (Elt F) → (⟨S256x64, .f32⟩ : BufTy).Contents (Elt F) → (⟨S256x64, .f32⟩ : BufTy).Contents (Elt F)),
    binary main_arg7 main_arg7 main_v13 (mulf : (⟨S256x64, .f32⟩ : BufTy).Contents (Elt F) → (⟨S256x64, .f32⟩ : BufTy).Contents (Elt F) → (⟨S256x64, .f32⟩ : BufTy).Contents (Elt F)),
    nullary main_cst_3 (constant S_ .f32 0x00000000#32),
    binary main_v13 main_cst_3 main_v14 ((fun x v => Host.reduceAdd x v reducesTo_S256x64_S256_d1 h_S_) : (⟨S256x64, .f32⟩ : BufTy).Contents (Elt F) → (⟨S_, .f32⟩ : BufTy).Contents (Elt F) → (⟨S256, .f32⟩ : BufTy).Contents (Elt F)),
    unary main_v14 main_v15 (broadcastInDim S256x1 ![0] bcast_S256_S256x1_0 : (⟨S256, .f32⟩ : BufTy).Contents (Elt F) → (⟨S256x1, .f32⟩ : BufTy).Contents (Elt F)),
    unary main_v15 main_v16 (Host.sqrt : (⟨S256x1, .f32⟩ : BufTy).Contents (Elt F) → (⟨S256x1, .f32⟩ : BufTy).Contents (Elt F)),
    nullary main_cst_4 (constant S_ .f32 0x2B8CBCCC#32),
    unary main_cst_4 main_v17 (broadcastInDim S256x1 ![] bcast_S_S256x1 : (⟨S_, .f32⟩ : BufTy).Contents (Elt F) → (⟨S256x1, .f32⟩ : BufTy).Contents (Elt F)),
    binary main_v16 main_v17 main_v18 (maximumf : (⟨S256x1, .f32⟩ : BufTy).Contents (Elt F) → (⟨S256x1, .f32⟩ : BufTy).Contents (Elt F) → (⟨S256x1, .f32⟩ : BufTy).Contents (Elt F)),
    unary main_v18 main_v19 (broadcastInDim S256x64 ![0, 1] bcast_S256x1_S256x64_0_1 : (⟨S256x1, .f32⟩ : BufTy).Contents (Elt F) → (⟨S256x64, .f32⟩ : BufTy).Contents (Elt F)),
    binary main_arg7 main_v19 main_v20 (Host.divf : (⟨S256x64, .f32⟩ : BufTy).Contents (Elt F) → (⟨S256x64, .f32⟩ : BufTy).Contents (Elt F) → (⟨S256x64, .f32⟩ : BufTy).Contents (Elt F)),
    binary main_v20 main_arg7 main_v21 (subf : (⟨S256x64, .f32⟩ : BufTy).Contents (Elt F) → (⟨S256x64, .f32⟩ : BufTy).Contents (Elt F) → (⟨S256x64, .f32⟩ : BufTy).Contents (Elt F)),
    binary main_arg7 main_v21 main_v22 (addf : (⟨S256x64, .f32⟩ : BufTy).Contents (Elt F) → (⟨S256x64, .f32⟩ : BufTy).Contents (Elt F) → (⟨S256x64, .f32⟩ : BufTy).Contents (Elt F)) ]

set_option maxRecDepth 8192 in
theorem ops00_sub : (ops00 : List (HloOp τ sig (Elt F))).Forall fun op => op.bufs ⊆ tcRefs τ sig :=
  ⟨nullary_bufs_sub .., nullary_bufs_sub .., unary_bufs_sub .., binary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., binary_bufs_sub ..⟩

set_option maxRecDepth 8192 in
theorem ops00_fresh : (ops00 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev ops00_W : List (Ref sig .tc) := [main_cst, main_cst_0, main_call0_v0, main_call0_v1, main_call0_v2, main_v0, main_v1, main_v2, main_v3, main_cst_1, main_v4, main_v5, main_v6, main_cst_2, main_v7, main_v8, main_v9, main_v10, main_v11, main_v12, main_v13, main_cst_3, main_v14, main_v15, main_v16, main_cst_4, main_v17, main_v18, main_v19, main_v20, main_v21, main_v22]

set_option maxRecDepth 8192 in
theorem ops00_writes : (ops00 : List (HloOp τ sig (Elt F))).Forall fun op => op.writes ⊆ (ops00_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

abbrev ops01 : List (HloOp τ sig (Elt F)) :=
  [ nullary main_c (constantI S_ 32 0#32),
    unary main_c main_v23 (broadcastInDim S16384 ![] bcast_S_S16384 : (⟨S_, .i32⟩ : BufTy).Contents (Elt F) → (⟨S16384, .i32⟩ : BufTy).Contents (Elt F)),
    binary main_arg4 main_v23 main_v24 (cmpi .slt : (⟨S16384, .i32⟩ : BufTy).Contents (Elt F) → (⟨S16384, .i32⟩ : BufTy).Contents (Elt F) → (⟨S16384, .i1⟩ : BufTy).Contents (Elt F)),
    nullary main_c_5 (constantI S_ 32 1000000#32),
    unary main_c_5 main_v25 (broadcastInDim S16384 ![] bcast_S_S16384 : (⟨S_, .i32⟩ : BufTy).Contents (Elt F) → (⟨S16384, .i32⟩ : BufTy).Contents (Elt F)),
    binary main_arg4 main_v25 main_v26 (addi : (⟨S16384, .i32⟩ : BufTy).Contents (Elt F) → (⟨S16384, .i32⟩ : BufTy).Contents (Elt F) → (⟨S16384, .i32⟩ : BufTy).Contents (Elt F)),
    ternary main_v24 main_v26 main_arg4 main_v27 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v27 main_v28 (broadcastInDim S16384x1 ![0] bcast_S16384_S16384x1_0 : (⟨S16384, .i32⟩ : BufTy).Contents (Elt F) → (⟨S16384x1, .i32⟩ : BufTy).Contents (Elt F)),
    binary main_arg0 main_v28 main_v29 ((fun x i => Host.gather gather_S1000000x64_S16384x1_S16384x64_1_0_n_n_0_1_164 x i) : (⟨S1000000x64, .f32⟩ : BufTy).Contents (Elt F) → (⟨S16384x1, .i32⟩ : BufTy).Contents (Elt F) → (⟨S16384x64, .f32⟩ : BufTy).Contents (Elt F)),
    binary main_v29 main_v29 main_v30 (mulf : (⟨S16384x64, .f32⟩ : BufTy).Contents (Elt F) → (⟨S16384x64, .f32⟩ : BufTy).Contents (Elt F) → (⟨S16384x64, .f32⟩ : BufTy).Contents (Elt F)),
    nullary main_cst_6 (constant S_ .f32 0x00000000#32),
    binary main_v30 main_cst_6 main_v31 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v31 main_v32 (broadcastInDim S16384x1 ![0] bcast_S16384_S16384x1_0 : (⟨S16384, .f32⟩ : BufTy).Contents (Elt F) → (⟨S16384x1, .f32⟩ : BufTy).Contents (Elt F)),
    unary main_v32 main_v33 (Host.sqrt : (⟨S16384x1, .f32⟩ : BufTy).Contents (Elt F) → (⟨S16384x1, .f32⟩ : BufTy).Contents (Elt F)),
    nullary main_cst_7 (constant S_ .f32 0x2B8CBCCC#32),
    unary main_cst_7 main_v34 (broadcastInDim S16384x1 ![] bcast_S_S16384x1 : (⟨S_, .f32⟩ : BufTy).Contents (Elt F) → (⟨S16384x1, .f32⟩ : BufTy).Contents (Elt F)),
    binary main_v33 main_v34 main_v35 (maximumf : (⟨S16384x1, .f32⟩ : BufTy).Contents (Elt F) → (⟨S16384x1, .f32⟩ : BufTy).Contents (Elt F) → (⟨S16384x1, .f32⟩ : BufTy).Contents (Elt F)),
    unary main_v35 main_v36 (broadcastInDim S16384x64 ![0, 1] bcast_S16384x1_S16384x64_0_1 : (⟨S16384x1, .f32⟩ : BufTy).Contents (Elt F) → (⟨S16384x64, .f32⟩ : BufTy).Contents (Elt F)),
    binary main_v29 main_v36 main_v37 (Host.divf : (⟨S16384x64, .f32⟩ : BufTy).Contents (Elt F) → (⟨S16384x64, .f32⟩ : BufTy).Contents (Elt F) → (⟨S16384x64, .f32⟩ : BufTy).Contents (Elt F)) ]

set_option maxRecDepth 8192 in
theorem ops01_sub : (ops01 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

set_option maxRecDepth 8192 in
theorem ops01_fresh : (ops01 : List (HloOp τ sig (Elt F))).Forall fun op => op.fresh = ∅ :=
  ⟨rfl, rfl, rfl, rfl, rfl, rfl, rfl, rfl, rfl, rfl, rfl, rfl, rfl, rfl, rfl, rfl, rfl, rfl, rfl⟩

abbrev ops01_W : List (Ref sig .tc) := [main_c, main_v23, main_v24, main_c_5, main_v25, main_v26, main_v27, main_v28, main_v29, main_v30, main_cst_6, main_v31, main_v32, main_v33, main_cst_7, main_v34, main_v35, main_v36, main_v37]

set_option maxRecDepth 8192 in
theorem ops01_writes : (ops01 : List (HloOp τ sig (Elt F))).Forall fun op => op.writes ⊆ (ops01_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

abbrev ops02 : List (HloOp τ sig (Elt F)) :=
  [ nullary main_c_8 (constantI S_ 32 0#32),
    unary main_c_8 main_v38 (broadcastInDim S16384 ![] bcast_S_S16384 : (⟨S_, .i32⟩ : BufTy).Contents (Elt F) → (⟨S16384, .i32⟩ : BufTy).Contents (Elt F)),
    binary main_arg5 main_v38 main_v39 (cmpi .slt : (⟨S16384, .i32⟩ : BufTy).Contents (Elt F) → (⟨S16384, .i32⟩ : BufTy).Contents (Elt F) → (⟨S16384, .i1⟩ : BufTy).Contents (Elt F)),
    nullary main_c_9 (constantI S_ 32 500000#32),
    unary main_c_9 main_v40 (broadcastInDim S16384 ![] bcast_S_S16384 : (⟨S_, .i32⟩ : BufTy).Contents (Elt F) → (⟨S16384, .i32⟩ : BufTy).Contents (Elt F)),
    binary main_arg5 main_v40 main_v41 (addi : (⟨S16384, .i32⟩ : BufTy).Contents (Elt F) → (⟨S16384, .i32⟩ : BufTy).Contents (Elt F) → (⟨S16384, .i32⟩ : BufTy).Contents (Elt F)),
    ternary main_v39 main_v41 main_arg5 main_v42 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v42 main_v43 (broadcastInDim S16384x1 ![0] bcast_S16384_S16384x1_0 : (⟨S16384, .i32⟩ : BufTy).Contents (Elt F) → (⟨S16384x1, .i32⟩ : BufTy).Contents (Elt F)),
    binary main_arg1 main_v43 main_v44 ((fun x i => Host.gather gather_S500000x64_S16384x1_S16384x64_1_0_n_n_0_1_164 x i) : (⟨S500000x64, .f32⟩ : BufTy).Contents (Elt F) → (⟨S16384x1, .i32⟩ : BufTy).Contents (Elt F) → (⟨S16384x64, .f32⟩ : BufTy).Contents (Elt F)),
    binary main_v44 main_v44 main_v45 (mulf : (⟨S16384x64, .f32⟩ : BufTy).Contents (Elt F) → (⟨S16384x64, .f32⟩ : BufTy).Contents (Elt F) → (⟨S16384x64, .f32⟩ : BufTy).Contents (Elt F)),
    nullary main_cst_10 (constant S_ .f32 0x00000000#32),
    binary main_v45 main_cst_10 main_v46 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)) ]

set_option maxRecDepth 8192 in
theorem ops02_sub : (ops02 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub ..⟩

set_option maxRecDepth 8192 in
theorem ops02_fresh : (ops02 : List (HloOp τ sig (Elt F))).Forall fun op => op.fresh = ∅ :=
  ⟨rfl, rfl, rfl, rfl, rfl, rfl, rfl, rfl, rfl, rfl, rfl, rfl⟩

abbrev ops02_W : List (Ref sig .tc) := [main_c_8, main_v38, main_v39, main_c_9, main_v40, main_v41, main_v42, main_v43, main_v44, main_v45, main_cst_10, main_v46]

set_option maxRecDepth 8192 in
theorem ops02_writes : (ops02 : List (HloOp τ sig (Elt F))).Forall fun op => op.writes ⊆ (ops02_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

end Cert.ReferenceIdeal.Hand

end
-- ==== Proof.Ref.OpsB.lean ====
import proofs.«402369_j86406152061536_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops03 : List (HloOp τ sig (Elt F)) :=
  [ unary main_v46 main_v47 (broadcastInDim S16384x1 ![0] bcast_S16384_S16384x1_0 : (⟨S16384, .f32⟩ : BufTy).Contents (Elt F) → (⟨S16384x1, .f32⟩ : BufTy).Contents (Elt F)),
    unary main_v47 main_v48 (Host.sqrt : (⟨S16384x1, .f32⟩ : BufTy).Contents (Elt F) → (⟨S16384x1, .f32⟩ : BufTy).Contents (Elt F)),
    nullary main_cst_11 (constant S_ .f32 0x2B8CBCCC#32),
    unary main_cst_11 main_v49 (broadcastInDim S16384x1 ![] bcast_S_S16384x1 : (⟨S_, .f32⟩ : BufTy).Contents (Elt F) → (⟨S16384x1, .f32⟩ : BufTy).Contents (Elt F)),
    binary main_v48 main_v49 main_v50 (maximumf : (⟨S16384x1, .f32⟩ : BufTy).Contents (Elt F) → (⟨S16384x1, .f32⟩ : BufTy).Contents (Elt F) → (⟨S16384x1, .f32⟩ : BufTy).Contents (Elt F)),
    unary main_v50 main_v51 (broadcastInDim S16384x64 ![0, 1] bcast_S16384x1_S16384x64_0_1 : (⟨S16384x1, .f32⟩ : BufTy).Contents (Elt F) → (⟨S16384x64, .f32⟩ : BufTy).Contents (Elt F)),
    binary main_v44 main_v51 main_v52 (Host.divf : (⟨S16384x64, .f32⟩ : BufTy).Contents (Elt F) → (⟨S16384x64, .f32⟩ : BufTy).Contents (Elt F) → (⟨S16384x64, .f32⟩ : BufTy).Contents (Elt F)) ]

set_option maxRecDepth 8192 in
theorem ops03_sub : (ops03 : List (HloOp τ sig (Elt F))).Forall fun op => op.bufs ⊆ tcRefs τ sig :=
  ⟨unary_bufs_sub .., unary_bufs_sub .., nullary_bufs_sub .., unary_bufs_sub .., binary_bufs_sub .., unary_bufs_sub .., binary_bufs_sub ..⟩

set_option maxRecDepth 8192 in
theorem ops03_fresh : (ops03 : List (HloOp τ sig (Elt F))).Forall fun op => op.fresh = ∅ :=
  ⟨rfl, rfl, rfl, rfl, rfl, rfl, rfl⟩

abbrev ops03_W : List (Ref sig .tc) := [main_v47, main_v48, main_cst_11, main_v49, main_v50, main_v51, main_v52]

set_option maxRecDepth 8192 in
theorem ops03_writes : (ops03 : List (HloOp τ sig (Elt F))).Forall fun op => op.writes ⊆ (ops03_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

abbrev ops04 : List (HloOp τ sig (Elt F)) :=
  [ nullary main_c_12 (constantI S_ 32 0#32),
    unary main_c_12 main_v53 (broadcastInDim S16384 ![] bcast_S_S16384 : (⟨S_, .i32⟩ : BufTy).Contents (Elt F) → (⟨S16384, .i32⟩ : BufTy).Contents (Elt F)),
    binary main_arg5 main_v53 main_v54 (cmpi .slt : (⟨S16384, .i32⟩ : BufTy).Contents (Elt F) → (⟨S16384, .i32⟩ : BufTy).Contents (Elt F) → (⟨S16384, .i1⟩ : BufTy).Contents (Elt F)),
    nullary main_c_13 (constantI S_ 32 500000#32),
    unary main_c_13 main_v55 (broadcastInDim S16384 ![] bcast_S_S16384 : (⟨S_, .i32⟩ : BufTy).Contents (Elt F) → (⟨S16384, .i32⟩ : BufTy).Contents (Elt F)),
    binary main_arg5 main_v55 main_v56 (addi : (⟨S16384, .i32⟩ : BufTy).Contents (Elt F) → (⟨S16384, .i32⟩ : BufTy).Contents (Elt F) → (⟨S16384, .i32⟩ : BufTy).Contents (Elt F)),
    ternary main_v54 main_v56 main_arg5 main_v57 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v57 main_v58 (broadcastInDim S16384x1 ![0] bcast_S16384_S16384x1_0 : (⟨S16384, .i32⟩ : BufTy).Contents (Elt F) → (⟨S16384x1, .i32⟩ : BufTy).Contents (Elt F)),
    binary main_arg2 main_v58 main_v59 ((fun x i => Host.gather gather_S500000x64_S16384x1_S16384x64_1_0_n_n_0_1_164 x i) : (⟨S500000x64, .f32⟩ : BufTy).Contents (Elt F) → (⟨S16384x1, .i32⟩ : BufTy).Contents (Elt F) → (⟨S16384x64, .f32⟩ : BufTy).Contents (Elt F)),
    binary main_v59 main_v59 main_v60 (mulf : (⟨S16384x64, .f32⟩ : BufTy).Contents (Elt F) → (⟨S16384x64, .f32⟩ : BufTy).Contents (Elt F) → (⟨S16384x64, .f32⟩ : BufTy).Contents (Elt F)),
    nullary main_cst_14 (constant S_ .f32 0x00000000#32),
    binary main_v60 main_cst_14 main_v61 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v61 main_v62 (broadcastInDim S16384x1 ![0] bcast_S16384_S16384x1_0 : (⟨S16384, .f32⟩ : BufTy).Contents (Elt F) → (⟨S16384x1, .f32⟩ : BufTy).Contents (Elt F)),
    unary main_v62 main_v63 (Host.sqrt : (⟨S16384x1, .f32⟩ : BufTy).Contents (Elt F) → (⟨S16384x1, .f32⟩ : BufTy).Contents (Elt F)),
    nullary main_cst_15 (constant S_ .f32 0x2B8CBCCC#32),
    unary main_cst_15 main_v64 (broadcastInDim S16384x1 ![] bcast_S_S16384x1 : (⟨S_, .f32⟩ : BufTy).Contents (Elt F) → (⟨S16384x1, .f32⟩ : BufTy).Contents (Elt F)),
    binary main_v63 main_v64 main_v65 (maximumf : (⟨S16384x1, .f32⟩ : BufTy).Contents (Elt F) → (⟨S16384x1, .f32⟩ : BufTy).Contents (Elt F) → (⟨S16384x1, .f32⟩ : BufTy).Contents (Elt F)),
    unary main_v65 main_v66 (broadcastInDim S16384x64 ![0, 1] bcast_S16384x1_S16384x64_0_1 : (⟨S16384x1, .f32⟩ : BufTy).Contents (Elt F) → (⟨S16384x64, .f32⟩ : BufTy).Contents (Elt F)),
    binary main_v59 main_v66 main_v67 (Host.divf : (⟨S16384x64, .f32⟩ : BufTy).Contents (Elt F) → (⟨S16384x64, .f32⟩ : BufTy).Contents (Elt F) → (⟨S16384x64, .f32⟩ : BufTy).Contents (Elt F)) ]

set_option maxRecDepth 8192 in
theorem ops04_sub : (ops04 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

set_option maxRecDepth 8192 in
theorem ops04_fresh : (ops04 : List (HloOp τ sig (Elt F))).Forall fun op => op.fresh = ∅ :=
  ⟨rfl, rfl, rfl, rfl, rfl, rfl, rfl, rfl, rfl, rfl, rfl, rfl, rfl, rfl, rfl, rfl, rfl, rfl, rfl⟩

abbrev ops04_W : List (Ref sig .tc) := [main_c_12, main_v53, main_v54, main_c_13, main_v55, main_v56, main_v57, main_v58, main_v59, main_v60, main_cst_14, main_v61, main_v62, main_v63, main_cst_15, main_v64, main_v65, main_v66, main_v67]

set_option maxRecDepth 8192 in
theorem ops04_writes : (ops04 : List (HloOp τ sig (Elt F))).Forall fun op => op.writes ⊆ (ops04_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

abbrev ops05 : List (HloOp τ sig (Elt F)) :=
  [ nullary main_c_16 (constantI S_ 32 0#32),
    unary main_c_16 main_v68 (broadcastInDim S16384 ![] bcast_S_S16384 : (⟨S_, .i32⟩ : BufTy).Contents (Elt F) → (⟨S16384, .i32⟩ : BufTy).Contents (Elt F)),
    binary main_arg5 main_v68 main_v69 (cmpi .slt : (⟨S16384, .i32⟩ : BufTy).Contents (Elt F) → (⟨S16384, .i32⟩ : BufTy).Contents (Elt F) → (⟨S16384, .i1⟩ : BufTy).Contents (Elt F)),
    nullary main_c_17 (constantI S_ 32 500000#32),
    unary main_c_17 main_v70 (broadcastInDim S16384 ![] bcast_S_S16384 : (⟨S_, .i32⟩ : BufTy).Contents (Elt F) → (⟨S16384, .i32⟩ : BufTy).Contents (Elt F)),
    binary main_arg5 main_v70 main_v71 (addi : (⟨S16384, .i32⟩ : BufTy).Contents (Elt F) → (⟨S16384, .i32⟩ : BufTy).Contents (Elt F) → (⟨S16384, .i32⟩ : BufTy).Contents (Elt F)),
    ternary main_v69 main_v71 main_arg5 main_v72 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v72 main_v73 (broadcastInDim S16384x1 ![0] bcast_S16384_S16384x1_0 : (⟨S16384, .i32⟩ : BufTy).Contents (Elt F) → (⟨S16384x1, .i32⟩ : BufTy).Contents (Elt F)),
    binary main_arg3 main_v73 main_v74 ((fun x i => Host.gather gather_S500000x64_S16384x1_S16384x64_1_0_n_n_0_1_164 x i) : (⟨S500000x64, .f32⟩ : BufTy).Contents (Elt F) → (⟨S16384x1, .i32⟩ : BufTy).Contents (Elt F) → (⟨S16384x64, .f32⟩ : BufTy).Contents (Elt F)),
    binary main_v74 main_v74 main_v75 (mulf : (⟨S16384x64, .f32⟩ : BufTy).Contents (Elt F) → (⟨S16384x64, .f32⟩ : BufTy).Contents (Elt F) → (⟨S16384x64, .f32⟩ : BufTy).Contents (Elt F)),
    nullary main_cst_18 (constant S_ .f32 0x00000000#32),
    binary main_v75 main_cst_18 main_v76 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v76 main_v77 (broadcastInDim S16384x1 ![0] bcast_S16384_S16384x1_0 : (⟨S16384, .f32⟩ : BufTy).Contents (Elt F) → (⟨S16384x1, .f32⟩ : BufTy).Contents (Elt F)),
    unary main_v77 main_v78 (Host.sqrt : (⟨S16384x1, .f32⟩ : BufTy).Contents (Elt F) → (⟨S16384x1, .f32⟩ : BufTy).Contents (Elt F)),
    nullary main_cst_19 (constant S_ .f32 0x2B8CBCCC#32),
    unary main_cst_19 main_v79 (broadcastInDim S16384x1 ![] bcast_S_S16384x1 : (⟨S_, .f32⟩ : BufTy).Contents (Elt F) → (⟨S16384x1, .f32⟩ : BufTy).Contents (Elt F)),
    binary main_v78 main_v79 main_v80 (maximumf : (⟨S16384x1, .f32⟩ : BufTy).Contents (Elt F) → (⟨S16384x1, .f32⟩ : BufTy).Contents (Elt F) → (⟨S16384x1, .f32⟩ : BufTy).Contents (Elt F)),
    unary main_v80 main_v81 (broadcastInDim S16384x64 ![0, 1] bcast_S16384x1_S16384x64_0_1 : (⟨S16384x1, .f32⟩ : BufTy).Contents (Elt F) → (⟨S16384x64, .f32⟩ : BufTy).Contents (Elt F)),
    binary main_v74 main_v81 main_v82 (Host.divf : (⟨S16384x64, .f32⟩ : BufTy).Contents (Elt F) → (⟨S16384x64, .f32⟩ : BufTy).Contents (Elt F) → (⟨S16384x64, .f32⟩ : BufTy).Contents (Elt F)) ]

set_option maxRecDepth 8192 in
theorem ops05_sub : (ops05 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

set_option maxRecDepth 8192 in
theorem ops05_fresh : (ops05 : List (HloOp τ sig (Elt F))).Forall fun op => op.fresh = ∅ :=
  ⟨rfl, rfl, rfl, rfl, rfl, rfl, rfl, rfl, rfl, rfl, rfl, rfl, rfl, rfl, rfl, rfl, rfl, rfl, rfl⟩

abbrev ops05_W : List (Ref sig .tc) := [main_c_16, main_v68, main_v69, main_c_17, main_v70, main_v71, main_v72, main_v73, main_v74, main_v75, main_cst_18, main_v76, main_v77, main_v78, main_cst_19, main_v79, main_v80, main_v81, main_v82]

set_option maxRecDepth 8192 in
theorem ops05_writes : (ops05 : List (HloOp τ sig (Elt F))).Forall fun op => op.writes ⊆ (ops05_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

abbrev ops06 : List (HloOp τ sig (Elt F)) :=
  [ unary main_v12 main_v83 ((transpose S64x256 [1, 0] · transposes_S256x64_S64x256_1_0) : (⟨S256x64, .f32⟩ : BufTy).Contents (Elt F) → (⟨S64x256, .f32⟩ : BufTy).Contents (Elt F)),
    binary main_v37 main_v83 main_v84 ((fun l r => Host.dotGeneral dot_S16384x64_S64x256_S16384x256_1_0_0_1_n_n none l r) : (⟨S16384x64, .f32⟩ : BufTy).Contents (Elt F) → (⟨S64x256, .f32⟩ : BufTy).Contents (Elt F) → (⟨S16384x256, .f32⟩ : BufTy).Contents (Elt F)),
    unary main_v12 main_v85 ((transpose S64x256 [1, 0] · transposes_S256x64_S64x256_1_0) : (⟨S256x64, .f32⟩ : BufTy).Contents (Elt F) → (⟨S64x256, .f32⟩ : BufTy).Contents (Elt F)),
    binary main_v52 main_v85 main_v86 ((fun l r => Host.dotGeneral dot_S16384x64_S64x256_S16384x256_1_0_0_1_n_n none l r) : (⟨S16384x64, .f32⟩ : BufTy).Contents (Elt F) → (⟨S64x256, .f32⟩ : BufTy).Contents (Elt F) → (⟨S16384x256, .f32⟩ : BufTy).Contents (Elt F)),
    unary main_v22 main_v87 ((transpose S64x256 [1, 0] · transposes_S256x64_S64x256_1_0) : (⟨S256x64, .f32⟩ : BufTy).Contents (Elt F) → (⟨S64x256, .f32⟩ : BufTy).Contents (Elt F)),
    binary main_v52 main_v87 main_v88 ((fun l r => Host.dotGeneral dot_S16384x64_S64x256_S16384x256_1_0_0_1_n_n none l r) : (⟨S16384x64, .f32⟩ : BufTy).Contents (Elt F) → (⟨S64x256, .f32⟩ : BufTy).Contents (Elt F) → (⟨S16384x256, .f32⟩ : BufTy).Contents (Elt F)),
    unary main_v22 main_v89 ((transpose S64x256 [1, 0] · transposes_S256x64_S64x256_1_0) : (⟨S256x64, .f32⟩ : BufTy).Contents (Elt F) → (⟨S64x256, .f32⟩ : BufTy).Contents (Elt F)),
    binary main_v67 main_v89 main_v90 ((fun l r => Host.dotGeneral dot_S16384x64_S64x256_S16384x256_1_0_0_1_n_n none l r) : (⟨S16384x64, .f32⟩ : BufTy).Contents (Elt F) → (⟨S64x256, .f32⟩ : BufTy).Contents (Elt F) → (⟨S16384x256, .f32⟩ : BufTy).Contents (Elt F)),
    unary main_v22 main_v91 ((transpose S64x256 [1, 0] · transposes_S256x64_S64x256_1_0) : (⟨S256x64, .f32⟩ : BufTy).Contents (Elt F) → (⟨S64x256, .f32⟩ : BufTy).Contents (Elt F)),
    binary main_v82 main_v91 main_v92 ((fun l r => Host.dotGeneral dot_S16384x64_S64x256_S16384x256_1_0_0_1_n_n none l r) : (⟨S16384x64, .f32⟩ : BufTy).Contents (Elt F) → (⟨S64x256, .f32⟩ : BufTy).Contents (Elt F) → (⟨S16384x256, .f32⟩ : BufTy).Contents (Elt F)) ]

set_option maxRecDepth 8192 in
theorem ops06_sub : (ops06 : List (HloOp τ sig (Elt F))).Forall fun op => op.bufs ⊆ tcRefs τ sig :=
  ⟨unary_bufs_sub .., binary_bufs_sub .., unary_bufs_sub .., binary_bufs_sub .., unary_bufs_sub .., binary_bufs_sub .., unary_bufs_sub .., binary_bufs_sub .., unary_bufs_sub .., binary_bufs_sub ..⟩

set_option maxRecDepth 8192 in
theorem ops06_fresh : (ops06 : List (HloOp τ sig (Elt F))).Forall fun op => op.fresh = ∅ :=
  ⟨rfl, rfl, rfl, rfl, rfl, rfl, rfl, rfl, rfl, rfl⟩

abbrev ops06_W : List (Ref sig .tc) := [main_v83, main_v84, main_v85, main_v86, main_v87, main_v88, main_v89, main_v90, main_v91, main_v92]

set_option maxRecDepth 8192 in
theorem ops06_writes : (ops06 : List (HloOp τ sig (Elt F))).Forall fun op => op.writes ⊆ (ops06_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

abbrev ops07 : List (HloOp τ sig (Elt F)) :=
  [ nullary main_cst_20 (constant S_ .f32 0x3D4CCCCD#32),
    unary main_cst_20 main_v93 (broadcastInDim S16384x256 ![] bcast_S_S16384x256 : (⟨S_, .f32⟩ : BufTy).Contents (Elt F) → (⟨S16384x256, .f32⟩ : BufTy).Contents (Elt F)),
    binary main_v86 main_v93 main_v94 (Host.divf : (⟨S16384x256, .f32⟩ : BufTy).Contents (Elt F) → (⟨S16384x256, .f32⟩ : BufTy).Contents (Elt F) → (⟨S16384x256, .f32⟩ : BufTy).Contents (Elt F)),
    unary main_v94 main_v95 (Host.exp : (⟨S16384x256, .f32⟩ : BufTy).Contents (Elt F) → (⟨S16384x256, .f32⟩ : BufTy).Contents (Elt F)),
    unary main_v95 main_v96 ((transpose S256x16384 [1, 0] · transposes_S16384x256_S256x16384_1_0) : (⟨S16384x256, .f32⟩ : BufTy).Contents (Elt F) → (⟨S256x16384, .f32⟩ : BufTy).Contents (Elt F)) ]

set_option maxRecDepth 8192 in
theorem ops07_sub : (ops07 : List (HloOp τ sig (Elt F))).Forall fun op => op.bufs ⊆ tcRefs τ sig :=
  ⟨nullary_bufs_sub .., unary_bufs_sub .., binary_bufs_sub .., unary_bufs_sub .., unary_bufs_sub ..⟩

set_option maxRecDepth 8192 in
theorem ops07_fresh : (ops07 : List (HloOp τ sig (Elt F))).Forall fun op => op.fresh = ∅ :=
  ⟨rfl, rfl, rfl, rfl, rfl⟩

abbrev ops07_W : List (Ref sig .tc) := [main_cst_20, main_v93, main_v94, main_v95, main_v96]

set_option maxRecDepth 8192 in
theorem ops07_writes : (ops07 : List (HloOp τ sig (Elt F))).Forall fun op => op.writes ⊆ (ops07_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

end Cert.ReferenceIdeal.Hand

end
-- ==== Proof.Ref.OpsC.lean ====
import proofs.«402369_j86406152061536_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops08 : List (HloOp τ sig (Elt F)) :=
  [ nullary main_cst_21 (constant S_ .f32 0x00000000#32),
    binary main_v96 main_cst_21 main_v97 ((fun x v => Host.reduceAdd x v reducesTo_S256x16384_S_d0_1 h_S_) : (⟨S256x16384, .f32⟩ : BufTy).Contents (Elt F) → (⟨S_, .f32⟩ : BufTy).Contents (Elt F) → (⟨S_, .f32⟩ : BufTy).Contents (Elt F)),
    unary main_v97 main_v98 (broadcastInDim S256x16384 ![] bcast_S_S256x16384 : (⟨S_, .f32⟩ : BufTy).Contents (Elt F) → (⟨S256x16384, .f32⟩ : BufTy).Contents (Elt F)),
    binary main_v96 main_v98 main_v99 (Host.divf : (⟨S256x16384, .f32⟩ : BufTy).Contents (Elt F) → (⟨S256x16384, .f32⟩ : BufTy).Contents (Elt F) → (⟨S256x16384, .f32⟩ : BufTy).Contents (Elt F)),
    nullary main_cst_22 (constant S_ .f32 0x00000000#32),
    binary main_v99 main_cst_22 main_v100 ((fun x v => Host.reduceAdd x v reducesTo_S256x16384_S256_d1 h_S_) : (⟨S256x16384, .f32⟩ : BufTy).Contents (Elt F) → (⟨S_, .f32⟩ : BufTy).Contents (Elt F) → (⟨S256, .f32⟩ : BufTy).Contents (Elt F)),
    unary main_v100 main_v101 (broadcastInDim S256x1 ![0] bcast_S256_S256x1_0 : (⟨S256, .f32⟩ : BufTy).Contents (Elt F) → (⟨S256x1, .f32⟩ : BufTy).Contents (Elt F)),
    nullary main_cst_23 (constant S_ .f32 0x43800000#32),
    unary main_cst_23 main_v102 (broadcastInDim S256x1 ![] bcast_S_S256x1 : (⟨S_, .f32⟩ : BufTy).Contents (Elt F) → (⟨S256x1, .f32⟩ : BufTy).Contents (Elt F)),
    binary main_v101 main_v102 main_v103 (mulf : (⟨S256x1, .f32⟩ : BufTy).Contents (Elt F) → (⟨S256x1, .f32⟩ : BufTy).Contents (Elt F) → (⟨S256x1, .f32⟩ : BufTy).Contents (Elt F)),
    unary main_v103 main_v104 (broadcastInDim S256x16384 ![0, 1] bcast_S256x1_S256x16384_0_1 : (⟨S256x1, .f32⟩ : BufTy).Contents (Elt F) → (⟨S256x16384, .f32⟩ : BufTy).Contents (Elt F)),
    binary main_v99 main_v104 main_v105 (Host.divf : (⟨S256x16384, .f32⟩ : BufTy).Contents (Elt F) → (⟨S256x16384, .f32⟩ : BufTy).Contents (Elt F) → (⟨S256x16384, .f32⟩ : BufTy).Contents (Elt F)),
    nullary main_cst_24 (constant S_ .f32 0x00000000#32),
    binary main_v105 main_cst_24 main_v106 ((fun x v => Host.reduceAdd x v reducesTo_S256x16384_S16384_d0 h_S_) : (⟨S256x16384, .f32⟩ : BufTy).Contents (Elt F) → (⟨S_, .f32⟩ : BufTy).Contents (Elt F) → (⟨S16384, .f32⟩ : BufTy).Contents (Elt F)),
    unary main_v106 main_v107 (broadcastInDim S1x16384 ![1] bcast_S16384_S1x16384_1 : (⟨S16384, .f32⟩ : BufTy).Contents (Elt F) → (⟨S1x16384, .f32⟩ : BufTy).Contents (Elt F)),
    nullary main_cst_25 (constant S_ .f32 0x46800000#32),
    unary main_cst_25 main_v108 (broadcastInDim S1x16384 ![] bcast_S_S1x16384 : (⟨S_, .f32⟩ : BufTy).Contents (Elt F) → (⟨S1x16384, .f32⟩ : BufTy).Contents (Elt F)),
    binary main_v107 main_v108 main_v109 (mulf : (⟨S1x16384, .f32⟩ : BufTy).Contents (Elt F) → (⟨S1x16384, .f32⟩ : BufTy).Contents (Elt F) → (⟨S1x16384, .f32⟩ : BufTy).Contents (Elt F)),
    unary main_v109 main_v110 (broadcastInDim S256x16384 ![0, 1] bcast_S1x16384_S256x16384_0_1 : (⟨S1x16384, .f32⟩ : BufTy).Contents (Elt F) → (⟨S256x16384, .f32⟩ : BufTy).Contents (Elt F)),
    binary main_v105 main_v110 main_v111 (Host.divf : (⟨S256x16384, .f32⟩ : BufTy).Contents (Elt F) → (⟨S256x16384, .f32⟩ : BufTy).Contents (Elt F) → (⟨S256x16384, .f32⟩ : BufTy).Contents (Elt F)),
    nullary main_cst_26 (constant S_ .f32 0x00000000#32),
    binary main_v111 main_cst_26 main_v112 ((fun x v => Host.reduceAdd x v reducesTo_S256x16384_S256_d1 h_S_) : (⟨S256x16384, .f32⟩ : BufTy).Contents (Elt F) → (⟨S_, .f32⟩ : BufTy).Contents (Elt F) → (⟨S256, .f32⟩ : BufTy).Contents (Elt F)),
    unary main_v112 main_v113 (broadcastInDim S256x1 ![0] bcast_S256_S256x1_0 : (⟨S256, .f32⟩ : BufTy).Contents (Elt F) → (⟨S256x1, .f32⟩ : BufTy).Contents (Elt F)),
    nullary main_cst_27 (constant S_ .f32 0x43800000#32),
    unary main_cst_27 main_v114 (broadcastInDim S256x1 ![] bcast_S_S256x1 : (⟨S_, .f32⟩ : BufTy).Contents (Elt F) → (⟨S256x1, .f32⟩ : BufTy).Contents (Elt F)),
    binary main_v113 main_v114 main_v115 (mulf : (⟨S256x1, .f32⟩ : BufTy).Contents (Elt F) → (⟨S256x1, .f32⟩ : BufTy).Contents (Elt F) → (⟨S256x1, .f32⟩ : BufTy).Contents (Elt F)),
    unary main_v115 main_v116 (broadcastInDim S256x16384 ![0, 1] bcast_S256x1_S256x16384_0_1 : (⟨S256x1, .f32⟩ : BufTy).Contents (Elt F) → (⟨S256x16384, .f32⟩ : BufTy).Contents (Elt F)),
    binary main_v111 main_v116 main_v117 (Host.divf : (⟨S256x16384, .f32⟩ : BufTy).Contents (Elt F) → (⟨S256x16384, .f32⟩ : BufTy).Contents (Elt F) → (⟨S256x16384, .f32⟩ : BufTy).Contents (Elt F)),
    nullary main_cst_28 (constant S_ .f32 0x00000000#32),
    binary main_v117 main_cst_28 main_v118 ((fun x v => Host.reduceAdd x v reducesTo_S256x16384_S16384_d0 h_S_) : (⟨S256x16384, .f32⟩ : BufTy).Contents (Elt F) → (⟨S_, .f32⟩ : BufTy).Contents (Elt F) → (⟨S16384, .f32⟩ : BufTy).Contents (Elt F)),
    unary main_v118 main_v119 (broadcastInDim S1x16384 ![1] bcast_S16384_S1x16384_1 : (⟨S16384, .f32⟩ : BufTy).Contents (Elt F) → (⟨S1x16384, .f32⟩ : BufTy).Contents (Elt F)),
    nullary main_cst_29 (constant S_ .f32 0x46800000#32),
    unary main_cst_29 main_v120 (broadcastInDim S1x16384 ![] bcast_S_S1x16384 : (⟨S_, .f32⟩ : BufTy).Contents (Elt F) → (⟨S1x16384, .f32⟩ : BufTy).Contents (Elt F)),
    binary main_v119 main_v120 main_v121 (mulf : (⟨S1x16384, .f32⟩ : BufTy).Contents (Elt F) → (⟨S1x16384, .f32⟩ : BufTy).Contents (Elt F) → (⟨S1x16384, .f32⟩ : BufTy).Contents (Elt F)),
    unary main_v121 main_v122 (broadcastInDim S256x16384 ![0, 1] bcast_S1x16384_S256x16384_0_1 : (⟨S1x16384, .f32⟩ : BufTy).Contents (Elt F) → (⟨S256x16384, .f32⟩ : BufTy).Contents (Elt F)),
    binary main_v117 main_v122 main_v123 (Host.divf : (⟨S256x16384, .f32⟩ : BufTy).Contents (Elt F) → (⟨S256x16384, .f32⟩ : BufTy).Contents (Elt F) → (⟨S256x16384, .f32⟩ : BufTy).Contents (Elt F)),
    nullary main_cst_30 (constant S_ .f32 0x00000000#32),
    binary main_v123 main_cst_30 main_v124 ((fun x v => Host.reduceAdd x v reducesTo_S256x16384_S256_d1 h_S_) : (⟨S256x16384, .f32⟩ : BufTy).Contents (Elt F) → (⟨S_, .f32⟩ : BufTy).Contents (Elt F) → (⟨S256, .f32⟩ : BufTy).Contents (Elt F)),
    unary main_v124 main_v125 (broadcastInDim S256x1 ![0] bcast_S256_S256x1_0 : (⟨S256, .f32⟩ : BufTy).Contents (Elt F) → (⟨S256x1, .f32⟩ : BufTy).Contents (Elt F)),
    nullary main_cst_31 (constant S_ .f32 0x43800000#32),
    unary main_cst_31 main_v126 (broadcastInDim S256x1 ![] bcast_S_S256x1 : (⟨S_, .f32⟩ : BufTy).Contents (Elt F) → (⟨S256x1, .f32⟩ : BufTy).Contents (Elt F)),
    binary main_v125 main_v126 main_v127 (mulf : (⟨S256x1, .f32⟩ : BufTy).Contents (Elt F) → (⟨S256x1, .f32⟩ : BufTy).Contents (Elt F) → (⟨S256x1, .f32⟩ : BufTy).Contents (Elt F)),
    unary main_v127 main_v128 (broadcastInDim S256x16384 ![0, 1] bcast_S256x1_S256x16384_0_1 : (⟨S256x1, .f32⟩ : BufTy).Contents (Elt F) → (⟨S256x16384, .f32⟩ : BufTy).Contents (Elt F)),
    binary main_v123 main_v128 main_v129 (Host.divf : (⟨S256x16384, .f32⟩ : BufTy).Contents (Elt F) → (⟨S256x16384, .f32⟩ : BufTy).Contents (Elt F) → (⟨S256x16384, .f32⟩ : BufTy).Contents (Elt F)),
    nullary main_cst_32 (constant S_ .f32 0x00000000#32),
    binary main_v129 main_cst_32 main_v130 ((fun x v => Host.reduceAdd x v reducesTo_S256x16384_S16384_d0 h_S_) : (⟨S256x16384, .f32⟩ : BufTy).Contents (Elt F) → (⟨S_, .f32⟩ : BufTy).Contents (Elt F) → (⟨S16384, .f32⟩ : BufTy).Contents (Elt F)),
    unary main_v130 main_v131 (broadcastInDim S1x16384 ![1] bcast_S16384_S1x16384_1 : (⟨S16384, .f32⟩ : BufTy).Contents (Elt F) → (⟨S1x16384, .f32⟩ : BufTy).Contents (Elt F)),
    nullary main_cst_33 (constant S_ .f32 0x46800000#32),
    unary main_cst_33 main_v132 (broadcastInDim S1x16384 ![] bcast_S_S1x16384 : (⟨S_, .f32⟩ : BufTy).Contents (Elt F) → (⟨S1x16384, .f32⟩ : BufTy).Contents (Elt F)),
    binary main_v131 main_v132 main_v133 (mulf : (⟨S1x16384, .f32⟩ : BufTy).Contents (Elt F) → (⟨S1x16384, .f32⟩ : BufTy).Contents (Elt F) → (⟨S1x16384, .f32⟩ : BufTy).Contents (Elt F)),
    unary main_v133 main_v134 (broadcastInDim S256x16384 ![0, 1] bcast_S1x16384_S256x16384_0_1 : (⟨S1x16384, .f32⟩ : BufTy).Contents (Elt F) → (⟨S256x16384, .f32⟩ : BufTy).Contents (Elt F)),
    binary main_v129 main_v134 main_v135 (Host.divf : (⟨S256x16384, .f32⟩ : BufTy).Contents (Elt F) → (⟨S256x16384, .f32⟩ : BufTy).Contents (Elt F) → (⟨S256x16384, .f32⟩ : BufTy).Contents (Elt F)),
    nullary main_cst_34 (constant S_ .f32 0x46800000#32),
    unary main_cst_34 main_v136 (broadcastInDim S256x16384 ![] bcast_S_S256x16384 : (⟨S_, .f32⟩ : BufTy).Contents (Elt F) → (⟨S256x16384, .f32⟩ : BufTy).Contents (Elt F)),
    binary main_v135 main_v136 main_v137 (mulf : (⟨S256x16384, .f32⟩ : BufTy).Contents (Elt F) → (⟨S256x16384, .f32⟩ : BufTy).Contents (Elt F) → (⟨S256x16384, .f32⟩ : BufTy).Contents (Elt F)),
    unary main_v137 main_v138 ((transpose S16384x256 [1, 0] · transposes_S256x16384_S16384x256_1_0) : (⟨S256x16384, .f32⟩ : BufTy).Contents (Elt F) → (⟨S16384x256, .f32⟩ : BufTy).Contents (Elt F)) ]

set_option maxRecDepth 8192 in
theorem ops08_sub : (ops08 : List (HloOp τ sig (Elt F))).Forall fun op => op.bufs ⊆ tcRefs τ sig :=
  ⟨nullary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub ..⟩

set_option maxRecDepth 8192 in
theorem ops08_fresh : (ops08 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev ops08_W : List (Ref sig .tc) := [main_cst_21, main_v97, main_v98, main_v99, main_cst_22, main_v100, main_v101, main_cst_23, main_v102, main_v103, main_v104, main_v105, main_cst_24, main_v106, main_v107, main_cst_25, main_v108, main_v109, main_v110, main_v111, main_cst_26, main_v112, main_v113, main_cst_27, main_v114, main_v115, main_v116, main_v117, main_cst_28, main_v118, main_v119, main_cst_29, main_v120, main_v121, main_v122, main_v123, main_cst_30, main_v124, main_v125, main_cst_31, main_v126, main_v127, main_v128, main_v129, main_cst_32, main_v130, main_v131, main_cst_33, main_v132, main_v133, main_v134, main_v135, main_cst_34, main_v136, main_v137, main_v138]

set_option maxRecDepth 8192 in
theorem ops08_writes : (ops08 : List (HloOp τ sig (Elt F))).Forall fun op => op.writes ⊆ (ops08_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

abbrev ops09 : List (HloOp τ sig (Elt F)) :=
  [ nullary main_cst_35 (constant S_ .f32 0x3D4CCCCD#32),
    unary main_cst_35 main_v139 (broadcastInDim S16384x256 ![] bcast_S_S16384x256 : (⟨S_, .f32⟩ : BufTy).Contents (Elt F) → (⟨S16384x256, .f32⟩ : BufTy).Contents (Elt F)),
    binary main_v84 main_v139 main_v140 (Host.divf : (⟨S16384x256, .f32⟩ : BufTy).Contents (Elt F) → (⟨S16384x256, .f32⟩ : BufTy).Contents (Elt F) → (⟨S16384x256, .f32⟩ : BufTy).Contents (Elt F)),
    unary main_v140 main_v141 (Host.exp : (⟨S16384x256, .f32⟩ : BufTy).Contents (Elt F) → (⟨S16384x256, .f32⟩ : BufTy).Contents (Elt F)) ]

set_option maxRecDepth 8192 in
theorem ops09_sub : (ops09 : List (HloOp τ sig (Elt F))).Forall fun op => op.bufs ⊆ tcRefs τ sig :=
  ⟨nullary_bufs_sub .., unary_bufs_sub .., binary_bufs_sub .., unary_bufs_sub ..⟩

set_option maxRecDepth 8192 in
theorem ops09_fresh : (ops09 : List (HloOp τ sig (Elt F))).Forall fun op => op.fresh = ∅ :=
  ⟨rfl, rfl, rfl, rfl⟩

abbrev ops09_W : List (Ref sig .tc) := [main_cst_35, main_v139, main_v140, main_v141]

set_option maxRecDepth 8192 in
theorem ops09_writes : (ops09 : List (HloOp τ sig (Elt F))).Forall fun op => op.writes ⊆ (ops09_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

end Cert.ReferenceIdeal.Hand

end
-- ==== Proof.Ref.OpsD.lean ====
import proofs.«402369_j86406152061536_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops10 : List (HloOp τ sig (Elt F)) :=
  [ unary main_v141 main_v142 ((transpose S256x16384 [1, 0] · transposes_S16384x256_S256x16384_1_0) : (⟨S16384x256, .f32⟩ : BufTy).Contents (Elt F) → (⟨S256x16384, .f32⟩ : BufTy).Contents (Elt F)),
    nullary main_cst_36 (constant S_ .f32 0x00000000#32),
    binary main_v142 main_cst_36 main_v143 ((fun x v => Host.reduceAdd x v reducesTo_S256x16384_S_d0_1 h_S_) : (⟨S256x16384, .f32⟩ : BufTy).Contents (Elt F) → (⟨S_, .f32⟩ : BufTy).Contents (Elt F) → (⟨S_, .f32⟩ : BufTy).Contents (Elt F)),
    unary main_v143 main_v144 (broadcastInDim S256x16384 ![] bcast_S_S256x16384 : (⟨S_, .f32⟩ : BufTy).Contents (Elt F) → (⟨S256x16384, .f32⟩ : BufTy).Contents (Elt F)),
    binary main_v142 main_v144 main_v145 (Host.divf : (⟨S256x16384, .f32⟩ : BufTy).Contents (Elt F) → (⟨S256x16384, .f32⟩ : BufTy).Contents (Elt F) → (⟨S256x16384, .f32⟩ : BufTy).Contents (Elt F)),
    nullary main_cst_37 (constant S_ .f32 0x00000000#32),
    binary main_v145 main_cst_37 main_v146 ((fun x v => Host.reduceAdd x v reducesTo_S256x16384_S256_d1 h_S_) : (⟨S256x16384, .f32⟩ : BufTy).Contents (Elt F) → (⟨S_, .f32⟩ : BufTy).Contents (Elt F) → (⟨S256, .f32⟩ : BufTy).Contents (Elt F)),
    unary main_v146 main_v147 (broadcastInDim S256x1 ![0] bcast_S256_S256x1_0 : (⟨S256, .f32⟩ : BufTy).Contents (Elt F) → (⟨S256x1, .f32⟩ : BufTy).Contents (Elt F)),
    nullary main_cst_38 (constant S_ .f32 0x43800000#32),
    unary main_cst_38 main_v148 (broadcastInDim S256x1 ![] bcast_S_S256x1 : (⟨S_, .f32⟩ : BufTy).Contents (Elt F) → (⟨S256x1, .f32⟩ : BufTy).Contents (Elt F)),
    binary main_v147 main_v148 main_v149 (mulf : (⟨S256x1, .f32⟩ : BufTy).Contents (Elt F) → (⟨S256x1, .f32⟩ : BufTy).Contents (Elt F) → (⟨S256x1, .f32⟩ : BufTy).Contents (Elt F)),
    unary main_v149 main_v150 (broadcastInDim S256x16384 ![0, 1] bcast_S256x1_S256x16384_0_1 : (⟨S256x1, .f32⟩ : BufTy).Contents (Elt F) → (⟨S256x16384, .f32⟩ : BufTy).Contents (Elt F)),
    binary main_v145 main_v150 main_v151 (Host.divf : (⟨S256x16384, .f32⟩ : BufTy).Contents (Elt F) → (⟨S256x16384, .f32⟩ : BufTy).Contents (Elt F) → (⟨S256x16384, .f32⟩ : BufTy).Contents (Elt F)),
    nullary main_cst_39 (constant S_ .f32 0x00000000#32),
    binary main_v151 main_cst_39 main_v152 ((fun x v => Host.reduceAdd x v reducesTo_S256x16384_S16384_d0 h_S_) : (⟨S256x16384, .f32⟩ : BufTy).Contents (Elt F) → (⟨S_, .f32⟩ : BufTy).Contents (Elt F) → (⟨S16384, .f32⟩ : BufTy).Contents (Elt F)),
    unary main_v152 main_v153 (broadcastInDim S1x16384 ![1] bcast_S16384_S1x16384_1 : (⟨S16384, .f32⟩ : BufTy).Contents (Elt F) → (⟨S1x16384, .f32⟩ : BufTy).Contents (Elt F)),
    nullary main_cst_40 (constant S_ .f32 0x46800000#32),
    unary main_cst_40 main_v154 (broadcastInDim S1x16384 ![] bcast_S_S1x16384 : (⟨S_, .f32⟩ : BufTy).Contents (Elt F) → (⟨S1x16384, .f32⟩ : BufTy).Contents (Elt F)),
    binary main_v153 main_v154 main_v155 (mulf : (⟨S1x16384, .f32⟩ : BufTy).Contents (Elt F) → (⟨S1x16384, .f32⟩ : BufTy).Contents (Elt F) → (⟨S1x16384, .f32⟩ : BufTy).Contents (Elt F)),
    unary main_v155 main_v156 (broadcastInDim S256x16384 ![0, 1] bcast_S1x16384_S256x16384_0_1 : (⟨S1x16384, .f32⟩ : BufTy).Contents (Elt F) → (⟨S256x16384, .f32⟩ : BufTy).Contents (Elt F)),
    binary main_v151 main_v156 main_v157 (Host.divf : (⟨S256x16384, .f32⟩ : BufTy).Contents (Elt F) → (⟨S256x16384, .f32⟩ : BufTy).Contents (Elt F) → (⟨S256x16384, .f32⟩ : BufTy).Contents (Elt F)),
    nullary main_cst_41 (constant S_ .f32 0x00000000#32),
    binary main_v157 main_cst_41 main_v158 ((fun x v => Host.reduceAdd x v reducesTo_S256x16384_S256_d1 h_S_) : (⟨S256x16384, .f32⟩ : BufTy).Contents (Elt F) → (⟨S_, .f32⟩ : BufTy).Contents (Elt F) → (⟨S256, .f32⟩ : BufTy).Contents (Elt F)),
    unary main_v158 main_v159 (broadcastInDim S256x1 ![0] bcast_S256_S256x1_0 : (⟨S256, .f32⟩ : BufTy).Contents (Elt F) → (⟨S256x1, .f32⟩ : BufTy).Contents (Elt F)),
    nullary main_cst_42 (constant S_ .f32 0x43800000#32),
    unary main_cst_42 main_v160 (broadcastInDim S256x1 ![] bcast_S_S256x1 : (⟨S_, .f32⟩ : BufTy).Contents (Elt F) → (⟨S256x1, .f32⟩ : BufTy).Contents (Elt F)),
    binary main_v159 main_v160 main_v161 (mulf : (⟨S256x1, .f32⟩ : BufTy).Contents (Elt F) → (⟨S256x1, .f32⟩ : BufTy).Contents (Elt F) → (⟨S256x1, .f32⟩ : BufTy).Contents (Elt F)),
    unary main_v161 main_v162 (broadcastInDim S256x16384 ![0, 1] bcast_S256x1_S256x16384_0_1 : (⟨S256x1, .f32⟩ : BufTy).Contents (Elt F) → (⟨S256x16384, .f32⟩ : BufTy).Contents (Elt F)),
    binary main_v157 main_v162 main_v163 (Host.divf : (⟨S256x16384, .f32⟩ : BufTy).Contents (Elt F) → (⟨S256x16384, .f32⟩ : BufTy).Contents (Elt F) → (⟨S256x16384, .f32⟩ : BufTy).Contents (Elt F)),
    nullary main_cst_43 (constant S_ .f32 0x00000000#32),
    binary main_v163 main_cst_43 main_v164 ((fun x v => Host.reduceAdd x v reducesTo_S256x16384_S16384_d0 h_S_) : (⟨S256x16384, .f32⟩ : BufTy).Contents (Elt F) → (⟨S_, .f32⟩ : BufTy).Contents (Elt F) → (⟨S16384, .f32⟩ : BufTy).Contents (Elt F)),
    unary main_v164 main_v165 (broadcastInDim S1x16384 ![1] bcast_S16384_S1x16384_1 : (⟨S16384, .f32⟩ : BufTy).Contents (Elt F) → (⟨S1x16384, .f32⟩ : BufTy).Contents (Elt F)),
    nullary main_cst_44 (constant S_ .f32 0x46800000#32),
    unary main_cst_44 main_v166 (broadcastInDim S1x16384 ![] bcast_S_S1x16384 : (⟨S_, .f32⟩ : BufTy).Contents (Elt F) → (⟨S1x16384, .f32⟩ : BufTy).Contents (Elt F)),
    binary main_v165 main_v166 main_v167 (mulf : (⟨S1x16384, .f32⟩ : BufTy).Contents (Elt F) → (⟨S1x16384, .f32⟩ : BufTy).Contents (Elt F) → (⟨S1x16384, .f32⟩ : BufTy).Contents (Elt F)),
    unary main_v167 main_v168 (broadcastInDim S256x16384 ![0, 1] bcast_S1x16384_S256x16384_0_1 : (⟨S1x16384, .f32⟩ : BufTy).Contents (Elt F) → (⟨S256x16384, .f32⟩ : BufTy).Contents (Elt F)),
    binary main_v163 main_v168 main_v169 (Host.divf : (⟨S256x16384, .f32⟩ : BufTy).Contents (Elt F) → (⟨S256x16384, .f32⟩ : BufTy).Contents (Elt F) → (⟨S256x16384, .f32⟩ : BufTy).Contents (Elt F)),
    nullary main_cst_45 (constant S_ .f32 0x00000000#32),
    binary main_v169 main_cst_45 main_v170 ((fun x v => Host.reduceAdd x v reducesTo_S256x16384_S256_d1 h_S_) : (⟨S256x16384, .f32⟩ : BufTy).Contents (Elt F) → (⟨S_, .f32⟩ : BufTy).Contents (Elt F) → (⟨S256, .f32⟩ : BufTy).Contents (Elt F)),
    unary main_v170 main_v171 (broadcastInDim S256x1 ![0] bcast_S256_S256x1_0 : (⟨S256, .f32⟩ : BufTy).Contents (Elt F) → (⟨S256x1, .f32⟩ : BufTy).Contents (Elt F)),
    nullary main_cst_46 (constant S_ .f32 0x43800000#32),
    unary main_cst_46 main_v172 (broadcastInDim S256x1 ![] bcast_S_S256x1 : (⟨S_, .f32⟩ : BufTy).Contents (Elt F) → (⟨S256x1, .f32⟩ : BufTy).Contents (Elt F)),
    binary main_v171 main_v172 main_v173 (mulf : (⟨S256x1, .f32⟩ : BufTy).Contents (Elt F) → (⟨S256x1, .f32⟩ : BufTy).Contents (Elt F) → (⟨S256x1, .f32⟩ : BufTy).Contents (Elt F)),
    unary main_v173 main_v174 (broadcastInDim S256x16384 ![0, 1] bcast_S256x1_S256x16384_0_1 : (⟨S256x1, .f32⟩ : BufTy).Contents (Elt F) → (⟨S256x16384, .f32⟩ : BufTy).Contents (Elt F)),
    binary main_v169 main_v174 main_v175 (Host.divf : (⟨S256x16384, .f32⟩ : BufTy).Contents (Elt F) → (⟨S256x16384, .f32⟩ : BufTy).Contents (Elt F) → (⟨S256x16384, .f32⟩ : BufTy).Contents (Elt F)),
    nullary main_cst_47 (constant S_ .f32 0x00000000#32),
    binary main_v175 main_cst_47 main_v176 ((fun x v => Host.reduceAdd x v reducesTo_S256x16384_S16384_d0 h_S_) : (⟨S256x16384, .f32⟩ : BufTy).Contents (Elt F) → (⟨S_, .f32⟩ : BufTy).Contents (Elt F) → (⟨S16384, .f32⟩ : BufTy).Contents (Elt F)),
    unary main_v176 main_v177 (broadcastInDim S1x16384 ![1] bcast_S16384_S1x16384_1 : (⟨S16384, .f32⟩ : BufTy).Contents (Elt F) → (⟨S1x16384, .f32⟩ : BufTy).Contents (Elt F)),
    nullary main_cst_48 (constant S_ .f32 0x46800000#32),
    unary main_cst_48 main_v178 (broadcastInDim S1x16384 ![] bcast_S_S1x16384 : (⟨S_, .f32⟩ : BufTy).Contents (Elt F) → (⟨S1x16384, .f32⟩ : BufTy).Contents (Elt F)),
    binary main_v177 main_v178 main_v179 (mulf : (⟨S1x16384, .f32⟩ : BufTy).Contents (Elt F) → (⟨S1x16384, .f32⟩ : BufTy).Contents (Elt F) → (⟨S1x16384, .f32⟩ : BufTy).Contents (Elt F)),
    unary main_v179 main_v180 (broadcastInDim S256x16384 ![0, 1] bcast_S1x16384_S256x16384_0_1 : (⟨S1x16384, .f32⟩ : BufTy).Contents (Elt F) → (⟨S256x16384, .f32⟩ : BufTy).Contents (Elt F)),
    binary main_v175 main_v180 main_v181 (Host.divf : (⟨S256x16384, .f32⟩ : BufTy).Contents (Elt F) → (⟨S256x16384, .f32⟩ : BufTy).Contents (Elt F) → (⟨S256x16384, .f32⟩ : BufTy).Contents (Elt F)),
    nullary main_cst_49 (constant S_ .f32 0x46800000#32),
    unary main_cst_49 main_v182 (broadcastInDim S256x16384 ![] bcast_S_S256x16384 : (⟨S_, .f32⟩ : BufTy).Contents (Elt F) → (⟨S256x16384, .f32⟩ : BufTy).Contents (Elt F)),
    binary main_v181 main_v182 main_v183 (mulf : (⟨S256x16384, .f32⟩ : BufTy).Contents (Elt F) → (⟨S256x16384, .f32⟩ : BufTy).Contents (Elt F) → (⟨S256x16384, .f32⟩ : BufTy).Contents (Elt F)),
    unary main_v183 main_v184 ((transpose S16384x256 [1, 0] · transposes_S256x16384_S16384x256_1_0) : (⟨S256x16384, .f32⟩ : BufTy).Contents (Elt F) → (⟨S16384x256, .f32⟩ : BufTy).Contents (Elt F)) ]

set_option maxRecDepth 8192 in
theorem ops10_sub : (ops10 : List (HloOp τ sig (Elt F))).Forall fun op => op.bufs ⊆ tcRefs τ sig :=
  ⟨unary_bufs_sub .., nullary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub ..⟩

set_option maxRecDepth 8192 in
theorem ops10_fresh : (ops10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev ops10_W : List (Ref sig .tc) := [main_v142, main_cst_36, main_v143, main_v144, main_v145, main_cst_37, main_v146, main_v147, main_cst_38, main_v148, main_v149, main_v150, main_v151, main_cst_39, main_v152, main_v153, main_cst_40, main_v154, main_v155, main_v156, main_v157, main_cst_41, main_v158, main_v159, main_cst_42, main_v160, main_v161, main_v162, main_v163, main_cst_43, main_v164, main_v165, main_cst_44, main_v166, main_v167, main_v168, main_v169, main_cst_45, main_v170, main_v171, main_cst_46, main_v172, main_v173, main_v174, main_v175, main_cst_47, main_v176, main_v177, main_cst_48, main_v178, main_v179, main_v180, main_v181, main_cst_49, main_v182, main_v183, main_v184]

set_option maxRecDepth 8192 in
theorem ops10_writes : (ops10 : List (HloOp τ sig (Elt F))).Forall fun op => op.writes ⊆ (ops10_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

abbrev ops11 : List (HloOp τ sig (Elt F)) :=
  [ nullary main_cst_50 (constant S_ .f32 0x3D4CCCCD#32),
    unary main_cst_50 main_v185 (broadcastInDim S16384x256 ![] bcast_S_S16384x256 : (⟨S_, .f32⟩ : BufTy).Contents (Elt F) → (⟨S16384x256, .f32⟩ : BufTy).Contents (Elt F)),
    binary main_v88 main_v185 main_v186 (Host.divf : (⟨S16384x256, .f32⟩ : BufTy).Contents (Elt F) → (⟨S16384x256, .f32⟩ : BufTy).Contents (Elt F) → (⟨S16384x256, .f32⟩ : BufTy).Contents (Elt F)) ]

set_option maxRecDepth 8192 in
theorem ops11_sub : (ops11 : List (HloOp τ sig (Elt F))).Forall fun op => op.bufs ⊆ tcRefs τ sig :=
  ⟨nullary_bufs_sub .., unary_bufs_sub .., binary_bufs_sub ..⟩

set_option maxRecDepth 8192 in
theorem ops11_fresh : (ops11 : List (HloOp τ sig (Elt F))).Forall fun op => op.fresh = ∅ :=
  ⟨rfl, rfl, rfl⟩

abbrev ops11_W : List (Ref sig .tc) := [main_cst_50, main_v185, main_v186]

set_option maxRecDepth 8192 in
theorem ops11_writes : (ops11 : List (HloOp τ sig (Elt F))).Forall fun op => op.writes ⊆ (ops11_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

end Cert.ReferenceIdeal.Hand

end
-- ==== Proof.Ref.OpsE.lean ====
import proofs.«402369_j86406152061536_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops12 : List (HloOp τ sig (Elt F)) :=
  [ unary main_v186 main_v187 (Host.exp : (⟨S16384x256, .f32⟩ : BufTy).Contents (Elt F) → (⟨S16384x256, .f32⟩ : BufTy).Contents (Elt F)),
    unary main_v187 main_v188 ((transpose S256x16384 [1, 0] · transposes_S16384x256_S256x16384_1_0) : (⟨S16384x256, .f32⟩ : BufTy).Contents (Elt F) → (⟨S256x16384, .f32⟩ : BufTy).Contents (Elt F)),
    nullary main_cst_51 (constant S_ .f32 0x00000000#32),
    binary main_v188 main_cst_51 main_v189 ((fun x v => Host.reduceAdd x v reducesTo_S256x16384_S_d0_1 h_S_) : (⟨S256x16384, .f32⟩ : BufTy).Contents (Elt F) → (⟨S_, .f32⟩ : BufTy).Contents (Elt F) → (⟨S_, .f32⟩ : BufTy).Contents (Elt F)),
    unary main_v189 main_v190 (broadcastInDim S256x16384 ![] bcast_S_S256x16384 : (⟨S_, .f32⟩ : BufTy).Contents (Elt F) → (⟨S256x16384, .f32⟩ : BufTy).Contents (Elt F)),
    binary main_v188 main_v190 main_v191 (Host.divf : (⟨S256x16384, .f32⟩ : BufTy).Contents (Elt F) → (⟨S256x16384, .f32⟩ : BufTy).Contents (Elt F) → (⟨S256x16384, .f32⟩ : BufTy).Contents (Elt F)),
    nullary main_cst_52 (constant S_ .f32 0x00000000#32),
    binary main_v191 main_cst_52 main_v192 ((fun x v => Host.reduceAdd x v reducesTo_S256x16384_S256_d1 h_S_) : (⟨S256x16384, .f32⟩ : BufTy).Contents (Elt F) → (⟨S_, .f32⟩ : BufTy).Contents (Elt F) → (⟨S256, .f32⟩ : BufTy).Contents (Elt F)),
    unary main_v192 main_v193 (broadcastInDim S256x1 ![0] bcast_S256_S256x1_0 : (⟨S256, .f32⟩ : BufTy).Contents (Elt F) → (⟨S256x1, .f32⟩ : BufTy).Contents (Elt F)),
    nullary main_cst_53 (constant S_ .f32 0x43800000#32),
    unary main_cst_53 main_v194 (broadcastInDim S256x1 ![] bcast_S_S256x1 : (⟨S_, .f32⟩ : BufTy).Contents (Elt F) → (⟨S256x1, .f32⟩ : BufTy).Contents (Elt F)),
    binary main_v193 main_v194 main_v195 (mulf : (⟨S256x1, .f32⟩ : BufTy).Contents (Elt F) → (⟨S256x1, .f32⟩ : BufTy).Contents (Elt F) → (⟨S256x1, .f32⟩ : BufTy).Contents (Elt F)),
    unary main_v195 main_v196 (broadcastInDim S256x16384 ![0, 1] bcast_S256x1_S256x16384_0_1 : (⟨S256x1, .f32⟩ : BufTy).Contents (Elt F) → (⟨S256x16384, .f32⟩ : BufTy).Contents (Elt F)),
    binary main_v191 main_v196 main_v197 (Host.divf : (⟨S256x16384, .f32⟩ : BufTy).Contents (Elt F) → (⟨S256x16384, .f32⟩ : BufTy).Contents (Elt F) → (⟨S256x16384, .f32⟩ : BufTy).Contents (Elt F)),
    nullary main_cst_54 (constant S_ .f32 0x00000000#32),
    binary main_v197 main_cst_54 main_v198 ((fun x v => Host.reduceAdd x v reducesTo_S256x16384_S16384_d0 h_S_) : (⟨S256x16384, .f32⟩ : BufTy).Contents (Elt F) → (⟨S_, .f32⟩ : BufTy).Contents (Elt F) → (⟨S16384, .f32⟩ : BufTy).Contents (Elt F)),
    unary main_v198 main_v199 (broadcastInDim S1x16384 ![1] bcast_S16384_S1x16384_1 : (⟨S16384, .f32⟩ : BufTy).Contents (Elt F) → (⟨S1x16384, .f32⟩ : BufTy).Contents (Elt F)),
    nullary main_cst_55 (constant S_ .f32 0x46800000#32),
    unary main_cst_55 main_v200 (broadcastInDim S1x16384 ![] bcast_S_S1x16384 : (⟨S_, .f32⟩ : BufTy).Contents (Elt F) → (⟨S1x16384, .f32⟩ : BufTy).Contents (Elt F)),
    binary main_v199 main_v200 main_v201 (mulf : (⟨S1x16384, .f32⟩ : BufTy).Contents (Elt F) → (⟨S1x16384, .f32⟩ : BufTy).Contents (Elt F) → (⟨S1x16384, .f32⟩ : BufTy).Contents (Elt F)),
    unary main_v201 main_v202 (broadcastInDim S256x16384 ![0, 1] bcast_S1x16384_S256x16384_0_1 : (⟨S1x16384, .f32⟩ : BufTy).Contents (Elt F) → (⟨S256x16384, .f32⟩ : BufTy).Contents (Elt F)),
    binary main_v197 main_v202 main_v203 (Host.divf : (⟨S256x16384, .f32⟩ : BufTy).Contents (Elt F) → (⟨S256x16384, .f32⟩ : BufTy).Contents (Elt F) → (⟨S256x16384, .f32⟩ : BufTy).Contents (Elt F)),
    nullary main_cst_56 (constant S_ .f32 0x00000000#32),
    binary main_v203 main_cst_56 main_v204 ((fun x v => Host.reduceAdd x v reducesTo_S256x16384_S256_d1 h_S_) : (⟨S256x16384, .f32⟩ : BufTy).Contents (Elt F) → (⟨S_, .f32⟩ : BufTy).Contents (Elt F) → (⟨S256, .f32⟩ : BufTy).Contents (Elt F)),
    unary main_v204 main_v205 (broadcastInDim S256x1 ![0] bcast_S256_S256x1_0 : (⟨S256, .f32⟩ : BufTy).Contents (Elt F) → (⟨S256x1, .f32⟩ : BufTy).Contents (Elt F)),
    nullary main_cst_57 (constant S_ .f32 0x43800000#32),
    unary main_cst_57 main_v206 (broadcastInDim S256x1 ![] bcast_S_S256x1 : (⟨S_, .f32⟩ : BufTy).Contents (Elt F) → (⟨S256x1, .f32⟩ : BufTy).Contents (Elt F)),
    binary main_v205 main_v206 main_v207 (mulf : (⟨S256x1, .f32⟩ : BufTy).Contents (Elt F) → (⟨S256x1, .f32⟩ : BufTy).Contents (Elt F) → (⟨S256x1, .f32⟩ : BufTy).Contents (Elt F)),
    unary main_v207 main_v208 (broadcastInDim S256x16384 ![0, 1] bcast_S256x1_S256x16384_0_1 : (⟨S256x1, .f32⟩ : BufTy).Contents (Elt F) → (⟨S256x16384, .f32⟩ : BufTy).Contents (Elt F)),
    binary main_v203 main_v208 main_v209 (Host.divf : (⟨S256x16384, .f32⟩ : BufTy).Contents (Elt F) → (⟨S256x16384, .f32⟩ : BufTy).Contents (Elt F) → (⟨S256x16384, .f32⟩ : BufTy).Contents (Elt F)),
    nullary main_cst_58 (constant S_ .f32 0x00000000#32),
    binary main_v209 main_cst_58 main_v210 ((fun x v => Host.reduceAdd x v reducesTo_S256x16384_S16384_d0 h_S_) : (⟨S256x16384, .f32⟩ : BufTy).Contents (Elt F) → (⟨S_, .f32⟩ : BufTy).Contents (Elt F) → (⟨S16384, .f32⟩ : BufTy).Contents (Elt F)),
    unary main_v210 main_v211 (broadcastInDim S1x16384 ![1] bcast_S16384_S1x16384_1 : (⟨S16384, .f32⟩ : BufTy).Contents (Elt F) → (⟨S1x16384, .f32⟩ : BufTy).Contents (Elt F)),
    nullary main_cst_59 (constant S_ .f32 0x46800000#32),
    unary main_cst_59 main_v212 (broadcastInDim S1x16384 ![] bcast_S_S1x16384 : (⟨S_, .f32⟩ : BufTy).Contents (Elt F) → (⟨S1x16384, .f32⟩ : BufTy).Contents (Elt F)),
    binary main_v211 main_v212 main_v213 (mulf : (⟨S1x16384, .f32⟩ : BufTy).Contents (Elt F) → (⟨S1x16384, .f32⟩ : BufTy).Contents (Elt F) → (⟨S1x16384, .f32⟩ : BufTy).Contents (Elt F)),
    unary main_v213 main_v214 (broadcastInDim S256x16384 ![0, 1] bcast_S1x16384_S256x16384_0_1 : (⟨S1x16384, .f32⟩ : BufTy).Contents (Elt F) → (⟨S256x16384, .f32⟩ : BufTy).Contents (Elt F)),
    binary main_v209 main_v214 main_v215 (Host.divf : (⟨S256x16384, .f32⟩ : BufTy).Contents (Elt F) → (⟨S256x16384, .f32⟩ : BufTy).Contents (Elt F) → (⟨S256x16384, .f32⟩ : BufTy).Contents (Elt F)),
    nullary main_cst_60 (constant S_ .f32 0x00000000#32),
    binary main_v215 main_cst_60 main_v216 ((fun x v => Host.reduceAdd x v reducesTo_S256x16384_S256_d1 h_S_) : (⟨S256x16384, .f32⟩ : BufTy).Contents (Elt F) → (⟨S_, .f32⟩ : BufTy).Contents (Elt F) → (⟨S256, .f32⟩ : BufTy).Contents (Elt F)),
    unary main_v216 main_v217 (broadcastInDim S256x1 ![0] bcast_S256_S256x1_0 : (⟨S256, .f32⟩ : BufTy).Contents (Elt F) → (⟨S256x1, .f32⟩ : BufTy).Contents (Elt F)),
    nullary main_cst_61 (constant S_ .f32 0x43800000#32),
    unary main_cst_61 main_v218 (broadcastInDim S256x1 ![] bcast_S_S256x1 : (⟨S_, .f32⟩ : BufTy).Contents (Elt F) → (⟨S256x1, .f32⟩ : BufTy).Contents (Elt F)),
    binary main_v217 main_v218 main_v219 (mulf : (⟨S256x1, .f32⟩ : BufTy).Contents (Elt F) → (⟨S256x1, .f32⟩ : BufTy).Contents (Elt F) → (⟨S256x1, .f32⟩ : BufTy).Contents (Elt F)),
    unary main_v219 main_v220 (broadcastInDim S256x16384 ![0, 1] bcast_S256x1_S256x16384_0_1 : (⟨S256x1, .f32⟩ : BufTy).Contents (Elt F) → (⟨S256x16384, .f32⟩ : BufTy).Contents (Elt F)),
    binary main_v215 main_v220 main_v221 (Host.divf : (⟨S256x16384, .f32⟩ : BufTy).Contents (Elt F) → (⟨S256x16384, .f32⟩ : BufTy).Contents (Elt F) → (⟨S256x16384, .f32⟩ : BufTy).Contents (Elt F)),
    nullary main_cst_62 (constant S_ .f32 0x00000000#32),
    binary main_v221 main_cst_62 main_v222 ((fun x v => Host.reduceAdd x v reducesTo_S256x16384_S16384_d0 h_S_) : (⟨S256x16384, .f32⟩ : BufTy).Contents (Elt F) → (⟨S_, .f32⟩ : BufTy).Contents (Elt F) → (⟨S16384, .f32⟩ : BufTy).Contents (Elt F)),
    unary main_v222 main_v223 (broadcastInDim S1x16384 ![1] bcast_S16384_S1x16384_1 : (⟨S16384, .f32⟩ : BufTy).Contents (Elt F) → (⟨S1x16384, .f32⟩ : BufTy).Contents (Elt F)),
    nullary main_cst_63 (constant S_ .f32 0x46800000#32),
    unary main_cst_63 main_v224 (broadcastInDim S1x16384 ![] bcast_S_S1x16384 : (⟨S_, .f32⟩ : BufTy).Contents (Elt F) → (⟨S1x16384, .f32⟩ : BufTy).Contents (Elt F)),
    binary main_v223 main_v224 main_v225 (mulf : (⟨S1x16384, .f32⟩ : BufTy).Contents (Elt F) → (⟨S1x16384, .f32⟩ : BufTy).Contents (Elt F) → (⟨S1x16384, .f32⟩ : BufTy).Contents (Elt F)),
    unary main_v225 main_v226 (broadcastInDim S256x16384 ![0, 1] bcast_S1x16384_S256x16384_0_1 : (⟨S1x16384, .f32⟩ : BufTy).Contents (Elt F) → (⟨S256x16384, .f32⟩ : BufTy).Contents (Elt F)),
    binary main_v221 main_v226 main_v227 (Host.divf : (⟨S256x16384, .f32⟩ : BufTy).Contents (Elt F) → (⟨S256x16384, .f32⟩ : BufTy).Contents (Elt F) → (⟨S256x16384, .f32⟩ : BufTy).Contents (Elt F)),
    nullary main_cst_64 (constant S_ .f32 0x46800000#32),
    unary main_cst_64 main_v228 (broadcastInDim S256x16384 ![] bcast_S_S256x16384 : (⟨S_, .f32⟩ : BufTy).Contents (Elt F) → (⟨S256x16384, .f32⟩ : BufTy).Contents (Elt F)),
    binary main_v227 main_v228 main_v229 (mulf : (⟨S256x16384, .f32⟩ : BufTy).Contents (Elt F) → (⟨S256x16384, .f32⟩ : BufTy).Contents (Elt F) → (⟨S256x16384, .f32⟩ : BufTy).Contents (Elt F)),
    unary main_v229 main_v230 ((transpose S16384x256 [1, 0] · transposes_S256x16384_S16384x256_1_0) : (⟨S256x16384, .f32⟩ : BufTy).Contents (Elt F) → (⟨S16384x256, .f32⟩ : BufTy).Contents (Elt F)) ]

set_option maxRecDepth 8192 in
theorem ops12_sub : (ops12 : List (HloOp τ sig (Elt F))).Forall fun op => op.bufs ⊆ tcRefs τ sig :=
  ⟨unary_bufs_sub .., unary_bufs_sub .., nullary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub ..⟩

set_option maxRecDepth 8192 in
theorem ops12_fresh : (ops12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev ops12_W : List (Ref sig .tc) := [main_v187, main_v188, main_cst_51, main_v189, main_v190, main_v191, main_cst_52, main_v192, main_v193, main_cst_53, main_v194, main_v195, main_v196, main_v197, main_cst_54, main_v198, main_v199, main_cst_55, main_v200, main_v201, main_v202, main_v203, main_cst_56, main_v204, main_v205, main_cst_57, main_v206, main_v207, main_v208, main_v209, main_cst_58, main_v210, main_v211, main_cst_59, main_v212, main_v213, main_v214, main_v215, main_cst_60, main_v216, main_v217, main_cst_61, main_v218, main_v219, main_v220, main_v221, main_cst_62, main_v222, main_v223, main_cst_63, main_v224, main_v225, main_v226, main_v227, main_cst_64, main_v228, main_v229, main_v230]

set_option maxRecDepth 8192 in
theorem ops12_writes : (ops12 : List (HloOp τ sig (Elt F))).Forall fun op => op.writes ⊆ (ops12_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

abbrev ops13 : List (HloOp τ sig (Elt F)) :=
  [ nullary main_cst_65 (constant S_ .f32 0x3D4CCCCD#32),
    unary main_cst_65 main_v231 (broadcastInDim S16384x256 ![] bcast_S_S16384x256 : (⟨S_, .f32⟩ : BufTy).Contents (Elt F) → (⟨S16384x256, .f32⟩ : BufTy).Contents (Elt F)) ]

set_option maxRecDepth 8192 in
theorem ops13_sub : (ops13 : List (HloOp τ sig (Elt F))).Forall fun op => op.bufs ⊆ tcRefs τ sig :=
  ⟨nullary_bufs_sub .., unary_bufs_sub ..⟩

set_option maxRecDepth 8192 in
theorem ops13_fresh : (ops13 : List (HloOp τ sig (Elt F))).Forall fun op => op.fresh = ∅ :=
  ⟨rfl, rfl⟩

abbrev ops13_W : List (Ref sig .tc) := [main_cst_65, main_v231]

set_option maxRecDepth 8192 in
theorem ops13_writes : (ops13 : List (HloOp τ sig (Elt F))).Forall fun op => op.writes ⊆ (ops13_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

end Cert.ReferenceIdeal.Hand

end
-- ==== Proof.Ref.OpsF.lean ====
import proofs.«402369_j86406152061536_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops14 : List (HloOp τ sig (Elt F)) :=
  [ binary main_v90 main_v231 main_v232 (Host.divf : (⟨S16384x256, .f32⟩ : BufTy).Contents (Elt F) → (⟨S16384x256, .f32⟩ : BufTy).Contents (Elt F) → (⟨S16384x256, .f32⟩ : BufTy).Contents (Elt F)),
    unary main_v232 main_v233 (Host.exp : (⟨S16384x256, .f32⟩ : BufTy).Contents (Elt F) → (⟨S16384x256, .f32⟩ : BufTy).Contents (Elt F)),
    unary main_v233 main_v234 ((transpose S256x16384 [1, 0] · transposes_S16384x256_S256x16384_1_0) : (⟨S16384x256, .f32⟩ : BufTy).Contents (Elt F) → (⟨S256x16384, .f32⟩ : BufTy).Contents (Elt F)),
    nullary main_cst_66 (constant S_ .f32 0x00000000#32),
    binary main_v234 main_cst_66 main_v235 ((fun x v => Host.reduceAdd x v reducesTo_S256x16384_S_d0_1 h_S_) : (⟨S256x16384, .f32⟩ : BufTy).Contents (Elt F) → (⟨S_, .f32⟩ : BufTy).Contents (Elt F) → (⟨S_, .f32⟩ : BufTy).Contents (Elt F)),
    unary main_v235 main_v236 (broadcastInDim S256x16384 ![] bcast_S_S256x16384 : (⟨S_, .f32⟩ : BufTy).Contents (Elt F) → (⟨S256x16384, .f32⟩ : BufTy).Contents (Elt F)),
    binary main_v234 main_v236 main_v237 (Host.divf : (⟨S256x16384, .f32⟩ : BufTy).Contents (Elt F) → (⟨S256x16384, .f32⟩ : BufTy).Contents (Elt F) → (⟨S256x16384, .f32⟩ : BufTy).Contents (Elt F)),
    nullary main_cst_67 (constant S_ .f32 0x00000000#32),
    binary main_v237 main_cst_67 main_v238 ((fun x v => Host.reduceAdd x v reducesTo_S256x16384_S256_d1 h_S_) : (⟨S256x16384, .f32⟩ : BufTy).Contents (Elt F) → (⟨S_, .f32⟩ : BufTy).Contents (Elt F) → (⟨S256, .f32⟩ : BufTy).Contents (Elt F)),
    unary main_v238 main_v239 (broadcastInDim S256x1 ![0] bcast_S256_S256x1_0 : (⟨S256, .f32⟩ : BufTy).Contents (Elt F) → (⟨S256x1, .f32⟩ : BufTy).Contents (Elt F)),
    nullary main_cst_68 (constant S_ .f32 0x43800000#32),
    unary main_cst_68 main_v240 (broadcastInDim S256x1 ![] bcast_S_S256x1 : (⟨S_, .f32⟩ : BufTy).Contents (Elt F) → (⟨S256x1, .f32⟩ : BufTy).Contents (Elt F)),
    binary main_v239 main_v240 main_v241 (mulf : (⟨S256x1, .f32⟩ : BufTy).Contents (Elt F) → (⟨S256x1, .f32⟩ : BufTy).Contents (Elt F) → (⟨S256x1, .f32⟩ : BufTy).Contents (Elt F)),
    unary main_v241 main_v242 (broadcastInDim S256x16384 ![0, 1] bcast_S256x1_S256x16384_0_1 : (⟨S256x1, .f32⟩ : BufTy).Contents (Elt F) → (⟨S256x16384, .f32⟩ : BufTy).Contents (Elt F)),
    binary main_v237 main_v242 main_v243 (Host.divf : (⟨S256x16384, .f32⟩ : BufTy).Contents (Elt F) → (⟨S256x16384, .f32⟩ : BufTy).Contents (Elt F) → (⟨S256x16384, .f32⟩ : BufTy).Contents (Elt F)),
    nullary main_cst_69 (constant S_ .f32 0x00000000#32),
    binary main_v243 main_cst_69 main_v244 ((fun x v => Host.reduceAdd x v reducesTo_S256x16384_S16384_d0 h_S_) : (⟨S256x16384, .f32⟩ : BufTy).Contents (Elt F) → (⟨S_, .f32⟩ : BufTy).Contents (Elt F) → (⟨S16384, .f32⟩ : BufTy).Contents (Elt F)),
    unary main_v244 main_v245 (broadcastInDim S1x16384 ![1] bcast_S16384_S1x16384_1 : (⟨S16384, .f32⟩ : BufTy).Contents (Elt F) → (⟨S1x16384, .f32⟩ : BufTy).Contents (Elt F)),
    nullary main_cst_70 (constant S_ .f32 0x46800000#32),
    unary main_cst_70 main_v246 (broadcastInDim S1x16384 ![] bcast_S_S1x16384 : (⟨S_, .f32⟩ : BufTy).Contents (Elt F) → (⟨S1x16384, .f32⟩ : BufTy).Contents (Elt F)),
    binary main_v245 main_v246 main_v247 (mulf : (⟨S1x16384, .f32⟩ : BufTy).Contents (Elt F) → (⟨S1x16384, .f32⟩ : BufTy).Contents (Elt F) → (⟨S1x16384, .f32⟩ : BufTy).Contents (Elt F)),
    unary main_v247 main_v248 (broadcastInDim S256x16384 ![0, 1] bcast_S1x16384_S256x16384_0_1 : (⟨S1x16384, .f32⟩ : BufTy).Contents (Elt F) → (⟨S256x16384, .f32⟩ : BufTy).Contents (Elt F)),
    binary main_v243 main_v248 main_v249 (Host.divf : (⟨S256x16384, .f32⟩ : BufTy).Contents (Elt F) → (⟨S256x16384, .f32⟩ : BufTy).Contents (Elt F) → (⟨S256x16384, .f32⟩ : BufTy).Contents (Elt F)),
    nullary main_cst_71 (constant S_ .f32 0x00000000#32),
    binary main_v249 main_cst_71 main_v250 ((fun x v => Host.reduceAdd x v reducesTo_S256x16384_S256_d1 h_S_) : (⟨S256x16384, .f32⟩ : BufTy).Contents (Elt F) → (⟨S_, .f32⟩ : BufTy).Contents (Elt F) → (⟨S256, .f32⟩ : BufTy).Contents (Elt F)),
    unary main_v250 main_v251 (broadcastInDim S256x1 ![0] bcast_S256_S256x1_0 : (⟨S256, .f32⟩ : BufTy).Contents (Elt F) → (⟨S256x1, .f32⟩ : BufTy).Contents (Elt F)),
    nullary main_cst_72 (constant S_ .f32 0x43800000#32),
    unary main_cst_72 main_v252 (broadcastInDim S256x1 ![] bcast_S_S256x1 : (⟨S_, .f32⟩ : BufTy).Contents (Elt F) → (⟨S256x1, .f32⟩ : BufTy).Contents (Elt F)),
    binary main_v251 main_v252 main_v253 (mulf : (⟨S256x1, .f32⟩ : BufTy).Contents (Elt F) → (⟨S256x1, .f32⟩ : BufTy).Contents (Elt F) → (⟨S256x1, .f32⟩ : BufTy).Contents (Elt F)),
    unary main_v253 main_v254 (broadcastInDim S256x16384 ![0, 1] bcast_S256x1_S256x16384_0_1 : (⟨S256x1, .f32⟩ : BufTy).Contents (Elt F) → (⟨S256x16384, .f32⟩ : BufTy).Contents (Elt F)),
    binary main_v249 main_v254 main_v255 (Host.divf : (⟨S256x16384, .f32⟩ : BufTy).Contents (Elt F) → (⟨S256x16384, .f32⟩ : BufTy).Contents (Elt F) → (⟨S256x16384, .f32⟩ : BufTy).Contents (Elt F)),
    nullary main_cst_73 (constant S_ .f32 0x00000000#32),
    binary main_v255 main_cst_73 main_v256 ((fun x v => Host.reduceAdd x v reducesTo_S256x16384_S16384_d0 h_S_) : (⟨S256x16384, .f32⟩ : BufTy).Contents (Elt F) → (⟨S_, .f32⟩ : BufTy).Contents (Elt F) → (⟨S16384, .f32⟩ : BufTy).Contents (Elt F)),
    unary main_v256 main_v257 (broadcastInDim S1x16384 ![1] bcast_S16384_S1x16384_1 : (⟨S16384, .f32⟩ : BufTy).Contents (Elt F) → (⟨S1x16384, .f32⟩ : BufTy).Contents (Elt F)),
    nullary main_cst_74 (constant S_ .f32 0x46800000#32),
    unary main_cst_74 main_v258 (broadcastInDim S1x16384 ![] bcast_S_S1x16384 : (⟨S_, .f32⟩ : BufTy).Contents (Elt F) → (⟨S1x16384, .f32⟩ : BufTy).Contents (Elt F)),
    binary main_v257 main_v258 main_v259 (mulf : (⟨S1x16384, .f32⟩ : BufTy).Contents (Elt F) → (⟨S1x16384, .f32⟩ : BufTy).Contents (Elt F) → (⟨S1x16384, .f32⟩ : BufTy).Contents (Elt F)),
    unary main_v259 main_v260 (broadcastInDim S256x16384 ![0, 1] bcast_S1x16384_S256x16384_0_1 : (⟨S1x16384, .f32⟩ : BufTy).Contents (Elt F) → (⟨S256x16384, .f32⟩ : BufTy).Contents (Elt F)),
    binary main_v255 main_v260 main_v261 (Host.divf : (⟨S256x16384, .f32⟩ : BufTy).Contents (Elt F) → (⟨S256x16384, .f32⟩ : BufTy).Contents (Elt F) → (⟨S256x16384, .f32⟩ : BufTy).Contents (Elt F)),
    nullary main_cst_75 (constant S_ .f32 0x00000000#32),
    binary main_v261 main_cst_75 main_v262 ((fun x v => Host.reduceAdd x v reducesTo_S256x16384_S256_d1 h_S_) : (⟨S256x16384, .f32⟩ : BufTy).Contents (Elt F) → (⟨S_, .f32⟩ : BufTy).Contents (Elt F) → (⟨S256, .f32⟩ : BufTy).Contents (Elt F)),
    unary main_v262 main_v263 (broadcastInDim S256x1 ![0] bcast_S256_S256x1_0 : (⟨S256, .f32⟩ : BufTy).Contents (Elt F) → (⟨S256x1, .f32⟩ : BufTy).Contents (Elt F)),
    nullary main_cst_76 (constant S_ .f32 0x43800000#32),
    unary main_cst_76 main_v264 (broadcastInDim S256x1 ![] bcast_S_S256x1 : (⟨S_, .f32⟩ : BufTy).Contents (Elt F) → (⟨S256x1, .f32⟩ : BufTy).Contents (Elt F)),
    binary main_v263 main_v264 main_v265 (mulf : (⟨S256x1, .f32⟩ : BufTy).Contents (Elt F) → (⟨S256x1, .f32⟩ : BufTy).Contents (Elt F) → (⟨S256x1, .f32⟩ : BufTy).Contents (Elt F)),
    unary main_v265 main_v266 (broadcastInDim S256x16384 ![0, 1] bcast_S256x1_S256x16384_0_1 : (⟨S256x1, .f32⟩ : BufTy).Contents (Elt F) → (⟨S256x16384, .f32⟩ : BufTy).Contents (Elt F)),
    binary main_v261 main_v266 main_v267 (Host.divf : (⟨S256x16384, .f32⟩ : BufTy).Contents (Elt F) → (⟨S256x16384, .f32⟩ : BufTy).Contents (Elt F) → (⟨S256x16384, .f32⟩ : BufTy).Contents (Elt F)),
    nullary main_cst_77 (constant S_ .f32 0x00000000#32),
    binary main_v267 main_cst_77 main_v268 ((fun x v => Host.reduceAdd x v reducesTo_S256x16384_S16384_d0 h_S_) : (⟨S256x16384, .f32⟩ : BufTy).Contents (Elt F) → (⟨S_, .f32⟩ : BufTy).Contents (Elt F) → (⟨S16384, .f32⟩ : BufTy).Contents (Elt F)),
    unary main_v268 main_v269 (broadcastInDim S1x16384 ![1] bcast_S16384_S1x16384_1 : (⟨S16384, .f32⟩ : BufTy).Contents (Elt F) → (⟨S1x16384, .f32⟩ : BufTy).Contents (Elt F)),
    nullary main_cst_78 (constant S_ .f32 0x46800000#32),
    unary main_cst_78 main_v270 (broadcastInDim S1x16384 ![] bcast_S_S1x16384 : (⟨S_, .f32⟩ : BufTy).Contents (Elt F) → (⟨S1x16384, .f32⟩ : BufTy).Contents (Elt F)),
    binary main_v269 main_v270 main_v271 (mulf : (⟨S1x16384, .f32⟩ : BufTy).Contents (Elt F) → (⟨S1x16384, .f32⟩ : BufTy).Contents (Elt F) → (⟨S1x16384, .f32⟩ : BufTy).Contents (Elt F)),
    unary main_v271 main_v272 (broadcastInDim S256x16384 ![0, 1] bcast_S1x16384_S256x16384_0_1 : (⟨S1x16384, .f32⟩ : BufTy).Contents (Elt F) → (⟨S256x16384, .f32⟩ : BufTy).Contents (Elt F)),
    binary main_v267 main_v272 main_v273 (Host.divf : (⟨S256x16384, .f32⟩ : BufTy).Contents (Elt F) → (⟨S256x16384, .f32⟩ : BufTy).Contents (Elt F) → (⟨S256x16384, .f32⟩ : BufTy).Contents (Elt F)),
    nullary main_cst_79 (constant S_ .f32 0x46800000#32),
    unary main_cst_79 main_v274 (broadcastInDim S256x16384 ![] bcast_S_S256x16384 : (⟨S_, .f32⟩ : BufTy).Contents (Elt F) → (⟨S256x16384, .f32⟩ : BufTy).Contents (Elt F)),
    binary main_v273 main_v274 main_v275 (mulf : (⟨S256x16384, .f32⟩ : BufTy).Contents (Elt F) → (⟨S256x16384, .f32⟩ : BufTy).Contents (Elt F) → (⟨S256x16384, .f32⟩ : BufTy).Contents (Elt F)),
    unary main_v275 main_v276 ((transpose S16384x256 [1, 0] · transposes_S256x16384_S16384x256_1_0) : (⟨S256x16384, .f32⟩ : BufTy).Contents (Elt F) → (⟨S16384x256, .f32⟩ : BufTy).Contents (Elt F)) ]

set_option maxRecDepth 8192 in
theorem ops14_sub : (ops14 : List (HloOp τ sig (Elt F))).Forall fun op => op.bufs ⊆ tcRefs τ sig :=
  ⟨binary_bufs_sub .., unary_bufs_sub .., unary_bufs_sub .., nullary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub ..⟩

set_option maxRecDepth 8192 in
theorem ops14_fresh : (ops14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev ops14_W : List (Ref sig .tc) := [main_v232, main_v233, main_v234, main_cst_66, main_v235, main_v236, main_v237, main_cst_67, main_v238, main_v239, main_cst_68, main_v240, main_v241, main_v242, main_v243, main_cst_69, main_v244, main_v245, main_cst_70, main_v246, main_v247, main_v248, main_v249, main_cst_71, main_v250, main_v251, main_cst_72, main_v252, main_v253, main_v254, main_v255, main_cst_73, main_v256, main_v257, main_cst_74, main_v258, main_v259, main_v260, main_v261, main_cst_75, main_v262, main_v263, main_cst_76, main_v264, main_v265, main_v266, main_v267, main_cst_77, main_v268, main_v269, main_cst_78, main_v270, main_v271, main_v272, main_v273, main_cst_79, main_v274, main_v275, main_v276]

set_option maxRecDepth 8192 in
theorem ops14_writes : (ops14 : List (HloOp τ sig (Elt F))).Forall fun op => op.writes ⊆ (ops14_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

abbrev ops15 : List (HloOp τ sig (Elt F)) :=
  [ nullary main_cst_80 (constant S_ .f32 0x3D4CCCCD#32) ]

set_option maxRecDepth 8192 in
theorem ops15_sub : (ops15 : List (HloOp τ sig (Elt F))).Forall fun op => op.bufs ⊆ tcRefs τ sig :=
  (nullary_bufs_sub ..)

set_option maxRecDepth 8192 in
theorem ops15_fresh : (ops15 : List (HloOp τ sig (Elt F))).Forall fun op => op.fresh = ∅ :=
  (rfl)

abbrev ops15_W : List (Ref sig .tc) := [main_cst_80]

set_option maxRecDepth 8192 in
theorem ops15_writes : (ops15 : List (HloOp τ sig (Elt F))).Forall fun op => op.writes ⊆ (ops15_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))

end Cert.ReferenceIdeal.Hand

end
-- ==== Proof.Ref.OpsG.lean ====
import proofs.«402369_j86406152061536_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops16 : List (HloOp τ sig (Elt F)) :=
  [ unary main_cst_80 main_v277 (broadcastInDim S16384x256 ![] bcast_S_S16384x256 : (⟨S_, .f32⟩ : BufTy).Contents (Elt F) → (⟨S16384x256, .f32⟩ : BufTy).Contents (Elt F)),
    binary main_v92 main_v277 main_v278 (Host.divf : (⟨S16384x256, .f32⟩ : BufTy).Contents (Elt F) → (⟨S16384x256, .f32⟩ : BufTy).Contents (Elt F) → (⟨S16384x256, .f32⟩ : BufTy).Contents (Elt F)),
    unary main_v278 main_v279 (Host.exp : (⟨S16384x256, .f32⟩ : BufTy).Contents (Elt F) → (⟨S16384x256, .f32⟩ : BufTy).Contents (Elt F)),
    unary main_v279 main_v280 ((transpose S256x16384 [1, 0] · transposes_S16384x256_S256x16384_1_0) : (⟨S16384x256, .f32⟩ : BufTy).Contents (Elt F) → (⟨S256x16384, .f32⟩ : BufTy).Contents (Elt F)),
    nullary main_cst_81 (constant S_ .f32 0x00000000#32),
    binary main_v280 main_cst_81 main_v281 ((fun x v => Host.reduceAdd x v reducesTo_S256x16384_S_d0_1 h_S_) : (⟨S256x16384, .f32⟩ : BufTy).Contents (Elt F) → (⟨S_, .f32⟩ : BufTy).Contents (Elt F) → (⟨S_, .f32⟩ : BufTy).Contents (Elt F)),
    unary main_v281 main_v282 (broadcastInDim S256x16384 ![] bcast_S_S256x16384 : (⟨S_, .f32⟩ : BufTy).Contents (Elt F) → (⟨S256x16384, .f32⟩ : BufTy).Contents (Elt F)),
    binary main_v280 main_v282 main_v283 (Host.divf : (⟨S256x16384, .f32⟩ : BufTy).Contents (Elt F) → (⟨S256x16384, .f32⟩ : BufTy).Contents (Elt F) → (⟨S256x16384, .f32⟩ : BufTy).Contents (Elt F)),
    nullary main_cst_82 (constant S_ .f32 0x00000000#32),
    binary main_v283 main_cst_82 main_v284 ((fun x v => Host.reduceAdd x v reducesTo_S256x16384_S256_d1 h_S_) : (⟨S256x16384, .f32⟩ : BufTy).Contents (Elt F) → (⟨S_, .f32⟩ : BufTy).Contents (Elt F) → (⟨S256, .f32⟩ : BufTy).Contents (Elt F)),
    unary main_v284 main_v285 (broadcastInDim S256x1 ![0] bcast_S256_S256x1_0 : (⟨S256, .f32⟩ : BufTy).Contents (Elt F) → (⟨S256x1, .f32⟩ : BufTy).Contents (Elt F)),
    nullary main_cst_83 (constant S_ .f32 0x43800000#32),
    unary main_cst_83 main_v286 (broadcastInDim S256x1 ![] bcast_S_S256x1 : (⟨S_, .f32⟩ : BufTy).Contents (Elt F) → (⟨S256x1, .f32⟩ : BufTy).Contents (Elt F)),
    binary main_v285 main_v286 main_v287 (mulf : (⟨S256x1, .f32⟩ : BufTy).Contents (Elt F) → (⟨S256x1, .f32⟩ : BufTy).Contents (Elt F) → (⟨S256x1, .f32⟩ : BufTy).Contents (Elt F)),
    unary main_v287 main_v288 (broadcastInDim S256x16384 ![0, 1] bcast_S256x1_S256x16384_0_1 : (⟨S256x1, .f32⟩ : BufTy).Contents (Elt F) → (⟨S256x16384, .f32⟩ : BufTy).Contents (Elt F)),
    binary main_v283 main_v288 main_v289 (Host.divf : (⟨S256x16384, .f32⟩ : BufTy).Contents (Elt F) → (⟨S256x16384, .f32⟩ : BufTy).Contents (Elt F) → (⟨S256x16384, .f32⟩ : BufTy).Contents (Elt F)),
    nullary main_cst_84 (constant S_ .f32 0x00000000#32),
    binary main_v289 main_cst_84 main_v290 ((fun x v => Host.reduceAdd x v reducesTo_S256x16384_S16384_d0 h_S_) : (⟨S256x16384, .f32⟩ : BufTy).Contents (Elt F) → (⟨S_, .f32⟩ : BufTy).Contents (Elt F) → (⟨S16384, .f32⟩ : BufTy).Contents (Elt F)),
    unary main_v290 main_v291 (broadcastInDim S1x16384 ![1] bcast_S16384_S1x16384_1 : (⟨S16384, .f32⟩ : BufTy).Contents (Elt F) → (⟨S1x16384, .f32⟩ : BufTy).Contents (Elt F)),
    nullary main_cst_85 (constant S_ .f32 0x46800000#32),
    unary main_cst_85 main_v292 (broadcastInDim S1x16384 ![] bcast_S_S1x16384 : (⟨S_, .f32⟩ : BufTy).Contents (Elt F) → (⟨S1x16384, .f32⟩ : BufTy).Contents (Elt F)),
    binary main_v291 main_v292 main_v293 (mulf : (⟨S1x16384, .f32⟩ : BufTy).Contents (Elt F) → (⟨S1x16384, .f32⟩ : BufTy).Contents (Elt F) → (⟨S1x16384, .f32⟩ : BufTy).Contents (Elt F)),
    unary main_v293 main_v294 (broadcastInDim S256x16384 ![0, 1] bcast_S1x16384_S256x16384_0_1 : (⟨S1x16384, .f32⟩ : BufTy).Contents (Elt F) → (⟨S256x16384, .f32⟩ : BufTy).Contents (Elt F)),
    binary main_v289 main_v294 main_v295 (Host.divf : (⟨S256x16384, .f32⟩ : BufTy).Contents (Elt F) → (⟨S256x16384, .f32⟩ : BufTy).Contents (Elt F) → (⟨S256x16384, .f32⟩ : BufTy).Contents (Elt F)),
    nullary main_cst_86 (constant S_ .f32 0x00000000#32),
    binary main_v295 main_cst_86 main_v296 ((fun x v => Host.reduceAdd x v reducesTo_S256x16384_S256_d1 h_S_) : (⟨S256x16384, .f32⟩ : BufTy).Contents (Elt F) → (⟨S_, .f32⟩ : BufTy).Contents (Elt F) → (⟨S256, .f32⟩ : BufTy).Contents (Elt F)),
    unary main_v296 main_v297 (broadcastInDim S256x1 ![0] bcast_S256_S256x1_0 : (⟨S256, .f32⟩ : BufTy).Contents (Elt F) → (⟨S256x1, .f32⟩ : BufTy).Contents (Elt F)),
    nullary main_cst_87 (constant S_ .f32 0x43800000#32),
    unary main_cst_87 main_v298 (broadcastInDim S256x1 ![] bcast_S_S256x1 : (⟨S_, .f32⟩ : BufTy).Contents (Elt F) → (⟨S256x1, .f32⟩ : BufTy).Contents (Elt F)),
    binary main_v297 main_v298 main_v299 (mulf : (⟨S256x1, .f32⟩ : BufTy).Contents (Elt F) → (⟨S256x1, .f32⟩ : BufTy).Contents (Elt F) → (⟨S256x1, .f32⟩ : BufTy).Contents (Elt F)),
    unary main_v299 main_v300 (broadcastInDim S256x16384 ![0, 1] bcast_S256x1_S256x16384_0_1 : (⟨S256x1, .f32⟩ : BufTy).Contents (Elt F) → (⟨S256x16384, .f32⟩ : BufTy).Contents (Elt F)),
    binary main_v295 main_v300 main_v301 (Host.divf : (⟨S256x16384, .f32⟩ : BufTy).Contents (Elt F) → (⟨S256x16384, .f32⟩ : BufTy).Contents (Elt F) → (⟨S256x16384, .f32⟩ : BufTy).Contents (Elt F)),
    nullary main_cst_88 (constant S_ .f32 0x00000000#32),
    binary main_v301 main_cst_88 main_v302 ((fun x v => Host.reduceAdd x v reducesTo_S256x16384_S16384_d0 h_S_) : (⟨S256x16384, .f32⟩ : BufTy).Contents (Elt F) → (⟨S_, .f32⟩ : BufTy).Contents (Elt F) → (⟨S16384, .f32⟩ : BufTy).Contents (Elt F)),
    unary main_v302 main_v303 (broadcastInDim S1x16384 ![1] bcast_S16384_S1x16384_1 : (⟨S16384, .f32⟩ : BufTy).Contents (Elt F) → (⟨S1x16384, .f32⟩ : BufTy).Contents (Elt F)),
    nullary main_cst_89 (constant S_ .f32 0x46800000#32),
    unary main_cst_89 main_v304 (broadcastInDim S1x16384 ![] bcast_S_S1x16384 : (⟨S_, .f32⟩ : BufTy).Contents (Elt F) → (⟨S1x16384, .f32⟩ : BufTy).Contents (Elt F)),
    binary main_v303 main_v304 main_v305 (mulf : (⟨S1x16384, .f32⟩ : BufTy).Contents (Elt F) → (⟨S1x16384, .f32⟩ : BufTy).Contents (Elt F) → (⟨S1x16384, .f32⟩ : BufTy).Contents (Elt F)),
    unary main_v305 main_v306 (broadcastInDim S256x16384 ![0, 1] bcast_S1x16384_S256x16384_0_1 : (⟨S1x16384, .f32⟩ : BufTy).Contents (Elt F) → (⟨S256x16384, .f32⟩ : BufTy).Contents (Elt F)),
    binary main_v301 main_v306 main_v307 (Host.divf : (⟨S256x16384, .f32⟩ : BufTy).Contents (Elt F) → (⟨S256x16384, .f32⟩ : BufTy).Contents (Elt F) → (⟨S256x16384, .f32⟩ : BufTy).Contents (Elt F)),
    nullary main_cst_90 (constant S_ .f32 0x00000000#32),
    binary main_v307 main_cst_90 main_v308 ((fun x v => Host.reduceAdd x v reducesTo_S256x16384_S256_d1 h_S_) : (⟨S256x16384, .f32⟩ : BufTy).Contents (Elt F) → (⟨S_, .f32⟩ : BufTy).Contents (Elt F) → (⟨S256, .f32⟩ : BufTy).Contents (Elt F)),
    unary main_v308 main_v309 (broadcastInDim S256x1 ![0] bcast_S256_S256x1_0 : (⟨S256, .f32⟩ : BufTy).Contents (Elt F) → (⟨S256x1, .f32⟩ : BufTy).Contents (Elt F)),
    nullary main_cst_91 (constant S_ .f32 0x43800000#32),
    unary main_cst_91 main_v310 (broadcastInDim S256x1 ![] bcast_S_S256x1 : (⟨S_, .f32⟩ : BufTy).Contents (Elt F) → (⟨S256x1, .f32⟩ : BufTy).Contents (Elt F)),
    binary main_v309 main_v310 main_v311 (mulf : (⟨S256x1, .f32⟩ : BufTy).Contents (Elt F) → (⟨S256x1, .f32⟩ : BufTy).Contents (Elt F) → (⟨S256x1, .f32⟩ : BufTy).Contents (Elt F)),
    unary main_v311 main_v312 (broadcastInDim S256x16384 ![0, 1] bcast_S256x1_S256x16384_0_1 : (⟨S256x1, .f32⟩ : BufTy).Contents (Elt F) → (⟨S256x16384, .f32⟩ : BufTy).Contents (Elt F)),
    binary main_v307 main_v312 main_v313 (Host.divf : (⟨S256x16384, .f32⟩ : BufTy).Contents (Elt F) → (⟨S256x16384, .f32⟩ : BufTy).Contents (Elt F) → (⟨S256x16384, .f32⟩ : BufTy).Contents (Elt F)),
    nullary main_cst_92 (constant S_ .f32 0x00000000#32),
    binary main_v313 main_cst_92 main_v314 ((fun x v => Host.reduceAdd x v reducesTo_S256x16384_S16384_d0 h_S_) : (⟨S256x16384, .f32⟩ : BufTy).Contents (Elt F) → (⟨S_, .f32⟩ : BufTy).Contents (Elt F) → (⟨S16384, .f32⟩ : BufTy).Contents (Elt F)),
    unary main_v314 main_v315 (broadcastInDim S1x16384 ![1] bcast_S16384_S1x16384_1 : (⟨S16384, .f32⟩ : BufTy).Contents (Elt F) → (⟨S1x16384, .f32⟩ : BufTy).Contents (Elt F)),
    nullary main_cst_93 (constant S_ .f32 0x46800000#32),
    unary main_cst_93 main_v316 (broadcastInDim S1x16384 ![] bcast_S_S1x16384 : (⟨S_, .f32⟩ : BufTy).Contents (Elt F) → (⟨S1x16384, .f32⟩ : BufTy).Contents (Elt F)),
    binary main_v315 main_v316 main_v317 (mulf : (⟨S1x16384, .f32⟩ : BufTy).Contents (Elt F) → (⟨S1x16384, .f32⟩ : BufTy).Contents (Elt F) → (⟨S1x16384, .f32⟩ : BufTy).Contents (Elt F)),
    unary main_v317 main_v318 (broadcastInDim S256x16384 ![0, 1] bcast_S1x16384_S256x16384_0_1 : (⟨S1x16384, .f32⟩ : BufTy).Contents (Elt F) → (⟨S256x16384, .f32⟩ : BufTy).Contents (Elt F)),
    binary main_v313 main_v318 main_v319 (Host.divf : (⟨S256x16384, .f32⟩ : BufTy).Contents (Elt F) → (⟨S256x16384, .f32⟩ : BufTy).Contents (Elt F) → (⟨S256x16384, .f32⟩ : BufTy).Contents (Elt F)),
    nullary main_cst_94 (constant S_ .f32 0x46800000#32),
    unary main_cst_94 main_v320 (broadcastInDim S256x16384 ![] bcast_S_S256x16384 : (⟨S_, .f32⟩ : BufTy).Contents (Elt F) → (⟨S256x16384, .f32⟩ : BufTy).Contents (Elt F)),
    binary main_v319 main_v320 main_v321 (mulf : (⟨S256x16384, .f32⟩ : BufTy).Contents (Elt F) → (⟨S256x16384, .f32⟩ : BufTy).Contents (Elt F) → (⟨S256x16384, .f32⟩ : BufTy).Contents (Elt F)),
    unary main_v321 main_v322 ((transpose S16384x256 [1, 0] · transposes_S256x16384_S16384x256_1_0) : (⟨S256x16384, .f32⟩ : BufTy).Contents (Elt F) → (⟨S16384x256, .f32⟩ : BufTy).Contents (Elt F)) ]

set_option maxRecDepth 8192 in
theorem ops16_sub : (ops16 : List (HloOp τ sig (Elt F))).Forall fun op => op.bufs ⊆ tcRefs τ sig :=
  ⟨unary_bufs_sub .., binary_bufs_sub .., unary_bufs_sub .., unary_bufs_sub .., nullary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub ..⟩

set_option maxRecDepth 8192 in
theorem ops16_fresh : (ops16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev ops16_W : List (Ref sig .tc) := [main_v277, main_v278, main_v279, main_v280, main_cst_81, main_v281, main_v282, main_v283, main_cst_82, main_v284, main_v285, main_cst_83, main_v286, main_v287, main_v288, main_v289, main_cst_84, main_v290, main_v291, main_cst_85, main_v292, main_v293, main_v294, main_v295, main_cst_86, main_v296, main_v297, main_cst_87, main_v298, main_v299, main_v300, main_v301, main_cst_88, main_v302, main_v303, main_cst_89, main_v304, main_v305, main_v306, main_v307, main_cst_90, main_v308, main_v309, main_cst_91, main_v310, main_v311, main_v312, main_v313, main_cst_92, main_v314, main_v315, main_cst_93, main_v316, main_v317, main_v318, main_v319, main_cst_94, main_v320, main_v321, main_v322]

set_option maxRecDepth 8192 in
theorem ops16_writes : (ops16 : List (HloOp τ sig (Elt F))).Forall fun op => op.writes ⊆ (ops16_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

end Cert.ReferenceIdeal.Hand

end
-- ==== Proof.Ref.OpsH.lean ====
import proofs.«402369_j86406152061536_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops17 : List (HloOp τ sig (Elt F)) :=
  [ unary main_v2 main_v323 (broadcastInDim S16384x256 ![] bcast_S_S16384x256 : (⟨S_, .f32⟩ : BufTy).Contents (Elt F) → (⟨S16384x256, .f32⟩ : BufTy).Contents (Elt F)),
    binary main_v86 main_v323 main_v324 (Host.divf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call1_cst) (constant S_ .f32 0xFF800000#32),
    TRef.binary (TRef.of (T := ⟨S16384x256, .f32⟩) main_v324) (TRef.of (T := ⟨S_, .f32⟩) main_call1_cst) (TRef.of (T := ⟨S16384, .f32⟩) main_call1_v0) (fun x v => Host.reduce FloatOps.maximumf x v reducesTo_S16384x256_S16384_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S16384, .f32⟩) main_call1_v1) (broadcastInDim S16384 ![] bcast_S_S16384),
    TRef.binary (TRef.of (T := ⟨S16384, .f32⟩) main_call1_v1) (TRef.of (T := ⟨S16384, .f32⟩) main_call1_v0) (TRef.of (T := ⟨S16384, .f32⟩) main_call1_v2) maximumf,
    TRef.unary (TRef.of (T := ⟨S16384, .f32⟩) main_call1_v2) (TRef.of (T := ⟨S16384x1, .f32⟩) main_call1_v3) (broadcastInDim S16384x1 ![0] bcast_S16384_S16384x1_0),
    TRef.unary (TRef.of (T := ⟨S16384x1, .f32⟩) main_call1_v3) (TRef.of (T := ⟨S16384x256, .f32⟩) main_call1_v4) (broadcastInDim S16384x256 ![0, 1] bcast_S16384x1_S16384x256_0_1),
    TRef.binary (TRef.of (T := ⟨S16384x256, .f32⟩) main_v324) (TRef.of (T := ⟨S16384x256, .f32⟩) main_call1_v4) (TRef.of (T := ⟨S16384x256, .f32⟩) main_call1_v5) subf,
    TRef.unary (TRef.of (T := ⟨S16384x256, .f32⟩) main_call1_v5) (TRef.of (T := ⟨S16384x256, .f32⟩) main_call1_v6) Host.exp,
    TRef.nullary (TRef.of (T := ⟨S_, .f32⟩) main_call1_cst_1) (constant S_ .f32 0x00000000#32),
    TRef.binary (TRef.of (T := ⟨S16384x256, .f32⟩) main_call1_v6) (TRef.of (T := ⟨S_, .f32⟩) main_call1_cst_1) (TRef.of (T := ⟨S16384, .f32⟩) main_call1_v7) (fun x v => Host.reduceAdd x v reducesTo_S16384x256_S16384_d1 h_S_),
    TRef.unary (TRef.of (T := ⟨S16384, .f32⟩) main_call1_v7) (TRef.of (T := ⟨S16384x1, .f32⟩) main_call1_v8) (broadcastInDim S16384x1 ![0] bcast_S16384_S16384x1_0),
    TRef.unary (TRef.of (T := ⟨S16384x1, .f32⟩) main_call1_v8) (TRef.of (T := ⟨S16384x1, .f32⟩) main_call1_v9) Host.log,
    TRef.unary (TRef.of (T := ⟨S16384x1, .f32⟩) main_call1_v9) (TRef.of (T := ⟨S16384x256, .f32⟩) main_call1_v10) (broadcastInDim S16384x256 ![0, 1] bcast_S16384x1_S16384x256_0_1),
    TRef.binary (TRef.of (T := ⟨S16384x256, .f32⟩) main_call1_v5) (TRef.of (T := ⟨S16384x256, .f32⟩) main_call1_v10) (TRef.of (T := ⟨S16384x256, .f32⟩) main_v325) subf,
    binary main_v184 main_v325 main_v326 (mulf : (⟨S16384x256, .f32⟩ : BufTy).Contents (Elt F) → (⟨S16384x256, .f32⟩ : BufTy).Contents (Elt F) → (⟨S16384x256, .f32⟩ : BufTy).Contents (Elt F)),
    nullary main_cst_95 (constant S_ .f32 0x00000000#32),
    binary main_v326 main_cst_95 main_v327 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    nullary main_cst_96 (constant S_ .f32 0x00000000#32),
    binary main_v327 main_cst_96 main_v328 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_97 (constant S_ .f32 0x46800000#32),
    binary main_v328 main_cst_97 main_v329 (Host.divf : (⟨S_, .f32⟩ : BufTy).Contents (Elt F) → (⟨S_, .f32⟩ : BufTy).Contents (Elt F) → (⟨S_, .f32⟩ : BufTy).Contents (Elt F)),
    unary main_v329 main_v330 (Host.negf : (⟨S_, .f32⟩ : BufTy).Contents (Elt F) → (⟨S_, .f32⟩ : BufTy).Contents (Elt F)) ]

set_option maxRecDepth 8192 in
theorem ops17_sub : (ops17 : List (HloOp τ sig (Elt F))).Forall fun op => op.bufs ⊆ tcRefs τ sig :=
  ⟨unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., nullary_bufs_sub .., binary_bufs_sub .., nullary_bufs_sub .., binary_bufs_sub .., nullary_bufs_sub .., binary_bufs_sub .., unary_bufs_sub ..⟩

set_option maxRecDepth 8192 in
theorem ops17_fresh : (ops17 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

abbrev ops17_W : List (Ref sig .tc) := [main_v323, main_v324, main_call1_cst, main_call1_v0, main_call1_cst_0, main_call1_v1, main_call1_v2, main_call1_v3, main_call1_v4, main_call1_v5, main_call1_v6, main_call1_cst_1, main_call1_v7, main_call1_v8, main_call1_v9, main_call1_v10, main_v325, main_v326, main_cst_95, main_v327, main_cst_96, main_v328, main_cst_97, main_v329, main_v330]

set_option maxRecDepth 8192 in
theorem ops17_writes : (ops17 : List (HloOp τ sig (Elt F))).Forall fun op => op.writes ⊆ (ops17_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

abbrev ops18 : List (HloOp τ sig (Elt F)) :=
  [ unary main_v2 main_v331 (broadcastInDim S16384x256 ![] bcast_S_S16384x256 : (⟨S_, .f32⟩ : BufTy).Contents (Elt F) → (⟨S16384x256, .f32⟩ : BufTy).Contents (Elt F)),
    binary main_v84 main_v331 main_v332 (Host.divf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call2_cst) (constant S_ .f32 0xFF800000#32),
    TRef.binary (TRef.of (T := ⟨S16384x256, .f32⟩) main_v332) (TRef.of (T := ⟨S_, .f32⟩) main_call2_cst) (TRef.of (T := ⟨S16384, .f32⟩) main_call2_v0) (fun x v => Host.reduce FloatOps.maximumf x v reducesTo_S16384x256_S16384_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S16384, .f32⟩) main_call2_v1) (broadcastInDim S16384 ![] bcast_S_S16384),
    TRef.binary (TRef.of (T := ⟨S16384, .f32⟩) main_call2_v1) (TRef.of (T := ⟨S16384, .f32⟩) main_call2_v0) (TRef.of (T := ⟨S16384, .f32⟩) main_call2_v2) maximumf,
    TRef.unary (TRef.of (T := ⟨S16384, .f32⟩) main_call2_v2) (TRef.of (T := ⟨S16384x1, .f32⟩) main_call2_v3) (broadcastInDim S16384x1 ![0] bcast_S16384_S16384x1_0),
    TRef.unary (TRef.of (T := ⟨S16384x1, .f32⟩) main_call2_v3) (TRef.of (T := ⟨S16384x256, .f32⟩) main_call2_v4) (broadcastInDim S16384x256 ![0, 1] bcast_S16384x1_S16384x256_0_1),
    TRef.binary (TRef.of (T := ⟨S16384x256, .f32⟩) main_v332) (TRef.of (T := ⟨S16384x256, .f32⟩) main_call2_v4) (TRef.of (T := ⟨S16384x256, .f32⟩) main_call2_v5) subf,
    TRef.unary (TRef.of (T := ⟨S16384x256, .f32⟩) main_call2_v5) (TRef.of (T := ⟨S16384x256, .f32⟩) main_call2_v6) Host.exp,
    TRef.nullary (TRef.of (T := ⟨S_, .f32⟩) main_call2_cst_1) (constant S_ .f32 0x00000000#32),
    TRef.binary (TRef.of (T := ⟨S16384x256, .f32⟩) main_call2_v6) (TRef.of (T := ⟨S_, .f32⟩) main_call2_cst_1) (TRef.of (T := ⟨S16384, .f32⟩) main_call2_v7) (fun x v => Host.reduceAdd x v reducesTo_S16384x256_S16384_d1 h_S_),
    TRef.unary (TRef.of (T := ⟨S16384, .f32⟩) main_call2_v7) (TRef.of (T := ⟨S16384x1, .f32⟩) main_call2_v8) (broadcastInDim S16384x1 ![0] bcast_S16384_S16384x1_0),
    TRef.unary (TRef.of (T := ⟨S16384x1, .f32⟩) main_call2_v8) (TRef.of (T := ⟨S16384x1, .f32⟩) main_call2_v9) Host.log,
    TRef.unary (TRef.of (T := ⟨S16384x1, .f32⟩) main_call2_v9) (TRef.of (T := ⟨S16384x256, .f32⟩) main_call2_v10) (broadcastInDim S16384x256 ![0, 1] bcast_S16384x1_S16384x256_0_1),
    TRef.binary (TRef.of (T := ⟨S16384x256, .f32⟩) main_call2_v5) (TRef.of (T := ⟨S16384x256, .f32⟩) main_call2_v10) (TRef.of (T := ⟨S16384x256, .f32⟩) main_v333) subf,
    binary main_v138 main_v333 main_v334 (mulf : (⟨S16384x256, .f32⟩ : BufTy).Contents (Elt F) → (⟨S16384x256, .f32⟩ : BufTy).Contents (Elt F) → (⟨S16384x256, .f32⟩ : BufTy).Contents (Elt F)),
    nullary main_cst_98 (constant S_ .f32 0x00000000#32),
    binary main_v334 main_cst_98 main_v335 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    nullary main_cst_99 (constant S_ .f32 0x00000000#32),
    binary main_v335 main_cst_99 main_v336 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_100 (constant S_ .f32 0x46800000#32),
    binary main_v336 main_cst_100 main_v337 (Host.divf : (⟨S_, .f32⟩ : BufTy).Contents (Elt F) → (⟨S_, .f32⟩ : BufTy).Contents (Elt F) → (⟨S_, .f32⟩ : BufTy).Contents (Elt F)),
    unary main_v337 main_v338 (Host.negf : (⟨S_, .f32⟩ : BufTy).Contents (Elt F) → (⟨S_, .f32⟩ : BufTy).Contents (Elt F)),
    binary main_v330 main_v338 main_v339 (addf : (⟨S_, .f32⟩ : BufTy).Contents (Elt F) → (⟨S_, .f32⟩ : BufTy).Contents (Elt F) → (⟨S_, .f32⟩ : BufTy).Contents (Elt F)) ]

set_option maxRecDepth 8192 in
theorem ops18_sub : (ops18 : List (HloOp τ sig (Elt F))).Forall fun op => op.bufs ⊆ tcRefs τ sig :=
  ⟨unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., nullary_bufs_sub .., binary_bufs_sub .., nullary_bufs_sub .., binary_bufs_sub .., nullary_bufs_sub .., binary_bufs_sub .., unary_bufs_sub .., binary_bufs_sub ..⟩

set_option maxRecDepth 8192 in
theorem ops18_fresh : (ops18 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

abbrev ops18_W : List (Ref sig .tc) := [main_v331, main_v332, main_call2_cst, main_call2_v0, main_call2_cst_0, main_call2_v1, main_call2_v2, main_call2_v3, main_call2_v4, main_call2_v5, main_call2_v6, main_call2_cst_1, main_call2_v7, main_call2_v8, main_call2_v9, main_call2_v10, main_v333, main_v334, main_cst_98, main_v335, main_cst_99, main_v336, main_cst_100, main_v337, main_v338, main_v339]

set_option maxRecDepth 8192 in
theorem ops18_writes : (ops18 : List (HloOp τ sig (Elt F))).Forall fun op => op.writes ⊆ (ops18_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

abbrev ops19 : List (HloOp τ sig (Elt F)) :=
  [ unary main_v2 main_v340 (broadcastInDim S16384x256 ![] bcast_S_S16384x256 : (⟨S_, .f32⟩ : BufTy).Contents (Elt F) → (⟨S16384x256, .f32⟩ : BufTy).Contents (Elt F)),
    binary main_v90 main_v340 main_v341 (Host.divf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call3_cst) (constant S_ .f32 0xFF800000#32),
    TRef.binary (TRef.of (T := ⟨S16384x256, .f32⟩) main_v341) (TRef.of (T := ⟨S_, .f32⟩) main_call3_cst) (TRef.of (T := ⟨S16384, .f32⟩) main_call3_v0) (fun x v => Host.reduce FloatOps.maximumf x v reducesTo_S16384x256_S16384_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S16384, .f32⟩) main_call3_v1) (broadcastInDim S16384 ![] bcast_S_S16384),
    TRef.binary (TRef.of (T := ⟨S16384, .f32⟩) main_call3_v1) (TRef.of (T := ⟨S16384, .f32⟩) main_call3_v0) (TRef.of (T := ⟨S16384, .f32⟩) main_call3_v2) maximumf,
    TRef.unary (TRef.of (T := ⟨S16384, .f32⟩) main_call3_v2) (TRef.of (T := ⟨S16384x1, .f32⟩) main_call3_v3) (broadcastInDim S16384x1 ![0] bcast_S16384_S16384x1_0),
    TRef.unary (TRef.of (T := ⟨S16384x1, .f32⟩) main_call3_v3) (TRef.of (T := ⟨S16384x256, .f32⟩) main_call3_v4) (broadcastInDim S16384x256 ![0, 1] bcast_S16384x1_S16384x256_0_1),
    TRef.binary (TRef.of (T := ⟨S16384x256, .f32⟩) main_v341) (TRef.of (T := ⟨S16384x256, .f32⟩) main_call3_v4) (TRef.of (T := ⟨S16384x256, .f32⟩) main_call3_v5) subf,
    TRef.unary (TRef.of (T := ⟨S16384x256, .f32⟩) main_call3_v5) (TRef.of (T := ⟨S16384x256, .f32⟩) main_call3_v6) Host.exp,
    TRef.nullary (TRef.of (T := ⟨S_, .f32⟩) main_call3_cst_1) (constant S_ .f32 0x00000000#32),
    TRef.binary (TRef.of (T := ⟨S16384x256, .f32⟩) main_call3_v6) (TRef.of (T := ⟨S_, .f32⟩) main_call3_cst_1) (TRef.of (T := ⟨S16384, .f32⟩) main_call3_v7) (fun x v => Host.reduceAdd x v reducesTo_S16384x256_S16384_d1 h_S_),
    TRef.unary (TRef.of (T := ⟨S16384, .f32⟩) main_call3_v7) (TRef.of (T := ⟨S16384x1, .f32⟩) main_call3_v8) (broadcastInDim S16384x1 ![0] bcast_S16384_S16384x1_0),
    TRef.unary (TRef.of (T := ⟨S16384x1, .f32⟩) main_call3_v8) (TRef.of (T := ⟨S16384x1, .f32⟩) main_call3_v9) Host.log,
    TRef.unary (TRef.of (T := ⟨S16384x1, .f32⟩) main_call3_v9) (TRef.of (T := ⟨S16384x256, .f32⟩) main_call3_v10) (broadcastInDim S16384x256 ![0, 1] bcast_S16384x1_S16384x256_0_1),
    TRef.binary (TRef.of (T := ⟨S16384x256, .f32⟩) main_call3_v5) (TRef.of (T := ⟨S16384x256, .f32⟩) main_call3_v10) (TRef.of (T := ⟨S16384x256, .f32⟩) main_v342) subf,
    binary main_v230 main_v342 main_v343 (mulf : (⟨S16384x256, .f32⟩ : BufTy).Contents (Elt F) → (⟨S16384x256, .f32⟩ : BufTy).Contents (Elt F) → (⟨S16384x256, .f32⟩ : BufTy).Contents (Elt F)),
    nullary main_cst_101 (constant S_ .f32 0x00000000#32),
    binary main_v343 main_cst_101 main_v344 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    nullary main_cst_102 (constant S_ .f32 0x00000000#32),
    binary main_v344 main_cst_102 main_v345 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_103 (constant S_ .f32 0x46800000#32),
    binary main_v345 main_cst_103 main_v346 (Host.divf : (⟨S_, .f32⟩ : BufTy).Contents (Elt F) → (⟨S_, .f32⟩ : BufTy).Contents (Elt F) → (⟨S_, .f32⟩ : BufTy).Contents (Elt F)),
    unary main_v346 main_v347 (Host.negf : (⟨S_, .f32⟩ : BufTy).Contents (Elt F) → (⟨S_, .f32⟩ : BufTy).Contents (Elt F)) ]

set_option maxRecDepth 8192 in
theorem ops19_sub : (ops19 : List (HloOp τ sig (Elt F))).Forall fun op => op.bufs ⊆ tcRefs τ sig :=
  ⟨unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., nullary_bufs_sub .., binary_bufs_sub .., nullary_bufs_sub .., binary_bufs_sub .., nullary_bufs_sub .., binary_bufs_sub .., unary_bufs_sub ..⟩

set_option maxRecDepth 8192 in
theorem ops19_fresh : (ops19 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

abbrev ops19_W : List (Ref sig .tc) := [main_v340, main_v341, main_call3_cst, main_call3_v0, main_call3_cst_0, main_call3_v1, main_call3_v2, main_call3_v3, main_call3_v4, main_call3_v5, main_call3_v6, main_call3_cst_1, main_call3_v7, main_call3_v8, main_call3_v9, main_call3_v10, main_v342, main_v343, main_cst_101, main_v344, main_cst_102, main_v345, main_cst_103, main_v346, main_v347]

set_option maxRecDepth 8192 in
theorem ops19_writes : (ops19 : List (HloOp τ sig (Elt F))).Forall fun op => op.writes ⊆ (ops19_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

end Cert.ReferenceIdeal.Hand

end
-- ==== Proof.Ref.OpsI.lean ====
import proofs.«402369_j86406152061536_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops20 : List (HloOp τ sig (Elt F)) :=
  [ unary main_v2 main_v348 (broadcastInDim S16384x256 ![] bcast_S_S16384x256 : (⟨S_, .f32⟩ : BufTy).Contents (Elt F) → (⟨S16384x256, .f32⟩ : BufTy).Contents (Elt F)),
    binary main_v92 main_v348 main_v349 (Host.divf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call4_cst) (constant S_ .f32 0xFF800000#32),
    TRef.binary (TRef.of (T := ⟨S16384x256, .f32⟩) main_v349) (TRef.of (T := ⟨S_, .f32⟩) main_call4_cst) (TRef.of (T := ⟨S16384, .f32⟩) main_call4_v0) (fun x v => Host.reduce FloatOps.maximumf x v reducesTo_S16384x256_S16384_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S16384, .f32⟩) main_call4_v1) (broadcastInDim S16384 ![] bcast_S_S16384),
    TRef.binary (TRef.of (T := ⟨S16384, .f32⟩) main_call4_v1) (TRef.of (T := ⟨S16384, .f32⟩) main_call4_v0) (TRef.of (T := ⟨S16384, .f32⟩) main_call4_v2) maximumf,
    TRef.unary (TRef.of (T := ⟨S16384, .f32⟩) main_call4_v2) (TRef.of (T := ⟨S16384x1, .f32⟩) main_call4_v3) (broadcastInDim S16384x1 ![0] bcast_S16384_S16384x1_0),
    TRef.unary (TRef.of (T := ⟨S16384x1, .f32⟩) main_call4_v3) (TRef.of (T := ⟨S16384x256, .f32⟩) main_call4_v4) (broadcastInDim S16384x256 ![0, 1] bcast_S16384x1_S16384x256_0_1),
    TRef.binary (TRef.of (T := ⟨S16384x256, .f32⟩) main_v349) (TRef.of (T := ⟨S16384x256, .f32⟩) main_call4_v4) (TRef.of (T := ⟨S16384x256, .f32⟩) main_call4_v5) subf,
    TRef.unary (TRef.of (T := ⟨S16384x256, .f32⟩) main_call4_v5) (TRef.of (T := ⟨S16384x256, .f32⟩) main_call4_v6) Host.exp,
    TRef.nullary (TRef.of (T := ⟨S_, .f32⟩) main_call4_cst_1) (constant S_ .f32 0x00000000#32),
    TRef.binary (TRef.of (T := ⟨S16384x256, .f32⟩) main_call4_v6) (TRef.of (T := ⟨S_, .f32⟩) main_call4_cst_1) (TRef.of (T := ⟨S16384, .f32⟩) main_call4_v7) (fun x v => Host.reduceAdd x v reducesTo_S16384x256_S16384_d1 h_S_),
    TRef.unary (TRef.of (T := ⟨S16384, .f32⟩) main_call4_v7) (TRef.of (T := ⟨S16384x1, .f32⟩) main_call4_v8) (broadcastInDim S16384x1 ![0] bcast_S16384_S16384x1_0),
    TRef.unary (TRef.of (T := ⟨S16384x1, .f32⟩) main_call4_v8) (TRef.of (T := ⟨S16384x1, .f32⟩) main_call4_v9) Host.log,
    TRef.unary (TRef.of (T := ⟨S16384x1, .f32⟩) main_call4_v9) (TRef.of (T := ⟨S16384x256, .f32⟩) main_call4_v10) (broadcastInDim S16384x256 ![0, 1] bcast_S16384x1_S16384x256_0_1),
    TRef.binary (TRef.of (T := ⟨S16384x256, .f32⟩) main_call4_v5) (TRef.of (T := ⟨S16384x256, .f32⟩) main_call4_v10) (TRef.of (T := ⟨S16384x256, .f32⟩) main_v350) subf,
    binary main_v230 main_v350 main_v351 (mulf : (⟨S16384x256, .f32⟩ : BufTy).Contents (Elt F) → (⟨S16384x256, .f32⟩ : BufTy).Contents (Elt F) → (⟨S16384x256, .f32⟩ : BufTy).Contents (Elt F)),
    nullary main_cst_104 (constant S_ .f32 0x00000000#32),
    binary main_v351 main_cst_104 main_v352 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    nullary main_cst_105 (constant S_ .f32 0x00000000#32),
    binary main_v352 main_cst_105 main_v353 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_106 (constant S_ .f32 0x46800000#32),
    binary main_v353 main_cst_106 main_v354 (Host.divf : (⟨S_, .f32⟩ : BufTy).Contents (Elt F) → (⟨S_, .f32⟩ : BufTy).Contents (Elt F) → (⟨S_, .f32⟩ : BufTy).Contents (Elt F)),
    unary main_v354 main_v355 (Host.negf : (⟨S_, .f32⟩ : BufTy).Contents (Elt F) → (⟨S_, .f32⟩ : BufTy).Contents (Elt F)),
    binary main_v347 main_v355 main_v356 (addf : (⟨S_, .f32⟩ : BufTy).Contents (Elt F) → (⟨S_, .f32⟩ : BufTy).Contents (Elt F) → (⟨S_, .f32⟩ : BufTy).Contents (Elt F)) ]

set_option maxRecDepth 8192 in
theorem ops20_sub : (ops20 : List (HloOp τ sig (Elt F))).Forall fun op => op.bufs ⊆ tcRefs τ sig :=
  ⟨unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., nullary_bufs_sub .., binary_bufs_sub .., nullary_bufs_sub .., binary_bufs_sub .., nullary_bufs_sub .., binary_bufs_sub .., unary_bufs_sub .., binary_bufs_sub ..⟩

set_option maxRecDepth 8192 in
theorem ops20_fresh : (ops20 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

abbrev ops20_W : List (Ref sig .tc) := [main_v348, main_v349, main_call4_cst, main_call4_v0, main_call4_cst_0, main_call4_v1, main_call4_v2, main_call4_v3, main_call4_v4, main_call4_v5, main_call4_v6, main_call4_cst_1, main_call4_v7, main_call4_v8, main_call4_v9, main_call4_v10, main_v350, main_v351, main_cst_104, main_v352, main_cst_105, main_v353, main_cst_106, main_v354, main_v355, main_v356]

set_option maxRecDepth 8192 in
theorem ops20_writes : (ops20 : List (HloOp τ sig (Elt F))).Forall fun op => op.writes ⊆ (ops20_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

abbrev ops21 : List (HloOp τ sig (Elt F)) :=
  [ unary main_v2 main_v357 (broadcastInDim S16384x256 ![] bcast_S_S16384x256 : (⟨S_, .f32⟩ : BufTy).Contents (Elt F) → (⟨S16384x256, .f32⟩ : BufTy).Contents (Elt F)),
    binary main_v88 main_v357 main_v358 (Host.divf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call5_cst) (constant S_ .f32 0xFF800000#32),
    TRef.binary (TRef.of (T := ⟨S16384x256, .f32⟩) main_v358) (TRef.of (T := ⟨S_, .f32⟩) main_call5_cst) (TRef.of (T := ⟨S16384, .f32⟩) main_call5_v0) (fun x v => Host.reduce FloatOps.maximumf x v reducesTo_S16384x256_S16384_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S16384, .f32⟩) main_call5_v1) (broadcastInDim S16384 ![] bcast_S_S16384),
    TRef.binary (TRef.of (T := ⟨S16384, .f32⟩) main_call5_v1) (TRef.of (T := ⟨S16384, .f32⟩) main_call5_v0) (TRef.of (T := ⟨S16384, .f32⟩) main_call5_v2) maximumf,
    TRef.unary (TRef.of (T := ⟨S16384, .f32⟩) main_call5_v2) (TRef.of (T := ⟨S16384x1, .f32⟩) main_call5_v3) (broadcastInDim S16384x1 ![0] bcast_S16384_S16384x1_0),
    TRef.unary (TRef.of (T := ⟨S16384x1, .f32⟩) main_call5_v3) (TRef.of (T := ⟨S16384x256, .f32⟩) main_call5_v4) (broadcastInDim S16384x256 ![0, 1] bcast_S16384x1_S16384x256_0_1),
    TRef.binary (TRef.of (T := ⟨S16384x256, .f32⟩) main_v358) (TRef.of (T := ⟨S16384x256, .f32⟩) main_call5_v4) (TRef.of (T := ⟨S16384x256, .f32⟩) main_call5_v5) subf,
    TRef.unary (TRef.of (T := ⟨S16384x256, .f32⟩) main_call5_v5) (TRef.of (T := ⟨S16384x256, .f32⟩) main_call5_v6) Host.exp,
    TRef.nullary (TRef.of (T := ⟨S_, .f32⟩) main_call5_cst_1) (constant S_ .f32 0x00000000#32),
    TRef.binary (TRef.of (T := ⟨S16384x256, .f32⟩) main_call5_v6) (TRef.of (T := ⟨S_, .f32⟩) main_call5_cst_1) (TRef.of (T := ⟨S16384, .f32⟩) main_call5_v7) (fun x v => Host.reduceAdd x v reducesTo_S16384x256_S16384_d1 h_S_),
    TRef.unary (TRef.of (T := ⟨S16384, .f32⟩) main_call5_v7) (TRef.of (T := ⟨S16384x1, .f32⟩) main_call5_v8) (broadcastInDim S16384x1 ![0] bcast_S16384_S16384x1_0),
    TRef.unary (TRef.of (T := ⟨S16384x1, .f32⟩) main_call5_v8) (TRef.of (T := ⟨S16384x1, .f32⟩) main_call5_v9) Host.log,
    TRef.unary (TRef.of (T := ⟨S16384x1, .f32⟩) main_call5_v9) (TRef.of (T := ⟨S16384x256, .f32⟩) main_call5_v10) (broadcastInDim S16384x256 ![0, 1] bcast_S16384x1_S16384x256_0_1),
    TRef.binary (TRef.of (T := ⟨S16384x256, .f32⟩) main_call5_v5) (TRef.of (T := ⟨S16384x256, .f32⟩) main_call5_v10) (TRef.of (T := ⟨S16384x256, .f32⟩) main_v359) subf,
    binary main_v276 main_v359 main_v360 (mulf : (⟨S16384x256, .f32⟩ : BufTy).Contents (Elt F) → (⟨S16384x256, .f32⟩ : BufTy).Contents (Elt F) → (⟨S16384x256, .f32⟩ : BufTy).Contents (Elt F)),
    nullary main_cst_107 (constant S_ .f32 0x00000000#32),
    binary main_v360 main_cst_107 main_v361 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    nullary main_cst_108 (constant S_ .f32 0x00000000#32),
    binary main_v361 main_cst_108 main_v362 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_109 (constant S_ .f32 0x46800000#32),
    binary main_v362 main_cst_109 main_v363 (Host.divf : (⟨S_, .f32⟩ : BufTy).Contents (Elt F) → (⟨S_, .f32⟩ : BufTy).Contents (Elt F) → (⟨S_, .f32⟩ : BufTy).Contents (Elt F)),
    unary main_v363 main_v364 (Host.negf : (⟨S_, .f32⟩ : BufTy).Contents (Elt F) → (⟨S_, .f32⟩ : BufTy).Contents (Elt F)),
    binary main_v356 main_v364 main_v365 (addf : (⟨S_, .f32⟩ : BufTy).Contents (Elt F) → (⟨S_, .f32⟩ : BufTy).Contents (Elt F) → (⟨S_, .f32⟩ : BufTy).Contents (Elt F)) ]

set_option maxRecDepth 8192 in
theorem ops21_sub : (ops21 : List (HloOp τ sig (Elt F))).Forall fun op => op.bufs ⊆ tcRefs τ sig :=
  ⟨unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., nullary_bufs_sub .., binary_bufs_sub .., nullary_bufs_sub .., binary_bufs_sub .., nullary_bufs_sub .., binary_bufs_sub .., unary_bufs_sub .., binary_bufs_sub ..⟩

set_option maxRecDepth 8192 in
theorem ops21_fresh : (ops21 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

abbrev ops21_W : List (Ref sig .tc) := [main_v357, main_v358, main_call5_cst, main_call5_v0, main_call5_cst_0, main_call5_v1, main_call5_v2, main_call5_v3, main_call5_v4, main_call5_v5, main_call5_v6, main_call5_cst_1, main_call5_v7, main_call5_v8, main_call5_v9, main_call5_v10, main_v359, main_v360, main_cst_107, main_v361, main_cst_108, main_v362, main_cst_109, main_v363, main_v364, main_v365]

set_option maxRecDepth 8192 in
theorem ops21_writes : (ops21 : List (HloOp τ sig (Elt F))).Forall fun op => op.writes ⊆ (ops21_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

abbrev ops22 : List (HloOp τ sig (Elt F)) :=
  [ unary main_v2 main_v366 (broadcastInDim S16384x256 ![] bcast_S_S16384x256 : (⟨S_, .f32⟩ : BufTy).Contents (Elt F) → (⟨S16384x256, .f32⟩ : BufTy).Contents (Elt F)),
    binary main_v92 main_v366 main_v367 (Host.divf : (⟨S16384x256, .f32⟩ : BufTy).Contents (Elt F) → (⟨S16384x256, .f32⟩ : BufTy).Contents (Elt F) → (⟨S16384x256, .f32⟩ : BufTy).Contents (Elt F)) ]

set_option maxRecDepth 8192 in
theorem ops22_sub : (ops22 : List (HloOp τ sig (Elt F))).Forall fun op => op.bufs ⊆ tcRefs τ sig :=
  ⟨unary_bufs_sub .., binary_bufs_sub ..⟩

set_option maxRecDepth 8192 in
theorem ops22_fresh : (ops22 : List (HloOp τ sig (Elt F))).Forall fun op => op.fresh = ∅ :=
  ⟨rfl, rfl⟩

abbrev ops22_W : List (Ref sig .tc) := [main_v366, main_v367]

set_option maxRecDepth 8192 in
theorem ops22_writes : (ops22 : List (HloOp τ sig (Elt F))).Forall fun op => op.writes ⊆ (ops22_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

end Cert.ReferenceIdeal.Hand

end
-- ==== Proof.Ref.OpsJ.lean ====
import proofs.«402369_j86406152061536_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops23 : List (HloOp τ sig (Elt F)) :=
  [ TRef.nullary (TRef.of (T := ⟨S_, .f32⟩) main_call6_cst) (constant S_ .f32 0xFF800000#32),
    TRef.binary (TRef.of (T := ⟨S16384x256, .f32⟩) main_v367) (TRef.of (T := ⟨S_, .f32⟩) main_call6_cst) (TRef.of (T := ⟨S16384, .f32⟩) main_call6_v0) (fun x v => Host.reduce FloatOps.maximumf x v reducesTo_S16384x256_S16384_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S16384, .f32⟩) main_call6_v1) (broadcastInDim S16384 ![] bcast_S_S16384),
    TRef.binary (TRef.of (T := ⟨S16384, .f32⟩) main_call6_v1) (TRef.of (T := ⟨S16384, .f32⟩) main_call6_v0) (TRef.of (T := ⟨S16384, .f32⟩) main_call6_v2) maximumf,
    TRef.unary (TRef.of (T := ⟨S16384, .f32⟩) main_call6_v2) (TRef.of (T := ⟨S16384x1, .f32⟩) main_call6_v3) (broadcastInDim S16384x1 ![0] bcast_S16384_S16384x1_0),
    TRef.unary (TRef.of (T := ⟨S16384x1, .f32⟩) main_call6_v3) (TRef.of (T := ⟨S16384x256, .f32⟩) main_call6_v4) (broadcastInDim S16384x256 ![0, 1] bcast_S16384x1_S16384x256_0_1),
    TRef.binary (TRef.of (T := ⟨S16384x256, .f32⟩) main_v367) (TRef.of (T := ⟨S16384x256, .f32⟩) main_call6_v4) (TRef.of (T := ⟨S16384x256, .f32⟩) main_call6_v5) subf,
    TRef.unary (TRef.of (T := ⟨S16384x256, .f32⟩) main_call6_v5) (TRef.of (T := ⟨S16384x256, .f32⟩) main_call6_v6) Host.exp,
    TRef.nullary (TRef.of (T := ⟨S_, .f32⟩) main_call6_cst_1) (constant S_ .f32 0x00000000#32),
    TRef.binary (TRef.of (T := ⟨S16384x256, .f32⟩) main_call6_v6) (TRef.of (T := ⟨S_, .f32⟩) main_call6_cst_1) (TRef.of (T := ⟨S16384, .f32⟩) main_call6_v7) (fun x v => Host.reduceAdd x v reducesTo_S16384x256_S16384_d1 h_S_),
    TRef.unary (TRef.of (T := ⟨S16384, .f32⟩) main_call6_v7) (TRef.of (T := ⟨S16384x1, .f32⟩) main_call6_v8) (broadcastInDim S16384x1 ![0] bcast_S16384_S16384x1_0),
    TRef.unary (TRef.of (T := ⟨S16384x1, .f32⟩) main_call6_v8) (TRef.of (T := ⟨S16384x1, .f32⟩) main_call6_v9) Host.log,
    TRef.unary (TRef.of (T := ⟨S16384x1, .f32⟩) main_call6_v9) (TRef.of (T := ⟨S16384x256, .f32⟩) main_call6_v10) (broadcastInDim S16384x256 ![0, 1] bcast_S16384x1_S16384x256_0_1),
    TRef.binary (TRef.of (T := ⟨S16384x256, .f32⟩) main_call6_v5) (TRef.of (T := ⟨S16384x256, .f32⟩) main_call6_v10) (TRef.of (T := ⟨S16384x256, .f32⟩) main_v368) subf,
    binary main_v276 main_v368 main_v369 (mulf : (⟨S16384x256, .f32⟩ : BufTy).Contents (Elt F) → (⟨S16384x256, .f32⟩ : BufTy).Contents (Elt F) → (⟨S16384x256, .f32⟩ : BufTy).Contents (Elt F)),
    nullary main_cst_110 (constant S_ .f32 0x00000000#32),
    binary main_v369 main_cst_110 main_v370 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    nullary main_cst_111 (constant S_ .f32 0x00000000#32),
    binary main_v370 main_cst_111 main_v371 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_112 (constant S_ .f32 0x46800000#32),
    binary main_v371 main_cst_112 main_v372 (Host.divf : (⟨S_, .f32⟩ : BufTy).Contents (Elt F) → (⟨S_, .f32⟩ : BufTy).Contents (Elt F) → (⟨S_, .f32⟩ : BufTy).Contents (Elt F)),
    unary main_v372 main_v373 (Host.negf : (⟨S_, .f32⟩ : BufTy).Contents (Elt F) → (⟨S_, .f32⟩ : BufTy).Contents (Elt F)),
    binary main_v365 main_v373 main_v374 (addf : (⟨S_, .f32⟩ : BufTy).Contents (Elt F) → (⟨S_, .f32⟩ : BufTy).Contents (Elt F) → (⟨S_, .f32⟩ : BufTy).Contents (Elt F)) ]

set_option maxRecDepth 8192 in
theorem ops23_sub : (ops23 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., nullary_bufs_sub .., binary_bufs_sub .., nullary_bufs_sub .., binary_bufs_sub .., nullary_bufs_sub .., binary_bufs_sub .., unary_bufs_sub .., binary_bufs_sub ..⟩

set_option maxRecDepth 8192 in
theorem ops23_fresh : (ops23 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

abbrev ops23_W : List (Ref sig .tc) := [main_call6_cst, main_call6_v0, main_call6_cst_0, main_call6_v1, main_call6_v2, main_call6_v3, main_call6_v4, main_call6_v5, main_call6_v6, main_call6_cst_1, main_call6_v7, main_call6_v8, main_call6_v9, main_call6_v10, main_v368, main_v369, main_cst_110, main_v370, main_cst_111, main_v371, main_cst_112, main_v372, main_v373, main_v374]

set_option maxRecDepth 8192 in
theorem ops23_writes : (ops23 : List (HloOp τ sig (Elt F))).Forall fun op => op.writes ⊆ (ops23_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

abbrev ops24 : List (HloOp τ sig (Elt F)) :=
  [ unary main_v2 main_v375 (broadcastInDim S16384x256 ![] bcast_S_S16384x256 : (⟨S_, .f32⟩ : BufTy).Contents (Elt F) → (⟨S16384x256, .f32⟩ : BufTy).Contents (Elt F)),
    binary main_v88 main_v375 main_v376 (Host.divf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call7_cst) (constant S_ .f32 0xFF800000#32),
    TRef.binary (TRef.of (T := ⟨S16384x256, .f32⟩) main_v376) (TRef.of (T := ⟨S_, .f32⟩) main_call7_cst) (TRef.of (T := ⟨S16384, .f32⟩) main_call7_v0) (fun x v => Host.reduce FloatOps.maximumf x v reducesTo_S16384x256_S16384_d1 h_S_),
    TRef.nullary (TRef.of (T := ⟨S_, .f32⟩) main_call7_cst_0) (constant S_ .f32 0xFF800000#32),
    TRef.unary (TRef.of (T := ⟨S_, .f32⟩) main_call7_cst_0) (TRef.of (T := ⟨S16384, .f32⟩) main_call7_v1) (broadcastInDim S16384 ![] bcast_S_S16384),
    TRef.binary (TRef.of (T := ⟨S16384, .f32⟩) main_call7_v1) (TRef.of (T := ⟨S16384, .f32⟩) main_call7_v0) (TRef.of (T := ⟨S16384, .f32⟩) main_call7_v2) maximumf,
    TRef.unary (TRef.of (T := ⟨S16384, .f32⟩) main_call7_v2) (TRef.of (T := ⟨S16384x1, .f32⟩) main_call7_v3) (broadcastInDim S16384x1 ![0] bcast_S16384_S16384x1_0),
    TRef.unary (TRef.of (T := ⟨S16384x1, .f32⟩) main_call7_v3) (TRef.of (T := ⟨S16384x256, .f32⟩) main_call7_v4) (broadcastInDim S16384x256 ![0, 1] bcast_S16384x1_S16384x256_0_1),
    TRef.binary (TRef.of (T := ⟨S16384x256, .f32⟩) main_v376) (TRef.of (T := ⟨S16384x256, .f32⟩) main_call7_v4) (TRef.of (T := ⟨S16384x256, .f32⟩) main_call7_v5) subf,
    TRef.unary (TRef.of (T := ⟨S16384x256, .f32⟩) main_call7_v5) (TRef.of (T := ⟨S16384x256, .f32⟩) main_call7_v6) Host.exp,
    TRef.nullary (TRef.of (T := ⟨S_, .f32⟩) main_call7_cst_1) (constant S_ .f32 0x00000000#32),
    TRef.binary (TRef.of (T := ⟨S16384x256, .f32⟩) main_call7_v6) (TRef.of (T := ⟨S_, .f32⟩) main_call7_cst_1) (TRef.of (T := ⟨S16384, .f32⟩) main_call7_v7) (fun x v => Host.reduceAdd x v reducesTo_S16384x256_S16384_d1 h_S_),
    TRef.unary (TRef.of (T := ⟨S16384, .f32⟩) main_call7_v7) (TRef.of (T := ⟨S16384x1, .f32⟩) main_call7_v8) (broadcastInDim S16384x1 ![0] bcast_S16384_S16384x1_0),
    TRef.unary (TRef.of (T := ⟨S16384x1, .f32⟩) main_call7_v8) (TRef.of (T := ⟨S16384x1, .f32⟩) main_call7_v9) Host.log,
    TRef.unary (TRef.of (T := ⟨S16384x1, .f32⟩) main_call7_v9) (TRef.of (T := ⟨S16384x256, .f32⟩) main_call7_v10) (broadcastInDim S16384x256 ![0, 1] bcast_S16384x1_S16384x256_0_1),
    TRef.binary (TRef.of (T := ⟨S16384x256, .f32⟩) main_call7_v5) (TRef.of (T := ⟨S16384x256, .f32⟩) main_call7_v10) (TRef.of (T := ⟨S16384x256, .f32⟩) main_v377) subf,
    binary main_v322 main_v377 main_v378 (mulf : (⟨S16384x256, .f32⟩ : BufTy).Contents (Elt F) → (⟨S16384x256, .f32⟩ : BufTy).Contents (Elt F) → (⟨S16384x256, .f32⟩ : BufTy).Contents (Elt F)),
    nullary main_cst_113 (constant S_ .f32 0x00000000#32),
    binary main_v378 main_cst_113 main_v379 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    nullary main_cst_114 (constant S_ .f32 0x00000000#32),
    binary main_v379 main_cst_114 main_v380 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_115 (constant S_ .f32 0x46800000#32),
    binary main_v380 main_cst_115 main_v381 (Host.divf : (⟨S_, .f32⟩ : BufTy).Contents (Elt F) → (⟨S_, .f32⟩ : BufTy).Contents (Elt F) → (⟨S_, .f32⟩ : BufTy).Contents (Elt F)),
    unary main_v381 main_v382 (Host.negf : (⟨S_, .f32⟩ : BufTy).Contents (Elt F) → (⟨S_, .f32⟩ : BufTy).Contents (Elt F)),
    binary main_v374 main_v382 main_v383 (addf : (⟨S_, .f32⟩ : BufTy).Contents (Elt F) → (⟨S_, .f32⟩ : BufTy).Contents (Elt F) → (⟨S_, .f32⟩ : BufTy).Contents (Elt F)) ]

set_option maxRecDepth 8192 in
theorem ops24_sub : (ops24 : List (HloOp τ sig (Elt F))).Forall fun op => op.bufs ⊆ tcRefs τ sig :=
  ⟨unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., nullary_bufs_sub .., binary_bufs_sub .., nullary_bufs_sub .., binary_bufs_sub .., nullary_bufs_sub .., binary_bufs_sub .., unary_bufs_sub .., binary_bufs_sub ..⟩

set_option maxRecDepth 8192 in
theorem ops24_fresh : (ops24 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

abbrev ops24_W : List (Ref sig .tc) := [main_v375, main_v376, main_call7_cst, main_call7_v0, main_call7_cst_0, main_call7_v1, main_call7_v2, main_call7_v3, main_call7_v4, main_call7_v5, main_call7_v6, main_call7_cst_1, main_call7_v7, main_call7_v8, main_call7_v9, main_call7_v10, main_v377, main_v378, main_cst_113, main_v379, main_cst_114, main_v380, main_cst_115, main_v381, main_v382, main_v383]

set_option maxRecDepth 8192 in
theorem ops24_writes : (ops24 : List (HloOp τ sig (Elt F))).Forall fun op => op.writes ⊆ (ops24_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

abbrev ops25 : List (HloOp τ sig (Elt F)) :=
  [ unary main_v2 main_v384 (broadcastInDim S16384x256 ![] bcast_S_S16384x256 : (⟨S_, .f32⟩ : BufTy).Contents (Elt F) → (⟨S16384x256, .f32⟩ : BufTy).Contents (Elt F)),
    binary main_v90 main_v384 main_v385 (Host.divf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call8_cst) (constant S_ .f32 0xFF800000#32),
    TRef.binary (TRef.of (T := ⟨S16384x256, .f32⟩) main_v385) (TRef.of (T := ⟨S_, .f32⟩) main_call8_cst) (TRef.of (T := ⟨S16384, .f32⟩) main_call8_v0) (fun x v => Host.reduce FloatOps.maximumf x v reducesTo_S16384x256_S16384_d1 h_S_),
    TRef.nullary (TRef.of (T := ⟨S_, .f32⟩) main_call8_cst_0) (constant S_ .f32 0xFF800000#32),
    TRef.unary (TRef.of (T := ⟨S_, .f32⟩) main_call8_cst_0) (TRef.of (T := ⟨S16384, .f32⟩) main_call8_v1) (broadcastInDim S16384 ![] bcast_S_S16384),
    TRef.binary (TRef.of (T := ⟨S16384, .f32⟩) main_call8_v1) (TRef.of (T := ⟨S16384, .f32⟩) main_call8_v0) (TRef.of (T := ⟨S16384, .f32⟩) main_call8_v2) maximumf,
    TRef.unary (TRef.of (T := ⟨S16384, .f32⟩) main_call8_v2) (TRef.of (T := ⟨S16384x1, .f32⟩) main_call8_v3) (broadcastInDim S16384x1 ![0] bcast_S16384_S16384x1_0),
    TRef.unary (TRef.of (T := ⟨S16384x1, .f32⟩) main_call8_v3) (TRef.of (T := ⟨S16384x256, .f32⟩) main_call8_v4) (broadcastInDim S16384x256 ![0, 1] bcast_S16384x1_S16384x256_0_1),
    TRef.binary (TRef.of (T := ⟨S16384x256, .f32⟩) main_v385) (TRef.of (T := ⟨S16384x256, .f32⟩) main_call8_v4) (TRef.of (T := ⟨S16384x256, .f32⟩) main_call8_v5) subf,
    TRef.unary (TRef.of (T := ⟨S16384x256, .f32⟩) main_call8_v5) (TRef.of (T := ⟨S16384x256, .f32⟩) main_call8_v6) Host.exp,
    TRef.nullary (TRef.of (T := ⟨S_, .f32⟩) main_call8_cst_1) (constant S_ .f32 0x00000000#32),
    TRef.binary (TRef.of (T := ⟨S16384x256, .f32⟩) main_call8_v6) (TRef.of (T := ⟨S_, .f32⟩) main_call8_cst_1) (TRef.of (T := ⟨S16384, .f32⟩) main_call8_v7) (fun x v => Host.reduceAdd x v reducesTo_S16384x256_S16384_d1 h_S_),
    TRef.unary (TRef.of (T := ⟨S16384, .f32⟩) main_call8_v7) (TRef.of (T := ⟨S16384x1, .f32⟩) main_call8_v8) (broadcastInDim S16384x1 ![0] bcast_S16384_S16384x1_0),
    TRef.unary (TRef.of (T := ⟨S16384x1, .f32⟩) main_call8_v8) (TRef.of (T := ⟨S16384x1, .f32⟩) main_call8_v9) Host.log,
    TRef.unary (TRef.of (T := ⟨S16384x1, .f32⟩) main_call8_v9) (TRef.of (T := ⟨S16384x256, .f32⟩) main_call8_v10) (broadcastInDim S16384x256 ![0, 1] bcast_S16384x1_S16384x256_0_1),
    TRef.binary (TRef.of (T := ⟨S16384x256, .f32⟩) main_call8_v5) (TRef.of (T := ⟨S16384x256, .f32⟩) main_call8_v10) (TRef.of (T := ⟨S16384x256, .f32⟩) main_v386) subf,
    binary main_v322 main_v386 main_v387 (mulf : (⟨S16384x256, .f32⟩ : BufTy).Contents (Elt F) → (⟨S16384x256, .f32⟩ : BufTy).Contents (Elt F) → (⟨S16384x256, .f32⟩ : BufTy).Contents (Elt F)),
    nullary main_cst_116 (constant S_ .f32 0x00000000#32),
    binary main_v387 main_cst_116 main_v388 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    nullary main_cst_117 (constant S_ .f32 0x00000000#32),
    binary main_v388 main_cst_117 main_v389 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_118 (constant S_ .f32 0x46800000#32),
    binary main_v389 main_cst_118 main_v390 (Host.divf : (⟨S_, .f32⟩ : BufTy).Contents (Elt F) → (⟨S_, .f32⟩ : BufTy).Contents (Elt F) → (⟨S_, .f32⟩ : BufTy).Contents (Elt F)),
    unary main_v390 main_v391 (Host.negf : (⟨S_, .f32⟩ : BufTy).Contents (Elt F) → (⟨S_, .f32⟩ : BufTy).Contents (Elt F)),
    binary main_v383 main_v391 main_v392 (addf : (⟨S_, .f32⟩ : BufTy).Contents (Elt F) → (⟨S_, .f32⟩ : BufTy).Contents (Elt F) → (⟨S_, .f32⟩ : BufTy).Contents (Elt F)) ]

set_option maxRecDepth 8192 in
theorem ops25_sub : (ops25 : List (HloOp τ sig (Elt F))).Forall fun op => op.bufs ⊆ tcRefs τ sig :=
  ⟨unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., nullary_bufs_sub .., binary_bufs_sub .., nullary_bufs_sub .., binary_bufs_sub .., nullary_bufs_sub .., binary_bufs_sub .., unary_bufs_sub .., binary_bufs_sub ..⟩

set_option maxRecDepth 8192 in
theorem ops25_fresh : (ops25 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

abbrev ops25_W : List (Ref sig .tc) := [main_v384, main_v385, main_call8_cst, main_call8_v0, main_call8_cst_0, main_call8_v1, main_call8_v2, main_call8_v3, main_call8_v4, main_call8_v5, main_call8_v6, main_call8_cst_1, main_call8_v7, main_call8_v8, main_call8_v9, main_call8_v10, main_v386, main_v387, main_cst_116, main_v388, main_cst_117, main_v389, main_cst_118, main_v390, main_v391, main_v392]

set_option maxRecDepth 8192 in
theorem ops25_writes : (ops25 : List (HloOp τ sig (Elt F))).Forall fun op => op.writes ⊆ (ops25_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

abbrev ops26 : List (HloOp τ sig (Elt F)) :=
  [ nullary main_cst_119 (constant S_ .f32 0x40000000#32),
    binary main_v339 main_cst_119 main_v393 (Host.divf : (⟨S_, .f32⟩ : BufTy).Contents (Elt F) → (⟨S_, .f32⟩ : BufTy).Contents (Elt F) → (⟨S_, .f32⟩ : BufTy).Contents (Elt F)),
    nullary main_cst_120 (constant S_ .f32 0x40C00000#32),
    binary main_v392 main_cst_120 main_v394 (Host.divf : (⟨S_, .f32⟩ : BufTy).Contents (Elt F) → (⟨S_, .f32⟩ : BufTy).Contents (Elt F) → (⟨S_, .f32⟩ : BufTy).Contents (Elt F)),
    binary main_v393 main_v394 main_v395 (addf : (⟨S_, .f32⟩ : BufTy).Contents (Elt F) → (⟨S_, .f32⟩ : BufTy).Contents (Elt F) → (⟨S_, .f32⟩ : BufTy).Contents (Elt F)) ]

set_option maxRecDepth 8192 in
theorem ops26_sub : (ops26 : List (HloOp τ sig (Elt F))).Forall fun op => op.bufs ⊆ tcRefs τ sig :=
  ⟨nullary_bufs_sub .., binary_bufs_sub .., nullary_bufs_sub .., binary_bufs_sub .., binary_bufs_sub ..⟩

set_option maxRecDepth 8192 in
theorem ops26_fresh : (ops26 : List (HloOp τ sig (Elt F))).Forall fun op => op.fresh = ∅ :=
  ⟨rfl, rfl, rfl, rfl, rfl⟩

abbrev ops26_W : List (Ref sig .tc) := [main_cst_119, main_v393, main_cst_120, main_v394, main_v395]

set_option maxRecDepth 8192 in
theorem ops26_writes : (ops26 : List (HloOp τ sig (Elt F))).Forall fun op => op.writes ⊆ (ops26_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

end Cert.ReferenceIdeal.Hand

end
-- ==== Proof.Ref.Lists.lean ====
import proofs.«402369_j86406152061536_3_alg».proof.Proof.Ref.OpsA
import proofs.«402369_j86406152061536_3_alg».proof.Proof.Ref.OpsB
import proofs.«402369_j86406152061536_3_alg».proof.Proof.Ref.OpsC
import proofs.«402369_j86406152061536_3_alg».proof.Proof.Ref.OpsD
import proofs.«402369_j86406152061536_3_alg».proof.Proof.Ref.OpsE
import proofs.«402369_j86406152061536_3_alg».proof.Proof.Ref.OpsF
import proofs.«402369_j86406152061536_3_alg».proof.Proof.Ref.OpsG
import proofs.«402369_j86406152061536_3_alg».proof.Proof.Ref.OpsH
import proofs.«402369_j86406152061536_3_alg».proof.Proof.Ref.OpsI
import proofs.«402369_j86406152061536_3_alg».proof.Proof.Ref.OpsJ

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

def stClampW : List (HloOp τ sig (Elt F)) := ops00

def stRows0 : List (HloOp τ sig (Elt F)) := ops01

def stRows1 : List (HloOp τ sig (Elt F)) := ops02 ++ ops03

def stRows2 : List (HloOp τ sig (Elt F)) := ops04

def stRows3 : List (HloOp τ sig (Elt F)) := ops05

def stProj : List (HloOp τ sig (Elt F)) := ops06

def stPlan1 : List (HloOp τ sig (Elt F)) := ops07 ++ ops08

def stPlan2 : List (HloOp τ sig (Elt F)) := ops09 ++ ops10

def stPlan3 : List (HloOp τ sig (Elt F)) := ops11 ++ ops12

def stPlan4 : List (HloOp τ sig (Elt F)) := ops13 ++ ops14

def stPlan5 : List (HloOp τ sig (Elt F)) := ops15 ++ ops16

def stCe1 : List (HloOp τ sig (Elt F)) := ops17

def stCe2 : List (HloOp τ sig (Elt F)) := ops18

def stCe3 : List (HloOp τ sig (Elt F)) := ops19

def stCe4 : List (HloOp τ sig (Elt F)) := ops20

def stCe5 : List (HloOp τ sig (Elt F)) := ops21

def stCe6 : List (HloOp τ sig (Elt F)) := ops22 ++ ops23

def stCe7 : List (HloOp τ sig (Elt F)) := ops24

def stCe8 : List (HloOp τ sig (Elt F)) := ops25

def stTail : List (HloOp τ sig (Elt F)) := ops26

def opsAll : List (HloOp τ sig (Elt F)) :=
  stClampW ++ (stRows0 ++ (stRows1 ++ (stRows2 ++ (stRows3 ++ (stProj ++ (stPlan1 ++ (stPlan2 ++ (stPlan3 ++ (stPlan4 ++ (stPlan5 ++ (stCe1 ++ (stCe2 ++ (stCe3 ++ (stCe4 ++ (stCe5 ++ (stCe6 ++ (stCe7 ++ (stCe8 ++ stTail))))))))))))))))))

end Cert.ReferenceIdeal.Hand

end
-- ==== Proof.Ref.Main.lean ====
import proofs.«402369_j86406152061536_3_alg».proof.Proof.Ref.Lists
import Idealize.ShloMosaic.Lib.Pipeline.Regions
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem opsAll_flat : (opsAll : List (HloOp τ sig (Elt F))) =
    ops00 ++ (ops01 ++ (ops02 ++ (ops03 ++ (ops04 ++ (ops05 ++ (ops06 ++ (ops07 ++ (ops08 ++ (ops09 ++ (ops10 ++ (ops11 ++ (ops12 ++ (ops13 ++ (ops14 ++ (ops15 ++ (ops16 ++ (ops17 ++ (ops18 ++ (ops19 ++ (ops20 ++ (ops21 ++ (ops22 ++ (ops23 ++ (ops24 ++ (ops25 ++ ops26))))))))))))))))))))))))) := by
  simp only [opsAll, stClampW, stRows0, stRows1, stRows2, stRows3, stProj, stPlan1, stPlan2, stPlan3, stPlan4, stPlan5, stCe1, stCe2, stCe3, stCe4, stCe5, stCe6, stCe7, stCe8, stTail, List.append_assoc]

def win0 : List (HloOp τ sig (Elt F)) := ops00 ++ (ops01 ++ ops02)

def win1 : List (HloOp τ sig (Elt F)) := ops03 ++ (ops04 ++ (ops05 ++ (ops06 ++ ops07)))

def win2 : List (HloOp τ sig (Elt F)) := ops08 ++ ops09

def win3 : List (HloOp τ sig (Elt F)) := ops10 ++ ops11

def win4 : List (HloOp τ sig (Elt F)) := ops12 ++ ops13

def win5 : List (HloOp τ sig (Elt F)) := ops14 ++ ops15

def win6 : List (HloOp τ sig (Elt F)) := ops16

def win7 : List (HloOp τ sig (Elt F)) := ops17 ++ (ops18 ++ (ops19 ++ (ops20 ++ (ops21 ++ ops22))))

def win8 : List (HloOp τ sig (Elt F)) := ops23 ++ (ops24 ++ (ops25 ++ ops26))

set_option maxRecDepth 8192 in
set_option maxHeartbeats 4000000 in
theorem main_part0_eq (c : Dev nD) : main_part0 (F := F) c = seq win0 := by
  unfold win0
  simp only [main_part0, fn_clip.body, ops00, ops01, ops02, List.cons_append, List.nil_append, seq, bind_assoc, pure_bind]
  all_goals rfl
set_option maxRecDepth 8192 in
theorem main_part1_eq (c : Dev nD) : main_part1 (F := F) c = seq win1 := by
  unfold win1; chain_rfl
set_option maxRecDepth 8192 in
theorem main_part2_eq (c : Dev nD) : main_part2 (F := F) c = seq win2 := by
  unfold win2; chain_rfl
set_option maxRecDepth 8192 in
theorem main_part3_eq (c : Dev nD) : main_part3 (F := F) c = seq win3 := by
  unfold win3; chain_rfl
set_option maxRecDepth 8192 in
theorem main_part4_eq (c : Dev nD) : main_part4 (F := F) c = seq win4 := by
  unfold win4; chain_rfl
set_option maxRecDepth 8192 in
theorem main_part5_eq (c : Dev nD) : main_part5 (F := F) c = seq win5 := by
  unfold win5; chain_rfl
set_option maxRecDepth 8192 in
theorem main_part6_eq (c : Dev nD) : main_part6 (F := F) c = seq win6 := by
  unfold win6; chain_rfl
set_option maxRecDepth 8192 in
set_option maxHeartbeats 4000000 in
theorem main_part7_eq (c : Dev nD) : main_part7 (F := F) c = seq win7 := by
  unfold win7
  simp only [main_part7, fn_log_softmax.body, ops17, ops18, ops19, ops20, ops21, ops22, List.cons_append, List.nil_append, seq, bind_assoc, pure_bind]
  all_goals rfl
set_option maxRecDepth 8192 in
set_option maxHeartbeats 4000000 in
theorem main_part8_eq (c : Dev nD) : main_part8 (F := F) c = seq win8 := by
  unfold win8
  simp only [main_part8, fn_log_softmax.body, ops23, ops24, ops25, ops26, List.cons_append, List.nil_append, seq, bind_assoc, pure_bind]
  all_goals rfl

theorem opsAll_windows : (opsAll : List (HloOp τ sig (Elt F))) = win0 ++ (win1 ++ (win2 ++ (win3 ++ (win4 ++ (win5 ++ (win6 ++ (win7 ++ win8))))))) := by
  simp only [opsAll_flat, win0, win1, win2, win3, win4, win5, win6, win7, win8, List.append_assoc]

set_option maxRecDepth 8192 in
theorem main_eq (c : Dev nD) : main (F := F) c = seq opsAll := by
  rw [opsAll_windows]
  simp only [seq_append, ← main_part0_eq c, ← main_part1_eq c, ← main_part2_eq c, ← main_part3_eq c, ← main_part4_eq c, ← main_part5_eq c, ← main_part6_eq c, ← main_part7_eq c, ← main_part8_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsAll_sub : (opsAll : List (HloOp τ sig (Elt F))).Forall fun op => op.bufs ⊆ tcRefs τ sig := by
  rw [opsAll_flat]
  simp only [List.forall_append]
  exact ⟨ops00_sub, ops01_sub, ops02_sub, ops03_sub, ops04_sub, ops05_sub, ops06_sub, ops07_sub, ops08_sub, ops09_sub, ops10_sub, ops11_sub, ops12_sub, ops13_sub, ops14_sub, ops15_sub, ops16_sub, ops17_sub, ops18_sub, ops19_sub, ops20_sub, ops21_sub, ops22_sub, ops23_sub, ops24_sub, ops25_sub, ops26_sub⟩

theorem opsAll_fresh : ∀ op ∈ (opsAll : List (HloOp τ sig (Elt F))), op.fresh = ∅ := by
  have h : (opsAll : List (HloOp τ sig (Elt F))).Forall fun op => op.fresh = ∅ := by
    rw [opsAll_flat]
    simp only [List.forall_append]
    exact ⟨ops00_fresh, ops01_fresh, ops02_fresh, ops03_fresh, ops04_fresh, ops05_fresh, ops06_fresh, ops07_fresh, ops08_fresh, ops09_fresh, ops10_fresh, ops11_fresh, ops12_fresh, ops13_fresh, ops14_fresh, ops15_fresh, ops16_fresh, ops17_fresh, ops18_fresh, ops19_fresh, ops20_fresh, ops21_fresh, ops22_fresh, ops23_fresh, ops24_fresh, ops25_fresh, ops26_fresh⟩
  exact List.forall_iff_forall_mem.mp h

theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after opsAll (launchContents m d) (Proc.devRef .tc b) :=
  run_seq scopedRefs_eq scopedSems_eq defs main (fun _ => opsAll) main_eq (fun _ => opsAll_sub) m ρ
    (fun _ => opsAll_fresh)

theorem after_opsAll (V : Valuation τ sig (Elt F)) :
    after opsAll V =
      after stTail (after stCe8 (after stCe7 (after stCe6 (after stCe5 (after stCe4 (after stCe3 (after stCe2 (after stCe1 (after stPlan5 (after stPlan4 (after stPlan3 (after stPlan2 (after stPlan1 (after stProj (after stRows3 (after stRows2 (after stRows1 (after stRows0 (after stClampW (V)))))))))))))))))))) := by
  simp only [opsAll, StableHlo.after_append]

end Cert.ReferenceIdeal.Hand

end
-- ==== Proof.Ref.StageRows.lean ====
import proofs.«402369_j86406152061536_3_alg».proof.ReferenceIdeal
import proofs.«402369_j86406152061536_3_alg».proof.Proof.Spec
import Idealize.ShloMosaic.Lib.ValueIdx
import Idealize.ShloMosaic.Lib.ValueLayout
import Idealize.ShloMosaic.Lib.StableHlo.Predicate
import Idealize.ShloMosaic.PureOps.Ideal.Laws

noncomputable section

namespace Cert.Ref

open Idealize.ShloMosaic Cert.ReferenceIdeal Cert.ReferenceIdeal.Facts₀

section Stages
variable {F : FTy → Type} [FloatOps F] [Facts₀]

def refClamp (g : FVec F S_ .f32) : FVec F S_ .f32 :=
  addf g (subf (minimumf (id (constant S_ .f32 0x3F7D70A4#32)) (maximumf (id (constant S_ .f32 0x3C23D70A#32)) g)) g)

def refRowsW (w : FVec F S256x64 .f32) : FVec F S256x64 .f32 :=
  Host.divf w
    (broadcastInDim S256x64 ![0, 1] bcast_S256x1_S256x64_0_1
      (maximumf
        (Host.sqrt (broadcastInDim S256x1 ![0] bcast_S256_S256x1_0
          (Host.reduceAdd (mulf w w) (constant S_ .f32 0x00000000#32) reducesTo_S256x64_S256_d1 h_S_)))
        (broadcastInDim S256x1 ![] bcast_S_S256x1 (constant S_ .f32 0x2B8CBCCC#32))))

def refUnitW (w : FVec F S256x64 .f32) : FVec F S256x64 .f32 :=
  addf w (subf (refRowsW w) w)

def refRowsX (x : FVec F S16384x64 .f32) : FVec F S16384x64 .f32 :=
  Host.divf x
    (broadcastInDim S16384x64 ![0, 1] bcast_S16384x1_S16384x64_0_1
      (maximumf
        (Host.sqrt (broadcastInDim S16384x1 ![0] bcast_S16384_S16384x1_0
          (Host.reduceAdd (mulf x x) (constant S_ .f32 0x00000000#32) reducesTo_S16384x64_S16384_d1 h_S_)))
        (broadcastInDim S16384x1 ![] bcast_S_S16384x1 (constant S_ .f32 0x2B8CBCCC#32))))

def refWrap (n : BitVec 32) (idx : IVec S16384 32) : IVec S16384 32 :=
  select (cmpi .slt idx (broadcastInDim S16384 ![] bcast_S_S16384 (constantI S_ 32 0#32)))
    (addi idx (broadcastInDim S16384 ![] bcast_S_S16384 (constantI S_ 32 n))) idx

def refGathered1000000 (idx : IVec S16384 32) (T : FVec F S1000000x64 .f32) : FVec F S16384x64 .f32 :=
  refRowsX (Host.gather gather_S1000000x64_S16384x1_S16384x64_1_0_n_n_0_1_164 T
    (broadcastInDim S16384x1 ![0] bcast_S16384_S16384x1_0 (refWrap 1000000#32 idx)))

def refGathered500000 (idx : IVec S16384 32) (T : FVec F S500000x64 .f32) : FVec F S16384x64 .f32 :=
  refRowsX (Host.gather gather_S500000x64_S16384x1_S16384x64_1_0_n_n_0_1_164 T
    (broadcastInDim S16384x1 ![0] bcast_S16384_S16384x1_0 (refWrap 500000#32 idx)))

def refProj (x : FVec F S16384x64 .f32) (w : FVec F S256x64 .f32) : FVec F S16384x256 .f32 :=
  Host.dotGeneral dot_S16384x64_S64x256_S16384x256_1_0_0_1_n_n none x
    (transpose S64x256 [1, 0] w transposes_S256x64_S64x256_1_0)

end Stages

section Reading

open Idealize.ShloMosaic.ValueIdx Idealize.ShloMosaic.StableHlo.Predicate

theorem add_sub_self_of_real {x y : EReal} (hb : x ≠ ⊥) (ht : x ≠ ⊤) : x + (y - x) = y := by
  lift x to ℝ using ⟨ht, hb⟩
  rw [add_comm]; exact EReal.sub_add_cancel

theorem ij_eq_ix2 {n m : ℕ} (p : Fin n) (q : Fin m) : ij p q = ix2 p q := by
  funext a; match a with | ⟨0, _⟩ => rfl | ⟨1, _⟩ => rfl

theorem ofFin_eq_ix1 {n : ℕ} (p : Fin n) : Shape.Idx.ofFin p = ix1 p := by
  funext a; match a with | ⟨0, _⟩ => rfl

theorem unitRows_apply {n : ℕ}
    (hr : (⟨2, ![n, 64]⟩ : Shape).ReducesTo [1] ⟨1, ![n]⟩) (hR : (⟨2, ![n, 64]⟩ : Shape).Reduces [1] ⟨1, ![n]⟩)
    (h0 : 0 < S_.numel)
    (b1 : (⟨1, ![n]⟩ : Shape).BroadcastsInDim ⟨2, ![n, 1]⟩ ![0])
    (b0 : S_.BroadcastsInDim ⟨2, ![n, 1]⟩ ![])
    (b2 : (⟨2, ![n, 1]⟩ : Shape).BroadcastsInDim ⟨2, ![n, 64]⟩ ![0, 1])
    (x : FVec Ideal ⟨2, ![n, 64]⟩ .f32) (k : Fin n) (d : Fin 64) :
    Host.divf x (broadcastInDim ⟨2, ![n, 64]⟩ ![0, 1] b2
      (maximumf (Host.sqrt (broadcastInDim ⟨2, ![n, 1]⟩ ![0] b1
          (Host.reduceAdd (mulf x x) (constant (F := Ideal) S_ .f32 0x00000000#32) hr h0)))
        (broadcastInDim ⟨2, ![n, 1]⟩ ![] b0 (constant (F := Ideal) S_ .f32 0x2B8CBCCC#32)))) (ix2 k d)
      = Cert.Spec.unitRows (fun k' d' => x (ix2 k' d')) k d := by
  show Ideal.div (x (ix2 k d)) (broadcastInDim _ _ b2 _ (ix2 k d)) = _
  rw [← ij_eq_ix2, bcast_of_col]
  show Ideal.div _ (max (Ideal.sqrt (broadcastInDim _ _ b1 _ (ixP k))) (broadcastInDim _ _ b0 _ (ixP k))) = _
  rw [bcast_col1, bcast_scalar b0 h0]
  show Ideal.div _ (max (Ideal.sqrt (Ideal.hostReduceAdd hr (mulf x x) (Ideal.ofBits .f32 0x00000000#32) (Shape.Idx.ofFin k)))
    (Ideal.ofBits .f32 0x2B8CBCCC#32)) = _
  rw [Ideal.hostReduceAdd_single hr hR, Ideal.ofBits_zero_f32, zero_add]
  have hl : ∀ e : Fin 64, hR.lift (Shape.Idx.ofFin k) e = ix2 k e := fun e => by
    funext a; match a with | ⟨0, _⟩ => exact Fin.ext rfl | ⟨1, _⟩ => exact Fin.ext rfl
  show Ideal.div _ (max (Ideal.sqrt (∑ e : Fin 64, mulf x x (hR.lift (Shape.Idx.ofFin k) e))) _) = _
  simp only [hl, mulf_apply]
  rfl

end Reading

section Rows

open Idealize.ShloMosaic.ValueIdx Idealize.ShloMosaic.StableHlo.Predicate

variable {α : Type}

abbrev rowDims (N R C : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem gather_rows_apply {N R C w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N R C wf) x idx (ix2 r c)
      = x (ix2 ⟨min (idx (ixP r)).toInt.toNat (N - 1), by omega⟩ c) := by
  unfold Host.gather
  congr 1
  funext a
  refine Fin.ext ?_
  match a with
  | ⟨0, _⟩ =>
    show (rowDims N R C wf).start (ix2 r c) idx 0 + (rowDims N R C wf).batchCoord (ix2 r c) 0
      + (rowDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r c) ⟨List.idxOf (0 : Fin 2) (rowDims N R C wf).startIndexMap,
        List.idxOf_lt_length_iff.2 (List.mem_singleton.mpr rfl)⟩ = ixP r := by
      funext b; refine Fin.ext ?_
      match b with
      | ⟨0, _⟩ => rfl
      | ⟨1, _⟩ => rfl
    rw [hsi]
    rfl
  | ⟨1, _⟩ =>
    show (rowDims N R C wf).start (ix2 r c) idx 1 + (rowDims N R C wf).batchCoord (ix2 r c) 1
      + (rowDims N R C wf).offCoord (ix2 r c) 1 = c.val
    rw [GatherDims.batchCoord_eq_zero _ _ _ List.not_mem_nil]
    unfold GatherDims.start
    rw [dif_neg (show (1 : Fin 2) ∉ (rowDims N R C wf).startIndexMap from (by decide : (1 : Fin 2) ∉ ([0] : List (Fin 2))))]
    unfold GatherDims.offCoord
    rw [dif_pos ((GatherDims.mem_sKept _ _).mpr ⟨(by decide : (1 : Fin 2) ∉ ([0] : List (Fin 2))), List.not_mem_nil⟩)]
    have hi : List.idxOf (1 : Fin 2) (rowDims N R C wf).sKept = 0 :=
      (by decide : List.idxOf (1 : Fin 2) ((List.finRange 2).filter fun a : Fin 2 => a ∉ ([0] ++ [] : List (Fin 2))) = 0)
    have key : ∀ (i : ℕ) (h : i < ([1] : List (Fin 2)).length), i = 0 →
        ((ix2 r c) (([1] : List (Fin 2))[i]'h)).val = c.val := by
      intro i h hi0; subst hi0; rfl
    exact (Nat.zero_add _).trans (key _ _ hi)

theorem gather_rows_apply_of_eq {N R C w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C)
    (v : BitVec w) (hv : idx (ixP r) = v) :
    Host.gather (rowDims N R C wf) x idx (ix2 r c) = x (ix2 ⟨min v.toInt.toNat (N - 1), by omega⟩ c) := by
  subst hv
  exact gather_rows_apply hN wf x idx r c

theorem wrap_apply [Facts₀] (n : BitVec 32) (idx : IVec S16384 32) (i : S16384.Idx) (h : (idx i).toNat < 2 ^ 31) :
    refWrap n idx i = idx i := by
  show Scalar.select (IntOp.cmpi .slt (idx i) (broadcastInDim S16384 ![] bcast_S_S16384 (constantI S_ 32 0#32) i)) _ _ = _
  rw [bcast_scalar bcast_S_S16384 h_S_]
  have hne : ¬ IntOp.cmpi .slt (idx i) (0#32) = 1#1 := fun hc => by
    have := (slt_iff_toNat h (by decide)).mp hc
    simp at this
  show Scalar.select (IntOp.cmpi .slt (idx i) (0#32)) _ _ = _
  rw [eq_zero_of_ne_one hne, select_zero]

theorem clamp_eq_rowOf {n : ℕ} [NeZero n] (hn : n ≤ 2 ^ 31) (w : BitVec 32) (h : w.toNat < n) :
    (⟨min w.toInt.toNat (n - 1), by have := NeZero.pos n; omega⟩ : Fin n) = Cert.Spec.rowOf n w := by
  refine Fin.ext ?_
  show min w.toInt.toNat (n - 1) = w.toNat % n
  rw [toInt_eq_toNat_of_lt (by omega), Int.toNat_natCast, Nat.mod_eq_of_lt h]
  omega

theorem toNat_lt_of_sge_zero {w : BitVec 32} (h0 : IntOp.cmpi .sge w 0#32 = 1#1) : w.toNat < 2 ^ 31 := by
  unfold IntOp.cmpi at h0
  have h : (0#32).sle w = true := (ofBool_eq_one_iff _).mp h0
  have h' : (0#32 : BitVec 32).toInt ≤ w.toInt := by simpa [BitVec.sle] using h
  have hz : (0#32 : BitVec 32).toInt = 0 := by decide
  rw [hz, BitVec.toInt_eq_toNat_cond] at h'
  have := w.isLt
  split at h' <;> omega

theorem toNat_lt_of_signed {w : BitVec 32} (n : ℕ) (hn : n < 2 ^ 31)
    (h0 : IntOp.cmpi .sge w 0#32 = 1#1) (h1 : IntOp.cmpi .slt w (BitVec.ofNat 32 n) = 1#1) : w.toNat < n := by
  have hw := toNat_lt_of_sge_zero h0
  have hb : (BitVec.ofNat 32 n).toNat = n := by rw [BitVec.toNat_ofNat]; exact Nat.mod_eq_of_lt (by omega)
  have := (slt_iff_toNat hw (by rw [hb]; exact hn)).mp h1
  rwa [hb] at this

end Rows

section AtIdeal

open Idealize.ShloMosaic.ValueIdx Idealize.ShloMosaic.StableHlo.Predicate

variable [Facts₀]

theorem refClamp_eq (g : FVec Ideal S_ .f32) (i : S_.Idx) (hb : g i ≠ ⊥) (ht : g i ≠ ⊤) :
    refClamp g i = Cert.Spec.clampTemp (g i) := by
  show g i + (min (Ideal.ofBits .f32 0x3F7D70A4#32) (max (Ideal.ofBits .f32 0x3C23D70A#32) (g i)) - g i) = _
  rw [add_sub_self_of_real hb ht]
  rfl

theorem refRowsW_eq (w : FVec Ideal S256x64 .f32) (k : Fin 256) (d : Fin 64) :
    refRowsW w (ix2 k d) = Cert.Spec.unitRows (fun k' d' => w (ix2 k' d')) k d :=
  unitRows_apply reducesTo_S256x64_S256_d1 (by decide) h_S_ bcast_S256_S256x1_0 bcast_S_S256x1
    bcast_S256x1_S256x64_0_1 w k d

theorem refUnitW_eq (w : FVec Ideal S256x64 .f32) (k : Fin 256) (d : Fin 64)
    (hb : w (ix2 k d) ≠ ⊥) (ht : w (ix2 k d) ≠ ⊤) :
    refUnitW w (ix2 k d) = Cert.Spec.unitRows (fun k' d' => w (ix2 k' d')) k d := by
  show w (ix2 k d) + (refRowsW w (ix2 k d) - w (ix2 k d)) = _
  rw [add_sub_self_of_real hb ht, refRowsW_eq]

theorem refRowsX_eq (x : FVec Ideal S16384x64 .f32) (b : Fin 16384) (d : Fin 64) :
    refRowsX x (ix2 b d) = Cert.Spec.unitRows (fun b' d' => x (ix2 b' d')) b d :=
  unitRows_apply reducesTo_S16384x64_S16384_d1 (by decide) h_S_ bcast_S16384_S16384x1_0 bcast_S_S16384x1
    bcast_S16384x1_S16384x64_0_1 x b d

theorem refGathered1000000_eq (idx : IVec S16384 32) (T : FVec Ideal S1000000x64 .f32)
    (hidx : ∀ b : Fin 16384, (idx (ix1 b)).toNat < 1000000) (b : Fin 16384) (d : Fin 64) :
    refGathered1000000 idx T (ix2 b d)
      = Cert.Spec.gathered (n := 1000000) (fun r c => T (ix2 r c)) (fun b' => idx (ix1 b')) b d := by
  unfold refGathered1000000
  rw [refRowsX_eq]
  unfold Cert.Spec.gathered
  congr 1
  funext b' d'
  have hw : broadcastInDim S16384x1 ![0] bcast_S16384_S16384x1_0 (refWrap 1000000#32 idx) (ixP b') = idx (ix1 b') := by
    rw [bcast_col1, ofFin_eq_ix1, wrap_apply _ _ _ (by have := hidx b'; omega)]
  show Host.gather (rowDims 1000000 16384 64 gather_S1000000x64_S16384x1_S16384x64_1_0_n_n_0_1_164_wf) T _ (ix2 b' d') = _
  rw [gather_rows_apply_of_eq (by decide) _ _ _ _ _ _ hw, clamp_eq_rowOf (by decide) _ (hidx b')]

theorem refGathered500000_eq (idx : IVec S16384 32) (T : FVec Ideal S500000x64 .f32)
    (hidx : ∀ b : Fin 16384, (idx (ix1 b)).toNat < 500000) (b : Fin 16384) (d : Fin 64) :
    refGathered500000 idx T (ix2 b d)
      = Cert.Spec.gathered (n := 500000) (fun r c => T (ix2 r c)) (fun b' => idx (ix1 b')) b d := by
  unfold refGathered500000
  rw [refRowsX_eq]
  unfold Cert.Spec.gathered
  congr 1
  funext b' d'
  have hw : broadcastInDim S16384x1 ![0] bcast_S16384_S16384x1_0 (refWrap 500000#32 idx) (ixP b') = idx (ix1 b') := by
    rw [bcast_col1, ofFin_eq_ix1, wrap_apply _ _ _ (by have := hidx b'; omega)]
  show Host.gather (rowDims 500000 16384 64 gather_S500000x64_S16384x1_S16384x64_1_0_n_n_0_1_164_wf) T _ (ix2 b' d') = _
  rw [gather_rows_apply_of_eq (by decide) _ _ _ _ _ _ hw, clamp_eq_rowOf (by decide) _ (hidx b')]

theorem refProj_eq (x : FVec Ideal S16384x64 .f32) (w : FVec Ideal S256x64 .f32) (b : Fin 16384) (k : Fin 256) :
    refProj x w (ix2 b k) = Cert.Spec.proj (fun b' d' => x (ix2 b' d')) (fun k' d' => w (ix2 k' d')) b k := by
  unfold refProj
  simp only [Host.dotGeneral]
  rw [Ideal.dotGeneral_apply]
  rw [← Equiv.sum_comp (contrEquiv1 dot_S16384x64_S64x256_S16384x256_1_0_0_1_n_n 64 rfl rfl).symm]
  unfold Cert.Spec.proj
  refine Finset.sum_congr rfl fun e _ => ?_
  have hl : dot_S16384x64_S64x256_S16384x256_1_0_0_1_n_n.lhsIdx (ix2 b k)
      ((contrEquiv1 dot_S16384x64_S64x256_S16384x256_1_0_0_1_n_n 64 rfl rfl).symm e) = ix2 b e := by
    funext a; match a with | ⟨0, _⟩ => exact Fin.ext rfl | ⟨1, _⟩ => exact Fin.ext rfl
  have hrr : dot_S16384x64_S64x256_S16384x256_1_0_0_1_n_n.rhsIdx (ix2 b k)
      ((contrEquiv1 dot_S16384x64_S64x256_S16384x256_1_0_0_1_n_n 64 rfl rfl).symm e) = ix2 e k := by
    funext a; match a with | ⟨0, _⟩ => exact Fin.ext rfl | ⟨1, _⟩ => exact Fin.ext rfl
  rw [hl, hrr, transpose_ix2_apply]

end AtIdeal

end Cert.Ref

end
-- ==== Proof.Ref.StretchRows.lean ====
import proofs.«402369_j86406152061536_3_alg».proof.Proof.Ref.Lists
import proofs.«402369_j86406152061536_3_alg».proof.Proof.Ref.StageRows
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

open Cert.Ref

theorem stClampW_keep (V : Valuation τ sig (Elt F)) {r : Ref sig .tc} (h : r ∉ ops00_W) :
    after stClampW V (no_index (Proc.devRef .tc r)) = V (Proc.devRef .tc r) :=
  after_of_writes_sub ops00 V ops00_writes h

set_option maxRecDepth 8192 in
set_option maxHeartbeats 4000000 in

theorem stClampW_v2 (V : Valuation τ sig (Elt F)) :
    after stClampW V (no_index (Proc.devRef .tc main_v2)) = refClamp (V (Proc.devRef .tc main_arg8)) := by
  unfold stClampW
  simp only [ops00]
  after_results_simp
  all_goals rfl

set_option maxRecDepth 8192 in
set_option maxHeartbeats 4000000 in

theorem stClampW_v12 (V : Valuation τ sig (Elt F)) :
    after stClampW V (no_index (Proc.devRef .tc main_v12)) = refUnitW (V (Proc.devRef .tc main_arg6)) := by
  unfold stClampW
  simp only [ops00]
  after_results_simp
  all_goals rfl

set_option maxRecDepth 8192 in
set_option maxHeartbeats 4000000 in

theorem stClampW_v22 (V : Valuation τ sig (Elt F)) :
    after stClampW V (no_index (Proc.devRef .tc main_v22)) = refUnitW (V (Proc.devRef .tc main_arg7)) := by
  unfold stClampW
  simp only [ops00]
  after_results_simp
  all_goals rfl

theorem stRows0_keep (V : Valuation τ sig (Elt F)) {r : Ref sig .tc} (h : r ∉ ops01_W) :
    after stRows0 V (no_index (Proc.devRef .tc r)) = V (Proc.devRef .tc r) :=
  after_of_writes_sub ops01 V ops01_writes h

set_option maxRecDepth 8192 in
set_option maxHeartbeats 4000000 in

theorem stRows0_v37 (V : Valuation τ sig (Elt F)) :
    after stRows0 V (no_index (Proc.devRef .tc main_v37)) = refGathered1000000 (V (Proc.devRef .tc main_arg4)) (V (Proc.devRef .tc main_arg0)) := by
  unfold stRows0
  simp only [ops01]
  after_results_simp
  all_goals rfl

theorem stRows1_keep (V : Valuation τ sig (Elt F)) {r : Ref sig .tc} (h₁ : r ∉ ops02_W) (h₂ : r ∉ ops03_W) :
    after stRows1 V (no_index (Proc.devRef .tc r)) = V (Proc.devRef .tc r) := by
  unfold stRows1
  rw [StableHlo.after_append, after_of_writes_sub ops03 _ ops03_writes h₂, after_of_writes_sub ops02 _ ops02_writes h₁]

set_option maxRecDepth 8192 in
set_option maxHeartbeats 4000000 in

theorem stRows1_v52 (V : Valuation τ sig (Elt F)) :
    after stRows1 V (no_index (Proc.devRef .tc main_v52)) = refGathered500000 (V (Proc.devRef .tc main_arg5)) (V (Proc.devRef .tc main_arg1)) := by
  unfold stRows1
  simp only [ops02, ops03, List.cons_append, List.nil_append]
  after_results_simp
  all_goals rfl

theorem stRows2_keep (V : Valuation τ sig (Elt F)) {r : Ref sig .tc} (h : r ∉ ops04_W) :
    after stRows2 V (no_index (Proc.devRef .tc r)) = V (Proc.devRef .tc r) :=
  after_of_writes_sub ops04 V ops04_writes h

set_option maxRecDepth 8192 in
set_option maxHeartbeats 4000000 in

theorem stRows2_v67 (V : Valuation τ sig (Elt F)) :
    after stRows2 V (no_index (Proc.devRef .tc main_v67)) = refGathered500000 (V (Proc.devRef .tc main_arg5)) (V (Proc.devRef .tc main_arg2)) := by
  unfold stRows2
  simp only [ops04]
  after_results_simp
  all_goals rfl

theorem stRows3_keep (V : Valuation τ sig (Elt F)) {r : Ref sig .tc} (h : r ∉ ops05_W) :
    after stRows3 V (no_index (Proc.devRef .tc r)) = V (Proc.devRef .tc r) :=
  after_of_writes_sub ops05 V ops05_writes h

set_option maxRecDepth 8192 in
set_option maxHeartbeats 4000000 in

theorem stRows3_v82 (V : Valuation τ sig (Elt F)) :
    after stRows3 V (no_index (Proc.devRef .tc main_v82)) = refGathered500000 (V (Proc.devRef .tc main_arg5)) (V (Proc.devRef .tc main_arg3)) := by
  unfold stRows3
  simp only [ops05]
  after_results_simp
  all_goals rfl

theorem stProj_keep (V : Valuation τ sig (Elt F)) {r : Ref sig .tc} (h : r ∉ ops06_W) :
    after stProj V (no_index (Proc.devRef .tc r)) = V (Proc.devRef .tc r) :=
  after_of_writes_sub ops06 V ops06_writes h

set_option maxRecDepth 8192 in
set_option maxHeartbeats 4000000 in

theorem stProj_v84 (V : Valuation τ sig (Elt F)) :
    after stProj V (no_index (Proc.devRef .tc main_v84)) = refProj (V (Proc.devRef .tc main_v37)) (V (Proc.devRef .tc main_v12)) := by
  unfold stProj
  simp only [ops06]
  after_results_simp
  all_goals rfl

set_option maxRecDepth 8192 in
set_option maxHeartbeats 4000000 in

theorem stProj_v86 (V : Valuation τ sig (Elt F)) :
    after stProj V (no_index (Proc.devRef .tc main_v86)) = refProj (V (Proc.devRef .tc main_v52)) (V (Proc.devRef .tc main_v12)) := by
  unfold stProj
  simp only [ops06]
  after_results_simp
  all_goals rfl

set_option maxRecDepth 8192 in
set_option maxHeartbeats 4000000 in

theorem stProj_v88 (V : Valuation τ sig (Elt F)) :
    after stProj V (no_index (Proc.devRef .tc main_v88)) = refProj (V (Proc.devRef .tc main_v52)) (V (Proc.devRef .tc main_v22)) := by
  unfold stProj
  simp only [ops06]
  after_results_simp
  all_goals rfl

set_option maxRecDepth 8192 in
set_option maxHeartbeats 4000000 in

theorem stProj_v90 (V : Valuation τ sig (Elt F)) :
    after stProj V (no_index (Proc.devRef .tc main_v90)) = refProj (V (Proc.devRef .tc main_v67)) (V (Proc.devRef .tc main_v22)) := by
  unfold stProj
  simp only [ops06]
  after_results_simp
  all_goals rfl

set_option maxRecDepth 8192 in
set_option maxHeartbeats 4000000 in

theorem stProj_v92 (V : Valuation τ sig (Elt F)) :
    after stProj V (no_index (Proc.devRef .tc main_v92)) = refProj (V (Proc.devRef .tc main_v82)) (V (Proc.devRef .tc main_v22)) := by
  unfold stProj
  simp only [ops06]
  after_results_simp
  all_goals rfl

end Cert.ReferenceIdeal.Hand

end
-- ==== Proof.Ref.StagePlan.lean ====
import proofs.«402369_j86406152061536_3_alg».proof.ReferenceIdeal
import proofs.«402369_j86406152061536_3_alg».proof.Proof.Spec
import Idealize.ShloMosaic.Lib.IdealHost
import Idealize.ShloMosaic.Lib.ValueLayout

noncomputable section

namespace Cert.ReferenceIdeal.Hand

open Idealize.ShloMosaic Idealize.ShloMosaic.ValueIdx
open Cert.ReferenceIdeal Cert.ReferenceIdeal.Facts₀

section Generic

variable {F : FTy → Type} [FloatOps F] [Facts]

def refRowStep (Q : FVec F S256x16384 .f32) : FVec F S256x16384 .f32 :=
  let r : FVec F S256 .f32 := Host.reduceAdd Q (constant S_ .f32 0x00000000#32) reducesTo_S256x16384_S256_d1 h_S_
  let r1 : FVec F S256x1 .f32 := broadcastInDim S256x1 ![0] bcast_S256_S256x1_0 r
  let k1 : FVec F S256x1 .f32 := broadcastInDim S256x1 ![] bcast_S_S256x1 (constant S_ .f32 0x43800000#32)
  let rk : FVec F S256x1 .f32 := mulf r1 k1
  let rb : FVec F S256x16384 .f32 := broadcastInDim S256x16384 ![0, 1] bcast_S256x1_S256x16384_0_1 rk
  Host.divf Q rb

def refColStep (Q : FVec F S256x16384 .f32) : FVec F S256x16384 .f32 :=
  let c : FVec F S16384 .f32 := Host.reduceAdd Q (constant S_ .f32 0x00000000#32) reducesTo_S256x16384_S16384_d0 h_S_
  let c1 : FVec F S1x16384 .f32 := broadcastInDim S1x16384 ![1] bcast_S16384_S1x16384_1 c
  let b1 : FVec F S1x16384 .f32 := broadcastInDim S1x16384 ![] bcast_S_S1x16384 (constant S_ .f32 0x46800000#32)
  let cb : FVec F S1x16384 .f32 := mulf c1 b1
  let cbb : FVec F S256x16384 .f32 := broadcastInDim S256x16384 ![0, 1] bcast_S1x16384_S256x16384_0_1 cb
  Host.divf Q cbb

def refRound (Q : FVec F S256x16384 .f32) : FVec F S256x16384 .f32 := refColStep (refRowStep Q)

def refPlan (code : FVec F S16384x256 .f32) : FVec F S16384x256 .f32 :=
  let t : FVec F S16384x256 .f32 := broadcastInDim S16384x256 ![] bcast_S_S16384x256 (constant S_ .f32 0x3D4CCCCD#32)
  let e : FVec F S16384x256 .f32 := Host.exp (Host.divf code t)
  let Q0 : FVec F S256x16384 .f32 := transpose S256x16384 [1, 0] e transposes_S16384x256_S256x16384_1_0
  let m : FVec F S_ .f32 := Host.reduceAdd Q0 (constant S_ .f32 0x00000000#32) reducesTo_S256x16384_S_d0_1 h_S_
  let Q1 : FVec F S256x16384 .f32 := Host.divf Q0 (broadcastInDim S256x16384 ![] bcast_S_S256x16384 m)
  let Q4 : FVec F S256x16384 .f32 := refRound (refRound (refRound Q1))
  let Q5 : FVec F S256x16384 .f32 :=
    mulf Q4 (broadcastInDim S256x16384 ![] bcast_S_S256x16384 (constant S_ .f32 0x46800000#32))
  transpose S16384x256 [1, 0] Q5 transposes_S256x16384_S16384x256_1_0

end Generic

section AtIdeal

open scoped BigOperators

variable [Facts]

theorem ofBits_256 : Ideal.ofBits .f32 0x43800000#32 = ((256 : ℝ) : EReal) := by
  simp [Ideal.ofBits, Ideal.ieee, -EReal.coe_mul]; norm_num

theorem ofBits_16384 : Ideal.ofBits .f32 0x46800000#32 = ((16384 : ℝ) : EReal) := by
  simp [Ideal.ofBits, Ideal.ieee, -EReal.coe_mul]; norm_num

theorem ofBits_temp : Ideal.ofBits .f32 0x3D4CCCCD#32 = ((13421773 / 268435456 : ℝ) : EReal) := by
  simp [Ideal.ofBits, Ideal.ieee, -EReal.coe_mul]; norm_num

theorem div_temp (x : EReal) : Ideal.div x (Ideal.ofBits .f32 0x3D4CCCCD#32) = x * Cert.Spec.invT := by
  rw [ofBits_temp, Ideal.div_coe (by norm_num)]
  unfold Cert.Spec.invT
  congr 2
  norm_num

theorem K_cast : ((Cert.Spec.K : ℕ) : EReal) = ((256 : ℝ) : EReal) := by norm_cast
theorem B_cast : ((Cert.Spec.B : ℕ) : EReal) = ((16384 : ℝ) : EReal) := by norm_cast

theorem splat_apply {T : Shape} (h : S_.BroadcastsInDim T ![]) (w : BitVec 32) (j : T.Idx) :
    broadcastInDim T ![] h (constant (F := Ideal) S_ .f32 w) j = Ideal.ofBits .f32 w := by
  rw [broadcastInDim_scalar_apply]; rfl

theorem total_apply (Q : FVec Ideal S256x16384 .f32) (j : S_.Idx) :
    Host.reduceAdd Q (constant S_ .f32 0x00000000#32) reducesTo_S256x16384_S_d0_1 h_S_ j
      = ∑ b : Fin 16384, ∑ k : Fin 256, Q (ix2 k b) := by
  rw [hostReduceAdd_apply, Ideal.hostReduceAdd_total _ (fun b => b.elim0)]
  show Ideal.ofBits .f32 0x00000000#32 + _ = _
  rw [Ideal.ofBits_zero_f32, zero_add, sum_idx2, Finset.sum_comm]

theorem sumBatch_apply (Q : FVec Ideal S256x16384 .f32) (k : Fin 256) :
    Host.reduceAdd Q (constant S_ .f32 0x00000000#32) reducesTo_S256x16384_S256_d1 h_S_ (ix1 k)
      = ∑ b : Fin 16384, Q (ix2 k b) := by
  have h : S256x16384.Reduces [1] S256 := by decide
  rw [hostReduceAdd_apply, Ideal.hostReduceAdd_single _ h]
  show Ideal.ofBits .f32 0x00000000#32 + _ = _
  rw [Ideal.ofBits_zero_f32, zero_add]
  refine Finset.sum_congr rfl fun b _ => congrArg Q ?_
  funext a; match a with | ⟨0, _⟩ => rfl | ⟨1, _⟩ => rfl

theorem sumCodes_apply (Q : FVec Ideal S256x16384 .f32) (b : Fin 16384) :
    Host.reduceAdd Q (constant S_ .f32 0x00000000#32) reducesTo_S256x16384_S16384_d0 h_S_ (ix1 b)
      = ∑ k : Fin 256, Q (ix2 k b) := by
  have h : S256x16384.Reduces [0] S16384 := by decide
  rw [hostReduceAdd_apply, Ideal.hostReduceAdd_single _ h]
  show Ideal.ofBits .f32 0x00000000#32 + _ = _
  rw [Ideal.ofBits_zero_f32, zero_add]
  refine Finset.sum_congr rfl fun k _ => congrArg Q ?_
  funext a; match a with | ⟨0, _⟩ => rfl | ⟨1, _⟩ => rfl

theorem keepRow_apply {α : Type} (x : S256.Idx → α) (k : Fin 256) (u : Fin 1) :
    broadcastInDim S256x1 ![0] bcast_S256_S256x1_0 x (ix2 k u) = x (ix1 k) := by
  refine broadcastInDim_apply ![0] bcast_S256_S256x1_0 x (ix2 k u) (ix1 k) fun a => ?_
  match a with | ⟨0, _⟩ => rfl

theorem spreadRow_apply {α : Type} (x : S256x1.Idx → α) (k : Fin 256) (b : Fin 16384) :
    broadcastInDim S256x16384 ![0, 1] bcast_S256x1_S256x16384_0_1 x (ix2 k b) = x (ix2 k (0 : Fin 1)) := by
  refine broadcastInDim_apply ![0, 1] bcast_S256x1_S256x16384_0_1 x (ix2 k b) (ix2 k (0 : Fin 1)) fun a => ?_
  match a with | ⟨0, _⟩ => rfl | ⟨1, _⟩ => rfl

theorem keepCol_apply {α : Type} (x : S16384.Idx → α) (u : Fin 1) (b : Fin 16384) :
    broadcastInDim S1x16384 ![1] bcast_S16384_S1x16384_1 x (ix2 u b) = x (ix1 b) := by
  refine broadcastInDim_apply ![1] bcast_S16384_S1x16384_1 x (ix2 u b) (ix1 b) fun a => ?_
  match a with | ⟨0, _⟩ => rfl

theorem spreadCol_apply {α : Type} (x : S1x16384.Idx → α) (k : Fin 256) (b : Fin 16384) :
    broadcastInDim S256x16384 ![0, 1] bcast_S1x16384_S256x16384_0_1 x (ix2 k b) = x (ix2 (0 : Fin 1) b) := by
  refine broadcastInDim_apply ![0, 1] bcast_S1x16384_S256x16384_0_1 x (ix2 k b) (ix2 (0 : Fin 1) b) fun a => ?_
  match a with | ⟨0, _⟩ => rfl | ⟨1, _⟩ => rfl

theorem refRowStep_apply (Q : FVec Ideal S256x16384 .f32) (k : Fin 256) (b : Fin 16384) :
    refRowStep Q (ix2 k b) = Ideal.div (Q (ix2 k b)) ((∑ b' : Fin 16384, Q (ix2 k b')) * ((256 : ℝ) : EReal)) := by
  unfold refRowStep
  simp only []
  rw [hostDivf_apply, spreadRow_apply, mulf_apply, keepRow_apply, splat_apply, sumBatch_apply, ofBits_256]

theorem refColStep_apply (Q : FVec Ideal S256x16384 .f32) (k : Fin 256) (b : Fin 16384) :
    refColStep Q (ix2 k b) = Ideal.div (Q (ix2 k b)) ((∑ k' : Fin 256, Q (ix2 k' b)) * ((16384 : ℝ) : EReal)) := by
  unfold refColStep
  simp only []
  rw [hostDivf_apply, spreadCol_apply, mulf_apply, keepCol_apply, splat_apply, sumCodes_apply, ofBits_16384]

theorem refRound_apply (Q : FVec Ideal S256x16384 .f32) (P : Fin Cert.Spec.B → Fin Cert.Spec.K → EReal)
    (hQ : ∀ k b, Q (ix2 k b) = P b k) (k : Fin 256) (b : Fin 16384) :
    refRound Q (ix2 k b) = Cert.Spec.sinkRound P b k := by
  have hrow : ∀ k b, refRowStep Q (ix2 k b)
      = Ideal.div (P b k) ((∑ b' : Fin Cert.Spec.B, P b' k) * ((Cert.Spec.K : ℕ) : EReal)) := fun k b => by
    rw [refRowStep_apply, K_cast, hQ]
    exact congrArg (fun s => Ideal.div (P b k) (s * ((256 : ℝ) : EReal))) (Finset.sum_congr rfl fun b' _ => hQ k b')
  unfold refRound Cert.Spec.sinkRound
  simp only []
  rw [refColStep_apply, B_cast]
  simp only [hrow]

theorem refPlan_apply (code : FVec Ideal S16384x256 .f32) (b : Fin 16384) (k : Fin 256) :
    refPlan code (ix2 b k) = Cert.Spec.plan (fun b k => code (ix2 b k)) b k := by

  have h0 : ∀ k b, transpose S256x16384 [1, 0]
        (Host.exp (Host.divf code (broadcastInDim S16384x256 ![] bcast_S_S16384x256 (constant S_ .f32 0x3D4CCCCD#32))))
        transposes_S16384x256_S256x16384_1_0 (ix2 k b)
      = Ideal.exp (code (ix2 b k) * Cert.Spec.invT) := fun k b => by
    rw [transpose_ix2_apply]
    show Ideal.exp (Ideal.div (code (ix2 b k)) _) = _
    rw [splat_apply, div_temp]
  unfold refPlan Cert.Spec.plan
  simp only []
  rw [transpose_ix2_apply, mulf_apply, splat_apply, ofBits_16384, B_cast]
  refine congrArg (· * ((16384 : ℝ) : EReal)) ?_
  refine refRound_apply _ _ (fun k b => refRound_apply _ _ (fun k b => refRound_apply _ _ (fun k b => ?_) k b) k b) k b
  rw [hostDivf_apply, broadcastInDim_scalar_apply, total_apply, h0]
  exact congrArg (Ideal.div _) (Finset.sum_congr rfl fun b' _ => Finset.sum_congr rfl fun k' _ => h0 k' b')

end AtIdeal

end Cert.ReferenceIdeal.Hand

end
-- ==== Proof.Ref.StretchPlan.lean ====
import proofs.«402369_j86406152061536_3_alg».proof.Proof.Ref.Lists
import proofs.«402369_j86406152061536_3_alg».proof.Proof.Ref.StagePlan
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem stPlan1_keep (V : Valuation τ sig (Elt F)) {r : Ref sig .tc} (h₁ : r ∉ ops07_W) (h₂ : r ∉ ops08_W) :
    after stPlan1 V (no_index (Proc.devRef .tc r)) = V (Proc.devRef .tc r) := by
  unfold stPlan1
  rw [StableHlo.after_append, after_of_writes_sub ops08 _ ops08_writes h₂, after_of_writes_sub ops07 _ ops07_writes h₁]

set_option maxRecDepth 8192 in
set_option maxHeartbeats 8000000 in

theorem stPlan1_v138 (V : Valuation τ sig (Elt F)) :
    after stPlan1 V (no_index (Proc.devRef .tc main_v138)) = refPlan (V (Proc.devRef .tc main_v86)) := by
  unfold stPlan1
  simp only [ops07, ops08, List.cons_append, List.nil_append]
  after_results_simp
  all_goals rfl

theorem stPlan2_keep (V : Valuation τ sig (Elt F)) {r : Ref sig .tc} (h₁ : r ∉ ops09_W) (h₂ : r ∉ ops10_W) :
    after stPlan2 V (no_index (Proc.devRef .tc r)) = V (Proc.devRef .tc r) := by
  unfold stPlan2
  rw [StableHlo.after_append, after_of_writes_sub ops10 _ ops10_writes h₂, after_of_writes_sub ops09 _ ops09_writes h₁]

set_option maxRecDepth 8192 in
set_option maxHeartbeats 8000000 in

theorem stPlan2_v184 (V : Valuation τ sig (Elt F)) :
    after stPlan2 V (no_index (Proc.devRef .tc main_v184)) = refPlan (V (Proc.devRef .tc main_v84)) := by
  unfold stPlan2
  simp only [ops09, ops10, List.cons_append, List.nil_append]
  after_results_simp
  all_goals rfl

theorem stPlan3_keep (V : Valuation τ sig (Elt F)) {r : Ref sig .tc} (h₁ : r ∉ ops11_W) (h₂ : r ∉ ops12_W) :
    after stPlan3 V (no_index (Proc.devRef .tc r)) = V (Proc.devRef .tc r) := by
  unfold stPlan3
  rw [StableHlo.after_append, after_of_writes_sub ops12 _ ops12_writes h₂, after_of_writes_sub ops11 _ ops11_writes h₁]

set_option maxRecDepth 8192 in
set_option maxHeartbeats 8000000 in

theorem stPlan3_v230 (V : Valuation τ sig (Elt F)) :
    after stPlan3 V (no_index (Proc.devRef .tc main_v230)) = refPlan (V (Proc.devRef .tc main_v88)) := by
  unfold stPlan3
  simp only [ops11, ops12, List.cons_append, List.nil_append]
  after_results_simp
  all_goals rfl

theorem stPlan4_keep (V : Valuation τ sig (Elt F)) {r : Ref sig .tc} (h₁ : r ∉ ops13_W) (h₂ : r ∉ ops14_W) :
    after stPlan4 V (no_index (Proc.devRef .tc r)) = V (Proc.devRef .tc r) := by
  unfold stPlan4
  rw [StableHlo.after_append, after_of_writes_sub ops14 _ ops14_writes h₂, after_of_writes_sub ops13 _ ops13_writes h₁]

set_option maxRecDepth 8192 in
set_option maxHeartbeats 8000000 in

theorem stPlan4_v276 (V : Valuation τ sig (Elt F)) :
    after stPlan4 V (no_index (Proc.devRef .tc main_v276)) = refPlan (V (Proc.devRef .tc main_v90)) := by
  unfold stPlan4
  simp only [ops13, ops14, List.cons_append, List.nil_append]
  after_results_simp
  all_goals rfl

theorem stPlan5_keep (V : Valuation τ sig (Elt F)) {r : Ref sig .tc} (h₁ : r ∉ ops15_W) (h₂ : r ∉ ops16_W) :
    after stPlan5 V (no_index (Proc.devRef .tc r)) = V (Proc.devRef .tc r) := by
  unfold stPlan5
  rw [StableHlo.after_append, after_of_writes_sub ops16 _ ops16_writes h₂, after_of_writes_sub ops15 _ ops15_writes h₁]

set_option maxRecDepth 8192 in
set_option maxHeartbeats 8000000 in

theorem stPlan5_v322 (V : Valuation τ sig (Elt F)) :
    after stPlan5 V (no_index (Proc.devRef .tc main_v322)) = refPlan (V (Proc.devRef .tc main_v92)) := by
  unfold stPlan5
  simp only [ops15, ops16, List.cons_append, List.nil_append]
  after_results_simp
  all_goals rfl

end Cert.ReferenceIdeal.Hand

end
-- ==== Proof.Ref.StageCe.lean ====
import proofs.«402369_j86406152061536_3_alg».proof.ReferenceIdeal
import proofs.«402369_j86406152061536_3_alg».proof.Proof.Spec
import Idealize.ShloMosaic.Lib.IdealHost
import Idealize.ShloMosaic.Lib.ValueIdx
import Idealize.ShloMosaic.Lib.ValueIdxRank1
import Idealize.ShloMosaic.Lib.ValueIdxCoords
import Idealize.ShloMosaic.Lib.Pipeline.Value

noncomputable section

namespace Cert.ReferenceIdeal.Hand

open Idealize.ShloMosaic Idealize.ShloMosaic.ValueIdx Cert.ReferenceIdeal
open Cert.ReferenceIdeal.Facts₀

variable {F : FTy → Type} [FloatOps F] [Facts₀]

abbrev Mat (F : FTy → Type) : Type := (⟨S16384x256, .f32⟩ : BufTy).Contents (Elt F)
abbrev Vec1 (F : FTy → Type) : Type := (⟨S16384, .f32⟩ : BufTy).Contents (Elt F)
abbrev Col (F : FTy → Type) : Type := (⟨S16384x1, .f32⟩ : BufTy).Contents (Elt F)
abbrev Sc (F : FTy → Type) : Type := (⟨S_, .f32⟩ : BufTy).Contents (Elt F)

def refCe (q code : Mat F) (g : Sc F) : Sc F :=
  let b : Mat F := broadcastInDim S16384x256 ![] bcast_S_S16384x256 g
  let x : Mat F := Host.divf code b
  let cst : Sc F := constant S_ .f32 0xFF800000#32
  let v0 : Vec1 F := Host.reduce FloatOps.maximumf x cst reducesTo_S16384x256_S16384_d1 h_S_
  let cst_0 : Sc F := constant S_ .f32 0xFF800000#32
  let v1 : Vec1 F := broadcastInDim S16384 ![] bcast_S_S16384 cst_0
  let v2 : Vec1 F := maximumf v1 v0
  let v3 : Col F := broadcastInDim S16384x1 ![0] bcast_S16384_S16384x1_0 v2
  let v4 : Mat F := broadcastInDim S16384x256 ![0, 1] bcast_S16384x1_S16384x256_0_1 v3
  let v5 : Mat F := subf x v4
  let v6 : Mat F := Host.exp v5
  let cst_1 : Sc F := constant S_ .f32 0x00000000#32
  let v7 : Vec1 F := Host.reduceAdd v6 cst_1 reducesTo_S16384x256_S16384_d1 h_S_
  let v8 : Col F := broadcastInDim S16384x1 ![0] bcast_S16384_S16384x1_0 v7
  let v9 : Col F := Host.log v8
  let v10 : Mat F := broadcastInDim S16384x256 ![0, 1] bcast_S16384x1_S16384x256_0_1 v9
  let ls : Mat F := subf v5 v10
  let p : Mat F := mulf q ls
  let z0 : Sc F := constant S_ .f32 0x00000000#32
  let r : Vec1 F := Host.reduceAdd p z0 reducesTo_S16384x256_S16384_d1 h_S_
  let z1 : Sc F := constant S_ .f32 0x00000000#32
  let s : Sc F := Host.reduceAdd r z1 reducesTo_S16384_S_d0 h_S_
  let n : Sc F := constant S_ .f32 0x46800000#32
  let m : Sc F := Host.divf s n
  Host.negf m

def refFinal (t1 t2 t3 t4 t5 t6 t7 t8 : Sc F) : Sc F :=
  let a : Sc F := addf t1 t2
  let b0 : Sc F := addf t3 t4
  let b1 : Sc F := addf b0 t5
  let b2 : Sc F := addf b1 t6
  let b3 : Sc F := addf b2 t7
  let b4 : Sc F := addf b3 t8
  let two : Sc F := constant S_ .f32 0x40000000#32
  let ha : Sc F := Host.divf a two
  let six : Sc F := constant S_ .f32 0x40C00000#32
  let hb : Sc F := Host.divf b4 six
  addf ha hb

def refX (code : Mat F) (g : Sc F) : Mat F :=
  Host.divf code (broadcastInDim S16384x256 ![] bcast_S_S16384x256 g)

def col (v : Vec1 F) : Col F := broadcastInDim S16384x1 ![0] bcast_S16384_S16384x1_0 v
def wide (w : Col F) : Mat F := broadcastInDim S16384x256 ![0, 1] bcast_S16384x1_S16384x256_0_1 w

def refRowMax (x : Mat F) : Vec1 F :=
  maximumf (broadcastInDim S16384 ![] bcast_S_S16384 (constant S_ .f32 0xFF800000#32 : Sc F))
    (Host.reduce FloatOps.maximumf x (constant S_ .f32 0xFF800000#32 : Sc F) reducesTo_S16384x256_S16384_d1 h_S_)

def refShift (x : Mat F) : Mat F := subf x (wide (col (refRowMax x)))

def refLs (x : Mat F) : Mat F :=
  subf (refShift x) (wide (Host.log (col (Host.reduceAdd (Host.exp (refShift x)) (constant S_ .f32 0x00000000#32 : Sc F)
    reducesTo_S16384x256_S16384_d1 h_S_))))

theorem refCe_stages (q code : Mat F) (g : Sc F) :
    refCe q code g = Host.negf (Host.divf (Host.reduceAdd (Host.reduceAdd (mulf q (refLs (refX code g)))
      (constant S_ .f32 0x00000000#32 : Sc F) reducesTo_S16384x256_S16384_d1 h_S_) (constant S_ .f32 0x00000000#32 : Sc F)
      reducesTo_S16384_S_d0 h_S_) (constant S_ .f32 0x46800000#32 : Sc F)) := rfl

theorem col_apply {α : Type} (v : (⟨1, ![16384]⟩ : Shape).Idx → α) (b : Fin 16384) (u : Fin 1) :
    broadcastInDim S16384x1 ![0] bcast_S16384_S16384x1_0 v (ix2 b u) = v (ix1 b) :=
  broadcastInDim_apply _ _ v (ix2 b u) (ix1 b) (fun a => match a with | ⟨0, _⟩ => rfl)

theorem wide_apply {α : Type} (w : (⟨2, ![16384, 1]⟩ : Shape).Idx → α) (b : Fin 16384) (k : Fin 256) :
    broadcastInDim S16384x256 ![0, 1] bcast_S16384x1_S16384x256_0_1 w (ix2 b k) = w (ix2 b u0) :=
  broadcastInDim_apply _ _ w (ix2 b k) (ix2 b u0) (fun a => match a with | ⟨0, _⟩ => rfl | ⟨1, _⟩ => rfl)

theorem redRow : Shape.Reduces S16384x256 [1] S16384 := by decide

theorem lift_row (b : Fin 16384) (k : Fin 256) : redRow.lift (ix1 b) k = ix2 b k := by
  funext c
  match c with
  | ⟨0, _⟩ => rfl
  | ⟨1, _⟩ => rfl

theorem ofBits_ninf : Ideal.ofBits .f32 0xFF800000#32 = (⊥ : EReal) := by simp [Ideal.ofBits, Ideal.ieee]
theorem ofBits_rows : Ideal.ofBits .f32 0x46800000#32 = ((Cert.Spec.B : ℕ) : EReal) := by
  rw [show ((Cert.Spec.B : ℕ) : EReal) = ((16384 : ℝ) : EReal) by norm_cast]
  simp [Ideal.ofBits, Ideal.ieee, -EReal.coe_mul]; norm_num
theorem ofBits_two : Ideal.ofBits .f32 0x40000000#32 = (2 : EReal) := by
  rw [show (2 : EReal) = ((2 : ℝ) : EReal) by norm_cast]
  simp [Ideal.ofBits, Ideal.ieee, -EReal.coe_mul]; norm_num
theorem ofBits_six : Ideal.ofBits .f32 0x40C00000#32 = (6 : EReal) := by
  rw [show (6 : EReal) = ((6 : ℝ) : EReal) by norm_cast]
  simp [Ideal.ofBits, Ideal.ieee, -EReal.coe_mul]; norm_num

theorem fold_max_bot {ι : Type} (s : Finset ι) (f : ι → EReal) : s.fold max ⊥ f = s.sup f := by
  apply le_antisymm
  · exact (Finset.fold_max_le _).2 ⟨bot_le, fun x hx => Finset.le_sup hx⟩
  · exact Finset.sup_le fun x hx => (Finset.le_fold_max _).2 (Or.inr ⟨x, hx, le_rfl⟩)

theorem refX_apply (code : Mat Ideal) (g : Sc Ideal) (b : Fin 16384) (k : Fin 256) :
    refX code g (ix2 b k) = Ideal.div (code (ix2 b k)) (g ix0) :=
  congrArg (Ideal.div (code (ix2 b k))) (broadcastInDim_scalar_apply bcast_S_S16384x256 g (ix2 b k))

theorem ninf_apply (j : (⟨1, ![16384]⟩ : Shape).Idx) :
    broadcastInDim S16384 ![] bcast_S_S16384 (constant (F := Ideal) S_ .f32 0xFF800000#32) j = (⊥ : EReal) :=
  (broadcastInDim_scalar_apply bcast_S_S16384 (constant (F := Ideal) S_ .f32 0xFF800000#32) j).trans
    ((constant_apply (s := S_) (φ := .f32) 0xFF800000#32 ix0).trans ofBits_ninf)

theorem rowFold_apply (x : Mat Ideal) (b : Fin 16384) :
    Host.reduce (FloatOps.maximumf (F := Ideal) (φ := .f32)) x (constant (F := Ideal) S_ .f32 0xFF800000#32)
      reducesTo_S16384x256_S16384_d1 h_S_ (ix1 b) = Finset.univ.sup fun k : Fin 256 => x (ix2 b k) := by
  refine (Host.reduce_eq_fold_single (FloatOps.maximumf (F := Ideal) (φ := .f32)) x
    (constant (F := Ideal) S_ .f32 0xFF800000#32) reducesTo_S16384x256_S16384_d1 redRow h_S_ (ix1 b)).trans ?_
  have e : (x ∘ redRow.lift (ix1 b)) = fun k : Fin 256 => x (ix2 b k) := funext fun k => congrArg x (lift_row b k)
  have e0 : constant (F := Ideal) S_ .f32 0xFF800000#32 (Shape.Idx.first h_S_) = (⊥ : EReal) :=
    (constant_apply (s := S_) (φ := .f32) 0xFF800000#32 _).trans ofBits_ninf
  rw [e, e0]
  exact fold_max_bot _ _

theorem refRowMax_apply (x : Mat Ideal) (b : Fin 16384) :
    refRowMax x (ix1 b) = Finset.univ.sup fun k : Fin 256 => x (ix2 b k) := by
  unfold refRowMax
  refine (maximumf_apply _ _ (ix1 b)).trans ?_
  exact (congrArg₂ max (ninf_apply (ix1 b)) (rowFold_apply x b)).trans (max_bot_left _)

theorem hostExp_apply {s : Shape} {φ : FTy} (a : FVec Ideal s φ) (i : s.Idx) : Host.exp a i = Ideal.exp (a i) := rfl
theorem hostLog_apply {s : Shape} {φ : FTy} (a : FVec Ideal s φ) (i : s.Idx) : Host.log a i = Ideal.log (a i) := rfl
theorem hostNegf_apply {s : Shape} {φ : FTy} (a : FVec Ideal s φ) (i : s.Idx) : Host.negf a i = -(a i) := rfl

theorem zero_apply (j : (⟨0, ![]⟩ : Shape).Idx) : constant (F := Ideal) S_ .f32 0x00000000#32 j = (0 : EReal) :=
  (constant_apply (s := S_) (φ := .f32) 0x00000000#32 j).trans Ideal.ofBits_zero_f32

theorem refShift_apply (x : Mat Ideal) (b : Fin 16384) (k : Fin 256) :
    refShift x (ix2 b k) = x (ix2 b k) - Finset.univ.sup fun k' : Fin 256 => x (ix2 b k') := by
  unfold refShift wide col
  refine (subf_apply _ _ (ix2 b k)).trans ?_
  refine congrArg (fun t => x (ix2 b k) - t) ?_
  exact (wide_apply _ b k).trans ((col_apply _ b u0).trans (refRowMax_apply x b))

theorem rowSum_apply (y : Mat Ideal) (b : Fin 16384) :
    Host.reduceAdd (F := Ideal) y (constant (F := Ideal) S_ .f32 0x00000000#32) reducesTo_S16384x256_S16384_d1 h_S_ (ix1 b)
      = ∑ k : Fin 256, y (ix2 b k) := by
  refine (hostReduceAdd_apply y (constant (F := Ideal) S_ .f32 0x00000000#32) reducesTo_S16384x256_S16384_d1 h_S_ (ix1 b)).trans ?_
  refine (Ideal.hostReduceAdd_single reducesTo_S16384x256_S16384_d1 redRow y _ (ix1 b)).trans ?_
  rw [zero_apply, zero_add]
  exact Finset.sum_congr rfl fun k _ => congrArg y (lift_row b k)

theorem refLs_apply (x : Mat Ideal) (b : Fin 16384) (k : Fin 256) :
    refLs x (ix2 b k) = Cert.Spec.logSoftmax (fun b' k' => x (ix2 b' k')) b k := by
  unfold refLs wide col Cert.Spec.logSoftmax
  refine (subf_apply _ _ (ix2 b k)).trans ?_
  refine congrArg₂ (fun s t : EReal => s - t) (refShift_apply x b k) ?_
  refine (wide_apply _ b k).trans ?_
  refine (hostLog_apply _ (ix2 b u0)).trans (congrArg Ideal.log ?_)
  refine (col_apply _ b u0).trans ?_
  refine (rowSum_apply _ b).trans ?_
  exact Finset.sum_congr rfl fun k' _ => (hostExp_apply _ _).trans (congrArg Ideal.exp (refShift_apply x b k'))

theorem refCe_apply (q code : FVec Ideal S16384x256 .f32) (g : FVec Ideal S_ .f32) :
    refCe (F := Ideal) q code g ix0
      = Cert.Spec.crossEntropy (fun b k => q (ix2 b k)) (fun b k => code (ix2 b k)) (g ix0) := by
  rw [refCe_stages]
  unfold Cert.Spec.crossEntropy
  refine (hostNegf_apply _ ix0).trans (congrArg Neg.neg ?_)
  refine (hostDivf_apply _ _ ix0).trans (congrArg₂ Ideal.div ?_
    ((constant_apply (s := S_) (φ := .f32) 0x46800000#32 ix0).trans ofBits_rows))
  refine (hostReduceAdd_apply _ (constant (F := Ideal) S_ .f32 0x00000000#32) reducesTo_S16384_S_d0 h_S_ ix0).trans ?_
  refine (Ideal.hostReduceAdd_total reducesTo_S16384_S_d0 (fun a => a.elim0) _ _ ix0).trans ?_
  rw [zero_apply, zero_add]
  refine ((Equiv.sum_comp (idxEquiv1 (n := 16384)).symm _).symm).trans ?_
  refine Finset.sum_congr rfl fun b _ => ?_
  refine (rowSum_apply _ b).trans ?_
  refine Finset.sum_congr rfl fun k _ => ?_
  refine (mulf_apply _ _ (ix2 b k)).trans (congrArg (fun t => q (ix2 b k) * t) ?_)
  refine (refLs_apply _ b k).trans ?_
  exact congrArg (fun X : Fin 16384 → Fin 256 → EReal => Cert.Spec.logSoftmax X b k)
    (funext fun b' => funext fun k' => refX_apply code g b' k')

theorem refCe_eq (q code : Mat Ideal) (g : Sc Ideal) :
    refCe q code g = fun _ => Cert.Spec.crossEntropy (fun b k => q (ix2 b k)) (fun b k => code (ix2 b k)) (g ix0) :=
  funext fun j => (congrArg (refCe q code g) (eq_ix0 j)).trans (refCe_apply q code g)

theorem refFinal_apply (t1 t2 t3 t4 t5 t6 t7 t8 : FVec Ideal S_ .f32) :
    refFinal (F := Ideal) t1 t2 t3 t4 t5 t6 t7 t8 ix0
      = Ideal.div (t1 ix0 + t2 ix0) 2
        + Ideal.div (((((t3 ix0 + t4 ix0) + t5 ix0) + t6 ix0) + t7 ix0) + t8 ix0) 6 := by
  show Ideal.div (t1 ix0 + t2 ix0) (Ideal.ofBits .f32 0x40000000#32)
      + Ideal.div (((((t3 ix0 + t4 ix0) + t5 ix0) + t6 ix0) + t7 ix0) + t8 ix0) (Ideal.ofBits .f32 0x40C00000#32) = _
  rw [ofBits_two, ofBits_six]

theorem refFinal_eq (t1 t2 t3 t4 t5 t6 t7 t8 : Sc Ideal) :
    refFinal t1 t2 t3 t4 t5 t6 t7 t8 = fun _ => Ideal.div (t1 ix0 + t2 ix0) 2
        + Ideal.div (((((t3 ix0 + t4 ix0) + t5 ix0) + t6 ix0) + t7 ix0) + t8 ix0) 6 :=
  funext fun j => (congrArg (refFinal t1 t2 t3 t4 t5 t6 t7 t8) (eq_ix0 j)).trans (refFinal_apply t1 t2 t3 t4 t5 t6 t7 t8)

end Cert.ReferenceIdeal.Hand

end
-- ==== Proof.Ref.StretchCe.lean ====
import proofs.«402369_j86406152061536_3_alg».proof.Proof.Ref.Lists
import proofs.«402369_j86406152061536_3_alg».proof.Proof.Ref.StageCe
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem ofBuf_toBuf {sig : RefSig} {Val : EltTy → Type} {T : BufTy} (x : TRef sig T) (v : T.Contents Val) :
    x.ofBuf (x.toBuf v) = v := by
  obtain ⟨r, h, hd, hu⟩ := x
  subst h
  rfl

theorem stCe1_keep (V : Valuation τ sig (Elt F)) {r : Ref sig .tc} (h : r ∉ ops17_W) :
    after stCe1 V (no_index (Proc.devRef .tc r)) = V (Proc.devRef .tc r) :=
  after_of_writes_sub ops17 V ops17_writes h

set_option maxRecDepth 8192 in
set_option maxHeartbeats 4000000 in

theorem stCe1_v330 (V : Valuation τ sig (Elt F)) :
    after stCe1 V (no_index (Proc.devRef .tc main_v330)) = refCe (V (Proc.devRef .tc main_v184)) (V (Proc.devRef .tc main_v86)) (V (Proc.devRef .tc main_v2)) := by
  unfold stCe1
  simp only [ops17]
  after_results_simp
  simp only [ofBuf_toBuf]
  rfl

theorem stCe2_keep (V : Valuation τ sig (Elt F)) {r : Ref sig .tc} (h : r ∉ ops18_W) :
    after stCe2 V (no_index (Proc.devRef .tc r)) = V (Proc.devRef .tc r) :=
  after_of_writes_sub ops18 V ops18_writes h

set_option maxRecDepth 8192 in
set_option maxHeartbeats 4000000 in

theorem stCe2_v339 (V : Valuation τ sig (Elt F)) :
    after stCe2 V (no_index (Proc.devRef .tc main_v339)) = addf (V (Proc.devRef .tc main_v330)) (refCe (V (Proc.devRef .tc main_v138)) (V (Proc.devRef .tc main_v84)) (V (Proc.devRef .tc main_v2))) := by
  unfold stCe2
  simp only [ops18]
  after_results_simp
  simp only [ofBuf_toBuf]
  rfl

theorem stCe3_keep (V : Valuation τ sig (Elt F)) {r : Ref sig .tc} (h : r ∉ ops19_W) :
    after stCe3 V (no_index (Proc.devRef .tc r)) = V (Proc.devRef .tc r) :=
  after_of_writes_sub ops19 V ops19_writes h

set_option maxRecDepth 8192 in
set_option maxHeartbeats 4000000 in

theorem stCe3_v347 (V : Valuation τ sig (Elt F)) :
    after stCe3 V (no_index (Proc.devRef .tc main_v347)) = refCe (V (Proc.devRef .tc main_v230)) (V (Proc.devRef .tc main_v90)) (V (Proc.devRef .tc main_v2)) := by
  unfold stCe3
  simp only [ops19]
  after_results_simp
  simp only [ofBuf_toBuf]
  rfl

theorem stCe4_keep (V : Valuation τ sig (Elt F)) {r : Ref sig .tc} (h : r ∉ ops20_W) :
    after stCe4 V (no_index (Proc.devRef .tc r)) = V (Proc.devRef .tc r) :=
  after_of_writes_sub ops20 V ops20_writes h

set_option maxRecDepth 8192 in
set_option maxHeartbeats 4000000 in

theorem stCe4_v356 (V : Valuation τ sig (Elt F)) :
    after stCe4 V (no_index (Proc.devRef .tc main_v356)) = addf (V (Proc.devRef .tc main_v347)) (refCe (V (Proc.devRef .tc main_v230)) (V (Proc.devRef .tc main_v92)) (V (Proc.devRef .tc main_v2))) := by
  unfold stCe4
  simp only [ops20]
  after_results_simp
  simp only [ofBuf_toBuf]
  rfl

theorem stCe5_keep (V : Valuation τ sig (Elt F)) {r : Ref sig .tc} (h : r ∉ ops21_W) :
    after stCe5 V (no_index (Proc.devRef .tc r)) = V (Proc.devRef .tc r) :=
  after_of_writes_sub ops21 V ops21_writes h

set_option maxRecDepth 8192 in
set_option maxHeartbeats 4000000 in

theorem stCe5_v365 (V : Valuation τ sig (Elt F)) :
    after stCe5 V (no_index (Proc.devRef .tc main_v365)) = addf (V (Proc.devRef .tc main_v356)) (refCe (V (Proc.devRef .tc main_v276)) (V (Proc.devRef .tc main_v88)) (V (Proc.devRef .tc main_v2))) := by
  unfold stCe5
  simp only [ops21]
  after_results_simp
  simp only [ofBuf_toBuf]
  rfl

theorem stCe6_keep (V : Valuation τ sig (Elt F)) {r : Ref sig .tc} (h₁ : r ∉ ops22_W) (h₂ : r ∉ ops23_W) :
    after stCe6 V (no_index (Proc.devRef .tc r)) = V (Proc.devRef .tc r) := by
  unfold stCe6
  rw [StableHlo.after_append, after_of_writes_sub ops23 _ ops23_writes h₂, after_of_writes_sub ops22 _ ops22_writes h₁]

set_option maxRecDepth 8192 in
set_option maxHeartbeats 4000000 in

theorem stCe6_v374 (V : Valuation τ sig (Elt F)) :
    after stCe6 V (no_index (Proc.devRef .tc main_v374)) = addf (V (Proc.devRef .tc main_v365)) (refCe (V (Proc.devRef .tc main_v276)) (V (Proc.devRef .tc main_v92)) (V (Proc.devRef .tc main_v2))) := by
  unfold stCe6
  simp only [ops22, ops23, List.cons_append, List.nil_append]
  after_results_simp
  simp only [ofBuf_toBuf]
  rfl

theorem stCe7_keep (V : Valuation τ sig (Elt F)) {r : Ref sig .tc} (h : r ∉ ops24_W) :
    after stCe7 V (no_index (Proc.devRef .tc r)) = V (Proc.devRef .tc r) :=
  after_of_writes_sub ops24 V ops24_writes h

set_option maxRecDepth 8192 in
set_option maxHeartbeats 4000000 in

theorem stCe7_v383 (V : Valuation τ sig (Elt F)) :
    after stCe7 V (no_index (Proc.devRef .tc main_v383)) = addf (V (Proc.devRef .tc main_v374)) (refCe (V (Proc.devRef .tc main_v322)) (V (Proc.devRef .tc main_v88)) (V (Proc.devRef .tc main_v2))) := by
  unfold stCe7
  simp only [ops24]
  after_results_simp
  simp only [ofBuf_toBuf]
  rfl

theorem stCe8_keep (V : Valuation τ sig (Elt F)) {r : Ref sig .tc} (h : r ∉ ops25_W) :
    after stCe8 V (no_index (Proc.devRef .tc r)) = V (Proc.devRef .tc r) :=
  after_of_writes_sub ops25 V ops25_writes h

set_option maxRecDepth 8192 in
set_option maxHeartbeats 4000000 in

theorem stCe8_v392 (V : Valuation τ sig (Elt F)) :
    after stCe8 V (no_index (Proc.devRef .tc main_v392)) = addf (V (Proc.devRef .tc main_v383)) (refCe (V (Proc.devRef .tc main_v322)) (V (Proc.devRef .tc main_v90)) (V (Proc.devRef .tc main_v2))) := by
  unfold stCe8
  simp only [ops25]
  after_results_simp
  simp only [ofBuf_toBuf]
  rfl

theorem stTail_keep (V : Valuation τ sig (Elt F)) {r : Ref sig .tc} (h : r ∉ ops26_W) :
    after stTail V (no_index (Proc.devRef .tc r)) = V (Proc.devRef .tc r) :=
  after_of_writes_sub ops26 V ops26_writes h

set_option maxRecDepth 8192 in
set_option maxHeartbeats 4000000 in

theorem stTail_v395 (V : Valuation τ sig (Elt F)) :
    after stTail V (no_index (Proc.devRef .tc main_v395)) = addf (Host.divf (V (Proc.devRef .tc main_v339)) (constant S_ .f32 0x40000000#32)) (Host.divf (V (Proc.devRef .tc main_v392)) (constant S_ .f32 0x40C00000#32)) := by
  unfold stTail
  simp only [ops26]
  after_results_simp
  all_goals rfl

end Cert.ReferenceIdeal.Hand

end
-- ==== Proof.Ref.Loss.lean ====
import proofs.«402369_j86406152061536_3_alg».proof.Proof.Ref.StageRows
import proofs.«402369_j86406152061536_3_alg».proof.Proof.Ref.StagePlan
import proofs.«402369_j86406152061536_3_alg».proof.Proof.Ref.StageCe

noncomputable section

namespace Cert.ReferenceIdeal.Hand

open Idealize.ShloMosaic Idealize.ShloMosaic.ValueIdx
open Cert.ReferenceIdeal Cert.Ref

section Generic

variable {F : FTy → Type} [FloatOps F] [Facts]

def refLossOf (Tu : FVec F S1000000x64 .f32) (Tid Tim Ttx : FVec F S500000x64 .f32) (users items : IVec S16384 32)
    (wFeat wIi : FVec F S256x64 .f32) (gamma : FVec F S_ .f32) : FVec F S_ .f32 :=
  let g : FVec F S_ .f32 := refClamp gamma
  let wF : FVec F S256x64 .f32 := refUnitW wFeat
  let wI : FVec F S256x64 .f32 := refUnitW wIi
  let u : FVec F S16384x64 .f32 := refGathered1000000 users Tu
  let iId : FVec F S16384x64 .f32 := refGathered500000 items Tid
  let iIm : FVec F S16384x64 .f32 := refGathered500000 items Tim
  let iTx : FVec F S16384x64 .f32 := refGathered500000 items Ttx
  let cUser : FVec F S16384x256 .f32 := refProj u wF
  let cId : FVec F S16384x256 .f32 := refProj iId wF
  let cIdIi : FVec F S16384x256 .f32 := refProj iId wI
  let cImIi : FVec F S16384x256 .f32 := refProj iIm wI
  let cTxIi : FVec F S16384x256 .f32 := refProj iTx wI
  let qId : FVec F S16384x256 .f32 := refPlan cId
  let qUser : FVec F S16384x256 .f32 := refPlan cUser
  let qIdIi : FVec F S16384x256 .f32 := refPlan cIdIi
  let qImIi : FVec F S16384x256 .f32 := refPlan cImIi
  let qTxIi : FVec F S16384x256 .f32 := refPlan cTxIi
  refFinal (refCe qUser cId g) (refCe qId cUser g) (refCe qIdIi cImIi g) (refCe qIdIi cTxIi g)
    (refCe qImIi cIdIi g) (refCe qImIi cTxIi g) (refCe qTxIi cIdIi g) (refCe qTxIi cImIi g)

def refTail (g : FVec F S_ .f32) (wF wI : FVec F S256x64 .f32) (u iId iIm iTx : FVec F S16384x64 .f32) : FVec F S_ .f32 :=
  let cUser : FVec F S16384x256 .f32 := refProj u wF
  let cId : FVec F S16384x256 .f32 := refProj iId wF
  let cIdIi : FVec F S16384x256 .f32 := refProj iId wI
  let cImIi : FVec F S16384x256 .f32 := refProj iIm wI
  let cTxIi : FVec F S16384x256 .f32 := refProj iTx wI
  let qId : FVec F S16384x256 .f32 := refPlan cId
  let qUser : FVec F S16384x256 .f32 := refPlan cUser
  let qIdIi : FVec F S16384x256 .f32 := refPlan cIdIi
  let qImIi : FVec F S16384x256 .f32 := refPlan cImIi
  let qTxIi : FVec F S16384x256 .f32 := refPlan cTxIi
  refFinal (refCe qUser cId g) (refCe qId cUser g) (refCe qIdIi cImIi g) (refCe qIdIi cTxIi g)
    (refCe qImIi cIdIi g) (refCe qImIi cTxIi g) (refCe qTxIi cIdIi g) (refCe qTxIi cImIi g)

theorem refLossOf_eq_tail (Tu : FVec F S1000000x64 .f32) (Tid Tim Ttx : FVec F S500000x64 .f32) (users items : IVec S16384 32)
    (wFeat wIi : FVec F S256x64 .f32) (gamma : FVec F S_ .f32) :
    refLossOf Tu Tid Tim Ttx users items wFeat wIi gamma
      = refTail (refClamp gamma) (refUnitW wFeat) (refUnitW wIi) (refGathered1000000 users Tu)
          (refGathered500000 items Tid) (refGathered500000 items Tim) (refGathered500000 items Ttx) := rfl

end Generic

def specTail (g : EReal) (wF wI : Fin Cert.Spec.K → Fin Cert.Spec.D → EReal)
    (u iId iIm iTx : Fin Cert.Spec.B → Fin Cert.Spec.D → EReal) : EReal :=
  let cUser := Cert.Spec.proj u wF
  let cId := Cert.Spec.proj iId wF
  let cIdIi := Cert.Spec.proj iId wI
  let cImIi := Cert.Spec.proj iIm wI
  let cTxIi := Cert.Spec.proj iTx wI
  let qUser := Cert.Spec.plan cUser
  let qId := Cert.Spec.plan cId
  let qIdIi := Cert.Spec.plan cIdIi
  let qImIi := Cert.Spec.plan cImIi
  let qTxIi := Cert.Spec.plan cTxIi
  let t1 := Cert.Spec.crossEntropy qUser cId g
  let t2 := Cert.Spec.crossEntropy qId cUser g
  let t3 := Cert.Spec.crossEntropy qIdIi cImIi g
  let t4 := Cert.Spec.crossEntropy qIdIi cTxIi g
  let t5 := Cert.Spec.crossEntropy qImIi cIdIi g
  let t6 := Cert.Spec.crossEntropy qImIi cTxIi g
  let t7 := Cert.Spec.crossEntropy qTxIi cIdIi g
  let t8 := Cert.Spec.crossEntropy qTxIi cImIi g
  Ideal.div (t1 + t2) 2 + Ideal.div (((((t3 + t4) + t5) + t6) + t7) + t8) 6

theorem loss_eq_specTail (Tu : Fin 1000000 → Fin Cert.Spec.D → EReal) (Tid Tim Ttx : Fin 500000 → Fin Cert.Spec.D → EReal)
    (users items : Fin Cert.Spec.B → BitVec 32) (wFeat wIi : Fin Cert.Spec.K → Fin Cert.Spec.D → EReal) (gamma : EReal) :
    Cert.Spec.loss Tu Tid Tim Ttx users items wFeat wIi gamma
      = specTail (Cert.Spec.clampTemp gamma) (Cert.Spec.unitRows wFeat) (Cert.Spec.unitRows wIi)
          (Cert.Spec.gathered Tu users) (Cert.Spec.gathered Tid items) (Cert.Spec.gathered Tim items)
          (Cert.Spec.gathered Ttx items) := rfl

section AtIdeal

variable [Facts]

theorem ne_bot_of_real {x : EReal} (h : ∃ r : ℝ, x = (r : EReal)) : x ≠ ⊥ := by
  obtain ⟨r, rfl⟩ := h; exact EReal.coe_ne_bot r
theorem ne_top_of_real {x : EReal} (h : ∃ r : ℝ, x = (r : EReal)) : x ≠ ⊤ := by
  obtain ⟨r, rfl⟩ := h; exact EReal.coe_ne_top r

theorem refTail_apply (g : FVec Ideal S_ .f32) (wF wI : FVec Ideal S256x64 .f32) (u iId iIm iTx : FVec Ideal S16384x64 .f32) :
    refTail g wF wI u iId iIm iTx ix0
      = specTail (g ix0) (fun k d => wF (ix2 k d)) (fun k d => wI (ix2 k d)) (fun b d => u (ix2 b d))
          (fun b d => iId (ix2 b d)) (fun b d => iIm (ix2 b d)) (fun b d => iTx (ix2 b d)) := by
  have hP : ∀ (x : FVec Ideal S16384x64 .f32) (w : FVec Ideal S256x64 .f32),
      (fun (b : Fin 16384) (k : Fin 256) => refProj x w (ix2 b k))
        = Cert.Spec.proj (fun b d => x (ix2 b d)) (fun k d => w (ix2 k d)) :=
    fun x w => funext fun b => funext fun k => refProj_eq x w b k
  have hQ : ∀ c : FVec Ideal S16384x256 .f32,
      (fun (b : Fin 16384) (k : Fin 256) => refPlan c (ix2 b k)) = Cert.Spec.plan (fun b k => c (ix2 b k)) :=
    fun c => funext fun b => funext fun k => refPlan_apply c b k
  unfold refTail specTail
  simp only [refFinal_apply, refCe_apply, hQ, hP]

theorem refLossOf_apply (Tu : FVec Ideal S1000000x64 .f32) (Tid Tim Ttx : FVec Ideal S500000x64 .f32)
    (users items : IVec S16384 32) (wFeat wIi : FVec Ideal S256x64 .f32) (gamma : FVec Ideal S_ .f32)
    (hwF : ∀ j, ∃ r : ℝ, wFeat j = (r : EReal)) (hwI : ∀ j, ∃ r : ℝ, wIi j = (r : EReal))
    (hg : ∀ j, ∃ r : ℝ, gamma j = (r : EReal))
    (hu : ∀ i : Fin 16384, (users (ix1 i)).toNat < 1000000) (hi : ∀ i : Fin 16384, (items (ix1 i)).toNat < 500000) :
    refLossOf Tu Tid Tim Ttx users items wFeat wIi gamma ix0
      = Cert.Spec.loss (fun r d => Tu (ix2 r d)) (fun r d => Tid (ix2 r d)) (fun r d => Tim (ix2 r d))
          (fun r d => Ttx (ix2 r d)) (fun b => users (ix1 b)) (fun b => items (ix1 b))
          (fun k d => wFeat (ix2 k d)) (fun k d => wIi (ix2 k d)) (gamma ix0) := by
  have e_g : refClamp gamma ix0 = Cert.Spec.clampTemp (gamma ix0) :=
    refClamp_eq gamma ix0 (ne_bot_of_real (hg ix0)) (ne_top_of_real (hg ix0))
  have e_wF : (fun (k : Fin 256) (d : Fin 64) => refUnitW wFeat (ix2 k d))
      = Cert.Spec.unitRows (fun k d => wFeat (ix2 k d)) :=
    funext fun k => funext fun d => refUnitW_eq wFeat k d (ne_bot_of_real (hwF _)) (ne_top_of_real (hwF _))
  have e_wI : (fun (k : Fin 256) (d : Fin 64) => refUnitW wIi (ix2 k d))
      = Cert.Spec.unitRows (fun k d => wIi (ix2 k d)) :=
    funext fun k => funext fun d => refUnitW_eq wIi k d (ne_bot_of_real (hwI _)) (ne_top_of_real (hwI _))
  have e_u : (fun (b : Fin 16384) (d : Fin 64) => refGathered1000000 users Tu (ix2 b d))
      = Cert.Spec.gathered (n := 1000000) (fun r d => Tu (ix2 r d)) (fun b => users (ix1 b)) :=
    funext fun b => funext fun d => refGathered1000000_eq users Tu hu b d
  have e_id : (fun (b : Fin 16384) (d : Fin 64) => refGathered500000 items Tid (ix2 b d))
      = Cert.Spec.gathered (n := 500000) (fun r d => Tid (ix2 r d)) (fun b => items (ix1 b)) :=
    funext fun b => funext fun d => refGathered500000_eq items Tid hi b d
  have e_im : (fun (b : Fin 16384) (d : Fin 64) => refGathered500000 items Tim (ix2 b d))
      = Cert.Spec.gathered (n := 500000) (fun r d => Tim (ix2 r d)) (fun b => items (ix1 b)) :=
    funext fun b => funext fun d => refGathered500000_eq items Tim hi b d
  have e_tx : (fun (b : Fin 16384) (d : Fin 64) => refGathered500000 items Ttx (ix2 b d))
      = Cert.Spec.gathered (n := 500000) (fun r d => Ttx (ix2 r d)) (fun b => items (ix1 b)) :=
    funext fun b => funext fun d => refGathered500000_eq items Ttx hi b d
  rw [refLossOf_eq_tail, refTail_apply, loss_eq_specTail, e_g, e_wF, e_wI, e_u, e_id, e_im, e_tx]

end AtIdeal

end Cert.ReferenceIdeal.Hand

end
-- ==== Proof.Ref.Run.lean ====
import proofs.«402369_j86406152061536_3_alg».proof.Proof.Ref.Main
import proofs.«402369_j86406152061536_3_alg».proof.Proof.Ref.StretchRows
import proofs.«402369_j86406152061536_3_alg».proof.Proof.Ref.StretchPlan
import proofs.«402369_j86406152061536_3_alg».proof.Proof.Ref.StretchCe
import proofs.«402369_j86406152061536_3_alg».proof.Proof.Ref.Loss

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

open Cert.Ref

set_option maxRecDepth 8192 in
set_option maxHeartbeats 4000000 in

theorem after_opsAll_v395 (V : Valuation τ sig (Elt F)) :
    after opsAll V (Proc.devRef .tc main_v395) =
      refLossOf (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [after_opsAll]
  simp (disch := decide) only [stTail_v395, stCe8_v392, stCe7_v383, stCe6_v374, stCe5_v365, stCe4_v356, stCe3_v347, stCe2_v339, stCe1_v330, stPlan5_v322, stPlan4_v276, stPlan3_v230, stPlan2_v184, stPlan1_v138, stProj_v84, stProj_v86, stProj_v88, stProj_v90, stProj_v92, stRows3_v82, stRows2_v67, stRows1_v52, stRows0_v37, stClampW_v2, stClampW_v12, stClampW_v22,
    stTail_keep, stCe8_keep, stCe7_keep, stCe6_keep, stCe5_keep, stCe4_keep, stCe3_keep, stCe2_keep, stCe1_keep, stPlan5_keep, stPlan4_keep, stPlan3_keep, stPlan2_keep, stPlan1_keep, stProj_keep, stRows3_keep, stRows2_keep, stRows1_keep, stRows0_keep, stClampW_keep]
  rfl

set_option maxRecDepth 8192 in

theorem after_opsAll_arg0 (V : Valuation τ sig (Elt F)) :
    after opsAll V (Proc.devRef .tc main_arg0) = V (Proc.devRef .tc main_arg0) := by
  rw [after_opsAll]
  simp (disch := decide) only [stTail_keep, stCe8_keep, stCe7_keep, stCe6_keep, stCe5_keep, stCe4_keep, stCe3_keep, stCe2_keep, stCe1_keep, stPlan5_keep, stPlan4_keep, stPlan3_keep, stPlan2_keep, stPlan1_keep, stProj_keep, stRows3_keep, stRows2_keep, stRows1_keep, stRows0_keep, stClampW_keep]

set_option maxRecDepth 8192 in

theorem after_opsAll_arg1 (V : Valuation τ sig (Elt F)) :
    after opsAll V (Proc.devRef .tc main_arg1) = V (Proc.devRef .tc main_arg1) := by
  rw [after_opsAll]
  simp (disch := decide) only [stTail_keep, stCe8_keep, stCe7_keep, stCe6_keep, stCe5_keep, stCe4_keep, stCe3_keep, stCe2_keep, stCe1_keep, stPlan5_keep, stPlan4_keep, stPlan3_keep, stPlan2_keep, stPlan1_keep, stProj_keep, stRows3_keep, stRows2_keep, stRows1_keep, stRows0_keep, stClampW_keep]

set_option maxRecDepth 8192 in

theorem after_opsAll_arg2 (V : Valuation τ sig (Elt F)) :
    after opsAll V (Proc.devRef .tc main_arg2) = V (Proc.devRef .tc main_arg2) := by
  rw [after_opsAll]
  simp (disch := decide) only [stTail_keep, stCe8_keep, stCe7_keep, stCe6_keep, stCe5_keep, stCe4_keep, stCe3_keep, stCe2_keep, stCe1_keep, stPlan5_keep, stPlan4_keep, stPlan3_keep, stPlan2_keep, stPlan1_keep, stProj_keep, stRows3_keep, stRows2_keep, stRows1_keep, stRows0_keep, stClampW_keep]

set_option maxRecDepth 8192 in

theorem after_opsAll_arg3 (V : Valuation τ sig (Elt F)) :
    after opsAll V (Proc.devRef .tc main_arg3) = V (Proc.devRef .tc main_arg3) := by
  rw [after_opsAll]
  simp (disch := decide) only [stTail_keep, stCe8_keep, stCe7_keep, stCe6_keep, stCe5_keep, stCe4_keep, stCe3_keep, stCe2_keep, stCe1_keep, stPlan5_keep, stPlan4_keep, stPlan3_keep, stPlan2_keep, stPlan1_keep, stProj_keep, stRows3_keep, stRows2_keep, stRows1_keep, stRows0_keep, stClampW_keep]

set_option maxRecDepth 8192 in

theorem after_opsAll_arg4 (V : Valuation τ sig (Elt F)) :
    after opsAll V (Proc.devRef .tc main_arg4) = V (Proc.devRef .tc main_arg4) := by
  rw [after_opsAll]
  simp (disch := decide) only [stTail_keep, stCe8_keep, stCe7_keep, stCe6_keep, stCe5_keep, stCe4_keep, stCe3_keep, stCe2_keep, stCe1_keep, stPlan5_keep, stPlan4_keep, stPlan3_keep, stPlan2_keep, stPlan1_keep, stProj_keep, stRows3_keep, stRows2_keep, stRows1_keep, stRows0_keep, stClampW_keep]

set_option maxRecDepth 8192 in

theorem after_opsAll_arg5 (V : Valuation τ sig (Elt F)) :
    after opsAll V (Proc.devRef .tc main_arg5) = V (Proc.devRef .tc main_arg5) := by
  rw [after_opsAll]
  simp (disch := decide) only [stTail_keep, stCe8_keep, stCe7_keep, stCe6_keep, stCe5_keep, stCe4_keep, stCe3_keep, stCe2_keep, stCe1_keep, stPlan5_keep, stPlan4_keep, stPlan3_keep, stPlan2_keep, stPlan1_keep, stProj_keep, stRows3_keep, stRows2_keep, stRows1_keep, stRows0_keep, stClampW_keep]

set_option maxRecDepth 8192 in

theorem after_opsAll_arg6 (V : Valuation τ sig (Elt F)) :
    after opsAll V (Proc.devRef .tc main_arg6) = V (Proc.devRef .tc main_arg6) := by
  rw [after_opsAll]
  simp (disch := decide) only [stTail_keep, stCe8_keep, stCe7_keep, stCe6_keep, stCe5_keep, stCe4_keep, stCe3_keep, stCe2_keep, stCe1_keep, stPlan5_keep, stPlan4_keep, stPlan3_keep, stPlan2_keep, stPlan1_keep, stProj_keep, stRows3_keep, stRows2_keep, stRows1_keep, stRows0_keep, stClampW_keep]

set_option maxRecDepth 8192 in

theorem after_opsAll_arg7 (V : Valuation τ sig (Elt F)) :
    after opsAll V (Proc.devRef .tc main_arg7) = V (Proc.devRef .tc main_arg7) := by
  rw [after_opsAll]
  simp (disch := decide) only [stTail_keep, stCe8_keep, stCe7_keep, stCe6_keep, stCe5_keep, stCe4_keep, stCe3_keep, stCe2_keep, stCe1_keep, stPlan5_keep, stPlan4_keep, stPlan3_keep, stPlan2_keep, stPlan1_keep, stProj_keep, stRows3_keep, stRows2_keep, stRows1_keep, stRows0_keep, stClampW_keep]

set_option maxRecDepth 8192 in

theorem after_opsAll_arg8 (V : Valuation τ sig (Elt F)) :
    after opsAll V (Proc.devRef .tc main_arg8) = V (Proc.devRef .tc main_arg8) := by
  rw [after_opsAll]
  simp (disch := decide) only [stTail_keep, stCe8_keep, stCe7_keep, stCe6_keep, stCe5_keep, stCe4_keep, stCe3_keep, stCe2_keep, stCe1_keep, stPlan5_keep, stPlan4_keep, stPlan3_keep, stPlan2_keep, stPlan1_keep, stProj_keep, stRows3_keep, stRows2_keep, stRows1_keep, stRows0_keep, stClampW_keep]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v395) =
          refLossOf (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v395).trans (after_opsAll_v395 _),
      (h c main_arg0).trans (after_opsAll_arg0 _),
      (h c main_arg1).trans (after_opsAll_arg1 _),
      (h c main_arg2).trans (after_opsAll_arg2 _),
      (h c main_arg3).trans (after_opsAll_arg3 _),
      (h c main_arg4).trans (after_opsAll_arg4 _),
      (h c main_arg5).trans (after_opsAll_arg5 _),
      (h c main_arg6).trans (after_opsAll_arg6 _),
      (h c main_arg7).trans (after_opsAll_arg7 _),
      (h c main_arg8).trans (after_opsAll_arg8 _)⟩)
    (run_after m ρ)

end Cert.ReferenceIdeal.Hand

end
-- ==== Proof.lean ====
import proofs.«402369_j86406152061536_3_alg».proof.Defs
import proofs.«402369_j86406152061536_3_alg».proof.Proof.KB.Frame
import proofs.«402369_j86406152061536_3_alg».proof.Proof.KI.Frame
import proofs.«402369_j86406152061536_3_alg».proof.Proof.Val.Chain
import proofs.«402369_j86406152061536_3_alg».proof.Proof.Ref.Run
import proofs.«402369_j86406152061536_3_alg».proof.Proof.Ref.Loss
import proofs.«402369_j86406152061536_3_alg».proof.Proof.Pre

noncomputable section

namespace Cert.Proof

open Idealize.ShloMosaic Idealize.ShloMosaic.TcCoe Idealize.SL.Sem

theorem frame_kernel : Cert.frame_Kernel := fun m ρ hpre =>
  Cert.Kernel.Hand.frame m ρ (fun c x => Cert.Pre.users_lt (hpre c) x) (fun c x => Cert.Pre.items_lt (hpre c) x)

theorem frame_kernelIdeal : Cert.frame_KernelIdeal := fun m ρ hpre =>
  Cert.KernelIdeal.Hand.frame m ρ (fun c x => Cert.Pre.users_lt (hpre c) x) (fun c x => Cert.Pre.items_lt (hpre c) x)

theorem inv_temperature : IdealRules.named_const.Statement Cert.KernelIdeal.κ "fold_c_268435456_13421773" .f32 0x41A00000#32 ((268435456 / 13421773 : ℝ) : EReal) :=
  IdealRules.named_const.statement Cert.KernelIdeal.κ "fold_c_268435456_13421773" .f32 0x41A00000#32 ((268435456 / 13421773 : ℝ) : EReal) rfl

theorem preserves : Cert.preserves_Kernel_KernelIdeal :=
  ⟨inv_temperature, inv_temperature, inv_temperature, inv_temperature, inv_temperature⟩

theorem frame_reference : Cert.frame_ReferenceIdeal := fun m ρ _ =>
  (θ_run Cert.ReferenceIdeal.defs _ _).mono (fun _ h c => (h c).2) (Cert.ReferenceIdeal.Hand.run (F := Ideal) m ρ)

/-- Both runs end at `Cert.Spec.loss` of the shared arguments: the kernel's through its region-by-region contents, the reference's stage by stage. -/
theorem algebraic : Cert.algebraic_KernelIdeal_ReferenceIdeal := by
  intro m ρ m' ρ' hpre hagree
  obtain ⟨a0, hT, hrun⟩ := Cert.KernelIdeal.Hand.run_result (F := Ideal) m ρ
    (fun c x => Cert.Pre.users_lt (hpre c) x) (fun c x => Cert.Pre.items_lt (hpre c) x)
  refine ⟨_, (θ_run Cert.KernelIdeal.defs _ _).mono
    (fun _ h c => ⟨(h c).1.trans (Cert.KernelIdeal.Val.kernel_result_mem m a0 c hT), (h c).2⟩) hrun, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2]
  funext j
  obtain rfl : j = ValueIdx.ix0 := ValueIdx.eq_ix0 j
  exact Cert.ReferenceIdeal.Hand.refLossOf_apply _ _ _ _ _ _ _ _ _
    (Cert.Pre.real6 (hpre c)) (Cert.Pre.real7 (hpre c)) (Cert.Pre.real8 (hpre c))
    (Cert.Pre.users_lt_at (hpre c)) (Cert.Pre.items_lt_at (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
